-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S409600 : Shape := ⟨1, ![409600]⟩
abbrev S1000000x64 : Shape := ⟨2, ![1000000, 64]⟩
abbrev S_ : Shape := ⟨0, ![]⟩

class Facts : Prop where
  bcast_S_S409600 : S_.BroadcastsInDim S409600 (![] : Fin 0 → Fin S409600.rank)
  reducesTo_S409600_S_d0 : S409600.ReducesTo [0] S_
  h_S_ : 0 < S_.numel
  bcast_S_S1000000x64 : S_.BroadcastsInDim S1000000x64 (![] : Fin 0 → Fin S1000000x64.rank)
  reducesTo_S1000000x64_S_d0_1 : S1000000x64.ReducesTo [0, 1] S_

variable [Facts]

def fn {F : FTy → Type} [FloatOps F] (main_arg0 : IVec S409600 32) (main_arg1 : FVec F S409600 .f32) (main_arg2 : IVec S409600 32) (main_arg3 : FVec F S1000000x64 .f32) : IVec S_ 1 :=
  let main_v0 : FVec F S409600 .f32 := Host.absf main_arg1
  let main_cst : FVec F S_ .f32 := constant S_ .f32 0x7F800000#32
  let main_v1 : FVec F S409600 .f32 := broadcastInDim S409600 ![] bcast_S_S409600 main_cst
  let main_v2 : IVec S409600 1 := cmpf .olt main_v0 main_v1
  let main_c : IVec S_ 1 := constantI S_ 1 1#1
  let main_v3 : IVec S_ 1 := (fun x v => Host.reduce IntOp.andi x v reducesTo_S409600_S_d0 h_S_) main_v2 main_c
  let main_v4 : FVec F S1000000x64 .f32 := Host.absf main_arg3
  let main_cst_0 : FVec F S_ .f32 := constant S_ .f32 0x7F800000#32
  let main_v5 : FVec F S1000000x64 .f32 := broadcastInDim S1000000x64 ![] bcast_S_S1000000x64 main_cst_0
  let main_v6 : IVec S1000000x64 1 := cmpf .olt main_v4 main_v5
  let main_c_1 : IVec S_ 1 := constantI S_ 1 1#1
  let main_v7 : IVec S_ 1 := (fun x v => Host.reduce IntOp.andi x v reducesTo_S1000000x64_S_d0_1 h_S_) main_v6 main_c_1
  let main_v8 : IVec S_ 1 := andi main_v3 main_v7
  let main_c_2 : IVec S_ 32 := constantI S_ 32 0#32
  let main_v9 : IVec S409600 32 := broadcastInDim S409600 ![] bcast_S_S409600 main_c_2
  let main_v10 : IVec S409600 1 := cmpi .sge main_arg0 main_v9
  let main_c_3 : IVec S_ 1 := constantI S_ 1 1#1
  let main_v11 : IVec S_ 1 := (fun x v => Host.reduce IntOp.andi x v reducesTo_S409600_S_d0 h_S_) main_v10 main_c_3
  let main_v12 : IVec S_ 1 := andi main_v8 main_v11
  main_v12
-- ==== Kernel.lean ====
abbrev S409600 : Shape := ⟨1, ![409600]⟩
abbrev S1000000x64 : Shape := ⟨2, ![1000000, 64]⟩
abbrev S_ : Shape := ⟨0, ![]⟩
abbrev S2x1x204800 : Shape := ⟨3, ![2, 1, 204800]⟩
abbrev S1000000x1x64 : Shape := ⟨3, ![1000000, 1, 64]⟩
abbrev S2x4096x64 : Shape := ⟨3, ![2, 4096, 64]⟩
abbrev S1x1x256 : Shape := ⟨3, ![1, 1, 256]⟩
abbrev S1x4096x64 : Shape := ⟨3, ![1, 4096, 64]⟩
abbrev S256x1x64 : Shape := ⟨3, ![256, 1, 64]⟩
abbrev S256 : Shape := ⟨1, ![256]⟩
abbrev S1x1x1 : Shape := ⟨3, ![1, 1, 1]⟩
abbrev S1 : Shape := ⟨1, ![1]⟩
abbrev S1x1x64 : Shape := ⟨3, ![1, 1, 64]⟩
abbrev S1x64 : Shape := ⟨2, ![1, 64]⟩
abbrev S256x64 : Shape := ⟨2, ![256, 64]⟩
abbrev S1x256 : Shape := ⟨2, ![1, 256]⟩
abbrev S4096x256 : Shape := ⟨2, ![4096, 256]⟩
abbrev S4096x64 : Shape := ⟨2, ![4096, 64]⟩

abbrev nBuf : Space → Nat
  | .hbm => 20
  | .vmem => 7
  | .smem => 2
  | _ => 0

abbrev bufTy : (tb : Table) → Fin (tcTables nBuf tb) → BufTy
  | .hbm, ⟨0, _⟩ => ⟨S409600, .i32⟩
  | .hbm, ⟨1, _⟩ => ⟨S409600, .f32⟩
  | .hbm, ⟨2, _⟩ => ⟨S409600, .i32⟩
  | .hbm, ⟨3, _⟩ => ⟨S1000000x64, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S409600, .i32⟩
  | .hbm, ⟨8, _⟩ => ⟨S409600, .i32⟩
  | .hbm, ⟨9, _⟩ => ⟨S_, .i32⟩
  | .hbm, ⟨10, _⟩ => ⟨S409600, .i32⟩
  | .hbm, ⟨11, _⟩ => ⟨S409600, .i32⟩
  | .hbm, ⟨12, _⟩ => ⟨S2x1x204800, .i32⟩
  | .hbm, ⟨13, _⟩ => ⟨S2x1x204800, .f32⟩
  | .hbm, ⟨14, _⟩ => ⟨S2x1x204800, .i32⟩
  | .hbm, ⟨15, _⟩ => ⟨S1000000x64, .bf16⟩
  | .hbm, ⟨16, _⟩ => ⟨S1000000x1x64, .bf16⟩
  | .hbm, ⟨17, _⟩ => ⟨S2x4096x64, .f32⟩
  | .hbm, ⟨18, _⟩ => ⟨S_, .f32⟩
  | .hbm, ⟨19, _⟩ => ⟨S4096x64, .f32⟩
  | .local _ .vmem, ⟨0, _⟩ => ⟨S1x1x256, .f32⟩
  | .local _ .vmem, ⟨1, _⟩ => ⟨S1x1x256, .f32⟩
  | .local _ .vmem, ⟨2, _⟩ => ⟨S1x1x256, .i32⟩
  | .local _ .vmem, ⟨3, _⟩ => ⟨S1x1x256, .i32⟩
  | .local _ .vmem, ⟨4, _⟩ => ⟨S1x4096x64, .f32⟩
  | .local _ .vmem, ⟨5, _⟩ => ⟨S1x4096x64, .f32⟩
  | .local _ .vmem, ⟨6, _⟩ => ⟨S256x1x64, .bf16⟩
  | .local _ .smem, ⟨0, _⟩ => ⟨S1x1x256, .i32⟩
  | .local _ .smem, ⟨1, _⟩ => ⟨S1x1x256, .i32⟩
  | _, _ => ⟨S409600, .i32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | 4 => true
  | 5 => true
  | 6 => true
  | 7 => true
  | _ => false

abbrev dmaSemScopedAt (i : Nat) : Bool := match i / 128 with
  | 0 => dmaSemScopedAt0_0 i
  | 1 => dmaSemScopedAt0_1 i
  | 2 => dmaSemScopedAt0_2 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 264 → Bool
  | ⟨i, _⟩ => dmaSemScopedAt i

abbrev sig : RefSig :=
  ofTc nBuf bufTy 0 264 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 800], ![false, false]⟩

@[reducible] def k0_t1_loop : Scf.Loop 32 :=
  let c0_i32_1 : BitVec 32 := 0#32
  let c4_i32 : BitVec 32 := 4#32
  let v3 : BitVec 32 := Scalar.addi c0_i32_1 c4_i32
  let c1_i32 : BitVec 32 := 1#32
  ⟨c0_i32_1, v3, c1_i32⟩
def k0_off1 (k0_t1 : Fin k0_t1_loop.trips) : Fin 3 → Nat :=
  let c0_23 : Index := 0#32
  let c0_24 : Index := 0#32
  let c0_i32_1 : BitVec 32 := 0#32
  let c1_i32 : BitVec 32 := 1#32
  let arg9 : BitVec 32 := Scf.iv c0_i32_1 c1_i32 k0_t1
  let c64_i32 : BitVec 32 := 64#32
  let v27 : BitVec 32 := Scalar.muli arg9 c64_i32
  let c0_i32_22 : BitVec 32 := 0#32
  let v28 : BitVec 32 := Scalar.addi v27 c0_i32_22
  let v29 : Index := Scalar.indexCast v28
  ![0, 0, v29.toNat]
def k0_off2 (k0_t1 : Fin k0_t1_loop.trips) : Fin 1 → Nat :=
  let c0_i32_1 : BitVec 32 := 0#32
  let c1_i32 : BitVec 32 := 1#32
  let arg9 : BitVec 32 := Scf.iv c0_i32_1 c1_i32 k0_t1
  let c64_i32 : BitVec 32 := 64#32
  let v27 : BitVec 32 := Scalar.muli arg9 c64_i32
  let c0_i32_22 : BitVec 32 := 0#32
  let v28 : BitVec 32 := Scalar.addi v27 c0_i32_22
  ![v28.toNat]
def k0_off3 (k0_t1 : Fin k0_t1_loop.trips) : Fin 3 → Nat :=
  let c0_i32_1 : BitVec 32 := 0#32
  let c1_i32 : BitVec 32 := 1#32
  let arg9 : BitVec 32 := Scf.iv c0_i32_1 c1_i32 k0_t1
  let c64_i32 : BitVec 32 := 64#32
  let v27 : BitVec 32 := Scalar.muli arg9 c64_i32
  let c0_i32_22 : BitVec 32 := 0#32
  let v28 : BitVec 32 := Scalar.addi v27 c0_i32_22
  let c0_i32_25 : BitVec 32 := 0#32
  let c0_i32_26 : BitVec 32 := 0#32
  ![v28.toNat, 0, 0]
def k0_off4 (v30 : BitVec 32) : Fin 3 → Nat :=
  let c0_i32_27 : BitVec 32 := 0#32
  let c0_i32_28 : BitVec 32 := 0#32
  ![v30.toNat, 0, 0]

def k0_chk1 (v30 : BitVec 32) : Prop :=
  (∀ a, (k0_off4 v30) a + S1x1x64.size a ≤ S1000000x1x64.size a) ∧
  (∀ (hinb : ∀ a, (k0_off4 v30) a + S1x1x64.size a ≤ S1000000x1x64.size a), (Rect.unit (s := S1000000x1x64) (k0_off4 v30) S1x1x64.size hinb).WholeWords (EltTy.packing .bf16))
instance k0_chk1.dec : ∀ (v30 : BitVec 32), Decidable (k0_chk1 v30) := fun v30 => decidable_of_iff' _ (Iff.of_eq (k0_chk1.eq_1 v30))
theorem k0_off4_inb : ∀ (v30 : BitVec 32) (k0_hw1 : k0_chk1 v30), ∀ a, (k0_off4 v30) a + S1x1x64.size a ≤ S1000000x1x64.size a := fun v30 k0_hw1 => k0_hw1.1
theorem k0_off4_wordsbf16 : ∀ (v30 : BitVec 32) (k0_hw1 : k0_chk1 v30), (Rect.unit (s := S1000000x1x64) (k0_off4 v30) S1x1x64.size (k0_off4_inb v30 k0_hw1)).WholeWords (EltTy.packing .bf16) := fun v30 k0_hw1 => k0_hw1.2 (k0_off4_inb v30 k0_hw1)

def k0_off5 (k0_t1 : Fin k0_t1_loop.trips) : Fin 3 → Nat :=
  let c0_31 : Index := 0#32
  let c0_32 : Index := 0#32
  let c0_i32_1 : BitVec 32 := 0#32
  let c1_i32 : BitVec 32 := 1#32
  let arg9 : BitVec 32 := Scf.iv c0_i32_1 c1_i32 k0_t1
  let c64_i32_30 : BitVec 32 := 64#32
  let v37 : BitVec 32 := Scalar.muli arg9 c64_i32_30
  let c1_i32_29 : BitVec 32 := 1#32
  let v38 : BitVec 32 := Scalar.addi v37 c1_i32_29
  let v39 : Index := Scalar.indexCast v38
  ![0, 0, v39.toNat]
def k0_off6 (k0_t1 : Fin k0_t1_loop.trips) : Fin 1 → Nat :=
  let c0_i32_1 : BitVec 32 := 0#32
  let c1_i32 : BitVec 32 := 1#32
  let arg9 : BitVec 32 := Scf.iv c0_i32_1 c1_i32 k0_t1
  let c64_i32_30 : BitVec 32 := 64#32
  let v37 : BitVec 32 := Scalar.muli arg9 c64_i32_30
  let c1_i32_29 : BitVec 32 := 1#32
  let v38 : BitVec 32 := Scalar.addi v37 c1_i32_29
  ![v38.toNat]
def k0_off7 (k0_t1 : Fin k0_t1_loop.trips) : Fin 3 → Nat :=
  let c0_i32_1 : BitVec 32 := 0#32
  let c1_i32 : BitVec 32 := 1#32
  let arg9 : BitVec 32 := Scf.iv c0_i32_1 c1_i32 k0_t1
  let c64_i32_30 : BitVec 32 := 64#32
  let v37 : BitVec 32 := Scalar.muli arg9 c64_i32_30
  let c1_i32_29 : BitVec 32 := 1#32
  let v38 : BitVec 32 := Scalar.addi v37 c1_i32_29
  let c0_i32_33 : BitVec 32 := 0#32
  let c0_i32_34 : BitVec 32 := 0#32
  ![v38.toNat, 0, 0]
def k0_off8 (v40 : BitVec 32) : Fin 3 → Nat :=
  let c0_i32_35 : BitVec 32 := 0#32
  let c0_i32_36 : BitVec 32 := 0#32
  ![v40.toNat, 0, 0]

def k0_chk2 (v40 : BitVec 32) : Prop :=
  (∀ a, (k0_off8 v40) a + S1x1x64.size a ≤ S1000000x1x64.size a) ∧
  (∀ (hinb : ∀ a, (k0_off8 v40) a + S1x1x64.size a ≤ S1000000x1x64.size a), (Rect.unit (s := S1000000x1x64) (k0_off8 v40) S1x1x64.size hinb).WholeWords (EltTy.packing .bf16))
instance k0_chk2.dec : ∀ (v40 : BitVec 32), Decidable (k0_chk2 v40) := fun v40 => decidable_of_iff' _ (Iff.of_eq (k0_chk2.eq_1 v40))
theorem k0_off8_inb : ∀ (v40 : BitVec 32) (k0_hw2 : k0_chk2 v40), ∀ a, (k0_off8 v40) a + S1x1x64.size a ≤ S1000000x1x64.size a := fun v40 k0_hw2 => k0_hw2.1
theorem k0_off8_wordsbf16 : ∀ (v40 : BitVec 32) (k0_hw2 : k0_chk2 v40), (Rect.unit (s := S1000000x1x64) (k0_off8 v40) S1x1x64.size (k0_off8_inb v40 k0_hw2)).WholeWords (EltTy.packing .bf16) := fun v40 k0_hw2 => k0_hw2.2 (k0_off8_inb v40 k0_hw2)

def k0_off9 (k0_t1 : Fin k0_t1_loop.trips) : Fin 3 → Nat :=
  let c0_38 : Index := 0#32
  let c0_39 : Index := 0#32
  let c0_i32_1 : BitVec 32 := 0#32
  let c1_i32 : BitVec 32 := 1#32
  let arg9 : BitVec 32 := Scf.iv c0_i32_1 c1_i32 k0_t1
  let c64_i32_37 : BitVec 32 := 64#32
  let v47 : BitVec 32 := Scalar.muli arg9 c64_i32_37
  let c2_i32 : BitVec 32 := 2#32
  let v48 : BitVec 32 := Scalar.addi v47 c2_i32
  let v49 : Index := Scalar.indexCast v48
  ![0, 0, v49.toNat]
def k0_off10 (k0_t1 : Fin k0_t1_loop.trips) : Fin 1 → Nat :=
  let c0_i32_1 : BitVec 32 := 0#32
  let c1_i32 : BitVec 32 := 1#32
  let arg9 : BitVec 32 := Scf.iv c0_i32_1 c1_i32 k0_t1
  let c64_i32_37 : BitVec 32 := 64#32
  let v47 : BitVec 32 := Scalar.muli arg9 c64_i32_37
  let c2_i32 : BitVec 32 := 2#32
  let v48 : BitVec 32 := Scalar.addi v47 c2_i32
  ![v48.toNat]
def k0_off11 (k0_t1 : Fin k0_t1_loop.trips) : Fin 3 → Nat :=
  let c0_i32_1 : BitVec 32 := 0#32
  let c1_i32 : BitVec 32 := 1#32
  let arg9 : BitVec 32 := Scf.iv c0_i32_1 c1_i32 k0_t1
  let c64_i32_37 : BitVec 32 := 64#32
  let v47 : BitVec 32 := Scalar.muli arg9 c64_i32_37
  let c2_i32 : BitVec 32 := 2#32
  let v48 : BitVec 32 := Scalar.addi v47 c2_i32
  let c0_i32_40 : BitVec 32 := 0#32
  let c0_i32_41 : BitVec 32 := 0#32
  ![v48.toNat, 0, 0]
def k0_off12 (v50 : BitVec 32) : Fin 3 → Nat :=
  let c0_i32_42 : BitVec 32 := 0#32
  let c0_i32_43 : BitVec 32 := 0#32
  ![v50.toNat, 0, 0]

def k0_chk3 (v50 : BitVec 32) : Prop :=
  (∀ a, (k0_off12 v50) a + S1x1x64.size a ≤ S1000000x1x64.size a) ∧
  (∀ (hinb : ∀ a, (k0_off12 v50) a + S1x1x64.size a ≤ S1000000x1x64.size a), (Rect.unit (s := S1000000x1x64) (k0_off12 v50) S1x1x64.size hinb).WholeWords (EltTy.packing .bf16))
instance k0_chk3.dec : ∀ (v50 : BitVec 32), Decidable (k0_chk3 v50) := fun v50 => decidable_of_iff' _ (Iff.of_eq (k0_chk3.eq_1 v50))
theorem k0_off12_inb : ∀ (v50 : BitVec 32) (k0_hw3 : k0_chk3 v50), ∀ a, (k0_off12 v50) a + S1x1x64.size a ≤ S1000000x1x64.size a := fun v50 k0_hw3 => k0_hw3.1
theorem k0_off12_wordsbf16 : ∀ (v50 : BitVec 32) (k0_hw3 : k0_chk3 v50), (Rect.unit (s := S1000000x1x64) (k0_off12 v50) S1x1x64.size (k0_off12_inb v50 k0_hw3)).WholeWords (EltTy.packing .bf16) := fun v50 k0_hw3 => k0_hw3.2 (k0_off12_inb v50 k0_hw3)

def k0_off13 (k0_t1 : Fin k0_t1_loop.trips) : Fin 3 → Nat :=
  let c0_45 : Index := 0#32
  let c0_46 : Index := 0#32
  let c0_i32_1 : BitVec 32 := 0#32
  let c1_i32 : BitVec 32 := 1#32
  let arg9 : BitVec 32 := Scf.iv c0_i32_1 c1_i32 k0_t1
  let c64_i32_44 : BitVec 32 := 64#32
  let v57 : BitVec 32 := Scalar.muli arg9 c64_i32_44
  let c3_i32 : BitVec 32 := 3#32
  let v58 : BitVec 32 := Scalar.addi v57 c3_i32
  let v59 : Index := Scalar.indexCast v58
  ![0, 0, v59.toNat]
def k0_off14 (k0_t1 : Fin k0_t1_loop.trips) : Fin 1 → Nat :=
  let c0_i32_1 : BitVec 32 := 0#32
  let c1_i32 : BitVec 32 := 1#32
  let arg9 : BitVec 32 := Scf.iv c0_i32_1 c1_i32 k0_t1
  let c64_i32_44 : BitVec 32 := 64#32
  let v57 : BitVec 32 := Scalar.muli arg9 c64_i32_44
  let c3_i32 : BitVec 32 := 3#32
  let v58 : BitVec 32 := Scalar.addi v57 c3_i32
  ![v58.toNat]
def k0_off15 (k0_t1 : Fin k0_t1_loop.trips) : Fin 3 → Nat :=
  let c0_i32_1 : BitVec 32 := 0#32
  let c1_i32 : BitVec 32 := 1#32
  let arg9 : BitVec 32 := Scf.iv c0_i32_1 c1_i32 k0_t1
  let c64_i32_44 : BitVec 32 := 64#32
  let v57 : BitVec 32 := Scalar.muli arg9 c64_i32_44
  let c3_i32 : BitVec 32 := 3#32
  let v58 : BitVec 32 := Scalar.addi v57 c3_i32
  let c0_i32_47 : BitVec 32 := 0#32
  let c0_i32_48 : BitVec 32 := 0#32
  ![v58.toNat, 0, 0]
def k0_off16 (v60 : BitVec 32) : Fin 3 → Nat :=
  let c0_i32_49 : BitVec 32 := 0#32
  let c0_i32_50 : BitVec 32 := 0#32
  ![v60.toNat, 0, 0]

def k0_chk4 (v60 : BitVec 32) : Prop :=
  (∀ a, (k0_off16 v60) a + S1x1x64.size a ≤ S1000000x1x64.size a) ∧
  (∀ (hinb : ∀ a, (k0_off16 v60) a + S1x1x64.size a ≤ S1000000x1x64.size a), (Rect.unit (s := S1000000x1x64) (k0_off16 v60) S1x1x64.size hinb).WholeWords (EltTy.packing .bf16))
instance k0_chk4.dec : ∀ (v60 : BitVec 32), Decidable (k0_chk4 v60) := fun v60 => decidable_of_iff' _ (Iff.of_eq (k0_chk4.eq_1 v60))
theorem k0_off16_inb : ∀ (v60 : BitVec 32) (k0_hw4 : k0_chk4 v60), ∀ a, (k0_off16 v60) a + S1x1x64.size a ≤ S1000000x1x64.size a := fun v60 k0_hw4 => k0_hw4.1
theorem k0_off16_wordsbf16 : ∀ (v60 : BitVec 32) (k0_hw4 : k0_chk4 v60), (Rect.unit (s := S1000000x1x64) (k0_off16 v60) S1x1x64.size (k0_off16_inb v60 k0_hw4)).WholeWords (EltTy.packing .bf16) := fun v60 k0_hw4 => k0_hw4.2 (k0_off16_inb v60 k0_hw4)

def k0_off17 (k0_t1 : Fin k0_t1_loop.trips) : Fin 3 → Nat :=
  let c0_53 : Index := 0#32
  let c0_54 : Index := 0#32
  let c0_i32_1 : BitVec 32 := 0#32
  let c1_i32 : BitVec 32 := 1#32
  let arg9 : BitVec 32 := Scf.iv c0_i32_1 c1_i32 k0_t1
  let c64_i32_52 : BitVec 32 := 64#32
  let v67 : BitVec 32 := Scalar.muli arg9 c64_i32_52
  let c4_i32_51 : BitVec 32 := 4#32
  let v68 : BitVec 32 := Scalar.addi v67 c4_i32_51
  let v69 : Index := Scalar.indexCast v68
  ![0, 0, v69.toNat]
def k0_off18 (k0_t1 : Fin k0_t1_loop.trips) : Fin 1 → Nat :=
  let c0_i32_1 : BitVec 32 := 0#32
  let c1_i32 : BitVec 32 := 1#32
  let arg9 : BitVec 32 := Scf.iv c0_i32_1 c1_i32 k0_t1
  let c64_i32_52 : BitVec 32 := 64#32
  let v67 : BitVec 32 := Scalar.muli arg9 c64_i32_52
  let c4_i32_51 : BitVec 32 := 4#32
  let v68 : BitVec 32 := Scalar.addi v67 c4_i32_51
  ![v68.toNat]
def k0_off19 (k0_t1 : Fin k0_t1_loop.trips) : Fin 3 → Nat :=
  let c0_i32_1 : BitVec 32 := 0#32
  let c1_i32 : BitVec 32 := 1#32
  let arg9 : BitVec 32 := Scf.iv c0_i32_1 c1_i32 k0_t1
  let c64_i32_52 : BitVec 32 := 64#32
  let v67 : BitVec 32 := Scalar.muli arg9 c64_i32_52
  let c4_i32_51 : BitVec 32 := 4#32
  let v68 : BitVec 32 := Scalar.addi v67 c4_i32_51
  let c0_i32_55 : BitVec 32 := 0#32
  let c0_i32_56 : BitVec 32 := 0#32
  ![v68.toNat, 0, 0]
def k0_off20 (v70 : BitVec 32) : Fin 3 → Nat :=
  let c0_i32_57 : BitVec 32 := 0#32
  let c0_i32_58 : BitVec 32 := 0#32
  ![v70.toNat, 0, 0]

def k0_chk5 (v70 : BitVec 32) : Prop :=
  (∀ a, (k0_off20 v70) a + S1x1x64.size a ≤ S1000000x1x64.size a) ∧
  (∀ (hinb : ∀ a, (k0_off20 v70) a + S1x1x64.size a ≤ S1000000x1x64.size a), (Rect.unit (s := S1000000x1x64) (k0_off20 v70) S1x1x64.size hinb).WholeWords (EltTy.packing .bf16))
instance k0_chk5.dec : ∀ (v70 : BitVec 32), Decidable (k0_chk5 v70) := fun v70 => decidable_of_iff' _ (Iff.of_eq (k0_chk5.eq_1 v70))
theorem k0_off20_inb : ∀ (v70 : BitVec 32) (k0_hw5 : k0_chk5 v70), ∀ a, (k0_off20 v70) a + S1x1x64.size a ≤ S1000000x1x64.size a := fun v70 k0_hw5 => k0_hw5.1
theorem k0_off20_wordsbf16 : ∀ (v70 : BitVec 32) (k0_hw5 : k0_chk5 v70), (Rect.unit (s := S1000000x1x64) (k0_off20 v70) S1x1x64.size (k0_off20_inb v70 k0_hw5)).WholeWords (EltTy.packing .bf16) := fun v70 k0_hw5 => k0_hw5.2 (k0_off20_inb v70 k0_hw5)

def k0_off21 (k0_t1 : Fin k0_t1_loop.trips) : Fin 3 → Nat :=
  let c0_60 : Index := 0#32
  let c0_61 : Index := 0#32
  let c0_i32_1 : BitVec 32 := 0#32
  let c1_i32 : BitVec 32 := 1#32
  let arg9 : BitVec 32 := Scf.iv c0_i32_1 c1_i32 k0_t1
  let c64_i32_59 : BitVec 32 := 64#32
  let v77 : BitVec 32 := Scalar.muli arg9 c64_i32_59
  let c5_i32 : BitVec 32 := 5#32
  let v78 : BitVec 32 := Scalar.addi v77 c5_i32
  let v79 : Index := Scalar.indexCast v78
  ![0, 0, v79.toNat]
def k0_off22 (k0_t1 : Fin k0_t1_loop.trips) : Fin 1 → Nat :=
  let c0_i32_1 : BitVec 32 := 0#32
  let c1_i32 : BitVec 32 := 1#32
  let arg9 : BitVec 32 := Scf.iv c0_i32_1 c1_i32 k0_t1
  let c64_i32_59 : BitVec 32 := 64#32
  let v77 : BitVec 32 := Scalar.muli arg9 c64_i32_59
  let c5_i32 : BitVec 32 := 5#32
  let v78 : BitVec 32 := Scalar.addi v77 c5_i32
  ![v78.toNat]
def k0_off23 (k0_t1 : Fin k0_t1_loop.trips) : Fin 3 → Nat :=
  let c0_i32_1 : BitVec 32 := 0#32
  let c1_i32 : BitVec 32 := 1#32
  let arg9 : BitVec 32 := Scf.iv c0_i32_1 c1_i32 k0_t1
  let c64_i32_59 : BitVec 32 := 64#32
  let v77 : BitVec 32 := Scalar.muli arg9 c64_i32_59
  let c5_i32 : BitVec 32 := 5#32
  let v78 : BitVec 32 := Scalar.addi v77 c5_i32
  let c0_i32_62 : BitVec 32 := 0#32
  let c0_i32_63 : BitVec 32 := 0#32
  ![v78.toNat, 0, 0]
def k0_off24 (v80 : BitVec 32) : Fin 3 → Nat :=
  let c0_i32_64 : BitVec 32 := 0#32
  let c0_i32_65 : BitVec 32 := 0#32
  ![v80.toNat, 0, 0]

def k0_chk6 (v80 : BitVec 32) : Prop :=
  (∀ a, (k0_off24 v80) a + S1x1x64.size a ≤ S1000000x1x64.size a) ∧
  (∀ (hinb : ∀ a, (k0_off24 v80) a + S1x1x64.size a ≤ S1000000x1x64.size a), (Rect.unit (s := S1000000x1x64) (k0_off24 v80) S1x1x64.size hinb).WholeWords (EltTy.packing .bf16))
instance k0_chk6.dec : ∀ (v80 : BitVec 32), Decidable (k0_chk6 v80) := fun v80 => decidable_of_iff' _ (Iff.of_eq (k0_chk6.eq_1 v80))
theorem k0_off24_inb : ∀ (v80 : BitVec 32) (k0_hw6 : k0_chk6 v80), ∀ a, (k0_off24 v80) a + S1x1x64.size a ≤ S1000000x1x64.size a := fun v80 k0_hw6 => k0_hw6.1
theorem k0_off24_wordsbf16 : ∀ (v80 : BitVec 32) (k0_hw6 : k0_chk6 v80), (Rect.unit (s := S1000000x1x64) (k0_off24 v80) S1x1x64.size (k0_off24_inb v80 k0_hw6)).WholeWords (EltTy.packing .bf16) := fun v80 k0_hw6 => k0_hw6.2 (k0_off24_inb v80 k0_hw6)

def k0_off25 (k0_t1 : Fin k0_t1_loop.trips) : Fin 3 → Nat :=
  let c0_67 : Index := 0#32
  let c0_68 : Index := 0#32
  let c0_i32_1 : BitVec 32 := 0#32
  let c1_i32 : BitVec 32 := 1#32
  let arg9 : BitVec 32 := Scf.iv c0_i32_1 c1_i32 k0_t1
  let c64_i32_66 : BitVec 32 := 64#32
  let v87 : BitVec 32 := Scalar.muli arg9 c64_i32_66
  let c6_i32 : BitVec 32 := 6#32
  let v88 : BitVec 32 := Scalar.addi v87 c6_i32
  let v89 : Index := Scalar.indexCast v88
  ![0, 0, v89.toNat]
def k0_off26 (k0_t1 : Fin k0_t1_loop.trips) : Fin 1 → Nat :=
  let c0_i32_1 : BitVec 32 := 0#32
  let c1_i32 : BitVec 32 := 1#32
  let arg9 : BitVec 32 := Scf.iv c0_i32_1 c1_i32 k0_t1
  let c64_i32_66 : BitVec 32 := 64#32
  let v87 : BitVec 32 := Scalar.muli arg9 c64_i32_66
  let c6_i32 : BitVec 32 := 6#32
  let v88 : BitVec 32 := Scalar.addi v87 c6_i32
  ![v88.toNat]
def k0_off27 (k0_t1 : Fin k0_t1_loop.trips) : Fin 3 → Nat :=
  let c0_i32_1 : BitVec 32 := 0#32
  let c1_i32 : BitVec 32 := 1#32
  let arg9 : BitVec 32 := Scf.iv c0_i32_1 c1_i32 k0_t1
  let c64_i32_66 : BitVec 32 := 64#32
  let v87 : BitVec 32 := Scalar.muli arg9 c64_i32_66
  let c6_i32 : BitVec 32 := 6#32
  let v88 : BitVec 32 := Scalar.addi v87 c6_i32
  let c0_i32_69 : BitVec 32 := 0#32
  let c0_i32_70 : BitVec 32 := 0#32
  ![v88.toNat, 0, 0]
def k0_off28 (v90 : BitVec 32) : Fin 3 → Nat :=
  let c0_i32_71 : BitVec 32 := 0#32
  let c0_i32_72 : BitVec 32 := 0#32
  ![v90.toNat, 0, 0]

def k0_chk7 (v90 : BitVec 32) : Prop :=
  (∀ a, (k0_off28 v90) a + S1x1x64.size a ≤ S1000000x1x64.size a) ∧
  (∀ (hinb : ∀ a, (k0_off28 v90) a + S1x1x64.size a ≤ S1000000x1x64.size a), (Rect.unit (s := S1000000x1x64) (k0_off28 v90) S1x1x64.size hinb).WholeWords (EltTy.packing .bf16))
instance k0_chk7.dec : ∀ (v90 : BitVec 32), Decidable (k0_chk7 v90) := fun v90 => decidable_of_iff' _ (Iff.of_eq (k0_chk7.eq_1 v90))
theorem k0_off28_inb : ∀ (v90 : BitVec 32) (k0_hw7 : k0_chk7 v90), ∀ a, (k0_off28 v90) a + S1x1x64.size a ≤ S1000000x1x64.size a := fun v90 k0_hw7 => k0_hw7.1
theorem k0_off28_wordsbf16 : ∀ (v90 : BitVec 32) (k0_hw7 : k0_chk7 v90), (Rect.unit (s := S1000000x1x64) (k0_off28 v90) S1x1x64.size (k0_off28_inb v90 k0_hw7)).WholeWords (EltTy.packing .bf16) := fun v90 k0_hw7 => k0_hw7.2 (k0_off28_inb v90 k0_hw7)

def k0_off29 (k0_t1 : Fin k0_t1_loop.trips) : Fin 3 → Nat :=
  let c0_74 : Index := 0#32
  let c0_75 : Index := 0#32
  let c0_i32_1 : BitVec 32 := 0#32
  let c1_i32 : BitVec 32 := 1#32
  let arg9 : BitVec 32 := Scf.iv c0_i32_1 c1_i32 k0_t1
  let c64_i32_73 : BitVec 32 := 64#32
  let v97 : BitVec 32 := Scalar.muli arg9 c64_i32_73
  let c7_i32 : BitVec 32 := 7#32
  let v98 : BitVec 32 := Scalar.addi v97 c7_i32
  let v99 : Index := Scalar.indexCast v98
  ![0, 0, v99.toNat]
def k0_off30 (k0_t1 : Fin k0_t1_loop.trips) : Fin 1 → Nat :=
  let c0_i32_1 : BitVec 32 := 0#32
  let c1_i32 : BitVec 32 := 1#32
  let arg9 : BitVec 32 := Scf.iv c0_i32_1 c1_i32 k0_t1
  let c64_i32_73 : BitVec 32 := 64#32
  let v97 : BitVec 32 := Scalar.muli arg9 c64_i32_73
  let c7_i32 : BitVec 32 := 7#32
  let v98 : BitVec 32 := Scalar.addi v97 c7_i32
  ![v98.toNat]
def k0_off31 (k0_t1 : Fin k0_t1_loop.trips) : Fin 3 → Nat :=
  let c0_i32_1 : BitVec 32 := 0#32
  let c1_i32 : BitVec 32 := 1#32
  let arg9 : BitVec 32 := Scf.iv c0_i32_1 c1_i32 k0_t1
  let c64_i32_73 : BitVec 32 := 64#32
  let v97 : BitVec 32 := Scalar.muli arg9 c64_i32_73
  let c7_i32 : BitVec 32 := 7#32
  let v98 : BitVec 32 := Scalar.addi v97 c7_i32
  let c0_i32_76 : BitVec 32 := 0#32
  let c0_i32_77 : BitVec 32 := 0#32
  ![v98.toNat, 0, 0]
def k0_off32 (v100 : BitVec 32) : Fin 3 → Nat :=
  let c0_i32_78 : BitVec 32 := 0#32
  let c0_i32_79 : BitVec 32 := 0#32
  ![v100.toNat, 0, 0]

def k0_chk8 (v100 : BitVec 32) : Prop :=
  (∀ a, (k0_off32 v100) a + S1x1x64.size a ≤ S1000000x1x64.size a) ∧
  (∀ (hinb : ∀ a, (k0_off32 v100) a + S1x1x64.size a ≤ S1000000x1x64.size a), (Rect.unit (s := S1000000x1x64) (k0_off32 v100) S1x1x64.size hinb).WholeWords (EltTy.packing .bf16))
instance k0_chk8.dec : ∀ (v100 : BitVec 32), Decidable (k0_chk8 v100) := fun v100 => decidable_of_iff' _ (Iff.of_eq (k0_chk8.eq_1 v100))
theorem k0_off32_inb : ∀ (v100 : BitVec 32) (k0_hw8 : k0_chk8 v100), ∀ a, (k0_off32 v100) a + S1x1x64.size a ≤ S1000000x1x64.size a := fun v100 k0_hw8 => k0_hw8.1
theorem k0_off32_wordsbf16 : ∀ (v100 : BitVec 32) (k0_hw8 : k0_chk8 v100), (Rect.unit (s := S1000000x1x64) (k0_off32 v100) S1x1x64.size (k0_off32_inb v100 k0_hw8)).WholeWords (EltTy.packing .bf16) := fun v100 k0_hw8 => k0_hw8.2 (k0_off32_inb v100 k0_hw8)

def k0_off33 (k0_t1 : Fin k0_t1_loop.trips) : Fin 3 → Nat :=
  let c0_81 : Index := 0#32
  let c0_82 : Index := 0#32
  let c0_i32_1 : BitVec 32 := 0#32
  let c1_i32 : BitVec 32 := 1#32
  let arg9 : BitVec 32 := Scf.iv c0_i32_1 c1_i32 k0_t1
  let c64_i32_80 : BitVec 32 := 64#32
  let v107 : BitVec 32 := Scalar.muli arg9 c64_i32_80
  let c8_i32 : BitVec 32 := 8#32
  let v108 : BitVec 32 := Scalar.addi v107 c8_i32
  let v109 : Index := Scalar.indexCast v108
  ![0, 0, v109.toNat]
def k0_off34 (k0_t1 : Fin k0_t1_loop.trips) : Fin 1 → Nat :=
  let c0_i32_1 : BitVec 32 := 0#32
  let c1_i32 : BitVec 32 := 1#32
  let arg9 : BitVec 32 := Scf.iv c0_i32_1 c1_i32 k0_t1
  let c64_i32_80 : BitVec 32 := 64#32
  let v107 : BitVec 32 := Scalar.muli arg9 c64_i32_80
  let c8_i32 : BitVec 32 := 8#32
  let v108 : BitVec 32 := Scalar.addi v107 c8_i32
  ![v108.toNat]
def k0_off35 (k0_t1 : Fin k0_t1_loop.trips) : Fin 3 → Nat :=
  let c0_i32_1 : BitVec 32 := 0#32
  let c1_i32 : BitVec 32 := 1#32
  let arg9 : BitVec 32 := Scf.iv c0_i32_1 c1_i32 k0_t1
  let c64_i32_80 : BitVec 32 := 64#32
  let v107 : BitVec 32 := Scalar.muli arg9 c64_i32_80
  let c8_i32 : BitVec 32 := 8#32
  let v108 : BitVec 32 := Scalar.addi v107 c8_i32
  let c0_i32_83 : BitVec 32 := 0#32
  let c0_i32_84 : BitVec 32 := 0#32
  ![v108.toNat, 0, 0]
def k0_off36 (v110 : BitVec 32) : Fin 3 → Nat :=
  let c0_i32_85 : BitVec 32 := 0#32
  let c0_i32_86 : BitVec 32 := 0#32
  ![v110.toNat, 0, 0]

def k0_chk9 (v110 : BitVec 32) : Prop :=
  (∀ a, (k0_off36 v110) a + S1x1x64.size a ≤ S1000000x1x64.size a) ∧
  (∀ (hinb : ∀ a, (k0_off36 v110) a + S1x1x64.size a ≤ S1000000x1x64.size a), (Rect.unit (s := S1000000x1x64) (k0_off36 v110) S1x1x64.size hinb).WholeWords (EltTy.packing .bf16))
instance k0_chk9.dec : ∀ (v110 : BitVec 32), Decidable (k0_chk9 v110) := fun v110 => decidable_of_iff' _ (Iff.of_eq (k0_chk9.eq_1 v110))
theorem k0_off36_inb : ∀ (v110 : BitVec 32) (k0_hw9 : k0_chk9 v110), ∀ a, (k0_off36 v110) a + S1x1x64.size a ≤ S1000000x1x64.size a := fun v110 k0_hw9 => k0_hw9.1
theorem k0_off36_wordsbf16 : ∀ (v110 : BitVec 32) (k0_hw9 : k0_chk9 v110), (Rect.unit (s := S1000000x1x64) (k0_off36 v110) S1x1x64.size (k0_off36_inb v110 k0_hw9)).WholeWords (EltTy.packing .bf16) := fun v110 k0_hw9 => k0_hw9.2 (k0_off36_inb v110 k0_hw9)

def k0_off37 (k0_t1 : Fin k0_t1_loop.trips) : Fin 3 → Nat :=
  let c0_88 : Index := 0#32
  let c0_89 : Index := 0#32
  let c0_i32_1 : BitVec 32 := 0#32
  let c1_i32 : BitVec 32 := 1#32
  let arg9 : BitVec 32 := Scf.iv c0_i32_1 c1_i32 k0_t1
  let c64_i32_87 : BitVec 32 := 64#32
  let v117 : BitVec 32 := Scalar.muli arg9 c64_i32_87
  let c9_i32 : BitVec 32 := 9#32
  let v118 : BitVec 32 := Scalar.addi v117 c9_i32
  let v119 : Index := Scalar.indexCast v118
  ![0, 0, v119.toNat]
def k0_off38 (k0_t1 : Fin k0_t1_loop.trips) : Fin 1 → Nat :=
  let c0_i32_1 : BitVec 32 := 0#32
  let c1_i32 : BitVec 32 := 1#32
  let arg9 : BitVec 32 := Scf.iv c0_i32_1 c1_i32 k0_t1
  let c64_i32_87 : BitVec 32 := 64#32
  let v117 : BitVec 32 := Scalar.muli arg9 c64_i32_87
  let c9_i32 : BitVec 32 := 9#32
  let v118 : BitVec 32 := Scalar.addi v117 c9_i32
  ![v118.toNat]
def k0_off39 (k0_t1 : Fin k0_t1_loop.trips) : Fin 3 → Nat :=
  let c0_i32_1 : BitVec 32 := 0#32
  let c1_i32 : BitVec 32 := 1#32
  let arg9 : BitVec 32 := Scf.iv c0_i32_1 c1_i32 k0_t1
  let c64_i32_87 : BitVec 32 := 64#32
  let v117 : BitVec 32 := Scalar.muli arg9 c64_i32_87
  let c9_i32 : BitVec 32 := 9#32
  let v118 : BitVec 32 := Scalar.addi v117 c9_i32
  let c0_i32_90 : BitVec 32 := 0#32
  let c0_i32_91 : BitVec 32 := 0#32
  ![v118.toNat, 0, 0]
def k0_off40 (v120 : BitVec 32) : Fin 3 → Nat :=
  let c0_i32_92 : BitVec 32 := 0#32
  let c0_i32_93 : BitVec 32 := 0#32
  ![v120.toNat, 0, 0]

def k0_chk10 (v120 : BitVec 32) : Prop :=
  (∀ a, (k0_off40 v120) a + S1x1x64.size a ≤ S1000000x1x64.size a) ∧
  (∀ (hinb : ∀ a, (k0_off40 v120) a + S1x1x64.size a ≤ S1000000x1x64.size a), (Rect.unit (s := S1000000x1x64) (k0_off40 v120) S1x1x64.size hinb).WholeWords (EltTy.packing .bf16))
instance k0_chk10.dec : ∀ (v120 : BitVec 32), Decidable (k0_chk10 v120) := fun v120 => decidable_of_iff' _ (Iff.of_eq (k0_chk10.eq_1 v120))
theorem k0_off40_inb : ∀ (v120 : BitVec 32) (k0_hw10 : k0_chk10 v120), ∀ a, (k0_off40 v120) a + S1x1x64.size a ≤ S1000000x1x64.size a := fun v120 k0_hw10 => k0_hw10.1
theorem k0_off40_wordsbf16 : ∀ (v120 : BitVec 32) (k0_hw10 : k0_chk10 v120), (Rect.unit (s := S1000000x1x64) (k0_off40 v120) S1x1x64.size (k0_off40_inb v120 k0_hw10)).WholeWords (EltTy.packing .bf16) := fun v120 k0_hw10 => k0_hw10.2 (k0_off40_inb v120 k0_hw10)

def k0_off41 (k0_t1 : Fin k0_t1_loop.trips) : Fin 3 → Nat :=
  let c0_95 : Index := 0#32
  let c0_96 : Index := 0#32
  let c0_i32_1 : BitVec 32 := 0#32
  let c1_i32 : BitVec 32 := 1#32
  let arg9 : BitVec 32 := Scf.iv c0_i32_1 c1_i32 k0_t1
  let c64_i32_94 : BitVec 32 := 64#32
  let v127 : BitVec 32 := Scalar.muli arg9 c64_i32_94
  let c10_i32 : BitVec 32 := 10#32
  let v128 : BitVec 32 := Scalar.addi v127 c10_i32
  let v129 : Index := Scalar.indexCast v128
  ![0, 0, v129.toNat]
def k0_off42 (k0_t1 : Fin k0_t1_loop.trips) : Fin 1 → Nat :=
  let c0_i32_1 : BitVec 32 := 0#32
  let c1_i32 : BitVec 32 := 1#32
  let arg9 : BitVec 32 := Scf.iv c0_i32_1 c1_i32 k0_t1
  let c64_i32_94 : BitVec 32 := 64#32
  let v127 : BitVec 32 := Scalar.muli arg9 c64_i32_94
  let c10_i32 : BitVec 32 := 10#32
  let v128 : BitVec 32 := Scalar.addi v127 c10_i32
  ![v128.toNat]
def k0_off43 (k0_t1 : Fin k0_t1_loop.trips) : Fin 3 → Nat :=
  let c0_i32_1 : BitVec 32 := 0#32
  let c1_i32 : BitVec 32 := 1#32
  let arg9 : BitVec 32 := Scf.iv c0_i32_1 c1_i32 k0_t1
  let c64_i32_94 : BitVec 32 := 64#32
  let v127 : BitVec 32 := Scalar.muli arg9 c64_i32_94
  let c10_i32 : BitVec 32 := 10#32
  let v128 : BitVec 32 := Scalar.addi v127 c10_i32
  let c0_i32_97 : BitVec 32 := 0#32
  let c0_i32_98 : BitVec 32 := 0#32
  ![v128.toNat, 0, 0]
def k0_off44 (v130 : BitVec 32) : Fin 3 → Nat :=
  let c0_i32_99 : BitVec 32 := 0#32
  let c0_i32_100 : BitVec 32 := 0#32
  ![v130.toNat, 0, 0]

def k0_chk11 (v130 : BitVec 32) : Prop :=
  (∀ a, (k0_off44 v130) a + S1x1x64.size a ≤ S1000000x1x64.size a) ∧
  (∀ (hinb : ∀ a, (k0_off44 v130) a + S1x1x64.size a ≤ S1000000x1x64.size a), (Rect.unit (s := S1000000x1x64) (k0_off44 v130) S1x1x64.size hinb).WholeWords (EltTy.packing .bf16))
instance k0_chk11.dec : ∀ (v130 : BitVec 32), Decidable (k0_chk11 v130) := fun v130 => decidable_of_iff' _ (Iff.of_eq (k0_chk11.eq_1 v130))
theorem k0_off44_inb : ∀ (v130 : BitVec 32) (k0_hw11 : k0_chk11 v130), ∀ a, (k0_off44 v130) a + S1x1x64.size a ≤ S1000000x1x64.size a := fun v130 k0_hw11 => k0_hw11.1
theorem k0_off44_wordsbf16 : ∀ (v130 : BitVec 32) (k0_hw11 : k0_chk11 v130), (Rect.unit (s := S1000000x1x64) (k0_off44 v130) S1x1x64.size (k0_off44_inb v130 k0_hw11)).WholeWords (EltTy.packing .bf16) := fun v130 k0_hw11 => k0_hw11.2 (k0_off44_inb v130 k0_hw11)

def k0_off45 (k0_t1 : Fin k0_t1_loop.trips) : Fin 3 → Nat :=
  let c0_102 : Index := 0#32
  let c0_103 : Index := 0#32
  let c0_i32_1 : BitVec 32 := 0#32
  let c1_i32 : BitVec 32 := 1#32
  let arg9 : BitVec 32 := Scf.iv c0_i32_1 c1_i32 k0_t1
  let c64_i32_101 : BitVec 32 := 64#32
  let v137 : BitVec 32 := Scalar.muli arg9 c64_i32_101
  let c11_i32 : BitVec 32 := 11#32
  let v138 : BitVec 32 := Scalar.addi v137 c11_i32
  let v139 : Index := Scalar.indexCast v138
  ![0, 0, v139.toNat]
def k0_off46 (k0_t1 : Fin k0_t1_loop.trips) : Fin 1 → Nat :=
  let c0_i32_1 : BitVec 32 := 0#32
  let c1_i32 : BitVec 32 := 1#32
  let arg9 : BitVec 32 := Scf.iv c0_i32_1 c1_i32 k0_t1
  let c64_i32_101 : BitVec 32 := 64#32
  let v137 : BitVec 32 := Scalar.muli arg9 c64_i32_101
  let c11_i32 : BitVec 32 := 11#32
  let v138 : BitVec 32 := Scalar.addi v137 c11_i32
  ![v138.toNat]
def k0_off47 (k0_t1 : Fin k0_t1_loop.trips) : Fin 3 → Nat :=
  let c0_i32_1 : BitVec 32 := 0#32
  let c1_i32 : BitVec 32 := 1#32
  let arg9 : BitVec 32 := Scf.iv c0_i32_1 c1_i32 k0_t1
  let c64_i32_101 : BitVec 32 := 64#32
  let v137 : BitVec 32 := Scalar.muli arg9 c64_i32_101
  let c11_i32 : BitVec 32 := 11#32
  let v138 : BitVec 32 := Scalar.addi v137 c11_i32
  let c0_i32_104 : BitVec 32 := 0#32
  let c0_i32_105 : BitVec 32 := 0#32
  ![v138.toNat, 0, 0]
def k0_off48 (v140 : BitVec 32) : Fin 3 → Nat :=
  let c0_i32_106 : BitVec 32 := 0#32
  let c0_i32_107 : BitVec 32 := 0#32
  ![v140.toNat, 0, 0]

def k0_chk12 (v140 : BitVec 32) : Prop :=
  (∀ a, (k0_off48 v140) a + S1x1x64.size a ≤ S1000000x1x64.size a) ∧
  (∀ (hinb : ∀ a, (k0_off48 v140) a + S1x1x64.size a ≤ S1000000x1x64.size a), (Rect.unit (s := S1000000x1x64) (k0_off48 v140) S1x1x64.size hinb).WholeWords (EltTy.packing .bf16))
instance k0_chk12.dec : ∀ (v140 : BitVec 32), Decidable (k0_chk12 v140) := fun v140 => decidable_of_iff' _ (Iff.of_eq (k0_chk12.eq_1 v140))
theorem k0_off48_inb : ∀ (v140 : BitVec 32) (k0_hw12 : k0_chk12 v140), ∀ a, (k0_off48 v140) a + S1x1x64.size a ≤ S1000000x1x64.size a := fun v140 k0_hw12 => k0_hw12.1
theorem k0_off48_wordsbf16 : ∀ (v140 : BitVec 32) (k0_hw12 : k0_chk12 v140), (Rect.unit (s := S1000000x1x64) (k0_off48 v140) S1x1x64.size (k0_off48_inb v140 k0_hw12)).WholeWords (EltTy.packing .bf16) := fun v140 k0_hw12 => k0_hw12.2 (k0_off48_inb v140 k0_hw12)

def k0_off49 (k0_t1 : Fin k0_t1_loop.trips) : Fin 3 → Nat :=
  let c0_109 : Index := 0#32
  let c0_110 : Index := 0#32
  let c0_i32_1 : BitVec 32 := 0#32
  let c1_i32 : BitVec 32 := 1#32
  let arg9 : BitVec 32 := Scf.iv c0_i32_1 c1_i32 k0_t1
  let c64_i32_108 : BitVec 32 := 64#32
  let v147 : BitVec 32 := Scalar.muli arg9 c64_i32_108
  let c12_i32 : BitVec 32 := 12#32
  let v148 : BitVec 32 := Scalar.addi v147 c12_i32
  let v149 : Index := Scalar.indexCast v148
  ![0, 0, v149.toNat]
def k0_off50 (k0_t1 : Fin k0_t1_loop.trips) : Fin 1 → Nat :=
  let c0_i32_1 : BitVec 32 := 0#32
  let c1_i32 : BitVec 32 := 1#32
  let arg9 : BitVec 32 := Scf.iv c0_i32_1 c1_i32 k0_t1
  let c64_i32_108 : BitVec 32 := 64#32
  let v147 : BitVec 32 := Scalar.muli arg9 c64_i32_108
  let c12_i32 : BitVec 32 := 12#32
  let v148 : BitVec 32 := Scalar.addi v147 c12_i32
  ![v148.toNat]
def k0_off51 (k0_t1 : Fin k0_t1_loop.trips) : Fin 3 → Nat :=
  let c0_i32_1 : BitVec 32 := 0#32
  let c1_i32 : BitVec 32 := 1#32
  let arg9 : BitVec 32 := Scf.iv c0_i32_1 c1_i32 k0_t1
  let c64_i32_108 : BitVec 32 := 64#32
  let v147 : BitVec 32 := Scalar.muli arg9 c64_i32_108
  let c12_i32 : BitVec 32 := 12#32
  let v148 : BitVec 32 := Scalar.addi v147 c12_i32
  let c0_i32_111 : BitVec 32 := 0#32
  let c0_i32_112 : BitVec 32 := 0#32
  ![v148.toNat, 0, 0]
def k0_off52 (v150 : BitVec 32) : Fin 3 → Nat :=
  let c0_i32_113 : BitVec 32 := 0#32
  let c0_i32_114 : BitVec 32 := 0#32
  ![v150.toNat, 0, 0]

def k0_chk13 (v150 : BitVec 32) : Prop :=
  (∀ a, (k0_off52 v150) a + S1x1x64.size a ≤ S1000000x1x64.size a) ∧
  (∀ (hinb : ∀ a, (k0_off52 v150) a + S1x1x64.size a ≤ S1000000x1x64.size a), (Rect.unit (s := S1000000x1x64) (k0_off52 v150) S1x1x64.size hinb).WholeWords (EltTy.packing .bf16))
instance k0_chk13.dec : ∀ (v150 : BitVec 32), Decidable (k0_chk13 v150) := fun v150 => decidable_of_iff' _ (Iff.of_eq (k0_chk13.eq_1 v150))
theorem k0_off52_inb : ∀ (v150 : BitVec 32) (k0_hw13 : k0_chk13 v150), ∀ a, (k0_off52 v150) a + S1x1x64.size a ≤ S1000000x1x64.size a := fun v150 k0_hw13 => k0_hw13.1
theorem k0_off52_wordsbf16 : ∀ (v150 : BitVec 32) (k0_hw13 : k0_chk13 v150), (Rect.unit (s := S1000000x1x64) (k0_off52 v150) S1x1x64.size (k0_off52_inb v150 k0_hw13)).WholeWords (EltTy.packing .bf16) := fun v150 k0_hw13 => k0_hw13.2 (k0_off52_inb v150 k0_hw13)

def k0_off53 (k0_t1 : Fin k0_t1_loop.trips) : Fin 3 → Nat :=
  let c0_116 : Index := 0#32
  let c0_117 : Index := 0#32
  let c0_i32_1 : BitVec 32 := 0#32
  let c1_i32 : BitVec 32 := 1#32
  let arg9 : BitVec 32 := Scf.iv c0_i32_1 c1_i32 k0_t1
  let c64_i32_115 : BitVec 32 := 64#32
  let v157 : BitVec 32 := Scalar.muli arg9 c64_i32_115
  let c13_i32 : BitVec 32 := 13#32
  let v158 : BitVec 32 := Scalar.addi v157 c13_i32
  let v159 : Index := Scalar.indexCast v158
  ![0, 0, v159.toNat]
def k0_off54 (k0_t1 : Fin k0_t1_loop.trips) : Fin 1 → Nat :=
  let c0_i32_1 : BitVec 32 := 0#32
  let c1_i32 : BitVec 32 := 1#32
  let arg9 : BitVec 32 := Scf.iv c0_i32_1 c1_i32 k0_t1
  let c64_i32_115 : BitVec 32 := 64#32
  let v157 : BitVec 32 := Scalar.muli arg9 c64_i32_115
  let c13_i32 : BitVec 32 := 13#32
  let v158 : BitVec 32 := Scalar.addi v157 c13_i32
  ![v158.toNat]
def k0_off55 (k0_t1 : Fin k0_t1_loop.trips) : Fin 3 → Nat :=
  let c0_i32_1 : BitVec 32 := 0#32
  let c1_i32 : BitVec 32 := 1#32
  let arg9 : BitVec 32 := Scf.iv c0_i32_1 c1_i32 k0_t1
  let c64_i32_115 : BitVec 32 := 64#32
  let v157 : BitVec 32 := Scalar.muli arg9 c64_i32_115
  let c13_i32 : BitVec 32 := 13#32
  let v158 : BitVec 32 := Scalar.addi v157 c13_i32
  let c0_i32_118 : BitVec 32 := 0#32
  let c0_i32_119 : BitVec 32 := 0#32
  ![v158.toNat, 0, 0]
def k0_off56 (v160 : BitVec 32) : Fin 3 → Nat :=
  let c0_i32_120 : BitVec 32 := 0#32
  let c0_i32_121 : BitVec 32 := 0#32
  ![v160.toNat, 0, 0]

def k0_chk14 (v160 : BitVec 32) : Prop :=
  (∀ a, (k0_off56 v160) a + S1x1x64.size a ≤ S1000000x1x64.size a) ∧
  (∀ (hinb : ∀ a, (k0_off56 v160) a + S1x1x64.size a ≤ S1000000x1x64.size a), (Rect.unit (s := S1000000x1x64) (k0_off56 v160) S1x1x64.size hinb).WholeWords (EltTy.packing .bf16))
instance k0_chk14.dec : ∀ (v160 : BitVec 32), Decidable (k0_chk14 v160) := fun v160 => decidable_of_iff' _ (Iff.of_eq (k0_chk14.eq_1 v160))
theorem k0_off56_inb : ∀ (v160 : BitVec 32) (k0_hw14 : k0_chk14 v160), ∀ a, (k0_off56 v160) a + S1x1x64.size a ≤ S1000000x1x64.size a := fun v160 k0_hw14 => k0_hw14.1
theorem k0_off56_wordsbf16 : ∀ (v160 : BitVec 32) (k0_hw14 : k0_chk14 v160), (Rect.unit (s := S1000000x1x64) (k0_off56 v160) S1x1x64.size (k0_off56_inb v160 k0_hw14)).WholeWords (EltTy.packing .bf16) := fun v160 k0_hw14 => k0_hw14.2 (k0_off56_inb v160 k0_hw14)

def k0_off57 (k0_t1 : Fin k0_t1_loop.trips) : Fin 3 → Nat :=
  let c0_123 : Index := 0#32
  let c0_124 : Index := 0#32
  let c0_i32_1 : BitVec 32 := 0#32
  let c1_i32 : BitVec 32 := 1#32
  let arg9 : BitVec 32 := Scf.iv c0_i32_1 c1_i32 k0_t1
  let c64_i32_122 : BitVec 32 := 64#32
  let v167 : BitVec 32 := Scalar.muli arg9 c64_i32_122
  let c14_i32 : BitVec 32 := 14#32
  let v168 : BitVec 32 := Scalar.addi v167 c14_i32
  let v169 : Index := Scalar.indexCast v168
  ![0, 0, v169.toNat]
def k0_off58 (k0_t1 : Fin k0_t1_loop.trips) : Fin 1 → Nat :=
  let c0_i32_1 : BitVec 32 := 0#32
  let c1_i32 : BitVec 32 := 1#32
  let arg9 : BitVec 32 := Scf.iv c0_i32_1 c1_i32 k0_t1
  let c64_i32_122 : BitVec 32 := 64#32
  let v167 : BitVec 32 := Scalar.muli arg9 c64_i32_122
  let c14_i32 : BitVec 32 := 14#32
  let v168 : BitVec 32 := Scalar.addi v167 c14_i32
  ![v168.toNat]
def k0_off59 (k0_t1 : Fin k0_t1_loop.trips) : Fin 3 → Nat :=
  let c0_i32_1 : BitVec 32 := 0#32
  let c1_i32 : BitVec 32 := 1#32
  let arg9 : BitVec 32 := Scf.iv c0_i32_1 c1_i32 k0_t1
  let c64_i32_122 : BitVec 32 := 64#32
  let v167 : BitVec 32 := Scalar.muli arg9 c64_i32_122
  let c14_i32 : BitVec 32 := 14#32
  let v168 : BitVec 32 := Scalar.addi v167 c14_i32
  let c0_i32_125 : BitVec 32 := 0#32
  let c0_i32_126 : BitVec 32 := 0#32
  ![v168.toNat, 0, 0]
def k0_off60 (v170 : BitVec 32) : Fin 3 → Nat :=
  let c0_i32_127 : BitVec 32 := 0#32
  let c0_i32_128 : BitVec 32 := 0#32
  ![v170.toNat, 0, 0]

def k0_chk15 (v170 : BitVec 32) : Prop :=
  (∀ a, (k0_off60 v170) a + S1x1x64.size a ≤ S1000000x1x64.size a) ∧
  (∀ (hinb : ∀ a, (k0_off60 v170) a + S1x1x64.size a ≤ S1000000x1x64.size a), (Rect.unit (s := S1000000x1x64) (k0_off60 v170) S1x1x64.size hinb).WholeWords (EltTy.packing .bf16))
instance k0_chk15.dec : ∀ (v170 : BitVec 32), Decidable (k0_chk15 v170) := fun v170 => decidable_of_iff' _ (Iff.of_eq (k0_chk15.eq_1 v170))
theorem k0_off60_inb : ∀ (v170 : BitVec 32) (k0_hw15 : k0_chk15 v170), ∀ a, (k0_off60 v170) a + S1x1x64.size a ≤ S1000000x1x64.size a := fun v170 k0_hw15 => k0_hw15.1
theorem k0_off60_wordsbf16 : ∀ (v170 : BitVec 32) (k0_hw15 : k0_chk15 v170), (Rect.unit (s := S1000000x1x64) (k0_off60 v170) S1x1x64.size (k0_off60_inb v170 k0_hw15)).WholeWords (EltTy.packing .bf16) := fun v170 k0_hw15 => k0_hw15.2 (k0_off60_inb v170 k0_hw15)

def k0_off61 (k0_t1 : Fin k0_t1_loop.trips) : Fin 3 → Nat :=
  let c0_130 : Index := 0#32
  let c0_131 : Index := 0#32
  let c0_i32_1 : BitVec 32 := 0#32
  let c1_i32 : BitVec 32 := 1#32
  let arg9 : BitVec 32 := Scf.iv c0_i32_1 c1_i32 k0_t1
  let c64_i32_129 : BitVec 32 := 64#32
  let v177 : BitVec 32 := Scalar.muli arg9 c64_i32_129
  let c15_i32 : BitVec 32 := 15#32
  let v178 : BitVec 32 := Scalar.addi v177 c15_i32
  let v179 : Index := Scalar.indexCast v178
  ![0, 0, v179.toNat]
def k0_off62 (k0_t1 : Fin k0_t1_loop.trips) : Fin 1 → Nat :=
  let c0_i32_1 : BitVec 32 := 0#32
  let c1_i32 : BitVec 32 := 1#32
  let arg9 : BitVec 32 := Scf.iv c0_i32_1 c1_i32 k0_t1
  let c64_i32_129 : BitVec 32 := 64#32
  let v177 : BitVec 32 := Scalar.muli arg9 c64_i32_129
  let c15_i32 : BitVec 32 := 15#32
  let v178 : BitVec 32 := Scalar.addi v177 c15_i32
  ![v178.toNat]
def k0_off63 (k0_t1 : Fin k0_t1_loop.trips) : Fin 3 → Nat :=
  let c0_i32_1 : BitVec 32 := 0#32
  let c1_i32 : BitVec 32 := 1#32
  let arg9 : BitVec 32 := Scf.iv c0_i32_1 c1_i32 k0_t1
  let c64_i32_129 : BitVec 32 := 64#32
  let v177 : BitVec 32 := Scalar.muli arg9 c64_i32_129
  let c15_i32 : BitVec 32 := 15#32
  let v178 : BitVec 32 := Scalar.addi v177 c15_i32
  let c0_i32_132 : BitVec 32 := 0#32
  let c0_i32_133 : BitVec 32 := 0#32
  ![v178.toNat, 0, 0]
def k0_off64 (v180 : BitVec 32) : Fin 3 → Nat :=
  let c0_i32_134 : BitVec 32 := 0#32
  let c0_i32_135 : BitVec 32 := 0#32
  ![v180.toNat, 0, 0]

def k0_chk16 (v180 : BitVec 32) : Prop :=
  (∀ a, (k0_off64 v180) a + S1x1x64.size a ≤ S1000000x1x64.size a) ∧
  (∀ (hinb : ∀ a, (k0_off64 v180) a + S1x1x64.size a ≤ S1000000x1x64.size a), (Rect.unit (s := S1000000x1x64) (k0_off64 v180) S1x1x64.size hinb).WholeWords (EltTy.packing .bf16))
instance k0_chk16.dec : ∀ (v180 : BitVec 32), Decidable (k0_chk16 v180) := fun v180 => decidable_of_iff' _ (Iff.of_eq (k0_chk16.eq_1 v180))
theorem k0_off64_inb : ∀ (v180 : BitVec 32) (k0_hw16 : k0_chk16 v180), ∀ a, (k0_off64 v180) a + S1x1x64.size a ≤ S1000000x1x64.size a := fun v180 k0_hw16 => k0_hw16.1
theorem k0_off64_wordsbf16 : ∀ (v180 : BitVec 32) (k0_hw16 : k0_chk16 v180), (Rect.unit (s := S1000000x1x64) (k0_off64 v180) S1x1x64.size (k0_off64_inb v180 k0_hw16)).WholeWords (EltTy.packing .bf16) := fun v180 k0_hw16 => k0_hw16.2 (k0_off64_inb v180 k0_hw16)

def k0_off65 (k0_t1 : Fin k0_t1_loop.trips) : Fin 3 → Nat :=
  let c0_137 : Index := 0#32
  let c0_138 : Index := 0#32
  let c0_i32_1 : BitVec 32 := 0#32
  let c1_i32 : BitVec 32 := 1#32
  let arg9 : BitVec 32 := Scf.iv c0_i32_1 c1_i32 k0_t1
  let c64_i32_136 : BitVec 32 := 64#32
  let v187 : BitVec 32 := Scalar.muli arg9 c64_i32_136
  let c16_i32 : BitVec 32 := 16#32
  let v188 : BitVec 32 := Scalar.addi v187 c16_i32
  let v189 : Index := Scalar.indexCast v188
  ![0, 0, v189.toNat]
def k0_off66 (k0_t1 : Fin k0_t1_loop.trips) : Fin 1 → Nat :=
  let c0_i32_1 : BitVec 32 := 0#32
  let c1_i32 : BitVec 32 := 1#32
  let arg9 : BitVec 32 := Scf.iv c0_i32_1 c1_i32 k0_t1
  let c64_i32_136 : BitVec 32 := 64#32
  let v187 : BitVec 32 := Scalar.muli arg9 c64_i32_136
  let c16_i32 : BitVec 32 := 16#32
  let v188 : BitVec 32 := Scalar.addi v187 c16_i32
  ![v188.toNat]
def k0_off67 (k0_t1 : Fin k0_t1_loop.trips) : Fin 3 → Nat :=
  let c0_i32_1 : BitVec 32 := 0#32
  let c1_i32 : BitVec 32 := 1#32
  let arg9 : BitVec 32 := Scf.iv c0_i32_1 c1_i32 k0_t1
  let c64_i32_136 : BitVec 32 := 64#32
  let v187 : BitVec 32 := Scalar.muli arg9 c64_i32_136
  let c16_i32 : BitVec 32 := 16#32
  let v188 : BitVec 32 := Scalar.addi v187 c16_i32
  let c0_i32_139 : BitVec 32 := 0#32
  let c0_i32_140 : BitVec 32 := 0#32
  ![v188.toNat, 0, 0]
def k0_off68 (v190 : BitVec 32) : Fin 3 → Nat :=
  let c0_i32_141 : BitVec 32 := 0#32
  let c0_i32_142 : BitVec 32 := 0#32
  ![v190.toNat, 0, 0]

def k0_chk17 (v190 : BitVec 32) : Prop :=
  (∀ a, (k0_off68 v190) a + S1x1x64.size a ≤ S1000000x1x64.size a) ∧
  (∀ (hinb : ∀ a, (k0_off68 v190) a + S1x1x64.size a ≤ S1000000x1x64.size a), (Rect.unit (s := S1000000x1x64) (k0_off68 v190) S1x1x64.size hinb).WholeWords (EltTy.packing .bf16))
instance k0_chk17.dec : ∀ (v190 : BitVec 32), Decidable (k0_chk17 v190) := fun v190 => decidable_of_iff' _ (Iff.of_eq (k0_chk17.eq_1 v190))
theorem k0_off68_inb : ∀ (v190 : BitVec 32) (k0_hw17 : k0_chk17 v190), ∀ a, (k0_off68 v190) a + S1x1x64.size a ≤ S1000000x1x64.size a := fun v190 k0_hw17 => k0_hw17.1
theorem k0_off68_wordsbf16 : ∀ (v190 : BitVec 32) (k0_hw17 : k0_chk17 v190), (Rect.unit (s := S1000000x1x64) (k0_off68 v190) S1x1x64.size (k0_off68_inb v190 k0_hw17)).WholeWords (EltTy.packing .bf16) := fun v190 k0_hw17 => k0_hw17.2 (k0_off68_inb v190 k0_hw17)

def k0_off69 (k0_t1 : Fin k0_t1_loop.trips) : Fin 3 → Nat :=
  let c0_144 : Index := 0#32
  let c0_145 : Index := 0#32
  let c0_i32_1 : BitVec 32 := 0#32
  let c1_i32 : BitVec 32 := 1#32
  let arg9 : BitVec 32 := Scf.iv c0_i32_1 c1_i32 k0_t1
  let c64_i32_143 : BitVec 32 := 64#32
  let v197 : BitVec 32 := Scalar.muli arg9 c64_i32_143
  let c17_i32 : BitVec 32 := 17#32
  let v198 : BitVec 32 := Scalar.addi v197 c17_i32
  let v199 : Index := Scalar.indexCast v198
  ![0, 0, v199.toNat]
def k0_off70 (k0_t1 : Fin k0_t1_loop.trips) : Fin 1 → Nat :=
  let c0_i32_1 : BitVec 32 := 0#32
  let c1_i32 : BitVec 32 := 1#32
  let arg9 : BitVec 32 := Scf.iv c0_i32_1 c1_i32 k0_t1
  let c64_i32_143 : BitVec 32 := 64#32
  let v197 : BitVec 32 := Scalar.muli arg9 c64_i32_143
  let c17_i32 : BitVec 32 := 17#32
  let v198 : BitVec 32 := Scalar.addi v197 c17_i32
  ![v198.toNat]
def k0_off71 (k0_t1 : Fin k0_t1_loop.trips) : Fin 3 → Nat :=
  let c0_i32_1 : BitVec 32 := 0#32
  let c1_i32 : BitVec 32 := 1#32
  let arg9 : BitVec 32 := Scf.iv c0_i32_1 c1_i32 k0_t1
  let c64_i32_143 : BitVec 32 := 64#32
  let v197 : BitVec 32 := Scalar.muli arg9 c64_i32_143
  let c17_i32 : BitVec 32 := 17#32
  let v198 : BitVec 32 := Scalar.addi v197 c17_i32
  let c0_i32_146 : BitVec 32 := 0#32
  let c0_i32_147 : BitVec 32 := 0#32
  ![v198.toNat, 0, 0]
def k0_off72 (v200 : BitVec 32) : Fin 3 → Nat :=
  let c0_i32_148 : BitVec 32 := 0#32
  let c0_i32_149 : BitVec 32 := 0#32
  ![v200.toNat, 0, 0]

def k0_chk18 (v200 : BitVec 32) : Prop :=
  (∀ a, (k0_off72 v200) a + S1x1x64.size a ≤ S1000000x1x64.size a) ∧
  (∀ (hinb : ∀ a, (k0_off72 v200) a + S1x1x64.size a ≤ S1000000x1x64.size a), (Rect.unit (s := S1000000x1x64) (k0_off72 v200) S1x1x64.size hinb).WholeWords (EltTy.packing .bf16))
instance k0_chk18.dec : ∀ (v200 : BitVec 32), Decidable (k0_chk18 v200) := fun v200 => decidable_of_iff' _ (Iff.of_eq (k0_chk18.eq_1 v200))
theorem k0_off72_inb : ∀ (v200 : BitVec 32) (k0_hw18 : k0_chk18 v200), ∀ a, (k0_off72 v200) a + S1x1x64.size a ≤ S1000000x1x64.size a := fun v200 k0_hw18 => k0_hw18.1
theorem k0_off72_wordsbf16 : ∀ (v200 : BitVec 32) (k0_hw18 : k0_chk18 v200), (Rect.unit (s := S1000000x1x64) (k0_off72 v200) S1x1x64.size (k0_off72_inb v200 k0_hw18)).WholeWords (EltTy.packing .bf16) := fun v200 k0_hw18 => k0_hw18.2 (k0_off72_inb v200 k0_hw18)

def k0_off73 (k0_t1 : Fin k0_t1_loop.trips) : Fin 3 → Nat :=
  let c0_151 : Index := 0#32
  let c0_152 : Index := 0#32
  let c0_i32_1 : BitVec 32 := 0#32
  let c1_i32 : BitVec 32 := 1#32
  let arg9 : BitVec 32 := Scf.iv c0_i32_1 c1_i32 k0_t1
  let c64_i32_150 : BitVec 32 := 64#32
  let v207 : BitVec 32 := Scalar.muli arg9 c64_i32_150
  let c18_i32 : BitVec 32 := 18#32
  let v208 : BitVec 32 := Scalar.addi v207 c18_i32
  let v209 : Index := Scalar.indexCast v208
  ![0, 0, v209.toNat]
def k0_off74 (k0_t1 : Fin k0_t1_loop.trips) : Fin 1 → Nat :=
  let c0_i32_1 : BitVec 32 := 0#32
  let c1_i32 : BitVec 32 := 1#32
  let arg9 : BitVec 32 := Scf.iv c0_i32_1 c1_i32 k0_t1
  let c64_i32_150 : BitVec 32 := 64#32
  let v207 : BitVec 32 := Scalar.muli arg9 c64_i32_150
  let c18_i32 : BitVec 32 := 18#32
  let v208 : BitVec 32 := Scalar.addi v207 c18_i32
  ![v208.toNat]
def k0_off75 (k0_t1 : Fin k0_t1_loop.trips) : Fin 3 → Nat :=
  let c0_i32_1 : BitVec 32 := 0#32
  let c1_i32 : BitVec 32 := 1#32
  let arg9 : BitVec 32 := Scf.iv c0_i32_1 c1_i32 k0_t1
  let c64_i32_150 : BitVec 32 := 64#32
  let v207 : BitVec 32 := Scalar.muli arg9 c64_i32_150
  let c18_i32 : BitVec 32 := 18#32
  let v208 : BitVec 32 := Scalar.addi v207 c18_i32
  let c0_i32_153 : BitVec 32 := 0#32
  let c0_i32_154 : BitVec 32 := 0#32
  ![v208.toNat, 0, 0]
def k0_off76 (v210 : BitVec 32) : Fin 3 → Nat :=
  let c0_i32_155 : BitVec 32 := 0#32
  let c0_i32_156 : BitVec 32 := 0#32
  ![v210.toNat, 0, 0]

def k0_chk19 (v210 : BitVec 32) : Prop :=
  (∀ a, (k0_off76 v210) a + S1x1x64.size a ≤ S1000000x1x64.size a) ∧
  (∀ (hinb : ∀ a, (k0_off76 v210) a + S1x1x64.size a ≤ S1000000x1x64.size a), (Rect.unit (s := S1000000x1x64) (k0_off76 v210) S1x1x64.size hinb).WholeWords (EltTy.packing .bf16))
instance k0_chk19.dec : ∀ (v210 : BitVec 32), Decidable (k0_chk19 v210) := fun v210 => decidable_of_iff' _ (Iff.of_eq (k0_chk19.eq_1 v210))
theorem k0_off76_inb : ∀ (v210 : BitVec 32) (k0_hw19 : k0_chk19 v210), ∀ a, (k0_off76 v210) a + S1x1x64.size a ≤ S1000000x1x64.size a := fun v210 k0_hw19 => k0_hw19.1
theorem k0_off76_wordsbf16 : ∀ (v210 : BitVec 32) (k0_hw19 : k0_chk19 v210), (Rect.unit (s := S1000000x1x64) (k0_off76 v210) S1x1x64.size (k0_off76_inb v210 k0_hw19)).WholeWords (EltTy.packing .bf16) := fun v210 k0_hw19 => k0_hw19.2 (k0_off76_inb v210 k0_hw19)

def k0_off77 (k0_t1 : Fin k0_t1_loop.trips) : Fin 3 → Nat :=
  let c0_158 : Index := 0#32
  let c0_159 : Index := 0#32
  let c0_i32_1 : BitVec 32 := 0#32
  let c1_i32 : BitVec 32 := 1#32
  let arg9 : BitVec 32 := Scf.iv c0_i32_1 c1_i32 k0_t1
  let c64_i32_157 : BitVec 32 := 64#32
  let v217 : BitVec 32 := Scalar.muli arg9 c64_i32_157
  let c19_i32 : BitVec 32 := 19#32
  let v218 : BitVec 32 := Scalar.addi v217 c19_i32
  let v219 : Index := Scalar.indexCast v218
  ![0, 0, v219.toNat]
def k0_off78 (k0_t1 : Fin k0_t1_loop.trips) : Fin 1 → Nat :=
  let c0_i32_1 : BitVec 32 := 0#32
  let c1_i32 : BitVec 32 := 1#32
  let arg9 : BitVec 32 := Scf.iv c0_i32_1 c1_i32 k0_t1
  let c64_i32_157 : BitVec 32 := 64#32
  let v217 : BitVec 32 := Scalar.muli arg9 c64_i32_157
  let c19_i32 : BitVec 32 := 19#32
  let v218 : BitVec 32 := Scalar.addi v217 c19_i32
  ![v218.toNat]
def k0_off79 (k0_t1 : Fin k0_t1_loop.trips) : Fin 3 → Nat :=
  let c0_i32_1 : BitVec 32 := 0#32
  let c1_i32 : BitVec 32 := 1#32
  let arg9 : BitVec 32 := Scf.iv c0_i32_1 c1_i32 k0_t1
  let c64_i32_157 : BitVec 32 := 64#32
  let v217 : BitVec 32 := Scalar.muli arg9 c64_i32_157
  let c19_i32 : BitVec 32 := 19#32
  let v218 : BitVec 32 := Scalar.addi v217 c19_i32
  let c0_i32_160 : BitVec 32 := 0#32
  let c0_i32_161 : BitVec 32 := 0#32
  ![v218.toNat, 0, 0]
def k0_off80 (v220 : BitVec 32) : Fin 3 → Nat :=
  let c0_i32_162 : BitVec 32 := 0#32
  let c0_i32_163 : BitVec 32 := 0#32
  ![v220.toNat, 0, 0]

def k0_chk20 (v220 : BitVec 32) : Prop :=
  (∀ a, (k0_off80 v220) a + S1x1x64.size a ≤ S1000000x1x64.size a) ∧
  (∀ (hinb : ∀ a, (k0_off80 v220) a + S1x1x64.size a ≤ S1000000x1x64.size a), (Rect.unit (s := S1000000x1x64) (k0_off80 v220) S1x1x64.size hinb).WholeWords (EltTy.packing .bf16))
instance k0_chk20.dec : ∀ (v220 : BitVec 32), Decidable (k0_chk20 v220) := fun v220 => decidable_of_iff' _ (Iff.of_eq (k0_chk20.eq_1 v220))
theorem k0_off80_inb : ∀ (v220 : BitVec 32) (k0_hw20 : k0_chk20 v220), ∀ a, (k0_off80 v220) a + S1x1x64.size a ≤ S1000000x1x64.size a := fun v220 k0_hw20 => k0_hw20.1
theorem k0_off80_wordsbf16 : ∀ (v220 : BitVec 32) (k0_hw20 : k0_chk20 v220), (Rect.unit (s := S1000000x1x64) (k0_off80 v220) S1x1x64.size (k0_off80_inb v220 k0_hw20)).WholeWords (EltTy.packing .bf16) := fun v220 k0_hw20 => k0_hw20.2 (k0_off80_inb v220 k0_hw20)

def k0_off81 (k0_t1 : Fin k0_t1_loop.trips) : Fin 3 → Nat :=
  let c0_165 : Index := 0#32
  let c0_166 : Index := 0#32
  let c0_i32_1 : BitVec 32 := 0#32
  let c1_i32 : BitVec 32 := 1#32
  let arg9 : BitVec 32 := Scf.iv c0_i32_1 c1_i32 k0_t1
  let c64_i32_164 : BitVec 32 := 64#32
  let v227 : BitVec 32 := Scalar.muli arg9 c64_i32_164
  let c20_i32 : BitVec 32 := 20#32
  let v228 : BitVec 32 := Scalar.addi v227 c20_i32
  let v229 : Index := Scalar.indexCast v228
  ![0, 0, v229.toNat]
def k0_off82 (k0_t1 : Fin k0_t1_loop.trips) : Fin 1 → Nat :=
  let c0_i32_1 : BitVec 32 := 0#32
  let c1_i32 : BitVec 32 := 1#32
  let arg9 : BitVec 32 := Scf.iv c0_i32_1 c1_i32 k0_t1
  let c64_i32_164 : BitVec 32 := 64#32
  let v227 : BitVec 32 := Scalar.muli arg9 c64_i32_164
  let c20_i32 : BitVec 32 := 20#32
  let v228 : BitVec 32 := Scalar.addi v227 c20_i32
  ![v228.toNat]
def k0_off83 (k0_t1 : Fin k0_t1_loop.trips) : Fin 3 → Nat :=
  let c0_i32_1 : BitVec 32 := 0#32
  let c1_i32 : BitVec 32 := 1#32
  let arg9 : BitVec 32 := Scf.iv c0_i32_1 c1_i32 k0_t1
  let c64_i32_164 : BitVec 32 := 64#32
  let v227 : BitVec 32 := Scalar.muli arg9 c64_i32_164
  let c20_i32 : BitVec 32 := 20#32
  let v228 : BitVec 32 := Scalar.addi v227 c20_i32
  let c0_i32_167 : BitVec 32 := 0#32
  let c0_i32_168 : BitVec 32 := 0#32
  ![v228.toNat, 0, 0]
def k0_off84 (v230 : BitVec 32) : Fin 3 → Nat :=
  let c0_i32_169 : BitVec 32 := 0#32
  let c0_i32_170 : BitVec 32 := 0#32
  ![v230.toNat, 0, 0]

def k0_chk21 (v230 : BitVec 32) : Prop :=
  (∀ a, (k0_off84 v230) a + S1x1x64.size a ≤ S1000000x1x64.size a) ∧
  (∀ (hinb : ∀ a, (k0_off84 v230) a + S1x1x64.size a ≤ S1000000x1x64.size a), (Rect.unit (s := S1000000x1x64) (k0_off84 v230) S1x1x64.size hinb).WholeWords (EltTy.packing .bf16))
instance k0_chk21.dec : ∀ (v230 : BitVec 32), Decidable (k0_chk21 v230) := fun v230 => decidable_of_iff' _ (Iff.of_eq (k0_chk21.eq_1 v230))
theorem k0_off84_inb : ∀ (v230 : BitVec 32) (k0_hw21 : k0_chk21 v230), ∀ a, (k0_off84 v230) a + S1x1x64.size a ≤ S1000000x1x64.size a := fun v230 k0_hw21 => k0_hw21.1
theorem k0_off84_wordsbf16 : ∀ (v230 : BitVec 32) (k0_hw21 : k0_chk21 v230), (Rect.unit (s := S1000000x1x64) (k0_off84 v230) S1x1x64.size (k0_off84_inb v230 k0_hw21)).WholeWords (EltTy.packing .bf16) := fun v230 k0_hw21 => k0_hw21.2 (k0_off84_inb v230 k0_hw21)

def k0_off85 (k0_t1 : Fin k0_t1_loop.trips) : Fin 3 → Nat :=
  let c0_172 : Index := 0#32
  let c0_173 : Index := 0#32
  let c0_i32_1 : BitVec 32 := 0#32
  let c1_i32 : BitVec 32 := 1#32
  let arg9 : BitVec 32 := Scf.iv c0_i32_1 c1_i32 k0_t1
  let c64_i32_171 : BitVec 32 := 64#32
  let v237 : BitVec 32 := Scalar.muli arg9 c64_i32_171
  let c21_i32 : BitVec 32 := 21#32
  let v238 : BitVec 32 := Scalar.addi v237 c21_i32
  let v239 : Index := Scalar.indexCast v238
  ![0, 0, v239.toNat]
def k0_off86 (k0_t1 : Fin k0_t1_loop.trips) : Fin 1 → Nat :=
  let c0_i32_1 : BitVec 32 := 0#32
  let c1_i32 : BitVec 32 := 1#32
  let arg9 : BitVec 32 := Scf.iv c0_i32_1 c1_i32 k0_t1
  let c64_i32_171 : BitVec 32 := 64#32
  let v237 : BitVec 32 := Scalar.muli arg9 c64_i32_171
  let c21_i32 : BitVec 32 := 21#32
  let v238 : BitVec 32 := Scalar.addi v237 c21_i32
  ![v238.toNat]
def k0_off87 (k0_t1 : Fin k0_t1_loop.trips) : Fin 3 → Nat :=
  let c0_i32_1 : BitVec 32 := 0#32
  let c1_i32 : BitVec 32 := 1#32
  let arg9 : BitVec 32 := Scf.iv c0_i32_1 c1_i32 k0_t1
  let c64_i32_171 : BitVec 32 := 64#32
  let v237 : BitVec 32 := Scalar.muli arg9 c64_i32_171
  let c21_i32 : BitVec 32 := 21#32
  let v238 : BitVec 32 := Scalar.addi v237 c21_i32
  let c0_i32_174 : BitVec 32 := 0#32
  let c0_i32_175 : BitVec 32 := 0#32
  ![v238.toNat, 0, 0]
def k0_off88 (v240 : BitVec 32) : Fin 3 → Nat :=
  let c0_i32_176 : BitVec 32 := 0#32
  let c0_i32_177 : BitVec 32 := 0#32
  ![v240.toNat, 0, 0]

def k0_chk22 (v240 : BitVec 32) : Prop :=
  (∀ a, (k0_off88 v240) a + S1x1x64.size a ≤ S1000000x1x64.size a) ∧
  (∀ (hinb : ∀ a, (k0_off88 v240) a + S1x1x64.size a ≤ S1000000x1x64.size a), (Rect.unit (s := S1000000x1x64) (k0_off88 v240) S1x1x64.size hinb).WholeWords (EltTy.packing .bf16))
instance k0_chk22.dec : ∀ (v240 : BitVec 32), Decidable (k0_chk22 v240) := fun v240 => decidable_of_iff' _ (Iff.of_eq (k0_chk22.eq_1 v240))
theorem k0_off88_inb : ∀ (v240 : BitVec 32) (k0_hw22 : k0_chk22 v240), ∀ a, (k0_off88 v240) a + S1x1x64.size a ≤ S1000000x1x64.size a := fun v240 k0_hw22 => k0_hw22.1
theorem k0_off88_wordsbf16 : ∀ (v240 : BitVec 32) (k0_hw22 : k0_chk22 v240), (Rect.unit (s := S1000000x1x64) (k0_off88 v240) S1x1x64.size (k0_off88_inb v240 k0_hw22)).WholeWords (EltTy.packing .bf16) := fun v240 k0_hw22 => k0_hw22.2 (k0_off88_inb v240 k0_hw22)

def k0_off89 (k0_t1 : Fin k0_t1_loop.trips) : Fin 3 → Nat :=
  let c0_179 : Index := 0#32
  let c0_180 : Index := 0#32
  let c0_i32_1 : BitVec 32 := 0#32
  let c1_i32 : BitVec 32 := 1#32
  let arg9 : BitVec 32 := Scf.iv c0_i32_1 c1_i32 k0_t1
  let c64_i32_178 : BitVec 32 := 64#32
  let v247 : BitVec 32 := Scalar.muli arg9 c64_i32_178
  let c22_i32 : BitVec 32 := 22#32
  let v248 : BitVec 32 := Scalar.addi v247 c22_i32
  let v249 : Index := Scalar.indexCast v248
  ![0, 0, v249.toNat]
def k0_off90 (k0_t1 : Fin k0_t1_loop.trips) : Fin 1 → Nat :=
  let c0_i32_1 : BitVec 32 := 0#32
  let c1_i32 : BitVec 32 := 1#32
  let arg9 : BitVec 32 := Scf.iv c0_i32_1 c1_i32 k0_t1
  let c64_i32_178 : BitVec 32 := 64#32
  let v247 : BitVec 32 := Scalar.muli arg9 c64_i32_178
  let c22_i32 : BitVec 32 := 22#32
  let v248 : BitVec 32 := Scalar.addi v247 c22_i32
  ![v248.toNat]
def k0_off91 (k0_t1 : Fin k0_t1_loop.trips) : Fin 3 → Nat :=
  let c0_i32_1 : BitVec 32 := 0#32
  let c1_i32 : BitVec 32 := 1#32
  let arg9 : BitVec 32 := Scf.iv c0_i32_1 c1_i32 k0_t1
  let c64_i32_178 : BitVec 32 := 64#32
  let v247 : BitVec 32 := Scalar.muli arg9 c64_i32_178
  let c22_i32 : BitVec 32 := 22#32
  let v248 : BitVec 32 := Scalar.addi v247 c22_i32
  let c0_i32_181 : BitVec 32 := 0#32
  let c0_i32_182 : BitVec 32 := 0#32
  ![v248.toNat, 0, 0]
def k0_off92 (v250 : BitVec 32) : Fin 3 → Nat :=
  let c0_i32_183 : BitVec 32 := 0#32
  let c0_i32_184 : BitVec 32 := 0#32
  ![v250.toNat, 0, 0]

def k0_chk23 (v250 : BitVec 32) : Prop :=
  (∀ a, (k0_off92 v250) a + S1x1x64.size a ≤ S1000000x1x64.size a) ∧
  (∀ (hinb : ∀ a, (k0_off92 v250) a + S1x1x64.size a ≤ S1000000x1x64.size a), (Rect.unit (s := S1000000x1x64) (k0_off92 v250) S1x1x64.size hinb).WholeWords (EltTy.packing .bf16))
instance k0_chk23.dec : ∀ (v250 : BitVec 32), Decidable (k0_chk23 v250) := fun v250 => decidable_of_iff' _ (Iff.of_eq (k0_chk23.eq_1 v250))
theorem k0_off92_inb : ∀ (v250 : BitVec 32) (k0_hw23 : k0_chk23 v250), ∀ a, (k0_off92 v250) a + S1x1x64.size a ≤ S1000000x1x64.size a := fun v250 k0_hw23 => k0_hw23.1
theorem k0_off92_wordsbf16 : ∀ (v250 : BitVec 32) (k0_hw23 : k0_chk23 v250), (Rect.unit (s := S1000000x1x64) (k0_off92 v250) S1x1x64.size (k0_off92_inb v250 k0_hw23)).WholeWords (EltTy.packing .bf16) := fun v250 k0_hw23 => k0_hw23.2 (k0_off92_inb v250 k0_hw23)

def k0_off93 (k0_t1 : Fin k0_t1_loop.trips) : Fin 3 → Nat :=
  let c0_186 : Index := 0#32
  let c0_187 : Index := 0#32
  let c0_i32_1 : BitVec 32 := 0#32
  let c1_i32 : BitVec 32 := 1#32
  let arg9 : BitVec 32 := Scf.iv c0_i32_1 c1_i32 k0_t1
  let c64_i32_185 : BitVec 32 := 64#32
  let v257 : BitVec 32 := Scalar.muli arg9 c64_i32_185
  let c23_i32 : BitVec 32 := 23#32
  let v258 : BitVec 32 := Scalar.addi v257 c23_i32
  let v259 : Index := Scalar.indexCast v258
  ![0, 0, v259.toNat]
def k0_off94 (k0_t1 : Fin k0_t1_loop.trips) : Fin 1 → Nat :=
  let c0_i32_1 : BitVec 32 := 0#32
  let c1_i32 : BitVec 32 := 1#32
  let arg9 : BitVec 32 := Scf.iv c0_i32_1 c1_i32 k0_t1
  let c64_i32_185 : BitVec 32 := 64#32
  let v257 : BitVec 32 := Scalar.muli arg9 c64_i32_185
  let c23_i32 : BitVec 32 := 23#32
  let v258 : BitVec 32 := Scalar.addi v257 c23_i32
  ![v258.toNat]
def k0_off95 (k0_t1 : Fin k0_t1_loop.trips) : Fin 3 → Nat :=
  let c0_i32_1 : BitVec 32 := 0#32
  let c1_i32 : BitVec 32 := 1#32
  let arg9 : BitVec 32 := Scf.iv c0_i32_1 c1_i32 k0_t1
  let c64_i32_185 : BitVec 32 := 64#32
  let v257 : BitVec 32 := Scalar.muli arg9 c64_i32_185
  let c23_i32 : BitVec 32 := 23#32
  let v258 : BitVec 32 := Scalar.addi v257 c23_i32
  let c0_i32_188 : BitVec 32 := 0#32
  let c0_i32_189 : BitVec 32 := 0#32
  ![v258.toNat, 0, 0]
def k0_off96 (v260 : BitVec 32) : Fin 3 → Nat :=
  let c0_i32_190 : BitVec 32 := 0#32
  let c0_i32_191 : BitVec 32 := 0#32
  ![v260.toNat, 0, 0]

def k0_chk24 (v260 : BitVec 32) : Prop :=
  (∀ a, (k0_off96 v260) a + S1x1x64.size a ≤ S1000000x1x64.size a) ∧
  (∀ (hinb : ∀ a, (k0_off96 v260) a + S1x1x64.size a ≤ S1000000x1x64.size a), (Rect.unit (s := S1000000x1x64) (k0_off96 v260) S1x1x64.size hinb).WholeWords (EltTy.packing .bf16))
instance k0_chk24.dec : ∀ (v260 : BitVec 32), Decidable (k0_chk24 v260) := fun v260 => decidable_of_iff' _ (Iff.of_eq (k0_chk24.eq_1 v260))
theorem k0_off96_inb : ∀ (v260 : BitVec 32) (k0_hw24 : k0_chk24 v260), ∀ a, (k0_off96 v260) a + S1x1x64.size a ≤ S1000000x1x64.size a := fun v260 k0_hw24 => k0_hw24.1
theorem k0_off96_wordsbf16 : ∀ (v260 : BitVec 32) (k0_hw24 : k0_chk24 v260), (Rect.unit (s := S1000000x1x64) (k0_off96 v260) S1x1x64.size (k0_off96_inb v260 k0_hw24)).WholeWords (EltTy.packing .bf16) := fun v260 k0_hw24 => k0_hw24.2 (k0_off96_inb v260 k0_hw24)

def k0_off97 (k0_t1 : Fin k0_t1_loop.trips) : Fin 3 → Nat :=
  let c0_193 : Index := 0#32
  let c0_194 : Index := 0#32
  let c0_i32_1 : BitVec 32 := 0#32
  let c1_i32 : BitVec 32 := 1#32
  let arg9 : BitVec 32 := Scf.iv c0_i32_1 c1_i32 k0_t1
  let c64_i32_192 : BitVec 32 := 64#32
  let v267 : BitVec 32 := Scalar.muli arg9 c64_i32_192
  let c24_i32 : BitVec 32 := 24#32
  let v268 : BitVec 32 := Scalar.addi v267 c24_i32
  let v269 : Index := Scalar.indexCast v268
  ![0, 0, v269.toNat]
def k0_off98 (k0_t1 : Fin k0_t1_loop.trips) : Fin 1 → Nat :=
  let c0_i32_1 : BitVec 32 := 0#32
  let c1_i32 : BitVec 32 := 1#32
  let arg9 : BitVec 32 := Scf.iv c0_i32_1 c1_i32 k0_t1
  let c64_i32_192 : BitVec 32 := 64#32
  let v267 : BitVec 32 := Scalar.muli arg9 c64_i32_192
  let c24_i32 : BitVec 32 := 24#32
  let v268 : BitVec 32 := Scalar.addi v267 c24_i32
  ![v268.toNat]
def k0_off99 (k0_t1 : Fin k0_t1_loop.trips) : Fin 3 → Nat :=
  let c0_i32_1 : BitVec 32 := 0#32
  let c1_i32 : BitVec 32 := 1#32
  let arg9 : BitVec 32 := Scf.iv c0_i32_1 c1_i32 k0_t1
  let c64_i32_192 : BitVec 32 := 64#32
  let v267 : BitVec 32 := Scalar.muli arg9 c64_i32_192
  let c24_i32 : BitVec 32 := 24#32
  let v268 : BitVec 32 := Scalar.addi v267 c24_i32
  let c0_i32_195 : BitVec 32 := 0#32
  let c0_i32_196 : BitVec 32 := 0#32
  ![v268.toNat, 0, 0]
def k0_off100 (v270 : BitVec 32) : Fin 3 → Nat :=
  let c0_i32_197 : BitVec 32 := 0#32
  let c0_i32_198 : BitVec 32 := 0#32
  ![v270.toNat, 0, 0]

def k0_chk25 (v270 : BitVec 32) : Prop :=
  (∀ a, (k0_off100 v270) a + S1x1x64.size a ≤ S1000000x1x64.size a) ∧
  (∀ (hinb : ∀ a, (k0_off100 v270) a + S1x1x64.size a ≤ S1000000x1x64.size a), (Rect.unit (s := S1000000x1x64) (k0_off100 v270) S1x1x64.size hinb).WholeWords (EltTy.packing .bf16))
instance k0_chk25.dec : ∀ (v270 : BitVec 32), Decidable (k0_chk25 v270) := fun v270 => decidable_of_iff' _ (Iff.of_eq (k0_chk25.eq_1 v270))
theorem k0_off100_inb : ∀ (v270 : BitVec 32) (k0_hw25 : k0_chk25 v270), ∀ a, (k0_off100 v270) a + S1x1x64.size a ≤ S1000000x1x64.size a := fun v270 k0_hw25 => k0_hw25.1
theorem k0_off100_wordsbf16 : ∀ (v270 : BitVec 32) (k0_hw25 : k0_chk25 v270), (Rect.unit (s := S1000000x1x64) (k0_off100 v270) S1x1x64.size (k0_off100_inb v270 k0_hw25)).WholeWords (EltTy.packing .bf16) := fun v270 k0_hw25 => k0_hw25.2 (k0_off100_inb v270 k0_hw25)

def k0_off101 (k0_t1 : Fin k0_t1_loop.trips) : Fin 3 → Nat :=
  let c0_200 : Index := 0#32
  let c0_201 : Index := 0#32
  let c0_i32_1 : BitVec 32 := 0#32
  let c1_i32 : BitVec 32 := 1#32
  let arg9 : BitVec 32 := Scf.iv c0_i32_1 c1_i32 k0_t1
  let c64_i32_199 : BitVec 32 := 64#32
  let v277 : BitVec 32 := Scalar.muli arg9 c64_i32_199
  let c25_i32 : BitVec 32 := 25#32
  let v278 : BitVec 32 := Scalar.addi v277 c25_i32
  let v279 : Index := Scalar.indexCast v278
  ![0, 0, v279.toNat]
def k0_off102 (k0_t1 : Fin k0_t1_loop.trips) : Fin 1 → Nat :=
  let c0_i32_1 : BitVec 32 := 0#32
  let c1_i32 : BitVec 32 := 1#32
  let arg9 : BitVec 32 := Scf.iv c0_i32_1 c1_i32 k0_t1
  let c64_i32_199 : BitVec 32 := 64#32
  let v277 : BitVec 32 := Scalar.muli arg9 c64_i32_199
  let c25_i32 : BitVec 32 := 25#32
  let v278 : BitVec 32 := Scalar.addi v277 c25_i32
  ![v278.toNat]
def k0_off103 (k0_t1 : Fin k0_t1_loop.trips) : Fin 3 → Nat :=
  let c0_i32_1 : BitVec 32 := 0#32
  let c1_i32 : BitVec 32 := 1#32
  let arg9 : BitVec 32 := Scf.iv c0_i32_1 c1_i32 k0_t1
  let c64_i32_199 : BitVec 32 := 64#32
  let v277 : BitVec 32 := Scalar.muli arg9 c64_i32_199
  let c25_i32 : BitVec 32 := 25#32
  let v278 : BitVec 32 := Scalar.addi v277 c25_i32
  let c0_i32_202 : BitVec 32 := 0#32
  let c0_i32_203 : BitVec 32 := 0#32
  ![v278.toNat, 0, 0]
def k0_off104 (v280 : BitVec 32) : Fin 3 → Nat :=
  let c0_i32_204 : BitVec 32 := 0#32
  let c0_i32_205 : BitVec 32 := 0#32
  ![v280.toNat, 0, 0]

def k0_chk26 (v280 : BitVec 32) : Prop :=
  (∀ a, (k0_off104 v280) a + S1x1x64.size a ≤ S1000000x1x64.size a) ∧
  (∀ (hinb : ∀ a, (k0_off104 v280) a + S1x1x64.size a ≤ S1000000x1x64.size a), (Rect.unit (s := S1000000x1x64) (k0_off104 v280) S1x1x64.size hinb).WholeWords (EltTy.packing .bf16))
instance k0_chk26.dec : ∀ (v280 : BitVec 32), Decidable (k0_chk26 v280) := fun v280 => decidable_of_iff' _ (Iff.of_eq (k0_chk26.eq_1 v280))
theorem k0_off104_inb : ∀ (v280 : BitVec 32) (k0_hw26 : k0_chk26 v280), ∀ a, (k0_off104 v280) a + S1x1x64.size a ≤ S1000000x1x64.size a := fun v280 k0_hw26 => k0_hw26.1
theorem k0_off104_wordsbf16 : ∀ (v280 : BitVec 32) (k0_hw26 : k0_chk26 v280), (Rect.unit (s := S1000000x1x64) (k0_off104 v280) S1x1x64.size (k0_off104_inb v280 k0_hw26)).WholeWords (EltTy.packing .bf16) := fun v280 k0_hw26 => k0_hw26.2 (k0_off104_inb v280 k0_hw26)

def k0_off105 (k0_t1 : Fin k0_t1_loop.trips) : Fin 3 → Nat :=
  let c0_207 : Index := 0#32
  let c0_208 : Index := 0#32
  let c0_i32_1 : BitVec 32 := 0#32
  let c1_i32 : BitVec 32 := 1#32
  let arg9 : BitVec 32 := Scf.iv c0_i32_1 c1_i32 k0_t1
  let c64_i32_206 : BitVec 32 := 64#32
  let v287 : BitVec 32 := Scalar.muli arg9 c64_i32_206
  let c26_i32 : BitVec 32 := 26#32
  let v288 : BitVec 32 := Scalar.addi v287 c26_i32
  let v289 : Index := Scalar.indexCast v288
  ![0, 0, v289.toNat]
def k0_off106 (k0_t1 : Fin k0_t1_loop.trips) : Fin 1 → Nat :=
  let c0_i32_1 : BitVec 32 := 0#32
  let c1_i32 : BitVec 32 := 1#32
  let arg9 : BitVec 32 := Scf.iv c0_i32_1 c1_i32 k0_t1
  let c64_i32_206 : BitVec 32 := 64#32
  let v287 : BitVec 32 := Scalar.muli arg9 c64_i32_206
  let c26_i32 : BitVec 32 := 26#32
  let v288 : BitVec 32 := Scalar.addi v287 c26_i32
  ![v288.toNat]
def k0_off107 (k0_t1 : Fin k0_t1_loop.trips) : Fin 3 → Nat :=
  let c0_i32_1 : BitVec 32 := 0#32
  let c1_i32 : BitVec 32 := 1#32
  let arg9 : BitVec 32 := Scf.iv c0_i32_1 c1_i32 k0_t1
  let c64_i32_206 : BitVec 32 := 64#32
  let v287 : BitVec 32 := Scalar.muli arg9 c64_i32_206
  let c26_i32 : BitVec 32 := 26#32
  let v288 : BitVec 32 := Scalar.addi v287 c26_i32
  let c0_i32_209 : BitVec 32 := 0#32
  let c0_i32_210 : BitVec 32 := 0#32
  ![v288.toNat, 0, 0]
def k0_off108 (v290 : BitVec 32) : Fin 3 → Nat :=
  let c0_i32_211 : BitVec 32 := 0#32
  let c0_i32_212 : BitVec 32 := 0#32
  ![v290.toNat, 0, 0]

def k0_chk27 (v290 : BitVec 32) : Prop :=
  (∀ a, (k0_off108 v290) a + S1x1x64.size a ≤ S1000000x1x64.size a) ∧
  (∀ (hinb : ∀ a, (k0_off108 v290) a + S1x1x64.size a ≤ S1000000x1x64.size a), (Rect.unit (s := S1000000x1x64) (k0_off108 v290) S1x1x64.size hinb).WholeWords (EltTy.packing .bf16))
instance k0_chk27.dec : ∀ (v290 : BitVec 32), Decidable (k0_chk27 v290) := fun v290 => decidable_of_iff' _ (Iff.of_eq (k0_chk27.eq_1 v290))
theorem k0_off108_inb : ∀ (v290 : BitVec 32) (k0_hw27 : k0_chk27 v290), ∀ a, (k0_off108 v290) a + S1x1x64.size a ≤ S1000000x1x64.size a := fun v290 k0_hw27 => k0_hw27.1
theorem k0_off108_wordsbf16 : ∀ (v290 : BitVec 32) (k0_hw27 : k0_chk27 v290), (Rect.unit (s := S1000000x1x64) (k0_off108 v290) S1x1x64.size (k0_off108_inb v290 k0_hw27)).WholeWords (EltTy.packing .bf16) := fun v290 k0_hw27 => k0_hw27.2 (k0_off108_inb v290 k0_hw27)

def k0_off109 (k0_t1 : Fin k0_t1_loop.trips) : Fin 3 → Nat :=
  let c0_214 : Index := 0#32
  let c0_215 : Index := 0#32
  let c0_i32_1 : BitVec 32 := 0#32
  let c1_i32 : BitVec 32 := 1#32
  let arg9 : BitVec 32 := Scf.iv c0_i32_1 c1_i32 k0_t1
  let c64_i32_213 : BitVec 32 := 64#32
  let v297 : BitVec 32 := Scalar.muli arg9 c64_i32_213
  let c27_i32 : BitVec 32 := 27#32
  let v298 : BitVec 32 := Scalar.addi v297 c27_i32
  let v299 : Index := Scalar.indexCast v298
  ![0, 0, v299.toNat]
def k0_off110 (k0_t1 : Fin k0_t1_loop.trips) : Fin 1 → Nat :=
  let c0_i32_1 : BitVec 32 := 0#32
  let c1_i32 : BitVec 32 := 1#32
  let arg9 : BitVec 32 := Scf.iv c0_i32_1 c1_i32 k0_t1
  let c64_i32_213 : BitVec 32 := 64#32
  let v297 : BitVec 32 := Scalar.muli arg9 c64_i32_213
  let c27_i32 : BitVec 32 := 27#32
  let v298 : BitVec 32 := Scalar.addi v297 c27_i32
  ![v298.toNat]
def k0_off111 (k0_t1 : Fin k0_t1_loop.trips) : Fin 3 → Nat :=
  let c0_i32_1 : BitVec 32 := 0#32
  let c1_i32 : BitVec 32 := 1#32
  let arg9 : BitVec 32 := Scf.iv c0_i32_1 c1_i32 k0_t1
  let c64_i32_213 : BitVec 32 := 64#32
  let v297 : BitVec 32 := Scalar.muli arg9 c64_i32_213
  let c27_i32 : BitVec 32 := 27#32
  let v298 : BitVec 32 := Scalar.addi v297 c27_i32
  let c0_i32_216 : BitVec 32 := 0#32
  let c0_i32_217 : BitVec 32 := 0#32
  ![v298.toNat, 0, 0]
def k0_off112 (v300 : BitVec 32) : Fin 3 → Nat :=
  let c0_i32_218 : BitVec 32 := 0#32
  let c0_i32_219 : BitVec 32 := 0#32
  ![v300.toNat, 0, 0]

def k0_chk28 (v300 : BitVec 32) : Prop :=
  (∀ a, (k0_off112 v300) a + S1x1x64.size a ≤ S1000000x1x64.size a) ∧
  (∀ (hinb : ∀ a, (k0_off112 v300) a + S1x1x64.size a ≤ S1000000x1x64.size a), (Rect.unit (s := S1000000x1x64) (k0_off112 v300) S1x1x64.size hinb).WholeWords (EltTy.packing .bf16))
instance k0_chk28.dec : ∀ (v300 : BitVec 32), Decidable (k0_chk28 v300) := fun v300 => decidable_of_iff' _ (Iff.of_eq (k0_chk28.eq_1 v300))
theorem k0_off112_inb : ∀ (v300 : BitVec 32) (k0_hw28 : k0_chk28 v300), ∀ a, (k0_off112 v300) a + S1x1x64.size a ≤ S1000000x1x64.size a := fun v300 k0_hw28 => k0_hw28.1
theorem k0_off112_wordsbf16 : ∀ (v300 : BitVec 32) (k0_hw28 : k0_chk28 v300), (Rect.unit (s := S1000000x1x64) (k0_off112 v300) S1x1x64.size (k0_off112_inb v300 k0_hw28)).WholeWords (EltTy.packing .bf16) := fun v300 k0_hw28 => k0_hw28.2 (k0_off112_inb v300 k0_hw28)

def k0_off113 (k0_t1 : Fin k0_t1_loop.trips) : Fin 3 → Nat :=
  let c0_221 : Index := 0#32
  let c0_222 : Index := 0#32
  let c0_i32_1 : BitVec 32 := 0#32
  let c1_i32 : BitVec 32 := 1#32
  let arg9 : BitVec 32 := Scf.iv c0_i32_1 c1_i32 k0_t1
  let c64_i32_220 : BitVec 32 := 64#32
  let v307 : BitVec 32 := Scalar.muli arg9 c64_i32_220
  let c28_i32 : BitVec 32 := 28#32
  let v308 : BitVec 32 := Scalar.addi v307 c28_i32
  let v309 : Index := Scalar.indexCast v308
  ![0, 0, v309.toNat]
def k0_off114 (k0_t1 : Fin k0_t1_loop.trips) : Fin 1 → Nat :=
  let c0_i32_1 : BitVec 32 := 0#32
  let c1_i32 : BitVec 32 := 1#32
  let arg9 : BitVec 32 := Scf.iv c0_i32_1 c1_i32 k0_t1
  let c64_i32_220 : BitVec 32 := 64#32
  let v307 : BitVec 32 := Scalar.muli arg9 c64_i32_220
  let c28_i32 : BitVec 32 := 28#32
  let v308 : BitVec 32 := Scalar.addi v307 c28_i32
  ![v308.toNat]
def k0_off115 (k0_t1 : Fin k0_t1_loop.trips) : Fin 3 → Nat :=
  let c0_i32_1 : BitVec 32 := 0#32
  let c1_i32 : BitVec 32 := 1#32
  let arg9 : BitVec 32 := Scf.iv c0_i32_1 c1_i32 k0_t1
  let c64_i32_220 : BitVec 32 := 64#32
  let v307 : BitVec 32 := Scalar.muli arg9 c64_i32_220
  let c28_i32 : BitVec 32 := 28#32
  let v308 : BitVec 32 := Scalar.addi v307 c28_i32
  let c0_i32_223 : BitVec 32 := 0#32
  let c0_i32_224 : BitVec 32 := 0#32
  ![v308.toNat, 0, 0]
def k0_off116 (v310 : BitVec 32) : Fin 3 → Nat :=
  let c0_i32_225 : BitVec 32 := 0#32
  let c0_i32_226 : BitVec 32 := 0#32
  ![v310.toNat, 0, 0]

def k0_chk29 (v310 : BitVec 32) : Prop :=
  (∀ a, (k0_off116 v310) a + S1x1x64.size a ≤ S1000000x1x64.size a) ∧
  (∀ (hinb : ∀ a, (k0_off116 v310) a + S1x1x64.size a ≤ S1000000x1x64.size a), (Rect.unit (s := S1000000x1x64) (k0_off116 v310) S1x1x64.size hinb).WholeWords (EltTy.packing .bf16))
instance k0_chk29.dec : ∀ (v310 : BitVec 32), Decidable (k0_chk29 v310) := fun v310 => decidable_of_iff' _ (Iff.of_eq (k0_chk29.eq_1 v310))
theorem k0_off116_inb : ∀ (v310 : BitVec 32) (k0_hw29 : k0_chk29 v310), ∀ a, (k0_off116 v310) a + S1x1x64.size a ≤ S1000000x1x64.size a := fun v310 k0_hw29 => k0_hw29.1
theorem k0_off116_wordsbf16 : ∀ (v310 : BitVec 32) (k0_hw29 : k0_chk29 v310), (Rect.unit (s := S1000000x1x64) (k0_off116 v310) S1x1x64.size (k0_off116_inb v310 k0_hw29)).WholeWords (EltTy.packing .bf16) := fun v310 k0_hw29 => k0_hw29.2 (k0_off116_inb v310 k0_hw29)

def k0_off117 (k0_t1 : Fin k0_t1_loop.trips) : Fin 3 → Nat :=
  let c0_228 : Index := 0#32
  let c0_229 : Index := 0#32
  let c0_i32_1 : BitVec 32 := 0#32
  let c1_i32 : BitVec 32 := 1#32
  let arg9 : BitVec 32 := Scf.iv c0_i32_1 c1_i32 k0_t1
  let c64_i32_227 : BitVec 32 := 64#32
  let v317 : BitVec 32 := Scalar.muli arg9 c64_i32_227
  let c29_i32 : BitVec 32 := 29#32
  let v318 : BitVec 32 := Scalar.addi v317 c29_i32
  let v319 : Index := Scalar.indexCast v318
  ![0, 0, v319.toNat]
def k0_off118 (k0_t1 : Fin k0_t1_loop.trips) : Fin 1 → Nat :=
  let c0_i32_1 : BitVec 32 := 0#32
  let c1_i32 : BitVec 32 := 1#32
  let arg9 : BitVec 32 := Scf.iv c0_i32_1 c1_i32 k0_t1
  let c64_i32_227 : BitVec 32 := 64#32
  let v317 : BitVec 32 := Scalar.muli arg9 c64_i32_227
  let c29_i32 : BitVec 32 := 29#32
  let v318 : BitVec 32 := Scalar.addi v317 c29_i32
  ![v318.toNat]
def k0_off119 (k0_t1 : Fin k0_t1_loop.trips) : Fin 3 → Nat :=
  let c0_i32_1 : BitVec 32 := 0#32
  let c1_i32 : BitVec 32 := 1#32
  let arg9 : BitVec 32 := Scf.iv c0_i32_1 c1_i32 k0_t1
  let c64_i32_227 : BitVec 32 := 64#32
  let v317 : BitVec 32 := Scalar.muli arg9 c64_i32_227
  let c29_i32 : BitVec 32 := 29#32
  let v318 : BitVec 32 := Scalar.addi v317 c29_i32
  let c0_i32_230 : BitVec 32 := 0#32
  let c0_i32_231 : BitVec 32 := 0#32
  ![v318.toNat, 0, 0]
def k0_off120 (v320 : BitVec 32) : Fin 3 → Nat :=
  let c0_i32_232 : BitVec 32 := 0#32
  let c0_i32_233 : BitVec 32 := 0#32
  ![v320.toNat, 0, 0]

def k0_chk30 (v320 : BitVec 32) : Prop :=
  (∀ a, (k0_off120 v320) a + S1x1x64.size a ≤ S1000000x1x64.size a) ∧
  (∀ (hinb : ∀ a, (k0_off120 v320) a + S1x1x64.size a ≤ S1000000x1x64.size a), (Rect.unit (s := S1000000x1x64) (k0_off120 v320) S1x1x64.size hinb).WholeWords (EltTy.packing .bf16))
instance k0_chk30.dec : ∀ (v320 : BitVec 32), Decidable (k0_chk30 v320) := fun v320 => decidable_of_iff' _ (Iff.of_eq (k0_chk30.eq_1 v320))
theorem k0_off120_inb : ∀ (v320 : BitVec 32) (k0_hw30 : k0_chk30 v320), ∀ a, (k0_off120 v320) a + S1x1x64.size a ≤ S1000000x1x64.size a := fun v320 k0_hw30 => k0_hw30.1
theorem k0_off120_wordsbf16 : ∀ (v320 : BitVec 32) (k0_hw30 : k0_chk30 v320), (Rect.unit (s := S1000000x1x64) (k0_off120 v320) S1x1x64.size (k0_off120_inb v320 k0_hw30)).WholeWords (EltTy.packing .bf16) := fun v320 k0_hw30 => k0_hw30.2 (k0_off120_inb v320 k0_hw30)

def k0_off121 (k0_t1 : Fin k0_t1_loop.trips) : Fin 3 → Nat :=
  let c0_235 : Index := 0#32
  let c0_236 : Index := 0#32
  let c0_i32_1 : BitVec 32 := 0#32
  let c1_i32 : BitVec 32 := 1#32
  let arg9 : BitVec 32 := Scf.iv c0_i32_1 c1_i32 k0_t1
  let c64_i32_234 : BitVec 32 := 64#32
  let v327 : BitVec 32 := Scalar.muli arg9 c64_i32_234
  let c30_i32 : BitVec 32 := 30#32
  let v328 : BitVec 32 := Scalar.addi v327 c30_i32
  let v329 : Index := Scalar.indexCast v328
  ![0, 0, v329.toNat]
def k0_off122 (k0_t1 : Fin k0_t1_loop.trips) : Fin 1 → Nat :=
  let c0_i32_1 : BitVec 32 := 0#32
  let c1_i32 : BitVec 32 := 1#32
  let arg9 : BitVec 32 := Scf.iv c0_i32_1 c1_i32 k0_t1
  let c64_i32_234 : BitVec 32 := 64#32
  let v327 : BitVec 32 := Scalar.muli arg9 c64_i32_234
  let c30_i32 : BitVec 32 := 30#32
  let v328 : BitVec 32 := Scalar.addi v327 c30_i32
  ![v328.toNat]
def k0_off123 (k0_t1 : Fin k0_t1_loop.trips) : Fin 3 → Nat :=
  let c0_i32_1 : BitVec 32 := 0#32
  let c1_i32 : BitVec 32 := 1#32
  let arg9 : BitVec 32 := Scf.iv c0_i32_1 c1_i32 k0_t1
  let c64_i32_234 : BitVec 32 := 64#32
  let v327 : BitVec 32 := Scalar.muli arg9 c64_i32_234
  let c30_i32 : BitVec 32 := 30#32
  let v328 : BitVec 32 := Scalar.addi v327 c30_i32
  let c0_i32_237 : BitVec 32 := 0#32
  let c0_i32_238 : BitVec 32 := 0#32
  ![v328.toNat, 0, 0]
def k0_off124 (v330 : BitVec 32) : Fin 3 → Nat :=
  let c0_i32_239 : BitVec 32 := 0#32
  let c0_i32_240 : BitVec 32 := 0#32
  ![v330.toNat, 0, 0]

def k0_chk31 (v330 : BitVec 32) : Prop :=
  (∀ a, (k0_off124 v330) a + S1x1x64.size a ≤ S1000000x1x64.size a) ∧
  (∀ (hinb : ∀ a, (k0_off124 v330) a + S1x1x64.size a ≤ S1000000x1x64.size a), (Rect.unit (s := S1000000x1x64) (k0_off124 v330) S1x1x64.size hinb).WholeWords (EltTy.packing .bf16))
instance k0_chk31.dec : ∀ (v330 : BitVec 32), Decidable (k0_chk31 v330) := fun v330 => decidable_of_iff' _ (Iff.of_eq (k0_chk31.eq_1 v330))
theorem k0_off124_inb : ∀ (v330 : BitVec 32) (k0_hw31 : k0_chk31 v330), ∀ a, (k0_off124 v330) a + S1x1x64.size a ≤ S1000000x1x64.size a := fun v330 k0_hw31 => k0_hw31.1
theorem k0_off124_wordsbf16 : ∀ (v330 : BitVec 32) (k0_hw31 : k0_chk31 v330), (Rect.unit (s := S1000000x1x64) (k0_off124 v330) S1x1x64.size (k0_off124_inb v330 k0_hw31)).WholeWords (EltTy.packing .bf16) := fun v330 k0_hw31 => k0_hw31.2 (k0_off124_inb v330 k0_hw31)

def k0_off125 (k0_t1 : Fin k0_t1_loop.trips) : Fin 3 → Nat :=
  let c0_242 : Index := 0#32
  let c0_243 : Index := 0#32
  let c0_i32_1 : BitVec 32 := 0#32
  let c1_i32 : BitVec 32 := 1#32
  let arg9 : BitVec 32 := Scf.iv c0_i32_1 c1_i32 k0_t1
  let c64_i32_241 : BitVec 32 := 64#32
  let v337 : BitVec 32 := Scalar.muli arg9 c64_i32_241
  let c31_i32 : BitVec 32 := 31#32
  let v338 : BitVec 32 := Scalar.addi v337 c31_i32
  let v339 : Index := Scalar.indexCast v338
  ![0, 0, v339.toNat]
def k0_off126 (k0_t1 : Fin k0_t1_loop.trips) : Fin 1 → Nat :=
  let c0_i32_1 : BitVec 32 := 0#32
  let c1_i32 : BitVec 32 := 1#32
  let arg9 : BitVec 32 := Scf.iv c0_i32_1 c1_i32 k0_t1
  let c64_i32_241 : BitVec 32 := 64#32
  let v337 : BitVec 32 := Scalar.muli arg9 c64_i32_241
  let c31_i32 : BitVec 32 := 31#32
  let v338 : BitVec 32 := Scalar.addi v337 c31_i32
  ![v338.toNat]
def k0_off127 (k0_t1 : Fin k0_t1_loop.trips) : Fin 3 → Nat :=
  let c0_i32_1 : BitVec 32 := 0#32
  let c1_i32 : BitVec 32 := 1#32
  let arg9 : BitVec 32 := Scf.iv c0_i32_1 c1_i32 k0_t1
  let c64_i32_241 : BitVec 32 := 64#32
  let v337 : BitVec 32 := Scalar.muli arg9 c64_i32_241
  let c31_i32 : BitVec 32 := 31#32
  let v338 : BitVec 32 := Scalar.addi v337 c31_i32
  let c0_i32_244 : BitVec 32 := 0#32
  let c0_i32_245 : BitVec 32 := 0#32
  ![v338.toNat, 0, 0]
def k0_off128 (v340 : BitVec 32) : Fin 3 → Nat :=
  let c0_i32_246 : BitVec 32 := 0#32
  let c0_i32_247 : BitVec 32 := 0#32
  ![v340.toNat, 0, 0]

def k0_chk32 (v340 : BitVec 32) : Prop :=
  (∀ a, (k0_off128 v340) a + S1x1x64.size a ≤ S1000000x1x64.size a) ∧
  (∀ (hinb : ∀ a, (k0_off128 v340) a + S1x1x64.size a ≤ S1000000x1x64.size a), (Rect.unit (s := S1000000x1x64) (k0_off128 v340) S1x1x64.size hinb).WholeWords (EltTy.packing .bf16))
instance k0_chk32.dec : ∀ (v340 : BitVec 32), Decidable (k0_chk32 v340) := fun v340 => decidable_of_iff' _ (Iff.of_eq (k0_chk32.eq_1 v340))
theorem k0_off128_inb : ∀ (v340 : BitVec 32) (k0_hw32 : k0_chk32 v340), ∀ a, (k0_off128 v340) a + S1x1x64.size a ≤ S1000000x1x64.size a := fun v340 k0_hw32 => k0_hw32.1
theorem k0_off128_wordsbf16 : ∀ (v340 : BitVec 32) (k0_hw32 : k0_chk32 v340), (Rect.unit (s := S1000000x1x64) (k0_off128 v340) S1x1x64.size (k0_off128_inb v340 k0_hw32)).WholeWords (EltTy.packing .bf16) := fun v340 k0_hw32 => k0_hw32.2 (k0_off128_inb v340 k0_hw32)

def k0_off129 (k0_t1 : Fin k0_t1_loop.trips) : Fin 3 → Nat :=
  let c0_249 : Index := 0#32
  let c0_250 : Index := 0#32
  let c0_i32_1 : BitVec 32 := 0#32
  let c1_i32 : BitVec 32 := 1#32
  let arg9 : BitVec 32 := Scf.iv c0_i32_1 c1_i32 k0_t1
  let c64_i32_248 : BitVec 32 := 64#32
  let v347 : BitVec 32 := Scalar.muli arg9 c64_i32_248
  let c32_i32 : BitVec 32 := 32#32
  let v348 : BitVec 32 := Scalar.addi v347 c32_i32
  let v349 : Index := Scalar.indexCast v348
  ![0, 0, v349.toNat]
def k0_off130 (k0_t1 : Fin k0_t1_loop.trips) : Fin 1 → Nat :=
  let c0_i32_1 : BitVec 32 := 0#32
  let c1_i32 : BitVec 32 := 1#32
  let arg9 : BitVec 32 := Scf.iv c0_i32_1 c1_i32 k0_t1
  let c64_i32_248 : BitVec 32 := 64#32
  let v347 : BitVec 32 := Scalar.muli arg9 c64_i32_248
  let c32_i32 : BitVec 32 := 32#32
  let v348 : BitVec 32 := Scalar.addi v347 c32_i32
  ![v348.toNat]
def k0_off131 (k0_t1 : Fin k0_t1_loop.trips) : Fin 3 → Nat :=
  let c0_i32_1 : BitVec 32 := 0#32
  let c1_i32 : BitVec 32 := 1#32
  let arg9 : BitVec 32 := Scf.iv c0_i32_1 c1_i32 k0_t1
  let c64_i32_248 : BitVec 32 := 64#32
  let v347 : BitVec 32 := Scalar.muli arg9 c64_i32_248
  let c32_i32 : BitVec 32 := 32#32
  let v348 : BitVec 32 := Scalar.addi v347 c32_i32
  let c0_i32_251 : BitVec 32 := 0#32
  let c0_i32_252 : BitVec 32 := 0#32
  ![v348.toNat, 0, 0]
def k0_off132 (v350 : BitVec 32) : Fin 3 → Nat :=
  let c0_i32_253 : BitVec 32 := 0#32
  let c0_i32_254 : BitVec 32 := 0#32
  ![v350.toNat, 0, 0]

def k0_chk33 (v350 : BitVec 32) : Prop :=
  (∀ a, (k0_off132 v350) a + S1x1x64.size a ≤ S1000000x1x64.size a) ∧
  (∀ (hinb : ∀ a, (k0_off132 v350) a + S1x1x64.size a ≤ S1000000x1x64.size a), (Rect.unit (s := S1000000x1x64) (k0_off132 v350) S1x1x64.size hinb).WholeWords (EltTy.packing .bf16))
instance k0_chk33.dec : ∀ (v350 : BitVec 32), Decidable (k0_chk33 v350) := fun v350 => decidable_of_iff' _ (Iff.of_eq (k0_chk33.eq_1 v350))
theorem k0_off132_inb : ∀ (v350 : BitVec 32) (k0_hw33 : k0_chk33 v350), ∀ a, (k0_off132 v350) a + S1x1x64.size a ≤ S1000000x1x64.size a := fun v350 k0_hw33 => k0_hw33.1
theorem k0_off132_wordsbf16 : ∀ (v350 : BitVec 32) (k0_hw33 : k0_chk33 v350), (Rect.unit (s := S1000000x1x64) (k0_off132 v350) S1x1x64.size (k0_off132_inb v350 k0_hw33)).WholeWords (EltTy.packing .bf16) := fun v350 k0_hw33 => k0_hw33.2 (k0_off132_inb v350 k0_hw33)

def k0_off133 (k0_t1 : Fin k0_t1_loop.trips) : Fin 3 → Nat :=
  let c0_256 : Index := 0#32
  let c0_257 : Index := 0#32
  let c0_i32_1 : BitVec 32 := 0#32
  let c1_i32 : BitVec 32 := 1#32
  let arg9 : BitVec 32 := Scf.iv c0_i32_1 c1_i32 k0_t1
  let c64_i32_255 : BitVec 32 := 64#32
  let v357 : BitVec 32 := Scalar.muli arg9 c64_i32_255
  let c33_i32 : BitVec 32 := 33#32
  let v358 : BitVec 32 := Scalar.addi v357 c33_i32
  let v359 : Index := Scalar.indexCast v358
  ![0, 0, v359.toNat]
def k0_off134 (k0_t1 : Fin k0_t1_loop.trips) : Fin 1 → Nat :=
  let c0_i32_1 : BitVec 32 := 0#32
  let c1_i32 : BitVec 32 := 1#32
  let arg9 : BitVec 32 := Scf.iv c0_i32_1 c1_i32 k0_t1
  let c64_i32_255 : BitVec 32 := 64#32
  let v357 : BitVec 32 := Scalar.muli arg9 c64_i32_255
  let c33_i32 : BitVec 32 := 33#32
  let v358 : BitVec 32 := Scalar.addi v357 c33_i32
  ![v358.toNat]
def k0_off135 (k0_t1 : Fin k0_t1_loop.trips) : Fin 3 → Nat :=
  let c0_i32_1 : BitVec 32 := 0#32
  let c1_i32 : BitVec 32 := 1#32
  let arg9 : BitVec 32 := Scf.iv c0_i32_1 c1_i32 k0_t1
  let c64_i32_255 : BitVec 32 := 64#32
  let v357 : BitVec 32 := Scalar.muli arg9 c64_i32_255
  let c33_i32 : BitVec 32 := 33#32
  let v358 : BitVec 32 := Scalar.addi v357 c33_i32
  let c0_i32_258 : BitVec 32 := 0#32
  let c0_i32_259 : BitVec 32 := 0#32
  ![v358.toNat, 0, 0]
def k0_off136 (v360 : BitVec 32) : Fin 3 → Nat :=
  let c0_i32_260 : BitVec 32 := 0#32
  let c0_i32_261 : BitVec 32 := 0#32
  ![v360.toNat, 0, 0]

def k0_chk34 (v360 : BitVec 32) : Prop :=
  (∀ a, (k0_off136 v360) a + S1x1x64.size a ≤ S1000000x1x64.size a) ∧
  (∀ (hinb : ∀ a, (k0_off136 v360) a + S1x1x64.size a ≤ S1000000x1x64.size a), (Rect.unit (s := S1000000x1x64) (k0_off136 v360) S1x1x64.size hinb).WholeWords (EltTy.packing .bf16))
instance k0_chk34.dec : ∀ (v360 : BitVec 32), Decidable (k0_chk34 v360) := fun v360 => decidable_of_iff' _ (Iff.of_eq (k0_chk34.eq_1 v360))
theorem k0_off136_inb : ∀ (v360 : BitVec 32) (k0_hw34 : k0_chk34 v360), ∀ a, (k0_off136 v360) a + S1x1x64.size a ≤ S1000000x1x64.size a := fun v360 k0_hw34 => k0_hw34.1
theorem k0_off136_wordsbf16 : ∀ (v360 : BitVec 32) (k0_hw34 : k0_chk34 v360), (Rect.unit (s := S1000000x1x64) (k0_off136 v360) S1x1x64.size (k0_off136_inb v360 k0_hw34)).WholeWords (EltTy.packing .bf16) := fun v360 k0_hw34 => k0_hw34.2 (k0_off136_inb v360 k0_hw34)

def k0_off137 (k0_t1 : Fin k0_t1_loop.trips) : Fin 3 → Nat :=
  let c0_263 : Index := 0#32
  let c0_264 : Index := 0#32
  let c0_i32_1 : BitVec 32 := 0#32
  let c1_i32 : BitVec 32 := 1#32
  let arg9 : BitVec 32 := Scf.iv c0_i32_1 c1_i32 k0_t1
  let c64_i32_262 : BitVec 32 := 64#32
  let v367 : BitVec 32 := Scalar.muli arg9 c64_i32_262
  let c34_i32 : BitVec 32 := 34#32
  let v368 : BitVec 32 := Scalar.addi v367 c34_i32
  let v369 : Index := Scalar.indexCast v368
  ![0, 0, v369.toNat]
def k0_off138 (k0_t1 : Fin k0_t1_loop.trips) : Fin 1 → Nat :=
  let c0_i32_1 : BitVec 32 := 0#32
  let c1_i32 : BitVec 32 := 1#32
  let arg9 : BitVec 32 := Scf.iv c0_i32_1 c1_i32 k0_t1
  let c64_i32_262 : BitVec 32 := 64#32
  let v367 : BitVec 32 := Scalar.muli arg9 c64_i32_262
  let c34_i32 : BitVec 32 := 34#32
  let v368 : BitVec 32 := Scalar.addi v367 c34_i32
  ![v368.toNat]
def k0_off139 (k0_t1 : Fin k0_t1_loop.trips) : Fin 3 → Nat :=
  let c0_i32_1 : BitVec 32 := 0#32
  let c1_i32 : BitVec 32 := 1#32
  let arg9 : BitVec 32 := Scf.iv c0_i32_1 c1_i32 k0_t1
  let c64_i32_262 : BitVec 32 := 64#32
  let v367 : BitVec 32 := Scalar.muli arg9 c64_i32_262
  let c34_i32 : BitVec 32 := 34#32
  let v368 : BitVec 32 := Scalar.addi v367 c34_i32
  let c0_i32_265 : BitVec 32 := 0#32
  let c0_i32_266 : BitVec 32 := 0#32
  ![v368.toNat, 0, 0]
def k0_off140 (v370 : BitVec 32) : Fin 3 → Nat :=
  let c0_i32_267 : BitVec 32 := 0#32
  let c0_i32_268 : BitVec 32 := 0#32
  ![v370.toNat, 0, 0]

def k0_chk35 (v370 : BitVec 32) : Prop :=
  (∀ a, (k0_off140 v370) a + S1x1x64.size a ≤ S1000000x1x64.size a) ∧
  (∀ (hinb : ∀ a, (k0_off140 v370) a + S1x1x64.size a ≤ S1000000x1x64.size a), (Rect.unit (s := S1000000x1x64) (k0_off140 v370) S1x1x64.size hinb).WholeWords (EltTy.packing .bf16))
instance k0_chk35.dec : ∀ (v370 : BitVec 32), Decidable (k0_chk35 v370) := fun v370 => decidable_of_iff' _ (Iff.of_eq (k0_chk35.eq_1 v370))
theorem k0_off140_inb : ∀ (v370 : BitVec 32) (k0_hw35 : k0_chk35 v370), ∀ a, (k0_off140 v370) a + S1x1x64.size a ≤ S1000000x1x64.size a := fun v370 k0_hw35 => k0_hw35.1
theorem k0_off140_wordsbf16 : ∀ (v370 : BitVec 32) (k0_hw35 : k0_chk35 v370), (Rect.unit (s := S1000000x1x64) (k0_off140 v370) S1x1x64.size (k0_off140_inb v370 k0_hw35)).WholeWords (EltTy.packing .bf16) := fun v370 k0_hw35 => k0_hw35.2 (k0_off140_inb v370 k0_hw35)

def k0_off141 (k0_t1 : Fin k0_t1_loop.trips) : Fin 3 → Nat :=
  let c0_270 : Index := 0#32
  let c0_271 : Index := 0#32
  let c0_i32_1 : BitVec 32 := 0#32
  let c1_i32 : BitVec 32 := 1#32
  let arg9 : BitVec 32 := Scf.iv c0_i32_1 c1_i32 k0_t1
  let c64_i32_269 : BitVec 32 := 64#32
  let v377 : BitVec 32 := Scalar.muli arg9 c64_i32_269
  let c35_i32 : BitVec 32 := 35#32
  let v378 : BitVec 32 := Scalar.addi v377 c35_i32
  let v379 : Index := Scalar.indexCast v378
  ![0, 0, v379.toNat]
def k0_off142 (k0_t1 : Fin k0_t1_loop.trips) : Fin 1 → Nat :=
  let c0_i32_1 : BitVec 32 := 0#32
  let c1_i32 : BitVec 32 := 1#32
  let arg9 : BitVec 32 := Scf.iv c0_i32_1 c1_i32 k0_t1
  let c64_i32_269 : BitVec 32 := 64#32
  let v377 : BitVec 32 := Scalar.muli arg9 c64_i32_269
  let c35_i32 : BitVec 32 := 35#32
  let v378 : BitVec 32 := Scalar.addi v377 c35_i32
  ![v378.toNat]
def k0_off143 (k0_t1 : Fin k0_t1_loop.trips) : Fin 3 → Nat :=
  let c0_i32_1 : BitVec 32 := 0#32
  let c1_i32 : BitVec 32 := 1#32
  let arg9 : BitVec 32 := Scf.iv c0_i32_1 c1_i32 k0_t1
  let c64_i32_269 : BitVec 32 := 64#32
  let v377 : BitVec 32 := Scalar.muli arg9 c64_i32_269
  let c35_i32 : BitVec 32 := 35#32
  let v378 : BitVec 32 := Scalar.addi v377 c35_i32
  let c0_i32_272 : BitVec 32 := 0#32
  let c0_i32_273 : BitVec 32 := 0#32
  ![v378.toNat, 0, 0]
def k0_off144 (v380 : BitVec 32) : Fin 3 → Nat :=
  let c0_i32_274 : BitVec 32 := 0#32
  let c0_i32_275 : BitVec 32 := 0#32
  ![v380.toNat, 0, 0]

def k0_chk36 (v380 : BitVec 32) : Prop :=
  (∀ a, (k0_off144 v380) a + S1x1x64.size a ≤ S1000000x1x64.size a) ∧
  (∀ (hinb : ∀ a, (k0_off144 v380) a + S1x1x64.size a ≤ S1000000x1x64.size a), (Rect.unit (s := S1000000x1x64) (k0_off144 v380) S1x1x64.size hinb).WholeWords (EltTy.packing .bf16))
instance k0_chk36.dec : ∀ (v380 : BitVec 32), Decidable (k0_chk36 v380) := fun v380 => decidable_of_iff' _ (Iff.of_eq (k0_chk36.eq_1 v380))
theorem k0_off144_inb : ∀ (v380 : BitVec 32) (k0_hw36 : k0_chk36 v380), ∀ a, (k0_off144 v380) a + S1x1x64.size a ≤ S1000000x1x64.size a := fun v380 k0_hw36 => k0_hw36.1
theorem k0_off144_wordsbf16 : ∀ (v380 : BitVec 32) (k0_hw36 : k0_chk36 v380), (Rect.unit (s := S1000000x1x64) (k0_off144 v380) S1x1x64.size (k0_off144_inb v380 k0_hw36)).WholeWords (EltTy.packing .bf16) := fun v380 k0_hw36 => k0_hw36.2 (k0_off144_inb v380 k0_hw36)

def k0_off145 (k0_t1 : Fin k0_t1_loop.trips) : Fin 3 → Nat :=
  let c0_277 : Index := 0#32
  let c0_278 : Index := 0#32
  let c0_i32_1 : BitVec 32 := 0#32
  let c1_i32 : BitVec 32 := 1#32
  let arg9 : BitVec 32 := Scf.iv c0_i32_1 c1_i32 k0_t1
  let c64_i32_276 : BitVec 32 := 64#32
  let v387 : BitVec 32 := Scalar.muli arg9 c64_i32_276
  let c36_i32 : BitVec 32 := 36#32
  let v388 : BitVec 32 := Scalar.addi v387 c36_i32
  let v389 : Index := Scalar.indexCast v388
  ![0, 0, v389.toNat]
def k0_off146 (k0_t1 : Fin k0_t1_loop.trips) : Fin 1 → Nat :=
  let c0_i32_1 : BitVec 32 := 0#32
  let c1_i32 : BitVec 32 := 1#32
  let arg9 : BitVec 32 := Scf.iv c0_i32_1 c1_i32 k0_t1
  let c64_i32_276 : BitVec 32 := 64#32
  let v387 : BitVec 32 := Scalar.muli arg9 c64_i32_276
  let c36_i32 : BitVec 32 := 36#32
  let v388 : BitVec 32 := Scalar.addi v387 c36_i32
  ![v388.toNat]
def k0_off147 (k0_t1 : Fin k0_t1_loop.trips) : Fin 3 → Nat :=
  let c0_i32_1 : BitVec 32 := 0#32
  let c1_i32 : BitVec 32 := 1#32
  let arg9 : BitVec 32 := Scf.iv c0_i32_1 c1_i32 k0_t1
  let c64_i32_276 : BitVec 32 := 64#32
  let v387 : BitVec 32 := Scalar.muli arg9 c64_i32_276
  let c36_i32 : BitVec 32 := 36#32
  let v388 : BitVec 32 := Scalar.addi v387 c36_i32
  let c0_i32_279 : BitVec 32 := 0#32
  let c0_i32_280 : BitVec 32 := 0#32
  ![v388.toNat, 0, 0]
def k0_off148 (v390 : BitVec 32) : Fin 3 → Nat :=
  let c0_i32_281 : BitVec 32 := 0#32
  let c0_i32_282 : BitVec 32 := 0#32
  ![v390.toNat, 0, 0]

def k0_chk37 (v390 : BitVec 32) : Prop :=
  (∀ a, (k0_off148 v390) a + S1x1x64.size a ≤ S1000000x1x64.size a) ∧
  (∀ (hinb : ∀ a, (k0_off148 v390) a + S1x1x64.size a ≤ S1000000x1x64.size a), (Rect.unit (s := S1000000x1x64) (k0_off148 v390) S1x1x64.size hinb).WholeWords (EltTy.packing .bf16))
instance k0_chk37.dec : ∀ (v390 : BitVec 32), Decidable (k0_chk37 v390) := fun v390 => decidable_of_iff' _ (Iff.of_eq (k0_chk37.eq_1 v390))
theorem k0_off148_inb : ∀ (v390 : BitVec 32) (k0_hw37 : k0_chk37 v390), ∀ a, (k0_off148 v390) a + S1x1x64.size a ≤ S1000000x1x64.size a := fun v390 k0_hw37 => k0_hw37.1
theorem k0_off148_wordsbf16 : ∀ (v390 : BitVec 32) (k0_hw37 : k0_chk37 v390), (Rect.unit (s := S1000000x1x64) (k0_off148 v390) S1x1x64.size (k0_off148_inb v390 k0_hw37)).WholeWords (EltTy.packing .bf16) := fun v390 k0_hw37 => k0_hw37.2 (k0_off148_inb v390 k0_hw37)

def k0_off149 (k0_t1 : Fin k0_t1_loop.trips) : Fin 3 → Nat :=
  let c0_284 : Index := 0#32
  let c0_285 : Index := 0#32
  let c0_i32_1 : BitVec 32 := 0#32
  let c1_i32 : BitVec 32 := 1#32
  let arg9 : BitVec 32 := Scf.iv c0_i32_1 c1_i32 k0_t1
  let c64_i32_283 : BitVec 32 := 64#32
  let v397 : BitVec 32 := Scalar.muli arg9 c64_i32_283
  let c37_i32 : BitVec 32 := 37#32
  let v398 : BitVec 32 := Scalar.addi v397 c37_i32
  let v399 : Index := Scalar.indexCast v398
  ![0, 0, v399.toNat]
def k0_off150 (k0_t1 : Fin k0_t1_loop.trips) : Fin 1 → Nat :=
  let c0_i32_1 : BitVec 32 := 0#32
  let c1_i32 : BitVec 32 := 1#32
  let arg9 : BitVec 32 := Scf.iv c0_i32_1 c1_i32 k0_t1
  let c64_i32_283 : BitVec 32 := 64#32
  let v397 : BitVec 32 := Scalar.muli arg9 c64_i32_283
  let c37_i32 : BitVec 32 := 37#32
  let v398 : BitVec 32 := Scalar.addi v397 c37_i32
  ![v398.toNat]
def k0_off151 (k0_t1 : Fin k0_t1_loop.trips) : Fin 3 → Nat :=
  let c0_i32_1 : BitVec 32 := 0#32
  let c1_i32 : BitVec 32 := 1#32
  let arg9 : BitVec 32 := Scf.iv c0_i32_1 c1_i32 k0_t1
  let c64_i32_283 : BitVec 32 := 64#32
  let v397 : BitVec 32 := Scalar.muli arg9 c64_i32_283
  let c37_i32 : BitVec 32 := 37#32
  let v398 : BitVec 32 := Scalar.addi v397 c37_i32
  let c0_i32_286 : BitVec 32 := 0#32
  let c0_i32_287 : BitVec 32 := 0#32
  ![v398.toNat, 0, 0]
def k0_off152 (v400 : BitVec 32) : Fin 3 → Nat :=
  let c0_i32_288 : BitVec 32 := 0#32
  let c0_i32_289 : BitVec 32 := 0#32
  ![v400.toNat, 0, 0]

def k0_chk38 (v400 : BitVec 32) : Prop :=
  (∀ a, (k0_off152 v400) a + S1x1x64.size a ≤ S1000000x1x64.size a) ∧
  (∀ (hinb : ∀ a, (k0_off152 v400) a + S1x1x64.size a ≤ S1000000x1x64.size a), (Rect.unit (s := S1000000x1x64) (k0_off152 v400) S1x1x64.size hinb).WholeWords (EltTy.packing .bf16))
instance k0_chk38.dec : ∀ (v400 : BitVec 32), Decidable (k0_chk38 v400) := fun v400 => decidable_of_iff' _ (Iff.of_eq (k0_chk38.eq_1 v400))
theorem k0_off152_inb : ∀ (v400 : BitVec 32) (k0_hw38 : k0_chk38 v400), ∀ a, (k0_off152 v400) a + S1x1x64.size a ≤ S1000000x1x64.size a := fun v400 k0_hw38 => k0_hw38.1
theorem k0_off152_wordsbf16 : ∀ (v400 : BitVec 32) (k0_hw38 : k0_chk38 v400), (Rect.unit (s := S1000000x1x64) (k0_off152 v400) S1x1x64.size (k0_off152_inb v400 k0_hw38)).WholeWords (EltTy.packing .bf16) := fun v400 k0_hw38 => k0_hw38.2 (k0_off152_inb v400 k0_hw38)

def k0_off153 (k0_t1 : Fin k0_t1_loop.trips) : Fin 3 → Nat :=
  let c0_291 : Index := 0#32
  let c0_292 : Index := 0#32
  let c0_i32_1 : BitVec 32 := 0#32
  let c1_i32 : BitVec 32 := 1#32
  let arg9 : BitVec 32 := Scf.iv c0_i32_1 c1_i32 k0_t1
  let c64_i32_290 : BitVec 32 := 64#32
  let v407 : BitVec 32 := Scalar.muli arg9 c64_i32_290
  let c38_i32 : BitVec 32 := 38#32
  let v408 : BitVec 32 := Scalar.addi v407 c38_i32
  let v409 : Index := Scalar.indexCast v408
  ![0, 0, v409.toNat]
def k0_off154 (k0_t1 : Fin k0_t1_loop.trips) : Fin 1 → Nat :=
  let c0_i32_1 : BitVec 32 := 0#32
  let c1_i32 : BitVec 32 := 1#32
  let arg9 : BitVec 32 := Scf.iv c0_i32_1 c1_i32 k0_t1
  let c64_i32_290 : BitVec 32 := 64#32
  let v407 : BitVec 32 := Scalar.muli arg9 c64_i32_290
  let c38_i32 : BitVec 32 := 38#32
  let v408 : BitVec 32 := Scalar.addi v407 c38_i32
  ![v408.toNat]
def k0_off155 (k0_t1 : Fin k0_t1_loop.trips) : Fin 3 → Nat :=
  let c0_i32_1 : BitVec 32 := 0#32
  let c1_i32 : BitVec 32 := 1#32
  let arg9 : BitVec 32 := Scf.iv c0_i32_1 c1_i32 k0_t1
  let c64_i32_290 : BitVec 32 := 64#32
  let v407 : BitVec 32 := Scalar.muli arg9 c64_i32_290
  let c38_i32 : BitVec 32 := 38#32
  let v408 : BitVec 32 := Scalar.addi v407 c38_i32
  let c0_i32_293 : BitVec 32 := 0#32
  let c0_i32_294 : BitVec 32 := 0#32
  ![v408.toNat, 0, 0]
def k0_off156 (v410 : BitVec 32) : Fin 3 → Nat :=
  let c0_i32_295 : BitVec 32 := 0#32
  let c0_i32_296 : BitVec 32 := 0#32
  ![v410.toNat, 0, 0]

def k0_chk39 (v410 : BitVec 32) : Prop :=
  (∀ a, (k0_off156 v410) a + S1x1x64.size a ≤ S1000000x1x64.size a) ∧
  (∀ (hinb : ∀ a, (k0_off156 v410) a + S1x1x64.size a ≤ S1000000x1x64.size a), (Rect.unit (s := S1000000x1x64) (k0_off156 v410) S1x1x64.size hinb).WholeWords (EltTy.packing .bf16))
instance k0_chk39.dec : ∀ (v410 : BitVec 32), Decidable (k0_chk39 v410) := fun v410 => decidable_of_iff' _ (Iff.of_eq (k0_chk39.eq_1 v410))
theorem k0_off156_inb : ∀ (v410 : BitVec 32) (k0_hw39 : k0_chk39 v410), ∀ a, (k0_off156 v410) a + S1x1x64.size a ≤ S1000000x1x64.size a := fun v410 k0_hw39 => k0_hw39.1
theorem k0_off156_wordsbf16 : ∀ (v410 : BitVec 32) (k0_hw39 : k0_chk39 v410), (Rect.unit (s := S1000000x1x64) (k0_off156 v410) S1x1x64.size (k0_off156_inb v410 k0_hw39)).WholeWords (EltTy.packing .bf16) := fun v410 k0_hw39 => k0_hw39.2 (k0_off156_inb v410 k0_hw39)

def k0_off157 (k0_t1 : Fin k0_t1_loop.trips) : Fin 3 → Nat :=
  let c0_298 : Index := 0#32
  let c0_299 : Index := 0#32
  let c0_i32_1 : BitVec 32 := 0#32
  let c1_i32 : BitVec 32 := 1#32
  let arg9 : BitVec 32 := Scf.iv c0_i32_1 c1_i32 k0_t1
  let c64_i32_297 : BitVec 32 := 64#32
  let v417 : BitVec 32 := Scalar.muli arg9 c64_i32_297
  let c39_i32 : BitVec 32 := 39#32
  let v418 : BitVec 32 := Scalar.addi v417 c39_i32
  let v419 : Index := Scalar.indexCast v418
  ![0, 0, v419.toNat]
def k0_off158 (k0_t1 : Fin k0_t1_loop.trips) : Fin 1 → Nat :=
  let c0_i32_1 : BitVec 32 := 0#32
  let c1_i32 : BitVec 32 := 1#32
  let arg9 : BitVec 32 := Scf.iv c0_i32_1 c1_i32 k0_t1
  let c64_i32_297 : BitVec 32 := 64#32
  let v417 : BitVec 32 := Scalar.muli arg9 c64_i32_297
  let c39_i32 : BitVec 32 := 39#32
  let v418 : BitVec 32 := Scalar.addi v417 c39_i32
  ![v418.toNat]
def k0_off159 (k0_t1 : Fin k0_t1_loop.trips) : Fin 3 → Nat :=
  let c0_i32_1 : BitVec 32 := 0#32
  let c1_i32 : BitVec 32 := 1#32
  let arg9 : BitVec 32 := Scf.iv c0_i32_1 c1_i32 k0_t1
  let c64_i32_297 : BitVec 32 := 64#32
  let v417 : BitVec 32 := Scalar.muli arg9 c64_i32_297
  let c39_i32 : BitVec 32 := 39#32
  let v418 : BitVec 32 := Scalar.addi v417 c39_i32
  let c0_i32_300 : BitVec 32 := 0#32
  let c0_i32_301 : BitVec 32 := 0#32
  ![v418.toNat, 0, 0]
def k0_off160 (v420 : BitVec 32) : Fin 3 → Nat :=
  let c0_i32_302 : BitVec 32 := 0#32
  let c0_i32_303 : BitVec 32 := 0#32
  ![v420.toNat, 0, 0]

def k0_chk40 (v420 : BitVec 32) : Prop :=
  (∀ a, (k0_off160 v420) a + S1x1x64.size a ≤ S1000000x1x64.size a) ∧
  (∀ (hinb : ∀ a, (k0_off160 v420) a + S1x1x64.size a ≤ S1000000x1x64.size a), (Rect.unit (s := S1000000x1x64) (k0_off160 v420) S1x1x64.size hinb).WholeWords (EltTy.packing .bf16))
instance k0_chk40.dec : ∀ (v420 : BitVec 32), Decidable (k0_chk40 v420) := fun v420 => decidable_of_iff' _ (Iff.of_eq (k0_chk40.eq_1 v420))
theorem k0_off160_inb : ∀ (v420 : BitVec 32) (k0_hw40 : k0_chk40 v420), ∀ a, (k0_off160 v420) a + S1x1x64.size a ≤ S1000000x1x64.size a := fun v420 k0_hw40 => k0_hw40.1
theorem k0_off160_wordsbf16 : ∀ (v420 : BitVec 32) (k0_hw40 : k0_chk40 v420), (Rect.unit (s := S1000000x1x64) (k0_off160 v420) S1x1x64.size (k0_off160_inb v420 k0_hw40)).WholeWords (EltTy.packing .bf16) := fun v420 k0_hw40 => k0_hw40.2 (k0_off160_inb v420 k0_hw40)

def k0_off161 (k0_t1 : Fin k0_t1_loop.trips) : Fin 3 → Nat :=
  let c0_305 : Index := 0#32
  let c0_306 : Index := 0#32
  let c0_i32_1 : BitVec 32 := 0#32
  let c1_i32 : BitVec 32 := 1#32
  let arg9 : BitVec 32 := Scf.iv c0_i32_1 c1_i32 k0_t1
  let c64_i32_304 : BitVec 32 := 64#32
  let v427 : BitVec 32 := Scalar.muli arg9 c64_i32_304
  let c40_i32 : BitVec 32 := 40#32
  let v428 : BitVec 32 := Scalar.addi v427 c40_i32
  let v429 : Index := Scalar.indexCast v428
  ![0, 0, v429.toNat]
def k0_off162 (k0_t1 : Fin k0_t1_loop.trips) : Fin 1 → Nat :=
  let c0_i32_1 : BitVec 32 := 0#32
  let c1_i32 : BitVec 32 := 1#32
  let arg9 : BitVec 32 := Scf.iv c0_i32_1 c1_i32 k0_t1
  let c64_i32_304 : BitVec 32 := 64#32
  let v427 : BitVec 32 := Scalar.muli arg9 c64_i32_304
  let c40_i32 : BitVec 32 := 40#32
  let v428 : BitVec 32 := Scalar.addi v427 c40_i32
  ![v428.toNat]
def k0_off163 (k0_t1 : Fin k0_t1_loop.trips) : Fin 3 → Nat :=
  let c0_i32_1 : BitVec 32 := 0#32
  let c1_i32 : BitVec 32 := 1#32
  let arg9 : BitVec 32 := Scf.iv c0_i32_1 c1_i32 k0_t1
  let c64_i32_304 : BitVec 32 := 64#32
  let v427 : BitVec 32 := Scalar.muli arg9 c64_i32_304
  let c40_i32 : BitVec 32 := 40#32
  let v428 : BitVec 32 := Scalar.addi v427 c40_i32
  let c0_i32_307 : BitVec 32 := 0#32
  let c0_i32_308 : BitVec 32 := 0#32
  ![v428.toNat, 0, 0]
def k0_off164 (v430 : BitVec 32) : Fin 3 → Nat :=
  let c0_i32_309 : BitVec 32 := 0#32
  let c0_i32_310 : BitVec 32 := 0#32
  ![v430.toNat, 0, 0]

def k0_chk41 (v430 : BitVec 32) : Prop :=
  (∀ a, (k0_off164 v430) a + S1x1x64.size a ≤ S1000000x1x64.size a) ∧
  (∀ (hinb : ∀ a, (k0_off164 v430) a + S1x1x64.size a ≤ S1000000x1x64.size a), (Rect.unit (s := S1000000x1x64) (k0_off164 v430) S1x1x64.size hinb).WholeWords (EltTy.packing .bf16))
instance k0_chk41.dec : ∀ (v430 : BitVec 32), Decidable (k0_chk41 v430) := fun v430 => decidable_of_iff' _ (Iff.of_eq (k0_chk41.eq_1 v430))
theorem k0_off164_inb : ∀ (v430 : BitVec 32) (k0_hw41 : k0_chk41 v430), ∀ a, (k0_off164 v430) a + S1x1x64.size a ≤ S1000000x1x64.size a := fun v430 k0_hw41 => k0_hw41.1
theorem k0_off164_wordsbf16 : ∀ (v430 : BitVec 32) (k0_hw41 : k0_chk41 v430), (Rect.unit (s := S1000000x1x64) (k0_off164 v430) S1x1x64.size (k0_off164_inb v430 k0_hw41)).WholeWords (EltTy.packing .bf16) := fun v430 k0_hw41 => k0_hw41.2 (k0_off164_inb v430 k0_hw41)

def k0_off165 (k0_t1 : Fin k0_t1_loop.trips) : Fin 3 → Nat :=
  let c0_312 : Index := 0#32
  let c0_313 : Index := 0#32
  let c0_i32_1 : BitVec 32 := 0#32
  let c1_i32 : BitVec 32 := 1#32
  let arg9 : BitVec 32 := Scf.iv c0_i32_1 c1_i32 k0_t1
  let c64_i32_311 : BitVec 32 := 64#32
  let v437 : BitVec 32 := Scalar.muli arg9 c64_i32_311
  let c41_i32 : BitVec 32 := 41#32
  let v438 : BitVec 32 := Scalar.addi v437 c41_i32
  let v439 : Index := Scalar.indexCast v438
  ![0, 0, v439.toNat]
def k0_off166 (k0_t1 : Fin k0_t1_loop.trips) : Fin 1 → Nat :=
  let c0_i32_1 : BitVec 32 := 0#32
  let c1_i32 : BitVec 32 := 1#32
  let arg9 : BitVec 32 := Scf.iv c0_i32_1 c1_i32 k0_t1
  let c64_i32_311 : BitVec 32 := 64#32
  let v437 : BitVec 32 := Scalar.muli arg9 c64_i32_311
  let c41_i32 : BitVec 32 := 41#32
  let v438 : BitVec 32 := Scalar.addi v437 c41_i32
  ![v438.toNat]
def k0_off167 (k0_t1 : Fin k0_t1_loop.trips) : Fin 3 → Nat :=
  let c0_i32_1 : BitVec 32 := 0#32
  let c1_i32 : BitVec 32 := 1#32
  let arg9 : BitVec 32 := Scf.iv c0_i32_1 c1_i32 k0_t1
  let c64_i32_311 : BitVec 32 := 64#32
  let v437 : BitVec 32 := Scalar.muli arg9 c64_i32_311
  let c41_i32 : BitVec 32 := 41#32
  let v438 : BitVec 32 := Scalar.addi v437 c41_i32
  let c0_i32_314 : BitVec 32 := 0#32
  let c0_i32_315 : BitVec 32 := 0#32
  ![v438.toNat, 0, 0]
def k0_off168 (v440 : BitVec 32) : Fin 3 → Nat :=
  let c0_i32_316 : BitVec 32 := 0#32
  let c0_i32_317 : BitVec 32 := 0#32
  ![v440.toNat, 0, 0]

def k0_chk42 (v440 : BitVec 32) : Prop :=
  (∀ a, (k0_off168 v440) a + S1x1x64.size a ≤ S1000000x1x64.size a) ∧
  (∀ (hinb : ∀ a, (k0_off168 v440) a + S1x1x64.size a ≤ S1000000x1x64.size a), (Rect.unit (s := S1000000x1x64) (k0_off168 v440) S1x1x64.size hinb).WholeWords (EltTy.packing .bf16))
instance k0_chk42.dec : ∀ (v440 : BitVec 32), Decidable (k0_chk42 v440) := fun v440 => decidable_of_iff' _ (Iff.of_eq (k0_chk42.eq_1 v440))
theorem k0_off168_inb : ∀ (v440 : BitVec 32) (k0_hw42 : k0_chk42 v440), ∀ a, (k0_off168 v440) a + S1x1x64.size a ≤ S1000000x1x64.size a := fun v440 k0_hw42 => k0_hw42.1
theorem k0_off168_wordsbf16 : ∀ (v440 : BitVec 32) (k0_hw42 : k0_chk42 v440), (Rect.unit (s := S1000000x1x64) (k0_off168 v440) S1x1x64.size (k0_off168_inb v440 k0_hw42)).WholeWords (EltTy.packing .bf16) := fun v440 k0_hw42 => k0_hw42.2 (k0_off168_inb v440 k0_hw42)

def k0_off169 (k0_t1 : Fin k0_t1_loop.trips) : Fin 3 → Nat :=
  let c0_319 : Index := 0#32
  let c0_320 : Index := 0#32
  let c0_i32_1 : BitVec 32 := 0#32
  let c1_i32 : BitVec 32 := 1#32
  let arg9 : BitVec 32 := Scf.iv c0_i32_1 c1_i32 k0_t1
  let c64_i32_318 : BitVec 32 := 64#32
  let v447 : BitVec 32 := Scalar.muli arg9 c64_i32_318
  let c42_i32 : BitVec 32 := 42#32
  let v448 : BitVec 32 := Scalar.addi v447 c42_i32
  let v449 : Index := Scalar.indexCast v448
  ![0, 0, v449.toNat]
def k0_off170 (k0_t1 : Fin k0_t1_loop.trips) : Fin 1 → Nat :=
  let c0_i32_1 : BitVec 32 := 0#32
  let c1_i32 : BitVec 32 := 1#32
  let arg9 : BitVec 32 := Scf.iv c0_i32_1 c1_i32 k0_t1
  let c64_i32_318 : BitVec 32 := 64#32
  let v447 : BitVec 32 := Scalar.muli arg9 c64_i32_318
  let c42_i32 : BitVec 32 := 42#32
  let v448 : BitVec 32 := Scalar.addi v447 c42_i32
  ![v448.toNat]
def k0_off171 (k0_t1 : Fin k0_t1_loop.trips) : Fin 3 → Nat :=
  let c0_i32_1 : BitVec 32 := 0#32
  let c1_i32 : BitVec 32 := 1#32
  let arg9 : BitVec 32 := Scf.iv c0_i32_1 c1_i32 k0_t1
  let c64_i32_318 : BitVec 32 := 64#32
  let v447 : BitVec 32 := Scalar.muli arg9 c64_i32_318
  let c42_i32 : BitVec 32 := 42#32
  let v448 : BitVec 32 := Scalar.addi v447 c42_i32
  let c0_i32_321 : BitVec 32 := 0#32
  let c0_i32_322 : BitVec 32 := 0#32
  ![v448.toNat, 0, 0]
def k0_off172 (v450 : BitVec 32) : Fin 3 → Nat :=
  let c0_i32_323 : BitVec 32 := 0#32
  let c0_i32_324 : BitVec 32 := 0#32
  ![v450.toNat, 0, 0]

def k0_chk43 (v450 : BitVec 32) : Prop :=
  (∀ a, (k0_off172 v450) a + S1x1x64.size a ≤ S1000000x1x64.size a) ∧
  (∀ (hinb : ∀ a, (k0_off172 v450) a + S1x1x64.size a ≤ S1000000x1x64.size a), (Rect.unit (s := S1000000x1x64) (k0_off172 v450) S1x1x64.size hinb).WholeWords (EltTy.packing .bf16))
instance k0_chk43.dec : ∀ (v450 : BitVec 32), Decidable (k0_chk43 v450) := fun v450 => decidable_of_iff' _ (Iff.of_eq (k0_chk43.eq_1 v450))
theorem k0_off172_inb : ∀ (v450 : BitVec 32) (k0_hw43 : k0_chk43 v450), ∀ a, (k0_off172 v450) a + S1x1x64.size a ≤ S1000000x1x64.size a := fun v450 k0_hw43 => k0_hw43.1
theorem k0_off172_wordsbf16 : ∀ (v450 : BitVec 32) (k0_hw43 : k0_chk43 v450), (Rect.unit (s := S1000000x1x64) (k0_off172 v450) S1x1x64.size (k0_off172_inb v450 k0_hw43)).WholeWords (EltTy.packing .bf16) := fun v450 k0_hw43 => k0_hw43.2 (k0_off172_inb v450 k0_hw43)

def k0_off173 (k0_t1 : Fin k0_t1_loop.trips) : Fin 3 → Nat :=
  let c0_326 : Index := 0#32
  let c0_327 : Index := 0#32
  let c0_i32_1 : BitVec 32 := 0#32
  let c1_i32 : BitVec 32 := 1#32
  let arg9 : BitVec 32 := Scf.iv c0_i32_1 c1_i32 k0_t1
  let c64_i32_325 : BitVec 32 := 64#32
  let v457 : BitVec 32 := Scalar.muli arg9 c64_i32_325
  let c43_i32 : BitVec 32 := 43#32
  let v458 : BitVec 32 := Scalar.addi v457 c43_i32
  let v459 : Index := Scalar.indexCast v458
  ![0, 0, v459.toNat]
def k0_off174 (k0_t1 : Fin k0_t1_loop.trips) : Fin 1 → Nat :=
  let c0_i32_1 : BitVec 32 := 0#32
  let c1_i32 : BitVec 32 := 1#32
  let arg9 : BitVec 32 := Scf.iv c0_i32_1 c1_i32 k0_t1
  let c64_i32_325 : BitVec 32 := 64#32
  let v457 : BitVec 32 := Scalar.muli arg9 c64_i32_325
  let c43_i32 : BitVec 32 := 43#32
  let v458 : BitVec 32 := Scalar.addi v457 c43_i32
  ![v458.toNat]
def k0_off175 (k0_t1 : Fin k0_t1_loop.trips) : Fin 3 → Nat :=
  let c0_i32_1 : BitVec 32 := 0#32
  let c1_i32 : BitVec 32 := 1#32
  let arg9 : BitVec 32 := Scf.iv c0_i32_1 c1_i32 k0_t1
  let c64_i32_325 : BitVec 32 := 64#32
  let v457 : BitVec 32 := Scalar.muli arg9 c64_i32_325
  let c43_i32 : BitVec 32 := 43#32
  let v458 : BitVec 32 := Scalar.addi v457 c43_i32
  let c0_i32_328 : BitVec 32 := 0#32
  let c0_i32_329 : BitVec 32 := 0#32
  ![v458.toNat, 0, 0]
def k0_off176 (v460 : BitVec 32) : Fin 3 → Nat :=
  let c0_i32_330 : BitVec 32 := 0#32
  let c0_i32_331 : BitVec 32 := 0#32
  ![v460.toNat, 0, 0]

def k0_chk44 (v460 : BitVec 32) : Prop :=
  (∀ a, (k0_off176 v460) a + S1x1x64.size a ≤ S1000000x1x64.size a) ∧
  (∀ (hinb : ∀ a, (k0_off176 v460) a + S1x1x64.size a ≤ S1000000x1x64.size a), (Rect.unit (s := S1000000x1x64) (k0_off176 v460) S1x1x64.size hinb).WholeWords (EltTy.packing .bf16))
instance k0_chk44.dec : ∀ (v460 : BitVec 32), Decidable (k0_chk44 v460) := fun v460 => decidable_of_iff' _ (Iff.of_eq (k0_chk44.eq_1 v460))
theorem k0_off176_inb : ∀ (v460 : BitVec 32) (k0_hw44 : k0_chk44 v460), ∀ a, (k0_off176 v460) a + S1x1x64.size a ≤ S1000000x1x64.size a := fun v460 k0_hw44 => k0_hw44.1
theorem k0_off176_wordsbf16 : ∀ (v460 : BitVec 32) (k0_hw44 : k0_chk44 v460), (Rect.unit (s := S1000000x1x64) (k0_off176 v460) S1x1x64.size (k0_off176_inb v460 k0_hw44)).WholeWords (EltTy.packing .bf16) := fun v460 k0_hw44 => k0_hw44.2 (k0_off176_inb v460 k0_hw44)

def k0_off177 (k0_t1 : Fin k0_t1_loop.trips) : Fin 3 → Nat :=
  let c0_333 : Index := 0#32
  let c0_334 : Index := 0#32
  let c0_i32_1 : BitVec 32 := 0#32
  let c1_i32 : BitVec 32 := 1#32
  let arg9 : BitVec 32 := Scf.iv c0_i32_1 c1_i32 k0_t1
  let c64_i32_332 : BitVec 32 := 64#32
  let v467 : BitVec 32 := Scalar.muli arg9 c64_i32_332
  let c44_i32 : BitVec 32 := 44#32
  let v468 : BitVec 32 := Scalar.addi v467 c44_i32
  let v469 : Index := Scalar.indexCast v468
  ![0, 0, v469.toNat]
def k0_off178 (k0_t1 : Fin k0_t1_loop.trips) : Fin 1 → Nat :=
  let c0_i32_1 : BitVec 32 := 0#32
  let c1_i32 : BitVec 32 := 1#32
  let arg9 : BitVec 32 := Scf.iv c0_i32_1 c1_i32 k0_t1
  let c64_i32_332 : BitVec 32 := 64#32
  let v467 : BitVec 32 := Scalar.muli arg9 c64_i32_332
  let c44_i32 : BitVec 32 := 44#32
  let v468 : BitVec 32 := Scalar.addi v467 c44_i32
  ![v468.toNat]
def k0_off179 (k0_t1 : Fin k0_t1_loop.trips) : Fin 3 → Nat :=
  let c0_i32_1 : BitVec 32 := 0#32
  let c1_i32 : BitVec 32 := 1#32
  let arg9 : BitVec 32 := Scf.iv c0_i32_1 c1_i32 k0_t1
  let c64_i32_332 : BitVec 32 := 64#32
  let v467 : BitVec 32 := Scalar.muli arg9 c64_i32_332
  let c44_i32 : BitVec 32 := 44#32
  let v468 : BitVec 32 := Scalar.addi v467 c44_i32
  let c0_i32_335 : BitVec 32 := 0#32
  let c0_i32_336 : BitVec 32 := 0#32
  ![v468.toNat, 0, 0]
def k0_off180 (v470 : BitVec 32) : Fin 3 → Nat :=
  let c0_i32_337 : BitVec 32 := 0#32
  let c0_i32_338 : BitVec 32 := 0#32
  ![v470.toNat, 0, 0]

def k0_chk45 (v470 : BitVec 32) : Prop :=
  (∀ a, (k0_off180 v470) a + S1x1x64.size a ≤ S1000000x1x64.size a) ∧
  (∀ (hinb : ∀ a, (k0_off180 v470) a + S1x1x64.size a ≤ S1000000x1x64.size a), (Rect.unit (s := S1000000x1x64) (k0_off180 v470) S1x1x64.size hinb).WholeWords (EltTy.packing .bf16))
instance k0_chk45.dec : ∀ (v470 : BitVec 32), Decidable (k0_chk45 v470) := fun v470 => decidable_of_iff' _ (Iff.of_eq (k0_chk45.eq_1 v470))
theorem k0_off180_inb : ∀ (v470 : BitVec 32) (k0_hw45 : k0_chk45 v470), ∀ a, (k0_off180 v470) a + S1x1x64.size a ≤ S1000000x1x64.size a := fun v470 k0_hw45 => k0_hw45.1
theorem k0_off180_wordsbf16 : ∀ (v470 : BitVec 32) (k0_hw45 : k0_chk45 v470), (Rect.unit (s := S1000000x1x64) (k0_off180 v470) S1x1x64.size (k0_off180_inb v470 k0_hw45)).WholeWords (EltTy.packing .bf16) := fun v470 k0_hw45 => k0_hw45.2 (k0_off180_inb v470 k0_hw45)

def k0_off181 (k0_t1 : Fin k0_t1_loop.trips) : Fin 3 → Nat :=
  let c0_340 : Index := 0#32
  let c0_341 : Index := 0#32
  let c0_i32_1 : BitVec 32 := 0#32
  let c1_i32 : BitVec 32 := 1#32
  let arg9 : BitVec 32 := Scf.iv c0_i32_1 c1_i32 k0_t1
  let c64_i32_339 : BitVec 32 := 64#32
  let v477 : BitVec 32 := Scalar.muli arg9 c64_i32_339
  let c45_i32 : BitVec 32 := 45#32
  let v478 : BitVec 32 := Scalar.addi v477 c45_i32
  let v479 : Index := Scalar.indexCast v478
  ![0, 0, v479.toNat]
def k0_off182 (k0_t1 : Fin k0_t1_loop.trips) : Fin 1 → Nat :=
  let c0_i32_1 : BitVec 32 := 0#32
  let c1_i32 : BitVec 32 := 1#32
  let arg9 : BitVec 32 := Scf.iv c0_i32_1 c1_i32 k0_t1
  let c64_i32_339 : BitVec 32 := 64#32
  let v477 : BitVec 32 := Scalar.muli arg9 c64_i32_339
  let c45_i32 : BitVec 32 := 45#32
  let v478 : BitVec 32 := Scalar.addi v477 c45_i32
  ![v478.toNat]
def k0_off183 (k0_t1 : Fin k0_t1_loop.trips) : Fin 3 → Nat :=
  let c0_i32_1 : BitVec 32 := 0#32
  let c1_i32 : BitVec 32 := 1#32
  let arg9 : BitVec 32 := Scf.iv c0_i32_1 c1_i32 k0_t1
  let c64_i32_339 : BitVec 32 := 64#32
  let v477 : BitVec 32 := Scalar.muli arg9 c64_i32_339
  let c45_i32 : BitVec 32 := 45#32
  let v478 : BitVec 32 := Scalar.addi v477 c45_i32
  let c0_i32_342 : BitVec 32 := 0#32
  let c0_i32_343 : BitVec 32 := 0#32
  ![v478.toNat, 0, 0]
def k0_off184 (v480 : BitVec 32) : Fin 3 → Nat :=
  let c0_i32_344 : BitVec 32 := 0#32
  let c0_i32_345 : BitVec 32 := 0#32
  ![v480.toNat, 0, 0]

def k0_chk46 (v480 : BitVec 32) : Prop :=
  (∀ a, (k0_off184 v480) a + S1x1x64.size a ≤ S1000000x1x64.size a) ∧
  (∀ (hinb : ∀ a, (k0_off184 v480) a + S1x1x64.size a ≤ S1000000x1x64.size a), (Rect.unit (s := S1000000x1x64) (k0_off184 v480) S1x1x64.size hinb).WholeWords (EltTy.packing .bf16))
instance k0_chk46.dec : ∀ (v480 : BitVec 32), Decidable (k0_chk46 v480) := fun v480 => decidable_of_iff' _ (Iff.of_eq (k0_chk46.eq_1 v480))
theorem k0_off184_inb : ∀ (v480 : BitVec 32) (k0_hw46 : k0_chk46 v480), ∀ a, (k0_off184 v480) a + S1x1x64.size a ≤ S1000000x1x64.size a := fun v480 k0_hw46 => k0_hw46.1
theorem k0_off184_wordsbf16 : ∀ (v480 : BitVec 32) (k0_hw46 : k0_chk46 v480), (Rect.unit (s := S1000000x1x64) (k0_off184 v480) S1x1x64.size (k0_off184_inb v480 k0_hw46)).WholeWords (EltTy.packing .bf16) := fun v480 k0_hw46 => k0_hw46.2 (k0_off184_inb v480 k0_hw46)

def k0_off185 (k0_t1 : Fin k0_t1_loop.trips) : Fin 3 → Nat :=
  let c0_347 : Index := 0#32
  let c0_348 : Index := 0#32
  let c0_i32_1 : BitVec 32 := 0#32
  let c1_i32 : BitVec 32 := 1#32
  let arg9 : BitVec 32 := Scf.iv c0_i32_1 c1_i32 k0_t1
  let c64_i32_346 : BitVec 32 := 64#32
  let v487 : BitVec 32 := Scalar.muli arg9 c64_i32_346
  let c46_i32 : BitVec 32 := 46#32
  let v488 : BitVec 32 := Scalar.addi v487 c46_i32
  let v489 : Index := Scalar.indexCast v488
  ![0, 0, v489.toNat]
def k0_off186 (k0_t1 : Fin k0_t1_loop.trips) : Fin 1 → Nat :=
  let c0_i32_1 : BitVec 32 := 0#32
  let c1_i32 : BitVec 32 := 1#32
  let arg9 : BitVec 32 := Scf.iv c0_i32_1 c1_i32 k0_t1
  let c64_i32_346 : BitVec 32 := 64#32
  let v487 : BitVec 32 := Scalar.muli arg9 c64_i32_346
  let c46_i32 : BitVec 32 := 46#32
  let v488 : BitVec 32 := Scalar.addi v487 c46_i32
  ![v488.toNat]
def k0_off187 (k0_t1 : Fin k0_t1_loop.trips) : Fin 3 → Nat :=
  let c0_i32_1 : BitVec 32 := 0#32
  let c1_i32 : BitVec 32 := 1#32
  let arg9 : BitVec 32 := Scf.iv c0_i32_1 c1_i32 k0_t1
  let c64_i32_346 : BitVec 32 := 64#32
  let v487 : BitVec 32 := Scalar.muli arg9 c64_i32_346
  let c46_i32 : BitVec 32 := 46#32
  let v488 : BitVec 32 := Scalar.addi v487 c46_i32
  let c0_i32_349 : BitVec 32 := 0#32
  let c0_i32_350 : BitVec 32 := 0#32
  ![v488.toNat, 0, 0]
def k0_off188 (v490 : BitVec 32) : Fin 3 → Nat :=
  let c0_i32_351 : BitVec 32 := 0#32
  let c0_i32_352 : BitVec 32 := 0#32
  ![v490.toNat, 0, 0]

def k0_chk47 (v490 : BitVec 32) : Prop :=
  (∀ a, (k0_off188 v490) a + S1x1x64.size a ≤ S1000000x1x64.size a) ∧
  (∀ (hinb : ∀ a, (k0_off188 v490) a + S1x1x64.size a ≤ S1000000x1x64.size a), (Rect.unit (s := S1000000x1x64) (k0_off188 v490) S1x1x64.size hinb).WholeWords (EltTy.packing .bf16))
instance k0_chk47.dec : ∀ (v490 : BitVec 32), Decidable (k0_chk47 v490) := fun v490 => decidable_of_iff' _ (Iff.of_eq (k0_chk47.eq_1 v490))
theorem k0_off188_inb : ∀ (v490 : BitVec 32) (k0_hw47 : k0_chk47 v490), ∀ a, (k0_off188 v490) a + S1x1x64.size a ≤ S1000000x1x64.size a := fun v490 k0_hw47 => k0_hw47.1
theorem k0_off188_wordsbf16 : ∀ (v490 : BitVec 32) (k0_hw47 : k0_chk47 v490), (Rect.unit (s := S1000000x1x64) (k0_off188 v490) S1x1x64.size (k0_off188_inb v490 k0_hw47)).WholeWords (EltTy.packing .bf16) := fun v490 k0_hw47 => k0_hw47.2 (k0_off188_inb v490 k0_hw47)

def k0_off189 (k0_t1 : Fin k0_t1_loop.trips) : Fin 3 → Nat :=
  let c0_354 : Index := 0#32
  let c0_355 : Index := 0#32
  let c0_i32_1 : BitVec 32 := 0#32
  let c1_i32 : BitVec 32 := 1#32
  let arg9 : BitVec 32 := Scf.iv c0_i32_1 c1_i32 k0_t1
  let c64_i32_353 : BitVec 32 := 64#32
  let v497 : BitVec 32 := Scalar.muli arg9 c64_i32_353
  let c47_i32 : BitVec 32 := 47#32
  let v498 : BitVec 32 := Scalar.addi v497 c47_i32
  let v499 : Index := Scalar.indexCast v498
  ![0, 0, v499.toNat]
def k0_off190 (k0_t1 : Fin k0_t1_loop.trips) : Fin 1 → Nat :=
  let c0_i32_1 : BitVec 32 := 0#32
  let c1_i32 : BitVec 32 := 1#32
  let arg9 : BitVec 32 := Scf.iv c0_i32_1 c1_i32 k0_t1
  let c64_i32_353 : BitVec 32 := 64#32
  let v497 : BitVec 32 := Scalar.muli arg9 c64_i32_353
  let c47_i32 : BitVec 32 := 47#32
  let v498 : BitVec 32 := Scalar.addi v497 c47_i32
  ![v498.toNat]
def k0_off191 (k0_t1 : Fin k0_t1_loop.trips) : Fin 3 → Nat :=
  let c0_i32_1 : BitVec 32 := 0#32
  let c1_i32 : BitVec 32 := 1#32
  let arg9 : BitVec 32 := Scf.iv c0_i32_1 c1_i32 k0_t1
  let c64_i32_353 : BitVec 32 := 64#32
  let v497 : BitVec 32 := Scalar.muli arg9 c64_i32_353
  let c47_i32 : BitVec 32 := 47#32
  let v498 : BitVec 32 := Scalar.addi v497 c47_i32
  let c0_i32_356 : BitVec 32 := 0#32
  let c0_i32_357 : BitVec 32 := 0#32
  ![v498.toNat, 0, 0]
def k0_off192 (v500 : BitVec 32) : Fin 3 → Nat :=
  let c0_i32_358 : BitVec 32 := 0#32
  let c0_i32_359 : BitVec 32 := 0#32
  ![v500.toNat, 0, 0]

def k0_chk48 (v500 : BitVec 32) : Prop :=
  (∀ a, (k0_off192 v500) a + S1x1x64.size a ≤ S1000000x1x64.size a) ∧
  (∀ (hinb : ∀ a, (k0_off192 v500) a + S1x1x64.size a ≤ S1000000x1x64.size a), (Rect.unit (s := S1000000x1x64) (k0_off192 v500) S1x1x64.size hinb).WholeWords (EltTy.packing .bf16))
instance k0_chk48.dec : ∀ (v500 : BitVec 32), Decidable (k0_chk48 v500) := fun v500 => decidable_of_iff' _ (Iff.of_eq (k0_chk48.eq_1 v500))
theorem k0_off192_inb : ∀ (v500 : BitVec 32) (k0_hw48 : k0_chk48 v500), ∀ a, (k0_off192 v500) a + S1x1x64.size a ≤ S1000000x1x64.size a := fun v500 k0_hw48 => k0_hw48.1
theorem k0_off192_wordsbf16 : ∀ (v500 : BitVec 32) (k0_hw48 : k0_chk48 v500), (Rect.unit (s := S1000000x1x64) (k0_off192 v500) S1x1x64.size (k0_off192_inb v500 k0_hw48)).WholeWords (EltTy.packing .bf16) := fun v500 k0_hw48 => k0_hw48.2 (k0_off192_inb v500 k0_hw48)

def k0_off193 (k0_t1 : Fin k0_t1_loop.trips) : Fin 3 → Nat :=
  let c0_361 : Index := 0#32
  let c0_362 : Index := 0#32
  let c0_i32_1 : BitVec 32 := 0#32
  let c1_i32 : BitVec 32 := 1#32
  let arg9 : BitVec 32 := Scf.iv c0_i32_1 c1_i32 k0_t1
  let c64_i32_360 : BitVec 32 := 64#32
  let v507 : BitVec 32 := Scalar.muli arg9 c64_i32_360
  let c48_i32 : BitVec 32 := 48#32
  let v508 : BitVec 32 := Scalar.addi v507 c48_i32
  let v509 : Index := Scalar.indexCast v508
  ![0, 0, v509.toNat]
def k0_off194 (k0_t1 : Fin k0_t1_loop.trips) : Fin 1 → Nat :=
  let c0_i32_1 : BitVec 32 := 0#32
  let c1_i32 : BitVec 32 := 1#32
  let arg9 : BitVec 32 := Scf.iv c0_i32_1 c1_i32 k0_t1
  let c64_i32_360 : BitVec 32 := 64#32
  let v507 : BitVec 32 := Scalar.muli arg9 c64_i32_360
  let c48_i32 : BitVec 32 := 48#32
  let v508 : BitVec 32 := Scalar.addi v507 c48_i32
  ![v508.toNat]
def k0_off195 (k0_t1 : Fin k0_t1_loop.trips) : Fin 3 → Nat :=
  let c0_i32_1 : BitVec 32 := 0#32
  let c1_i32 : BitVec 32 := 1#32
  let arg9 : BitVec 32 := Scf.iv c0_i32_1 c1_i32 k0_t1
  let c64_i32_360 : BitVec 32 := 64#32
  let v507 : BitVec 32 := Scalar.muli arg9 c64_i32_360
  let c48_i32 : BitVec 32 := 48#32
  let v508 : BitVec 32 := Scalar.addi v507 c48_i32
  let c0_i32_363 : BitVec 32 := 0#32
  let c0_i32_364 : BitVec 32 := 0#32
  ![v508.toNat, 0, 0]
def k0_off196 (v510 : BitVec 32) : Fin 3 → Nat :=
  let c0_i32_365 : BitVec 32 := 0#32
  let c0_i32_366 : BitVec 32 := 0#32
  ![v510.toNat, 0, 0]

def k0_chk49 (v510 : BitVec 32) : Prop :=
  (∀ a, (k0_off196 v510) a + S1x1x64.size a ≤ S1000000x1x64.size a) ∧
  (∀ (hinb : ∀ a, (k0_off196 v510) a + S1x1x64.size a ≤ S1000000x1x64.size a), (Rect.unit (s := S1000000x1x64) (k0_off196 v510) S1x1x64.size hinb).WholeWords (EltTy.packing .bf16))
instance k0_chk49.dec : ∀ (v510 : BitVec 32), Decidable (k0_chk49 v510) := fun v510 => decidable_of_iff' _ (Iff.of_eq (k0_chk49.eq_1 v510))
theorem k0_off196_inb : ∀ (v510 : BitVec 32) (k0_hw49 : k0_chk49 v510), ∀ a, (k0_off196 v510) a + S1x1x64.size a ≤ S1000000x1x64.size a := fun v510 k0_hw49 => k0_hw49.1
theorem k0_off196_wordsbf16 : ∀ (v510 : BitVec 32) (k0_hw49 : k0_chk49 v510), (Rect.unit (s := S1000000x1x64) (k0_off196 v510) S1x1x64.size (k0_off196_inb v510 k0_hw49)).WholeWords (EltTy.packing .bf16) := fun v510 k0_hw49 => k0_hw49.2 (k0_off196_inb v510 k0_hw49)

def k0_off197 (k0_t1 : Fin k0_t1_loop.trips) : Fin 3 → Nat :=
  let c0_368 : Index := 0#32
  let c0_369 : Index := 0#32
  let c0_i32_1 : BitVec 32 := 0#32
  let c1_i32 : BitVec 32 := 1#32
  let arg9 : BitVec 32 := Scf.iv c0_i32_1 c1_i32 k0_t1
  let c64_i32_367 : BitVec 32 := 64#32
  let v517 : BitVec 32 := Scalar.muli arg9 c64_i32_367
  let c49_i32 : BitVec 32 := 49#32
  let v518 : BitVec 32 := Scalar.addi v517 c49_i32
  let v519 : Index := Scalar.indexCast v518
  ![0, 0, v519.toNat]
def k0_off198 (k0_t1 : Fin k0_t1_loop.trips) : Fin 1 → Nat :=
  let c0_i32_1 : BitVec 32 := 0#32
  let c1_i32 : BitVec 32 := 1#32
  let arg9 : BitVec 32 := Scf.iv c0_i32_1 c1_i32 k0_t1
  let c64_i32_367 : BitVec 32 := 64#32
  let v517 : BitVec 32 := Scalar.muli arg9 c64_i32_367
  let c49_i32 : BitVec 32 := 49#32
  let v518 : BitVec 32 := Scalar.addi v517 c49_i32
  ![v518.toNat]
def k0_off199 (k0_t1 : Fin k0_t1_loop.trips) : Fin 3 → Nat :=
  let c0_i32_1 : BitVec 32 := 0#32
  let c1_i32 : BitVec 32 := 1#32
  let arg9 : BitVec 32 := Scf.iv c0_i32_1 c1_i32 k0_t1
  let c64_i32_367 : BitVec 32 := 64#32
  let v517 : BitVec 32 := Scalar.muli arg9 c64_i32_367
  let c49_i32 : BitVec 32 := 49#32
  let v518 : BitVec 32 := Scalar.addi v517 c49_i32
  let c0_i32_370 : BitVec 32 := 0#32
  let c0_i32_371 : BitVec 32 := 0#32
  ![v518.toNat, 0, 0]
def k0_off200 (v520 : BitVec 32) : Fin 3 → Nat :=
  let c0_i32_372 : BitVec 32 := 0#32
  let c0_i32_373 : BitVec 32 := 0#32
  ![v520.toNat, 0, 0]

def k0_chk50 (v520 : BitVec 32) : Prop :=
  (∀ a, (k0_off200 v520) a + S1x1x64.size a ≤ S1000000x1x64.size a) ∧
  (∀ (hinb : ∀ a, (k0_off200 v520) a + S1x1x64.size a ≤ S1000000x1x64.size a), (Rect.unit (s := S1000000x1x64) (k0_off200 v520) S1x1x64.size hinb).WholeWords (EltTy.packing .bf16))
instance k0_chk50.dec : ∀ (v520 : BitVec 32), Decidable (k0_chk50 v520) := fun v520 => decidable_of_iff' _ (Iff.of_eq (k0_chk50.eq_1 v520))
theorem k0_off200_inb : ∀ (v520 : BitVec 32) (k0_hw50 : k0_chk50 v520), ∀ a, (k0_off200 v520) a + S1x1x64.size a ≤ S1000000x1x64.size a := fun v520 k0_hw50 => k0_hw50.1
theorem k0_off200_wordsbf16 : ∀ (v520 : BitVec 32) (k0_hw50 : k0_chk50 v520), (Rect.unit (s := S1000000x1x64) (k0_off200 v520) S1x1x64.size (k0_off200_inb v520 k0_hw50)).WholeWords (EltTy.packing .bf16) := fun v520 k0_hw50 => k0_hw50.2 (k0_off200_inb v520 k0_hw50)

def k0_off201 (k0_t1 : Fin k0_t1_loop.trips) : Fin 3 → Nat :=
  let c0_375 : Index := 0#32
  let c0_376 : Index := 0#32
  let c0_i32_1 : BitVec 32 := 0#32
  let c1_i32 : BitVec 32 := 1#32
  let arg9 : BitVec 32 := Scf.iv c0_i32_1 c1_i32 k0_t1
  let c64_i32_374 : BitVec 32 := 64#32
  let v527 : BitVec 32 := Scalar.muli arg9 c64_i32_374
  let c50_i32 : BitVec 32 := 50#32
  let v528 : BitVec 32 := Scalar.addi v527 c50_i32
  let v529 : Index := Scalar.indexCast v528
  ![0, 0, v529.toNat]
def k0_off202 (k0_t1 : Fin k0_t1_loop.trips) : Fin 1 → Nat :=
  let c0_i32_1 : BitVec 32 := 0#32
  let c1_i32 : BitVec 32 := 1#32
  let arg9 : BitVec 32 := Scf.iv c0_i32_1 c1_i32 k0_t1
  let c64_i32_374 : BitVec 32 := 64#32
  let v527 : BitVec 32 := Scalar.muli arg9 c64_i32_374
  let c50_i32 : BitVec 32 := 50#32
  let v528 : BitVec 32 := Scalar.addi v527 c50_i32
  ![v528.toNat]
def k0_off203 (k0_t1 : Fin k0_t1_loop.trips) : Fin 3 → Nat :=
  let c0_i32_1 : BitVec 32 := 0#32
  let c1_i32 : BitVec 32 := 1#32
  let arg9 : BitVec 32 := Scf.iv c0_i32_1 c1_i32 k0_t1
  let c64_i32_374 : BitVec 32 := 64#32
  let v527 : BitVec 32 := Scalar.muli arg9 c64_i32_374
  let c50_i32 : BitVec 32 := 50#32
  let v528 : BitVec 32 := Scalar.addi v527 c50_i32
  let c0_i32_377 : BitVec 32 := 0#32
  let c0_i32_378 : BitVec 32 := 0#32
  ![v528.toNat, 0, 0]
def k0_off204 (v530 : BitVec 32) : Fin 3 → Nat :=
  let c0_i32_379 : BitVec 32 := 0#32
  let c0_i32_380 : BitVec 32 := 0#32
  ![v530.toNat, 0, 0]

def k0_chk51 (v530 : BitVec 32) : Prop :=
  (∀ a, (k0_off204 v530) a + S1x1x64.size a ≤ S1000000x1x64.size a) ∧
  (∀ (hinb : ∀ a, (k0_off204 v530) a + S1x1x64.size a ≤ S1000000x1x64.size a), (Rect.unit (s := S1000000x1x64) (k0_off204 v530) S1x1x64.size hinb).WholeWords (EltTy.packing .bf16))
instance k0_chk51.dec : ∀ (v530 : BitVec 32), Decidable (k0_chk51 v530) := fun v530 => decidable_of_iff' _ (Iff.of_eq (k0_chk51.eq_1 v530))
theorem k0_off204_inb : ∀ (v530 : BitVec 32) (k0_hw51 : k0_chk51 v530), ∀ a, (k0_off204 v530) a + S1x1x64.size a ≤ S1000000x1x64.size a := fun v530 k0_hw51 => k0_hw51.1
theorem k0_off204_wordsbf16 : ∀ (v530 : BitVec 32) (k0_hw51 : k0_chk51 v530), (Rect.unit (s := S1000000x1x64) (k0_off204 v530) S1x1x64.size (k0_off204_inb v530 k0_hw51)).WholeWords (EltTy.packing .bf16) := fun v530 k0_hw51 => k0_hw51.2 (k0_off204_inb v530 k0_hw51)

def k0_off205 (k0_t1 : Fin k0_t1_loop.trips) : Fin 3 → Nat :=
  let c0_382 : Index := 0#32
  let c0_383 : Index := 0#32
  let c0_i32_1 : BitVec 32 := 0#32
  let c1_i32 : BitVec 32 := 1#32
  let arg9 : BitVec 32 := Scf.iv c0_i32_1 c1_i32 k0_t1
  let c64_i32_381 : BitVec 32 := 64#32
  let v537 : BitVec 32 := Scalar.muli arg9 c64_i32_381
  let c51_i32 : BitVec 32 := 51#32
  let v538 : BitVec 32 := Scalar.addi v537 c51_i32
  let v539 : Index := Scalar.indexCast v538
  ![0, 0, v539.toNat]
def k0_off206 (k0_t1 : Fin k0_t1_loop.trips) : Fin 1 → Nat :=
  let c0_i32_1 : BitVec 32 := 0#32
  let c1_i32 : BitVec 32 := 1#32
  let arg9 : BitVec 32 := Scf.iv c0_i32_1 c1_i32 k0_t1
  let c64_i32_381 : BitVec 32 := 64#32
  let v537 : BitVec 32 := Scalar.muli arg9 c64_i32_381
  let c51_i32 : BitVec 32 := 51#32
  let v538 : BitVec 32 := Scalar.addi v537 c51_i32
  ![v538.toNat]
def k0_off207 (k0_t1 : Fin k0_t1_loop.trips) : Fin 3 → Nat :=
  let c0_i32_1 : BitVec 32 := 0#32
  let c1_i32 : BitVec 32 := 1#32
  let arg9 : BitVec 32 := Scf.iv c0_i32_1 c1_i32 k0_t1
  let c64_i32_381 : BitVec 32 := 64#32
  let v537 : BitVec 32 := Scalar.muli arg9 c64_i32_381
  let c51_i32 : BitVec 32 := 51#32
  let v538 : BitVec 32 := Scalar.addi v537 c51_i32
  let c0_i32_384 : BitVec 32 := 0#32
  let c0_i32_385 : BitVec 32 := 0#32
  ![v538.toNat, 0, 0]
def k0_off208 (v540 : BitVec 32) : Fin 3 → Nat :=
  let c0_i32_386 : BitVec 32 := 0#32
  let c0_i32_387 : BitVec 32 := 0#32
  ![v540.toNat, 0, 0]

def k0_chk52 (v540 : BitVec 32) : Prop :=
  (∀ a, (k0_off208 v540) a + S1x1x64.size a ≤ S1000000x1x64.size a) ∧
  (∀ (hinb : ∀ a, (k0_off208 v540) a + S1x1x64.size a ≤ S1000000x1x64.size a), (Rect.unit (s := S1000000x1x64) (k0_off208 v540) S1x1x64.size hinb).WholeWords (EltTy.packing .bf16))
instance k0_chk52.dec : ∀ (v540 : BitVec 32), Decidable (k0_chk52 v540) := fun v540 => decidable_of_iff' _ (Iff.of_eq (k0_chk52.eq_1 v540))
theorem k0_off208_inb : ∀ (v540 : BitVec 32) (k0_hw52 : k0_chk52 v540), ∀ a, (k0_off208 v540) a + S1x1x64.size a ≤ S1000000x1x64.size a := fun v540 k0_hw52 => k0_hw52.1
theorem k0_off208_wordsbf16 : ∀ (v540 : BitVec 32) (k0_hw52 : k0_chk52 v540), (Rect.unit (s := S1000000x1x64) (k0_off208 v540) S1x1x64.size (k0_off208_inb v540 k0_hw52)).WholeWords (EltTy.packing .bf16) := fun v540 k0_hw52 => k0_hw52.2 (k0_off208_inb v540 k0_hw52)

def k0_off209 (k0_t1 : Fin k0_t1_loop.trips) : Fin 3 → Nat :=
  let c0_389 : Index := 0#32
  let c0_390 : Index := 0#32
  let c0_i32_1 : BitVec 32 := 0#32
  let c1_i32 : BitVec 32 := 1#32
  let arg9 : BitVec 32 := Scf.iv c0_i32_1 c1_i32 k0_t1
  let c64_i32_388 : BitVec 32 := 64#32
  let v547 : BitVec 32 := Scalar.muli arg9 c64_i32_388
  let c52_i32 : BitVec 32 := 52#32
  let v548 : BitVec 32 := Scalar.addi v547 c52_i32
  let v549 : Index := Scalar.indexCast v548
  ![0, 0, v549.toNat]
def k0_off210 (k0_t1 : Fin k0_t1_loop.trips) : Fin 1 → Nat :=
  let c0_i32_1 : BitVec 32 := 0#32
  let c1_i32 : BitVec 32 := 1#32
  let arg9 : BitVec 32 := Scf.iv c0_i32_1 c1_i32 k0_t1
  let c64_i32_388 : BitVec 32 := 64#32
  let v547 : BitVec 32 := Scalar.muli arg9 c64_i32_388
  let c52_i32 : BitVec 32 := 52#32
  let v548 : BitVec 32 := Scalar.addi v547 c52_i32
  ![v548.toNat]
def k0_off211 (k0_t1 : Fin k0_t1_loop.trips) : Fin 3 → Nat :=
  let c0_i32_1 : BitVec 32 := 0#32
  let c1_i32 : BitVec 32 := 1#32
  let arg9 : BitVec 32 := Scf.iv c0_i32_1 c1_i32 k0_t1
  let c64_i32_388 : BitVec 32 := 64#32
  let v547 : BitVec 32 := Scalar.muli arg9 c64_i32_388
  let c52_i32 : BitVec 32 := 52#32
  let v548 : BitVec 32 := Scalar.addi v547 c52_i32
  let c0_i32_391 : BitVec 32 := 0#32
  let c0_i32_392 : BitVec 32 := 0#32
  ![v548.toNat, 0, 0]
def k0_off212 (v550 : BitVec 32) : Fin 3 → Nat :=
  let c0_i32_393 : BitVec 32 := 0#32
  let c0_i32_394 : BitVec 32 := 0#32
  ![v550.toNat, 0, 0]

def k0_chk53 (v550 : BitVec 32) : Prop :=
  (∀ a, (k0_off212 v550) a + S1x1x64.size a ≤ S1000000x1x64.size a) ∧
  (∀ (hinb : ∀ a, (k0_off212 v550) a + S1x1x64.size a ≤ S1000000x1x64.size a), (Rect.unit (s := S1000000x1x64) (k0_off212 v550) S1x1x64.size hinb).WholeWords (EltTy.packing .bf16))
instance k0_chk53.dec : ∀ (v550 : BitVec 32), Decidable (k0_chk53 v550) := fun v550 => decidable_of_iff' _ (Iff.of_eq (k0_chk53.eq_1 v550))
theorem k0_off212_inb : ∀ (v550 : BitVec 32) (k0_hw53 : k0_chk53 v550), ∀ a, (k0_off212 v550) a + S1x1x64.size a ≤ S1000000x1x64.size a := fun v550 k0_hw53 => k0_hw53.1
theorem k0_off212_wordsbf16 : ∀ (v550 : BitVec 32) (k0_hw53 : k0_chk53 v550), (Rect.unit (s := S1000000x1x64) (k0_off212 v550) S1x1x64.size (k0_off212_inb v550 k0_hw53)).WholeWords (EltTy.packing .bf16) := fun v550 k0_hw53 => k0_hw53.2 (k0_off212_inb v550 k0_hw53)

def k0_off213 (k0_t1 : Fin k0_t1_loop.trips) : Fin 3 → Nat :=
  let c0_396 : Index := 0#32
  let c0_397 : Index := 0#32
  let c0_i32_1 : BitVec 32 := 0#32
  let c1_i32 : BitVec 32 := 1#32
  let arg9 : BitVec 32 := Scf.iv c0_i32_1 c1_i32 k0_t1
  let c64_i32_395 : BitVec 32 := 64#32
  let v557 : BitVec 32 := Scalar.muli arg9 c64_i32_395
  let c53_i32 : BitVec 32 := 53#32
  let v558 : BitVec 32 := Scalar.addi v557 c53_i32
  let v559 : Index := Scalar.indexCast v558
  ![0, 0, v559.toNat]
def k0_off214 (k0_t1 : Fin k0_t1_loop.trips) : Fin 1 → Nat :=
  let c0_i32_1 : BitVec 32 := 0#32
  let c1_i32 : BitVec 32 := 1#32
  let arg9 : BitVec 32 := Scf.iv c0_i32_1 c1_i32 k0_t1
  let c64_i32_395 : BitVec 32 := 64#32
  let v557 : BitVec 32 := Scalar.muli arg9 c64_i32_395
  let c53_i32 : BitVec 32 := 53#32
  let v558 : BitVec 32 := Scalar.addi v557 c53_i32
  ![v558.toNat]
def k0_off215 (k0_t1 : Fin k0_t1_loop.trips) : Fin 3 → Nat :=
  let c0_i32_1 : BitVec 32 := 0#32
  let c1_i32 : BitVec 32 := 1#32
  let arg9 : BitVec 32 := Scf.iv c0_i32_1 c1_i32 k0_t1
  let c64_i32_395 : BitVec 32 := 64#32
  let v557 : BitVec 32 := Scalar.muli arg9 c64_i32_395
  let c53_i32 : BitVec 32 := 53#32
  let v558 : BitVec 32 := Scalar.addi v557 c53_i32
  let c0_i32_398 : BitVec 32 := 0#32
  let c0_i32_399 : BitVec 32 := 0#32
  ![v558.toNat, 0, 0]
def k0_off216 (v560 : BitVec 32) : Fin 3 → Nat :=
  let c0_i32_400 : BitVec 32 := 0#32
  let c0_i32_401 : BitVec 32 := 0#32
  ![v560.toNat, 0, 0]

def k0_chk54 (v560 : BitVec 32) : Prop :=
  (∀ a, (k0_off216 v560) a + S1x1x64.size a ≤ S1000000x1x64.size a) ∧
  (∀ (hinb : ∀ a, (k0_off216 v560) a + S1x1x64.size a ≤ S1000000x1x64.size a), (Rect.unit (s := S1000000x1x64) (k0_off216 v560) S1x1x64.size hinb).WholeWords (EltTy.packing .bf16))
instance k0_chk54.dec : ∀ (v560 : BitVec 32), Decidable (k0_chk54 v560) := fun v560 => decidable_of_iff' _ (Iff.of_eq (k0_chk54.eq_1 v560))
theorem k0_off216_inb : ∀ (v560 : BitVec 32) (k0_hw54 : k0_chk54 v560), ∀ a, (k0_off216 v560) a + S1x1x64.size a ≤ S1000000x1x64.size a := fun v560 k0_hw54 => k0_hw54.1
theorem k0_off216_wordsbf16 : ∀ (v560 : BitVec 32) (k0_hw54 : k0_chk54 v560), (Rect.unit (s := S1000000x1x64) (k0_off216 v560) S1x1x64.size (k0_off216_inb v560 k0_hw54)).WholeWords (EltTy.packing .bf16) := fun v560 k0_hw54 => k0_hw54.2 (k0_off216_inb v560 k0_hw54)

def k0_off217 (k0_t1 : Fin k0_t1_loop.trips) : Fin 3 → Nat :=
  let c0_403 : Index := 0#32
  let c0_404 : Index := 0#32
  let c0_i32_1 : BitVec 32 := 0#32
  let c1_i32 : BitVec 32 := 1#32
  let arg9 : BitVec 32 := Scf.iv c0_i32_1 c1_i32 k0_t1
  let c64_i32_402 : BitVec 32 := 64#32
  let v567 : BitVec 32 := Scalar.muli arg9 c64_i32_402
  let c54_i32 : BitVec 32 := 54#32
  let v568 : BitVec 32 := Scalar.addi v567 c54_i32
  let v569 : Index := Scalar.indexCast v568
  ![0, 0, v569.toNat]
def k0_off218 (k0_t1 : Fin k0_t1_loop.trips) : Fin 1 → Nat :=
  let c0_i32_1 : BitVec 32 := 0#32
  let c1_i32 : BitVec 32 := 1#32
  let arg9 : BitVec 32 := Scf.iv c0_i32_1 c1_i32 k0_t1
  let c64_i32_402 : BitVec 32 := 64#32
  let v567 : BitVec 32 := Scalar.muli arg9 c64_i32_402
  let c54_i32 : BitVec 32 := 54#32
  let v568 : BitVec 32 := Scalar.addi v567 c54_i32
  ![v568.toNat]
def k0_off219 (k0_t1 : Fin k0_t1_loop.trips) : Fin 3 → Nat :=
  let c0_i32_1 : BitVec 32 := 0#32
  let c1_i32 : BitVec 32 := 1#32
  let arg9 : BitVec 32 := Scf.iv c0_i32_1 c1_i32 k0_t1
  let c64_i32_402 : BitVec 32 := 64#32
  let v567 : BitVec 32 := Scalar.muli arg9 c64_i32_402
  let c54_i32 : BitVec 32 := 54#32
  let v568 : BitVec 32 := Scalar.addi v567 c54_i32
  let c0_i32_405 : BitVec 32 := 0#32
  let c0_i32_406 : BitVec 32 := 0#32
  ![v568.toNat, 0, 0]
def k0_off220 (v570 : BitVec 32) : Fin 3 → Nat :=
  let c0_i32_407 : BitVec 32 := 0#32
  let c0_i32_408 : BitVec 32 := 0#32
  ![v570.toNat, 0, 0]

def k0_chk55 (v570 : BitVec 32) : Prop :=
  (∀ a, (k0_off220 v570) a + S1x1x64.size a ≤ S1000000x1x64.size a) ∧
  (∀ (hinb : ∀ a, (k0_off220 v570) a + S1x1x64.size a ≤ S1000000x1x64.size a), (Rect.unit (s := S1000000x1x64) (k0_off220 v570) S1x1x64.size hinb).WholeWords (EltTy.packing .bf16))
instance k0_chk55.dec : ∀ (v570 : BitVec 32), Decidable (k0_chk55 v570) := fun v570 => decidable_of_iff' _ (Iff.of_eq (k0_chk55.eq_1 v570))
theorem k0_off220_inb : ∀ (v570 : BitVec 32) (k0_hw55 : k0_chk55 v570), ∀ a, (k0_off220 v570) a + S1x1x64.size a ≤ S1000000x1x64.size a := fun v570 k0_hw55 => k0_hw55.1
theorem k0_off220_wordsbf16 : ∀ (v570 : BitVec 32) (k0_hw55 : k0_chk55 v570), (Rect.unit (s := S1000000x1x64) (k0_off220 v570) S1x1x64.size (k0_off220_inb v570 k0_hw55)).WholeWords (EltTy.packing .bf16) := fun v570 k0_hw55 => k0_hw55.2 (k0_off220_inb v570 k0_hw55)

def k0_off221 (k0_t1 : Fin k0_t1_loop.trips) : Fin 3 → Nat :=
  let c0_410 : Index := 0#32
  let c0_411 : Index := 0#32
  let c0_i32_1 : BitVec 32 := 0#32
  let c1_i32 : BitVec 32 := 1#32
  let arg9 : BitVec 32 := Scf.iv c0_i32_1 c1_i32 k0_t1
  let c64_i32_409 : BitVec 32 := 64#32
  let v577 : BitVec 32 := Scalar.muli arg9 c64_i32_409
  let c55_i32 : BitVec 32 := 55#32
  let v578 : BitVec 32 := Scalar.addi v577 c55_i32
  let v579 : Index := Scalar.indexCast v578
  ![0, 0, v579.toNat]
def k0_off222 (k0_t1 : Fin k0_t1_loop.trips) : Fin 1 → Nat :=
  let c0_i32_1 : BitVec 32 := 0#32
  let c1_i32 : BitVec 32 := 1#32
  let arg9 : BitVec 32 := Scf.iv c0_i32_1 c1_i32 k0_t1
  let c64_i32_409 : BitVec 32 := 64#32
  let v577 : BitVec 32 := Scalar.muli arg9 c64_i32_409
  let c55_i32 : BitVec 32 := 55#32
  let v578 : BitVec 32 := Scalar.addi v577 c55_i32
  ![v578.toNat]
def k0_off223 (k0_t1 : Fin k0_t1_loop.trips) : Fin 3 → Nat :=
  let c0_i32_1 : BitVec 32 := 0#32
  let c1_i32 : BitVec 32 := 1#32
  let arg9 : BitVec 32 := Scf.iv c0_i32_1 c1_i32 k0_t1
  let c64_i32_409 : BitVec 32 := 64#32
  let v577 : BitVec 32 := Scalar.muli arg9 c64_i32_409
  let c55_i32 : BitVec 32 := 55#32
  let v578 : BitVec 32 := Scalar.addi v577 c55_i32
  let c0_i32_412 : BitVec 32 := 0#32
  let c0_i32_413 : BitVec 32 := 0#32
  ![v578.toNat, 0, 0]
def k0_off224 (v580 : BitVec 32) : Fin 3 → Nat :=
  let c0_i32_414 : BitVec 32 := 0#32
  let c0_i32_415 : BitVec 32 := 0#32
  ![v580.toNat, 0, 0]

def k0_chk56 (v580 : BitVec 32) : Prop :=
  (∀ a, (k0_off224 v580) a + S1x1x64.size a ≤ S1000000x1x64.size a) ∧
  (∀ (hinb : ∀ a, (k0_off224 v580) a + S1x1x64.size a ≤ S1000000x1x64.size a), (Rect.unit (s := S1000000x1x64) (k0_off224 v580) S1x1x64.size hinb).WholeWords (EltTy.packing .bf16))
instance k0_chk56.dec : ∀ (v580 : BitVec 32), Decidable (k0_chk56 v580) := fun v580 => decidable_of_iff' _ (Iff.of_eq (k0_chk56.eq_1 v580))
theorem k0_off224_inb : ∀ (v580 : BitVec 32) (k0_hw56 : k0_chk56 v580), ∀ a, (k0_off224 v580) a + S1x1x64.size a ≤ S1000000x1x64.size a := fun v580 k0_hw56 => k0_hw56.1
theorem k0_off224_wordsbf16 : ∀ (v580 : BitVec 32) (k0_hw56 : k0_chk56 v580), (Rect.unit (s := S1000000x1x64) (k0_off224 v580) S1x1x64.size (k0_off224_inb v580 k0_hw56)).WholeWords (EltTy.packing .bf16) := fun v580 k0_hw56 => k0_hw56.2 (k0_off224_inb v580 k0_hw56)

def k0_off225 (k0_t1 : Fin k0_t1_loop.trips) : Fin 3 → Nat :=
  let c0_417 : Index := 0#32
  let c0_418 : Index := 0#32
  let c0_i32_1 : BitVec 32 := 0#32
  let c1_i32 : BitVec 32 := 1#32
  let arg9 : BitVec 32 := Scf.iv c0_i32_1 c1_i32 k0_t1
  let c64_i32_416 : BitVec 32 := 64#32
  let v587 : BitVec 32 := Scalar.muli arg9 c64_i32_416
  let c56_i32 : BitVec 32 := 56#32
  let v588 : BitVec 32 := Scalar.addi v587 c56_i32
  let v589 : Index := Scalar.indexCast v588
  ![0, 0, v589.toNat]
def k0_off226 (k0_t1 : Fin k0_t1_loop.trips) : Fin 1 → Nat :=
  let c0_i32_1 : BitVec 32 := 0#32
  let c1_i32 : BitVec 32 := 1#32
  let arg9 : BitVec 32 := Scf.iv c0_i32_1 c1_i32 k0_t1
  let c64_i32_416 : BitVec 32 := 64#32
  let v587 : BitVec 32 := Scalar.muli arg9 c64_i32_416
  let c56_i32 : BitVec 32 := 56#32
  let v588 : BitVec 32 := Scalar.addi v587 c56_i32
  ![v588.toNat]
def k0_off227 (k0_t1 : Fin k0_t1_loop.trips) : Fin 3 → Nat :=
  let c0_i32_1 : BitVec 32 := 0#32
  let c1_i32 : BitVec 32 := 1#32
  let arg9 : BitVec 32 := Scf.iv c0_i32_1 c1_i32 k0_t1
  let c64_i32_416 : BitVec 32 := 64#32
  let v587 : BitVec 32 := Scalar.muli arg9 c64_i32_416
  let c56_i32 : BitVec 32 := 56#32
  let v588 : BitVec 32 := Scalar.addi v587 c56_i32
  let c0_i32_419 : BitVec 32 := 0#32
  let c0_i32_420 : BitVec 32 := 0#32
  ![v588.toNat, 0, 0]
def k0_off228 (v590 : BitVec 32) : Fin 3 → Nat :=
  let c0_i32_421 : BitVec 32 := 0#32
  let c0_i32_422 : BitVec 32 := 0#32
  ![v590.toNat, 0, 0]

def k0_chk57 (v590 : BitVec 32) : Prop :=
  (∀ a, (k0_off228 v590) a + S1x1x64.size a ≤ S1000000x1x64.size a) ∧
  (∀ (hinb : ∀ a, (k0_off228 v590) a + S1x1x64.size a ≤ S1000000x1x64.size a), (Rect.unit (s := S1000000x1x64) (k0_off228 v590) S1x1x64.size hinb).WholeWords (EltTy.packing .bf16))
instance k0_chk57.dec : ∀ (v590 : BitVec 32), Decidable (k0_chk57 v590) := fun v590 => decidable_of_iff' _ (Iff.of_eq (k0_chk57.eq_1 v590))
theorem k0_off228_inb : ∀ (v590 : BitVec 32) (k0_hw57 : k0_chk57 v590), ∀ a, (k0_off228 v590) a + S1x1x64.size a ≤ S1000000x1x64.size a := fun v590 k0_hw57 => k0_hw57.1
theorem k0_off228_wordsbf16 : ∀ (v590 : BitVec 32) (k0_hw57 : k0_chk57 v590), (Rect.unit (s := S1000000x1x64) (k0_off228 v590) S1x1x64.size (k0_off228_inb v590 k0_hw57)).WholeWords (EltTy.packing .bf16) := fun v590 k0_hw57 => k0_hw57.2 (k0_off228_inb v590 k0_hw57)

def k0_off229 (k0_t1 : Fin k0_t1_loop.trips) : Fin 3 → Nat :=
  let c0_424 : Index := 0#32
  let c0_425 : Index := 0#32
  let c0_i32_1 : BitVec 32 := 0#32
  let c1_i32 : BitVec 32 := 1#32
  let arg9 : BitVec 32 := Scf.iv c0_i32_1 c1_i32 k0_t1
  let c64_i32_423 : BitVec 32 := 64#32
  let v597 : BitVec 32 := Scalar.muli arg9 c64_i32_423
  let c57_i32 : BitVec 32 := 57#32
  let v598 : BitVec 32 := Scalar.addi v597 c57_i32
  let v599 : Index := Scalar.indexCast v598
  ![0, 0, v599.toNat]
def k0_off230 (k0_t1 : Fin k0_t1_loop.trips) : Fin 1 → Nat :=
  let c0_i32_1 : BitVec 32 := 0#32
  let c1_i32 : BitVec 32 := 1#32
  let arg9 : BitVec 32 := Scf.iv c0_i32_1 c1_i32 k0_t1
  let c64_i32_423 : BitVec 32 := 64#32
  let v597 : BitVec 32 := Scalar.muli arg9 c64_i32_423
  let c57_i32 : BitVec 32 := 57#32
  let v598 : BitVec 32 := Scalar.addi v597 c57_i32
  ![v598.toNat]
def k0_off231 (k0_t1 : Fin k0_t1_loop.trips) : Fin 3 → Nat :=
  let c0_i32_1 : BitVec 32 := 0#32
  let c1_i32 : BitVec 32 := 1#32
  let arg9 : BitVec 32 := Scf.iv c0_i32_1 c1_i32 k0_t1
  let c64_i32_423 : BitVec 32 := 64#32
  let v597 : BitVec 32 := Scalar.muli arg9 c64_i32_423
  let c57_i32 : BitVec 32 := 57#32
  let v598 : BitVec 32 := Scalar.addi v597 c57_i32
  let c0_i32_426 : BitVec 32 := 0#32
  let c0_i32_427 : BitVec 32 := 0#32
  ![v598.toNat, 0, 0]
def k0_off232 (v600 : BitVec 32) : Fin 3 → Nat :=
  let c0_i32_428 : BitVec 32 := 0#32
  let c0_i32_429 : BitVec 32 := 0#32
  ![v600.toNat, 0, 0]

def k0_chk58 (v600 : BitVec 32) : Prop :=
  (∀ a, (k0_off232 v600) a + S1x1x64.size a ≤ S1000000x1x64.size a) ∧
  (∀ (hinb : ∀ a, (k0_off232 v600) a + S1x1x64.size a ≤ S1000000x1x64.size a), (Rect.unit (s := S1000000x1x64) (k0_off232 v600) S1x1x64.size hinb).WholeWords (EltTy.packing .bf16))
instance k0_chk58.dec : ∀ (v600 : BitVec 32), Decidable (k0_chk58 v600) := fun v600 => decidable_of_iff' _ (Iff.of_eq (k0_chk58.eq_1 v600))
theorem k0_off232_inb : ∀ (v600 : BitVec 32) (k0_hw58 : k0_chk58 v600), ∀ a, (k0_off232 v600) a + S1x1x64.size a ≤ S1000000x1x64.size a := fun v600 k0_hw58 => k0_hw58.1
theorem k0_off232_wordsbf16 : ∀ (v600 : BitVec 32) (k0_hw58 : k0_chk58 v600), (Rect.unit (s := S1000000x1x64) (k0_off232 v600) S1x1x64.size (k0_off232_inb v600 k0_hw58)).WholeWords (EltTy.packing .bf16) := fun v600 k0_hw58 => k0_hw58.2 (k0_off232_inb v600 k0_hw58)

def k0_off233 (k0_t1 : Fin k0_t1_loop.trips) : Fin 3 → Nat :=
  let c0_431 : Index := 0#32
  let c0_432 : Index := 0#32
  let c0_i32_1 : BitVec 32 := 0#32
  let c1_i32 : BitVec 32 := 1#32
  let arg9 : BitVec 32 := Scf.iv c0_i32_1 c1_i32 k0_t1
  let c64_i32_430 : BitVec 32 := 64#32
  let v607 : BitVec 32 := Scalar.muli arg9 c64_i32_430
  let c58_i32 : BitVec 32 := 58#32
  let v608 : BitVec 32 := Scalar.addi v607 c58_i32
  let v609 : Index := Scalar.indexCast v608
  ![0, 0, v609.toNat]
def k0_off234 (k0_t1 : Fin k0_t1_loop.trips) : Fin 1 → Nat :=
  let c0_i32_1 : BitVec 32 := 0#32
  let c1_i32 : BitVec 32 := 1#32
  let arg9 : BitVec 32 := Scf.iv c0_i32_1 c1_i32 k0_t1
  let c64_i32_430 : BitVec 32 := 64#32
  let v607 : BitVec 32 := Scalar.muli arg9 c64_i32_430
  let c58_i32 : BitVec 32 := 58#32
  let v608 : BitVec 32 := Scalar.addi v607 c58_i32
  ![v608.toNat]
def k0_off235 (k0_t1 : Fin k0_t1_loop.trips) : Fin 3 → Nat :=
  let c0_i32_1 : BitVec 32 := 0#32
  let c1_i32 : BitVec 32 := 1#32
  let arg9 : BitVec 32 := Scf.iv c0_i32_1 c1_i32 k0_t1
  let c64_i32_430 : BitVec 32 := 64#32
  let v607 : BitVec 32 := Scalar.muli arg9 c64_i32_430
  let c58_i32 : BitVec 32 := 58#32
  let v608 : BitVec 32 := Scalar.addi v607 c58_i32
  let c0_i32_433 : BitVec 32 := 0#32
  let c0_i32_434 : BitVec 32 := 0#32
  ![v608.toNat, 0, 0]
def k0_off236 (v610 : BitVec 32) : Fin 3 → Nat :=
  let c0_i32_435 : BitVec 32 := 0#32
  let c0_i32_436 : BitVec 32 := 0#32
  ![v610.toNat, 0, 0]

def k0_chk59 (v610 : BitVec 32) : Prop :=
  (∀ a, (k0_off236 v610) a + S1x1x64.size a ≤ S1000000x1x64.size a) ∧
  (∀ (hinb : ∀ a, (k0_off236 v610) a + S1x1x64.size a ≤ S1000000x1x64.size a), (Rect.unit (s := S1000000x1x64) (k0_off236 v610) S1x1x64.size hinb).WholeWords (EltTy.packing .bf16))
instance k0_chk59.dec : ∀ (v610 : BitVec 32), Decidable (k0_chk59 v610) := fun v610 => decidable_of_iff' _ (Iff.of_eq (k0_chk59.eq_1 v610))
theorem k0_off236_inb : ∀ (v610 : BitVec 32) (k0_hw59 : k0_chk59 v610), ∀ a, (k0_off236 v610) a + S1x1x64.size a ≤ S1000000x1x64.size a := fun v610 k0_hw59 => k0_hw59.1
theorem k0_off236_wordsbf16 : ∀ (v610 : BitVec 32) (k0_hw59 : k0_chk59 v610), (Rect.unit (s := S1000000x1x64) (k0_off236 v610) S1x1x64.size (k0_off236_inb v610 k0_hw59)).WholeWords (EltTy.packing .bf16) := fun v610 k0_hw59 => k0_hw59.2 (k0_off236_inb v610 k0_hw59)

def k0_off237 (k0_t1 : Fin k0_t1_loop.trips) : Fin 3 → Nat :=
  let c0_438 : Index := 0#32
  let c0_439 : Index := 0#32
  let c0_i32_1 : BitVec 32 := 0#32
  let c1_i32 : BitVec 32 := 1#32
  let arg9 : BitVec 32 := Scf.iv c0_i32_1 c1_i32 k0_t1
  let c64_i32_437 : BitVec 32 := 64#32
  let v617 : BitVec 32 := Scalar.muli arg9 c64_i32_437
  let c59_i32 : BitVec 32 := 59#32
  let v618 : BitVec 32 := Scalar.addi v617 c59_i32
  let v619 : Index := Scalar.indexCast v618
  ![0, 0, v619.toNat]
def k0_off238 (k0_t1 : Fin k0_t1_loop.trips) : Fin 1 → Nat :=
  let c0_i32_1 : BitVec 32 := 0#32
  let c1_i32 : BitVec 32 := 1#32
  let arg9 : BitVec 32 := Scf.iv c0_i32_1 c1_i32 k0_t1
  let c64_i32_437 : BitVec 32 := 64#32
  let v617 : BitVec 32 := Scalar.muli arg9 c64_i32_437
  let c59_i32 : BitVec 32 := 59#32
  let v618 : BitVec 32 := Scalar.addi v617 c59_i32
  ![v618.toNat]
def k0_off239 (k0_t1 : Fin k0_t1_loop.trips) : Fin 3 → Nat :=
  let c0_i32_1 : BitVec 32 := 0#32
  let c1_i32 : BitVec 32 := 1#32
  let arg9 : BitVec 32 := Scf.iv c0_i32_1 c1_i32 k0_t1
  let c64_i32_437 : BitVec 32 := 64#32
  let v617 : BitVec 32 := Scalar.muli arg9 c64_i32_437
  let c59_i32 : BitVec 32 := 59#32
  let v618 : BitVec 32 := Scalar.addi v617 c59_i32
  let c0_i32_440 : BitVec 32 := 0#32
  let c0_i32_441 : BitVec 32 := 0#32
  ![v618.toNat, 0, 0]
def k0_off240 (v620 : BitVec 32) : Fin 3 → Nat :=
  let c0_i32_442 : BitVec 32 := 0#32
  let c0_i32_443 : BitVec 32 := 0#32
  ![v620.toNat, 0, 0]

def k0_chk60 (v620 : BitVec 32) : Prop :=
  (∀ a, (k0_off240 v620) a + S1x1x64.size a ≤ S1000000x1x64.size a) ∧
  (∀ (hinb : ∀ a, (k0_off240 v620) a + S1x1x64.size a ≤ S1000000x1x64.size a), (Rect.unit (s := S1000000x1x64) (k0_off240 v620) S1x1x64.size hinb).WholeWords (EltTy.packing .bf16))
instance k0_chk60.dec : ∀ (v620 : BitVec 32), Decidable (k0_chk60 v620) := fun v620 => decidable_of_iff' _ (Iff.of_eq (k0_chk60.eq_1 v620))
theorem k0_off240_inb : ∀ (v620 : BitVec 32) (k0_hw60 : k0_chk60 v620), ∀ a, (k0_off240 v620) a + S1x1x64.size a ≤ S1000000x1x64.size a := fun v620 k0_hw60 => k0_hw60.1
theorem k0_off240_wordsbf16 : ∀ (v620 : BitVec 32) (k0_hw60 : k0_chk60 v620), (Rect.unit (s := S1000000x1x64) (k0_off240 v620) S1x1x64.size (k0_off240_inb v620 k0_hw60)).WholeWords (EltTy.packing .bf16) := fun v620 k0_hw60 => k0_hw60.2 (k0_off240_inb v620 k0_hw60)

def k0_off241 (k0_t1 : Fin k0_t1_loop.trips) : Fin 3 → Nat :=
  let c0_445 : Index := 0#32
  let c0_446 : Index := 0#32
  let c0_i32_1 : BitVec 32 := 0#32
  let c1_i32 : BitVec 32 := 1#32
  let arg9 : BitVec 32 := Scf.iv c0_i32_1 c1_i32 k0_t1
  let c64_i32_444 : BitVec 32 := 64#32
  let v627 : BitVec 32 := Scalar.muli arg9 c64_i32_444
  let c60_i32 : BitVec 32 := 60#32
  let v628 : BitVec 32 := Scalar.addi v627 c60_i32
  let v629 : Index := Scalar.indexCast v628
  ![0, 0, v629.toNat]
def k0_off242 (k0_t1 : Fin k0_t1_loop.trips) : Fin 1 → Nat :=
  let c0_i32_1 : BitVec 32 := 0#32
  let c1_i32 : BitVec 32 := 1#32
  let arg9 : BitVec 32 := Scf.iv c0_i32_1 c1_i32 k0_t1
  let c64_i32_444 : BitVec 32 := 64#32
  let v627 : BitVec 32 := Scalar.muli arg9 c64_i32_444
  let c60_i32 : BitVec 32 := 60#32
  let v628 : BitVec 32 := Scalar.addi v627 c60_i32
  ![v628.toNat]
def k0_off243 (k0_t1 : Fin k0_t1_loop.trips) : Fin 3 → Nat :=
  let c0_i32_1 : BitVec 32 := 0#32
  let c1_i32 : BitVec 32 := 1#32
  let arg9 : BitVec 32 := Scf.iv c0_i32_1 c1_i32 k0_t1
  let c64_i32_444 : BitVec 32 := 64#32
  let v627 : BitVec 32 := Scalar.muli arg9 c64_i32_444
  let c60_i32 : BitVec 32 := 60#32
  let v628 : BitVec 32 := Scalar.addi v627 c60_i32
  let c0_i32_447 : BitVec 32 := 0#32
  let c0_i32_448 : BitVec 32 := 0#32
  ![v628.toNat, 0, 0]
def k0_off244 (v630 : BitVec 32) : Fin 3 → Nat :=
  let c0_i32_449 : BitVec 32 := 0#32
  let c0_i32_450 : BitVec 32 := 0#32
  ![v630.toNat, 0, 0]

def k0_chk61 (v630 : BitVec 32) : Prop :=
  (∀ a, (k0_off244 v630) a + S1x1x64.size a ≤ S1000000x1x64.size a) ∧
  (∀ (hinb : ∀ a, (k0_off244 v630) a + S1x1x64.size a ≤ S1000000x1x64.size a), (Rect.unit (s := S1000000x1x64) (k0_off244 v630) S1x1x64.size hinb).WholeWords (EltTy.packing .bf16))
instance k0_chk61.dec : ∀ (v630 : BitVec 32), Decidable (k0_chk61 v630) := fun v630 => decidable_of_iff' _ (Iff.of_eq (k0_chk61.eq_1 v630))
theorem k0_off244_inb : ∀ (v630 : BitVec 32) (k0_hw61 : k0_chk61 v630), ∀ a, (k0_off244 v630) a + S1x1x64.size a ≤ S1000000x1x64.size a := fun v630 k0_hw61 => k0_hw61.1
theorem k0_off244_wordsbf16 : ∀ (v630 : BitVec 32) (k0_hw61 : k0_chk61 v630), (Rect.unit (s := S1000000x1x64) (k0_off244 v630) S1x1x64.size (k0_off244_inb v630 k0_hw61)).WholeWords (EltTy.packing .bf16) := fun v630 k0_hw61 => k0_hw61.2 (k0_off244_inb v630 k0_hw61)

def k0_off245 (k0_t1 : Fin k0_t1_loop.trips) : Fin 3 → Nat :=
  let c0_452 : Index := 0#32
  let c0_453 : Index := 0#32
  let c0_i32_1 : BitVec 32 := 0#32
  let c1_i32 : BitVec 32 := 1#32
  let arg9 : BitVec 32 := Scf.iv c0_i32_1 c1_i32 k0_t1
  let c64_i32_451 : BitVec 32 := 64#32
  let v637 : BitVec 32 := Scalar.muli arg9 c64_i32_451
  let c61_i32 : BitVec 32 := 61#32
  let v638 : BitVec 32 := Scalar.addi v637 c61_i32
  let v639 : Index := Scalar.indexCast v638
  ![0, 0, v639.toNat]
def k0_off246 (k0_t1 : Fin k0_t1_loop.trips) : Fin 1 → Nat :=
  let c0_i32_1 : BitVec 32 := 0#32
  let c1_i32 : BitVec 32 := 1#32
  let arg9 : BitVec 32 := Scf.iv c0_i32_1 c1_i32 k0_t1
  let c64_i32_451 : BitVec 32 := 64#32
  let v637 : BitVec 32 := Scalar.muli arg9 c64_i32_451
  let c61_i32 : BitVec 32 := 61#32
  let v638 : BitVec 32 := Scalar.addi v637 c61_i32
  ![v638.toNat]
def k0_off247 (k0_t1 : Fin k0_t1_loop.trips) : Fin 3 → Nat :=
  let c0_i32_1 : BitVec 32 := 0#32
  let c1_i32 : BitVec 32 := 1#32
  let arg9 : BitVec 32 := Scf.iv c0_i32_1 c1_i32 k0_t1
  let c64_i32_451 : BitVec 32 := 64#32
  let v637 : BitVec 32 := Scalar.muli arg9 c64_i32_451
  let c61_i32 : BitVec 32 := 61#32
  let v638 : BitVec 32 := Scalar.addi v637 c61_i32
  let c0_i32_454 : BitVec 32 := 0#32
  let c0_i32_455 : BitVec 32 := 0#32
  ![v638.toNat, 0, 0]
def k0_off248 (v640 : BitVec 32) : Fin 3 → Nat :=
  let c0_i32_456 : BitVec 32 := 0#32
  let c0_i32_457 : BitVec 32 := 0#32
  ![v640.toNat, 0, 0]

def k0_chk62 (v640 : BitVec 32) : Prop :=
  (∀ a, (k0_off248 v640) a + S1x1x64.size a ≤ S1000000x1x64.size a) ∧
  (∀ (hinb : ∀ a, (k0_off248 v640) a + S1x1x64.size a ≤ S1000000x1x64.size a), (Rect.unit (s := S1000000x1x64) (k0_off248 v640) S1x1x64.size hinb).WholeWords (EltTy.packing .bf16))
instance k0_chk62.dec : ∀ (v640 : BitVec 32), Decidable (k0_chk62 v640) := fun v640 => decidable_of_iff' _ (Iff.of_eq (k0_chk62.eq_1 v640))
theorem k0_off248_inb : ∀ (v640 : BitVec 32) (k0_hw62 : k0_chk62 v640), ∀ a, (k0_off248 v640) a + S1x1x64.size a ≤ S1000000x1x64.size a := fun v640 k0_hw62 => k0_hw62.1
theorem k0_off248_wordsbf16 : ∀ (v640 : BitVec 32) (k0_hw62 : k0_chk62 v640), (Rect.unit (s := S1000000x1x64) (k0_off248 v640) S1x1x64.size (k0_off248_inb v640 k0_hw62)).WholeWords (EltTy.packing .bf16) := fun v640 k0_hw62 => k0_hw62.2 (k0_off248_inb v640 k0_hw62)

def k0_off249 (k0_t1 : Fin k0_t1_loop.trips) : Fin 3 → Nat :=
  let c0_459 : Index := 0#32
  let c0_460 : Index := 0#32
  let c0_i32_1 : BitVec 32 := 0#32
  let c1_i32 : BitVec 32 := 1#32
  let arg9 : BitVec 32 := Scf.iv c0_i32_1 c1_i32 k0_t1
  let c64_i32_458 : BitVec 32 := 64#32
  let v647 : BitVec 32 := Scalar.muli arg9 c64_i32_458
  let c62_i32 : BitVec 32 := 62#32
  let v648 : BitVec 32 := Scalar.addi v647 c62_i32
  let v649 : Index := Scalar.indexCast v648
  ![0, 0, v649.toNat]
def k0_off250 (k0_t1 : Fin k0_t1_loop.trips) : Fin 1 → Nat :=
  let c0_i32_1 : BitVec 32 := 0#32
  let c1_i32 : BitVec 32 := 1#32
  let arg9 : BitVec 32 := Scf.iv c0_i32_1 c1_i32 k0_t1
  let c64_i32_458 : BitVec 32 := 64#32
  let v647 : BitVec 32 := Scalar.muli arg9 c64_i32_458
  let c62_i32 : BitVec 32 := 62#32
  let v648 : BitVec 32 := Scalar.addi v647 c62_i32
  ![v648.toNat]
def k0_off251 (k0_t1 : Fin k0_t1_loop.trips) : Fin 3 → Nat :=
  let c0_i32_1 : BitVec 32 := 0#32
  let c1_i32 : BitVec 32 := 1#32
  let arg9 : BitVec 32 := Scf.iv c0_i32_1 c1_i32 k0_t1
  let c64_i32_458 : BitVec 32 := 64#32
  let v647 : BitVec 32 := Scalar.muli arg9 c64_i32_458
  let c62_i32 : BitVec 32 := 62#32
  let v648 : BitVec 32 := Scalar.addi v647 c62_i32
  let c0_i32_461 : BitVec 32 := 0#32
  let c0_i32_462 : BitVec 32 := 0#32
  ![v648.toNat, 0, 0]
def k0_off252 (v650 : BitVec 32) : Fin 3 → Nat :=
  let c0_i32_463 : BitVec 32 := 0#32
  let c0_i32_464 : BitVec 32 := 0#32
  ![v650.toNat, 0, 0]

def k0_chk63 (v650 : BitVec 32) : Prop :=
  (∀ a, (k0_off252 v650) a + S1x1x64.size a ≤ S1000000x1x64.size a) ∧
  (∀ (hinb : ∀ a, (k0_off252 v650) a + S1x1x64.size a ≤ S1000000x1x64.size a), (Rect.unit (s := S1000000x1x64) (k0_off252 v650) S1x1x64.size hinb).WholeWords (EltTy.packing .bf16))
instance k0_chk63.dec : ∀ (v650 : BitVec 32), Decidable (k0_chk63 v650) := fun v650 => decidable_of_iff' _ (Iff.of_eq (k0_chk63.eq_1 v650))
theorem k0_off252_inb : ∀ (v650 : BitVec 32) (k0_hw63 : k0_chk63 v650), ∀ a, (k0_off252 v650) a + S1x1x64.size a ≤ S1000000x1x64.size a := fun v650 k0_hw63 => k0_hw63.1
theorem k0_off252_wordsbf16 : ∀ (v650 : BitVec 32) (k0_hw63 : k0_chk63 v650), (Rect.unit (s := S1000000x1x64) (k0_off252 v650) S1x1x64.size (k0_off252_inb v650 k0_hw63)).WholeWords (EltTy.packing .bf16) := fun v650 k0_hw63 => k0_hw63.2 (k0_off252_inb v650 k0_hw63)

def k0_off253 (k0_t1 : Fin k0_t1_loop.trips) : Fin 3 → Nat :=
  let c0_466 : Index := 0#32
  let c0_467 : Index := 0#32
  let c0_i32_1 : BitVec 32 := 0#32
  let c1_i32 : BitVec 32 := 1#32
  let arg9 : BitVec 32 := Scf.iv c0_i32_1 c1_i32 k0_t1
  let c64_i32_465 : BitVec 32 := 64#32
  let v657 : BitVec 32 := Scalar.muli arg9 c64_i32_465
  let c63_i32 : BitVec 32 := 63#32
  let v658 : BitVec 32 := Scalar.addi v657 c63_i32
  let v659 : Index := Scalar.indexCast v658
  ![0, 0, v659.toNat]
def k0_off254 (k0_t1 : Fin k0_t1_loop.trips) : Fin 1 → Nat :=
  let c0_i32_1 : BitVec 32 := 0#32
  let c1_i32 : BitVec 32 := 1#32
  let arg9 : BitVec 32 := Scf.iv c0_i32_1 c1_i32 k0_t1
  let c64_i32_465 : BitVec 32 := 64#32
  let v657 : BitVec 32 := Scalar.muli arg9 c64_i32_465
  let c63_i32 : BitVec 32 := 63#32
  let v658 : BitVec 32 := Scalar.addi v657 c63_i32
  ![v658.toNat]
def k0_off255 (k0_t1 : Fin k0_t1_loop.trips) : Fin 3 → Nat :=
  let c0_i32_1 : BitVec 32 := 0#32
  let c1_i32 : BitVec 32 := 1#32
  let arg9 : BitVec 32 := Scf.iv c0_i32_1 c1_i32 k0_t1
  let c64_i32_465 : BitVec 32 := 64#32
  let v657 : BitVec 32 := Scalar.muli arg9 c64_i32_465
  let c63_i32 : BitVec 32 := 63#32
  let v658 : BitVec 32 := Scalar.addi v657 c63_i32
  let c0_i32_468 : BitVec 32 := 0#32
  let c0_i32_469 : BitVec 32 := 0#32
  ![v658.toNat, 0, 0]
def k0_off256 (v660 : BitVec 32) : Fin 3 → Nat :=
  let c0_i32_470 : BitVec 32 := 0#32
  let c0_i32_471 : BitVec 32 := 0#32
  ![v660.toNat, 0, 0]

def k0_chk64 (v660 : BitVec 32) : Prop :=
  (∀ a, (k0_off256 v660) a + S1x1x64.size a ≤ S1000000x1x64.size a) ∧
  (∀ (hinb : ∀ a, (k0_off256 v660) a + S1x1x64.size a ≤ S1000000x1x64.size a), (Rect.unit (s := S1000000x1x64) (k0_off256 v660) S1x1x64.size hinb).WholeWords (EltTy.packing .bf16))
instance k0_chk64.dec : ∀ (v660 : BitVec 32), Decidable (k0_chk64 v660) := fun v660 => decidable_of_iff' _ (Iff.of_eq (k0_chk64.eq_1 v660))
theorem k0_off256_inb : ∀ (v660 : BitVec 32) (k0_hw64 : k0_chk64 v660), ∀ a, (k0_off256 v660) a + S1x1x64.size a ≤ S1000000x1x64.size a := fun v660 k0_hw64 => k0_hw64.1
theorem k0_off256_wordsbf16 : ∀ (v660 : BitVec 32) (k0_hw64 : k0_chk64 v660), (Rect.unit (s := S1000000x1x64) (k0_off256 v660) S1x1x64.size (k0_off256_inb v660 k0_hw64)).WholeWords (EltTy.packing .bf16) := fun v660 k0_hw64 => k0_hw64.2 (k0_off256_inb v660 k0_hw64)

@[reducible] def k0_t2_loop : Scf.Loop 32 :=
  let c0_i32_3 : BitVec 32 := 0#32
  let c4_i32_4 : BitVec 32 := 4#32
  let v4 : BitVec 32 := Scalar.addi c0_i32_3 c4_i32_4
  let c1_i32_5 : BitVec 32 := 1#32
  ⟨c0_i32_3, v4, c1_i32_5⟩
def k0_off257 (k0_t2 : Fin k0_t2_loop.trips) : Fin 3 → Nat :=
  let c0_23 : Index := 0#32
  let c0_24 : Index := 0#32
  let c0_i32_3 : BitVec 32 := 0#32
  let c1_i32_5 : BitVec 32 := 1#32
  let arg9 : BitVec 32 := Scf.iv c0_i32_3 c1_i32_5 k0_t2
  let c64_i32 : BitVec 32 := 64#32
  let v27 : BitVec 32 := Scalar.muli arg9 c64_i32
  let c0_i32_22 : BitVec 32 := 0#32
  let v28 : BitVec 32 := Scalar.addi v27 c0_i32_22
  let v29 : Index := Scalar.indexCast v28
  ![0, 0, v29.toNat]
def k0_off258 (k0_t2 : Fin k0_t2_loop.trips) : Fin 1 → Nat :=
  let c0_i32_3 : BitVec 32 := 0#32
  let c1_i32_5 : BitVec 32 := 1#32
  let arg9 : BitVec 32 := Scf.iv c0_i32_3 c1_i32_5 k0_t2
  let c64_i32 : BitVec 32 := 64#32
  let v27 : BitVec 32 := Scalar.muli arg9 c64_i32
  let c0_i32_22 : BitVec 32 := 0#32
  let v28 : BitVec 32 := Scalar.addi v27 c0_i32_22
  ![v28.toNat]
def k0_off259 (k0_t2 : Fin k0_t2_loop.trips) : Fin 3 → Nat :=
  let c0_i32_3 : BitVec 32 := 0#32
  let c1_i32_5 : BitVec 32 := 1#32
  let arg9 : BitVec 32 := Scf.iv c0_i32_3 c1_i32_5 k0_t2
  let c64_i32 : BitVec 32 := 64#32
  let v27 : BitVec 32 := Scalar.muli arg9 c64_i32
  let c0_i32_22 : BitVec 32 := 0#32
  let v28 : BitVec 32 := Scalar.addi v27 c0_i32_22
  let c0_i32_25 : BitVec 32 := 0#32
  let c0_i32_26 : BitVec 32 := 0#32
  ![v28.toNat, 0, 0]
def k0_off260 (v30 : BitVec 32) : Fin 3 → Nat :=
  let c0_i32_27 : BitVec 32 := 0#32
  let c0_i32_28 : BitVec 32 := 0#32
  ![v30.toNat, 0, 0]

def k0_chk65 (v30 : BitVec 32) : Prop :=
  (∀ a, (k0_off260 v30) a + S1x1x64.size a ≤ S1000000x1x64.size a) ∧
  (∀ (hinb : ∀ a, (k0_off260 v30) a + S1x1x64.size a ≤ S1000000x1x64.size a), (Rect.unit (s := S1000000x1x64) (k0_off260 v30) S1x1x64.size hinb).WholeWords (EltTy.packing .bf16))
instance k0_chk65.dec : ∀ (v30 : BitVec 32), Decidable (k0_chk65 v30) := fun v30 => decidable_of_iff' _ (Iff.of_eq (k0_chk65.eq_1 v30))
theorem k0_off260_inb : ∀ (v30 : BitVec 32) (k0_hw65 : k0_chk65 v30), ∀ a, (k0_off260 v30) a + S1x1x64.size a ≤ S1000000x1x64.size a := fun v30 k0_hw65 => k0_hw65.1
theorem k0_off260_wordsbf16 : ∀ (v30 : BitVec 32) (k0_hw65 : k0_chk65 v30), (Rect.unit (s := S1000000x1x64) (k0_off260 v30) S1x1x64.size (k0_off260_inb v30 k0_hw65)).WholeWords (EltTy.packing .bf16) := fun v30 k0_hw65 => k0_hw65.2 (k0_off260_inb v30 k0_hw65)

def k0_off261 (k0_t2 : Fin k0_t2_loop.trips) : Fin 3 → Nat :=
  let c0_31 : Index := 0#32
  let c0_32 : Index := 0#32
  let c0_i32_3 : BitVec 32 := 0#32
  let c1_i32_5 : BitVec 32 := 1#32
  let arg9 : BitVec 32 := Scf.iv c0_i32_3 c1_i32_5 k0_t2
  let c64_i32_30 : BitVec 32 := 64#32
  let v37 : BitVec 32 := Scalar.muli arg9 c64_i32_30
  let c1_i32_29 : BitVec 32 := 1#32
  let v38 : BitVec 32 := Scalar.addi v37 c1_i32_29
  let v39 : Index := Scalar.indexCast v38
  ![0, 0, v39.toNat]
def k0_off262 (k0_t2 : Fin k0_t2_loop.trips) : Fin 1 → Nat :=
  let c0_i32_3 : BitVec 32 := 0#32
  let c1_i32_5 : BitVec 32 := 1#32
  let arg9 : BitVec 32 := Scf.iv c0_i32_3 c1_i32_5 k0_t2
  let c64_i32_30 : BitVec 32 := 64#32
  let v37 : BitVec 32 := Scalar.muli arg9 c64_i32_30
  let c1_i32_29 : BitVec 32 := 1#32
  let v38 : BitVec 32 := Scalar.addi v37 c1_i32_29
  ![v38.toNat]
def k0_off263 (k0_t2 : Fin k0_t2_loop.trips) : Fin 3 → Nat :=
  let c0_i32_3 : BitVec 32 := 0#32
  let c1_i32_5 : BitVec 32 := 1#32
  let arg9 : BitVec 32 := Scf.iv c0_i32_3 c1_i32_5 k0_t2
  let c64_i32_30 : BitVec 32 := 64#32
  let v37 : BitVec 32 := Scalar.muli arg9 c64_i32_30
  let c1_i32_29 : BitVec 32 := 1#32
  let v38 : BitVec 32 := Scalar.addi v37 c1_i32_29
  let c0_i32_33 : BitVec 32 := 0#32
  let c0_i32_34 : BitVec 32 := 0#32
  ![v38.toNat, 0, 0]
def k0_off264 (v40 : BitVec 32) : Fin 3 → Nat :=
  let c0_i32_35 : BitVec 32 := 0#32
  let c0_i32_36 : BitVec 32 := 0#32
  ![v40.toNat, 0, 0]

def k0_chk66 (v40 : BitVec 32) : Prop :=
  (∀ a, (k0_off264 v40) a + S1x1x64.size a ≤ S1000000x1x64.size a) ∧
  (∀ (hinb : ∀ a, (k0_off264 v40) a + S1x1x64.size a ≤ S1000000x1x64.size a), (Rect.unit (s := S1000000x1x64) (k0_off264 v40) S1x1x64.size hinb).WholeWords (EltTy.packing .bf16))
instance k0_chk66.dec : ∀ (v40 : BitVec 32), Decidable (k0_chk66 v40) := fun v40 => decidable_of_iff' _ (Iff.of_eq (k0_chk66.eq_1 v40))
theorem k0_off264_inb : ∀ (v40 : BitVec 32) (k0_hw66 : k0_chk66 v40), ∀ a, (k0_off264 v40) a + S1x1x64.size a ≤ S1000000x1x64.size a := fun v40 k0_hw66 => k0_hw66.1
theorem k0_off264_wordsbf16 : ∀ (v40 : BitVec 32) (k0_hw66 : k0_chk66 v40), (Rect.unit (s := S1000000x1x64) (k0_off264 v40) S1x1x64.size (k0_off264_inb v40 k0_hw66)).WholeWords (EltTy.packing .bf16) := fun v40 k0_hw66 => k0_hw66.2 (k0_off264_inb v40 k0_hw66)

def k0_off265 (k0_t2 : Fin k0_t2_loop.trips) : Fin 3 → Nat :=
  let c0_38 : Index := 0#32
  let c0_39 : Index := 0#32
  let c0_i32_3 : BitVec 32 := 0#32
  let c1_i32_5 : BitVec 32 := 1#32
  let arg9 : BitVec 32 := Scf.iv c0_i32_3 c1_i32_5 k0_t2
  let c64_i32_37 : BitVec 32 := 64#32
  let v47 : BitVec 32 := Scalar.muli arg9 c64_i32_37
  let c2_i32 : BitVec 32 := 2#32
  let v48 : BitVec 32 := Scalar.addi v47 c2_i32
  let v49 : Index := Scalar.indexCast v48
  ![0, 0, v49.toNat]
def k0_off266 (k0_t2 : Fin k0_t2_loop.trips) : Fin 1 → Nat :=
  let c0_i32_3 : BitVec 32 := 0#32
  let c1_i32_5 : BitVec 32 := 1#32
  let arg9 : BitVec 32 := Scf.iv c0_i32_3 c1_i32_5 k0_t2
  let c64_i32_37 : BitVec 32 := 64#32
  let v47 : BitVec 32 := Scalar.muli arg9 c64_i32_37
  let c2_i32 : BitVec 32 := 2#32
  let v48 : BitVec 32 := Scalar.addi v47 c2_i32
  ![v48.toNat]
def k0_off267 (k0_t2 : Fin k0_t2_loop.trips) : Fin 3 → Nat :=
  let c0_i32_3 : BitVec 32 := 0#32
  let c1_i32_5 : BitVec 32 := 1#32
  let arg9 : BitVec 32 := Scf.iv c0_i32_3 c1_i32_5 k0_t2
  let c64_i32_37 : BitVec 32 := 64#32
  let v47 : BitVec 32 := Scalar.muli arg9 c64_i32_37
  let c2_i32 : BitVec 32 := 2#32
  let v48 : BitVec 32 := Scalar.addi v47 c2_i32
  let c0_i32_40 : BitVec 32 := 0#32
  let c0_i32_41 : BitVec 32 := 0#32
  ![v48.toNat, 0, 0]
def k0_off268 (v50 : BitVec 32) : Fin 3 → Nat :=
  let c0_i32_42 : BitVec 32 := 0#32
  let c0_i32_43 : BitVec 32 := 0#32
  ![v50.toNat, 0, 0]

def k0_chk67 (v50 : BitVec 32) : Prop :=
  (∀ a, (k0_off268 v50) a + S1x1x64.size a ≤ S1000000x1x64.size a) ∧
  (∀ (hinb : ∀ a, (k0_off268 v50) a + S1x1x64.size a ≤ S1000000x1x64.size a), (Rect.unit (s := S1000000x1x64) (k0_off268 v50) S1x1x64.size hinb).WholeWords (EltTy.packing .bf16))
instance k0_chk67.dec : ∀ (v50 : BitVec 32), Decidable (k0_chk67 v50) := fun v50 => decidable_of_iff' _ (Iff.of_eq (k0_chk67.eq_1 v50))
theorem k0_off268_inb : ∀ (v50 : BitVec 32) (k0_hw67 : k0_chk67 v50), ∀ a, (k0_off268 v50) a + S1x1x64.size a ≤ S1000000x1x64.size a := fun v50 k0_hw67 => k0_hw67.1
theorem k0_off268_wordsbf16 : ∀ (v50 : BitVec 32) (k0_hw67 : k0_chk67 v50), (Rect.unit (s := S1000000x1x64) (k0_off268 v50) S1x1x64.size (k0_off268_inb v50 k0_hw67)).WholeWords (EltTy.packing .bf16) := fun v50 k0_hw67 => k0_hw67.2 (k0_off268_inb v50 k0_hw67)

def k0_off269 (k0_t2 : Fin k0_t2_loop.trips) : Fin 3 → Nat :=
  let c0_45 : Index := 0#32
  let c0_46 : Index := 0#32
  let c0_i32_3 : BitVec 32 := 0#32
  let c1_i32_5 : BitVec 32 := 1#32
  let arg9 : BitVec 32 := Scf.iv c0_i32_3 c1_i32_5 k0_t2
  let c64_i32_44 : BitVec 32 := 64#32
  let v57 : BitVec 32 := Scalar.muli arg9 c64_i32_44
  let c3_i32 : BitVec 32 := 3#32
  let v58 : BitVec 32 := Scalar.addi v57 c3_i32
  let v59 : Index := Scalar.indexCast v58
  ![0, 0, v59.toNat]
def k0_off270 (k0_t2 : Fin k0_t2_loop.trips) : Fin 1 → Nat :=
  let c0_i32_3 : BitVec 32 := 0#32
  let c1_i32_5 : BitVec 32 := 1#32
  let arg9 : BitVec 32 := Scf.iv c0_i32_3 c1_i32_5 k0_t2
  let c64_i32_44 : BitVec 32 := 64#32
  let v57 : BitVec 32 := Scalar.muli arg9 c64_i32_44
  let c3_i32 : BitVec 32 := 3#32
  let v58 : BitVec 32 := Scalar.addi v57 c3_i32
  ![v58.toNat]
def k0_off271 (k0_t2 : Fin k0_t2_loop.trips) : Fin 3 → Nat :=
  let c0_i32_3 : BitVec 32 := 0#32
  let c1_i32_5 : BitVec 32 := 1#32
  let arg9 : BitVec 32 := Scf.iv c0_i32_3 c1_i32_5 k0_t2
  let c64_i32_44 : BitVec 32 := 64#32
  let v57 : BitVec 32 := Scalar.muli arg9 c64_i32_44
  let c3_i32 : BitVec 32 := 3#32
  let v58 : BitVec 32 := Scalar.addi v57 c3_i32
  let c0_i32_47 : BitVec 32 := 0#32
  let c0_i32_48 : BitVec 32 := 0#32
  ![v58.toNat, 0, 0]
def k0_off272 (v60 : BitVec 32) : Fin 3 → Nat :=
  let c0_i32_49 : BitVec 32 := 0#32
  let c0_i32_50 : BitVec 32 := 0#32
  ![v60.toNat, 0, 0]

def k0_chk68 (v60 : BitVec 32) : Prop :=
  (∀ a, (k0_off272 v60) a + S1x1x64.size a ≤ S1000000x1x64.size a) ∧
  (∀ (hinb : ∀ a, (k0_off272 v60) a + S1x1x64.size a ≤ S1000000x1x64.size a), (Rect.unit (s := S1000000x1x64) (k0_off272 v60) S1x1x64.size hinb).WholeWords (EltTy.packing .bf16))
instance k0_chk68.dec : ∀ (v60 : BitVec 32), Decidable (k0_chk68 v60) := fun v60 => decidable_of_iff' _ (Iff.of_eq (k0_chk68.eq_1 v60))
theorem k0_off272_inb : ∀ (v60 : BitVec 32) (k0_hw68 : k0_chk68 v60), ∀ a, (k0_off272 v60) a + S1x1x64.size a ≤ S1000000x1x64.size a := fun v60 k0_hw68 => k0_hw68.1
theorem k0_off272_wordsbf16 : ∀ (v60 : BitVec 32) (k0_hw68 : k0_chk68 v60), (Rect.unit (s := S1000000x1x64) (k0_off272 v60) S1x1x64.size (k0_off272_inb v60 k0_hw68)).WholeWords (EltTy.packing .bf16) := fun v60 k0_hw68 => k0_hw68.2 (k0_off272_inb v60 k0_hw68)

def k0_off273 (k0_t2 : Fin k0_t2_loop.trips) : Fin 3 → Nat :=
  let c0_53 : Index := 0#32
  let c0_54 : Index := 0#32
  let c0_i32_3 : BitVec 32 := 0#32
  let c1_i32_5 : BitVec 32 := 1#32
  let arg9 : BitVec 32 := Scf.iv c0_i32_3 c1_i32_5 k0_t2
  let c64_i32_52 : BitVec 32 := 64#32
  let v67 : BitVec 32 := Scalar.muli arg9 c64_i32_52
  let c4_i32_51 : BitVec 32 := 4#32
  let v68 : BitVec 32 := Scalar.addi v67 c4_i32_51
  let v69 : Index := Scalar.indexCast v68
  ![0, 0, v69.toNat]
def k0_off274 (k0_t2 : Fin k0_t2_loop.trips) : Fin 1 → Nat :=
  let c0_i32_3 : BitVec 32 := 0#32
  let c1_i32_5 : BitVec 32 := 1#32
  let arg9 : BitVec 32 := Scf.iv c0_i32_3 c1_i32_5 k0_t2
  let c64_i32_52 : BitVec 32 := 64#32
  let v67 : BitVec 32 := Scalar.muli arg9 c64_i32_52
  let c4_i32_51 : BitVec 32 := 4#32
  let v68 : BitVec 32 := Scalar.addi v67 c4_i32_51
  ![v68.toNat]
def k0_off275 (k0_t2 : Fin k0_t2_loop.trips) : Fin 3 → Nat :=
  let c0_i32_3 : BitVec 32 := 0#32
  let c1_i32_5 : BitVec 32 := 1#32
  let arg9 : BitVec 32 := Scf.iv c0_i32_3 c1_i32_5 k0_t2
  let c64_i32_52 : BitVec 32 := 64#32
  let v67 : BitVec 32 := Scalar.muli arg9 c64_i32_52
  let c4_i32_51 : BitVec 32 := 4#32
  let v68 : BitVec 32 := Scalar.addi v67 c4_i32_51
  let c0_i32_55 : BitVec 32 := 0#32
  let c0_i32_56 : BitVec 32 := 0#32
  ![v68.toNat, 0, 0]
def k0_off276 (v70 : BitVec 32) : Fin 3 → Nat :=
  let c0_i32_57 : BitVec 32 := 0#32
  let c0_i32_58 : BitVec 32 := 0#32
  ![v70.toNat, 0, 0]

def k0_chk69 (v70 : BitVec 32) : Prop :=
  (∀ a, (k0_off276 v70) a + S1x1x64.size a ≤ S1000000x1x64.size a) ∧
  (∀ (hinb : ∀ a, (k0_off276 v70) a + S1x1x64.size a ≤ S1000000x1x64.size a), (Rect.unit (s := S1000000x1x64) (k0_off276 v70) S1x1x64.size hinb).WholeWords (EltTy.packing .bf16))
instance k0_chk69.dec : ∀ (v70 : BitVec 32), Decidable (k0_chk69 v70) := fun v70 => decidable_of_iff' _ (Iff.of_eq (k0_chk69.eq_1 v70))
theorem k0_off276_inb : ∀ (v70 : BitVec 32) (k0_hw69 : k0_chk69 v70), ∀ a, (k0_off276 v70) a + S1x1x64.size a ≤ S1000000x1x64.size a := fun v70 k0_hw69 => k0_hw69.1
theorem k0_off276_wordsbf16 : ∀ (v70 : BitVec 32) (k0_hw69 : k0_chk69 v70), (Rect.unit (s := S1000000x1x64) (k0_off276 v70) S1x1x64.size (k0_off276_inb v70 k0_hw69)).WholeWords (EltTy.packing .bf16) := fun v70 k0_hw69 => k0_hw69.2 (k0_off276_inb v70 k0_hw69)

def k0_off277 (k0_t2 : Fin k0_t2_loop.trips) : Fin 3 → Nat :=
  let c0_60 : Index := 0#32
  let c0_61 : Index := 0#32
  let c0_i32_3 : BitVec 32 := 0#32
  let c1_i32_5 : BitVec 32 := 1#32
  let arg9 : BitVec 32 := Scf.iv c0_i32_3 c1_i32_5 k0_t2
  let c64_i32_59 : BitVec 32 := 64#32
  let v77 : BitVec 32 := Scalar.muli arg9 c64_i32_59
  let c5_i32 : BitVec 32 := 5#32
  let v78 : BitVec 32 := Scalar.addi v77 c5_i32
  let v79 : Index := Scalar.indexCast v78
  ![0, 0, v79.toNat]
def k0_off278 (k0_t2 : Fin k0_t2_loop.trips) : Fin 1 → Nat :=
  let c0_i32_3 : BitVec 32 := 0#32
  let c1_i32_5 : BitVec 32 := 1#32
  let arg9 : BitVec 32 := Scf.iv c0_i32_3 c1_i32_5 k0_t2
  let c64_i32_59 : BitVec 32 := 64#32
  let v77 : BitVec 32 := Scalar.muli arg9 c64_i32_59
  let c5_i32 : BitVec 32 := 5#32
  let v78 : BitVec 32 := Scalar.addi v77 c5_i32
  ![v78.toNat]
def k0_off279 (k0_t2 : Fin k0_t2_loop.trips) : Fin 3 → Nat :=
  let c0_i32_3 : BitVec 32 := 0#32
  let c1_i32_5 : BitVec 32 := 1#32
  let arg9 : BitVec 32 := Scf.iv c0_i32_3 c1_i32_5 k0_t2
  let c64_i32_59 : BitVec 32 := 64#32
  let v77 : BitVec 32 := Scalar.muli arg9 c64_i32_59
  let c5_i32 : BitVec 32 := 5#32
  let v78 : BitVec 32 := Scalar.addi v77 c5_i32
  let c0_i32_62 : BitVec 32 := 0#32
  let c0_i32_63 : BitVec 32 := 0#32
  ![v78.toNat, 0, 0]
def k0_off280 (v80 : BitVec 32) : Fin 3 → Nat :=
  let c0_i32_64 : BitVec 32 := 0#32
  let c0_i32_65 : BitVec 32 := 0#32
  ![v80.toNat, 0, 0]

def k0_chk70 (v80 : BitVec 32) : Prop :=
  (∀ a, (k0_off280 v80) a + S1x1x64.size a ≤ S1000000x1x64.size a) ∧
  (∀ (hinb : ∀ a, (k0_off280 v80) a + S1x1x64.size a ≤ S1000000x1x64.size a), (Rect.unit (s := S1000000x1x64) (k0_off280 v80) S1x1x64.size hinb).WholeWords (EltTy.packing .bf16))
instance k0_chk70.dec : ∀ (v80 : BitVec 32), Decidable (k0_chk70 v80) := fun v80 => decidable_of_iff' _ (Iff.of_eq (k0_chk70.eq_1 v80))
theorem k0_off280_inb : ∀ (v80 : BitVec 32) (k0_hw70 : k0_chk70 v80), ∀ a, (k0_off280 v80) a + S1x1x64.size a ≤ S1000000x1x64.size a := fun v80 k0_hw70 => k0_hw70.1
theorem k0_off280_wordsbf16 : ∀ (v80 : BitVec 32) (k0_hw70 : k0_chk70 v80), (Rect.unit (s := S1000000x1x64) (k0_off280 v80) S1x1x64.size (k0_off280_inb v80 k0_hw70)).WholeWords (EltTy.packing .bf16) := fun v80 k0_hw70 => k0_hw70.2 (k0_off280_inb v80 k0_hw70)

def k0_off281 (k0_t2 : Fin k0_t2_loop.trips) : Fin 3 → Nat :=
  let c0_67 : Index := 0#32
  let c0_68 : Index := 0#32
  let c0_i32_3 : BitVec 32 := 0#32
  let c1_i32_5 : BitVec 32 := 1#32
  let arg9 : BitVec 32 := Scf.iv c0_i32_3 c1_i32_5 k0_t2
  let c64_i32_66 : BitVec 32 := 64#32
  let v87 : BitVec 32 := Scalar.muli arg9 c64_i32_66
  let c6_i32 : BitVec 32 := 6#32
  let v88 : BitVec 32 := Scalar.addi v87 c6_i32
  let v89 : Index := Scalar.indexCast v88
  ![0, 0, v89.toNat]
def k0_off282 (k0_t2 : Fin k0_t2_loop.trips) : Fin 1 → Nat :=
  let c0_i32_3 : BitVec 32 := 0#32
  let c1_i32_5 : BitVec 32 := 1#32
  let arg9 : BitVec 32 := Scf.iv c0_i32_3 c1_i32_5 k0_t2
  let c64_i32_66 : BitVec 32 := 64#32
  let v87 : BitVec 32 := Scalar.muli arg9 c64_i32_66
  let c6_i32 : BitVec 32 := 6#32
  let v88 : BitVec 32 := Scalar.addi v87 c6_i32
  ![v88.toNat]
def k0_off283 (k0_t2 : Fin k0_t2_loop.trips) : Fin 3 → Nat :=
  let c0_i32_3 : BitVec 32 := 0#32
  let c1_i32_5 : BitVec 32 := 1#32
  let arg9 : BitVec 32 := Scf.iv c0_i32_3 c1_i32_5 k0_t2
  let c64_i32_66 : BitVec 32 := 64#32
  let v87 : BitVec 32 := Scalar.muli arg9 c64_i32_66
  let c6_i32 : BitVec 32 := 6#32
  let v88 : BitVec 32 := Scalar.addi v87 c6_i32
  let c0_i32_69 : BitVec 32 := 0#32
  let c0_i32_70 : BitVec 32 := 0#32
  ![v88.toNat, 0, 0]
def k0_off284 (v90 : BitVec 32) : Fin 3 → Nat :=
  let c0_i32_71 : BitVec 32 := 0#32
  let c0_i32_72 : BitVec 32 := 0#32
  ![v90.toNat, 0, 0]

def k0_chk71 (v90 : BitVec 32) : Prop :=
  (∀ a, (k0_off284 v90) a + S1x1x64.size a ≤ S1000000x1x64.size a) ∧
  (∀ (hinb : ∀ a, (k0_off284 v90) a + S1x1x64.size a ≤ S1000000x1x64.size a), (Rect.unit (s := S1000000x1x64) (k0_off284 v90) S1x1x64.size hinb).WholeWords (EltTy.packing .bf16))
instance k0_chk71.dec : ∀ (v90 : BitVec 32), Decidable (k0_chk71 v90) := fun v90 => decidable_of_iff' _ (Iff.of_eq (k0_chk71.eq_1 v90))
theorem k0_off284_inb : ∀ (v90 : BitVec 32) (k0_hw71 : k0_chk71 v90), ∀ a, (k0_off284 v90) a + S1x1x64.size a ≤ S1000000x1x64.size a := fun v90 k0_hw71 => k0_hw71.1
theorem k0_off284_wordsbf16 : ∀ (v90 : BitVec 32) (k0_hw71 : k0_chk71 v90), (Rect.unit (s := S1000000x1x64) (k0_off284 v90) S1x1x64.size (k0_off284_inb v90 k0_hw71)).WholeWords (EltTy.packing .bf16) := fun v90 k0_hw71 => k0_hw71.2 (k0_off284_inb v90 k0_hw71)

def k0_off285 (k0_t2 : Fin k0_t2_loop.trips) : Fin 3 → Nat :=
  let c0_74 : Index := 0#32
  let c0_75 : Index := 0#32
  let c0_i32_3 : BitVec 32 := 0#32
  let c1_i32_5 : BitVec 32 := 1#32
  let arg9 : BitVec 32 := Scf.iv c0_i32_3 c1_i32_5 k0_t2
  let c64_i32_73 : BitVec 32 := 64#32
  let v97 : BitVec 32 := Scalar.muli arg9 c64_i32_73
  let c7_i32 : BitVec 32 := 7#32
  let v98 : BitVec 32 := Scalar.addi v97 c7_i32
  let v99 : Index := Scalar.indexCast v98
  ![0, 0, v99.toNat]
def k0_off286 (k0_t2 : Fin k0_t2_loop.trips) : Fin 1 → Nat :=
  let c0_i32_3 : BitVec 32 := 0#32
  let c1_i32_5 : BitVec 32 := 1#32
  let arg9 : BitVec 32 := Scf.iv c0_i32_3 c1_i32_5 k0_t2
  let c64_i32_73 : BitVec 32 := 64#32
  let v97 : BitVec 32 := Scalar.muli arg9 c64_i32_73
  let c7_i32 : BitVec 32 := 7#32
  let v98 : BitVec 32 := Scalar.addi v97 c7_i32
  ![v98.toNat]
def k0_off287 (k0_t2 : Fin k0_t2_loop.trips) : Fin 3 → Nat :=
  let c0_i32_3 : BitVec 32 := 0#32
  let c1_i32_5 : BitVec 32 := 1#32
  let arg9 : BitVec 32 := Scf.iv c0_i32_3 c1_i32_5 k0_t2
  let c64_i32_73 : BitVec 32 := 64#32
  let v97 : BitVec 32 := Scalar.muli arg9 c64_i32_73
  let c7_i32 : BitVec 32 := 7#32
  let v98 : BitVec 32 := Scalar.addi v97 c7_i32
  let c0_i32_76 : BitVec 32 := 0#32
  let c0_i32_77 : BitVec 32 := 0#32
  ![v98.toNat, 0, 0]
def k0_off288 (v100 : BitVec 32) : Fin 3 → Nat :=
  let c0_i32_78 : BitVec 32 := 0#32
  let c0_i32_79 : BitVec 32 := 0#32
  ![v100.toNat, 0, 0]

def k0_chk72 (v100 : BitVec 32) : Prop :=
  (∀ a, (k0_off288 v100) a + S1x1x64.size a ≤ S1000000x1x64.size a) ∧
  (∀ (hinb : ∀ a, (k0_off288 v100) a + S1x1x64.size a ≤ S1000000x1x64.size a), (Rect.unit (s := S1000000x1x64) (k0_off288 v100) S1x1x64.size hinb).WholeWords (EltTy.packing .bf16))
instance k0_chk72.dec : ∀ (v100 : BitVec 32), Decidable (k0_chk72 v100) := fun v100 => decidable_of_iff' _ (Iff.of_eq (k0_chk72.eq_1 v100))
theorem k0_off288_inb : ∀ (v100 : BitVec 32) (k0_hw72 : k0_chk72 v100), ∀ a, (k0_off288 v100) a + S1x1x64.size a ≤ S1000000x1x64.size a := fun v100 k0_hw72 => k0_hw72.1
theorem k0_off288_wordsbf16 : ∀ (v100 : BitVec 32) (k0_hw72 : k0_chk72 v100), (Rect.unit (s := S1000000x1x64) (k0_off288 v100) S1x1x64.size (k0_off288_inb v100 k0_hw72)).WholeWords (EltTy.packing .bf16) := fun v100 k0_hw72 => k0_hw72.2 (k0_off288_inb v100 k0_hw72)

def k0_off289 (k0_t2 : Fin k0_t2_loop.trips) : Fin 3 → Nat :=
  let c0_81 : Index := 0#32
  let c0_82 : Index := 0#32
  let c0_i32_3 : BitVec 32 := 0#32
  let c1_i32_5 : BitVec 32 := 1#32
  let arg9 : BitVec 32 := Scf.iv c0_i32_3 c1_i32_5 k0_t2
  let c64_i32_80 : BitVec 32 := 64#32
  let v107 : BitVec 32 := Scalar.muli arg9 c64_i32_80
  let c8_i32 : BitVec 32 := 8#32
  let v108 : BitVec 32 := Scalar.addi v107 c8_i32
  let v109 : Index := Scalar.indexCast v108
  ![0, 0, v109.toNat]
def k0_off290 (k0_t2 : Fin k0_t2_loop.trips) : Fin 1 → Nat :=
  let c0_i32_3 : BitVec 32 := 0#32
  let c1_i32_5 : BitVec 32 := 1#32
  let arg9 : BitVec 32 := Scf.iv c0_i32_3 c1_i32_5 k0_t2
  let c64_i32_80 : BitVec 32 := 64#32
  let v107 : BitVec 32 := Scalar.muli arg9 c64_i32_80
  let c8_i32 : BitVec 32 := 8#32
  let v108 : BitVec 32 := Scalar.addi v107 c8_i32
  ![v108.toNat]
def k0_off291 (k0_t2 : Fin k0_t2_loop.trips) : Fin 3 → Nat :=
  let c0_i32_3 : BitVec 32 := 0#32
  let c1_i32_5 : BitVec 32 := 1#32
  let arg9 : BitVec 32 := Scf.iv c0_i32_3 c1_i32_5 k0_t2
  let c64_i32_80 : BitVec 32 := 64#32
  let v107 : BitVec 32 := Scalar.muli arg9 c64_i32_80
  let c8_i32 : BitVec 32 := 8#32
  let v108 : BitVec 32 := Scalar.addi v107 c8_i32
  let c0_i32_83 : BitVec 32 := 0#32
  let c0_i32_84 : BitVec 32 := 0#32
  ![v108.toNat, 0, 0]
def k0_off292 (v110 : BitVec 32) : Fin 3 → Nat :=
  let c0_i32_85 : BitVec 32 := 0#32
  let c0_i32_86 : BitVec 32 := 0#32
  ![v110.toNat, 0, 0]

def k0_chk73 (v110 : BitVec 32) : Prop :=
  (∀ a, (k0_off292 v110) a + S1x1x64.size a ≤ S1000000x1x64.size a) ∧
  (∀ (hinb : ∀ a, (k0_off292 v110) a + S1x1x64.size a ≤ S1000000x1x64.size a), (Rect.unit (s := S1000000x1x64) (k0_off292 v110) S1x1x64.size hinb).WholeWords (EltTy.packing .bf16))
instance k0_chk73.dec : ∀ (v110 : BitVec 32), Decidable (k0_chk73 v110) := fun v110 => decidable_of_iff' _ (Iff.of_eq (k0_chk73.eq_1 v110))
theorem k0_off292_inb : ∀ (v110 : BitVec 32) (k0_hw73 : k0_chk73 v110), ∀ a, (k0_off292 v110) a + S1x1x64.size a ≤ S1000000x1x64.size a := fun v110 k0_hw73 => k0_hw73.1
theorem k0_off292_wordsbf16 : ∀ (v110 : BitVec 32) (k0_hw73 : k0_chk73 v110), (Rect.unit (s := S1000000x1x64) (k0_off292 v110) S1x1x64.size (k0_off292_inb v110 k0_hw73)).WholeWords (EltTy.packing .bf16) := fun v110 k0_hw73 => k0_hw73.2 (k0_off292_inb v110 k0_hw73)

def k0_off293 (k0_t2 : Fin k0_t2_loop.trips) : Fin 3 → Nat :=
  let c0_88 : Index := 0#32
  let c0_89 : Index := 0#32
  let c0_i32_3 : BitVec 32 := 0#32
  let c1_i32_5 : BitVec 32 := 1#32
  let arg9 : BitVec 32 := Scf.iv c0_i32_3 c1_i32_5 k0_t2
  let c64_i32_87 : BitVec 32 := 64#32
  let v117 : BitVec 32 := Scalar.muli arg9 c64_i32_87
  let c9_i32 : BitVec 32 := 9#32
  let v118 : BitVec 32 := Scalar.addi v117 c9_i32
  let v119 : Index := Scalar.indexCast v118
  ![0, 0, v119.toNat]
def k0_off294 (k0_t2 : Fin k0_t2_loop.trips) : Fin 1 → Nat :=
  let c0_i32_3 : BitVec 32 := 0#32
  let c1_i32_5 : BitVec 32 := 1#32
  let arg9 : BitVec 32 := Scf.iv c0_i32_3 c1_i32_5 k0_t2
  let c64_i32_87 : BitVec 32 := 64#32
  let v117 : BitVec 32 := Scalar.muli arg9 c64_i32_87
  let c9_i32 : BitVec 32 := 9#32
  let v118 : BitVec 32 := Scalar.addi v117 c9_i32
  ![v118.toNat]
def k0_off295 (k0_t2 : Fin k0_t2_loop.trips) : Fin 3 → Nat :=
  let c0_i32_3 : BitVec 32 := 0#32
  let c1_i32_5 : BitVec 32 := 1#32
  let arg9 : BitVec 32 := Scf.iv c0_i32_3 c1_i32_5 k0_t2
  let c64_i32_87 : BitVec 32 := 64#32
  let v117 : BitVec 32 := Scalar.muli arg9 c64_i32_87
  let c9_i32 : BitVec 32 := 9#32
  let v118 : BitVec 32 := Scalar.addi v117 c9_i32
  let c0_i32_90 : BitVec 32 := 0#32
  let c0_i32_91 : BitVec 32 := 0#32
  ![v118.toNat, 0, 0]
def k0_off296 (v120 : BitVec 32) : Fin 3 → Nat :=
  let c0_i32_92 : BitVec 32 := 0#32
  let c0_i32_93 : BitVec 32 := 0#32
  ![v120.toNat, 0, 0]

def k0_chk74 (v120 : BitVec 32) : Prop :=
  (∀ a, (k0_off296 v120) a + S1x1x64.size a ≤ S1000000x1x64.size a) ∧
  (∀ (hinb : ∀ a, (k0_off296 v120) a + S1x1x64.size a ≤ S1000000x1x64.size a), (Rect.unit (s := S1000000x1x64) (k0_off296 v120) S1x1x64.size hinb).WholeWords (EltTy.packing .bf16))
instance k0_chk74.dec : ∀ (v120 : BitVec 32), Decidable (k0_chk74 v120) := fun v120 => decidable_of_iff' _ (Iff.of_eq (k0_chk74.eq_1 v120))
theorem k0_off296_inb : ∀ (v120 : BitVec 32) (k0_hw74 : k0_chk74 v120), ∀ a, (k0_off296 v120) a + S1x1x64.size a ≤ S1000000x1x64.size a := fun v120 k0_hw74 => k0_hw74.1
theorem k0_off296_wordsbf16 : ∀ (v120 : BitVec 32) (k0_hw74 : k0_chk74 v120), (Rect.unit (s := S1000000x1x64) (k0_off296 v120) S1x1x64.size (k0_off296_inb v120 k0_hw74)).WholeWords (EltTy.packing .bf16) := fun v120 k0_hw74 => k0_hw74.2 (k0_off296_inb v120 k0_hw74)

def k0_off297 (k0_t2 : Fin k0_t2_loop.trips) : Fin 3 → Nat :=
  let c0_95 : Index := 0#32
  let c0_96 : Index := 0#32
  let c0_i32_3 : BitVec 32 := 0#32
  let c1_i32_5 : BitVec 32 := 1#32
  let arg9 : BitVec 32 := Scf.iv c0_i32_3 c1_i32_5 k0_t2
  let c64_i32_94 : BitVec 32 := 64#32
  let v127 : BitVec 32 := Scalar.muli arg9 c64_i32_94
  let c10_i32 : BitVec 32 := 10#32
  let v128 : BitVec 32 := Scalar.addi v127 c10_i32
  let v129 : Index := Scalar.indexCast v128
  ![0, 0, v129.toNat]
def k0_off298 (k0_t2 : Fin k0_t2_loop.trips) : Fin 1 → Nat :=
  let c0_i32_3 : BitVec 32 := 0#32
  let c1_i32_5 : BitVec 32 := 1#32
  let arg9 : BitVec 32 := Scf.iv c0_i32_3 c1_i32_5 k0_t2
  let c64_i32_94 : BitVec 32 := 64#32
  let v127 : BitVec 32 := Scalar.muli arg9 c64_i32_94
  let c10_i32 : BitVec 32 := 10#32
  let v128 : BitVec 32 := Scalar.addi v127 c10_i32
  ![v128.toNat]
def k0_off299 (k0_t2 : Fin k0_t2_loop.trips) : Fin 3 → Nat :=
  let c0_i32_3 : BitVec 32 := 0#32
  let c1_i32_5 : BitVec 32 := 1#32
  let arg9 : BitVec 32 := Scf.iv c0_i32_3 c1_i32_5 k0_t2
  let c64_i32_94 : BitVec 32 := 64#32
  let v127 : BitVec 32 := Scalar.muli arg9 c64_i32_94
  let c10_i32 : BitVec 32 := 10#32
  let v128 : BitVec 32 := Scalar.addi v127 c10_i32
  let c0_i32_97 : BitVec 32 := 0#32
  let c0_i32_98 : BitVec 32 := 0#32
  ![v128.toNat, 0, 0]
def k0_off300 (v130 : BitVec 32) : Fin 3 → Nat :=
  let c0_i32_99 : BitVec 32 := 0#32
  let c0_i32_100 : BitVec 32 := 0#32
  ![v130.toNat, 0, 0]

def k0_chk75 (v130 : BitVec 32) : Prop :=
  (∀ a, (k0_off300 v130) a + S1x1x64.size a ≤ S1000000x1x64.size a) ∧
  (∀ (hinb : ∀ a, (k0_off300 v130) a + S1x1x64.size a ≤ S1000000x1x64.size a), (Rect.unit (s := S1000000x1x64) (k0_off300 v130) S1x1x64.size hinb).WholeWords (EltTy.packing .bf16))
instance k0_chk75.dec : ∀ (v130 : BitVec 32), Decidable (k0_chk75 v130) := fun v130 => decidable_of_iff' _ (Iff.of_eq (k0_chk75.eq_1 v130))
theorem k0_off300_inb : ∀ (v130 : BitVec 32) (k0_hw75 : k0_chk75 v130), ∀ a, (k0_off300 v130) a + S1x1x64.size a ≤ S1000000x1x64.size a := fun v130 k0_hw75 => k0_hw75.1
theorem k0_off300_wordsbf16 : ∀ (v130 : BitVec 32) (k0_hw75 : k0_chk75 v130), (Rect.unit (s := S1000000x1x64) (k0_off300 v130) S1x1x64.size (k0_off300_inb v130 k0_hw75)).WholeWords (EltTy.packing .bf16) := fun v130 k0_hw75 => k0_hw75.2 (k0_off300_inb v130 k0_hw75)

def k0_off301 (k0_t2 : Fin k0_t2_loop.trips) : Fin 3 → Nat :=
  let c0_102 : Index := 0#32
  let c0_103 : Index := 0#32
  let c0_i32_3 : BitVec 32 := 0#32
  let c1_i32_5 : BitVec 32 := 1#32
  let arg9 : BitVec 32 := Scf.iv c0_i32_3 c1_i32_5 k0_t2
  let c64_i32_101 : BitVec 32 := 64#32
  let v137 : BitVec 32 := Scalar.muli arg9 c64_i32_101
  let c11_i32 : BitVec 32 := 11#32
  let v138 : BitVec 32 := Scalar.addi v137 c11_i32
  let v139 : Index := Scalar.indexCast v138
  ![0, 0, v139.toNat]
def k0_off302 (k0_t2 : Fin k0_t2_loop.trips) : Fin 1 → Nat :=
  let c0_i32_3 : BitVec 32 := 0#32
  let c1_i32_5 : BitVec 32 := 1#32
  let arg9 : BitVec 32 := Scf.iv c0_i32_3 c1_i32_5 k0_t2
  let c64_i32_101 : BitVec 32 := 64#32
  let v137 : BitVec 32 := Scalar.muli arg9 c64_i32_101
  let c11_i32 : BitVec 32 := 11#32
  let v138 : BitVec 32 := Scalar.addi v137 c11_i32
  ![v138.toNat]
def k0_off303 (k0_t2 : Fin k0_t2_loop.trips) : Fin 3 → Nat :=
  let c0_i32_3 : BitVec 32 := 0#32
  let c1_i32_5 : BitVec 32 := 1#32
  let arg9 : BitVec 32 := Scf.iv c0_i32_3 c1_i32_5 k0_t2
  let c64_i32_101 : BitVec 32 := 64#32
  let v137 : BitVec 32 := Scalar.muli arg9 c64_i32_101
  let c11_i32 : BitVec 32 := 11#32
  let v138 : BitVec 32 := Scalar.addi v137 c11_i32
  let c0_i32_104 : BitVec 32 := 0#32
  let c0_i32_105 : BitVec 32 := 0#32
  ![v138.toNat, 0, 0]
def k0_off304 (v140 : BitVec 32) : Fin 3 → Nat :=
  let c0_i32_106 : BitVec 32 := 0#32
  let c0_i32_107 : BitVec 32 := 0#32
  ![v140.toNat, 0, 0]

def k0_chk76 (v140 : BitVec 32) : Prop :=
  (∀ a, (k0_off304 v140) a + S1x1x64.size a ≤ S1000000x1x64.size a) ∧
  (∀ (hinb : ∀ a, (k0_off304 v140) a + S1x1x64.size a ≤ S1000000x1x64.size a), (Rect.unit (s := S1000000x1x64) (k0_off304 v140) S1x1x64.size hinb).WholeWords (EltTy.packing .bf16))
instance k0_chk76.dec : ∀ (v140 : BitVec 32), Decidable (k0_chk76 v140) := fun v140 => decidable_of_iff' _ (Iff.of_eq (k0_chk76.eq_1 v140))
theorem k0_off304_inb : ∀ (v140 : BitVec 32) (k0_hw76 : k0_chk76 v140), ∀ a, (k0_off304 v140) a + S1x1x64.size a ≤ S1000000x1x64.size a := fun v140 k0_hw76 => k0_hw76.1
theorem k0_off304_wordsbf16 : ∀ (v140 : BitVec 32) (k0_hw76 : k0_chk76 v140), (Rect.unit (s := S1000000x1x64) (k0_off304 v140) S1x1x64.size (k0_off304_inb v140 k0_hw76)).WholeWords (EltTy.packing .bf16) := fun v140 k0_hw76 => k0_hw76.2 (k0_off304_inb v140 k0_hw76)

def k0_off305 (k0_t2 : Fin k0_t2_loop.trips) : Fin 3 → Nat :=
  let c0_109 : Index := 0#32
  let c0_110 : Index := 0#32
  let c0_i32_3 : BitVec 32 := 0#32
  let c1_i32_5 : BitVec 32 := 1#32
  let arg9 : BitVec 32 := Scf.iv c0_i32_3 c1_i32_5 k0_t2
  let c64_i32_108 : BitVec 32 := 64#32
  let v147 : BitVec 32 := Scalar.muli arg9 c64_i32_108
  let c12_i32 : BitVec 32 := 12#32
  let v148 : BitVec 32 := Scalar.addi v147 c12_i32
  let v149 : Index := Scalar.indexCast v148
  ![0, 0, v149.toNat]
def k0_off306 (k0_t2 : Fin k0_t2_loop.trips) : Fin 1 → Nat :=
  let c0_i32_3 : BitVec 32 := 0#32
  let c1_i32_5 : BitVec 32 := 1#32
  let arg9 : BitVec 32 := Scf.iv c0_i32_3 c1_i32_5 k0_t2
  let c64_i32_108 : BitVec 32 := 64#32
  let v147 : BitVec 32 := Scalar.muli arg9 c64_i32_108
  let c12_i32 : BitVec 32 := 12#32
  let v148 : BitVec 32 := Scalar.addi v147 c12_i32
  ![v148.toNat]
def k0_off307 (k0_t2 : Fin k0_t2_loop.trips) : Fin 3 → Nat :=
  let c0_i32_3 : BitVec 32 := 0#32
  let c1_i32_5 : BitVec 32 := 1#32
  let arg9 : BitVec 32 := Scf.iv c0_i32_3 c1_i32_5 k0_t2
  let c64_i32_108 : BitVec 32 := 64#32
  let v147 : BitVec 32 := Scalar.muli arg9 c64_i32_108
  let c12_i32 : BitVec 32 := 12#32
  let v148 : BitVec 32 := Scalar.addi v147 c12_i32
  let c0_i32_111 : BitVec 32 := 0#32
  let c0_i32_112 : BitVec 32 := 0#32
  ![v148.toNat, 0, 0]
def k0_off308 (v150 : BitVec 32) : Fin 3 → Nat :=
  let c0_i32_113 : BitVec 32 := 0#32
  let c0_i32_114 : BitVec 32 := 0#32
  ![v150.toNat, 0, 0]

def k0_chk77 (v150 : BitVec 32) : Prop :=
  (∀ a, (k0_off308 v150) a + S1x1x64.size a ≤ S1000000x1x64.size a) ∧
  (∀ (hinb : ∀ a, (k0_off308 v150) a + S1x1x64.size a ≤ S1000000x1x64.size a), (Rect.unit (s := S1000000x1x64) (k0_off308 v150) S1x1x64.size hinb).WholeWords (EltTy.packing .bf16))
instance k0_chk77.dec : ∀ (v150 : BitVec 32), Decidable (k0_chk77 v150) := fun v150 => decidable_of_iff' _ (Iff.of_eq (k0_chk77.eq_1 v150))
theorem k0_off308_inb : ∀ (v150 : BitVec 32) (k0_hw77 : k0_chk77 v150), ∀ a, (k0_off308 v150) a + S1x1x64.size a ≤ S1000000x1x64.size a := fun v150 k0_hw77 => k0_hw77.1
theorem k0_off308_wordsbf16 : ∀ (v150 : BitVec 32) (k0_hw77 : k0_chk77 v150), (Rect.unit (s := S1000000x1x64) (k0_off308 v150) S1x1x64.size (k0_off308_inb v150 k0_hw77)).WholeWords (EltTy.packing .bf16) := fun v150 k0_hw77 => k0_hw77.2 (k0_off308_inb v150 k0_hw77)

def k0_off309 (k0_t2 : Fin k0_t2_loop.trips) : Fin 3 → Nat :=
  let c0_116 : Index := 0#32
  let c0_117 : Index := 0#32
  let c0_i32_3 : BitVec 32 := 0#32
  let c1_i32_5 : BitVec 32 := 1#32
  let arg9 : BitVec 32 := Scf.iv c0_i32_3 c1_i32_5 k0_t2
  let c64_i32_115 : BitVec 32 := 64#32
  let v157 : BitVec 32 := Scalar.muli arg9 c64_i32_115
  let c13_i32 : BitVec 32 := 13#32
  let v158 : BitVec 32 := Scalar.addi v157 c13_i32
  let v159 : Index := Scalar.indexCast v158
  ![0, 0, v159.toNat]
def k0_off310 (k0_t2 : Fin k0_t2_loop.trips) : Fin 1 → Nat :=
  let c0_i32_3 : BitVec 32 := 0#32
  let c1_i32_5 : BitVec 32 := 1#32
  let arg9 : BitVec 32 := Scf.iv c0_i32_3 c1_i32_5 k0_t2
  let c64_i32_115 : BitVec 32 := 64#32
  let v157 : BitVec 32 := Scalar.muli arg9 c64_i32_115
  let c13_i32 : BitVec 32 := 13#32
  let v158 : BitVec 32 := Scalar.addi v157 c13_i32
  ![v158.toNat]
def k0_off311 (k0_t2 : Fin k0_t2_loop.trips) : Fin 3 → Nat :=
  let c0_i32_3 : BitVec 32 := 0#32
  let c1_i32_5 : BitVec 32 := 1#32
  let arg9 : BitVec 32 := Scf.iv c0_i32_3 c1_i32_5 k0_t2
  let c64_i32_115 : BitVec 32 := 64#32
  let v157 : BitVec 32 := Scalar.muli arg9 c64_i32_115
  let c13_i32 : BitVec 32 := 13#32
  let v158 : BitVec 32 := Scalar.addi v157 c13_i32
  let c0_i32_118 : BitVec 32 := 0#32
  let c0_i32_119 : BitVec 32 := 0#32
  ![v158.toNat, 0, 0]
def k0_off312 (v160 : BitVec 32) : Fin 3 → Nat :=
  let c0_i32_120 : BitVec 32 := 0#32
  let c0_i32_121 : BitVec 32 := 0#32
  ![v160.toNat, 0, 0]

def k0_chk78 (v160 : BitVec 32) : Prop :=
  (∀ a, (k0_off312 v160) a + S1x1x64.size a ≤ S1000000x1x64.size a) ∧
  (∀ (hinb : ∀ a, (k0_off312 v160) a + S1x1x64.size a ≤ S1000000x1x64.size a), (Rect.unit (s := S1000000x1x64) (k0_off312 v160) S1x1x64.size hinb).WholeWords (EltTy.packing .bf16))
instance k0_chk78.dec : ∀ (v160 : BitVec 32), Decidable (k0_chk78 v160) := fun v160 => decidable_of_iff' _ (Iff.of_eq (k0_chk78.eq_1 v160))
theorem k0_off312_inb : ∀ (v160 : BitVec 32) (k0_hw78 : k0_chk78 v160), ∀ a, (k0_off312 v160) a + S1x1x64.size a ≤ S1000000x1x64.size a := fun v160 k0_hw78 => k0_hw78.1
theorem k0_off312_wordsbf16 : ∀ (v160 : BitVec 32) (k0_hw78 : k0_chk78 v160), (Rect.unit (s := S1000000x1x64) (k0_off312 v160) S1x1x64.size (k0_off312_inb v160 k0_hw78)).WholeWords (EltTy.packing .bf16) := fun v160 k0_hw78 => k0_hw78.2 (k0_off312_inb v160 k0_hw78)

def k0_off313 (k0_t2 : Fin k0_t2_loop.trips) : Fin 3 → Nat :=
  let c0_123 : Index := 0#32
  let c0_124 : Index := 0#32
  let c0_i32_3 : BitVec 32 := 0#32
  let c1_i32_5 : BitVec 32 := 1#32
  let arg9 : BitVec 32 := Scf.iv c0_i32_3 c1_i32_5 k0_t2
  let c64_i32_122 : BitVec 32 := 64#32
  let v167 : BitVec 32 := Scalar.muli arg9 c64_i32_122
  let c14_i32 : BitVec 32 := 14#32
  let v168 : BitVec 32 := Scalar.addi v167 c14_i32
  let v169 : Index := Scalar.indexCast v168
  ![0, 0, v169.toNat]
def k0_off314 (k0_t2 : Fin k0_t2_loop.trips) : Fin 1 → Nat :=
  let c0_i32_3 : BitVec 32 := 0#32
  let c1_i32_5 : BitVec 32 := 1#32
  let arg9 : BitVec 32 := Scf.iv c0_i32_3 c1_i32_5 k0_t2
  let c64_i32_122 : BitVec 32 := 64#32
  let v167 : BitVec 32 := Scalar.muli arg9 c64_i32_122
  let c14_i32 : BitVec 32 := 14#32
  let v168 : BitVec 32 := Scalar.addi v167 c14_i32
  ![v168.toNat]
def k0_off315 (k0_t2 : Fin k0_t2_loop.trips) : Fin 3 → Nat :=
  let c0_i32_3 : BitVec 32 := 0#32
  let c1_i32_5 : BitVec 32 := 1#32
  let arg9 : BitVec 32 := Scf.iv c0_i32_3 c1_i32_5 k0_t2
  let c64_i32_122 : BitVec 32 := 64#32
  let v167 : BitVec 32 := Scalar.muli arg9 c64_i32_122
  let c14_i32 : BitVec 32 := 14#32
  let v168 : BitVec 32 := Scalar.addi v167 c14_i32
  let c0_i32_125 : BitVec 32 := 0#32
  let c0_i32_126 : BitVec 32 := 0#32
  ![v168.toNat, 0, 0]
def k0_off316 (v170 : BitVec 32) : Fin 3 → Nat :=
  let c0_i32_127 : BitVec 32 := 0#32
  let c0_i32_128 : BitVec 32 := 0#32
  ![v170.toNat, 0, 0]

def k0_chk79 (v170 : BitVec 32) : Prop :=
  (∀ a, (k0_off316 v170) a + S1x1x64.size a ≤ S1000000x1x64.size a) ∧
  (∀ (hinb : ∀ a, (k0_off316 v170) a + S1x1x64.size a ≤ S1000000x1x64.size a), (Rect.unit (s := S1000000x1x64) (k0_off316 v170) S1x1x64.size hinb).WholeWords (EltTy.packing .bf16))
instance k0_chk79.dec : ∀ (v170 : BitVec 32), Decidable (k0_chk79 v170) := fun v170 => decidable_of_iff' _ (Iff.of_eq (k0_chk79.eq_1 v170))
theorem k0_off316_inb : ∀ (v170 : BitVec 32) (k0_hw79 : k0_chk79 v170), ∀ a, (k0_off316 v170) a + S1x1x64.size a ≤ S1000000x1x64.size a := fun v170 k0_hw79 => k0_hw79.1
theorem k0_off316_wordsbf16 : ∀ (v170 : BitVec 32) (k0_hw79 : k0_chk79 v170), (Rect.unit (s := S1000000x1x64) (k0_off316 v170) S1x1x64.size (k0_off316_inb v170 k0_hw79)).WholeWords (EltTy.packing .bf16) := fun v170 k0_hw79 => k0_hw79.2 (k0_off316_inb v170 k0_hw79)

def k0_off317 (k0_t2 : Fin k0_t2_loop.trips) : Fin 3 → Nat :=
  let c0_130 : Index := 0#32
  let c0_131 : Index := 0#32
  let c0_i32_3 : BitVec 32 := 0#32
  let c1_i32_5 : BitVec 32 := 1#32
  let arg9 : BitVec 32 := Scf.iv c0_i32_3 c1_i32_5 k0_t2
  let c64_i32_129 : BitVec 32 := 64#32
  let v177 : BitVec 32 := Scalar.muli arg9 c64_i32_129
  let c15_i32 : BitVec 32 := 15#32
  let v178 : BitVec 32 := Scalar.addi v177 c15_i32
  let v179 : Index := Scalar.indexCast v178
  ![0, 0, v179.toNat]
def k0_off318 (k0_t2 : Fin k0_t2_loop.trips) : Fin 1 → Nat :=
  let c0_i32_3 : BitVec 32 := 0#32
  let c1_i32_5 : BitVec 32 := 1#32
  let arg9 : BitVec 32 := Scf.iv c0_i32_3 c1_i32_5 k0_t2
  let c64_i32_129 : BitVec 32 := 64#32
  let v177 : BitVec 32 := Scalar.muli arg9 c64_i32_129
  let c15_i32 : BitVec 32 := 15#32
  let v178 : BitVec 32 := Scalar.addi v177 c15_i32
  ![v178.toNat]
def k0_off319 (k0_t2 : Fin k0_t2_loop.trips) : Fin 3 → Nat :=
  let c0_i32_3 : BitVec 32 := 0#32
  let c1_i32_5 : BitVec 32 := 1#32
  let arg9 : BitVec 32 := Scf.iv c0_i32_3 c1_i32_5 k0_t2
  let c64_i32_129 : BitVec 32 := 64#32
  let v177 : BitVec 32 := Scalar.muli arg9 c64_i32_129
  let c15_i32 : BitVec 32 := 15#32
  let v178 : BitVec 32 := Scalar.addi v177 c15_i32
  let c0_i32_132 : BitVec 32 := 0#32
  let c0_i32_133 : BitVec 32 := 0#32
  ![v178.toNat, 0, 0]
def k0_off320 (v180 : BitVec 32) : Fin 3 → Nat :=
  let c0_i32_134 : BitVec 32 := 0#32
  let c0_i32_135 : BitVec 32 := 0#32
  ![v180.toNat, 0, 0]

def k0_chk80 (v180 : BitVec 32) : Prop :=
  (∀ a, (k0_off320 v180) a + S1x1x64.size a ≤ S1000000x1x64.size a) ∧
  (∀ (hinb : ∀ a, (k0_off320 v180) a + S1x1x64.size a ≤ S1000000x1x64.size a), (Rect.unit (s := S1000000x1x64) (k0_off320 v180) S1x1x64.size hinb).WholeWords (EltTy.packing .bf16))
instance k0_chk80.dec : ∀ (v180 : BitVec 32), Decidable (k0_chk80 v180) := fun v180 => decidable_of_iff' _ (Iff.of_eq (k0_chk80.eq_1 v180))
theorem k0_off320_inb : ∀ (v180 : BitVec 32) (k0_hw80 : k0_chk80 v180), ∀ a, (k0_off320 v180) a + S1x1x64.size a ≤ S1000000x1x64.size a := fun v180 k0_hw80 => k0_hw80.1
theorem k0_off320_wordsbf16 : ∀ (v180 : BitVec 32) (k0_hw80 : k0_chk80 v180), (Rect.unit (s := S1000000x1x64) (k0_off320 v180) S1x1x64.size (k0_off320_inb v180 k0_hw80)).WholeWords (EltTy.packing .bf16) := fun v180 k0_hw80 => k0_hw80.2 (k0_off320_inb v180 k0_hw80)

def k0_off321 (k0_t2 : Fin k0_t2_loop.trips) : Fin 3 → Nat :=
  let c0_137 : Index := 0#32
  let c0_138 : Index := 0#32
  let c0_i32_3 : BitVec 32 := 0#32
  let c1_i32_5 : BitVec 32 := 1#32
  let arg9 : BitVec 32 := Scf.iv c0_i32_3 c1_i32_5 k0_t2
  let c64_i32_136 : BitVec 32 := 64#32
  let v187 : BitVec 32 := Scalar.muli arg9 c64_i32_136
  let c16_i32 : BitVec 32 := 16#32
  let v188 : BitVec 32 := Scalar.addi v187 c16_i32
  let v189 : Index := Scalar.indexCast v188
  ![0, 0, v189.toNat]
def k0_off322 (k0_t2 : Fin k0_t2_loop.trips) : Fin 1 → Nat :=
  let c0_i32_3 : BitVec 32 := 0#32
  let c1_i32_5 : BitVec 32 := 1#32
  let arg9 : BitVec 32 := Scf.iv c0_i32_3 c1_i32_5 k0_t2
  let c64_i32_136 : BitVec 32 := 64#32
  let v187 : BitVec 32 := Scalar.muli arg9 c64_i32_136
  let c16_i32 : BitVec 32 := 16#32
  let v188 : BitVec 32 := Scalar.addi v187 c16_i32
  ![v188.toNat]
def k0_off323 (k0_t2 : Fin k0_t2_loop.trips) : Fin 3 → Nat :=
  let c0_i32_3 : BitVec 32 := 0#32
  let c1_i32_5 : BitVec 32 := 1#32
  let arg9 : BitVec 32 := Scf.iv c0_i32_3 c1_i32_5 k0_t2
  let c64_i32_136 : BitVec 32 := 64#32
  let v187 : BitVec 32 := Scalar.muli arg9 c64_i32_136
  let c16_i32 : BitVec 32 := 16#32
  let v188 : BitVec 32 := Scalar.addi v187 c16_i32
  let c0_i32_139 : BitVec 32 := 0#32
  let c0_i32_140 : BitVec 32 := 0#32
  ![v188.toNat, 0, 0]
def k0_off324 (v190 : BitVec 32) : Fin 3 → Nat :=
  let c0_i32_141 : BitVec 32 := 0#32
  let c0_i32_142 : BitVec 32 := 0#32
  ![v190.toNat, 0, 0]

def k0_chk81 (v190 : BitVec 32) : Prop :=
  (∀ a, (k0_off324 v190) a + S1x1x64.size a ≤ S1000000x1x64.size a) ∧
  (∀ (hinb : ∀ a, (k0_off324 v190) a + S1x1x64.size a ≤ S1000000x1x64.size a), (Rect.unit (s := S1000000x1x64) (k0_off324 v190) S1x1x64.size hinb).WholeWords (EltTy.packing .bf16))
instance k0_chk81.dec : ∀ (v190 : BitVec 32), Decidable (k0_chk81 v190) := fun v190 => decidable_of_iff' _ (Iff.of_eq (k0_chk81.eq_1 v190))
theorem k0_off324_inb : ∀ (v190 : BitVec 32) (k0_hw81 : k0_chk81 v190), ∀ a, (k0_off324 v190) a + S1x1x64.size a ≤ S1000000x1x64.size a := fun v190 k0_hw81 => k0_hw81.1
theorem k0_off324_wordsbf16 : ∀ (v190 : BitVec 32) (k0_hw81 : k0_chk81 v190), (Rect.unit (s := S1000000x1x64) (k0_off324 v190) S1x1x64.size (k0_off324_inb v190 k0_hw81)).WholeWords (EltTy.packing .bf16) := fun v190 k0_hw81 => k0_hw81.2 (k0_off324_inb v190 k0_hw81)

def k0_off325 (k0_t2 : Fin k0_t2_loop.trips) : Fin 3 → Nat :=
  let c0_144 : Index := 0#32
  let c0_145 : Index := 0#32
  let c0_i32_3 : BitVec 32 := 0#32
  let c1_i32_5 : BitVec 32 := 1#32
  let arg9 : BitVec 32 := Scf.iv c0_i32_3 c1_i32_5 k0_t2
  let c64_i32_143 : BitVec 32 := 64#32
  let v197 : BitVec 32 := Scalar.muli arg9 c64_i32_143
  let c17_i32 : BitVec 32 := 17#32
  let v198 : BitVec 32 := Scalar.addi v197 c17_i32
  let v199 : Index := Scalar.indexCast v198
  ![0, 0, v199.toNat]
def k0_off326 (k0_t2 : Fin k0_t2_loop.trips) : Fin 1 → Nat :=
  let c0_i32_3 : BitVec 32 := 0#32
  let c1_i32_5 : BitVec 32 := 1#32
  let arg9 : BitVec 32 := Scf.iv c0_i32_3 c1_i32_5 k0_t2
  let c64_i32_143 : BitVec 32 := 64#32
  let v197 : BitVec 32 := Scalar.muli arg9 c64_i32_143
  let c17_i32 : BitVec 32 := 17#32
  let v198 : BitVec 32 := Scalar.addi v197 c17_i32
  ![v198.toNat]
def k0_off327 (k0_t2 : Fin k0_t2_loop.trips) : Fin 3 → Nat :=
  let c0_i32_3 : BitVec 32 := 0#32
  let c1_i32_5 : BitVec 32 := 1#32
  let arg9 : BitVec 32 := Scf.iv c0_i32_3 c1_i32_5 k0_t2
  let c64_i32_143 : BitVec 32 := 64#32
  let v197 : BitVec 32 := Scalar.muli arg9 c64_i32_143
  let c17_i32 : BitVec 32 := 17#32
  let v198 : BitVec 32 := Scalar.addi v197 c17_i32
  let c0_i32_146 : BitVec 32 := 0#32
  let c0_i32_147 : BitVec 32 := 0#32
  ![v198.toNat, 0, 0]
def k0_off328 (v200 : BitVec 32) : Fin 3 → Nat :=
  let c0_i32_148 : BitVec 32 := 0#32
  let c0_i32_149 : BitVec 32 := 0#32
  ![v200.toNat, 0, 0]

def k0_chk82 (v200 : BitVec 32) : Prop :=
  (∀ a, (k0_off328 v200) a + S1x1x64.size a ≤ S1000000x1x64.size a) ∧
  (∀ (hinb : ∀ a, (k0_off328 v200) a + S1x1x64.size a ≤ S1000000x1x64.size a), (Rect.unit (s := S1000000x1x64) (k0_off328 v200) S1x1x64.size hinb).WholeWords (EltTy.packing .bf16))
instance k0_chk82.dec : ∀ (v200 : BitVec 32), Decidable (k0_chk82 v200) := fun v200 => decidable_of_iff' _ (Iff.of_eq (k0_chk82.eq_1 v200))
theorem k0_off328_inb : ∀ (v200 : BitVec 32) (k0_hw82 : k0_chk82 v200), ∀ a, (k0_off328 v200) a + S1x1x64.size a ≤ S1000000x1x64.size a := fun v200 k0_hw82 => k0_hw82.1
theorem k0_off328_wordsbf16 : ∀ (v200 : BitVec 32) (k0_hw82 : k0_chk82 v200), (Rect.unit (s := S1000000x1x64) (k0_off328 v200) S1x1x64.size (k0_off328_inb v200 k0_hw82)).WholeWords (EltTy.packing .bf16) := fun v200 k0_hw82 => k0_hw82.2 (k0_off328_inb v200 k0_hw82)

def k0_off329 (k0_t2 : Fin k0_t2_loop.trips) : Fin 3 → Nat :=
  let c0_151 : Index := 0#32
  let c0_152 : Index := 0#32
  let c0_i32_3 : BitVec 32 := 0#32
  let c1_i32_5 : BitVec 32 := 1#32
  let arg9 : BitVec 32 := Scf.iv c0_i32_3 c1_i32_5 k0_t2
  let c64_i32_150 : BitVec 32 := 64#32
  let v207 : BitVec 32 := Scalar.muli arg9 c64_i32_150
  let c18_i32 : BitVec 32 := 18#32
  let v208 : BitVec 32 := Scalar.addi v207 c18_i32
  let v209 : Index := Scalar.indexCast v208
  ![0, 0, v209.toNat]
def k0_off330 (k0_t2 : Fin k0_t2_loop.trips) : Fin 1 → Nat :=
  let c0_i32_3 : BitVec 32 := 0#32
  let c1_i32_5 : BitVec 32 := 1#32
  let arg9 : BitVec 32 := Scf.iv c0_i32_3 c1_i32_5 k0_t2
  let c64_i32_150 : BitVec 32 := 64#32
  let v207 : BitVec 32 := Scalar.muli arg9 c64_i32_150
  let c18_i32 : BitVec 32 := 18#32
  let v208 : BitVec 32 := Scalar.addi v207 c18_i32
  ![v208.toNat]
def k0_off331 (k0_t2 : Fin k0_t2_loop.trips) : Fin 3 → Nat :=
  let c0_i32_3 : BitVec 32 := 0#32
  let c1_i32_5 : BitVec 32 := 1#32
  let arg9 : BitVec 32 := Scf.iv c0_i32_3 c1_i32_5 k0_t2
  let c64_i32_150 : BitVec 32 := 64#32
  let v207 : BitVec 32 := Scalar.muli arg9 c64_i32_150
  let c18_i32 : BitVec 32 := 18#32
  let v208 : BitVec 32 := Scalar.addi v207 c18_i32
  let c0_i32_153 : BitVec 32 := 0#32
  let c0_i32_154 : BitVec 32 := 0#32
  ![v208.toNat, 0, 0]
def k0_off332 (v210 : BitVec 32) : Fin 3 → Nat :=
  let c0_i32_155 : BitVec 32 := 0#32
  let c0_i32_156 : BitVec 32 := 0#32
  ![v210.toNat, 0, 0]

def k0_chk83 (v210 : BitVec 32) : Prop :=
  (∀ a, (k0_off332 v210) a + S1x1x64.size a ≤ S1000000x1x64.size a) ∧
  (∀ (hinb : ∀ a, (k0_off332 v210) a + S1x1x64.size a ≤ S1000000x1x64.size a), (Rect.unit (s := S1000000x1x64) (k0_off332 v210) S1x1x64.size hinb).WholeWords (EltTy.packing .bf16))
instance k0_chk83.dec : ∀ (v210 : BitVec 32), Decidable (k0_chk83 v210) := fun v210 => decidable_of_iff' _ (Iff.of_eq (k0_chk83.eq_1 v210))
theorem k0_off332_inb : ∀ (v210 : BitVec 32) (k0_hw83 : k0_chk83 v210), ∀ a, (k0_off332 v210) a + S1x1x64.size a ≤ S1000000x1x64.size a := fun v210 k0_hw83 => k0_hw83.1
theorem k0_off332_wordsbf16 : ∀ (v210 : BitVec 32) (k0_hw83 : k0_chk83 v210), (Rect.unit (s := S1000000x1x64) (k0_off332 v210) S1x1x64.size (k0_off332_inb v210 k0_hw83)).WholeWords (EltTy.packing .bf16) := fun v210 k0_hw83 => k0_hw83.2 (k0_off332_inb v210 k0_hw83)

def k0_off333 (k0_t2 : Fin k0_t2_loop.trips) : Fin 3 → Nat :=
  let c0_158 : Index := 0#32
  let c0_159 : Index := 0#32
  let c0_i32_3 : BitVec 32 := 0#32
  let c1_i32_5 : BitVec 32 := 1#32
  let arg9 : BitVec 32 := Scf.iv c0_i32_3 c1_i32_5 k0_t2
  let c64_i32_157 : BitVec 32 := 64#32
  let v217 : BitVec 32 := Scalar.muli arg9 c64_i32_157
  let c19_i32 : BitVec 32 := 19#32
  let v218 : BitVec 32 := Scalar.addi v217 c19_i32
  let v219 : Index := Scalar.indexCast v218
  ![0, 0, v219.toNat]
def k0_off334 (k0_t2 : Fin k0_t2_loop.trips) : Fin 1 → Nat :=
  let c0_i32_3 : BitVec 32 := 0#32
  let c1_i32_5 : BitVec 32 := 1#32
  let arg9 : BitVec 32 := Scf.iv c0_i32_3 c1_i32_5 k0_t2
  let c64_i32_157 : BitVec 32 := 64#32
  let v217 : BitVec 32 := Scalar.muli arg9 c64_i32_157
  let c19_i32 : BitVec 32 := 19#32
  let v218 : BitVec 32 := Scalar.addi v217 c19_i32
  ![v218.toNat]
def k0_off335 (k0_t2 : Fin k0_t2_loop.trips) : Fin 3 → Nat :=
  let c0_i32_3 : BitVec 32 := 0#32
  let c1_i32_5 : BitVec 32 := 1#32
  let arg9 : BitVec 32 := Scf.iv c0_i32_3 c1_i32_5 k0_t2
  let c64_i32_157 : BitVec 32 := 64#32
  let v217 : BitVec 32 := Scalar.muli arg9 c64_i32_157
  let c19_i32 : BitVec 32 := 19#32
  let v218 : BitVec 32 := Scalar.addi v217 c19_i32
  let c0_i32_160 : BitVec 32 := 0#32
  let c0_i32_161 : BitVec 32 := 0#32
  ![v218.toNat, 0, 0]
def k0_off336 (v220 : BitVec 32) : Fin 3 → Nat :=
  let c0_i32_162 : BitVec 32 := 0#32
  let c0_i32_163 : BitVec 32 := 0#32
  ![v220.toNat, 0, 0]

def k0_chk84 (v220 : BitVec 32) : Prop :=
  (∀ a, (k0_off336 v220) a + S1x1x64.size a ≤ S1000000x1x64.size a) ∧
  (∀ (hinb : ∀ a, (k0_off336 v220) a + S1x1x64.size a ≤ S1000000x1x64.size a), (Rect.unit (s := S1000000x1x64) (k0_off336 v220) S1x1x64.size hinb).WholeWords (EltTy.packing .bf16))
instance k0_chk84.dec : ∀ (v220 : BitVec 32), Decidable (k0_chk84 v220) := fun v220 => decidable_of_iff' _ (Iff.of_eq (k0_chk84.eq_1 v220))
theorem k0_off336_inb : ∀ (v220 : BitVec 32) (k0_hw84 : k0_chk84 v220), ∀ a, (k0_off336 v220) a + S1x1x64.size a ≤ S1000000x1x64.size a := fun v220 k0_hw84 => k0_hw84.1
theorem k0_off336_wordsbf16 : ∀ (v220 : BitVec 32) (k0_hw84 : k0_chk84 v220), (Rect.unit (s := S1000000x1x64) (k0_off336 v220) S1x1x64.size (k0_off336_inb v220 k0_hw84)).WholeWords (EltTy.packing .bf16) := fun v220 k0_hw84 => k0_hw84.2 (k0_off336_inb v220 k0_hw84)

def k0_off337 (k0_t2 : Fin k0_t2_loop.trips) : Fin 3 → Nat :=
  let c0_165 : Index := 0#32
  let c0_166 : Index := 0#32
  let c0_i32_3 : BitVec 32 := 0#32
  let c1_i32_5 : BitVec 32 := 1#32
  let arg9 : BitVec 32 := Scf.iv c0_i32_3 c1_i32_5 k0_t2
  let c64_i32_164 : BitVec 32 := 64#32
  let v227 : BitVec 32 := Scalar.muli arg9 c64_i32_164
  let c20_i32 : BitVec 32 := 20#32
  let v228 : BitVec 32 := Scalar.addi v227 c20_i32
  let v229 : Index := Scalar.indexCast v228
  ![0, 0, v229.toNat]
def k0_off338 (k0_t2 : Fin k0_t2_loop.trips) : Fin 1 → Nat :=
  let c0_i32_3 : BitVec 32 := 0#32
  let c1_i32_5 : BitVec 32 := 1#32
  let arg9 : BitVec 32 := Scf.iv c0_i32_3 c1_i32_5 k0_t2
  let c64_i32_164 : BitVec 32 := 64#32
  let v227 : BitVec 32 := Scalar.muli arg9 c64_i32_164
  let c20_i32 : BitVec 32 := 20#32
  let v228 : BitVec 32 := Scalar.addi v227 c20_i32
  ![v228.toNat]
def k0_off339 (k0_t2 : Fin k0_t2_loop.trips) : Fin 3 → Nat :=
  let c0_i32_3 : BitVec 32 := 0#32
  let c1_i32_5 : BitVec 32 := 1#32
  let arg9 : BitVec 32 := Scf.iv c0_i32_3 c1_i32_5 k0_t2
  let c64_i32_164 : BitVec 32 := 64#32
  let v227 : BitVec 32 := Scalar.muli arg9 c64_i32_164
  let c20_i32 : BitVec 32 := 20#32
  let v228 : BitVec 32 := Scalar.addi v227 c20_i32
  let c0_i32_167 : BitVec 32 := 0#32
  let c0_i32_168 : BitVec 32 := 0#32
  ![v228.toNat, 0, 0]
def k0_off340 (v230 : BitVec 32) : Fin 3 → Nat :=
  let c0_i32_169 : BitVec 32 := 0#32
  let c0_i32_170 : BitVec 32 := 0#32
  ![v230.toNat, 0, 0]

def k0_chk85 (v230 : BitVec 32) : Prop :=
  (∀ a, (k0_off340 v230) a + S1x1x64.size a ≤ S1000000x1x64.size a) ∧
  (∀ (hinb : ∀ a, (k0_off340 v230) a + S1x1x64.size a ≤ S1000000x1x64.size a), (Rect.unit (s := S1000000x1x64) (k0_off340 v230) S1x1x64.size hinb).WholeWords (EltTy.packing .bf16))
instance k0_chk85.dec : ∀ (v230 : BitVec 32), Decidable (k0_chk85 v230) := fun v230 => decidable_of_iff' _ (Iff.of_eq (k0_chk85.eq_1 v230))
theorem k0_off340_inb : ∀ (v230 : BitVec 32) (k0_hw85 : k0_chk85 v230), ∀ a, (k0_off340 v230) a + S1x1x64.size a ≤ S1000000x1x64.size a := fun v230 k0_hw85 => k0_hw85.1
theorem k0_off340_wordsbf16 : ∀ (v230 : BitVec 32) (k0_hw85 : k0_chk85 v230), (Rect.unit (s := S1000000x1x64) (k0_off340 v230) S1x1x64.size (k0_off340_inb v230 k0_hw85)).WholeWords (EltTy.packing .bf16) := fun v230 k0_hw85 => k0_hw85.2 (k0_off340_inb v230 k0_hw85)

def k0_off341 (k0_t2 : Fin k0_t2_loop.trips) : Fin 3 → Nat :=
  let c0_172 : Index := 0#32
  let c0_173 : Index := 0#32
  let c0_i32_3 : BitVec 32 := 0#32
  let c1_i32_5 : BitVec 32 := 1#32
  let arg9 : BitVec 32 := Scf.iv c0_i32_3 c1_i32_5 k0_t2
  let c64_i32_171 : BitVec 32 := 64#32
  let v237 : BitVec 32 := Scalar.muli arg9 c64_i32_171
  let c21_i32 : BitVec 32 := 21#32
  let v238 : BitVec 32 := Scalar.addi v237 c21_i32
  let v239 : Index := Scalar.indexCast v238
  ![0, 0, v239.toNat]
def k0_off342 (k0_t2 : Fin k0_t2_loop.trips) : Fin 1 → Nat :=
  let c0_i32_3 : BitVec 32 := 0#32
  let c1_i32_5 : BitVec 32 := 1#32
  let arg9 : BitVec 32 := Scf.iv c0_i32_3 c1_i32_5 k0_t2
  let c64_i32_171 : BitVec 32 := 64#32
  let v237 : BitVec 32 := Scalar.muli arg9 c64_i32_171
  let c21_i32 : BitVec 32 := 21#32
  let v238 : BitVec 32 := Scalar.addi v237 c21_i32
  ![v238.toNat]
def k0_off343 (k0_t2 : Fin k0_t2_loop.trips) : Fin 3 → Nat :=
  let c0_i32_3 : BitVec 32 := 0#32
  let c1_i32_5 : BitVec 32 := 1#32
  let arg9 : BitVec 32 := Scf.iv c0_i32_3 c1_i32_5 k0_t2
  let c64_i32_171 : BitVec 32 := 64#32
  let v237 : BitVec 32 := Scalar.muli arg9 c64_i32_171
  let c21_i32 : BitVec 32 := 21#32
  let v238 : BitVec 32 := Scalar.addi v237 c21_i32
  let c0_i32_174 : BitVec 32 := 0#32
  let c0_i32_175 : BitVec 32 := 0#32
  ![v238.toNat, 0, 0]
def k0_off344 (v240 : BitVec 32) : Fin 3 → Nat :=
  let c0_i32_176 : BitVec 32 := 0#32
  let c0_i32_177 : BitVec 32 := 0#32
  ![v240.toNat, 0, 0]

def k0_chk86 (v240 : BitVec 32) : Prop :=
  (∀ a, (k0_off344 v240) a + S1x1x64.size a ≤ S1000000x1x64.size a) ∧
  (∀ (hinb : ∀ a, (k0_off344 v240) a + S1x1x64.size a ≤ S1000000x1x64.size a), (Rect.unit (s := S1000000x1x64) (k0_off344 v240) S1x1x64.size hinb).WholeWords (EltTy.packing .bf16))
instance k0_chk86.dec : ∀ (v240 : BitVec 32), Decidable (k0_chk86 v240) := fun v240 => decidable_of_iff' _ (Iff.of_eq (k0_chk86.eq_1 v240))
theorem k0_off344_inb : ∀ (v240 : BitVec 32) (k0_hw86 : k0_chk86 v240), ∀ a, (k0_off344 v240) a + S1x1x64.size a ≤ S1000000x1x64.size a := fun v240 k0_hw86 => k0_hw86.1
theorem k0_off344_wordsbf16 : ∀ (v240 : BitVec 32) (k0_hw86 : k0_chk86 v240), (Rect.unit (s := S1000000x1x64) (k0_off344 v240) S1x1x64.size (k0_off344_inb v240 k0_hw86)).WholeWords (EltTy.packing .bf16) := fun v240 k0_hw86 => k0_hw86.2 (k0_off344_inb v240 k0_hw86)

def k0_off345 (k0_t2 : Fin k0_t2_loop.trips) : Fin 3 → Nat :=
  let c0_179 : Index := 0#32
  let c0_180 : Index := 0#32
  let c0_i32_3 : BitVec 32 := 0#32
  let c1_i32_5 : BitVec 32 := 1#32
  let arg9 : BitVec 32 := Scf.iv c0_i32_3 c1_i32_5 k0_t2
  let c64_i32_178 : BitVec 32 := 64#32
  let v247 : BitVec 32 := Scalar.muli arg9 c64_i32_178
  let c22_i32 : BitVec 32 := 22#32
  let v248 : BitVec 32 := Scalar.addi v247 c22_i32
  let v249 : Index := Scalar.indexCast v248
  ![0, 0, v249.toNat]
def k0_off346 (k0_t2 : Fin k0_t2_loop.trips) : Fin 1 → Nat :=
  let c0_i32_3 : BitVec 32 := 0#32
  let c1_i32_5 : BitVec 32 := 1#32
  let arg9 : BitVec 32 := Scf.iv c0_i32_3 c1_i32_5 k0_t2
  let c64_i32_178 : BitVec 32 := 64#32
  let v247 : BitVec 32 := Scalar.muli arg9 c64_i32_178
  let c22_i32 : BitVec 32 := 22#32
  let v248 : BitVec 32 := Scalar.addi v247 c22_i32
  ![v248.toNat]
def k0_off347 (k0_t2 : Fin k0_t2_loop.trips) : Fin 3 → Nat :=
  let c0_i32_3 : BitVec 32 := 0#32
  let c1_i32_5 : BitVec 32 := 1#32
  let arg9 : BitVec 32 := Scf.iv c0_i32_3 c1_i32_5 k0_t2
  let c64_i32_178 : BitVec 32 := 64#32
  let v247 : BitVec 32 := Scalar.muli arg9 c64_i32_178
  let c22_i32 : BitVec 32 := 22#32
  let v248 : BitVec 32 := Scalar.addi v247 c22_i32
  let c0_i32_181 : BitVec 32 := 0#32
  let c0_i32_182 : BitVec 32 := 0#32
  ![v248.toNat, 0, 0]
def k0_off348 (v250 : BitVec 32) : Fin 3 → Nat :=
  let c0_i32_183 : BitVec 32 := 0#32
  let c0_i32_184 : BitVec 32 := 0#32
  ![v250.toNat, 0, 0]

def k0_chk87 (v250 : BitVec 32) : Prop :=
  (∀ a, (k0_off348 v250) a + S1x1x64.size a ≤ S1000000x1x64.size a) ∧
  (∀ (hinb : ∀ a, (k0_off348 v250) a + S1x1x64.size a ≤ S1000000x1x64.size a), (Rect.unit (s := S1000000x1x64) (k0_off348 v250) S1x1x64.size hinb).WholeWords (EltTy.packing .bf16))
instance k0_chk87.dec : ∀ (v250 : BitVec 32), Decidable (k0_chk87 v250) := fun v250 => decidable_of_iff' _ (Iff.of_eq (k0_chk87.eq_1 v250))
theorem k0_off348_inb : ∀ (v250 : BitVec 32) (k0_hw87 : k0_chk87 v250), ∀ a, (k0_off348 v250) a + S1x1x64.size a ≤ S1000000x1x64.size a := fun v250 k0_hw87 => k0_hw87.1
theorem k0_off348_wordsbf16 : ∀ (v250 : BitVec 32) (k0_hw87 : k0_chk87 v250), (Rect.unit (s := S1000000x1x64) (k0_off348 v250) S1x1x64.size (k0_off348_inb v250 k0_hw87)).WholeWords (EltTy.packing .bf16) := fun v250 k0_hw87 => k0_hw87.2 (k0_off348_inb v250 k0_hw87)

def k0_off349 (k0_t2 : Fin k0_t2_loop.trips) : Fin 3 → Nat :=
  let c0_186 : Index := 0#32
  let c0_187 : Index := 0#32
  let c0_i32_3 : BitVec 32 := 0#32
  let c1_i32_5 : BitVec 32 := 1#32
  let arg9 : BitVec 32 := Scf.iv c0_i32_3 c1_i32_5 k0_t2
  let c64_i32_185 : BitVec 32 := 64#32
  let v257 : BitVec 32 := Scalar.muli arg9 c64_i32_185
  let c23_i32 : BitVec 32 := 23#32
  let v258 : BitVec 32 := Scalar.addi v257 c23_i32
  let v259 : Index := Scalar.indexCast v258
  ![0, 0, v259.toNat]
def k0_off350 (k0_t2 : Fin k0_t2_loop.trips) : Fin 1 → Nat :=
  let c0_i32_3 : BitVec 32 := 0#32
  let c1_i32_5 : BitVec 32 := 1#32
  let arg9 : BitVec 32 := Scf.iv c0_i32_3 c1_i32_5 k0_t2
  let c64_i32_185 : BitVec 32 := 64#32
  let v257 : BitVec 32 := Scalar.muli arg9 c64_i32_185
  let c23_i32 : BitVec 32 := 23#32
  let v258 : BitVec 32 := Scalar.addi v257 c23_i32
  ![v258.toNat]
def k0_off351 (k0_t2 : Fin k0_t2_loop.trips) : Fin 3 → Nat :=
  let c0_i32_3 : BitVec 32 := 0#32
  let c1_i32_5 : BitVec 32 := 1#32
  let arg9 : BitVec 32 := Scf.iv c0_i32_3 c1_i32_5 k0_t2
  let c64_i32_185 : BitVec 32 := 64#32
  let v257 : BitVec 32 := Scalar.muli arg9 c64_i32_185
  let c23_i32 : BitVec 32 := 23#32
  let v258 : BitVec 32 := Scalar.addi v257 c23_i32
  let c0_i32_188 : BitVec 32 := 0#32
  let c0_i32_189 : BitVec 32 := 0#32
  ![v258.toNat, 0, 0]
def k0_off352 (v260 : BitVec 32) : Fin 3 → Nat :=
  let c0_i32_190 : BitVec 32 := 0#32
  let c0_i32_191 : BitVec 32 := 0#32
  ![v260.toNat, 0, 0]

def k0_chk88 (v260 : BitVec 32) : Prop :=
  (∀ a, (k0_off352 v260) a + S1x1x64.size a ≤ S1000000x1x64.size a) ∧
  (∀ (hinb : ∀ a, (k0_off352 v260) a + S1x1x64.size a ≤ S1000000x1x64.size a), (Rect.unit (s := S1000000x1x64) (k0_off352 v260) S1x1x64.size hinb).WholeWords (EltTy.packing .bf16))
instance k0_chk88.dec : ∀ (v260 : BitVec 32), Decidable (k0_chk88 v260) := fun v260 => decidable_of_iff' _ (Iff.of_eq (k0_chk88.eq_1 v260))
theorem k0_off352_inb : ∀ (v260 : BitVec 32) (k0_hw88 : k0_chk88 v260), ∀ a, (k0_off352 v260) a + S1x1x64.size a ≤ S1000000x1x64.size a := fun v260 k0_hw88 => k0_hw88.1
theorem k0_off352_wordsbf16 : ∀ (v260 : BitVec 32) (k0_hw88 : k0_chk88 v260), (Rect.unit (s := S1000000x1x64) (k0_off352 v260) S1x1x64.size (k0_off352_inb v260 k0_hw88)).WholeWords (EltTy.packing .bf16) := fun v260 k0_hw88 => k0_hw88.2 (k0_off352_inb v260 k0_hw88)

def k0_off353 (k0_t2 : Fin k0_t2_loop.trips) : Fin 3 → Nat :=
  let c0_193 : Index := 0#32
  let c0_194 : Index := 0#32
  let c0_i32_3 : BitVec 32 := 0#32
  let c1_i32_5 : BitVec 32 := 1#32
  let arg9 : BitVec 32 := Scf.iv c0_i32_3 c1_i32_5 k0_t2
  let c64_i32_192 : BitVec 32 := 64#32
  let v267 : BitVec 32 := Scalar.muli arg9 c64_i32_192
  let c24_i32 : BitVec 32 := 24#32
  let v268 : BitVec 32 := Scalar.addi v267 c24_i32
  let v269 : Index := Scalar.indexCast v268
  ![0, 0, v269.toNat]
def k0_off354 (k0_t2 : Fin k0_t2_loop.trips) : Fin 1 → Nat :=
  let c0_i32_3 : BitVec 32 := 0#32
  let c1_i32_5 : BitVec 32 := 1#32
  let arg9 : BitVec 32 := Scf.iv c0_i32_3 c1_i32_5 k0_t2
  let c64_i32_192 : BitVec 32 := 64#32
  let v267 : BitVec 32 := Scalar.muli arg9 c64_i32_192
  let c24_i32 : BitVec 32 := 24#32
  let v268 : BitVec 32 := Scalar.addi v267 c24_i32
  ![v268.toNat]
def k0_off355 (k0_t2 : Fin k0_t2_loop.trips) : Fin 3 → Nat :=
  let c0_i32_3 : BitVec 32 := 0#32
  let c1_i32_5 : BitVec 32 := 1#32
  let arg9 : BitVec 32 := Scf.iv c0_i32_3 c1_i32_5 k0_t2
  let c64_i32_192 : BitVec 32 := 64#32
  let v267 : BitVec 32 := Scalar.muli arg9 c64_i32_192
  let c24_i32 : BitVec 32 := 24#32
  let v268 : BitVec 32 := Scalar.addi v267 c24_i32
  let c0_i32_195 : BitVec 32 := 0#32
  let c0_i32_196 : BitVec 32 := 0#32
  ![v268.toNat, 0, 0]
def k0_off356 (v270 : BitVec 32) : Fin 3 → Nat :=
  let c0_i32_197 : BitVec 32 := 0#32
  let c0_i32_198 : BitVec 32 := 0#32
  ![v270.toNat, 0, 0]

def k0_chk89 (v270 : BitVec 32) : Prop :=
  (∀ a, (k0_off356 v270) a + S1x1x64.size a ≤ S1000000x1x64.size a) ∧
  (∀ (hinb : ∀ a, (k0_off356 v270) a + S1x1x64.size a ≤ S1000000x1x64.size a), (Rect.unit (s := S1000000x1x64) (k0_off356 v270) S1x1x64.size hinb).WholeWords (EltTy.packing .bf16))
instance k0_chk89.dec : ∀ (v270 : BitVec 32), Decidable (k0_chk89 v270) := fun v270 => decidable_of_iff' _ (Iff.of_eq (k0_chk89.eq_1 v270))
theorem k0_off356_inb : ∀ (v270 : BitVec 32) (k0_hw89 : k0_chk89 v270), ∀ a, (k0_off356 v270) a + S1x1x64.size a ≤ S1000000x1x64.size a := fun v270 k0_hw89 => k0_hw89.1
theorem k0_off356_wordsbf16 : ∀ (v270 : BitVec 32) (k0_hw89 : k0_chk89 v270), (Rect.unit (s := S1000000x1x64) (k0_off356 v270) S1x1x64.size (k0_off356_inb v270 k0_hw89)).WholeWords (EltTy.packing .bf16) := fun v270 k0_hw89 => k0_hw89.2 (k0_off356_inb v270 k0_hw89)

def k0_off357 (k0_t2 : Fin k0_t2_loop.trips) : Fin 3 → Nat :=
  let c0_200 : Index := 0#32
  let c0_201 : Index := 0#32
  let c0_i32_3 : BitVec 32 := 0#32
  let c1_i32_5 : BitVec 32 := 1#32
  let arg9 : BitVec 32 := Scf.iv c0_i32_3 c1_i32_5 k0_t2
  let c64_i32_199 : BitVec 32 := 64#32
  let v277 : BitVec 32 := Scalar.muli arg9 c64_i32_199
  let c25_i32 : BitVec 32 := 25#32
  let v278 : BitVec 32 := Scalar.addi v277 c25_i32
  let v279 : Index := Scalar.indexCast v278
  ![0, 0, v279.toNat]
def k0_off358 (k0_t2 : Fin k0_t2_loop.trips) : Fin 1 → Nat :=
  let c0_i32_3 : BitVec 32 := 0#32
  let c1_i32_5 : BitVec 32 := 1#32
  let arg9 : BitVec 32 := Scf.iv c0_i32_3 c1_i32_5 k0_t2
  let c64_i32_199 : BitVec 32 := 64#32
  let v277 : BitVec 32 := Scalar.muli arg9 c64_i32_199
  let c25_i32 : BitVec 32 := 25#32
  let v278 : BitVec 32 := Scalar.addi v277 c25_i32
  ![v278.toNat]
def k0_off359 (k0_t2 : Fin k0_t2_loop.trips) : Fin 3 → Nat :=
  let c0_i32_3 : BitVec 32 := 0#32
  let c1_i32_5 : BitVec 32 := 1#32
  let arg9 : BitVec 32 := Scf.iv c0_i32_3 c1_i32_5 k0_t2
  let c64_i32_199 : BitVec 32 := 64#32
  let v277 : BitVec 32 := Scalar.muli arg9 c64_i32_199
  let c25_i32 : BitVec 32 := 25#32
  let v278 : BitVec 32 := Scalar.addi v277 c25_i32
  let c0_i32_202 : BitVec 32 := 0#32
  let c0_i32_203 : BitVec 32 := 0#32
  ![v278.toNat, 0, 0]
def k0_off360 (v280 : BitVec 32) : Fin 3 → Nat :=
  let c0_i32_204 : BitVec 32 := 0#32
  let c0_i32_205 : BitVec 32 := 0#32
  ![v280.toNat, 0, 0]

def k0_chk90 (v280 : BitVec 32) : Prop :=
  (∀ a, (k0_off360 v280) a + S1x1x64.size a ≤ S1000000x1x64.size a) ∧
  (∀ (hinb : ∀ a, (k0_off360 v280) a + S1x1x64.size a ≤ S1000000x1x64.size a), (Rect.unit (s := S1000000x1x64) (k0_off360 v280) S1x1x64.size hinb).WholeWords (EltTy.packing .bf16))
instance k0_chk90.dec : ∀ (v280 : BitVec 32), Decidable (k0_chk90 v280) := fun v280 => decidable_of_iff' _ (Iff.of_eq (k0_chk90.eq_1 v280))
theorem k0_off360_inb : ∀ (v280 : BitVec 32) (k0_hw90 : k0_chk90 v280), ∀ a, (k0_off360 v280) a + S1x1x64.size a ≤ S1000000x1x64.size a := fun v280 k0_hw90 => k0_hw90.1
theorem k0_off360_wordsbf16 : ∀ (v280 : BitVec 32) (k0_hw90 : k0_chk90 v280), (Rect.unit (s := S1000000x1x64) (k0_off360 v280) S1x1x64.size (k0_off360_inb v280 k0_hw90)).WholeWords (EltTy.packing .bf16) := fun v280 k0_hw90 => k0_hw90.2 (k0_off360_inb v280 k0_hw90)

def k0_off361 (k0_t2 : Fin k0_t2_loop.trips) : Fin 3 → Nat :=
  let c0_207 : Index := 0#32
  let c0_208 : Index := 0#32
  let c0_i32_3 : BitVec 32 := 0#32
  let c1_i32_5 : BitVec 32 := 1#32
  let arg9 : BitVec 32 := Scf.iv c0_i32_3 c1_i32_5 k0_t2
  let c64_i32_206 : BitVec 32 := 64#32
  let v287 : BitVec 32 := Scalar.muli arg9 c64_i32_206
  let c26_i32 : BitVec 32 := 26#32
  let v288 : BitVec 32 := Scalar.addi v287 c26_i32
  let v289 : Index := Scalar.indexCast v288
  ![0, 0, v289.toNat]
def k0_off362 (k0_t2 : Fin k0_t2_loop.trips) : Fin 1 → Nat :=
  let c0_i32_3 : BitVec 32 := 0#32
  let c1_i32_5 : BitVec 32 := 1#32
  let arg9 : BitVec 32 := Scf.iv c0_i32_3 c1_i32_5 k0_t2
  let c64_i32_206 : BitVec 32 := 64#32
  let v287 : BitVec 32 := Scalar.muli arg9 c64_i32_206
  let c26_i32 : BitVec 32 := 26#32
  let v288 : BitVec 32 := Scalar.addi v287 c26_i32
  ![v288.toNat]
def k0_off363 (k0_t2 : Fin k0_t2_loop.trips) : Fin 3 → Nat :=
  let c0_i32_3 : BitVec 32 := 0#32
  let c1_i32_5 : BitVec 32 := 1#32
  let arg9 : BitVec 32 := Scf.iv c0_i32_3 c1_i32_5 k0_t2
  let c64_i32_206 : BitVec 32 := 64#32
  let v287 : BitVec 32 := Scalar.muli arg9 c64_i32_206
  let c26_i32 : BitVec 32 := 26#32
  let v288 : BitVec 32 := Scalar.addi v287 c26_i32
  let c0_i32_209 : BitVec 32 := 0#32
  let c0_i32_210 : BitVec 32 := 0#32
  ![v288.toNat, 0, 0]
def k0_off364 (v290 : BitVec 32) : Fin 3 → Nat :=
  let c0_i32_211 : BitVec 32 := 0#32
  let c0_i32_212 : BitVec 32 := 0#32
  ![v290.toNat, 0, 0]

def k0_chk91 (v290 : BitVec 32) : Prop :=
  (∀ a, (k0_off364 v290) a + S1x1x64.size a ≤ S1000000x1x64.size a) ∧
  (∀ (hinb : ∀ a, (k0_off364 v290) a + S1x1x64.size a ≤ S1000000x1x64.size a), (Rect.unit (s := S1000000x1x64) (k0_off364 v290) S1x1x64.size hinb).WholeWords (EltTy.packing .bf16))
instance k0_chk91.dec : ∀ (v290 : BitVec 32), Decidable (k0_chk91 v290) := fun v290 => decidable_of_iff' _ (Iff.of_eq (k0_chk91.eq_1 v290))
theorem k0_off364_inb : ∀ (v290 : BitVec 32) (k0_hw91 : k0_chk91 v290), ∀ a, (k0_off364 v290) a + S1x1x64.size a ≤ S1000000x1x64.size a := fun v290 k0_hw91 => k0_hw91.1
theorem k0_off364_wordsbf16 : ∀ (v290 : BitVec 32) (k0_hw91 : k0_chk91 v290), (Rect.unit (s := S1000000x1x64) (k0_off364 v290) S1x1x64.size (k0_off364_inb v290 k0_hw91)).WholeWords (EltTy.packing .bf16) := fun v290 k0_hw91 => k0_hw91.2 (k0_off364_inb v290 k0_hw91)

def k0_off365 (k0_t2 : Fin k0_t2_loop.trips) : Fin 3 → Nat :=
  let c0_214 : Index := 0#32
  let c0_215 : Index := 0#32
  let c0_i32_3 : BitVec 32 := 0#32
  let c1_i32_5 : BitVec 32 := 1#32
  let arg9 : BitVec 32 := Scf.iv c0_i32_3 c1_i32_5 k0_t2
  let c64_i32_213 : BitVec 32 := 64#32
  let v297 : BitVec 32 := Scalar.muli arg9 c64_i32_213
  let c27_i32 : BitVec 32 := 27#32
  let v298 : BitVec 32 := Scalar.addi v297 c27_i32
  let v299 : Index := Scalar.indexCast v298
  ![0, 0, v299.toNat]
def k0_off366 (k0_t2 : Fin k0_t2_loop.trips) : Fin 1 → Nat :=
  let c0_i32_3 : BitVec 32 := 0#32
  let c1_i32_5 : BitVec 32 := 1#32
  let arg9 : BitVec 32 := Scf.iv c0_i32_3 c1_i32_5 k0_t2
  let c64_i32_213 : BitVec 32 := 64#32
  let v297 : BitVec 32 := Scalar.muli arg9 c64_i32_213
  let c27_i32 : BitVec 32 := 27#32
  let v298 : BitVec 32 := Scalar.addi v297 c27_i32
  ![v298.toNat]
def k0_off367 (k0_t2 : Fin k0_t2_loop.trips) : Fin 3 → Nat :=
  let c0_i32_3 : BitVec 32 := 0#32
  let c1_i32_5 : BitVec 32 := 1#32
  let arg9 : BitVec 32 := Scf.iv c0_i32_3 c1_i32_5 k0_t2
  let c64_i32_213 : BitVec 32 := 64#32
  let v297 : BitVec 32 := Scalar.muli arg9 c64_i32_213
  let c27_i32 : BitVec 32 := 27#32
  let v298 : BitVec 32 := Scalar.addi v297 c27_i32
  let c0_i32_216 : BitVec 32 := 0#32
  let c0_i32_217 : BitVec 32 := 0#32
  ![v298.toNat, 0, 0]
def k0_off368 (v300 : BitVec 32) : Fin 3 → Nat :=
  let c0_i32_218 : BitVec 32 := 0#32
  let c0_i32_219 : BitVec 32 := 0#32
  ![v300.toNat, 0, 0]

def k0_chk92 (v300 : BitVec 32) : Prop :=
  (∀ a, (k0_off368 v300) a + S1x1x64.size a ≤ S1000000x1x64.size a) ∧
  (∀ (hinb : ∀ a, (k0_off368 v300) a + S1x1x64.size a ≤ S1000000x1x64.size a), (Rect.unit (s := S1000000x1x64) (k0_off368 v300) S1x1x64.size hinb).WholeWords (EltTy.packing .bf16))
instance k0_chk92.dec : ∀ (v300 : BitVec 32), Decidable (k0_chk92 v300) := fun v300 => decidable_of_iff' _ (Iff.of_eq (k0_chk92.eq_1 v300))
theorem k0_off368_inb : ∀ (v300 : BitVec 32) (k0_hw92 : k0_chk92 v300), ∀ a, (k0_off368 v300) a + S1x1x64.size a ≤ S1000000x1x64.size a := fun v300 k0_hw92 => k0_hw92.1
theorem k0_off368_wordsbf16 : ∀ (v300 : BitVec 32) (k0_hw92 : k0_chk92 v300), (Rect.unit (s := S1000000x1x64) (k0_off368 v300) S1x1x64.size (k0_off368_inb v300 k0_hw92)).WholeWords (EltTy.packing .bf16) := fun v300 k0_hw92 => k0_hw92.2 (k0_off368_inb v300 k0_hw92)

def k0_off369 (k0_t2 : Fin k0_t2_loop.trips) : Fin 3 → Nat :=
  let c0_221 : Index := 0#32
  let c0_222 : Index := 0#32
  let c0_i32_3 : BitVec 32 := 0#32
  let c1_i32_5 : BitVec 32 := 1#32
  let arg9 : BitVec 32 := Scf.iv c0_i32_3 c1_i32_5 k0_t2
  let c64_i32_220 : BitVec 32 := 64#32
  let v307 : BitVec 32 := Scalar.muli arg9 c64_i32_220
  let c28_i32 : BitVec 32 := 28#32
  let v308 : BitVec 32 := Scalar.addi v307 c28_i32
  let v309 : Index := Scalar.indexCast v308
  ![0, 0, v309.toNat]
def k0_off370 (k0_t2 : Fin k0_t2_loop.trips) : Fin 1 → Nat :=
  let c0_i32_3 : BitVec 32 := 0#32
  let c1_i32_5 : BitVec 32 := 1#32
  let arg9 : BitVec 32 := Scf.iv c0_i32_3 c1_i32_5 k0_t2
  let c64_i32_220 : BitVec 32 := 64#32
  let v307 : BitVec 32 := Scalar.muli arg9 c64_i32_220
  let c28_i32 : BitVec 32 := 28#32
  let v308 : BitVec 32 := Scalar.addi v307 c28_i32
  ![v308.toNat]
def k0_off371 (k0_t2 : Fin k0_t2_loop.trips) : Fin 3 → Nat :=
  let c0_i32_3 : BitVec 32 := 0#32
  let c1_i32_5 : BitVec 32 := 1#32
  let arg9 : BitVec 32 := Scf.iv c0_i32_3 c1_i32_5 k0_t2
  let c64_i32_220 : BitVec 32 := 64#32
  let v307 : BitVec 32 := Scalar.muli arg9 c64_i32_220
  let c28_i32 : BitVec 32 := 28#32
  let v308 : BitVec 32 := Scalar.addi v307 c28_i32
  let c0_i32_223 : BitVec 32 := 0#32
  let c0_i32_224 : BitVec 32 := 0#32
  ![v308.toNat, 0, 0]
def k0_off372 (v310 : BitVec 32) : Fin 3 → Nat :=
  let c0_i32_225 : BitVec 32 := 0#32
  let c0_i32_226 : BitVec 32 := 0#32
  ![v310.toNat, 0, 0]

def k0_chk93 (v310 : BitVec 32) : Prop :=
  (∀ a, (k0_off372 v310) a + S1x1x64.size a ≤ S1000000x1x64.size a) ∧
  (∀ (hinb : ∀ a, (k0_off372 v310) a + S1x1x64.size a ≤ S1000000x1x64.size a), (Rect.unit (s := S1000000x1x64) (k0_off372 v310) S1x1x64.size hinb).WholeWords (EltTy.packing .bf16))
instance k0_chk93.dec : ∀ (v310 : BitVec 32), Decidable (k0_chk93 v310) := fun v310 => decidable_of_iff' _ (Iff.of_eq (k0_chk93.eq_1 v310))
theorem k0_off372_inb : ∀ (v310 : BitVec 32) (k0_hw93 : k0_chk93 v310), ∀ a, (k0_off372 v310) a + S1x1x64.size a ≤ S1000000x1x64.size a := fun v310 k0_hw93 => k0_hw93.1
theorem k0_off372_wordsbf16 : ∀ (v310 : BitVec 32) (k0_hw93 : k0_chk93 v310), (Rect.unit (s := S1000000x1x64) (k0_off372 v310) S1x1x64.size (k0_off372_inb v310 k0_hw93)).WholeWords (EltTy.packing .bf16) := fun v310 k0_hw93 => k0_hw93.2 (k0_off372_inb v310 k0_hw93)

def k0_off373 (k0_t2 : Fin k0_t2_loop.trips) : Fin 3 → Nat :=
  let c0_228 : Index := 0#32
  let c0_229 : Index := 0#32
  let c0_i32_3 : BitVec 32 := 0#32
  let c1_i32_5 : BitVec 32 := 1#32
  let arg9 : BitVec 32 := Scf.iv c0_i32_3 c1_i32_5 k0_t2
  let c64_i32_227 : BitVec 32 := 64#32
  let v317 : BitVec 32 := Scalar.muli arg9 c64_i32_227
  let c29_i32 : BitVec 32 := 29#32
  let v318 : BitVec 32 := Scalar.addi v317 c29_i32
  let v319 : Index := Scalar.indexCast v318
  ![0, 0, v319.toNat]
def k0_off374 (k0_t2 : Fin k0_t2_loop.trips) : Fin 1 → Nat :=
  let c0_i32_3 : BitVec 32 := 0#32
  let c1_i32_5 : BitVec 32 := 1#32
  let arg9 : BitVec 32 := Scf.iv c0_i32_3 c1_i32_5 k0_t2
  let c64_i32_227 : BitVec 32 := 64#32
  let v317 : BitVec 32 := Scalar.muli arg9 c64_i32_227
  let c29_i32 : BitVec 32 := 29#32
  let v318 : BitVec 32 := Scalar.addi v317 c29_i32
  ![v318.toNat]
def k0_off375 (k0_t2 : Fin k0_t2_loop.trips) : Fin 3 → Nat :=
  let c0_i32_3 : BitVec 32 := 0#32
  let c1_i32_5 : BitVec 32 := 1#32
  let arg9 : BitVec 32 := Scf.iv c0_i32_3 c1_i32_5 k0_t2
  let c64_i32_227 : BitVec 32 := 64#32
  let v317 : BitVec 32 := Scalar.muli arg9 c64_i32_227
  let c29_i32 : BitVec 32 := 29#32
  let v318 : BitVec 32 := Scalar.addi v317 c29_i32
  let c0_i32_230 : BitVec 32 := 0#32
  let c0_i32_231 : BitVec 32 := 0#32
  ![v318.toNat, 0, 0]
def k0_off376 (v320 : BitVec 32) : Fin 3 → Nat :=
  let c0_i32_232 : BitVec 32 := 0#32
  let c0_i32_233 : BitVec 32 := 0#32
  ![v320.toNat, 0, 0]

def k0_chk94 (v320 : BitVec 32) : Prop :=
  (∀ a, (k0_off376 v320) a + S1x1x64.size a ≤ S1000000x1x64.size a) ∧
  (∀ (hinb : ∀ a, (k0_off376 v320) a + S1x1x64.size a ≤ S1000000x1x64.size a), (Rect.unit (s := S1000000x1x64) (k0_off376 v320) S1x1x64.size hinb).WholeWords (EltTy.packing .bf16))
instance k0_chk94.dec : ∀ (v320 : BitVec 32), Decidable (k0_chk94 v320) := fun v320 => decidable_of_iff' _ (Iff.of_eq (k0_chk94.eq_1 v320))
theorem k0_off376_inb : ∀ (v320 : BitVec 32) (k0_hw94 : k0_chk94 v320), ∀ a, (k0_off376 v320) a + S1x1x64.size a ≤ S1000000x1x64.size a := fun v320 k0_hw94 => k0_hw94.1
theorem k0_off376_wordsbf16 : ∀ (v320 : BitVec 32) (k0_hw94 : k0_chk94 v320), (Rect.unit (s := S1000000x1x64) (k0_off376 v320) S1x1x64.size (k0_off376_inb v320 k0_hw94)).WholeWords (EltTy.packing .bf16) := fun v320 k0_hw94 => k0_hw94.2 (k0_off376_inb v320 k0_hw94)

def k0_off377 (k0_t2 : Fin k0_t2_loop.trips) : Fin 3 → Nat :=
  let c0_235 : Index := 0#32
  let c0_236 : Index := 0#32
  let c0_i32_3 : BitVec 32 := 0#32
  let c1_i32_5 : BitVec 32 := 1#32
  let arg9 : BitVec 32 := Scf.iv c0_i32_3 c1_i32_5 k0_t2
  let c64_i32_234 : BitVec 32 := 64#32
  let v327 : BitVec 32 := Scalar.muli arg9 c64_i32_234
  let c30_i32 : BitVec 32 := 30#32
  let v328 : BitVec 32 := Scalar.addi v327 c30_i32
  let v329 : Index := Scalar.indexCast v328
  ![0, 0, v329.toNat]
def k0_off378 (k0_t2 : Fin k0_t2_loop.trips) : Fin 1 → Nat :=
  let c0_i32_3 : BitVec 32 := 0#32
  let c1_i32_5 : BitVec 32 := 1#32
  let arg9 : BitVec 32 := Scf.iv c0_i32_3 c1_i32_5 k0_t2
  let c64_i32_234 : BitVec 32 := 64#32
  let v327 : BitVec 32 := Scalar.muli arg9 c64_i32_234
  let c30_i32 : BitVec 32 := 30#32
  let v328 : BitVec 32 := Scalar.addi v327 c30_i32
  ![v328.toNat]
def k0_off379 (k0_t2 : Fin k0_t2_loop.trips) : Fin 3 → Nat :=
  let c0_i32_3 : BitVec 32 := 0#32
  let c1_i32_5 : BitVec 32 := 1#32
  let arg9 : BitVec 32 := Scf.iv c0_i32_3 c1_i32_5 k0_t2
  let c64_i32_234 : BitVec 32 := 64#32
  let v327 : BitVec 32 := Scalar.muli arg9 c64_i32_234
  let c30_i32 : BitVec 32 := 30#32
  let v328 : BitVec 32 := Scalar.addi v327 c30_i32
  let c0_i32_237 : BitVec 32 := 0#32
  let c0_i32_238 : BitVec 32 := 0#32
  ![v328.toNat, 0, 0]
def k0_off380 (v330 : BitVec 32) : Fin 3 → Nat :=
  let c0_i32_239 : BitVec 32 := 0#32
  let c0_i32_240 : BitVec 32 := 0#32
  ![v330.toNat, 0, 0]

def k0_chk95 (v330 : BitVec 32) : Prop :=
  (∀ a, (k0_off380 v330) a + S1x1x64.size a ≤ S1000000x1x64.size a) ∧
  (∀ (hinb : ∀ a, (k0_off380 v330) a + S1x1x64.size a ≤ S1000000x1x64.size a), (Rect.unit (s := S1000000x1x64) (k0_off380 v330) S1x1x64.size hinb).WholeWords (EltTy.packing .bf16))
instance k0_chk95.dec : ∀ (v330 : BitVec 32), Decidable (k0_chk95 v330) := fun v330 => decidable_of_iff' _ (Iff.of_eq (k0_chk95.eq_1 v330))
theorem k0_off380_inb : ∀ (v330 : BitVec 32) (k0_hw95 : k0_chk95 v330), ∀ a, (k0_off380 v330) a + S1x1x64.size a ≤ S1000000x1x64.size a := fun v330 k0_hw95 => k0_hw95.1
theorem k0_off380_wordsbf16 : ∀ (v330 : BitVec 32) (k0_hw95 : k0_chk95 v330), (Rect.unit (s := S1000000x1x64) (k0_off380 v330) S1x1x64.size (k0_off380_inb v330 k0_hw95)).WholeWords (EltTy.packing .bf16) := fun v330 k0_hw95 => k0_hw95.2 (k0_off380_inb v330 k0_hw95)

def k0_off381 (k0_t2 : Fin k0_t2_loop.trips) : Fin 3 → Nat :=
  let c0_242 : Index := 0#32
  let c0_243 : Index := 0#32
  let c0_i32_3 : BitVec 32 := 0#32
  let c1_i32_5 : BitVec 32 := 1#32
  let arg9 : BitVec 32 := Scf.iv c0_i32_3 c1_i32_5 k0_t2
  let c64_i32_241 : BitVec 32 := 64#32
  let v337 : BitVec 32 := Scalar.muli arg9 c64_i32_241
  let c31_i32 : BitVec 32 := 31#32
  let v338 : BitVec 32 := Scalar.addi v337 c31_i32
  let v339 : Index := Scalar.indexCast v338
  ![0, 0, v339.toNat]
def k0_off382 (k0_t2 : Fin k0_t2_loop.trips) : Fin 1 → Nat :=
  let c0_i32_3 : BitVec 32 := 0#32
  let c1_i32_5 : BitVec 32 := 1#32
  let arg9 : BitVec 32 := Scf.iv c0_i32_3 c1_i32_5 k0_t2
  let c64_i32_241 : BitVec 32 := 64#32
  let v337 : BitVec 32 := Scalar.muli arg9 c64_i32_241
  let c31_i32 : BitVec 32 := 31#32
  let v338 : BitVec 32 := Scalar.addi v337 c31_i32
  ![v338.toNat]
def k0_off383 (k0_t2 : Fin k0_t2_loop.trips) : Fin 3 → Nat :=
  let c0_i32_3 : BitVec 32 := 0#32
  let c1_i32_5 : BitVec 32 := 1#32
  let arg9 : BitVec 32 := Scf.iv c0_i32_3 c1_i32_5 k0_t2
  let c64_i32_241 : BitVec 32 := 64#32
  let v337 : BitVec 32 := Scalar.muli arg9 c64_i32_241
  let c31_i32 : BitVec 32 := 31#32
  let v338 : BitVec 32 := Scalar.addi v337 c31_i32
  let c0_i32_244 : BitVec 32 := 0#32
  let c0_i32_245 : BitVec 32 := 0#32
  ![v338.toNat, 0, 0]
def k0_off384 (v340 : BitVec 32) : Fin 3 → Nat :=
  let c0_i32_246 : BitVec 32 := 0#32
  let c0_i32_247 : BitVec 32 := 0#32
  ![v340.toNat, 0, 0]

def k0_chk96 (v340 : BitVec 32) : Prop :=
  (∀ a, (k0_off384 v340) a + S1x1x64.size a ≤ S1000000x1x64.size a) ∧
  (∀ (hinb : ∀ a, (k0_off384 v340) a + S1x1x64.size a ≤ S1000000x1x64.size a), (Rect.unit (s := S1000000x1x64) (k0_off384 v340) S1x1x64.size hinb).WholeWords (EltTy.packing .bf16))
instance k0_chk96.dec : ∀ (v340 : BitVec 32), Decidable (k0_chk96 v340) := fun v340 => decidable_of_iff' _ (Iff.of_eq (k0_chk96.eq_1 v340))
theorem k0_off384_inb : ∀ (v340 : BitVec 32) (k0_hw96 : k0_chk96 v340), ∀ a, (k0_off384 v340) a + S1x1x64.size a ≤ S1000000x1x64.size a := fun v340 k0_hw96 => k0_hw96.1
theorem k0_off384_wordsbf16 : ∀ (v340 : BitVec 32) (k0_hw96 : k0_chk96 v340), (Rect.unit (s := S1000000x1x64) (k0_off384 v340) S1x1x64.size (k0_off384_inb v340 k0_hw96)).WholeWords (EltTy.packing .bf16) := fun v340 k0_hw96 => k0_hw96.2 (k0_off384_inb v340 k0_hw96)

def k0_off385 (k0_t2 : Fin k0_t2_loop.trips) : Fin 3 → Nat :=
  let c0_249 : Index := 0#32
  let c0_250 : Index := 0#32
  let c0_i32_3 : BitVec 32 := 0#32
  let c1_i32_5 : BitVec 32 := 1#32
  let arg9 : BitVec 32 := Scf.iv c0_i32_3 c1_i32_5 k0_t2
  let c64_i32_248 : BitVec 32 := 64#32
  let v347 : BitVec 32 := Scalar.muli arg9 c64_i32_248
  let c32_i32 : BitVec 32 := 32#32
  let v348 : BitVec 32 := Scalar.addi v347 c32_i32
  let v349 : Index := Scalar.indexCast v348
  ![0, 0, v349.toNat]
def k0_off386 (k0_t2 : Fin k0_t2_loop.trips) : Fin 1 → Nat :=
  let c0_i32_3 : BitVec 32 := 0#32
  let c1_i32_5 : BitVec 32 := 1#32
  let arg9 : BitVec 32 := Scf.iv c0_i32_3 c1_i32_5 k0_t2
  let c64_i32_248 : BitVec 32 := 64#32
  let v347 : BitVec 32 := Scalar.muli arg9 c64_i32_248
  let c32_i32 : BitVec 32 := 32#32
  let v348 : BitVec 32 := Scalar.addi v347 c32_i32
  ![v348.toNat]
def k0_off387 (k0_t2 : Fin k0_t2_loop.trips) : Fin 3 → Nat :=
  let c0_i32_3 : BitVec 32 := 0#32
  let c1_i32_5 : BitVec 32 := 1#32
  let arg9 : BitVec 32 := Scf.iv c0_i32_3 c1_i32_5 k0_t2
  let c64_i32_248 : BitVec 32 := 64#32
  let v347 : BitVec 32 := Scalar.muli arg9 c64_i32_248
  let c32_i32 : BitVec 32 := 32#32
  let v348 : BitVec 32 := Scalar.addi v347 c32_i32
  let c0_i32_251 : BitVec 32 := 0#32
  let c0_i32_252 : BitVec 32 := 0#32
  ![v348.toNat, 0, 0]
def k0_off388 (v350 : BitVec 32) : Fin 3 → Nat :=
  let c0_i32_253 : BitVec 32 := 0#32
  let c0_i32_254 : BitVec 32 := 0#32
  ![v350.toNat, 0, 0]

def k0_chk97 (v350 : BitVec 32) : Prop :=
  (∀ a, (k0_off388 v350) a + S1x1x64.size a ≤ S1000000x1x64.size a) ∧
  (∀ (hinb : ∀ a, (k0_off388 v350) a + S1x1x64.size a ≤ S1000000x1x64.size a), (Rect.unit (s := S1000000x1x64) (k0_off388 v350) S1x1x64.size hinb).WholeWords (EltTy.packing .bf16))
instance k0_chk97.dec : ∀ (v350 : BitVec 32), Decidable (k0_chk97 v350) := fun v350 => decidable_of_iff' _ (Iff.of_eq (k0_chk97.eq_1 v350))
theorem k0_off388_inb : ∀ (v350 : BitVec 32) (k0_hw97 : k0_chk97 v350), ∀ a, (k0_off388 v350) a + S1x1x64.size a ≤ S1000000x1x64.size a := fun v350 k0_hw97 => k0_hw97.1
theorem k0_off388_wordsbf16 : ∀ (v350 : BitVec 32) (k0_hw97 : k0_chk97 v350), (Rect.unit (s := S1000000x1x64) (k0_off388 v350) S1x1x64.size (k0_off388_inb v350 k0_hw97)).WholeWords (EltTy.packing .bf16) := fun v350 k0_hw97 => k0_hw97.2 (k0_off388_inb v350 k0_hw97)

def k0_off389 (k0_t2 : Fin k0_t2_loop.trips) : Fin 3 → Nat :=
  let c0_256 : Index := 0#32
  let c0_257 : Index := 0#32
  let c0_i32_3 : BitVec 32 := 0#32
  let c1_i32_5 : BitVec 32 := 1#32
  let arg9 : BitVec 32 := Scf.iv c0_i32_3 c1_i32_5 k0_t2
  let c64_i32_255 : BitVec 32 := 64#32
  let v357 : BitVec 32 := Scalar.muli arg9 c64_i32_255
  let c33_i32 : BitVec 32 := 33#32
  let v358 : BitVec 32 := Scalar.addi v357 c33_i32
  let v359 : Index := Scalar.indexCast v358
  ![0, 0, v359.toNat]
def k0_off390 (k0_t2 : Fin k0_t2_loop.trips) : Fin 1 → Nat :=
  let c0_i32_3 : BitVec 32 := 0#32
  let c1_i32_5 : BitVec 32 := 1#32
  let arg9 : BitVec 32 := Scf.iv c0_i32_3 c1_i32_5 k0_t2
  let c64_i32_255 : BitVec 32 := 64#32
  let v357 : BitVec 32 := Scalar.muli arg9 c64_i32_255
  let c33_i32 : BitVec 32 := 33#32
  let v358 : BitVec 32 := Scalar.addi v357 c33_i32
  ![v358.toNat]
def k0_off391 (k0_t2 : Fin k0_t2_loop.trips) : Fin 3 → Nat :=
  let c0_i32_3 : BitVec 32 := 0#32
  let c1_i32_5 : BitVec 32 := 1#32
  let arg9 : BitVec 32 := Scf.iv c0_i32_3 c1_i32_5 k0_t2
  let c64_i32_255 : BitVec 32 := 64#32
  let v357 : BitVec 32 := Scalar.muli arg9 c64_i32_255
  let c33_i32 : BitVec 32 := 33#32
  let v358 : BitVec 32 := Scalar.addi v357 c33_i32
  let c0_i32_258 : BitVec 32 := 0#32
  let c0_i32_259 : BitVec 32 := 0#32
  ![v358.toNat, 0, 0]
def k0_off392 (v360 : BitVec 32) : Fin 3 → Nat :=
  let c0_i32_260 : BitVec 32 := 0#32
  let c0_i32_261 : BitVec 32 := 0#32
  ![v360.toNat, 0, 0]

def k0_chk98 (v360 : BitVec 32) : Prop :=
  (∀ a, (k0_off392 v360) a + S1x1x64.size a ≤ S1000000x1x64.size a) ∧
  (∀ (hinb : ∀ a, (k0_off392 v360) a + S1x1x64.size a ≤ S1000000x1x64.size a), (Rect.unit (s := S1000000x1x64) (k0_off392 v360) S1x1x64.size hinb).WholeWords (EltTy.packing .bf16))
instance k0_chk98.dec : ∀ (v360 : BitVec 32), Decidable (k0_chk98 v360) := fun v360 => decidable_of_iff' _ (Iff.of_eq (k0_chk98.eq_1 v360))
theorem k0_off392_inb : ∀ (v360 : BitVec 32) (k0_hw98 : k0_chk98 v360), ∀ a, (k0_off392 v360) a + S1x1x64.size a ≤ S1000000x1x64.size a := fun v360 k0_hw98 => k0_hw98.1
theorem k0_off392_wordsbf16 : ∀ (v360 : BitVec 32) (k0_hw98 : k0_chk98 v360), (Rect.unit (s := S1000000x1x64) (k0_off392 v360) S1x1x64.size (k0_off392_inb v360 k0_hw98)).WholeWords (EltTy.packing .bf16) := fun v360 k0_hw98 => k0_hw98.2 (k0_off392_inb v360 k0_hw98)

def k0_off393 (k0_t2 : Fin k0_t2_loop.trips) : Fin 3 → Nat :=
  let c0_263 : Index := 0#32
  let c0_264 : Index := 0#32
  let c0_i32_3 : BitVec 32 := 0#32
  let c1_i32_5 : BitVec 32 := 1#32
  let arg9 : BitVec 32 := Scf.iv c0_i32_3 c1_i32_5 k0_t2
  let c64_i32_262 : BitVec 32 := 64#32
  let v367 : BitVec 32 := Scalar.muli arg9 c64_i32_262
  let c34_i32 : BitVec 32 := 34#32
  let v368 : BitVec 32 := Scalar.addi v367 c34_i32
  let v369 : Index := Scalar.indexCast v368
  ![0, 0, v369.toNat]
def k0_off394 (k0_t2 : Fin k0_t2_loop.trips) : Fin 1 → Nat :=
  let c0_i32_3 : BitVec 32 := 0#32
  let c1_i32_5 : BitVec 32 := 1#32
  let arg9 : BitVec 32 := Scf.iv c0_i32_3 c1_i32_5 k0_t2
  let c64_i32_262 : BitVec 32 := 64#32
  let v367 : BitVec 32 := Scalar.muli arg9 c64_i32_262
  let c34_i32 : BitVec 32 := 34#32
  let v368 : BitVec 32 := Scalar.addi v367 c34_i32
  ![v368.toNat]
def k0_off395 (k0_t2 : Fin k0_t2_loop.trips) : Fin 3 → Nat :=
  let c0_i32_3 : BitVec 32 := 0#32
  let c1_i32_5 : BitVec 32 := 1#32
  let arg9 : BitVec 32 := Scf.iv c0_i32_3 c1_i32_5 k0_t2
  let c64_i32_262 : BitVec 32 := 64#32
  let v367 : BitVec 32 := Scalar.muli arg9 c64_i32_262
  let c34_i32 : BitVec 32 := 34#32
  let v368 : BitVec 32 := Scalar.addi v367 c34_i32
  let c0_i32_265 : BitVec 32 := 0#32
  let c0_i32_266 : BitVec 32 := 0#32
  ![v368.toNat, 0, 0]
def k0_off396 (v370 : BitVec 32) : Fin 3 → Nat :=
  let c0_i32_267 : BitVec 32 := 0#32
  let c0_i32_268 : BitVec 32 := 0#32
  ![v370.toNat, 0, 0]

def k0_chk99 (v370 : BitVec 32) : Prop :=
  (∀ a, (k0_off396 v370) a + S1x1x64.size a ≤ S1000000x1x64.size a) ∧
  (∀ (hinb : ∀ a, (k0_off396 v370) a + S1x1x64.size a ≤ S1000000x1x64.size a), (Rect.unit (s := S1000000x1x64) (k0_off396 v370) S1x1x64.size hinb).WholeWords (EltTy.packing .bf16))
instance k0_chk99.dec : ∀ (v370 : BitVec 32), Decidable (k0_chk99 v370) := fun v370 => decidable_of_iff' _ (Iff.of_eq (k0_chk99.eq_1 v370))
theorem k0_off396_inb : ∀ (v370 : BitVec 32) (k0_hw99 : k0_chk99 v370), ∀ a, (k0_off396 v370) a + S1x1x64.size a ≤ S1000000x1x64.size a := fun v370 k0_hw99 => k0_hw99.1
theorem k0_off396_wordsbf16 : ∀ (v370 : BitVec 32) (k0_hw99 : k0_chk99 v370), (Rect.unit (s := S1000000x1x64) (k0_off396 v370) S1x1x64.size (k0_off396_inb v370 k0_hw99)).WholeWords (EltTy.packing .bf16) := fun v370 k0_hw99 => k0_hw99.2 (k0_off396_inb v370 k0_hw99)

def k0_off397 (k0_t2 : Fin k0_t2_loop.trips) : Fin 3 → Nat :=
  let c0_270 : Index := 0#32
  let c0_271 : Index := 0#32
  let c0_i32_3 : BitVec 32 := 0#32
  let c1_i32_5 : BitVec 32 := 1#32
  let arg9 : BitVec 32 := Scf.iv c0_i32_3 c1_i32_5 k0_t2
  let c64_i32_269 : BitVec 32 := 64#32
  let v377 : BitVec 32 := Scalar.muli arg9 c64_i32_269
  let c35_i32 : BitVec 32 := 35#32
  let v378 : BitVec 32 := Scalar.addi v377 c35_i32
  let v379 : Index := Scalar.indexCast v378
  ![0, 0, v379.toNat]
def k0_off398 (k0_t2 : Fin k0_t2_loop.trips) : Fin 1 → Nat :=
  let c0_i32_3 : BitVec 32 := 0#32
  let c1_i32_5 : BitVec 32 := 1#32
  let arg9 : BitVec 32 := Scf.iv c0_i32_3 c1_i32_5 k0_t2
  let c64_i32_269 : BitVec 32 := 64#32
  let v377 : BitVec 32 := Scalar.muli arg9 c64_i32_269
  let c35_i32 : BitVec 32 := 35#32
  let v378 : BitVec 32 := Scalar.addi v377 c35_i32
  ![v378.toNat]
def k0_off399 (k0_t2 : Fin k0_t2_loop.trips) : Fin 3 → Nat :=
  let c0_i32_3 : BitVec 32 := 0#32
  let c1_i32_5 : BitVec 32 := 1#32
  let arg9 : BitVec 32 := Scf.iv c0_i32_3 c1_i32_5 k0_t2
  let c64_i32_269 : BitVec 32 := 64#32
  let v377 : BitVec 32 := Scalar.muli arg9 c64_i32_269
  let c35_i32 : BitVec 32 := 35#32
  let v378 : BitVec 32 := Scalar.addi v377 c35_i32
  let c0_i32_272 : BitVec 32 := 0#32
  let c0_i32_273 : BitVec 32 := 0#32
  ![v378.toNat, 0, 0]
def k0_off400 (v380 : BitVec 32) : Fin 3 → Nat :=
  let c0_i32_274 : BitVec 32 := 0#32
  let c0_i32_275 : BitVec 32 := 0#32
  ![v380.toNat, 0, 0]

def k0_chk100 (v380 : BitVec 32) : Prop :=
  (∀ a, (k0_off400 v380) a + S1x1x64.size a ≤ S1000000x1x64.size a) ∧
  (∀ (hinb : ∀ a, (k0_off400 v380) a + S1x1x64.size a ≤ S1000000x1x64.size a), (Rect.unit (s := S1000000x1x64) (k0_off400 v380) S1x1x64.size hinb).WholeWords (EltTy.packing .bf16))
instance k0_chk100.dec : ∀ (v380 : BitVec 32), Decidable (k0_chk100 v380) := fun v380 => decidable_of_iff' _ (Iff.of_eq (k0_chk100.eq_1 v380))
theorem k0_off400_inb : ∀ (v380 : BitVec 32) (k0_hw100 : k0_chk100 v380), ∀ a, (k0_off400 v380) a + S1x1x64.size a ≤ S1000000x1x64.size a := fun v380 k0_hw100 => k0_hw100.1
theorem k0_off400_wordsbf16 : ∀ (v380 : BitVec 32) (k0_hw100 : k0_chk100 v380), (Rect.unit (s := S1000000x1x64) (k0_off400 v380) S1x1x64.size (k0_off400_inb v380 k0_hw100)).WholeWords (EltTy.packing .bf16) := fun v380 k0_hw100 => k0_hw100.2 (k0_off400_inb v380 k0_hw100)

def k0_off401 (k0_t2 : Fin k0_t2_loop.trips) : Fin 3 → Nat :=
  let c0_277 : Index := 0#32
  let c0_278 : Index := 0#32
  let c0_i32_3 : BitVec 32 := 0#32
  let c1_i32_5 : BitVec 32 := 1#32
  let arg9 : BitVec 32 := Scf.iv c0_i32_3 c1_i32_5 k0_t2
  let c64_i32_276 : BitVec 32 := 64#32
  let v387 : BitVec 32 := Scalar.muli arg9 c64_i32_276
  let c36_i32 : BitVec 32 := 36#32
  let v388 : BitVec 32 := Scalar.addi v387 c36_i32
  let v389 : Index := Scalar.indexCast v388
  ![0, 0, v389.toNat]
def k0_off402 (k0_t2 : Fin k0_t2_loop.trips) : Fin 1 → Nat :=
  let c0_i32_3 : BitVec 32 := 0#32
  let c1_i32_5 : BitVec 32 := 1#32
  let arg9 : BitVec 32 := Scf.iv c0_i32_3 c1_i32_5 k0_t2
  let c64_i32_276 : BitVec 32 := 64#32
  let v387 : BitVec 32 := Scalar.muli arg9 c64_i32_276
  let c36_i32 : BitVec 32 := 36#32
  let v388 : BitVec 32 := Scalar.addi v387 c36_i32
  ![v388.toNat]
def k0_off403 (k0_t2 : Fin k0_t2_loop.trips) : Fin 3 → Nat :=
  let c0_i32_3 : BitVec 32 := 0#32
  let c1_i32_5 : BitVec 32 := 1#32
  let arg9 : BitVec 32 := Scf.iv c0_i32_3 c1_i32_5 k0_t2
  let c64_i32_276 : BitVec 32 := 64#32
  let v387 : BitVec 32 := Scalar.muli arg9 c64_i32_276
  let c36_i32 : BitVec 32 := 36#32
  let v388 : BitVec 32 := Scalar.addi v387 c36_i32
  let c0_i32_279 : BitVec 32 := 0#32
  let c0_i32_280 : BitVec 32 := 0#32
  ![v388.toNat, 0, 0]
def k0_off404 (v390 : BitVec 32) : Fin 3 → Nat :=
  let c0_i32_281 : BitVec 32 := 0#32
  let c0_i32_282 : BitVec 32 := 0#32
  ![v390.toNat, 0, 0]

def k0_chk101 (v390 : BitVec 32) : Prop :=
  (∀ a, (k0_off404 v390) a + S1x1x64.size a ≤ S1000000x1x64.size a) ∧
  (∀ (hinb : ∀ a, (k0_off404 v390) a + S1x1x64.size a ≤ S1000000x1x64.size a), (Rect.unit (s := S1000000x1x64) (k0_off404 v390) S1x1x64.size hinb).WholeWords (EltTy.packing .bf16))
instance k0_chk101.dec : ∀ (v390 : BitVec 32), Decidable (k0_chk101 v390) := fun v390 => decidable_of_iff' _ (Iff.of_eq (k0_chk101.eq_1 v390))
theorem k0_off404_inb : ∀ (v390 : BitVec 32) (k0_hw101 : k0_chk101 v390), ∀ a, (k0_off404 v390) a + S1x1x64.size a ≤ S1000000x1x64.size a := fun v390 k0_hw101 => k0_hw101.1
theorem k0_off404_wordsbf16 : ∀ (v390 : BitVec 32) (k0_hw101 : k0_chk101 v390), (Rect.unit (s := S1000000x1x64) (k0_off404 v390) S1x1x64.size (k0_off404_inb v390 k0_hw101)).WholeWords (EltTy.packing .bf16) := fun v390 k0_hw101 => k0_hw101.2 (k0_off404_inb v390 k0_hw101)

def k0_off405 (k0_t2 : Fin k0_t2_loop.trips) : Fin 3 → Nat :=
  let c0_284 : Index := 0#32
  let c0_285 : Index := 0#32
  let c0_i32_3 : BitVec 32 := 0#32
  let c1_i32_5 : BitVec 32 := 1#32
  let arg9 : BitVec 32 := Scf.iv c0_i32_3 c1_i32_5 k0_t2
  let c64_i32_283 : BitVec 32 := 64#32
  let v397 : BitVec 32 := Scalar.muli arg9 c64_i32_283
  let c37_i32 : BitVec 32 := 37#32
  let v398 : BitVec 32 := Scalar.addi v397 c37_i32
  let v399 : Index := Scalar.indexCast v398
  ![0, 0, v399.toNat]
def k0_off406 (k0_t2 : Fin k0_t2_loop.trips) : Fin 1 → Nat :=
  let c0_i32_3 : BitVec 32 := 0#32
  let c1_i32_5 : BitVec 32 := 1#32
  let arg9 : BitVec 32 := Scf.iv c0_i32_3 c1_i32_5 k0_t2
  let c64_i32_283 : BitVec 32 := 64#32
  let v397 : BitVec 32 := Scalar.muli arg9 c64_i32_283
  let c37_i32 : BitVec 32 := 37#32
  let v398 : BitVec 32 := Scalar.addi v397 c37_i32
  ![v398.toNat]
def k0_off407 (k0_t2 : Fin k0_t2_loop.trips) : Fin 3 → Nat :=
  let c0_i32_3 : BitVec 32 := 0#32
  let c1_i32_5 : BitVec 32 := 1#32
  let arg9 : BitVec 32 := Scf.iv c0_i32_3 c1_i32_5 k0_t2
  let c64_i32_283 : BitVec 32 := 64#32
  let v397 : BitVec 32 := Scalar.muli arg9 c64_i32_283
  let c37_i32 : BitVec 32 := 37#32
  let v398 : BitVec 32 := Scalar.addi v397 c37_i32
  let c0_i32_286 : BitVec 32 := 0#32
  let c0_i32_287 : BitVec 32 := 0#32
  ![v398.toNat, 0, 0]
def k0_off408 (v400 : BitVec 32) : Fin 3 → Nat :=
  let c0_i32_288 : BitVec 32 := 0#32
  let c0_i32_289 : BitVec 32 := 0#32
  ![v400.toNat, 0, 0]

def k0_chk102 (v400 : BitVec 32) : Prop :=
  (∀ a, (k0_off408 v400) a + S1x1x64.size a ≤ S1000000x1x64.size a) ∧
  (∀ (hinb : ∀ a, (k0_off408 v400) a + S1x1x64.size a ≤ S1000000x1x64.size a), (Rect.unit (s := S1000000x1x64) (k0_off408 v400) S1x1x64.size hinb).WholeWords (EltTy.packing .bf16))
instance k0_chk102.dec : ∀ (v400 : BitVec 32), Decidable (k0_chk102 v400) := fun v400 => decidable_of_iff' _ (Iff.of_eq (k0_chk102.eq_1 v400))
theorem k0_off408_inb : ∀ (v400 : BitVec 32) (k0_hw102 : k0_chk102 v400), ∀ a, (k0_off408 v400) a + S1x1x64.size a ≤ S1000000x1x64.size a := fun v400 k0_hw102 => k0_hw102.1
theorem k0_off408_wordsbf16 : ∀ (v400 : BitVec 32) (k0_hw102 : k0_chk102 v400), (Rect.unit (s := S1000000x1x64) (k0_off408 v400) S1x1x64.size (k0_off408_inb v400 k0_hw102)).WholeWords (EltTy.packing .bf16) := fun v400 k0_hw102 => k0_hw102.2 (k0_off408_inb v400 k0_hw102)

def k0_off409 (k0_t2 : Fin k0_t2_loop.trips) : Fin 3 → Nat :=
  let c0_291 : Index := 0#32
  let c0_292 : Index := 0#32
  let c0_i32_3 : BitVec 32 := 0#32
  let c1_i32_5 : BitVec 32 := 1#32
  let arg9 : BitVec 32 := Scf.iv c0_i32_3 c1_i32_5 k0_t2
  let c64_i32_290 : BitVec 32 := 64#32
  let v407 : BitVec 32 := Scalar.muli arg9 c64_i32_290
  let c38_i32 : BitVec 32 := 38#32
  let v408 : BitVec 32 := Scalar.addi v407 c38_i32
  let v409 : Index := Scalar.indexCast v408
  ![0, 0, v409.toNat]
def k0_off410 (k0_t2 : Fin k0_t2_loop.trips) : Fin 1 → Nat :=
  let c0_i32_3 : BitVec 32 := 0#32
  let c1_i32_5 : BitVec 32 := 1#32
  let arg9 : BitVec 32 := Scf.iv c0_i32_3 c1_i32_5 k0_t2
  let c64_i32_290 : BitVec 32 := 64#32
  let v407 : BitVec 32 := Scalar.muli arg9 c64_i32_290
  let c38_i32 : BitVec 32 := 38#32
  let v408 : BitVec 32 := Scalar.addi v407 c38_i32
  ![v408.toNat]
def k0_off411 (k0_t2 : Fin k0_t2_loop.trips) : Fin 3 → Nat :=
  let c0_i32_3 : BitVec 32 := 0#32
  let c1_i32_5 : BitVec 32 := 1#32
  let arg9 : BitVec 32 := Scf.iv c0_i32_3 c1_i32_5 k0_t2
  let c64_i32_290 : BitVec 32 := 64#32
  let v407 : BitVec 32 := Scalar.muli arg9 c64_i32_290
  let c38_i32 : BitVec 32 := 38#32
  let v408 : BitVec 32 := Scalar.addi v407 c38_i32
  let c0_i32_293 : BitVec 32 := 0#32
  let c0_i32_294 : BitVec 32 := 0#32
  ![v408.toNat, 0, 0]
def k0_off412 (v410 : BitVec 32) : Fin 3 → Nat :=
  let c0_i32_295 : BitVec 32 := 0#32
  let c0_i32_296 : BitVec 32 := 0#32
  ![v410.toNat, 0, 0]

def k0_chk103 (v410 : BitVec 32) : Prop :=
  (∀ a, (k0_off412 v410) a + S1x1x64.size a ≤ S1000000x1x64.size a) ∧
  (∀ (hinb : ∀ a, (k0_off412 v410) a + S1x1x64.size a ≤ S1000000x1x64.size a), (Rect.unit (s := S1000000x1x64) (k0_off412 v410) S1x1x64.size hinb).WholeWords (EltTy.packing .bf16))
instance k0_chk103.dec : ∀ (v410 : BitVec 32), Decidable (k0_chk103 v410) := fun v410 => decidable_of_iff' _ (Iff.of_eq (k0_chk103.eq_1 v410))
theorem k0_off412_inb : ∀ (v410 : BitVec 32) (k0_hw103 : k0_chk103 v410), ∀ a, (k0_off412 v410) a + S1x1x64.size a ≤ S1000000x1x64.size a := fun v410 k0_hw103 => k0_hw103.1
theorem k0_off412_wordsbf16 : ∀ (v410 : BitVec 32) (k0_hw103 : k0_chk103 v410), (Rect.unit (s := S1000000x1x64) (k0_off412 v410) S1x1x64.size (k0_off412_inb v410 k0_hw103)).WholeWords (EltTy.packing .bf16) := fun v410 k0_hw103 => k0_hw103.2 (k0_off412_inb v410 k0_hw103)

def k0_off413 (k0_t2 : Fin k0_t2_loop.trips) : Fin 3 → Nat :=
  let c0_298 : Index := 0#32
  let c0_299 : Index := 0#32
  let c0_i32_3 : BitVec 32 := 0#32
  let c1_i32_5 : BitVec 32 := 1#32
  let arg9 : BitVec 32 := Scf.iv c0_i32_3 c1_i32_5 k0_t2
  let c64_i32_297 : BitVec 32 := 64#32
  let v417 : BitVec 32 := Scalar.muli arg9 c64_i32_297
  let c39_i32 : BitVec 32 := 39#32
  let v418 : BitVec 32 := Scalar.addi v417 c39_i32
  let v419 : Index := Scalar.indexCast v418
  ![0, 0, v419.toNat]
def k0_off414 (k0_t2 : Fin k0_t2_loop.trips) : Fin 1 → Nat :=
  let c0_i32_3 : BitVec 32 := 0#32
  let c1_i32_5 : BitVec 32 := 1#32
  let arg9 : BitVec 32 := Scf.iv c0_i32_3 c1_i32_5 k0_t2
  let c64_i32_297 : BitVec 32 := 64#32
  let v417 : BitVec 32 := Scalar.muli arg9 c64_i32_297
  let c39_i32 : BitVec 32 := 39#32
  let v418 : BitVec 32 := Scalar.addi v417 c39_i32
  ![v418.toNat]
def k0_off415 (k0_t2 : Fin k0_t2_loop.trips) : Fin 3 → Nat :=
  let c0_i32_3 : BitVec 32 := 0#32
  let c1_i32_5 : BitVec 32 := 1#32
  let arg9 : BitVec 32 := Scf.iv c0_i32_3 c1_i32_5 k0_t2
  let c64_i32_297 : BitVec 32 := 64#32
  let v417 : BitVec 32 := Scalar.muli arg9 c64_i32_297
  let c39_i32 : BitVec 32 := 39#32
  let v418 : BitVec 32 := Scalar.addi v417 c39_i32
  let c0_i32_300 : BitVec 32 := 0#32
  let c0_i32_301 : BitVec 32 := 0#32
  ![v418.toNat, 0, 0]
def k0_off416 (v420 : BitVec 32) : Fin 3 → Nat :=
  let c0_i32_302 : BitVec 32 := 0#32
  let c0_i32_303 : BitVec 32 := 0#32
  ![v420.toNat, 0, 0]

def k0_chk104 (v420 : BitVec 32) : Prop :=
  (∀ a, (k0_off416 v420) a + S1x1x64.size a ≤ S1000000x1x64.size a) ∧
  (∀ (hinb : ∀ a, (k0_off416 v420) a + S1x1x64.size a ≤ S1000000x1x64.size a), (Rect.unit (s := S1000000x1x64) (k0_off416 v420) S1x1x64.size hinb).WholeWords (EltTy.packing .bf16))
instance k0_chk104.dec : ∀ (v420 : BitVec 32), Decidable (k0_chk104 v420) := fun v420 => decidable_of_iff' _ (Iff.of_eq (k0_chk104.eq_1 v420))
theorem k0_off416_inb : ∀ (v420 : BitVec 32) (k0_hw104 : k0_chk104 v420), ∀ a, (k0_off416 v420) a + S1x1x64.size a ≤ S1000000x1x64.size a := fun v420 k0_hw104 => k0_hw104.1
theorem k0_off416_wordsbf16 : ∀ (v420 : BitVec 32) (k0_hw104 : k0_chk104 v420), (Rect.unit (s := S1000000x1x64) (k0_off416 v420) S1x1x64.size (k0_off416_inb v420 k0_hw104)).WholeWords (EltTy.packing .bf16) := fun v420 k0_hw104 => k0_hw104.2 (k0_off416_inb v420 k0_hw104)

def k0_off417 (k0_t2 : Fin k0_t2_loop.trips) : Fin 3 → Nat :=
  let c0_305 : Index := 0#32
  let c0_306 : Index := 0#32
  let c0_i32_3 : BitVec 32 := 0#32
  let c1_i32_5 : BitVec 32 := 1#32
  let arg9 : BitVec 32 := Scf.iv c0_i32_3 c1_i32_5 k0_t2
  let c64_i32_304 : BitVec 32 := 64#32
  let v427 : BitVec 32 := Scalar.muli arg9 c64_i32_304
  let c40_i32 : BitVec 32 := 40#32
  let v428 : BitVec 32 := Scalar.addi v427 c40_i32
  let v429 : Index := Scalar.indexCast v428
  ![0, 0, v429.toNat]
def k0_off418 (k0_t2 : Fin k0_t2_loop.trips) : Fin 1 → Nat :=
  let c0_i32_3 : BitVec 32 := 0#32
  let c1_i32_5 : BitVec 32 := 1#32
  let arg9 : BitVec 32 := Scf.iv c0_i32_3 c1_i32_5 k0_t2
  let c64_i32_304 : BitVec 32 := 64#32
  let v427 : BitVec 32 := Scalar.muli arg9 c64_i32_304
  let c40_i32 : BitVec 32 := 40#32
  let v428 : BitVec 32 := Scalar.addi v427 c40_i32
  ![v428.toNat]
def k0_off419 (k0_t2 : Fin k0_t2_loop.trips) : Fin 3 → Nat :=
  let c0_i32_3 : BitVec 32 := 0#32
  let c1_i32_5 : BitVec 32 := 1#32
  let arg9 : BitVec 32 := Scf.iv c0_i32_3 c1_i32_5 k0_t2
  let c64_i32_304 : BitVec 32 := 64#32
  let v427 : BitVec 32 := Scalar.muli arg9 c64_i32_304
  let c40_i32 : BitVec 32 := 40#32
  let v428 : BitVec 32 := Scalar.addi v427 c40_i32
  let c0_i32_307 : BitVec 32 := 0#32
  let c0_i32_308 : BitVec 32 := 0#32
  ![v428.toNat, 0, 0]
def k0_off420 (v430 : BitVec 32) : Fin 3 → Nat :=
  let c0_i32_309 : BitVec 32 := 0#32
  let c0_i32_310 : BitVec 32 := 0#32
  ![v430.toNat, 0, 0]

def k0_chk105 (v430 : BitVec 32) : Prop :=
  (∀ a, (k0_off420 v430) a + S1x1x64.size a ≤ S1000000x1x64.size a) ∧
  (∀ (hinb : ∀ a, (k0_off420 v430) a + S1x1x64.size a ≤ S1000000x1x64.size a), (Rect.unit (s := S1000000x1x64) (k0_off420 v430) S1x1x64.size hinb).WholeWords (EltTy.packing .bf16))
instance k0_chk105.dec : ∀ (v430 : BitVec 32), Decidable (k0_chk105 v430) := fun v430 => decidable_of_iff' _ (Iff.of_eq (k0_chk105.eq_1 v430))
theorem k0_off420_inb : ∀ (v430 : BitVec 32) (k0_hw105 : k0_chk105 v430), ∀ a, (k0_off420 v430) a + S1x1x64.size a ≤ S1000000x1x64.size a := fun v430 k0_hw105 => k0_hw105.1
theorem k0_off420_wordsbf16 : ∀ (v430 : BitVec 32) (k0_hw105 : k0_chk105 v430), (Rect.unit (s := S1000000x1x64) (k0_off420 v430) S1x1x64.size (k0_off420_inb v430 k0_hw105)).WholeWords (EltTy.packing .bf16) := fun v430 k0_hw105 => k0_hw105.2 (k0_off420_inb v430 k0_hw105)

def k0_off421 (k0_t2 : Fin k0_t2_loop.trips) : Fin 3 → Nat :=
  let c0_312 : Index := 0#32
  let c0_313 : Index := 0#32
  let c0_i32_3 : BitVec 32 := 0#32
  let c1_i32_5 : BitVec 32 := 1#32
  let arg9 : BitVec 32 := Scf.iv c0_i32_3 c1_i32_5 k0_t2
  let c64_i32_311 : BitVec 32 := 64#32
  let v437 : BitVec 32 := Scalar.muli arg9 c64_i32_311
  let c41_i32 : BitVec 32 := 41#32
  let v438 : BitVec 32 := Scalar.addi v437 c41_i32
  let v439 : Index := Scalar.indexCast v438
  ![0, 0, v439.toNat]
def k0_off422 (k0_t2 : Fin k0_t2_loop.trips) : Fin 1 → Nat :=
  let c0_i32_3 : BitVec 32 := 0#32
  let c1_i32_5 : BitVec 32 := 1#32
  let arg9 : BitVec 32 := Scf.iv c0_i32_3 c1_i32_5 k0_t2
  let c64_i32_311 : BitVec 32 := 64#32
  let v437 : BitVec 32 := Scalar.muli arg9 c64_i32_311
  let c41_i32 : BitVec 32 := 41#32
  let v438 : BitVec 32 := Scalar.addi v437 c41_i32
  ![v438.toNat]
def k0_off423 (k0_t2 : Fin k0_t2_loop.trips) : Fin 3 → Nat :=
  let c0_i32_3 : BitVec 32 := 0#32
  let c1_i32_5 : BitVec 32 := 1#32
  let arg9 : BitVec 32 := Scf.iv c0_i32_3 c1_i32_5 k0_t2
  let c64_i32_311 : BitVec 32 := 64#32
  let v437 : BitVec 32 := Scalar.muli arg9 c64_i32_311
  let c41_i32 : BitVec 32 := 41#32
  let v438 : BitVec 32 := Scalar.addi v437 c41_i32
  let c0_i32_314 : BitVec 32 := 0#32
  let c0_i32_315 : BitVec 32 := 0#32
  ![v438.toNat, 0, 0]
def k0_off424 (v440 : BitVec 32) : Fin 3 → Nat :=
  let c0_i32_316 : BitVec 32 := 0#32
  let c0_i32_317 : BitVec 32 := 0#32
  ![v440.toNat, 0, 0]

def k0_chk106 (v440 : BitVec 32) : Prop :=
  (∀ a, (k0_off424 v440) a + S1x1x64.size a ≤ S1000000x1x64.size a) ∧
  (∀ (hinb : ∀ a, (k0_off424 v440) a + S1x1x64.size a ≤ S1000000x1x64.size a), (Rect.unit (s := S1000000x1x64) (k0_off424 v440) S1x1x64.size hinb).WholeWords (EltTy.packing .bf16))
instance k0_chk106.dec : ∀ (v440 : BitVec 32), Decidable (k0_chk106 v440) := fun v440 => decidable_of_iff' _ (Iff.of_eq (k0_chk106.eq_1 v440))
theorem k0_off424_inb : ∀ (v440 : BitVec 32) (k0_hw106 : k0_chk106 v440), ∀ a, (k0_off424 v440) a + S1x1x64.size a ≤ S1000000x1x64.size a := fun v440 k0_hw106 => k0_hw106.1
theorem k0_off424_wordsbf16 : ∀ (v440 : BitVec 32) (k0_hw106 : k0_chk106 v440), (Rect.unit (s := S1000000x1x64) (k0_off424 v440) S1x1x64.size (k0_off424_inb v440 k0_hw106)).WholeWords (EltTy.packing .bf16) := fun v440 k0_hw106 => k0_hw106.2 (k0_off424_inb v440 k0_hw106)

def k0_off425 (k0_t2 : Fin k0_t2_loop.trips) : Fin 3 → Nat :=
  let c0_319 : Index := 0#32
  let c0_320 : Index := 0#32
  let c0_i32_3 : BitVec 32 := 0#32
  let c1_i32_5 : BitVec 32 := 1#32
  let arg9 : BitVec 32 := Scf.iv c0_i32_3 c1_i32_5 k0_t2
  let c64_i32_318 : BitVec 32 := 64#32
  let v447 : BitVec 32 := Scalar.muli arg9 c64_i32_318
  let c42_i32 : BitVec 32 := 42#32
  let v448 : BitVec 32 := Scalar.addi v447 c42_i32
  let v449 : Index := Scalar.indexCast v448
  ![0, 0, v449.toNat]
def k0_off426 (k0_t2 : Fin k0_t2_loop.trips) : Fin 1 → Nat :=
  let c0_i32_3 : BitVec 32 := 0#32
  let c1_i32_5 : BitVec 32 := 1#32
  let arg9 : BitVec 32 := Scf.iv c0_i32_3 c1_i32_5 k0_t2
  let c64_i32_318 : BitVec 32 := 64#32
  let v447 : BitVec 32 := Scalar.muli arg9 c64_i32_318
  let c42_i32 : BitVec 32 := 42#32
  let v448 : BitVec 32 := Scalar.addi v447 c42_i32
  ![v448.toNat]
def k0_off427 (k0_t2 : Fin k0_t2_loop.trips) : Fin 3 → Nat :=
  let c0_i32_3 : BitVec 32 := 0#32
  let c1_i32_5 : BitVec 32 := 1#32
  let arg9 : BitVec 32 := Scf.iv c0_i32_3 c1_i32_5 k0_t2
  let c64_i32_318 : BitVec 32 := 64#32
  let v447 : BitVec 32 := Scalar.muli arg9 c64_i32_318
  let c42_i32 : BitVec 32 := 42#32
  let v448 : BitVec 32 := Scalar.addi v447 c42_i32
  let c0_i32_321 : BitVec 32 := 0#32
  let c0_i32_322 : BitVec 32 := 0#32
  ![v448.toNat, 0, 0]
def k0_off428 (v450 : BitVec 32) : Fin 3 → Nat :=
  let c0_i32_323 : BitVec 32 := 0#32
  let c0_i32_324 : BitVec 32 := 0#32
  ![v450.toNat, 0, 0]

def k0_chk107 (v450 : BitVec 32) : Prop :=
  (∀ a, (k0_off428 v450) a + S1x1x64.size a ≤ S1000000x1x64.size a) ∧
  (∀ (hinb : ∀ a, (k0_off428 v450) a + S1x1x64.size a ≤ S1000000x1x64.size a), (Rect.unit (s := S1000000x1x64) (k0_off428 v450) S1x1x64.size hinb).WholeWords (EltTy.packing .bf16))
instance k0_chk107.dec : ∀ (v450 : BitVec 32), Decidable (k0_chk107 v450) := fun v450 => decidable_of_iff' _ (Iff.of_eq (k0_chk107.eq_1 v450))
theorem k0_off428_inb : ∀ (v450 : BitVec 32) (k0_hw107 : k0_chk107 v450), ∀ a, (k0_off428 v450) a + S1x1x64.size a ≤ S1000000x1x64.size a := fun v450 k0_hw107 => k0_hw107.1
theorem k0_off428_wordsbf16 : ∀ (v450 : BitVec 32) (k0_hw107 : k0_chk107 v450), (Rect.unit (s := S1000000x1x64) (k0_off428 v450) S1x1x64.size (k0_off428_inb v450 k0_hw107)).WholeWords (EltTy.packing .bf16) := fun v450 k0_hw107 => k0_hw107.2 (k0_off428_inb v450 k0_hw107)

def k0_off429 (k0_t2 : Fin k0_t2_loop.trips) : Fin 3 → Nat :=
  let c0_326 : Index := 0#32
  let c0_327 : Index := 0#32
  let c0_i32_3 : BitVec 32 := 0#32
  let c1_i32_5 : BitVec 32 := 1#32
  let arg9 : BitVec 32 := Scf.iv c0_i32_3 c1_i32_5 k0_t2
  let c64_i32_325 : BitVec 32 := 64#32
  let v457 : BitVec 32 := Scalar.muli arg9 c64_i32_325
  let c43_i32 : BitVec 32 := 43#32
  let v458 : BitVec 32 := Scalar.addi v457 c43_i32
  let v459 : Index := Scalar.indexCast v458
  ![0, 0, v459.toNat]
def k0_off430 (k0_t2 : Fin k0_t2_loop.trips) : Fin 1 → Nat :=
  let c0_i32_3 : BitVec 32 := 0#32
  let c1_i32_5 : BitVec 32 := 1#32
  let arg9 : BitVec 32 := Scf.iv c0_i32_3 c1_i32_5 k0_t2
  let c64_i32_325 : BitVec 32 := 64#32
  let v457 : BitVec 32 := Scalar.muli arg9 c64_i32_325
  let c43_i32 : BitVec 32 := 43#32
  let v458 : BitVec 32 := Scalar.addi v457 c43_i32
  ![v458.toNat]
def k0_off431 (k0_t2 : Fin k0_t2_loop.trips) : Fin 3 → Nat :=
  let c0_i32_3 : BitVec 32 := 0#32
  let c1_i32_5 : BitVec 32 := 1#32
  let arg9 : BitVec 32 := Scf.iv c0_i32_3 c1_i32_5 k0_t2
  let c64_i32_325 : BitVec 32 := 64#32
  let v457 : BitVec 32 := Scalar.muli arg9 c64_i32_325
  let c43_i32 : BitVec 32 := 43#32
  let v458 : BitVec 32 := Scalar.addi v457 c43_i32
  let c0_i32_328 : BitVec 32 := 0#32
  let c0_i32_329 : BitVec 32 := 0#32
  ![v458.toNat, 0, 0]
def k0_off432 (v460 : BitVec 32) : Fin 3 → Nat :=
  let c0_i32_330 : BitVec 32 := 0#32
  let c0_i32_331 : BitVec 32 := 0#32
  ![v460.toNat, 0, 0]

def k0_chk108 (v460 : BitVec 32) : Prop :=
  (∀ a, (k0_off432 v460) a + S1x1x64.size a ≤ S1000000x1x64.size a) ∧
  (∀ (hinb : ∀ a, (k0_off432 v460) a + S1x1x64.size a ≤ S1000000x1x64.size a), (Rect.unit (s := S1000000x1x64) (k0_off432 v460) S1x1x64.size hinb).WholeWords (EltTy.packing .bf16))
instance k0_chk108.dec : ∀ (v460 : BitVec 32), Decidable (k0_chk108 v460) := fun v460 => decidable_of_iff' _ (Iff.of_eq (k0_chk108.eq_1 v460))
theorem k0_off432_inb : ∀ (v460 : BitVec 32) (k0_hw108 : k0_chk108 v460), ∀ a, (k0_off432 v460) a + S1x1x64.size a ≤ S1000000x1x64.size a := fun v460 k0_hw108 => k0_hw108.1
theorem k0_off432_wordsbf16 : ∀ (v460 : BitVec 32) (k0_hw108 : k0_chk108 v460), (Rect.unit (s := S1000000x1x64) (k0_off432 v460) S1x1x64.size (k0_off432_inb v460 k0_hw108)).WholeWords (EltTy.packing .bf16) := fun v460 k0_hw108 => k0_hw108.2 (k0_off432_inb v460 k0_hw108)

def k0_off433 (k0_t2 : Fin k0_t2_loop.trips) : Fin 3 → Nat :=
  let c0_333 : Index := 0#32
  let c0_334 : Index := 0#32
  let c0_i32_3 : BitVec 32 := 0#32
  let c1_i32_5 : BitVec 32 := 1#32
  let arg9 : BitVec 32 := Scf.iv c0_i32_3 c1_i32_5 k0_t2
  let c64_i32_332 : BitVec 32 := 64#32
  let v467 : BitVec 32 := Scalar.muli arg9 c64_i32_332
  let c44_i32 : BitVec 32 := 44#32
  let v468 : BitVec 32 := Scalar.addi v467 c44_i32
  let v469 : Index := Scalar.indexCast v468
  ![0, 0, v469.toNat]
def k0_off434 (k0_t2 : Fin k0_t2_loop.trips) : Fin 1 → Nat :=
  let c0_i32_3 : BitVec 32 := 0#32
  let c1_i32_5 : BitVec 32 := 1#32
  let arg9 : BitVec 32 := Scf.iv c0_i32_3 c1_i32_5 k0_t2
  let c64_i32_332 : BitVec 32 := 64#32
  let v467 : BitVec 32 := Scalar.muli arg9 c64_i32_332
  let c44_i32 : BitVec 32 := 44#32
  let v468 : BitVec 32 := Scalar.addi v467 c44_i32
  ![v468.toNat]
def k0_off435 (k0_t2 : Fin k0_t2_loop.trips) : Fin 3 → Nat :=
  let c0_i32_3 : BitVec 32 := 0#32
  let c1_i32_5 : BitVec 32 := 1#32
  let arg9 : BitVec 32 := Scf.iv c0_i32_3 c1_i32_5 k0_t2
  let c64_i32_332 : BitVec 32 := 64#32
  let v467 : BitVec 32 := Scalar.muli arg9 c64_i32_332
  let c44_i32 : BitVec 32 := 44#32
  let v468 : BitVec 32 := Scalar.addi v467 c44_i32
  let c0_i32_335 : BitVec 32 := 0#32
  let c0_i32_336 : BitVec 32 := 0#32
  ![v468.toNat, 0, 0]
def k0_off436 (v470 : BitVec 32) : Fin 3 → Nat :=
  let c0_i32_337 : BitVec 32 := 0#32
  let c0_i32_338 : BitVec 32 := 0#32
  ![v470.toNat, 0, 0]

def k0_chk109 (v470 : BitVec 32) : Prop :=
  (∀ a, (k0_off436 v470) a + S1x1x64.size a ≤ S1000000x1x64.size a) ∧
  (∀ (hinb : ∀ a, (k0_off436 v470) a + S1x1x64.size a ≤ S1000000x1x64.size a), (Rect.unit (s := S1000000x1x64) (k0_off436 v470) S1x1x64.size hinb).WholeWords (EltTy.packing .bf16))
instance k0_chk109.dec : ∀ (v470 : BitVec 32), Decidable (k0_chk109 v470) := fun v470 => decidable_of_iff' _ (Iff.of_eq (k0_chk109.eq_1 v470))
theorem k0_off436_inb : ∀ (v470 : BitVec 32) (k0_hw109 : k0_chk109 v470), ∀ a, (k0_off436 v470) a + S1x1x64.size a ≤ S1000000x1x64.size a := fun v470 k0_hw109 => k0_hw109.1
theorem k0_off436_wordsbf16 : ∀ (v470 : BitVec 32) (k0_hw109 : k0_chk109 v470), (Rect.unit (s := S1000000x1x64) (k0_off436 v470) S1x1x64.size (k0_off436_inb v470 k0_hw109)).WholeWords (EltTy.packing .bf16) := fun v470 k0_hw109 => k0_hw109.2 (k0_off436_inb v470 k0_hw109)

def k0_off437 (k0_t2 : Fin k0_t2_loop.trips) : Fin 3 → Nat :=
  let c0_340 : Index := 0#32
  let c0_341 : Index := 0#32
  let c0_i32_3 : BitVec 32 := 0#32
  let c1_i32_5 : BitVec 32 := 1#32
  let arg9 : BitVec 32 := Scf.iv c0_i32_3 c1_i32_5 k0_t2
  let c64_i32_339 : BitVec 32 := 64#32
  let v477 : BitVec 32 := Scalar.muli arg9 c64_i32_339
  let c45_i32 : BitVec 32 := 45#32
  let v478 : BitVec 32 := Scalar.addi v477 c45_i32
  let v479 : Index := Scalar.indexCast v478
  ![0, 0, v479.toNat]
def k0_off438 (k0_t2 : Fin k0_t2_loop.trips) : Fin 1 → Nat :=
  let c0_i32_3 : BitVec 32 := 0#32
  let c1_i32_5 : BitVec 32 := 1#32
  let arg9 : BitVec 32 := Scf.iv c0_i32_3 c1_i32_5 k0_t2
  let c64_i32_339 : BitVec 32 := 64#32
  let v477 : BitVec 32 := Scalar.muli arg9 c64_i32_339
  let c45_i32 : BitVec 32 := 45#32
  let v478 : BitVec 32 := Scalar.addi v477 c45_i32
  ![v478.toNat]
def k0_off439 (k0_t2 : Fin k0_t2_loop.trips) : Fin 3 → Nat :=
  let c0_i32_3 : BitVec 32 := 0#32
  let c1_i32_5 : BitVec 32 := 1#32
  let arg9 : BitVec 32 := Scf.iv c0_i32_3 c1_i32_5 k0_t2
  let c64_i32_339 : BitVec 32 := 64#32
  let v477 : BitVec 32 := Scalar.muli arg9 c64_i32_339
  let c45_i32 : BitVec 32 := 45#32
  let v478 : BitVec 32 := Scalar.addi v477 c45_i32
  let c0_i32_342 : BitVec 32 := 0#32
  let c0_i32_343 : BitVec 32 := 0#32
  ![v478.toNat, 0, 0]
def k0_off440 (v480 : BitVec 32) : Fin 3 → Nat :=
  let c0_i32_344 : BitVec 32 := 0#32
  let c0_i32_345 : BitVec 32 := 0#32
  ![v480.toNat, 0, 0]

def k0_chk110 (v480 : BitVec 32) : Prop :=
  (∀ a, (k0_off440 v480) a + S1x1x64.size a ≤ S1000000x1x64.size a) ∧
  (∀ (hinb : ∀ a, (k0_off440 v480) a + S1x1x64.size a ≤ S1000000x1x64.size a), (Rect.unit (s := S1000000x1x64) (k0_off440 v480) S1x1x64.size hinb).WholeWords (EltTy.packing .bf16))
instance k0_chk110.dec : ∀ (v480 : BitVec 32), Decidable (k0_chk110 v480) := fun v480 => decidable_of_iff' _ (Iff.of_eq (k0_chk110.eq_1 v480))
theorem k0_off440_inb : ∀ (v480 : BitVec 32) (k0_hw110 : k0_chk110 v480), ∀ a, (k0_off440 v480) a + S1x1x64.size a ≤ S1000000x1x64.size a := fun v480 k0_hw110 => k0_hw110.1
theorem k0_off440_wordsbf16 : ∀ (v480 : BitVec 32) (k0_hw110 : k0_chk110 v480), (Rect.unit (s := S1000000x1x64) (k0_off440 v480) S1x1x64.size (k0_off440_inb v480 k0_hw110)).WholeWords (EltTy.packing .bf16) := fun v480 k0_hw110 => k0_hw110.2 (k0_off440_inb v480 k0_hw110)

def k0_off441 (k0_t2 : Fin k0_t2_loop.trips) : Fin 3 → Nat :=
  let c0_347 : Index := 0#32
  let c0_348 : Index := 0#32
  let c0_i32_3 : BitVec 32 := 0#32
  let c1_i32_5 : BitVec 32 := 1#32
  let arg9 : BitVec 32 := Scf.iv c0_i32_3 c1_i32_5 k0_t2
  let c64_i32_346 : BitVec 32 := 64#32
  let v487 : BitVec 32 := Scalar.muli arg9 c64_i32_346
  let c46_i32 : BitVec 32 := 46#32
  let v488 : BitVec 32 := Scalar.addi v487 c46_i32
  let v489 : Index := Scalar.indexCast v488
  ![0, 0, v489.toNat]
def k0_off442 (k0_t2 : Fin k0_t2_loop.trips) : Fin 1 → Nat :=
  let c0_i32_3 : BitVec 32 := 0#32
  let c1_i32_5 : BitVec 32 := 1#32
  let arg9 : BitVec 32 := Scf.iv c0_i32_3 c1_i32_5 k0_t2
  let c64_i32_346 : BitVec 32 := 64#32
  let v487 : BitVec 32 := Scalar.muli arg9 c64_i32_346
  let c46_i32 : BitVec 32 := 46#32
  let v488 : BitVec 32 := Scalar.addi v487 c46_i32
  ![v488.toNat]
def k0_off443 (k0_t2 : Fin k0_t2_loop.trips) : Fin 3 → Nat :=
  let c0_i32_3 : BitVec 32 := 0#32
  let c1_i32_5 : BitVec 32 := 1#32
  let arg9 : BitVec 32 := Scf.iv c0_i32_3 c1_i32_5 k0_t2
  let c64_i32_346 : BitVec 32 := 64#32
  let v487 : BitVec 32 := Scalar.muli arg9 c64_i32_346
  let c46_i32 : BitVec 32 := 46#32
  let v488 : BitVec 32 := Scalar.addi v487 c46_i32
  let c0_i32_349 : BitVec 32 := 0#32
  let c0_i32_350 : BitVec 32 := 0#32
  ![v488.toNat, 0, 0]
def k0_off444 (v490 : BitVec 32) : Fin 3 → Nat :=
  let c0_i32_351 : BitVec 32 := 0#32
  let c0_i32_352 : BitVec 32 := 0#32
  ![v490.toNat, 0, 0]

def k0_chk111 (v490 : BitVec 32) : Prop :=
  (∀ a, (k0_off444 v490) a + S1x1x64.size a ≤ S1000000x1x64.size a) ∧
  (∀ (hinb : ∀ a, (k0_off444 v490) a + S1x1x64.size a ≤ S1000000x1x64.size a), (Rect.unit (s := S1000000x1x64) (k0_off444 v490) S1x1x64.size hinb).WholeWords (EltTy.packing .bf16))
instance k0_chk111.dec : ∀ (v490 : BitVec 32), Decidable (k0_chk111 v490) := fun v490 => decidable_of_iff' _ (Iff.of_eq (k0_chk111.eq_1 v490))
theorem k0_off444_inb : ∀ (v490 : BitVec 32) (k0_hw111 : k0_chk111 v490), ∀ a, (k0_off444 v490) a + S1x1x64.size a ≤ S1000000x1x64.size a := fun v490 k0_hw111 => k0_hw111.1
theorem k0_off444_wordsbf16 : ∀ (v490 : BitVec 32) (k0_hw111 : k0_chk111 v490), (Rect.unit (s := S1000000x1x64) (k0_off444 v490) S1x1x64.size (k0_off444_inb v490 k0_hw111)).WholeWords (EltTy.packing .bf16) := fun v490 k0_hw111 => k0_hw111.2 (k0_off444_inb v490 k0_hw111)

def k0_off445 (k0_t2 : Fin k0_t2_loop.trips) : Fin 3 → Nat :=
  let c0_354 : Index := 0#32
  let c0_355 : Index := 0#32
  let c0_i32_3 : BitVec 32 := 0#32
  let c1_i32_5 : BitVec 32 := 1#32
  let arg9 : BitVec 32 := Scf.iv c0_i32_3 c1_i32_5 k0_t2
  let c64_i32_353 : BitVec 32 := 64#32
  let v497 : BitVec 32 := Scalar.muli arg9 c64_i32_353
  let c47_i32 : BitVec 32 := 47#32
  let v498 : BitVec 32 := Scalar.addi v497 c47_i32
  let v499 : Index := Scalar.indexCast v498
  ![0, 0, v499.toNat]
def k0_off446 (k0_t2 : Fin k0_t2_loop.trips) : Fin 1 → Nat :=
  let c0_i32_3 : BitVec 32 := 0#32
  let c1_i32_5 : BitVec 32 := 1#32
  let arg9 : BitVec 32 := Scf.iv c0_i32_3 c1_i32_5 k0_t2
  let c64_i32_353 : BitVec 32 := 64#32
  let v497 : BitVec 32 := Scalar.muli arg9 c64_i32_353
  let c47_i32 : BitVec 32 := 47#32
  let v498 : BitVec 32 := Scalar.addi v497 c47_i32
  ![v498.toNat]
def k0_off447 (k0_t2 : Fin k0_t2_loop.trips) : Fin 3 → Nat :=
  let c0_i32_3 : BitVec 32 := 0#32
  let c1_i32_5 : BitVec 32 := 1#32
  let arg9 : BitVec 32 := Scf.iv c0_i32_3 c1_i32_5 k0_t2
  let c64_i32_353 : BitVec 32 := 64#32
  let v497 : BitVec 32 := Scalar.muli arg9 c64_i32_353
  let c47_i32 : BitVec 32 := 47#32
  let v498 : BitVec 32 := Scalar.addi v497 c47_i32
  let c0_i32_356 : BitVec 32 := 0#32
  let c0_i32_357 : BitVec 32 := 0#32
  ![v498.toNat, 0, 0]
def k0_off448 (v500 : BitVec 32) : Fin 3 → Nat :=
  let c0_i32_358 : BitVec 32 := 0#32
  let c0_i32_359 : BitVec 32 := 0#32
  ![v500.toNat, 0, 0]

def k0_chk112 (v500 : BitVec 32) : Prop :=
  (∀ a, (k0_off448 v500) a + S1x1x64.size a ≤ S1000000x1x64.size a) ∧
  (∀ (hinb : ∀ a, (k0_off448 v500) a + S1x1x64.size a ≤ S1000000x1x64.size a), (Rect.unit (s := S1000000x1x64) (k0_off448 v500) S1x1x64.size hinb).WholeWords (EltTy.packing .bf16))
instance k0_chk112.dec : ∀ (v500 : BitVec 32), Decidable (k0_chk112 v500) := fun v500 => decidable_of_iff' _ (Iff.of_eq (k0_chk112.eq_1 v500))
theorem k0_off448_inb : ∀ (v500 : BitVec 32) (k0_hw112 : k0_chk112 v500), ∀ a, (k0_off448 v500) a + S1x1x64.size a ≤ S1000000x1x64.size a := fun v500 k0_hw112 => k0_hw112.1
theorem k0_off448_wordsbf16 : ∀ (v500 : BitVec 32) (k0_hw112 : k0_chk112 v500), (Rect.unit (s := S1000000x1x64) (k0_off448 v500) S1x1x64.size (k0_off448_inb v500 k0_hw112)).WholeWords (EltTy.packing .bf16) := fun v500 k0_hw112 => k0_hw112.2 (k0_off448_inb v500 k0_hw112)

def k0_off449 (k0_t2 : Fin k0_t2_loop.trips) : Fin 3 → Nat :=
  let c0_361 : Index := 0#32
  let c0_362 : Index := 0#32
  let c0_i32_3 : BitVec 32 := 0#32
  let c1_i32_5 : BitVec 32 := 1#32
  let arg9 : BitVec 32 := Scf.iv c0_i32_3 c1_i32_5 k0_t2
  let c64_i32_360 : BitVec 32 := 64#32
  let v507 : BitVec 32 := Scalar.muli arg9 c64_i32_360
  let c48_i32 : BitVec 32 := 48#32
  let v508 : BitVec 32 := Scalar.addi v507 c48_i32
  let v509 : Index := Scalar.indexCast v508
  ![0, 0, v509.toNat]
def k0_off450 (k0_t2 : Fin k0_t2_loop.trips) : Fin 1 → Nat :=
  let c0_i32_3 : BitVec 32 := 0#32
  let c1_i32_5 : BitVec 32 := 1#32
  let arg9 : BitVec 32 := Scf.iv c0_i32_3 c1_i32_5 k0_t2
  let c64_i32_360 : BitVec 32 := 64#32
  let v507 : BitVec 32 := Scalar.muli arg9 c64_i32_360
  let c48_i32 : BitVec 32 := 48#32
  let v508 : BitVec 32 := Scalar.addi v507 c48_i32
  ![v508.toNat]
def k0_off451 (k0_t2 : Fin k0_t2_loop.trips) : Fin 3 → Nat :=
  let c0_i32_3 : BitVec 32 := 0#32
  let c1_i32_5 : BitVec 32 := 1#32
  let arg9 : BitVec 32 := Scf.iv c0_i32_3 c1_i32_5 k0_t2
  let c64_i32_360 : BitVec 32 := 64#32
  let v507 : BitVec 32 := Scalar.muli arg9 c64_i32_360
  let c48_i32 : BitVec 32 := 48#32
  let v508 : BitVec 32 := Scalar.addi v507 c48_i32
  let c0_i32_363 : BitVec 32 := 0#32
  let c0_i32_364 : BitVec 32 := 0#32
  ![v508.toNat, 0, 0]
def k0_off452 (v510 : BitVec 32) : Fin 3 → Nat :=
  let c0_i32_365 : BitVec 32 := 0#32
  let c0_i32_366 : BitVec 32 := 0#32
  ![v510.toNat, 0, 0]

def k0_chk113 (v510 : BitVec 32) : Prop :=
  (∀ a, (k0_off452 v510) a + S1x1x64.size a ≤ S1000000x1x64.size a) ∧
  (∀ (hinb : ∀ a, (k0_off452 v510) a + S1x1x64.size a ≤ S1000000x1x64.size a), (Rect.unit (s := S1000000x1x64) (k0_off452 v510) S1x1x64.size hinb).WholeWords (EltTy.packing .bf16))
instance k0_chk113.dec : ∀ (v510 : BitVec 32), Decidable (k0_chk113 v510) := fun v510 => decidable_of_iff' _ (Iff.of_eq (k0_chk113.eq_1 v510))
theorem k0_off452_inb : ∀ (v510 : BitVec 32) (k0_hw113 : k0_chk113 v510), ∀ a, (k0_off452 v510) a + S1x1x64.size a ≤ S1000000x1x64.size a := fun v510 k0_hw113 => k0_hw113.1
theorem k0_off452_wordsbf16 : ∀ (v510 : BitVec 32) (k0_hw113 : k0_chk113 v510), (Rect.unit (s := S1000000x1x64) (k0_off452 v510) S1x1x64.size (k0_off452_inb v510 k0_hw113)).WholeWords (EltTy.packing .bf16) := fun v510 k0_hw113 => k0_hw113.2 (k0_off452_inb v510 k0_hw113)

def k0_off453 (k0_t2 : Fin k0_t2_loop.trips) : Fin 3 → Nat :=
  let c0_368 : Index := 0#32
  let c0_369 : Index := 0#32
  let c0_i32_3 : BitVec 32 := 0#32
  let c1_i32_5 : BitVec 32 := 1#32
  let arg9 : BitVec 32 := Scf.iv c0_i32_3 c1_i32_5 k0_t2
  let c64_i32_367 : BitVec 32 := 64#32
  let v517 : BitVec 32 := Scalar.muli arg9 c64_i32_367
  let c49_i32 : BitVec 32 := 49#32
  let v518 : BitVec 32 := Scalar.addi v517 c49_i32
  let v519 : Index := Scalar.indexCast v518
  ![0, 0, v519.toNat]
def k0_off454 (k0_t2 : Fin k0_t2_loop.trips) : Fin 1 → Nat :=
  let c0_i32_3 : BitVec 32 := 0#32
  let c1_i32_5 : BitVec 32 := 1#32
  let arg9 : BitVec 32 := Scf.iv c0_i32_3 c1_i32_5 k0_t2
  let c64_i32_367 : BitVec 32 := 64#32
  let v517 : BitVec 32 := Scalar.muli arg9 c64_i32_367
  let c49_i32 : BitVec 32 := 49#32
  let v518 : BitVec 32 := Scalar.addi v517 c49_i32
  ![v518.toNat]
def k0_off455 (k0_t2 : Fin k0_t2_loop.trips) : Fin 3 → Nat :=
  let c0_i32_3 : BitVec 32 := 0#32
  let c1_i32_5 : BitVec 32 := 1#32
  let arg9 : BitVec 32 := Scf.iv c0_i32_3 c1_i32_5 k0_t2
  let c64_i32_367 : BitVec 32 := 64#32
  let v517 : BitVec 32 := Scalar.muli arg9 c64_i32_367
  let c49_i32 : BitVec 32 := 49#32
  let v518 : BitVec 32 := Scalar.addi v517 c49_i32
  let c0_i32_370 : BitVec 32 := 0#32
  let c0_i32_371 : BitVec 32 := 0#32
  ![v518.toNat, 0, 0]
def k0_off456 (v520 : BitVec 32) : Fin 3 → Nat :=
  let c0_i32_372 : BitVec 32 := 0#32
  let c0_i32_373 : BitVec 32 := 0#32
  ![v520.toNat, 0, 0]

def k0_chk114 (v520 : BitVec 32) : Prop :=
  (∀ a, (k0_off456 v520) a + S1x1x64.size a ≤ S1000000x1x64.size a) ∧
  (∀ (hinb : ∀ a, (k0_off456 v520) a + S1x1x64.size a ≤ S1000000x1x64.size a), (Rect.unit (s := S1000000x1x64) (k0_off456 v520) S1x1x64.size hinb).WholeWords (EltTy.packing .bf16))
instance k0_chk114.dec : ∀ (v520 : BitVec 32), Decidable (k0_chk114 v520) := fun v520 => decidable_of_iff' _ (Iff.of_eq (k0_chk114.eq_1 v520))
theorem k0_off456_inb : ∀ (v520 : BitVec 32) (k0_hw114 : k0_chk114 v520), ∀ a, (k0_off456 v520) a + S1x1x64.size a ≤ S1000000x1x64.size a := fun v520 k0_hw114 => k0_hw114.1
theorem k0_off456_wordsbf16 : ∀ (v520 : BitVec 32) (k0_hw114 : k0_chk114 v520), (Rect.unit (s := S1000000x1x64) (k0_off456 v520) S1x1x64.size (k0_off456_inb v520 k0_hw114)).WholeWords (EltTy.packing .bf16) := fun v520 k0_hw114 => k0_hw114.2 (k0_off456_inb v520 k0_hw114)

def k0_off457 (k0_t2 : Fin k0_t2_loop.trips) : Fin 3 → Nat :=
  let c0_375 : Index := 0#32
  let c0_376 : Index := 0#32
  let c0_i32_3 : BitVec 32 := 0#32
  let c1_i32_5 : BitVec 32 := 1#32
  let arg9 : BitVec 32 := Scf.iv c0_i32_3 c1_i32_5 k0_t2
  let c64_i32_374 : BitVec 32 := 64#32
  let v527 : BitVec 32 := Scalar.muli arg9 c64_i32_374
  let c50_i32 : BitVec 32 := 50#32
  let v528 : BitVec 32 := Scalar.addi v527 c50_i32
  let v529 : Index := Scalar.indexCast v528
  ![0, 0, v529.toNat]
def k0_off458 (k0_t2 : Fin k0_t2_loop.trips) : Fin 1 → Nat :=
  let c0_i32_3 : BitVec 32 := 0#32
  let c1_i32_5 : BitVec 32 := 1#32
  let arg9 : BitVec 32 := Scf.iv c0_i32_3 c1_i32_5 k0_t2
  let c64_i32_374 : BitVec 32 := 64#32
  let v527 : BitVec 32 := Scalar.muli arg9 c64_i32_374
  let c50_i32 : BitVec 32 := 50#32
  let v528 : BitVec 32 := Scalar.addi v527 c50_i32
  ![v528.toNat]
def k0_off459 (k0_t2 : Fin k0_t2_loop.trips) : Fin 3 → Nat :=
  let c0_i32_3 : BitVec 32 := 0#32
  let c1_i32_5 : BitVec 32 := 1#32
  let arg9 : BitVec 32 := Scf.iv c0_i32_3 c1_i32_5 k0_t2
  let c64_i32_374 : BitVec 32 := 64#32
  let v527 : BitVec 32 := Scalar.muli arg9 c64_i32_374
  let c50_i32 : BitVec 32 := 50#32
  let v528 : BitVec 32 := Scalar.addi v527 c50_i32
  let c0_i32_377 : BitVec 32 := 0#32
  let c0_i32_378 : BitVec 32 := 0#32
  ![v528.toNat, 0, 0]
def k0_off460 (v530 : BitVec 32) : Fin 3 → Nat :=
  let c0_i32_379 : BitVec 32 := 0#32
  let c0_i32_380 : BitVec 32 := 0#32
  ![v530.toNat, 0, 0]

def k0_chk115 (v530 : BitVec 32) : Prop :=
  (∀ a, (k0_off460 v530) a + S1x1x64.size a ≤ S1000000x1x64.size a) ∧
  (∀ (hinb : ∀ a, (k0_off460 v530) a + S1x1x64.size a ≤ S1000000x1x64.size a), (Rect.unit (s := S1000000x1x64) (k0_off460 v530) S1x1x64.size hinb).WholeWords (EltTy.packing .bf16))
instance k0_chk115.dec : ∀ (v530 : BitVec 32), Decidable (k0_chk115 v530) := fun v530 => decidable_of_iff' _ (Iff.of_eq (k0_chk115.eq_1 v530))
theorem k0_off460_inb : ∀ (v530 : BitVec 32) (k0_hw115 : k0_chk115 v530), ∀ a, (k0_off460 v530) a + S1x1x64.size a ≤ S1000000x1x64.size a := fun v530 k0_hw115 => k0_hw115.1
theorem k0_off460_wordsbf16 : ∀ (v530 : BitVec 32) (k0_hw115 : k0_chk115 v530), (Rect.unit (s := S1000000x1x64) (k0_off460 v530) S1x1x64.size (k0_off460_inb v530 k0_hw115)).WholeWords (EltTy.packing .bf16) := fun v530 k0_hw115 => k0_hw115.2 (k0_off460_inb v530 k0_hw115)

def k0_off461 (k0_t2 : Fin k0_t2_loop.trips) : Fin 3 → Nat :=
  let c0_382 : Index := 0#32
  let c0_383 : Index := 0#32
  let c0_i32_3 : BitVec 32 := 0#32
  let c1_i32_5 : BitVec 32 := 1#32
  let arg9 : BitVec 32 := Scf.iv c0_i32_3 c1_i32_5 k0_t2
  let c64_i32_381 : BitVec 32 := 64#32
  let v537 : BitVec 32 := Scalar.muli arg9 c64_i32_381
  let c51_i32 : BitVec 32 := 51#32
  let v538 : BitVec 32 := Scalar.addi v537 c51_i32
  let v539 : Index := Scalar.indexCast v538
  ![0, 0, v539.toNat]
def k0_off462 (k0_t2 : Fin k0_t2_loop.trips) : Fin 1 → Nat :=
  let c0_i32_3 : BitVec 32 := 0#32
  let c1_i32_5 : BitVec 32 := 1#32
  let arg9 : BitVec 32 := Scf.iv c0_i32_3 c1_i32_5 k0_t2
  let c64_i32_381 : BitVec 32 := 64#32
  let v537 : BitVec 32 := Scalar.muli arg9 c64_i32_381
  let c51_i32 : BitVec 32 := 51#32
  let v538 : BitVec 32 := Scalar.addi v537 c51_i32
  ![v538.toNat]
def k0_off463 (k0_t2 : Fin k0_t2_loop.trips) : Fin 3 → Nat :=
  let c0_i32_3 : BitVec 32 := 0#32
  let c1_i32_5 : BitVec 32 := 1#32
  let arg9 : BitVec 32 := Scf.iv c0_i32_3 c1_i32_5 k0_t2
  let c64_i32_381 : BitVec 32 := 64#32
  let v537 : BitVec 32 := Scalar.muli arg9 c64_i32_381
  let c51_i32 : BitVec 32 := 51#32
  let v538 : BitVec 32 := Scalar.addi v537 c51_i32
  let c0_i32_384 : BitVec 32 := 0#32
  let c0_i32_385 : BitVec 32 := 0#32
  ![v538.toNat, 0, 0]
def k0_off464 (v540 : BitVec 32) : Fin 3 → Nat :=
  let c0_i32_386 : BitVec 32 := 0#32
  let c0_i32_387 : BitVec 32 := 0#32
  ![v540.toNat, 0, 0]

def k0_chk116 (v540 : BitVec 32) : Prop :=
  (∀ a, (k0_off464 v540) a + S1x1x64.size a ≤ S1000000x1x64.size a) ∧
  (∀ (hinb : ∀ a, (k0_off464 v540) a + S1x1x64.size a ≤ S1000000x1x64.size a), (Rect.unit (s := S1000000x1x64) (k0_off464 v540) S1x1x64.size hinb).WholeWords (EltTy.packing .bf16))
instance k0_chk116.dec : ∀ (v540 : BitVec 32), Decidable (k0_chk116 v540) := fun v540 => decidable_of_iff' _ (Iff.of_eq (k0_chk116.eq_1 v540))
theorem k0_off464_inb : ∀ (v540 : BitVec 32) (k0_hw116 : k0_chk116 v540), ∀ a, (k0_off464 v540) a + S1x1x64.size a ≤ S1000000x1x64.size a := fun v540 k0_hw116 => k0_hw116.1
theorem k0_off464_wordsbf16 : ∀ (v540 : BitVec 32) (k0_hw116 : k0_chk116 v540), (Rect.unit (s := S1000000x1x64) (k0_off464 v540) S1x1x64.size (k0_off464_inb v540 k0_hw116)).WholeWords (EltTy.packing .bf16) := fun v540 k0_hw116 => k0_hw116.2 (k0_off464_inb v540 k0_hw116)

def k0_off465 (k0_t2 : Fin k0_t2_loop.trips) : Fin 3 → Nat :=
  let c0_389 : Index := 0#32
  let c0_390 : Index := 0#32
  let c0_i32_3 : BitVec 32 := 0#32
  let c1_i32_5 : BitVec 32 := 1#32
  let arg9 : BitVec 32 := Scf.iv c0_i32_3 c1_i32_5 k0_t2
  let c64_i32_388 : BitVec 32 := 64#32
  let v547 : BitVec 32 := Scalar.muli arg9 c64_i32_388
  let c52_i32 : BitVec 32 := 52#32
  let v548 : BitVec 32 := Scalar.addi v547 c52_i32
  let v549 : Index := Scalar.indexCast v548
  ![0, 0, v549.toNat]
def k0_off466 (k0_t2 : Fin k0_t2_loop.trips) : Fin 1 → Nat :=
  let c0_i32_3 : BitVec 32 := 0#32
  let c1_i32_5 : BitVec 32 := 1#32
  let arg9 : BitVec 32 := Scf.iv c0_i32_3 c1_i32_5 k0_t2
  let c64_i32_388 : BitVec 32 := 64#32
  let v547 : BitVec 32 := Scalar.muli arg9 c64_i32_388
  let c52_i32 : BitVec 32 := 52#32
  let v548 : BitVec 32 := Scalar.addi v547 c52_i32
  ![v548.toNat]
def k0_off467 (k0_t2 : Fin k0_t2_loop.trips) : Fin 3 → Nat :=
  let c0_i32_3 : BitVec 32 := 0#32
  let c1_i32_5 : BitVec 32 := 1#32
  let arg9 : BitVec 32 := Scf.iv c0_i32_3 c1_i32_5 k0_t2
  let c64_i32_388 : BitVec 32 := 64#32
  let v547 : BitVec 32 := Scalar.muli arg9 c64_i32_388
  let c52_i32 : BitVec 32 := 52#32
  let v548 : BitVec 32 := Scalar.addi v547 c52_i32
  let c0_i32_391 : BitVec 32 := 0#32
  let c0_i32_392 : BitVec 32 := 0#32
  ![v548.toNat, 0, 0]
def k0_off468 (v550 : BitVec 32) : Fin 3 → Nat :=
  let c0_i32_393 : BitVec 32 := 0#32
  let c0_i32_394 : BitVec 32 := 0#32
  ![v550.toNat, 0, 0]

def k0_chk117 (v550 : BitVec 32) : Prop :=
  (∀ a, (k0_off468 v550) a + S1x1x64.size a ≤ S1000000x1x64.size a) ∧
  (∀ (hinb : ∀ a, (k0_off468 v550) a + S1x1x64.size a ≤ S1000000x1x64.size a), (Rect.unit (s := S1000000x1x64) (k0_off468 v550) S1x1x64.size hinb).WholeWords (EltTy.packing .bf16))
instance k0_chk117.dec : ∀ (v550 : BitVec 32), Decidable (k0_chk117 v550) := fun v550 => decidable_of_iff' _ (Iff.of_eq (k0_chk117.eq_1 v550))
theorem k0_off468_inb : ∀ (v550 : BitVec 32) (k0_hw117 : k0_chk117 v550), ∀ a, (k0_off468 v550) a + S1x1x64.size a ≤ S1000000x1x64.size a := fun v550 k0_hw117 => k0_hw117.1
theorem k0_off468_wordsbf16 : ∀ (v550 : BitVec 32) (k0_hw117 : k0_chk117 v550), (Rect.unit (s := S1000000x1x64) (k0_off468 v550) S1x1x64.size (k0_off468_inb v550 k0_hw117)).WholeWords (EltTy.packing .bf16) := fun v550 k0_hw117 => k0_hw117.2 (k0_off468_inb v550 k0_hw117)

def k0_off469 (k0_t2 : Fin k0_t2_loop.trips) : Fin 3 → Nat :=
  let c0_396 : Index := 0#32
  let c0_397 : Index := 0#32
  let c0_i32_3 : BitVec 32 := 0#32
  let c1_i32_5 : BitVec 32 := 1#32
  let arg9 : BitVec 32 := Scf.iv c0_i32_3 c1_i32_5 k0_t2
  let c64_i32_395 : BitVec 32 := 64#32
  let v557 : BitVec 32 := Scalar.muli arg9 c64_i32_395
  let c53_i32 : BitVec 32 := 53#32
  let v558 : BitVec 32 := Scalar.addi v557 c53_i32
  let v559 : Index := Scalar.indexCast v558
  ![0, 0, v559.toNat]
def k0_off470 (k0_t2 : Fin k0_t2_loop.trips) : Fin 1 → Nat :=
  let c0_i32_3 : BitVec 32 := 0#32
  let c1_i32_5 : BitVec 32 := 1#32
  let arg9 : BitVec 32 := Scf.iv c0_i32_3 c1_i32_5 k0_t2
  let c64_i32_395 : BitVec 32 := 64#32
  let v557 : BitVec 32 := Scalar.muli arg9 c64_i32_395
  let c53_i32 : BitVec 32 := 53#32
  let v558 : BitVec 32 := Scalar.addi v557 c53_i32
  ![v558.toNat]
def k0_off471 (k0_t2 : Fin k0_t2_loop.trips) : Fin 3 → Nat :=
  let c0_i32_3 : BitVec 32 := 0#32
  let c1_i32_5 : BitVec 32 := 1#32
  let arg9 : BitVec 32 := Scf.iv c0_i32_3 c1_i32_5 k0_t2
  let c64_i32_395 : BitVec 32 := 64#32
  let v557 : BitVec 32 := Scalar.muli arg9 c64_i32_395
  let c53_i32 : BitVec 32 := 53#32
  let v558 : BitVec 32 := Scalar.addi v557 c53_i32
  let c0_i32_398 : BitVec 32 := 0#32
  let c0_i32_399 : BitVec 32 := 0#32
  ![v558.toNat, 0, 0]
def k0_off472 (v560 : BitVec 32) : Fin 3 → Nat :=
  let c0_i32_400 : BitVec 32 := 0#32
  let c0_i32_401 : BitVec 32 := 0#32
  ![v560.toNat, 0, 0]

def k0_chk118 (v560 : BitVec 32) : Prop :=
  (∀ a, (k0_off472 v560) a + S1x1x64.size a ≤ S1000000x1x64.size a) ∧
  (∀ (hinb : ∀ a, (k0_off472 v560) a + S1x1x64.size a ≤ S1000000x1x64.size a), (Rect.unit (s := S1000000x1x64) (k0_off472 v560) S1x1x64.size hinb).WholeWords (EltTy.packing .bf16))
instance k0_chk118.dec : ∀ (v560 : BitVec 32), Decidable (k0_chk118 v560) := fun v560 => decidable_of_iff' _ (Iff.of_eq (k0_chk118.eq_1 v560))
theorem k0_off472_inb : ∀ (v560 : BitVec 32) (k0_hw118 : k0_chk118 v560), ∀ a, (k0_off472 v560) a + S1x1x64.size a ≤ S1000000x1x64.size a := fun v560 k0_hw118 => k0_hw118.1
theorem k0_off472_wordsbf16 : ∀ (v560 : BitVec 32) (k0_hw118 : k0_chk118 v560), (Rect.unit (s := S1000000x1x64) (k0_off472 v560) S1x1x64.size (k0_off472_inb v560 k0_hw118)).WholeWords (EltTy.packing .bf16) := fun v560 k0_hw118 => k0_hw118.2 (k0_off472_inb v560 k0_hw118)

def k0_off473 (k0_t2 : Fin k0_t2_loop.trips) : Fin 3 → Nat :=
  let c0_403 : Index := 0#32
  let c0_404 : Index := 0#32
  let c0_i32_3 : BitVec 32 := 0#32
  let c1_i32_5 : BitVec 32 := 1#32
  let arg9 : BitVec 32 := Scf.iv c0_i32_3 c1_i32_5 k0_t2
  let c64_i32_402 : BitVec 32 := 64#32
  let v567 : BitVec 32 := Scalar.muli arg9 c64_i32_402
  let c54_i32 : BitVec 32 := 54#32
  let v568 : BitVec 32 := Scalar.addi v567 c54_i32
  let v569 : Index := Scalar.indexCast v568
  ![0, 0, v569.toNat]
def k0_off474 (k0_t2 : Fin k0_t2_loop.trips) : Fin 1 → Nat :=
  let c0_i32_3 : BitVec 32 := 0#32
  let c1_i32_5 : BitVec 32 := 1#32
  let arg9 : BitVec 32 := Scf.iv c0_i32_3 c1_i32_5 k0_t2
  let c64_i32_402 : BitVec 32 := 64#32
  let v567 : BitVec 32 := Scalar.muli arg9 c64_i32_402
  let c54_i32 : BitVec 32 := 54#32
  let v568 : BitVec 32 := Scalar.addi v567 c54_i32
  ![v568.toNat]
def k0_off475 (k0_t2 : Fin k0_t2_loop.trips) : Fin 3 → Nat :=
  let c0_i32_3 : BitVec 32 := 0#32
  let c1_i32_5 : BitVec 32 := 1#32
  let arg9 : BitVec 32 := Scf.iv c0_i32_3 c1_i32_5 k0_t2
  let c64_i32_402 : BitVec 32 := 64#32
  let v567 : BitVec 32 := Scalar.muli arg9 c64_i32_402
  let c54_i32 : BitVec 32 := 54#32
  let v568 : BitVec 32 := Scalar.addi v567 c54_i32
  let c0_i32_405 : BitVec 32 := 0#32
  let c0_i32_406 : BitVec 32 := 0#32
  ![v568.toNat, 0, 0]
def k0_off476 (v570 : BitVec 32) : Fin 3 → Nat :=
  let c0_i32_407 : BitVec 32 := 0#32
  let c0_i32_408 : BitVec 32 := 0#32
  ![v570.toNat, 0, 0]

def k0_chk119 (v570 : BitVec 32) : Prop :=
  (∀ a, (k0_off476 v570) a + S1x1x64.size a ≤ S1000000x1x64.size a) ∧
  (∀ (hinb : ∀ a, (k0_off476 v570) a + S1x1x64.size a ≤ S1000000x1x64.size a), (Rect.unit (s := S1000000x1x64) (k0_off476 v570) S1x1x64.size hinb).WholeWords (EltTy.packing .bf16))
instance k0_chk119.dec : ∀ (v570 : BitVec 32), Decidable (k0_chk119 v570) := fun v570 => decidable_of_iff' _ (Iff.of_eq (k0_chk119.eq_1 v570))
theorem k0_off476_inb : ∀ (v570 : BitVec 32) (k0_hw119 : k0_chk119 v570), ∀ a, (k0_off476 v570) a + S1x1x64.size a ≤ S1000000x1x64.size a := fun v570 k0_hw119 => k0_hw119.1
theorem k0_off476_wordsbf16 : ∀ (v570 : BitVec 32) (k0_hw119 : k0_chk119 v570), (Rect.unit (s := S1000000x1x64) (k0_off476 v570) S1x1x64.size (k0_off476_inb v570 k0_hw119)).WholeWords (EltTy.packing .bf16) := fun v570 k0_hw119 => k0_hw119.2 (k0_off476_inb v570 k0_hw119)

def k0_off477 (k0_t2 : Fin k0_t2_loop.trips) : Fin 3 → Nat :=
  let c0_410 : Index := 0#32
  let c0_411 : Index := 0#32
  let c0_i32_3 : BitVec 32 := 0#32
  let c1_i32_5 : BitVec 32 := 1#32
  let arg9 : BitVec 32 := Scf.iv c0_i32_3 c1_i32_5 k0_t2
  let c64_i32_409 : BitVec 32 := 64#32
  let v577 : BitVec 32 := Scalar.muli arg9 c64_i32_409
  let c55_i32 : BitVec 32 := 55#32
  let v578 : BitVec 32 := Scalar.addi v577 c55_i32
  let v579 : Index := Scalar.indexCast v578
  ![0, 0, v579.toNat]
def k0_off478 (k0_t2 : Fin k0_t2_loop.trips) : Fin 1 → Nat :=
  let c0_i32_3 : BitVec 32 := 0#32
  let c1_i32_5 : BitVec 32 := 1#32
  let arg9 : BitVec 32 := Scf.iv c0_i32_3 c1_i32_5 k0_t2
  let c64_i32_409 : BitVec 32 := 64#32
  let v577 : BitVec 32 := Scalar.muli arg9 c64_i32_409
  let c55_i32 : BitVec 32 := 55#32
  let v578 : BitVec 32 := Scalar.addi v577 c55_i32
  ![v578.toNat]
def k0_off479 (k0_t2 : Fin k0_t2_loop.trips) : Fin 3 → Nat :=
  let c0_i32_3 : BitVec 32 := 0#32
  let c1_i32_5 : BitVec 32 := 1#32
  let arg9 : BitVec 32 := Scf.iv c0_i32_3 c1_i32_5 k0_t2
  let c64_i32_409 : BitVec 32 := 64#32
  let v577 : BitVec 32 := Scalar.muli arg9 c64_i32_409
  let c55_i32 : BitVec 32 := 55#32
  let v578 : BitVec 32 := Scalar.addi v577 c55_i32
  let c0_i32_412 : BitVec 32 := 0#32
  let c0_i32_413 : BitVec 32 := 0#32
  ![v578.toNat, 0, 0]
def k0_off480 (v580 : BitVec 32) : Fin 3 → Nat :=
  let c0_i32_414 : BitVec 32 := 0#32
  let c0_i32_415 : BitVec 32 := 0#32
  ![v580.toNat, 0, 0]

def k0_chk120 (v580 : BitVec 32) : Prop :=
  (∀ a, (k0_off480 v580) a + S1x1x64.size a ≤ S1000000x1x64.size a) ∧
  (∀ (hinb : ∀ a, (k0_off480 v580) a + S1x1x64.size a ≤ S1000000x1x64.size a), (Rect.unit (s := S1000000x1x64) (k0_off480 v580) S1x1x64.size hinb).WholeWords (EltTy.packing .bf16))
instance k0_chk120.dec : ∀ (v580 : BitVec 32), Decidable (k0_chk120 v580) := fun v580 => decidable_of_iff' _ (Iff.of_eq (k0_chk120.eq_1 v580))
theorem k0_off480_inb : ∀ (v580 : BitVec 32) (k0_hw120 : k0_chk120 v580), ∀ a, (k0_off480 v580) a + S1x1x64.size a ≤ S1000000x1x64.size a := fun v580 k0_hw120 => k0_hw120.1
theorem k0_off480_wordsbf16 : ∀ (v580 : BitVec 32) (k0_hw120 : k0_chk120 v580), (Rect.unit (s := S1000000x1x64) (k0_off480 v580) S1x1x64.size (k0_off480_inb v580 k0_hw120)).WholeWords (EltTy.packing .bf16) := fun v580 k0_hw120 => k0_hw120.2 (k0_off480_inb v580 k0_hw120)

def k0_off481 (k0_t2 : Fin k0_t2_loop.trips) : Fin 3 → Nat :=
  let c0_417 : Index := 0#32
  let c0_418 : Index := 0#32
  let c0_i32_3 : BitVec 32 := 0#32
  let c1_i32_5 : BitVec 32 := 1#32
  let arg9 : BitVec 32 := Scf.iv c0_i32_3 c1_i32_5 k0_t2
  let c64_i32_416 : BitVec 32 := 64#32
  let v587 : BitVec 32 := Scalar.muli arg9 c64_i32_416
  let c56_i32 : BitVec 32 := 56#32
  let v588 : BitVec 32 := Scalar.addi v587 c56_i32
  let v589 : Index := Scalar.indexCast v588
  ![0, 0, v589.toNat]
def k0_off482 (k0_t2 : Fin k0_t2_loop.trips) : Fin 1 → Nat :=
  let c0_i32_3 : BitVec 32 := 0#32
  let c1_i32_5 : BitVec 32 := 1#32
  let arg9 : BitVec 32 := Scf.iv c0_i32_3 c1_i32_5 k0_t2
  let c64_i32_416 : BitVec 32 := 64#32
  let v587 : BitVec 32 := Scalar.muli arg9 c64_i32_416
  let c56_i32 : BitVec 32 := 56#32
  let v588 : BitVec 32 := Scalar.addi v587 c56_i32
  ![v588.toNat]
def k0_off483 (k0_t2 : Fin k0_t2_loop.trips) : Fin 3 → Nat :=
  let c0_i32_3 : BitVec 32 := 0#32
  let c1_i32_5 : BitVec 32 := 1#32
  let arg9 : BitVec 32 := Scf.iv c0_i32_3 c1_i32_5 k0_t2
  let c64_i32_416 : BitVec 32 := 64#32
  let v587 : BitVec 32 := Scalar.muli arg9 c64_i32_416
  let c56_i32 : BitVec 32 := 56#32
  let v588 : BitVec 32 := Scalar.addi v587 c56_i32
  let c0_i32_419 : BitVec 32 := 0#32
  let c0_i32_420 : BitVec 32 := 0#32
  ![v588.toNat, 0, 0]
def k0_off484 (v590 : BitVec 32) : Fin 3 → Nat :=
  let c0_i32_421 : BitVec 32 := 0#32
  let c0_i32_422 : BitVec 32 := 0#32
  ![v590.toNat, 0, 0]

def k0_chk121 (v590 : BitVec 32) : Prop :=
  (∀ a, (k0_off484 v590) a + S1x1x64.size a ≤ S1000000x1x64.size a) ∧
  (∀ (hinb : ∀ a, (k0_off484 v590) a + S1x1x64.size a ≤ S1000000x1x64.size a), (Rect.unit (s := S1000000x1x64) (k0_off484 v590) S1x1x64.size hinb).WholeWords (EltTy.packing .bf16))
instance k0_chk121.dec : ∀ (v590 : BitVec 32), Decidable (k0_chk121 v590) := fun v590 => decidable_of_iff' _ (Iff.of_eq (k0_chk121.eq_1 v590))
theorem k0_off484_inb : ∀ (v590 : BitVec 32) (k0_hw121 : k0_chk121 v590), ∀ a, (k0_off484 v590) a + S1x1x64.size a ≤ S1000000x1x64.size a := fun v590 k0_hw121 => k0_hw121.1
theorem k0_off484_wordsbf16 : ∀ (v590 : BitVec 32) (k0_hw121 : k0_chk121 v590), (Rect.unit (s := S1000000x1x64) (k0_off484 v590) S1x1x64.size (k0_off484_inb v590 k0_hw121)).WholeWords (EltTy.packing .bf16) := fun v590 k0_hw121 => k0_hw121.2 (k0_off484_inb v590 k0_hw121)

def k0_off485 (k0_t2 : Fin k0_t2_loop.trips) : Fin 3 → Nat :=
  let c0_424 : Index := 0#32
  let c0_425 : Index := 0#32
  let c0_i32_3 : BitVec 32 := 0#32
  let c1_i32_5 : BitVec 32 := 1#32
  let arg9 : BitVec 32 := Scf.iv c0_i32_3 c1_i32_5 k0_t2
  let c64_i32_423 : BitVec 32 := 64#32
  let v597 : BitVec 32 := Scalar.muli arg9 c64_i32_423
  let c57_i32 : BitVec 32 := 57#32
  let v598 : BitVec 32 := Scalar.addi v597 c57_i32
  let v599 : Index := Scalar.indexCast v598
  ![0, 0, v599.toNat]
def k0_off486 (k0_t2 : Fin k0_t2_loop.trips) : Fin 1 → Nat :=
  let c0_i32_3 : BitVec 32 := 0#32
  let c1_i32_5 : BitVec 32 := 1#32
  let arg9 : BitVec 32 := Scf.iv c0_i32_3 c1_i32_5 k0_t2
  let c64_i32_423 : BitVec 32 := 64#32
  let v597 : BitVec 32 := Scalar.muli arg9 c64_i32_423
  let c57_i32 : BitVec 32 := 57#32
  let v598 : BitVec 32 := Scalar.addi v597 c57_i32
  ![v598.toNat]
def k0_off487 (k0_t2 : Fin k0_t2_loop.trips) : Fin 3 → Nat :=
  let c0_i32_3 : BitVec 32 := 0#32
  let c1_i32_5 : BitVec 32 := 1#32
  let arg9 : BitVec 32 := Scf.iv c0_i32_3 c1_i32_5 k0_t2
  let c64_i32_423 : BitVec 32 := 64#32
  let v597 : BitVec 32 := Scalar.muli arg9 c64_i32_423
  let c57_i32 : BitVec 32 := 57#32
  let v598 : BitVec 32 := Scalar.addi v597 c57_i32
  let c0_i32_426 : BitVec 32 := 0#32
  let c0_i32_427 : BitVec 32 := 0#32
  ![v598.toNat, 0, 0]
def k0_off488 (v600 : BitVec 32) : Fin 3 → Nat :=
  let c0_i32_428 : BitVec 32 := 0#32
  let c0_i32_429 : BitVec 32 := 0#32
  ![v600.toNat, 0, 0]

def k0_chk122 (v600 : BitVec 32) : Prop :=
  (∀ a, (k0_off488 v600) a + S1x1x64.size a ≤ S1000000x1x64.size a) ∧
  (∀ (hinb : ∀ a, (k0_off488 v600) a + S1x1x64.size a ≤ S1000000x1x64.size a), (Rect.unit (s := S1000000x1x64) (k0_off488 v600) S1x1x64.size hinb).WholeWords (EltTy.packing .bf16))
instance k0_chk122.dec : ∀ (v600 : BitVec 32), Decidable (k0_chk122 v600) := fun v600 => decidable_of_iff' _ (Iff.of_eq (k0_chk122.eq_1 v600))
theorem k0_off488_inb : ∀ (v600 : BitVec 32) (k0_hw122 : k0_chk122 v600), ∀ a, (k0_off488 v600) a + S1x1x64.size a ≤ S1000000x1x64.size a := fun v600 k0_hw122 => k0_hw122.1
theorem k0_off488_wordsbf16 : ∀ (v600 : BitVec 32) (k0_hw122 : k0_chk122 v600), (Rect.unit (s := S1000000x1x64) (k0_off488 v600) S1x1x64.size (k0_off488_inb v600 k0_hw122)).WholeWords (EltTy.packing .bf16) := fun v600 k0_hw122 => k0_hw122.2 (k0_off488_inb v600 k0_hw122)

def k0_off489 (k0_t2 : Fin k0_t2_loop.trips) : Fin 3 → Nat :=
  let c0_431 : Index := 0#32
  let c0_432 : Index := 0#32
  let c0_i32_3 : BitVec 32 := 0#32
  let c1_i32_5 : BitVec 32 := 1#32
  let arg9 : BitVec 32 := Scf.iv c0_i32_3 c1_i32_5 k0_t2
  let c64_i32_430 : BitVec 32 := 64#32
  let v607 : BitVec 32 := Scalar.muli arg9 c64_i32_430
  let c58_i32 : BitVec 32 := 58#32
  let v608 : BitVec 32 := Scalar.addi v607 c58_i32
  let v609 : Index := Scalar.indexCast v608
  ![0, 0, v609.toNat]
def k0_off490 (k0_t2 : Fin k0_t2_loop.trips) : Fin 1 → Nat :=
  let c0_i32_3 : BitVec 32 := 0#32
  let c1_i32_5 : BitVec 32 := 1#32
  let arg9 : BitVec 32 := Scf.iv c0_i32_3 c1_i32_5 k0_t2
  let c64_i32_430 : BitVec 32 := 64#32
  let v607 : BitVec 32 := Scalar.muli arg9 c64_i32_430
  let c58_i32 : BitVec 32 := 58#32
  let v608 : BitVec 32 := Scalar.addi v607 c58_i32
  ![v608.toNat]
def k0_off491 (k0_t2 : Fin k0_t2_loop.trips) : Fin 3 → Nat :=
  let c0_i32_3 : BitVec 32 := 0#32
  let c1_i32_5 : BitVec 32 := 1#32
  let arg9 : BitVec 32 := Scf.iv c0_i32_3 c1_i32_5 k0_t2
  let c64_i32_430 : BitVec 32 := 64#32
  let v607 : BitVec 32 := Scalar.muli arg9 c64_i32_430
  let c58_i32 : BitVec 32 := 58#32
  let v608 : BitVec 32 := Scalar.addi v607 c58_i32
  let c0_i32_433 : BitVec 32 := 0#32
  let c0_i32_434 : BitVec 32 := 0#32
  ![v608.toNat, 0, 0]
def k0_off492 (v610 : BitVec 32) : Fin 3 → Nat :=
  let c0_i32_435 : BitVec 32 := 0#32
  let c0_i32_436 : BitVec 32 := 0#32
  ![v610.toNat, 0, 0]

def k0_chk123 (v610 : BitVec 32) : Prop :=
  (∀ a, (k0_off492 v610) a + S1x1x64.size a ≤ S1000000x1x64.size a) ∧
  (∀ (hinb : ∀ a, (k0_off492 v610) a + S1x1x64.size a ≤ S1000000x1x64.size a), (Rect.unit (s := S1000000x1x64) (k0_off492 v610) S1x1x64.size hinb).WholeWords (EltTy.packing .bf16))
instance k0_chk123.dec : ∀ (v610 : BitVec 32), Decidable (k0_chk123 v610) := fun v610 => decidable_of_iff' _ (Iff.of_eq (k0_chk123.eq_1 v610))
theorem k0_off492_inb : ∀ (v610 : BitVec 32) (k0_hw123 : k0_chk123 v610), ∀ a, (k0_off492 v610) a + S1x1x64.size a ≤ S1000000x1x64.size a := fun v610 k0_hw123 => k0_hw123.1
theorem k0_off492_wordsbf16 : ∀ (v610 : BitVec 32) (k0_hw123 : k0_chk123 v610), (Rect.unit (s := S1000000x1x64) (k0_off492 v610) S1x1x64.size (k0_off492_inb v610 k0_hw123)).WholeWords (EltTy.packing .bf16) := fun v610 k0_hw123 => k0_hw123.2 (k0_off492_inb v610 k0_hw123)

def k0_off493 (k0_t2 : Fin k0_t2_loop.trips) : Fin 3 → Nat :=
  let c0_438 : Index := 0#32
  let c0_439 : Index := 0#32
  let c0_i32_3 : BitVec 32 := 0#32
  let c1_i32_5 : BitVec 32 := 1#32
  let arg9 : BitVec 32 := Scf.iv c0_i32_3 c1_i32_5 k0_t2
  let c64_i32_437 : BitVec 32 := 64#32
  let v617 : BitVec 32 := Scalar.muli arg9 c64_i32_437
  let c59_i32 : BitVec 32 := 59#32
  let v618 : BitVec 32 := Scalar.addi v617 c59_i32
  let v619 : Index := Scalar.indexCast v618
  ![0, 0, v619.toNat]
def k0_off494 (k0_t2 : Fin k0_t2_loop.trips) : Fin 1 → Nat :=
  let c0_i32_3 : BitVec 32 := 0#32
  let c1_i32_5 : BitVec 32 := 1#32
  let arg9 : BitVec 32 := Scf.iv c0_i32_3 c1_i32_5 k0_t2
  let c64_i32_437 : BitVec 32 := 64#32
  let v617 : BitVec 32 := Scalar.muli arg9 c64_i32_437
  let c59_i32 : BitVec 32 := 59#32
  let v618 : BitVec 32 := Scalar.addi v617 c59_i32
  ![v618.toNat]
def k0_off495 (k0_t2 : Fin k0_t2_loop.trips) : Fin 3 → Nat :=
  let c0_i32_3 : BitVec 32 := 0#32
  let c1_i32_5 : BitVec 32 := 1#32
  let arg9 : BitVec 32 := Scf.iv c0_i32_3 c1_i32_5 k0_t2
  let c64_i32_437 : BitVec 32 := 64#32
  let v617 : BitVec 32 := Scalar.muli arg9 c64_i32_437
  let c59_i32 : BitVec 32 := 59#32
  let v618 : BitVec 32 := Scalar.addi v617 c59_i32
  let c0_i32_440 : BitVec 32 := 0#32
  let c0_i32_441 : BitVec 32 := 0#32
  ![v618.toNat, 0, 0]
def k0_off496 (v620 : BitVec 32) : Fin 3 → Nat :=
  let c0_i32_442 : BitVec 32 := 0#32
  let c0_i32_443 : BitVec 32 := 0#32
  ![v620.toNat, 0, 0]

def k0_chk124 (v620 : BitVec 32) : Prop :=
  (∀ a, (k0_off496 v620) a + S1x1x64.size a ≤ S1000000x1x64.size a) ∧
  (∀ (hinb : ∀ a, (k0_off496 v620) a + S1x1x64.size a ≤ S1000000x1x64.size a), (Rect.unit (s := S1000000x1x64) (k0_off496 v620) S1x1x64.size hinb).WholeWords (EltTy.packing .bf16))
instance k0_chk124.dec : ∀ (v620 : BitVec 32), Decidable (k0_chk124 v620) := fun v620 => decidable_of_iff' _ (Iff.of_eq (k0_chk124.eq_1 v620))
theorem k0_off496_inb : ∀ (v620 : BitVec 32) (k0_hw124 : k0_chk124 v620), ∀ a, (k0_off496 v620) a + S1x1x64.size a ≤ S1000000x1x64.size a := fun v620 k0_hw124 => k0_hw124.1
theorem k0_off496_wordsbf16 : ∀ (v620 : BitVec 32) (k0_hw124 : k0_chk124 v620), (Rect.unit (s := S1000000x1x64) (k0_off496 v620) S1x1x64.size (k0_off496_inb v620 k0_hw124)).WholeWords (EltTy.packing .bf16) := fun v620 k0_hw124 => k0_hw124.2 (k0_off496_inb v620 k0_hw124)

def k0_off497 (k0_t2 : Fin k0_t2_loop.trips) : Fin 3 → Nat :=
  let c0_445 : Index := 0#32
  let c0_446 : Index := 0#32
  let c0_i32_3 : BitVec 32 := 0#32
  let c1_i32_5 : BitVec 32 := 1#32
  let arg9 : BitVec 32 := Scf.iv c0_i32_3 c1_i32_5 k0_t2
  let c64_i32_444 : BitVec 32 := 64#32
  let v627 : BitVec 32 := Scalar.muli arg9 c64_i32_444
  let c60_i32 : BitVec 32 := 60#32
  let v628 : BitVec 32 := Scalar.addi v627 c60_i32
  let v629 : Index := Scalar.indexCast v628
  ![0, 0, v629.toNat]
def k0_off498 (k0_t2 : Fin k0_t2_loop.trips) : Fin 1 → Nat :=
  let c0_i32_3 : BitVec 32 := 0#32
  let c1_i32_5 : BitVec 32 := 1#32
  let arg9 : BitVec 32 := Scf.iv c0_i32_3 c1_i32_5 k0_t2
  let c64_i32_444 : BitVec 32 := 64#32
  let v627 : BitVec 32 := Scalar.muli arg9 c64_i32_444
  let c60_i32 : BitVec 32 := 60#32
  let v628 : BitVec 32 := Scalar.addi v627 c60_i32
  ![v628.toNat]
def k0_off499 (k0_t2 : Fin k0_t2_loop.trips) : Fin 3 → Nat :=
  let c0_i32_3 : BitVec 32 := 0#32
  let c1_i32_5 : BitVec 32 := 1#32
  let arg9 : BitVec 32 := Scf.iv c0_i32_3 c1_i32_5 k0_t2
  let c64_i32_444 : BitVec 32 := 64#32
  let v627 : BitVec 32 := Scalar.muli arg9 c64_i32_444
  let c60_i32 : BitVec 32 := 60#32
  let v628 : BitVec 32 := Scalar.addi v627 c60_i32
  let c0_i32_447 : BitVec 32 := 0#32
  let c0_i32_448 : BitVec 32 := 0#32
  ![v628.toNat, 0, 0]
def k0_off500 (v630 : BitVec 32) : Fin 3 → Nat :=
  let c0_i32_449 : BitVec 32 := 0#32
  let c0_i32_450 : BitVec 32 := 0#32
  ![v630.toNat, 0, 0]

def k0_chk125 (v630 : BitVec 32) : Prop :=
  (∀ a, (k0_off500 v630) a + S1x1x64.size a ≤ S1000000x1x64.size a) ∧
  (∀ (hinb : ∀ a, (k0_off500 v630) a + S1x1x64.size a ≤ S1000000x1x64.size a), (Rect.unit (s := S1000000x1x64) (k0_off500 v630) S1x1x64.size hinb).WholeWords (EltTy.packing .bf16))
instance k0_chk125.dec : ∀ (v630 : BitVec 32), Decidable (k0_chk125 v630) := fun v630 => decidable_of_iff' _ (Iff.of_eq (k0_chk125.eq_1 v630))
theorem k0_off500_inb : ∀ (v630 : BitVec 32) (k0_hw125 : k0_chk125 v630), ∀ a, (k0_off500 v630) a + S1x1x64.size a ≤ S1000000x1x64.size a := fun v630 k0_hw125 => k0_hw125.1
theorem k0_off500_wordsbf16 : ∀ (v630 : BitVec 32) (k0_hw125 : k0_chk125 v630), (Rect.unit (s := S1000000x1x64) (k0_off500 v630) S1x1x64.size (k0_off500_inb v630 k0_hw125)).WholeWords (EltTy.packing .bf16) := fun v630 k0_hw125 => k0_hw125.2 (k0_off500_inb v630 k0_hw125)

def k0_off501 (k0_t2 : Fin k0_t2_loop.trips) : Fin 3 → Nat :=
  let c0_452 : Index := 0#32
  let c0_453 : Index := 0#32
  let c0_i32_3 : BitVec 32 := 0#32
  let c1_i32_5 : BitVec 32 := 1#32
  let arg9 : BitVec 32 := Scf.iv c0_i32_3 c1_i32_5 k0_t2
  let c64_i32_451 : BitVec 32 := 64#32
  let v637 : BitVec 32 := Scalar.muli arg9 c64_i32_451
  let c61_i32 : BitVec 32 := 61#32
  let v638 : BitVec 32 := Scalar.addi v637 c61_i32
  let v639 : Index := Scalar.indexCast v638
  ![0, 0, v639.toNat]
def k0_off502 (k0_t2 : Fin k0_t2_loop.trips) : Fin 1 → Nat :=
  let c0_i32_3 : BitVec 32 := 0#32
  let c1_i32_5 : BitVec 32 := 1#32
  let arg9 : BitVec 32 := Scf.iv c0_i32_3 c1_i32_5 k0_t2
  let c64_i32_451 : BitVec 32 := 64#32
  let v637 : BitVec 32 := Scalar.muli arg9 c64_i32_451
  let c61_i32 : BitVec 32 := 61#32
  let v638 : BitVec 32 := Scalar.addi v637 c61_i32
  ![v638.toNat]
def k0_off503 (k0_t2 : Fin k0_t2_loop.trips) : Fin 3 → Nat :=
  let c0_i32_3 : BitVec 32 := 0#32
  let c1_i32_5 : BitVec 32 := 1#32
  let arg9 : BitVec 32 := Scf.iv c0_i32_3 c1_i32_5 k0_t2
  let c64_i32_451 : BitVec 32 := 64#32
  let v637 : BitVec 32 := Scalar.muli arg9 c64_i32_451
  let c61_i32 : BitVec 32 := 61#32
  let v638 : BitVec 32 := Scalar.addi v637 c61_i32
  let c0_i32_454 : BitVec 32 := 0#32
  let c0_i32_455 : BitVec 32 := 0#32
  ![v638.toNat, 0, 0]
def k0_off504 (v640 : BitVec 32) : Fin 3 → Nat :=
  let c0_i32_456 : BitVec 32 := 0#32
  let c0_i32_457 : BitVec 32 := 0#32
  ![v640.toNat, 0, 0]

def k0_chk126 (v640 : BitVec 32) : Prop :=
  (∀ a, (k0_off504 v640) a + S1x1x64.size a ≤ S1000000x1x64.size a) ∧
  (∀ (hinb : ∀ a, (k0_off504 v640) a + S1x1x64.size a ≤ S1000000x1x64.size a), (Rect.unit (s := S1000000x1x64) (k0_off504 v640) S1x1x64.size hinb).WholeWords (EltTy.packing .bf16))
instance k0_chk126.dec : ∀ (v640 : BitVec 32), Decidable (k0_chk126 v640) := fun v640 => decidable_of_iff' _ (Iff.of_eq (k0_chk126.eq_1 v640))
theorem k0_off504_inb : ∀ (v640 : BitVec 32) (k0_hw126 : k0_chk126 v640), ∀ a, (k0_off504 v640) a + S1x1x64.size a ≤ S1000000x1x64.size a := fun v640 k0_hw126 => k0_hw126.1
theorem k0_off504_wordsbf16 : ∀ (v640 : BitVec 32) (k0_hw126 : k0_chk126 v640), (Rect.unit (s := S1000000x1x64) (k0_off504 v640) S1x1x64.size (k0_off504_inb v640 k0_hw126)).WholeWords (EltTy.packing .bf16) := fun v640 k0_hw126 => k0_hw126.2 (k0_off504_inb v640 k0_hw126)

def k0_off505 (k0_t2 : Fin k0_t2_loop.trips) : Fin 3 → Nat :=
  let c0_459 : Index := 0#32
  let c0_460 : Index := 0#32
  let c0_i32_3 : BitVec 32 := 0#32
  let c1_i32_5 : BitVec 32 := 1#32
  let arg9 : BitVec 32 := Scf.iv c0_i32_3 c1_i32_5 k0_t2
  let c64_i32_458 : BitVec 32 := 64#32
  let v647 : BitVec 32 := Scalar.muli arg9 c64_i32_458
  let c62_i32 : BitVec 32 := 62#32
  let v648 : BitVec 32 := Scalar.addi v647 c62_i32
  let v649 : Index := Scalar.indexCast v648
  ![0, 0, v649.toNat]
def k0_off506 (k0_t2 : Fin k0_t2_loop.trips) : Fin 1 → Nat :=
  let c0_i32_3 : BitVec 32 := 0#32
  let c1_i32_5 : BitVec 32 := 1#32
  let arg9 : BitVec 32 := Scf.iv c0_i32_3 c1_i32_5 k0_t2
  let c64_i32_458 : BitVec 32 := 64#32
  let v647 : BitVec 32 := Scalar.muli arg9 c64_i32_458
  let c62_i32 : BitVec 32 := 62#32
  let v648 : BitVec 32 := Scalar.addi v647 c62_i32
  ![v648.toNat]
def k0_off507 (k0_t2 : Fin k0_t2_loop.trips) : Fin 3 → Nat :=
  let c0_i32_3 : BitVec 32 := 0#32
  let c1_i32_5 : BitVec 32 := 1#32
  let arg9 : BitVec 32 := Scf.iv c0_i32_3 c1_i32_5 k0_t2
  let c64_i32_458 : BitVec 32 := 64#32
  let v647 : BitVec 32 := Scalar.muli arg9 c64_i32_458
  let c62_i32 : BitVec 32 := 62#32
  let v648 : BitVec 32 := Scalar.addi v647 c62_i32
  let c0_i32_461 : BitVec 32 := 0#32
  let c0_i32_462 : BitVec 32 := 0#32
  ![v648.toNat, 0, 0]
def k0_off508 (v650 : BitVec 32) : Fin 3 → Nat :=
  let c0_i32_463 : BitVec 32 := 0#32
  let c0_i32_464 : BitVec 32 := 0#32
  ![v650.toNat, 0, 0]

def k0_chk127 (v650 : BitVec 32) : Prop :=
  (∀ a, (k0_off508 v650) a + S1x1x64.size a ≤ S1000000x1x64.size a) ∧
  (∀ (hinb : ∀ a, (k0_off508 v650) a + S1x1x64.size a ≤ S1000000x1x64.size a), (Rect.unit (s := S1000000x1x64) (k0_off508 v650) S1x1x64.size hinb).WholeWords (EltTy.packing .bf16))
instance k0_chk127.dec : ∀ (v650 : BitVec 32), Decidable (k0_chk127 v650) := fun v650 => decidable_of_iff' _ (Iff.of_eq (k0_chk127.eq_1 v650))
theorem k0_off508_inb : ∀ (v650 : BitVec 32) (k0_hw127 : k0_chk127 v650), ∀ a, (k0_off508 v650) a + S1x1x64.size a ≤ S1000000x1x64.size a := fun v650 k0_hw127 => k0_hw127.1
theorem k0_off508_wordsbf16 : ∀ (v650 : BitVec 32) (k0_hw127 : k0_chk127 v650), (Rect.unit (s := S1000000x1x64) (k0_off508 v650) S1x1x64.size (k0_off508_inb v650 k0_hw127)).WholeWords (EltTy.packing .bf16) := fun v650 k0_hw127 => k0_hw127.2 (k0_off508_inb v650 k0_hw127)

def k0_off509 (k0_t2 : Fin k0_t2_loop.trips) : Fin 3 → Nat :=
  let c0_466 : Index := 0#32
  let c0_467 : Index := 0#32
  let c0_i32_3 : BitVec 32 := 0#32
  let c1_i32_5 : BitVec 32 := 1#32
  let arg9 : BitVec 32 := Scf.iv c0_i32_3 c1_i32_5 k0_t2
  let c64_i32_465 : BitVec 32 := 64#32
  let v657 : BitVec 32 := Scalar.muli arg9 c64_i32_465
  let c63_i32 : BitVec 32 := 63#32
  let v658 : BitVec 32 := Scalar.addi v657 c63_i32
  let v659 : Index := Scalar.indexCast v658
  ![0, 0, v659.toNat]
def k0_off510 (k0_t2 : Fin k0_t2_loop.trips) : Fin 1 → Nat :=
  let c0_i32_3 : BitVec 32 := 0#32
  let c1_i32_5 : BitVec 32 := 1#32
  let arg9 : BitVec 32 := Scf.iv c0_i32_3 c1_i32_5 k0_t2
  let c64_i32_465 : BitVec 32 := 64#32
  let v657 : BitVec 32 := Scalar.muli arg9 c64_i32_465
  let c63_i32 : BitVec 32 := 63#32
  let v658 : BitVec 32 := Scalar.addi v657 c63_i32
  ![v658.toNat]
def k0_off511 (k0_t2 : Fin k0_t2_loop.trips) : Fin 3 → Nat :=
  let c0_i32_3 : BitVec 32 := 0#32
  let c1_i32_5 : BitVec 32 := 1#32
  let arg9 : BitVec 32 := Scf.iv c0_i32_3 c1_i32_5 k0_t2
  let c64_i32_465 : BitVec 32 := 64#32
  let v657 : BitVec 32 := Scalar.muli arg9 c64_i32_465
  let c63_i32 : BitVec 32 := 63#32
  let v658 : BitVec 32 := Scalar.addi v657 c63_i32
  let c0_i32_468 : BitVec 32 := 0#32
  let c0_i32_469 : BitVec 32 := 0#32
  ![v658.toNat, 0, 0]
def k0_off512 (v660 : BitVec 32) : Fin 3 → Nat :=
  let c0_i32_470 : BitVec 32 := 0#32
  let c0_i32_471 : BitVec 32 := 0#32
  ![v660.toNat, 0, 0]

def k0_chk128 (v660 : BitVec 32) : Prop :=
  (∀ a, (k0_off512 v660) a + S1x1x64.size a ≤ S1000000x1x64.size a) ∧
  (∀ (hinb : ∀ a, (k0_off512 v660) a + S1x1x64.size a ≤ S1000000x1x64.size a), (Rect.unit (s := S1000000x1x64) (k0_off512 v660) S1x1x64.size hinb).WholeWords (EltTy.packing .bf16))
instance k0_chk128.dec : ∀ (v660 : BitVec 32), Decidable (k0_chk128 v660) := fun v660 => decidable_of_iff' _ (Iff.of_eq (k0_chk128.eq_1 v660))
theorem k0_off512_inb : ∀ (v660 : BitVec 32) (k0_hw128 : k0_chk128 v660), ∀ a, (k0_off512 v660) a + S1x1x64.size a ≤ S1000000x1x64.size a := fun v660 k0_hw128 => k0_hw128.1
theorem k0_off512_wordsbf16 : ∀ (v660 : BitVec 32) (k0_hw128 : k0_chk128 v660), (Rect.unit (s := S1000000x1x64) (k0_off512 v660) S1x1x64.size (k0_off512_inb v660 k0_hw128)).WholeWords (EltTy.packing .bf16) := fun v660 k0_hw128 => k0_hw128.2 (k0_off512_inb v660 k0_hw128)

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .smem S1x1x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S409600 : S_.BroadcastsInDim S409600 (![] : Fin 0 → Fin S409600.rank)
  shapeCasts_S409600_S2x1x204800 : S409600.ShapeCasts S2x1x204800
  bitsLt_bf16_f32 : FTy.bits .bf16 < FTy.bits .f32
  shapeCasts_S1000000x64_S1000000x1x64 : S1000000x64.ShapeCasts S1000000x1x64
  inb_S1x4096x64_S1x4096x64_0_0_0 : ∀ a, (![0, 0, 0] : Fin 3 → Nat) a + S1x4096x64.size a ≤ S1x4096x64.size a
  h_S1x4096x64 : 0 < S1x4096x64.numel
  numel1_S1x1x1 : S1x1x1.numel = 1
  squeezes_S1_S_ : S1.Squeezes S_
  squeezes_S1x1x64_S1x64 : S1x1x64.Squeezes S1x64
  inb_S256x1x64_S256x1x64_0_0_0 : ∀ a, (![0, 0, 0] : Fin 3 → Nat) a + S256x1x64.size a ≤ S256x1x64.size a
  h_S256x1x64 : 0 < S256x1x64.numel
  shapeCasts_S256x1x64_S256x64 : S256x1x64.ShapeCasts S256x64
  inb_S1x1x256_S1x1x256_0_0_0 : ∀ a, (![0, 0, 0] : Fin 3 → Nat) a + S1x1x256.size a ≤ S1x1x256.size a
  h_S1x1x256 : 0 < S1x1x256.numel
  shapeCasts_S1x1x256_S1x1x256 : S1x1x256.ShapeCasts S1x1x256
  shapeCasts_S1x1x256_S1x256 : S1x1x256.ShapeCasts S1x256
  iota_S4096x256_d0_w32 : S4096x256.Iotas .tc 32 [0]
  broadcasts_S1x256_S4096x256 : S1x256.Broadcasts S4096x256
  shapeCasts_S1x256_S1x256 : S1x256.ShapeCasts S1x256
  shapeCasts_S1x4096x64_S1x4096x64 : S1x4096x64.ShapeCasts S1x4096x64
  shapeCasts_S4096x64_S1x4096x64 : S4096x64.ShapeCasts S1x4096x64
  reducesTo_S2x4096x64_S4096x64_d0 : S2x4096x64.ReducesTo [0] S4096x64
  h_S_ : 0 < S_.numel
  dot_S4096x256_S256x64_S4096x64_1_0_0_1_n_n_wf : DotDims.WF S4096x256 S256x64 S4096x64 [1] [0] [0] [1] [] []
  hcc0_scratch1 : 8 + S256.numel ≤ 264
  hrank0 : 0 < grid0.rank
  k0_t1_ok : k0_t1_loop.OK
  k0_off1_inb : ∀ k0_t1 : Fin k0_t1_loop.trips, ∀ a, (k0_off1 k0_t1) a + S1x1x1.size a ≤ S1x1x256.size a
  k0_off2_inb : ∀ k0_t1 : Fin k0_t1_loop.trips, ∀ a, (k0_off2 k0_t1) a + S1.size a ≤ S256.size a
  k0_off3_inb : ∀ k0_t1 : Fin k0_t1_loop.trips, ∀ a, (k0_off3 k0_t1) a + S1x1x64.size a ≤ S256x1x64.size a
  k0_off3_wordsbf16 : ∀ k0_t1 : Fin k0_t1_loop.trips, (Rect.unit (s := S256x1x64) (k0_off3 k0_t1) S1x1x64.size (k0_off3_inb k0_t1)).WholeWords (EltTy.packing .bf16)
  k0_off5_inb : ∀ k0_t1 : Fin k0_t1_loop.trips, ∀ a, (k0_off5 k0_t1) a + S1x1x1.size a ≤ S1x1x256.size a
  k0_off6_inb : ∀ k0_t1 : Fin k0_t1_loop.trips, ∀ a, (k0_off6 k0_t1) a + S1.size a ≤ S256.size a
  k0_off7_inb : ∀ k0_t1 : Fin k0_t1_loop.trips, ∀ a, (k0_off7 k0_t1) a + S1x1x64.size a ≤ S256x1x64.size a
  k0_off7_wordsbf16 : ∀ k0_t1 : Fin k0_t1_loop.trips, (Rect.unit (s := S256x1x64) (k0_off7 k0_t1) S1x1x64.size (k0_off7_inb k0_t1)).WholeWords (EltTy.packing .bf16)
  k0_off9_inb : ∀ k0_t1 : Fin k0_t1_loop.trips, ∀ a, (k0_off9 k0_t1) a + S1x1x1.size a ≤ S1x1x256.size a
  k0_off10_inb : ∀ k0_t1 : Fin k0_t1_loop.trips, ∀ a, (k0_off10 k0_t1) a + S1.size a ≤ S256.size a
  k0_off11_inb : ∀ k0_t1 : Fin k0_t1_loop.trips, ∀ a, (k0_off11 k0_t1) a + S1x1x64.size a ≤ S256x1x64.size a
  k0_off11_wordsbf16 : ∀ k0_t1 : Fin k0_t1_loop.trips, (Rect.unit (s := S256x1x64) (k0_off11 k0_t1) S1x1x64.size (k0_off11_inb k0_t1)).WholeWords (EltTy.packing .bf16)
  k0_off13_inb : ∀ k0_t1 : Fin k0_t1_loop.trips, ∀ a, (k0_off13 k0_t1) a + S1x1x1.size a ≤ S1x1x256.size a
  k0_off14_inb : ∀ k0_t1 : Fin k0_t1_loop.trips, ∀ a, (k0_off14 k0_t1) a + S1.size a ≤ S256.size a
  k0_off15_inb : ∀ k0_t1 : Fin k0_t1_loop.trips, ∀ a, (k0_off15 k0_t1) a + S1x1x64.size a ≤ S256x1x64.size a
  k0_off15_wordsbf16 : ∀ k0_t1 : Fin k0_t1_loop.trips, (Rect.unit (s := S256x1x64) (k0_off15 k0_t1) S1x1x64.size (k0_off15_inb k0_t1)).WholeWords (EltTy.packing .bf16)
  k0_off17_inb : ∀ k0_t1 : Fin k0_t1_loop.trips, ∀ a, (k0_off17 k0_t1) a + S1x1x1.size a ≤ S1x1x256.size a
  k0_off18_inb : ∀ k0_t1 : Fin k0_t1_loop.trips, ∀ a, (k0_off18 k0_t1) a + S1.size a ≤ S256.size a
  k0_off19_inb : ∀ k0_t1 : Fin k0_t1_loop.trips, ∀ a, (k0_off19 k0_t1) a + S1x1x64.size a ≤ S256x1x64.size a
  k0_off19_wordsbf16 : ∀ k0_t1 : Fin k0_t1_loop.trips, (Rect.unit (s := S256x1x64) (k0_off19 k0_t1) S1x1x64.size (k0_off19_inb k0_t1)).WholeWords (EltTy.packing .bf16)
  k0_off21_inb : ∀ k0_t1 : Fin k0_t1_loop.trips, ∀ a, (k0_off21 k0_t1) a + S1x1x1.size a ≤ S1x1x256.size a
  k0_off22_inb : ∀ k0_t1 : Fin k0_t1_loop.trips, ∀ a, (k0_off22 k0_t1) a + S1.size a ≤ S256.size a
  k0_off23_inb : ∀ k0_t1 : Fin k0_t1_loop.trips, ∀ a, (k0_off23 k0_t1) a + S1x1x64.size a ≤ S256x1x64.size a
  k0_off23_wordsbf16 : ∀ k0_t1 : Fin k0_t1_loop.trips, (Rect.unit (s := S256x1x64) (k0_off23 k0_t1) S1x1x64.size (k0_off23_inb k0_t1)).WholeWords (EltTy.packing .bf16)
  k0_off25_inb : ∀ k0_t1 : Fin k0_t1_loop.trips, ∀ a, (k0_off25 k0_t1) a + S1x1x1.size a ≤ S1x1x256.size a
  k0_off26_inb : ∀ k0_t1 : Fin k0_t1_loop.trips, ∀ a, (k0_off26 k0_t1) a + S1.size a ≤ S256.size a
  k0_off27_inb : ∀ k0_t1 : Fin k0_t1_loop.trips, ∀ a, (k0_off27 k0_t1) a + S1x1x64.size a ≤ S256x1x64.size a
  k0_off27_wordsbf16 : ∀ k0_t1 : Fin k0_t1_loop.trips, (Rect.unit (s := S256x1x64) (k0_off27 k0_t1) S1x1x64.size (k0_off27_inb k0_t1)).WholeWords (EltTy.packing .bf16)
  k0_off29_inb : ∀ k0_t1 : Fin k0_t1_loop.trips, ∀ a, (k0_off29 k0_t1) a + S1x1x1.size a ≤ S1x1x256.size a
  k0_off30_inb : ∀ k0_t1 : Fin k0_t1_loop.trips, ∀ a, (k0_off30 k0_t1) a + S1.size a ≤ S256.size a
  k0_off31_inb : ∀ k0_t1 : Fin k0_t1_loop.trips, ∀ a, (k0_off31 k0_t1) a + S1x1x64.size a ≤ S256x1x64.size a
  k0_off31_wordsbf16 : ∀ k0_t1 : Fin k0_t1_loop.trips, (Rect.unit (s := S256x1x64) (k0_off31 k0_t1) S1x1x64.size (k0_off31_inb k0_t1)).WholeWords (EltTy.packing .bf16)
  k0_off33_inb : ∀ k0_t1 : Fin k0_t1_loop.trips, ∀ a, (k0_off33 k0_t1) a + S1x1x1.size a ≤ S1x1x256.size a
  k0_off34_inb : ∀ k0_t1 : Fin k0_t1_loop.trips, ∀ a, (k0_off34 k0_t1) a + S1.size a ≤ S256.size a
  k0_off35_inb : ∀ k0_t1 : Fin k0_t1_loop.trips, ∀ a, (k0_off35 k0_t1) a + S1x1x64.size a ≤ S256x1x64.size a
  k0_off35_wordsbf16 : ∀ k0_t1 : Fin k0_t1_loop.trips, (Rect.unit (s := S256x1x64) (k0_off35 k0_t1) S1x1x64.size (k0_off35_inb k0_t1)).WholeWords (EltTy.packing .bf16)
  k0_off37_inb : ∀ k0_t1 : Fin k0_t1_loop.trips, ∀ a, (k0_off37 k0_t1) a + S1x1x1.size a ≤ S1x1x256.size a
  k0_off38_inb : ∀ k0_t1 : Fin k0_t1_loop.trips, ∀ a, (k0_off38 k0_t1) a + S1.size a ≤ S256.size a
  k0_off39_inb : ∀ k0_t1 : Fin k0_t1_loop.trips, ∀ a, (k0_off39 k0_t1) a + S1x1x64.size a ≤ S256x1x64.size a
  k0_off39_wordsbf16 : ∀ k0_t1 : Fin k0_t1_loop.trips, (Rect.unit (s := S256x1x64) (k0_off39 k0_t1) S1x1x64.size (k0_off39_inb k0_t1)).WholeWords (EltTy.packing .bf16)
  k0_off41_inb : ∀ k0_t1 : Fin k0_t1_loop.trips, ∀ a, (k0_off41 k0_t1) a + S1x1x1.size a ≤ S1x1x256.size a
  k0_off42_inb : ∀ k0_t1 : Fin k0_t1_loop.trips, ∀ a, (k0_off42 k0_t1) a + S1.size a ≤ S256.size a
  k0_off43_inb : ∀ k0_t1 : Fin k0_t1_loop.trips, ∀ a, (k0_off43 k0_t1) a + S1x1x64.size a ≤ S256x1x64.size a
  k0_off43_wordsbf16 : ∀ k0_t1 : Fin k0_t1_loop.trips, (Rect.unit (s := S256x1x64) (k0_off43 k0_t1) S1x1x64.size (k0_off43_inb k0_t1)).WholeWords (EltTy.packing .bf16)
  k0_off45_inb : ∀ k0_t1 : Fin k0_t1_loop.trips, ∀ a, (k0_off45 k0_t1) a + S1x1x1.size a ≤ S1x1x256.size a
  k0_off46_inb : ∀ k0_t1 : Fin k0_t1_loop.trips, ∀ a, (k0_off46 k0_t1) a + S1.size a ≤ S256.size a
  k0_off47_inb : ∀ k0_t1 : Fin k0_t1_loop.trips, ∀ a, (k0_off47 k0_t1) a + S1x1x64.size a ≤ S256x1x64.size a
  k0_off47_wordsbf16 : ∀ k0_t1 : Fin k0_t1_loop.trips, (Rect.unit (s := S256x1x64) (k0_off47 k0_t1) S1x1x64.size (k0_off47_inb k0_t1)).WholeWords (EltTy.packing .bf16)
  k0_off49_inb : ∀ k0_t1 : Fin k0_t1_loop.trips, ∀ a, (k0_off49 k0_t1) a + S1x1x1.size a ≤ S1x1x256.size a
  k0_off50_inb : ∀ k0_t1 : Fin k0_t1_loop.trips, ∀ a, (k0_off50 k0_t1) a + S1.size a ≤ S256.size a
  k0_off51_inb : ∀ k0_t1 : Fin k0_t1_loop.trips, ∀ a, (k0_off51 k0_t1) a + S1x1x64.size a ≤ S256x1x64.size a
  k0_off51_wordsbf16 : ∀ k0_t1 : Fin k0_t1_loop.trips, (Rect.unit (s := S256x1x64) (k0_off51 k0_t1) S1x1x64.size (k0_off51_inb k0_t1)).WholeWords (EltTy.packing .bf16)
  k0_off53_inb : ∀ k0_t1 : Fin k0_t1_loop.trips, ∀ a, (k0_off53 k0_t1) a + S1x1x1.size a ≤ S1x1x256.size a
  k0_off54_inb : ∀ k0_t1 : Fin k0_t1_loop.trips, ∀ a, (k0_off54 k0_t1) a + S1.size a ≤ S256.size a
  k0_off55_inb : ∀ k0_t1 : Fin k0_t1_loop.trips, ∀ a, (k0_off55 k0_t1) a + S1x1x64.size a ≤ S256x1x64.size a
  k0_off55_wordsbf16 : ∀ k0_t1 : Fin k0_t1_loop.trips, (Rect.unit (s := S256x1x64) (k0_off55 k0_t1) S1x1x64.size (k0_off55_inb k0_t1)).WholeWords (EltTy.packing .bf16)
  k0_off57_inb : ∀ k0_t1 : Fin k0_t1_loop.trips, ∀ a, (k0_off57 k0_t1) a + S1x1x1.size a ≤ S1x1x256.size a
  k0_off58_inb : ∀ k0_t1 : Fin k0_t1_loop.trips, ∀ a, (k0_off58 k0_t1) a + S1.size a ≤ S256.size a
  k0_off59_inb : ∀ k0_t1 : Fin k0_t1_loop.trips, ∀ a, (k0_off59 k0_t1) a + S1x1x64.size a ≤ S256x1x64.size a
  k0_off59_wordsbf16 : ∀ k0_t1 : Fin k0_t1_loop.trips, (Rect.unit (s := S256x1x64) (k0_off59 k0_t1) S1x1x64.size (k0_off59_inb k0_t1)).WholeWords (EltTy.packing .bf16)
  k0_off61_inb : ∀ k0_t1 : Fin k0_t1_loop.trips, ∀ a, (k0_off61 k0_t1) a + S1x1x1.size a ≤ S1x1x256.size a
  k0_off62_inb : ∀ k0_t1 : Fin k0_t1_loop.trips, ∀ a, (k0_off62 k0_t1) a + S1.size a ≤ S256.size a
  k0_off63_inb : ∀ k0_t1 : Fin k0_t1_loop.trips, ∀ a, (k0_off63 k0_t1) a + S1x1x64.size a ≤ S256x1x64.size a
  k0_off63_wordsbf16 : ∀ k0_t1 : Fin k0_t1_loop.trips, (Rect.unit (s := S256x1x64) (k0_off63 k0_t1) S1x1x64.size (k0_off63_inb k0_t1)).WholeWords (EltTy.packing .bf16)
  k0_off65_inb : ∀ k0_t1 : Fin k0_t1_loop.trips, ∀ a, (k0_off65 k0_t1) a + S1x1x1.size a ≤ S1x1x256.size a
  k0_off66_inb : ∀ k0_t1 : Fin k0_t1_loop.trips, ∀ a, (k0_off66 k0_t1) a + S1.size a ≤ S256.size a
  k0_off67_inb : ∀ k0_t1 : Fin k0_t1_loop.trips, ∀ a, (k0_off67 k0_t1) a + S1x1x64.size a ≤ S256x1x64.size a
  k0_off67_wordsbf16 : ∀ k0_t1 : Fin k0_t1_loop.trips, (Rect.unit (s := S256x1x64) (k0_off67 k0_t1) S1x1x64.size (k0_off67_inb k0_t1)).WholeWords (EltTy.packing .bf16)
  k0_off69_inb : ∀ k0_t1 : Fin k0_t1_loop.trips, ∀ a, (k0_off69 k0_t1) a + S1x1x1.size a ≤ S1x1x256.size a
  k0_off70_inb : ∀ k0_t1 : Fin k0_t1_loop.trips, ∀ a, (k0_off70 k0_t1) a + S1.size a ≤ S256.size a
  k0_off71_inb : ∀ k0_t1 : Fin k0_t1_loop.trips, ∀ a, (k0_off71 k0_t1) a + S1x1x64.size a ≤ S256x1x64.size a
  k0_off71_wordsbf16 : ∀ k0_t1 : Fin k0_t1_loop.trips, (Rect.unit (s := S256x1x64) (k0_off71 k0_t1) S1x1x64.size (k0_off71_inb k0_t1)).WholeWords (EltTy.packing .bf16)
  k0_off73_inb : ∀ k0_t1 : Fin k0_t1_loop.trips, ∀ a, (k0_off73 k0_t1) a + S1x1x1.size a ≤ S1x1x256.size a
  k0_off74_inb : ∀ k0_t1 : Fin k0_t1_loop.trips, ∀ a, (k0_off74 k0_t1) a + S1.size a ≤ S256.size a
  k0_off75_inb : ∀ k0_t1 : Fin k0_t1_loop.trips, ∀ a, (k0_off75 k0_t1) a + S1x1x64.size a ≤ S256x1x64.size a
  k0_off75_wordsbf16 : ∀ k0_t1 : Fin k0_t1_loop.trips, (Rect.unit (s := S256x1x64) (k0_off75 k0_t1) S1x1x64.size (k0_off75_inb k0_t1)).WholeWords (EltTy.packing .bf16)
  k0_off77_inb : ∀ k0_t1 : Fin k0_t1_loop.trips, ∀ a, (k0_off77 k0_t1) a + S1x1x1.size a ≤ S1x1x256.size a
  k0_off78_inb : ∀ k0_t1 : Fin k0_t1_loop.trips, ∀ a, (k0_off78 k0_t1) a + S1.size a ≤ S256.size a
  k0_off79_inb : ∀ k0_t1 : Fin k0_t1_loop.trips, ∀ a, (k0_off79 k0_t1) a + S1x1x64.size a ≤ S256x1x64.size a
  k0_off79_wordsbf16 : ∀ k0_t1 : Fin k0_t1_loop.trips, (Rect.unit (s := S256x1x64) (k0_off79 k0_t1) S1x1x64.size (k0_off79_inb k0_t1)).WholeWords (EltTy.packing .bf16)
  k0_off81_inb : ∀ k0_t1 : Fin k0_t1_loop.trips, ∀ a, (k0_off81 k0_t1) a + S1x1x1.size a ≤ S1x1x256.size a
  k0_off82_inb : ∀ k0_t1 : Fin k0_t1_loop.trips, ∀ a, (k0_off82 k0_t1) a + S1.size a ≤ S256.size a
  k0_off83_inb : ∀ k0_t1 : Fin k0_t1_loop.trips, ∀ a, (k0_off83 k0_t1) a + S1x1x64.size a ≤ S256x1x64.size a
  k0_off83_wordsbf16 : ∀ k0_t1 : Fin k0_t1_loop.trips, (Rect.unit (s := S256x1x64) (k0_off83 k0_t1) S1x1x64.size (k0_off83_inb k0_t1)).WholeWords (EltTy.packing .bf16)
  k0_off85_inb : ∀ k0_t1 : Fin k0_t1_loop.trips, ∀ a, (k0_off85 k0_t1) a + S1x1x1.size a ≤ S1x1x256.size a
  k0_off86_inb : ∀ k0_t1 : Fin k0_t1_loop.trips, ∀ a, (k0_off86 k0_t1) a + S1.size a ≤ S256.size a
  k0_off87_inb : ∀ k0_t1 : Fin k0_t1_loop.trips, ∀ a, (k0_off87 k0_t1) a + S1x1x64.size a ≤ S256x1x64.size a
  k0_off87_wordsbf16 : ∀ k0_t1 : Fin k0_t1_loop.trips, (Rect.unit (s := S256x1x64) (k0_off87 k0_t1) S1x1x64.size (k0_off87_inb k0_t1)).WholeWords (EltTy.packing .bf16)
  k0_off89_inb : ∀ k0_t1 : Fin k0_t1_loop.trips, ∀ a, (k0_off89 k0_t1) a + S1x1x1.size a ≤ S1x1x256.size a
  k0_off90_inb : ∀ k0_t1 : Fin k0_t1_loop.trips, ∀ a, (k0_off90 k0_t1) a + S1.size a ≤ S256.size a
  k0_off91_inb : ∀ k0_t1 : Fin k0_t1_loop.trips, ∀ a, (k0_off91 k0_t1) a + S1x1x64.size a ≤ S256x1x64.size a
  k0_off91_wordsbf16 : ∀ k0_t1 : Fin k0_t1_loop.trips, (Rect.unit (s := S256x1x64) (k0_off91 k0_t1) S1x1x64.size (k0_off91_inb k0_t1)).WholeWords (EltTy.packing .bf16)
  k0_off93_inb : ∀ k0_t1 : Fin k0_t1_loop.trips, ∀ a, (k0_off93 k0_t1) a + S1x1x1.size a ≤ S1x1x256.size a
  k0_off94_inb : ∀ k0_t1 : Fin k0_t1_loop.trips, ∀ a, (k0_off94 k0_t1) a + S1.size a ≤ S256.size a
  k0_off95_inb : ∀ k0_t1 : Fin k0_t1_loop.trips, ∀ a, (k0_off95 k0_t1) a + S1x1x64.size a ≤ S256x1x64.size a
  k0_off95_wordsbf16 : ∀ k0_t1 : Fin k0_t1_loop.trips, (Rect.unit (s := S256x1x64) (k0_off95 k0_t1) S1x1x64.size (k0_off95_inb k0_t1)).WholeWords (EltTy.packing .bf16)
  k0_off97_inb : ∀ k0_t1 : Fin k0_t1_loop.trips, ∀ a, (k0_off97 k0_t1) a + S1x1x1.size a ≤ S1x1x256.size a
  k0_off98_inb : ∀ k0_t1 : Fin k0_t1_loop.trips, ∀ a, (k0_off98 k0_t1) a + S1.size a ≤ S256.size a
  k0_off99_inb : ∀ k0_t1 : Fin k0_t1_loop.trips, ∀ a, (k0_off99 k0_t1) a + S1x1x64.size a ≤ S256x1x64.size a
  k0_off99_wordsbf16 : ∀ k0_t1 : Fin k0_t1_loop.trips, (Rect.unit (s := S256x1x64) (k0_off99 k0_t1) S1x1x64.size (k0_off99_inb k0_t1)).WholeWords (EltTy.packing .bf16)
  k0_off101_inb : ∀ k0_t1 : Fin k0_t1_loop.trips, ∀ a, (k0_off101 k0_t1) a + S1x1x1.size a ≤ S1x1x256.size a
  k0_off102_inb : ∀ k0_t1 : Fin k0_t1_loop.trips, ∀ a, (k0_off102 k0_t1) a + S1.size a ≤ S256.size a
  k0_off103_inb : ∀ k0_t1 : Fin k0_t1_loop.trips, ∀ a, (k0_off103 k0_t1) a + S1x1x64.size a ≤ S256x1x64.size a
  k0_off103_wordsbf16 : ∀ k0_t1 : Fin k0_t1_loop.trips, (Rect.unit (s := S256x1x64) (k0_off103 k0_t1) S1x1x64.size (k0_off103_inb k0_t1)).WholeWords (EltTy.packing .bf16)
  k0_off105_inb : ∀ k0_t1 : Fin k0_t1_loop.trips, ∀ a, (k0_off105 k0_t1) a + S1x1x1.size a ≤ S1x1x256.size a
  k0_off106_inb : ∀ k0_t1 : Fin k0_t1_loop.trips, ∀ a, (k0_off106 k0_t1) a + S1.size a ≤ S256.size a
  k0_off107_inb : ∀ k0_t1 : Fin k0_t1_loop.trips, ∀ a, (k0_off107 k0_t1) a + S1x1x64.size a ≤ S256x1x64.size a
  k0_off107_wordsbf16 : ∀ k0_t1 : Fin k0_t1_loop.trips, (Rect.unit (s := S256x1x64) (k0_off107 k0_t1) S1x1x64.size (k0_off107_inb k0_t1)).WholeWords (EltTy.packing .bf16)
  k0_off109_inb : ∀ k0_t1 : Fin k0_t1_loop.trips, ∀ a, (k0_off109 k0_t1) a + S1x1x1.size a ≤ S1x1x256.size a
  k0_off110_inb : ∀ k0_t1 : Fin k0_t1_loop.trips, ∀ a, (k0_off110 k0_t1) a + S1.size a ≤ S256.size a
  k0_off111_inb : ∀ k0_t1 : Fin k0_t1_loop.trips, ∀ a, (k0_off111 k0_t1) a + S1x1x64.size a ≤ S256x1x64.size a
  k0_off111_wordsbf16 : ∀ k0_t1 : Fin k0_t1_loop.trips, (Rect.unit (s := S256x1x64) (k0_off111 k0_t1) S1x1x64.size (k0_off111_inb k0_t1)).WholeWords (EltTy.packing .bf16)
  k0_off113_inb : ∀ k0_t1 : Fin k0_t1_loop.trips, ∀ a, (k0_off113 k0_t1) a + S1x1x1.size a ≤ S1x1x256.size a
  k0_off114_inb : ∀ k0_t1 : Fin k0_t1_loop.trips, ∀ a, (k0_off114 k0_t1) a + S1.size a ≤ S256.size a
  k0_off115_inb : ∀ k0_t1 : Fin k0_t1_loop.trips, ∀ a, (k0_off115 k0_t1) a + S1x1x64.size a ≤ S256x1x64.size a
  k0_off115_wordsbf16 : ∀ k0_t1 : Fin k0_t1_loop.trips, (Rect.unit (s := S256x1x64) (k0_off115 k0_t1) S1x1x64.size (k0_off115_inb k0_t1)).WholeWords (EltTy.packing .bf16)
  k0_off117_inb : ∀ k0_t1 : Fin k0_t1_loop.trips, ∀ a, (k0_off117 k0_t1) a + S1x1x1.size a ≤ S1x1x256.size a
  k0_off118_inb : ∀ k0_t1 : Fin k0_t1_loop.trips, ∀ a, (k0_off118 k0_t1) a + S1.size a ≤ S256.size a
  k0_off119_inb : ∀ k0_t1 : Fin k0_t1_loop.trips, ∀ a, (k0_off119 k0_t1) a + S1x1x64.size a ≤ S256x1x64.size a
  k0_off119_wordsbf16 : ∀ k0_t1 : Fin k0_t1_loop.trips, (Rect.unit (s := S256x1x64) (k0_off119 k0_t1) S1x1x64.size (k0_off119_inb k0_t1)).WholeWords (EltTy.packing .bf16)
  k0_off121_inb : ∀ k0_t1 : Fin k0_t1_loop.trips, ∀ a, (k0_off121 k0_t1) a + S1x1x1.size a ≤ S1x1x256.size a
  k0_off122_inb : ∀ k0_t1 : Fin k0_t1_loop.trips, ∀ a, (k0_off122 k0_t1) a + S1.size a ≤ S256.size a
  k0_off123_inb : ∀ k0_t1 : Fin k0_t1_loop.trips, ∀ a, (k0_off123 k0_t1) a + S1x1x64.size a ≤ S256x1x64.size a
  k0_off123_wordsbf16 : ∀ k0_t1 : Fin k0_t1_loop.trips, (Rect.unit (s := S256x1x64) (k0_off123 k0_t1) S1x1x64.size (k0_off123_inb k0_t1)).WholeWords (EltTy.packing .bf16)
  k0_off125_inb : ∀ k0_t1 : Fin k0_t1_loop.trips, ∀ a, (k0_off125 k0_t1) a + S1x1x1.size a ≤ S1x1x256.size a
  k0_off126_inb : ∀ k0_t1 : Fin k0_t1_loop.trips, ∀ a, (k0_off126 k0_t1) a + S1.size a ≤ S256.size a
  k0_off127_inb : ∀ k0_t1 : Fin k0_t1_loop.trips, ∀ a, (k0_off127 k0_t1) a + S1x1x64.size a ≤ S256x1x64.size a
  k0_off127_wordsbf16 : ∀ k0_t1 : Fin k0_t1_loop.trips, (Rect.unit (s := S256x1x64) (k0_off127 k0_t1) S1x1x64.size (k0_off127_inb k0_t1)).WholeWords (EltTy.packing .bf16)
  k0_off129_inb : ∀ k0_t1 : Fin k0_t1_loop.trips, ∀ a, (k0_off129 k0_t1) a + S1x1x1.size a ≤ S1x1x256.size a
  k0_off130_inb : ∀ k0_t1 : Fin k0_t1_loop.trips, ∀ a, (k0_off130 k0_t1) a + S1.size a ≤ S256.size a
  k0_off131_inb : ∀ k0_t1 : Fin k0_t1_loop.trips, ∀ a, (k0_off131 k0_t1) a + S1x1x64.size a ≤ S256x1x64.size a
  k0_off131_wordsbf16 : ∀ k0_t1 : Fin k0_t1_loop.trips, (Rect.unit (s := S256x1x64) (k0_off131 k0_t1) S1x1x64.size (k0_off131_inb k0_t1)).WholeWords (EltTy.packing .bf16)
  k0_off133_inb : ∀ k0_t1 : Fin k0_t1_loop.trips, ∀ a, (k0_off133 k0_t1) a + S1x1x1.size a ≤ S1x1x256.size a
  k0_off134_inb : ∀ k0_t1 : Fin k0_t1_loop.trips, ∀ a, (k0_off134 k0_t1) a + S1.size a ≤ S256.size a
  k0_off135_inb : ∀ k0_t1 : Fin k0_t1_loop.trips, ∀ a, (k0_off135 k0_t1) a + S1x1x64.size a ≤ S256x1x64.size a
  k0_off135_wordsbf16 : ∀ k0_t1 : Fin k0_t1_loop.trips, (Rect.unit (s := S256x1x64) (k0_off135 k0_t1) S1x1x64.size (k0_off135_inb k0_t1)).WholeWords (EltTy.packing .bf16)
  k0_off137_inb : ∀ k0_t1 : Fin k0_t1_loop.trips, ∀ a, (k0_off137 k0_t1) a + S1x1x1.size a ≤ S1x1x256.size a
  k0_off138_inb : ∀ k0_t1 : Fin k0_t1_loop.trips, ∀ a, (k0_off138 k0_t1) a + S1.size a ≤ S256.size a
  k0_off139_inb : ∀ k0_t1 : Fin k0_t1_loop.trips, ∀ a, (k0_off139 k0_t1) a + S1x1x64.size a ≤ S256x1x64.size a
  k0_off139_wordsbf16 : ∀ k0_t1 : Fin k0_t1_loop.trips, (Rect.unit (s := S256x1x64) (k0_off139 k0_t1) S1x1x64.size (k0_off139_inb k0_t1)).WholeWords (EltTy.packing .bf16)
  k0_off141_inb : ∀ k0_t1 : Fin k0_t1_loop.trips, ∀ a, (k0_off141 k0_t1) a + S1x1x1.size a ≤ S1x1x256.size a
  k0_off142_inb : ∀ k0_t1 : Fin k0_t1_loop.trips, ∀ a, (k0_off142 k0_t1) a + S1.size a ≤ S256.size a
  k0_off143_inb : ∀ k0_t1 : Fin k0_t1_loop.trips, ∀ a, (k0_off143 k0_t1) a + S1x1x64.size a ≤ S256x1x64.size a
  k0_off143_wordsbf16 : ∀ k0_t1 : Fin k0_t1_loop.trips, (Rect.unit (s := S256x1x64) (k0_off143 k0_t1) S1x1x64.size (k0_off143_inb k0_t1)).WholeWords (EltTy.packing .bf16)
  k0_off145_inb : ∀ k0_t1 : Fin k0_t1_loop.trips, ∀ a, (k0_off145 k0_t1) a + S1x1x1.size a ≤ S1x1x256.size a
  k0_off146_inb : ∀ k0_t1 : Fin k0_t1_loop.trips, ∀ a, (k0_off146 k0_t1) a + S1.size a ≤ S256.size a
  k0_off147_inb : ∀ k0_t1 : Fin k0_t1_loop.trips, ∀ a, (k0_off147 k0_t1) a + S1x1x64.size a ≤ S256x1x64.size a
  k0_off147_wordsbf16 : ∀ k0_t1 : Fin k0_t1_loop.trips, (Rect.unit (s := S256x1x64) (k0_off147 k0_t1) S1x1x64.size (k0_off147_inb k0_t1)).WholeWords (EltTy.packing .bf16)
  k0_off149_inb : ∀ k0_t1 : Fin k0_t1_loop.trips, ∀ a, (k0_off149 k0_t1) a + S1x1x1.size a ≤ S1x1x256.size a
  k0_off150_inb : ∀ k0_t1 : Fin k0_t1_loop.trips, ∀ a, (k0_off150 k0_t1) a + S1.size a ≤ S256.size a
  k0_off151_inb : ∀ k0_t1 : Fin k0_t1_loop.trips, ∀ a, (k0_off151 k0_t1) a + S1x1x64.size a ≤ S256x1x64.size a
  k0_off151_wordsbf16 : ∀ k0_t1 : Fin k0_t1_loop.trips, (Rect.unit (s := S256x1x64) (k0_off151 k0_t1) S1x1x64.size (k0_off151_inb k0_t1)).WholeWords (EltTy.packing .bf16)
  k0_off153_inb : ∀ k0_t1 : Fin k0_t1_loop.trips, ∀ a, (k0_off153 k0_t1) a + S1x1x1.size a ≤ S1x1x256.size a
  k0_off154_inb : ∀ k0_t1 : Fin k0_t1_loop.trips, ∀ a, (k0_off154 k0_t1) a + S1.size a ≤ S256.size a
  k0_off155_inb : ∀ k0_t1 : Fin k0_t1_loop.trips, ∀ a, (k0_off155 k0_t1) a + S1x1x64.size a ≤ S256x1x64.size a
  k0_off155_wordsbf16 : ∀ k0_t1 : Fin k0_t1_loop.trips, (Rect.unit (s := S256x1x64) (k0_off155 k0_t1) S1x1x64.size (k0_off155_inb k0_t1)).WholeWords (EltTy.packing .bf16)
  k0_off157_inb : ∀ k0_t1 : Fin k0_t1_loop.trips, ∀ a, (k0_off157 k0_t1) a + S1x1x1.size a ≤ S1x1x256.size a
  k0_off158_inb : ∀ k0_t1 : Fin k0_t1_loop.trips, ∀ a, (k0_off158 k0_t1) a + S1.size a ≤ S256.size a
  k0_off159_inb : ∀ k0_t1 : Fin k0_t1_loop.trips, ∀ a, (k0_off159 k0_t1) a + S1x1x64.size a ≤ S256x1x64.size a
  k0_off159_wordsbf16 : ∀ k0_t1 : Fin k0_t1_loop.trips, (Rect.unit (s := S256x1x64) (k0_off159 k0_t1) S1x1x64.size (k0_off159_inb k0_t1)).WholeWords (EltTy.packing .bf16)
  k0_off161_inb : ∀ k0_t1 : Fin k0_t1_loop.trips, ∀ a, (k0_off161 k0_t1) a + S1x1x1.size a ≤ S1x1x256.size a
  k0_off162_inb : ∀ k0_t1 : Fin k0_t1_loop.trips, ∀ a, (k0_off162 k0_t1) a + S1.size a ≤ S256.size a
  k0_off163_inb : ∀ k0_t1 : Fin k0_t1_loop.trips, ∀ a, (k0_off163 k0_t1) a + S1x1x64.size a ≤ S256x1x64.size a
  k0_off163_wordsbf16 : ∀ k0_t1 : Fin k0_t1_loop.trips, (Rect.unit (s := S256x1x64) (k0_off163 k0_t1) S1x1x64.size (k0_off163_inb k0_t1)).WholeWords (EltTy.packing .bf16)
  k0_off165_inb : ∀ k0_t1 : Fin k0_t1_loop.trips, ∀ a, (k0_off165 k0_t1) a + S1x1x1.size a ≤ S1x1x256.size a
  k0_off166_inb : ∀ k0_t1 : Fin k0_t1_loop.trips, ∀ a, (k0_off166 k0_t1) a + S1.size a ≤ S256.size a
  k0_off167_inb : ∀ k0_t1 : Fin k0_t1_loop.trips, ∀ a, (k0_off167 k0_t1) a + S1x1x64.size a ≤ S256x1x64.size a
  k0_off167_wordsbf16 : ∀ k0_t1 : Fin k0_t1_loop.trips, (Rect.unit (s := S256x1x64) (k0_off167 k0_t1) S1x1x64.size (k0_off167_inb k0_t1)).WholeWords (EltTy.packing .bf16)
  k0_off169_inb : ∀ k0_t1 : Fin k0_t1_loop.trips, ∀ a, (k0_off169 k0_t1) a + S1x1x1.size a ≤ S1x1x256.size a
  k0_off170_inb : ∀ k0_t1 : Fin k0_t1_loop.trips, ∀ a, (k0_off170 k0_t1) a + S1.size a ≤ S256.size a
  k0_off171_inb : ∀ k0_t1 : Fin k0_t1_loop.trips, ∀ a, (k0_off171 k0_t1) a + S1x1x64.size a ≤ S256x1x64.size a
  k0_off171_wordsbf16 : ∀ k0_t1 : Fin k0_t1_loop.trips, (Rect.unit (s := S256x1x64) (k0_off171 k0_t1) S1x1x64.size (k0_off171_inb k0_t1)).WholeWords (EltTy.packing .bf16)
  k0_off173_inb : ∀ k0_t1 : Fin k0_t1_loop.trips, ∀ a, (k0_off173 k0_t1) a + S1x1x1.size a ≤ S1x1x256.size a
  k0_off174_inb : ∀ k0_t1 : Fin k0_t1_loop.trips, ∀ a, (k0_off174 k0_t1) a + S1.size a ≤ S256.size a
  k0_off175_inb : ∀ k0_t1 : Fin k0_t1_loop.trips, ∀ a, (k0_off175 k0_t1) a + S1x1x64.size a ≤ S256x1x64.size a
  k0_off175_wordsbf16 : ∀ k0_t1 : Fin k0_t1_loop.trips, (Rect.unit (s := S256x1x64) (k0_off175 k0_t1) S1x1x64.size (k0_off175_inb k0_t1)).WholeWords (EltTy.packing .bf16)
  k0_off177_inb : ∀ k0_t1 : Fin k0_t1_loop.trips, ∀ a, (k0_off177 k0_t1) a + S1x1x1.size a ≤ S1x1x256.size a
  k0_off178_inb : ∀ k0_t1 : Fin k0_t1_loop.trips, ∀ a, (k0_off178 k0_t1) a + S1.size a ≤ S256.size a
  k0_off179_inb : ∀ k0_t1 : Fin k0_t1_loop.trips, ∀ a, (k0_off179 k0_t1) a + S1x1x64.size a ≤ S256x1x64.size a
  k0_off179_wordsbf16 : ∀ k0_t1 : Fin k0_t1_loop.trips, (Rect.unit (s := S256x1x64) (k0_off179 k0_t1) S1x1x64.size (k0_off179_inb k0_t1)).WholeWords (EltTy.packing .bf16)
  k0_off181_inb : ∀ k0_t1 : Fin k0_t1_loop.trips, ∀ a, (k0_off181 k0_t1) a + S1x1x1.size a ≤ S1x1x256.size a
  k0_off182_inb : ∀ k0_t1 : Fin k0_t1_loop.trips, ∀ a, (k0_off182 k0_t1) a + S1.size a ≤ S256.size a
  k0_off183_inb : ∀ k0_t1 : Fin k0_t1_loop.trips, ∀ a, (k0_off183 k0_t1) a + S1x1x64.size a ≤ S256x1x64.size a
  k0_off183_wordsbf16 : ∀ k0_t1 : Fin k0_t1_loop.trips, (Rect.unit (s := S256x1x64) (k0_off183 k0_t1) S1x1x64.size (k0_off183_inb k0_t1)).WholeWords (EltTy.packing .bf16)
  k0_off185_inb : ∀ k0_t1 : Fin k0_t1_loop.trips, ∀ a, (k0_off185 k0_t1) a + S1x1x1.size a ≤ S1x1x256.size a
  k0_off186_inb : ∀ k0_t1 : Fin k0_t1_loop.trips, ∀ a, (k0_off186 k0_t1) a + S1.size a ≤ S256.size a
  k0_off187_inb : ∀ k0_t1 : Fin k0_t1_loop.trips, ∀ a, (k0_off187 k0_t1) a + S1x1x64.size a ≤ S256x1x64.size a
  k0_off187_wordsbf16 : ∀ k0_t1 : Fin k0_t1_loop.trips, (Rect.unit (s := S256x1x64) (k0_off187 k0_t1) S1x1x64.size (k0_off187_inb k0_t1)).WholeWords (EltTy.packing .bf16)
  k0_off189_inb : ∀ k0_t1 : Fin k0_t1_loop.trips, ∀ a, (k0_off189 k0_t1) a + S1x1x1.size a ≤ S1x1x256.size a
  k0_off190_inb : ∀ k0_t1 : Fin k0_t1_loop.trips, ∀ a, (k0_off190 k0_t1) a + S1.size a ≤ S256.size a
  k0_off191_inb : ∀ k0_t1 : Fin k0_t1_loop.trips, ∀ a, (k0_off191 k0_t1) a + S1x1x64.size a ≤ S256x1x64.size a
  k0_off191_wordsbf16 : ∀ k0_t1 : Fin k0_t1_loop.trips, (Rect.unit (s := S256x1x64) (k0_off191 k0_t1) S1x1x64.size (k0_off191_inb k0_t1)).WholeWords (EltTy.packing .bf16)
  k0_off193_inb : ∀ k0_t1 : Fin k0_t1_loop.trips, ∀ a, (k0_off193 k0_t1) a + S1x1x1.size a ≤ S1x1x256.size a
  k0_off194_inb : ∀ k0_t1 : Fin k0_t1_loop.trips, ∀ a, (k0_off194 k0_t1) a + S1.size a ≤ S256.size a
  k0_off195_inb : ∀ k0_t1 : Fin k0_t1_loop.trips, ∀ a, (k0_off195 k0_t1) a + S1x1x64.size a ≤ S256x1x64.size a
  k0_off195_wordsbf16 : ∀ k0_t1 : Fin k0_t1_loop.trips, (Rect.unit (s := S256x1x64) (k0_off195 k0_t1) S1x1x64.size (k0_off195_inb k0_t1)).WholeWords (EltTy.packing .bf16)
  k0_off197_inb : ∀ k0_t1 : Fin k0_t1_loop.trips, ∀ a, (k0_off197 k0_t1) a + S1x1x1.size a ≤ S1x1x256.size a
  k0_off198_inb : ∀ k0_t1 : Fin k0_t1_loop.trips, ∀ a, (k0_off198 k0_t1) a + S1.size a ≤ S256.size a
  k0_off199_inb : ∀ k0_t1 : Fin k0_t1_loop.trips, ∀ a, (k0_off199 k0_t1) a + S1x1x64.size a ≤ S256x1x64.size a
  k0_off199_wordsbf16 : ∀ k0_t1 : Fin k0_t1_loop.trips, (Rect.unit (s := S256x1x64) (k0_off199 k0_t1) S1x1x64.size (k0_off199_inb k0_t1)).WholeWords (EltTy.packing .bf16)
  k0_off201_inb : ∀ k0_t1 : Fin k0_t1_loop.trips, ∀ a, (k0_off201 k0_t1) a + S1x1x1.size a ≤ S1x1x256.size a
  k0_off202_inb : ∀ k0_t1 : Fin k0_t1_loop.trips, ∀ a, (k0_off202 k0_t1) a + S1.size a ≤ S256.size a
  k0_off203_inb : ∀ k0_t1 : Fin k0_t1_loop.trips, ∀ a, (k0_off203 k0_t1) a + S1x1x64.size a ≤ S256x1x64.size a
  k0_off203_wordsbf16 : ∀ k0_t1 : Fin k0_t1_loop.trips, (Rect.unit (s := S256x1x64) (k0_off203 k0_t1) S1x1x64.size (k0_off203_inb k0_t1)).WholeWords (EltTy.packing .bf16)
  k0_off205_inb : ∀ k0_t1 : Fin k0_t1_loop.trips, ∀ a, (k0_off205 k0_t1) a + S1x1x1.size a ≤ S1x1x256.size a
  k0_off206_inb : ∀ k0_t1 : Fin k0_t1_loop.trips, ∀ a, (k0_off206 k0_t1) a + S1.size a ≤ S256.size a
  k0_off207_inb : ∀ k0_t1 : Fin k0_t1_loop.trips, ∀ a, (k0_off207 k0_t1) a + S1x1x64.size a ≤ S256x1x64.size a
  k0_off207_wordsbf16 : ∀ k0_t1 : Fin k0_t1_loop.trips, (Rect.unit (s := S256x1x64) (k0_off207 k0_t1) S1x1x64.size (k0_off207_inb k0_t1)).WholeWords (EltTy.packing .bf16)
  k0_off209_inb : ∀ k0_t1 : Fin k0_t1_loop.trips, ∀ a, (k0_off209 k0_t1) a + S1x1x1.size a ≤ S1x1x256.size a
  k0_off210_inb : ∀ k0_t1 : Fin k0_t1_loop.trips, ∀ a, (k0_off210 k0_t1) a + S1.size a ≤ S256.size a
  k0_off211_inb : ∀ k0_t1 : Fin k0_t1_loop.trips, ∀ a, (k0_off211 k0_t1) a + S1x1x64.size a ≤ S256x1x64.size a
  k0_off211_wordsbf16 : ∀ k0_t1 : Fin k0_t1_loop.trips, (Rect.unit (s := S256x1x64) (k0_off211 k0_t1) S1x1x64.size (k0_off211_inb k0_t1)).WholeWords (EltTy.packing .bf16)
  k0_off213_inb : ∀ k0_t1 : Fin k0_t1_loop.trips, ∀ a, (k0_off213 k0_t1) a + S1x1x1.size a ≤ S1x1x256.size a
  k0_off214_inb : ∀ k0_t1 : Fin k0_t1_loop.trips, ∀ a, (k0_off214 k0_t1) a + S1.size a ≤ S256.size a
  k0_off215_inb : ∀ k0_t1 : Fin k0_t1_loop.trips, ∀ a, (k0_off215 k0_t1) a + S1x1x64.size a ≤ S256x1x64.size a
  k0_off215_wordsbf16 : ∀ k0_t1 : Fin k0_t1_loop.trips, (Rect.unit (s := S256x1x64) (k0_off215 k0_t1) S1x1x64.size (k0_off215_inb k0_t1)).WholeWords (EltTy.packing .bf16)
  k0_off217_inb : ∀ k0_t1 : Fin k0_t1_loop.trips, ∀ a, (k0_off217 k0_t1) a + S1x1x1.size a ≤ S1x1x256.size a
  k0_off218_inb : ∀ k0_t1 : Fin k0_t1_loop.trips, ∀ a, (k0_off218 k0_t1) a + S1.size a ≤ S256.size a
  k0_off219_inb : ∀ k0_t1 : Fin k0_t1_loop.trips, ∀ a, (k0_off219 k0_t1) a + S1x1x64.size a ≤ S256x1x64.size a
  k0_off219_wordsbf16 : ∀ k0_t1 : Fin k0_t1_loop.trips, (Rect.unit (s := S256x1x64) (k0_off219 k0_t1) S1x1x64.size (k0_off219_inb k0_t1)).WholeWords (EltTy.packing .bf16)
  k0_off221_inb : ∀ k0_t1 : Fin k0_t1_loop.trips, ∀ a, (k0_off221 k0_t1) a + S1x1x1.size a ≤ S1x1x256.size a
  k0_off222_inb : ∀ k0_t1 : Fin k0_t1_loop.trips, ∀ a, (k0_off222 k0_t1) a + S1.size a ≤ S256.size a
  k0_off223_inb : ∀ k0_t1 : Fin k0_t1_loop.trips, ∀ a, (k0_off223 k0_t1) a + S1x1x64.size a ≤ S256x1x64.size a
  k0_off223_wordsbf16 : ∀ k0_t1 : Fin k0_t1_loop.trips, (Rect.unit (s := S256x1x64) (k0_off223 k0_t1) S1x1x64.size (k0_off223_inb k0_t1)).WholeWords (EltTy.packing .bf16)
  k0_off225_inb : ∀ k0_t1 : Fin k0_t1_loop.trips, ∀ a, (k0_off225 k0_t1) a + S1x1x1.size a ≤ S1x1x256.size a
  k0_off226_inb : ∀ k0_t1 : Fin k0_t1_loop.trips, ∀ a, (k0_off226 k0_t1) a + S1.size a ≤ S256.size a
  k0_off227_inb : ∀ k0_t1 : Fin k0_t1_loop.trips, ∀ a, (k0_off227 k0_t1) a + S1x1x64.size a ≤ S256x1x64.size a
  k0_off227_wordsbf16 : ∀ k0_t1 : Fin k0_t1_loop.trips, (Rect.unit (s := S256x1x64) (k0_off227 k0_t1) S1x1x64.size (k0_off227_inb k0_t1)).WholeWords (EltTy.packing .bf16)
  k0_off229_inb : ∀ k0_t1 : Fin k0_t1_loop.trips, ∀ a, (k0_off229 k0_t1) a + S1x1x1.size a ≤ S1x1x256.size a
  k0_off230_inb : ∀ k0_t1 : Fin k0_t1_loop.trips, ∀ a, (k0_off230 k0_t1) a + S1.size a ≤ S256.size a
  k0_off231_inb : ∀ k0_t1 : Fin k0_t1_loop.trips, ∀ a, (k0_off231 k0_t1) a + S1x1x64.size a ≤ S256x1x64.size a
  k0_off231_wordsbf16 : ∀ k0_t1 : Fin k0_t1_loop.trips, (Rect.unit (s := S256x1x64) (k0_off231 k0_t1) S1x1x64.size (k0_off231_inb k0_t1)).WholeWords (EltTy.packing .bf16)
  k0_off233_inb : ∀ k0_t1 : Fin k0_t1_loop.trips, ∀ a, (k0_off233 k0_t1) a + S1x1x1.size a ≤ S1x1x256.size a
  k0_off234_inb : ∀ k0_t1 : Fin k0_t1_loop.trips, ∀ a, (k0_off234 k0_t1) a + S1.size a ≤ S256.size a
  k0_off235_inb : ∀ k0_t1 : Fin k0_t1_loop.trips, ∀ a, (k0_off235 k0_t1) a + S1x1x64.size a ≤ S256x1x64.size a
  k0_off235_wordsbf16 : ∀ k0_t1 : Fin k0_t1_loop.trips, (Rect.unit (s := S256x1x64) (k0_off235 k0_t1) S1x1x64.size (k0_off235_inb k0_t1)).WholeWords (EltTy.packing .bf16)
  k0_off237_inb : ∀ k0_t1 : Fin k0_t1_loop.trips, ∀ a, (k0_off237 k0_t1) a + S1x1x1.size a ≤ S1x1x256.size a
  k0_off238_inb : ∀ k0_t1 : Fin k0_t1_loop.trips, ∀ a, (k0_off238 k0_t1) a + S1.size a ≤ S256.size a
  k0_off239_inb : ∀ k0_t1 : Fin k0_t1_loop.trips, ∀ a, (k0_off239 k0_t1) a + S1x1x64.size a ≤ S256x1x64.size a
  k0_off239_wordsbf16 : ∀ k0_t1 : Fin k0_t1_loop.trips, (Rect.unit (s := S256x1x64) (k0_off239 k0_t1) S1x1x64.size (k0_off239_inb k0_t1)).WholeWords (EltTy.packing .bf16)
  k0_off241_inb : ∀ k0_t1 : Fin k0_t1_loop.trips, ∀ a, (k0_off241 k0_t1) a + S1x1x1.size a ≤ S1x1x256.size a
  k0_off242_inb : ∀ k0_t1 : Fin k0_t1_loop.trips, ∀ a, (k0_off242 k0_t1) a + S1.size a ≤ S256.size a
  k0_off243_inb : ∀ k0_t1 : Fin k0_t1_loop.trips, ∀ a, (k0_off243 k0_t1) a + S1x1x64.size a ≤ S256x1x64.size a
  k0_off243_wordsbf16 : ∀ k0_t1 : Fin k0_t1_loop.trips, (Rect.unit (s := S256x1x64) (k0_off243 k0_t1) S1x1x64.size (k0_off243_inb k0_t1)).WholeWords (EltTy.packing .bf16)
  k0_off245_inb : ∀ k0_t1 : Fin k0_t1_loop.trips, ∀ a, (k0_off245 k0_t1) a + S1x1x1.size a ≤ S1x1x256.size a
  k0_off246_inb : ∀ k0_t1 : Fin k0_t1_loop.trips, ∀ a, (k0_off246 k0_t1) a + S1.size a ≤ S256.size a
  k0_off247_inb : ∀ k0_t1 : Fin k0_t1_loop.trips, ∀ a, (k0_off247 k0_t1) a + S1x1x64.size a ≤ S256x1x64.size a
  k0_off247_wordsbf16 : ∀ k0_t1 : Fin k0_t1_loop.trips, (Rect.unit (s := S256x1x64) (k0_off247 k0_t1) S1x1x64.size (k0_off247_inb k0_t1)).WholeWords (EltTy.packing .bf16)
  k0_off249_inb : ∀ k0_t1 : Fin k0_t1_loop.trips, ∀ a, (k0_off249 k0_t1) a + S1x1x1.size a ≤ S1x1x256.size a
  k0_off250_inb : ∀ k0_t1 : Fin k0_t1_loop.trips, ∀ a, (k0_off250 k0_t1) a + S1.size a ≤ S256.size a
  k0_off251_inb : ∀ k0_t1 : Fin k0_t1_loop.trips, ∀ a, (k0_off251 k0_t1) a + S1x1x64.size a ≤ S256x1x64.size a
  k0_off251_wordsbf16 : ∀ k0_t1 : Fin k0_t1_loop.trips, (Rect.unit (s := S256x1x64) (k0_off251 k0_t1) S1x1x64.size (k0_off251_inb k0_t1)).WholeWords (EltTy.packing .bf16)
  k0_off253_inb : ∀ k0_t1 : Fin k0_t1_loop.trips, ∀ a, (k0_off253 k0_t1) a + S1x1x1.size a ≤ S1x1x256.size a
  k0_off254_inb : ∀ k0_t1 : Fin k0_t1_loop.trips, ∀ a, (k0_off254 k0_t1) a + S1.size a ≤ S256.size a
  k0_off255_inb : ∀ k0_t1 : Fin k0_t1_loop.trips, ∀ a, (k0_off255 k0_t1) a + S1x1x64.size a ≤ S256x1x64.size a
  k0_off255_wordsbf16 : ∀ k0_t1 : Fin k0_t1_loop.trips, (Rect.unit (s := S256x1x64) (k0_off255 k0_t1) S1x1x64.size (k0_off255_inb k0_t1)).WholeWords (EltTy.packing .bf16)
  k0_t2_ok : k0_t2_loop.OK
  k0_off257_inb : ∀ k0_t2 : Fin k0_t2_loop.trips, ∀ a, (k0_off257 k0_t2) a + S1x1x1.size a ≤ S1x1x256.size a
  k0_off258_inb : ∀ k0_t2 : Fin k0_t2_loop.trips, ∀ a, (k0_off258 k0_t2) a + S1.size a ≤ S256.size a
  k0_off259_inb : ∀ k0_t2 : Fin k0_t2_loop.trips, ∀ a, (k0_off259 k0_t2) a + S1x1x64.size a ≤ S256x1x64.size a
  k0_off259_wordsbf16 : ∀ k0_t2 : Fin k0_t2_loop.trips, (Rect.unit (s := S256x1x64) (k0_off259 k0_t2) S1x1x64.size (k0_off259_inb k0_t2)).WholeWords (EltTy.packing .bf16)
  k0_off261_inb : ∀ k0_t2 : Fin k0_t2_loop.trips, ∀ a, (k0_off261 k0_t2) a + S1x1x1.size a ≤ S1x1x256.size a
  k0_off262_inb : ∀ k0_t2 : Fin k0_t2_loop.trips, ∀ a, (k0_off262 k0_t2) a + S1.size a ≤ S256.size a
  k0_off263_inb : ∀ k0_t2 : Fin k0_t2_loop.trips, ∀ a, (k0_off263 k0_t2) a + S1x1x64.size a ≤ S256x1x64.size a
  k0_off263_wordsbf16 : ∀ k0_t2 : Fin k0_t2_loop.trips, (Rect.unit (s := S256x1x64) (k0_off263 k0_t2) S1x1x64.size (k0_off263_inb k0_t2)).WholeWords (EltTy.packing .bf16)
  k0_off265_inb : ∀ k0_t2 : Fin k0_t2_loop.trips, ∀ a, (k0_off265 k0_t2) a + S1x1x1.size a ≤ S1x1x256.size a
  k0_off266_inb : ∀ k0_t2 : Fin k0_t2_loop.trips, ∀ a, (k0_off266 k0_t2) a + S1.size a ≤ S256.size a
  k0_off267_inb : ∀ k0_t2 : Fin k0_t2_loop.trips, ∀ a, (k0_off267 k0_t2) a + S1x1x64.size a ≤ S256x1x64.size a
  k0_off267_wordsbf16 : ∀ k0_t2 : Fin k0_t2_loop.trips, (Rect.unit (s := S256x1x64) (k0_off267 k0_t2) S1x1x64.size (k0_off267_inb k0_t2)).WholeWords (EltTy.packing .bf16)
  k0_off269_inb : ∀ k0_t2 : Fin k0_t2_loop.trips, ∀ a, (k0_off269 k0_t2) a + S1x1x1.size a ≤ S1x1x256.size a
  k0_off270_inb : ∀ k0_t2 : Fin k0_t2_loop.trips, ∀ a, (k0_off270 k0_t2) a + S1.size a ≤ S256.size a
  k0_off271_inb : ∀ k0_t2 : Fin k0_t2_loop.trips, ∀ a, (k0_off271 k0_t2) a + S1x1x64.size a ≤ S256x1x64.size a
  k0_off271_wordsbf16 : ∀ k0_t2 : Fin k0_t2_loop.trips, (Rect.unit (s := S256x1x64) (k0_off271 k0_t2) S1x1x64.size (k0_off271_inb k0_t2)).WholeWords (EltTy.packing .bf16)
  k0_off273_inb : ∀ k0_t2 : Fin k0_t2_loop.trips, ∀ a, (k0_off273 k0_t2) a + S1x1x1.size a ≤ S1x1x256.size a
  k0_off274_inb : ∀ k0_t2 : Fin k0_t2_loop.trips, ∀ a, (k0_off274 k0_t2) a + S1.size a ≤ S256.size a
  k0_off275_inb : ∀ k0_t2 : Fin k0_t2_loop.trips, ∀ a, (k0_off275 k0_t2) a + S1x1x64.size a ≤ S256x1x64.size a
  k0_off275_wordsbf16 : ∀ k0_t2 : Fin k0_t2_loop.trips, (Rect.unit (s := S256x1x64) (k0_off275 k0_t2) S1x1x64.size (k0_off275_inb k0_t2)).WholeWords (EltTy.packing .bf16)
  k0_off277_inb : ∀ k0_t2 : Fin k0_t2_loop.trips, ∀ a, (k0_off277 k0_t2) a + S1x1x1.size a ≤ S1x1x256.size a
  k0_off278_inb : ∀ k0_t2 : Fin k0_t2_loop.trips, ∀ a, (k0_off278 k0_t2) a + S1.size a ≤ S256.size a
  k0_off279_inb : ∀ k0_t2 : Fin k0_t2_loop.trips, ∀ a, (k0_off279 k0_t2) a + S1x1x64.size a ≤ S256x1x64.size a
  k0_off279_wordsbf16 : ∀ k0_t2 : Fin k0_t2_loop.trips, (Rect.unit (s := S256x1x64) (k0_off279 k0_t2) S1x1x64.size (k0_off279_inb k0_t2)).WholeWords (EltTy.packing .bf16)
  k0_off281_inb : ∀ k0_t2 : Fin k0_t2_loop.trips, ∀ a, (k0_off281 k0_t2) a + S1x1x1.size a ≤ S1x1x256.size a
  k0_off282_inb : ∀ k0_t2 : Fin k0_t2_loop.trips, ∀ a, (k0_off282 k0_t2) a + S1.size a ≤ S256.size a
  k0_off283_inb : ∀ k0_t2 : Fin k0_t2_loop.trips, ∀ a, (k0_off283 k0_t2) a + S1x1x64.size a ≤ S256x1x64.size a
  k0_off283_wordsbf16 : ∀ k0_t2 : Fin k0_t2_loop.trips, (Rect.unit (s := S256x1x64) (k0_off283 k0_t2) S1x1x64.size (k0_off283_inb k0_t2)).WholeWords (EltTy.packing .bf16)
  k0_off285_inb : ∀ k0_t2 : Fin k0_t2_loop.trips, ∀ a, (k0_off285 k0_t2) a + S1x1x1.size a ≤ S1x1x256.size a
  k0_off286_inb : ∀ k0_t2 : Fin k0_t2_loop.trips, ∀ a, (k0_off286 k0_t2) a + S1.size a ≤ S256.size a
  k0_off287_inb : ∀ k0_t2 : Fin k0_t2_loop.trips, ∀ a, (k0_off287 k0_t2) a + S1x1x64.size a ≤ S256x1x64.size a
  k0_off287_wordsbf16 : ∀ k0_t2 : Fin k0_t2_loop.trips, (Rect.unit (s := S256x1x64) (k0_off287 k0_t2) S1x1x64.size (k0_off287_inb k0_t2)).WholeWords (EltTy.packing .bf16)
  k0_off289_inb : ∀ k0_t2 : Fin k0_t2_loop.trips, ∀ a, (k0_off289 k0_t2) a + S1x1x1.size a ≤ S1x1x256.size a
  k0_off290_inb : ∀ k0_t2 : Fin k0_t2_loop.trips, ∀ a, (k0_off290 k0_t2) a + S1.size a ≤ S256.size a
  k0_off291_inb : ∀ k0_t2 : Fin k0_t2_loop.trips, ∀ a, (k0_off291 k0_t2) a + S1x1x64.size a ≤ S256x1x64.size a
  k0_off291_wordsbf16 : ∀ k0_t2 : Fin k0_t2_loop.trips, (Rect.unit (s := S256x1x64) (k0_off291 k0_t2) S1x1x64.size (k0_off291_inb k0_t2)).WholeWords (EltTy.packing .bf16)
  k0_off293_inb : ∀ k0_t2 : Fin k0_t2_loop.trips, ∀ a, (k0_off293 k0_t2) a + S1x1x1.size a ≤ S1x1x256.size a
  k0_off294_inb : ∀ k0_t2 : Fin k0_t2_loop.trips, ∀ a, (k0_off294 k0_t2) a + S1.size a ≤ S256.size a
  k0_off295_inb : ∀ k0_t2 : Fin k0_t2_loop.trips, ∀ a, (k0_off295 k0_t2) a + S1x1x64.size a ≤ S256x1x64.size a
  k0_off295_wordsbf16 : ∀ k0_t2 : Fin k0_t2_loop.trips, (Rect.unit (s := S256x1x64) (k0_off295 k0_t2) S1x1x64.size (k0_off295_inb k0_t2)).WholeWords (EltTy.packing .bf16)
  k0_off297_inb : ∀ k0_t2 : Fin k0_t2_loop.trips, ∀ a, (k0_off297 k0_t2) a + S1x1x1.size a ≤ S1x1x256.size a
  k0_off298_inb : ∀ k0_t2 : Fin k0_t2_loop.trips, ∀ a, (k0_off298 k0_t2) a + S1.size a ≤ S256.size a
  k0_off299_inb : ∀ k0_t2 : Fin k0_t2_loop.trips, ∀ a, (k0_off299 k0_t2) a + S1x1x64.size a ≤ S256x1x64.size a
  k0_off299_wordsbf16 : ∀ k0_t2 : Fin k0_t2_loop.trips, (Rect.unit (s := S256x1x64) (k0_off299 k0_t2) S1x1x64.size (k0_off299_inb k0_t2)).WholeWords (EltTy.packing .bf16)
  k0_off301_inb : ∀ k0_t2 : Fin k0_t2_loop.trips, ∀ a, (k0_off301 k0_t2) a + S1x1x1.size a ≤ S1x1x256.size a
  k0_off302_inb : ∀ k0_t2 : Fin k0_t2_loop.trips, ∀ a, (k0_off302 k0_t2) a + S1.size a ≤ S256.size a
  k0_off303_inb : ∀ k0_t2 : Fin k0_t2_loop.trips, ∀ a, (k0_off303 k0_t2) a + S1x1x64.size a ≤ S256x1x64.size a
  k0_off303_wordsbf16 : ∀ k0_t2 : Fin k0_t2_loop.trips, (Rect.unit (s := S256x1x64) (k0_off303 k0_t2) S1x1x64.size (k0_off303_inb k0_t2)).WholeWords (EltTy.packing .bf16)
  k0_off305_inb : ∀ k0_t2 : Fin k0_t2_loop.trips, ∀ a, (k0_off305 k0_t2) a + S1x1x1.size a ≤ S1x1x256.size a
  k0_off306_inb : ∀ k0_t2 : Fin k0_t2_loop.trips, ∀ a, (k0_off306 k0_t2) a + S1.size a ≤ S256.size a
  k0_off307_inb : ∀ k0_t2 : Fin k0_t2_loop.trips, ∀ a, (k0_off307 k0_t2) a + S1x1x64.size a ≤ S256x1x64.size a
  k0_off307_wordsbf16 : ∀ k0_t2 : Fin k0_t2_loop.trips, (Rect.unit (s := S256x1x64) (k0_off307 k0_t2) S1x1x64.size (k0_off307_inb k0_t2)).WholeWords (EltTy.packing .bf16)
  k0_off309_inb : ∀ k0_t2 : Fin k0_t2_loop.trips, ∀ a, (k0_off309 k0_t2) a + S1x1x1.size a ≤ S1x1x256.size a
  k0_off310_inb : ∀ k0_t2 : Fin k0_t2_loop.trips, ∀ a, (k0_off310 k0_t2) a + S1.size a ≤ S256.size a
  k0_off311_inb : ∀ k0_t2 : Fin k0_t2_loop.trips, ∀ a, (k0_off311 k0_t2) a + S1x1x64.size a ≤ S256x1x64.size a
  k0_off311_wordsbf16 : ∀ k0_t2 : Fin k0_t2_loop.trips, (Rect.unit (s := S256x1x64) (k0_off311 k0_t2) S1x1x64.size (k0_off311_inb k0_t2)).WholeWords (EltTy.packing .bf16)
  k0_off313_inb : ∀ k0_t2 : Fin k0_t2_loop.trips, ∀ a, (k0_off313 k0_t2) a + S1x1x1.size a ≤ S1x1x256.size a
  k0_off314_inb : ∀ k0_t2 : Fin k0_t2_loop.trips, ∀ a, (k0_off314 k0_t2) a + S1.size a ≤ S256.size a
  k0_off315_inb : ∀ k0_t2 : Fin k0_t2_loop.trips, ∀ a, (k0_off315 k0_t2) a + S1x1x64.size a ≤ S256x1x64.size a
  k0_off315_wordsbf16 : ∀ k0_t2 : Fin k0_t2_loop.trips, (Rect.unit (s := S256x1x64) (k0_off315 k0_t2) S1x1x64.size (k0_off315_inb k0_t2)).WholeWords (EltTy.packing .bf16)
  k0_off317_inb : ∀ k0_t2 : Fin k0_t2_loop.trips, ∀ a, (k0_off317 k0_t2) a + S1x1x1.size a ≤ S1x1x256.size a
  k0_off318_inb : ∀ k0_t2 : Fin k0_t2_loop.trips, ∀ a, (k0_off318 k0_t2) a + S1.size a ≤ S256.size a
  k0_off319_inb : ∀ k0_t2 : Fin k0_t2_loop.trips, ∀ a, (k0_off319 k0_t2) a + S1x1x64.size a ≤ S256x1x64.size a
  k0_off319_wordsbf16 : ∀ k0_t2 : Fin k0_t2_loop.trips, (Rect.unit (s := S256x1x64) (k0_off319 k0_t2) S1x1x64.size (k0_off319_inb k0_t2)).WholeWords (EltTy.packing .bf16)
  k0_off321_inb : ∀ k0_t2 : Fin k0_t2_loop.trips, ∀ a, (k0_off321 k0_t2) a + S1x1x1.size a ≤ S1x1x256.size a
  k0_off322_inb : ∀ k0_t2 : Fin k0_t2_loop.trips, ∀ a, (k0_off322 k0_t2) a + S1.size a ≤ S256.size a
  k0_off323_inb : ∀ k0_t2 : Fin k0_t2_loop.trips, ∀ a, (k0_off323 k0_t2) a + S1x1x64.size a ≤ S256x1x64.size a
  k0_off323_wordsbf16 : ∀ k0_t2 : Fin k0_t2_loop.trips, (Rect.unit (s := S256x1x64) (k0_off323 k0_t2) S1x1x64.size (k0_off323_inb k0_t2)).WholeWords (EltTy.packing .bf16)
  k0_off325_inb : ∀ k0_t2 : Fin k0_t2_loop.trips, ∀ a, (k0_off325 k0_t2) a + S1x1x1.size a ≤ S1x1x256.size a
  k0_off326_inb : ∀ k0_t2 : Fin k0_t2_loop.trips, ∀ a, (k0_off326 k0_t2) a + S1.size a ≤ S256.size a
  k0_off327_inb : ∀ k0_t2 : Fin k0_t2_loop.trips, ∀ a, (k0_off327 k0_t2) a + S1x1x64.size a ≤ S256x1x64.size a
  k0_off327_wordsbf16 : ∀ k0_t2 : Fin k0_t2_loop.trips, (Rect.unit (s := S256x1x64) (k0_off327 k0_t2) S1x1x64.size (k0_off327_inb k0_t2)).WholeWords (EltTy.packing .bf16)
  k0_off329_inb : ∀ k0_t2 : Fin k0_t2_loop.trips, ∀ a, (k0_off329 k0_t2) a + S1x1x1.size a ≤ S1x1x256.size a
  k0_off330_inb : ∀ k0_t2 : Fin k0_t2_loop.trips, ∀ a, (k0_off330 k0_t2) a + S1.size a ≤ S256.size a
  k0_off331_inb : ∀ k0_t2 : Fin k0_t2_loop.trips, ∀ a, (k0_off331 k0_t2) a + S1x1x64.size a ≤ S256x1x64.size a
  k0_off331_wordsbf16 : ∀ k0_t2 : Fin k0_t2_loop.trips, (Rect.unit (s := S256x1x64) (k0_off331 k0_t2) S1x1x64.size (k0_off331_inb k0_t2)).WholeWords (EltTy.packing .bf16)
  k0_off333_inb : ∀ k0_t2 : Fin k0_t2_loop.trips, ∀ a, (k0_off333 k0_t2) a + S1x1x1.size a ≤ S1x1x256.size a
  k0_off334_inb : ∀ k0_t2 : Fin k0_t2_loop.trips, ∀ a, (k0_off334 k0_t2) a + S1.size a ≤ S256.size a
  k0_off335_inb : ∀ k0_t2 : Fin k0_t2_loop.trips, ∀ a, (k0_off335 k0_t2) a + S1x1x64.size a ≤ S256x1x64.size a
  k0_off335_wordsbf16 : ∀ k0_t2 : Fin k0_t2_loop.trips, (Rect.unit (s := S256x1x64) (k0_off335 k0_t2) S1x1x64.size (k0_off335_inb k0_t2)).WholeWords (EltTy.packing .bf16)
  k0_off337_inb : ∀ k0_t2 : Fin k0_t2_loop.trips, ∀ a, (k0_off337 k0_t2) a + S1x1x1.size a ≤ S1x1x256.size a
  k0_off338_inb : ∀ k0_t2 : Fin k0_t2_loop.trips, ∀ a, (k0_off338 k0_t2) a + S1.size a ≤ S256.size a
  k0_off339_inb : ∀ k0_t2 : Fin k0_t2_loop.trips, ∀ a, (k0_off339 k0_t2) a + S1x1x64.size a ≤ S256x1x64.size a
  k0_off339_wordsbf16 : ∀ k0_t2 : Fin k0_t2_loop.trips, (Rect.unit (s := S256x1x64) (k0_off339 k0_t2) S1x1x64.size (k0_off339_inb k0_t2)).WholeWords (EltTy.packing .bf16)
  k0_off341_inb : ∀ k0_t2 : Fin k0_t2_loop.trips, ∀ a, (k0_off341 k0_t2) a + S1x1x1.size a ≤ S1x1x256.size a
  k0_off342_inb : ∀ k0_t2 : Fin k0_t2_loop.trips, ∀ a, (k0_off342 k0_t2) a + S1.size a ≤ S256.size a
  k0_off343_inb : ∀ k0_t2 : Fin k0_t2_loop.trips, ∀ a, (k0_off343 k0_t2) a + S1x1x64.size a ≤ S256x1x64.size a
  k0_off343_wordsbf16 : ∀ k0_t2 : Fin k0_t2_loop.trips, (Rect.unit (s := S256x1x64) (k0_off343 k0_t2) S1x1x64.size (k0_off343_inb k0_t2)).WholeWords (EltTy.packing .bf16)
  k0_off345_inb : ∀ k0_t2 : Fin k0_t2_loop.trips, ∀ a, (k0_off345 k0_t2) a + S1x1x1.size a ≤ S1x1x256.size a
  k0_off346_inb : ∀ k0_t2 : Fin k0_t2_loop.trips, ∀ a, (k0_off346 k0_t2) a + S1.size a ≤ S256.size a
  k0_off347_inb : ∀ k0_t2 : Fin k0_t2_loop.trips, ∀ a, (k0_off347 k0_t2) a + S1x1x64.size a ≤ S256x1x64.size a
  k0_off347_wordsbf16 : ∀ k0_t2 : Fin k0_t2_loop.trips, (Rect.unit (s := S256x1x64) (k0_off347 k0_t2) S1x1x64.size (k0_off347_inb k0_t2)).WholeWords (EltTy.packing .bf16)
  k0_off349_inb : ∀ k0_t2 : Fin k0_t2_loop.trips, ∀ a, (k0_off349 k0_t2) a + S1x1x1.size a ≤ S1x1x256.size a
  k0_off350_inb : ∀ k0_t2 : Fin k0_t2_loop.trips, ∀ a, (k0_off350 k0_t2) a + S1.size a ≤ S256.size a
  k0_off351_inb : ∀ k0_t2 : Fin k0_t2_loop.trips, ∀ a, (k0_off351 k0_t2) a + S1x1x64.size a ≤ S256x1x64.size a
  k0_off351_wordsbf16 : ∀ k0_t2 : Fin k0_t2_loop.trips, (Rect.unit (s := S256x1x64) (k0_off351 k0_t2) S1x1x64.size (k0_off351_inb k0_t2)).WholeWords (EltTy.packing .bf16)
  k0_off353_inb : ∀ k0_t2 : Fin k0_t2_loop.trips, ∀ a, (k0_off353 k0_t2) a + S1x1x1.size a ≤ S1x1x256.size a
  k0_off354_inb : ∀ k0_t2 : Fin k0_t2_loop.trips, ∀ a, (k0_off354 k0_t2) a + S1.size a ≤ S256.size a
  k0_off355_inb : ∀ k0_t2 : Fin k0_t2_loop.trips, ∀ a, (k0_off355 k0_t2) a + S1x1x64.size a ≤ S256x1x64.size a
  k0_off355_wordsbf16 : ∀ k0_t2 : Fin k0_t2_loop.trips, (Rect.unit (s := S256x1x64) (k0_off355 k0_t2) S1x1x64.size (k0_off355_inb k0_t2)).WholeWords (EltTy.packing .bf16)
  k0_off357_inb : ∀ k0_t2 : Fin k0_t2_loop.trips, ∀ a, (k0_off357 k0_t2) a + S1x1x1.size a ≤ S1x1x256.size a
  k0_off358_inb : ∀ k0_t2 : Fin k0_t2_loop.trips, ∀ a, (k0_off358 k0_t2) a + S1.size a ≤ S256.size a
  k0_off359_inb : ∀ k0_t2 : Fin k0_t2_loop.trips, ∀ a, (k0_off359 k0_t2) a + S1x1x64.size a ≤ S256x1x64.size a
  k0_off359_wordsbf16 : ∀ k0_t2 : Fin k0_t2_loop.trips, (Rect.unit (s := S256x1x64) (k0_off359 k0_t2) S1x1x64.size (k0_off359_inb k0_t2)).WholeWords (EltTy.packing .bf16)
  k0_off361_inb : ∀ k0_t2 : Fin k0_t2_loop.trips, ∀ a, (k0_off361 k0_t2) a + S1x1x1.size a ≤ S1x1x256.size a
  k0_off362_inb : ∀ k0_t2 : Fin k0_t2_loop.trips, ∀ a, (k0_off362 k0_t2) a + S1.size a ≤ S256.size a
  k0_off363_inb : ∀ k0_t2 : Fin k0_t2_loop.trips, ∀ a, (k0_off363 k0_t2) a + S1x1x64.size a ≤ S256x1x64.size a
  k0_off363_wordsbf16 : ∀ k0_t2 : Fin k0_t2_loop.trips, (Rect.unit (s := S256x1x64) (k0_off363 k0_t2) S1x1x64.size (k0_off363_inb k0_t2)).WholeWords (EltTy.packing .bf16)
  k0_off365_inb : ∀ k0_t2 : Fin k0_t2_loop.trips, ∀ a, (k0_off365 k0_t2) a + S1x1x1.size a ≤ S1x1x256.size a
  k0_off366_inb : ∀ k0_t2 : Fin k0_t2_loop.trips, ∀ a, (k0_off366 k0_t2) a + S1.size a ≤ S256.size a
  k0_off367_inb : ∀ k0_t2 : Fin k0_t2_loop.trips, ∀ a, (k0_off367 k0_t2) a + S1x1x64.size a ≤ S256x1x64.size a
  k0_off367_wordsbf16 : ∀ k0_t2 : Fin k0_t2_loop.trips, (Rect.unit (s := S256x1x64) (k0_off367 k0_t2) S1x1x64.size (k0_off367_inb k0_t2)).WholeWords (EltTy.packing .bf16)
  k0_off369_inb : ∀ k0_t2 : Fin k0_t2_loop.trips, ∀ a, (k0_off369 k0_t2) a + S1x1x1.size a ≤ S1x1x256.size a
  k0_off370_inb : ∀ k0_t2 : Fin k0_t2_loop.trips, ∀ a, (k0_off370 k0_t2) a + S1.size a ≤ S256.size a
  k0_off371_inb : ∀ k0_t2 : Fin k0_t2_loop.trips, ∀ a, (k0_off371 k0_t2) a + S1x1x64.size a ≤ S256x1x64.size a
  k0_off371_wordsbf16 : ∀ k0_t2 : Fin k0_t2_loop.trips, (Rect.unit (s := S256x1x64) (k0_off371 k0_t2) S1x1x64.size (k0_off371_inb k0_t2)).WholeWords (EltTy.packing .bf16)
  k0_off373_inb : ∀ k0_t2 : Fin k0_t2_loop.trips, ∀ a, (k0_off373 k0_t2) a + S1x1x1.size a ≤ S1x1x256.size a
  k0_off374_inb : ∀ k0_t2 : Fin k0_t2_loop.trips, ∀ a, (k0_off374 k0_t2) a + S1.size a ≤ S256.size a
  k0_off375_inb : ∀ k0_t2 : Fin k0_t2_loop.trips, ∀ a, (k0_off375 k0_t2) a + S1x1x64.size a ≤ S256x1x64.size a
  k0_off375_wordsbf16 : ∀ k0_t2 : Fin k0_t2_loop.trips, (Rect.unit (s := S256x1x64) (k0_off375 k0_t2) S1x1x64.size (k0_off375_inb k0_t2)).WholeWords (EltTy.packing .bf16)
  k0_off377_inb : ∀ k0_t2 : Fin k0_t2_loop.trips, ∀ a, (k0_off377 k0_t2) a + S1x1x1.size a ≤ S1x1x256.size a
  k0_off378_inb : ∀ k0_t2 : Fin k0_t2_loop.trips, ∀ a, (k0_off378 k0_t2) a + S1.size a ≤ S256.size a
  k0_off379_inb : ∀ k0_t2 : Fin k0_t2_loop.trips, ∀ a, (k0_off379 k0_t2) a + S1x1x64.size a ≤ S256x1x64.size a
  k0_off379_wordsbf16 : ∀ k0_t2 : Fin k0_t2_loop.trips, (Rect.unit (s := S256x1x64) (k0_off379 k0_t2) S1x1x64.size (k0_off379_inb k0_t2)).WholeWords (EltTy.packing .bf16)
  k0_off381_inb : ∀ k0_t2 : Fin k0_t2_loop.trips, ∀ a, (k0_off381 k0_t2) a + S1x1x1.size a ≤ S1x1x256.size a
  k0_off382_inb : ∀ k0_t2 : Fin k0_t2_loop.trips, ∀ a, (k0_off382 k0_t2) a + S1.size a ≤ S256.size a
  k0_off383_inb : ∀ k0_t2 : Fin k0_t2_loop.trips, ∀ a, (k0_off383 k0_t2) a + S1x1x64.size a ≤ S256x1x64.size a
  k0_off383_wordsbf16 : ∀ k0_t2 : Fin k0_t2_loop.trips, (Rect.unit (s := S256x1x64) (k0_off383 k0_t2) S1x1x64.size (k0_off383_inb k0_t2)).WholeWords (EltTy.packing .bf16)
  k0_off385_inb : ∀ k0_t2 : Fin k0_t2_loop.trips, ∀ a, (k0_off385 k0_t2) a + S1x1x1.size a ≤ S1x1x256.size a
  k0_off386_inb : ∀ k0_t2 : Fin k0_t2_loop.trips, ∀ a, (k0_off386 k0_t2) a + S1.size a ≤ S256.size a
  k0_off387_inb : ∀ k0_t2 : Fin k0_t2_loop.trips, ∀ a, (k0_off387 k0_t2) a + S1x1x64.size a ≤ S256x1x64.size a
  k0_off387_wordsbf16 : ∀ k0_t2 : Fin k0_t2_loop.trips, (Rect.unit (s := S256x1x64) (k0_off387 k0_t2) S1x1x64.size (k0_off387_inb k0_t2)).WholeWords (EltTy.packing .bf16)
  k0_off389_inb : ∀ k0_t2 : Fin k0_t2_loop.trips, ∀ a, (k0_off389 k0_t2) a + S1x1x1.size a ≤ S1x1x256.size a
  k0_off390_inb : ∀ k0_t2 : Fin k0_t2_loop.trips, ∀ a, (k0_off390 k0_t2) a + S1.size a ≤ S256.size a
  k0_off391_inb : ∀ k0_t2 : Fin k0_t2_loop.trips, ∀ a, (k0_off391 k0_t2) a + S1x1x64.size a ≤ S256x1x64.size a
  k0_off391_wordsbf16 : ∀ k0_t2 : Fin k0_t2_loop.trips, (Rect.unit (s := S256x1x64) (k0_off391 k0_t2) S1x1x64.size (k0_off391_inb k0_t2)).WholeWords (EltTy.packing .bf16)
  k0_off393_inb : ∀ k0_t2 : Fin k0_t2_loop.trips, ∀ a, (k0_off393 k0_t2) a + S1x1x1.size a ≤ S1x1x256.size a
  k0_off394_inb : ∀ k0_t2 : Fin k0_t2_loop.trips, ∀ a, (k0_off394 k0_t2) a + S1.size a ≤ S256.size a
  k0_off395_inb : ∀ k0_t2 : Fin k0_t2_loop.trips, ∀ a, (k0_off395 k0_t2) a + S1x1x64.size a ≤ S256x1x64.size a
  k0_off395_wordsbf16 : ∀ k0_t2 : Fin k0_t2_loop.trips, (Rect.unit (s := S256x1x64) (k0_off395 k0_t2) S1x1x64.size (k0_off395_inb k0_t2)).WholeWords (EltTy.packing .bf16)
  k0_off397_inb : ∀ k0_t2 : Fin k0_t2_loop.trips, ∀ a, (k0_off397 k0_t2) a + S1x1x1.size a ≤ S1x1x256.size a
  k0_off398_inb : ∀ k0_t2 : Fin k0_t2_loop.trips, ∀ a, (k0_off398 k0_t2) a + S1.size a ≤ S256.size a
  k0_off399_inb : ∀ k0_t2 : Fin k0_t2_loop.trips, ∀ a, (k0_off399 k0_t2) a + S1x1x64.size a ≤ S256x1x64.size a
  k0_off399_wordsbf16 : ∀ k0_t2 : Fin k0_t2_loop.trips, (Rect.unit (s := S256x1x64) (k0_off399 k0_t2) S1x1x64.size (k0_off399_inb k0_t2)).WholeWords (EltTy.packing .bf16)
  k0_off401_inb : ∀ k0_t2 : Fin k0_t2_loop.trips, ∀ a, (k0_off401 k0_t2) a + S1x1x1.size a ≤ S1x1x256.size a
  k0_off402_inb : ∀ k0_t2 : Fin k0_t2_loop.trips, ∀ a, (k0_off402 k0_t2) a + S1.size a ≤ S256.size a
  k0_off403_inb : ∀ k0_t2 : Fin k0_t2_loop.trips, ∀ a, (k0_off403 k0_t2) a + S1x1x64.size a ≤ S256x1x64.size a
  k0_off403_wordsbf16 : ∀ k0_t2 : Fin k0_t2_loop.trips, (Rect.unit (s := S256x1x64) (k0_off403 k0_t2) S1x1x64.size (k0_off403_inb k0_t2)).WholeWords (EltTy.packing .bf16)
  k0_off405_inb : ∀ k0_t2 : Fin k0_t2_loop.trips, ∀ a, (k0_off405 k0_t2) a + S1x1x1.size a ≤ S1x1x256.size a
  k0_off406_inb : ∀ k0_t2 : Fin k0_t2_loop.trips, ∀ a, (k0_off406 k0_t2) a + S1.size a ≤ S256.size a
  k0_off407_inb : ∀ k0_t2 : Fin k0_t2_loop.trips, ∀ a, (k0_off407 k0_t2) a + S1x1x64.size a ≤ S256x1x64.size a
  k0_off407_wordsbf16 : ∀ k0_t2 : Fin k0_t2_loop.trips, (Rect.unit (s := S256x1x64) (k0_off407 k0_t2) S1x1x64.size (k0_off407_inb k0_t2)).WholeWords (EltTy.packing .bf16)
  k0_off409_inb : ∀ k0_t2 : Fin k0_t2_loop.trips, ∀ a, (k0_off409 k0_t2) a + S1x1x1.size a ≤ S1x1x256.size a
  k0_off410_inb : ∀ k0_t2 : Fin k0_t2_loop.trips, ∀ a, (k0_off410 k0_t2) a + S1.size a ≤ S256.size a
  k0_off411_inb : ∀ k0_t2 : Fin k0_t2_loop.trips, ∀ a, (k0_off411 k0_t2) a + S1x1x64.size a ≤ S256x1x64.size a
  k0_off411_wordsbf16 : ∀ k0_t2 : Fin k0_t2_loop.trips, (Rect.unit (s := S256x1x64) (k0_off411 k0_t2) S1x1x64.size (k0_off411_inb k0_t2)).WholeWords (EltTy.packing .bf16)
  k0_off413_inb : ∀ k0_t2 : Fin k0_t2_loop.trips, ∀ a, (k0_off413 k0_t2) a + S1x1x1.size a ≤ S1x1x256.size a
  k0_off414_inb : ∀ k0_t2 : Fin k0_t2_loop.trips, ∀ a, (k0_off414 k0_t2) a + S1.size a ≤ S256.size a
  k0_off415_inb : ∀ k0_t2 : Fin k0_t2_loop.trips, ∀ a, (k0_off415 k0_t2) a + S1x1x64.size a ≤ S256x1x64.size a
  k0_off415_wordsbf16 : ∀ k0_t2 : Fin k0_t2_loop.trips, (Rect.unit (s := S256x1x64) (k0_off415 k0_t2) S1x1x64.size (k0_off415_inb k0_t2)).WholeWords (EltTy.packing .bf16)
  k0_off417_inb : ∀ k0_t2 : Fin k0_t2_loop.trips, ∀ a, (k0_off417 k0_t2) a + S1x1x1.size a ≤ S1x1x256.size a
  k0_off418_inb : ∀ k0_t2 : Fin k0_t2_loop.trips, ∀ a, (k0_off418 k0_t2) a + S1.size a ≤ S256.size a
  k0_off419_inb : ∀ k0_t2 : Fin k0_t2_loop.trips, ∀ a, (k0_off419 k0_t2) a + S1x1x64.size a ≤ S256x1x64.size a
  k0_off419_wordsbf16 : ∀ k0_t2 : Fin k0_t2_loop.trips, (Rect.unit (s := S256x1x64) (k0_off419 k0_t2) S1x1x64.size (k0_off419_inb k0_t2)).WholeWords (EltTy.packing .bf16)
  k0_off421_inb : ∀ k0_t2 : Fin k0_t2_loop.trips, ∀ a, (k0_off421 k0_t2) a + S1x1x1.size a ≤ S1x1x256.size a
  k0_off422_inb : ∀ k0_t2 : Fin k0_t2_loop.trips, ∀ a, (k0_off422 k0_t2) a + S1.size a ≤ S256.size a
  k0_off423_inb : ∀ k0_t2 : Fin k0_t2_loop.trips, ∀ a, (k0_off423 k0_t2) a + S1x1x64.size a ≤ S256x1x64.size a
  k0_off423_wordsbf16 : ∀ k0_t2 : Fin k0_t2_loop.trips, (Rect.unit (s := S256x1x64) (k0_off423 k0_t2) S1x1x64.size (k0_off423_inb k0_t2)).WholeWords (EltTy.packing .bf16)
  k0_off425_inb : ∀ k0_t2 : Fin k0_t2_loop.trips, ∀ a, (k0_off425 k0_t2) a + S1x1x1.size a ≤ S1x1x256.size a
  k0_off426_inb : ∀ k0_t2 : Fin k0_t2_loop.trips, ∀ a, (k0_off426 k0_t2) a + S1.size a ≤ S256.size a
  k0_off427_inb : ∀ k0_t2 : Fin k0_t2_loop.trips, ∀ a, (k0_off427 k0_t2) a + S1x1x64.size a ≤ S256x1x64.size a
  k0_off427_wordsbf16 : ∀ k0_t2 : Fin k0_t2_loop.trips, (Rect.unit (s := S256x1x64) (k0_off427 k0_t2) S1x1x64.size (k0_off427_inb k0_t2)).WholeWords (EltTy.packing .bf16)
  k0_off429_inb : ∀ k0_t2 : Fin k0_t2_loop.trips, ∀ a, (k0_off429 k0_t2) a + S1x1x1.size a ≤ S1x1x256.size a
  k0_off430_inb : ∀ k0_t2 : Fin k0_t2_loop.trips, ∀ a, (k0_off430 k0_t2) a + S1.size a ≤ S256.size a
  k0_off431_inb : ∀ k0_t2 : Fin k0_t2_loop.trips, ∀ a, (k0_off431 k0_t2) a + S1x1x64.size a ≤ S256x1x64.size a
  k0_off431_wordsbf16 : ∀ k0_t2 : Fin k0_t2_loop.trips, (Rect.unit (s := S256x1x64) (k0_off431 k0_t2) S1x1x64.size (k0_off431_inb k0_t2)).WholeWords (EltTy.packing .bf16)
  k0_off433_inb : ∀ k0_t2 : Fin k0_t2_loop.trips, ∀ a, (k0_off433 k0_t2) a + S1x1x1.size a ≤ S1x1x256.size a
  k0_off434_inb : ∀ k0_t2 : Fin k0_t2_loop.trips, ∀ a, (k0_off434 k0_t2) a + S1.size a ≤ S256.size a
  k0_off435_inb : ∀ k0_t2 : Fin k0_t2_loop.trips, ∀ a, (k0_off435 k0_t2) a + S1x1x64.size a ≤ S256x1x64.size a
  k0_off435_wordsbf16 : ∀ k0_t2 : Fin k0_t2_loop.trips, (Rect.unit (s := S256x1x64) (k0_off435 k0_t2) S1x1x64.size (k0_off435_inb k0_t2)).WholeWords (EltTy.packing .bf16)
  k0_off437_inb : ∀ k0_t2 : Fin k0_t2_loop.trips, ∀ a, (k0_off437 k0_t2) a + S1x1x1.size a ≤ S1x1x256.size a
  k0_off438_inb : ∀ k0_t2 : Fin k0_t2_loop.trips, ∀ a, (k0_off438 k0_t2) a + S1.size a ≤ S256.size a
  k0_off439_inb : ∀ k0_t2 : Fin k0_t2_loop.trips, ∀ a, (k0_off439 k0_t2) a + S1x1x64.size a ≤ S256x1x64.size a
  k0_off439_wordsbf16 : ∀ k0_t2 : Fin k0_t2_loop.trips, (Rect.unit (s := S256x1x64) (k0_off439 k0_t2) S1x1x64.size (k0_off439_inb k0_t2)).WholeWords (EltTy.packing .bf16)
  k0_off441_inb : ∀ k0_t2 : Fin k0_t2_loop.trips, ∀ a, (k0_off441 k0_t2) a + S1x1x1.size a ≤ S1x1x256.size a
  k0_off442_inb : ∀ k0_t2 : Fin k0_t2_loop.trips, ∀ a, (k0_off442 k0_t2) a + S1.size a ≤ S256.size a
  k0_off443_inb : ∀ k0_t2 : Fin k0_t2_loop.trips, ∀ a, (k0_off443 k0_t2) a + S1x1x64.size a ≤ S256x1x64.size a
  k0_off443_wordsbf16 : ∀ k0_t2 : Fin k0_t2_loop.trips, (Rect.unit (s := S256x1x64) (k0_off443 k0_t2) S1x1x64.size (k0_off443_inb k0_t2)).WholeWords (EltTy.packing .bf16)
  k0_off445_inb : ∀ k0_t2 : Fin k0_t2_loop.trips, ∀ a, (k0_off445 k0_t2) a + S1x1x1.size a ≤ S1x1x256.size a
  k0_off446_inb : ∀ k0_t2 : Fin k0_t2_loop.trips, ∀ a, (k0_off446 k0_t2) a + S1.size a ≤ S256.size a
  k0_off447_inb : ∀ k0_t2 : Fin k0_t2_loop.trips, ∀ a, (k0_off447 k0_t2) a + S1x1x64.size a ≤ S256x1x64.size a
  k0_off447_wordsbf16 : ∀ k0_t2 : Fin k0_t2_loop.trips, (Rect.unit (s := S256x1x64) (k0_off447 k0_t2) S1x1x64.size (k0_off447_inb k0_t2)).WholeWords (EltTy.packing .bf16)
  k0_off449_inb : ∀ k0_t2 : Fin k0_t2_loop.trips, ∀ a, (k0_off449 k0_t2) a + S1x1x1.size a ≤ S1x1x256.size a
  k0_off450_inb : ∀ k0_t2 : Fin k0_t2_loop.trips, ∀ a, (k0_off450 k0_t2) a + S1.size a ≤ S256.size a
  k0_off451_inb : ∀ k0_t2 : Fin k0_t2_loop.trips, ∀ a, (k0_off451 k0_t2) a + S1x1x64.size a ≤ S256x1x64.size a
  k0_off451_wordsbf16 : ∀ k0_t2 : Fin k0_t2_loop.trips, (Rect.unit (s := S256x1x64) (k0_off451 k0_t2) S1x1x64.size (k0_off451_inb k0_t2)).WholeWords (EltTy.packing .bf16)
  k0_off453_inb : ∀ k0_t2 : Fin k0_t2_loop.trips, ∀ a, (k0_off453 k0_t2) a + S1x1x1.size a ≤ S1x1x256.size a
  k0_off454_inb : ∀ k0_t2 : Fin k0_t2_loop.trips, ∀ a, (k0_off454 k0_t2) a + S1.size a ≤ S256.size a
  k0_off455_inb : ∀ k0_t2 : Fin k0_t2_loop.trips, ∀ a, (k0_off455 k0_t2) a + S1x1x64.size a ≤ S256x1x64.size a
  k0_off455_wordsbf16 : ∀ k0_t2 : Fin k0_t2_loop.trips, (Rect.unit (s := S256x1x64) (k0_off455 k0_t2) S1x1x64.size (k0_off455_inb k0_t2)).WholeWords (EltTy.packing .bf16)
  k0_off457_inb : ∀ k0_t2 : Fin k0_t2_loop.trips, ∀ a, (k0_off457 k0_t2) a + S1x1x1.size a ≤ S1x1x256.size a
  k0_off458_inb : ∀ k0_t2 : Fin k0_t2_loop.trips, ∀ a, (k0_off458 k0_t2) a + S1.size a ≤ S256.size a
  k0_off459_inb : ∀ k0_t2 : Fin k0_t2_loop.trips, ∀ a, (k0_off459 k0_t2) a + S1x1x64.size a ≤ S256x1x64.size a
  k0_off459_wordsbf16 : ∀ k0_t2 : Fin k0_t2_loop.trips, (Rect.unit (s := S256x1x64) (k0_off459 k0_t2) S1x1x64.size (k0_off459_inb k0_t2)).WholeWords (EltTy.packing .bf16)
  k0_off461_inb : ∀ k0_t2 : Fin k0_t2_loop.trips, ∀ a, (k0_off461 k0_t2) a + S1x1x1.size a ≤ S1x1x256.size a
  k0_off462_inb : ∀ k0_t2 : Fin k0_t2_loop.trips, ∀ a, (k0_off462 k0_t2) a + S1.size a ≤ S256.size a
  k0_off463_inb : ∀ k0_t2 : Fin k0_t2_loop.trips, ∀ a, (k0_off463 k0_t2) a + S1x1x64.size a ≤ S256x1x64.size a
  k0_off463_wordsbf16 : ∀ k0_t2 : Fin k0_t2_loop.trips, (Rect.unit (s := S256x1x64) (k0_off463 k0_t2) S1x1x64.size (k0_off463_inb k0_t2)).WholeWords (EltTy.packing .bf16)
  k0_off465_inb : ∀ k0_t2 : Fin k0_t2_loop.trips, ∀ a, (k0_off465 k0_t2) a + S1x1x1.size a ≤ S1x1x256.size a
  k0_off466_inb : ∀ k0_t2 : Fin k0_t2_loop.trips, ∀ a, (k0_off466 k0_t2) a + S1.size a ≤ S256.size a
  k0_off467_inb : ∀ k0_t2 : Fin k0_t2_loop.trips, ∀ a, (k0_off467 k0_t2) a + S1x1x64.size a ≤ S256x1x64.size a
  k0_off467_wordsbf16 : ∀ k0_t2 : Fin k0_t2_loop.trips, (Rect.unit (s := S256x1x64) (k0_off467 k0_t2) S1x1x64.size (k0_off467_inb k0_t2)).WholeWords (EltTy.packing .bf16)
  k0_off469_inb : ∀ k0_t2 : Fin k0_t2_loop.trips, ∀ a, (k0_off469 k0_t2) a + S1x1x1.size a ≤ S1x1x256.size a
  k0_off470_inb : ∀ k0_t2 : Fin k0_t2_loop.trips, ∀ a, (k0_off470 k0_t2) a + S1.size a ≤ S256.size a
  k0_off471_inb : ∀ k0_t2 : Fin k0_t2_loop.trips, ∀ a, (k0_off471 k0_t2) a + S1x1x64.size a ≤ S256x1x64.size a
  k0_off471_wordsbf16 : ∀ k0_t2 : Fin k0_t2_loop.trips, (Rect.unit (s := S256x1x64) (k0_off471 k0_t2) S1x1x64.size (k0_off471_inb k0_t2)).WholeWords (EltTy.packing .bf16)
  k0_off473_inb : ∀ k0_t2 : Fin k0_t2_loop.trips, ∀ a, (k0_off473 k0_t2) a + S1x1x1.size a ≤ S1x1x256.size a
  k0_off474_inb : ∀ k0_t2 : Fin k0_t2_loop.trips, ∀ a, (k0_off474 k0_t2) a + S1.size a ≤ S256.size a
  k0_off475_inb : ∀ k0_t2 : Fin k0_t2_loop.trips, ∀ a, (k0_off475 k0_t2) a + S1x1x64.size a ≤ S256x1x64.size a
  k0_off475_wordsbf16 : ∀ k0_t2 : Fin k0_t2_loop.trips, (Rect.unit (s := S256x1x64) (k0_off475 k0_t2) S1x1x64.size (k0_off475_inb k0_t2)).WholeWords (EltTy.packing .bf16)
  k0_off477_inb : ∀ k0_t2 : Fin k0_t2_loop.trips, ∀ a, (k0_off477 k0_t2) a + S1x1x1.size a ≤ S1x1x256.size a
  k0_off478_inb : ∀ k0_t2 : Fin k0_t2_loop.trips, ∀ a, (k0_off478 k0_t2) a + S1.size a ≤ S256.size a
  k0_off479_inb : ∀ k0_t2 : Fin k0_t2_loop.trips, ∀ a, (k0_off479 k0_t2) a + S1x1x64.size a ≤ S256x1x64.size a
  k0_off479_wordsbf16 : ∀ k0_t2 : Fin k0_t2_loop.trips, (Rect.unit (s := S256x1x64) (k0_off479 k0_t2) S1x1x64.size (k0_off479_inb k0_t2)).WholeWords (EltTy.packing .bf16)
  k0_off481_inb : ∀ k0_t2 : Fin k0_t2_loop.trips, ∀ a, (k0_off481 k0_t2) a + S1x1x1.size a ≤ S1x1x256.size a
  k0_off482_inb : ∀ k0_t2 : Fin k0_t2_loop.trips, ∀ a, (k0_off482 k0_t2) a + S1.size a ≤ S256.size a
  k0_off483_inb : ∀ k0_t2 : Fin k0_t2_loop.trips, ∀ a, (k0_off483 k0_t2) a + S1x1x64.size a ≤ S256x1x64.size a
  k0_off483_wordsbf16 : ∀ k0_t2 : Fin k0_t2_loop.trips, (Rect.unit (s := S256x1x64) (k0_off483 k0_t2) S1x1x64.size (k0_off483_inb k0_t2)).WholeWords (EltTy.packing .bf16)
  k0_off485_inb : ∀ k0_t2 : Fin k0_t2_loop.trips, ∀ a, (k0_off485 k0_t2) a + S1x1x1.size a ≤ S1x1x256.size a
  k0_off486_inb : ∀ k0_t2 : Fin k0_t2_loop.trips, ∀ a, (k0_off486 k0_t2) a + S1.size a ≤ S256.size a
  k0_off487_inb : ∀ k0_t2 : Fin k0_t2_loop.trips, ∀ a, (k0_off487 k0_t2) a + S1x1x64.size a ≤ S256x1x64.size a
  k0_off487_wordsbf16 : ∀ k0_t2 : Fin k0_t2_loop.trips, (Rect.unit (s := S256x1x64) (k0_off487 k0_t2) S1x1x64.size (k0_off487_inb k0_t2)).WholeWords (EltTy.packing .bf16)
  k0_off489_inb : ∀ k0_t2 : Fin k0_t2_loop.trips, ∀ a, (k0_off489 k0_t2) a + S1x1x1.size a ≤ S1x1x256.size a
  k0_off490_inb : ∀ k0_t2 : Fin k0_t2_loop.trips, ∀ a, (k0_off490 k0_t2) a + S1.size a ≤ S256.size a
  k0_off491_inb : ∀ k0_t2 : Fin k0_t2_loop.trips, ∀ a, (k0_off491 k0_t2) a + S1x1x64.size a ≤ S256x1x64.size a
  k0_off491_wordsbf16 : ∀ k0_t2 : Fin k0_t2_loop.trips, (Rect.unit (s := S256x1x64) (k0_off491 k0_t2) S1x1x64.size (k0_off491_inb k0_t2)).WholeWords (EltTy.packing .bf16)
  k0_off493_inb : ∀ k0_t2 : Fin k0_t2_loop.trips, ∀ a, (k0_off493 k0_t2) a + S1x1x1.size a ≤ S1x1x256.size a
  k0_off494_inb : ∀ k0_t2 : Fin k0_t2_loop.trips, ∀ a, (k0_off494 k0_t2) a + S1.size a ≤ S256.size a
  k0_off495_inb : ∀ k0_t2 : Fin k0_t2_loop.trips, ∀ a, (k0_off495 k0_t2) a + S1x1x64.size a ≤ S256x1x64.size a
  k0_off495_wordsbf16 : ∀ k0_t2 : Fin k0_t2_loop.trips, (Rect.unit (s := S256x1x64) (k0_off495 k0_t2) S1x1x64.size (k0_off495_inb k0_t2)).WholeWords (EltTy.packing .bf16)
  k0_off497_inb : ∀ k0_t2 : Fin k0_t2_loop.trips, ∀ a, (k0_off497 k0_t2) a + S1x1x1.size a ≤ S1x1x256.size a
  k0_off498_inb : ∀ k0_t2 : Fin k0_t2_loop.trips, ∀ a, (k0_off498 k0_t2) a + S1.size a ≤ S256.size a
  k0_off499_inb : ∀ k0_t2 : Fin k0_t2_loop.trips, ∀ a, (k0_off499 k0_t2) a + S1x1x64.size a ≤ S256x1x64.size a
  k0_off499_wordsbf16 : ∀ k0_t2 : Fin k0_t2_loop.trips, (Rect.unit (s := S256x1x64) (k0_off499 k0_t2) S1x1x64.size (k0_off499_inb k0_t2)).WholeWords (EltTy.packing .bf16)
  k0_off501_inb : ∀ k0_t2 : Fin k0_t2_loop.trips, ∀ a, (k0_off501 k0_t2) a + S1x1x1.size a ≤ S1x1x256.size a
  k0_off502_inb : ∀ k0_t2 : Fin k0_t2_loop.trips, ∀ a, (k0_off502 k0_t2) a + S1.size a ≤ S256.size a
  k0_off503_inb : ∀ k0_t2 : Fin k0_t2_loop.trips, ∀ a, (k0_off503 k0_t2) a + S1x1x64.size a ≤ S256x1x64.size a
  k0_off503_wordsbf16 : ∀ k0_t2 : Fin k0_t2_loop.trips, (Rect.unit (s := S256x1x64) (k0_off503 k0_t2) S1x1x64.size (k0_off503_inb k0_t2)).WholeWords (EltTy.packing .bf16)
  k0_off505_inb : ∀ k0_t2 : Fin k0_t2_loop.trips, ∀ a, (k0_off505 k0_t2) a + S1x1x1.size a ≤ S1x1x256.size a
  k0_off506_inb : ∀ k0_t2 : Fin k0_t2_loop.trips, ∀ a, (k0_off506 k0_t2) a + S1.size a ≤ S256.size a
  k0_off507_inb : ∀ k0_t2 : Fin k0_t2_loop.trips, ∀ a, (k0_off507 k0_t2) a + S1x1x64.size a ≤ S256x1x64.size a
  k0_off507_wordsbf16 : ∀ k0_t2 : Fin k0_t2_loop.trips, (Rect.unit (s := S256x1x64) (k0_off507 k0_t2) S1x1x64.size (k0_off507_inb k0_t2)).WholeWords (EltTy.packing .bf16)
  k0_off509_inb : ∀ k0_t2 : Fin k0_t2_loop.trips, ∀ a, (k0_off509 k0_t2) a + S1x1x1.size a ≤ S1x1x256.size a
  k0_off510_inb : ∀ k0_t2 : Fin k0_t2_loop.trips, ∀ a, (k0_off510 k0_t2) a + S1.size a ≤ S256.size a
  k0_off511_inb : ∀ k0_t2 : Fin k0_t2_loop.trips, ∀ a, (k0_off511 k0_t2) a + S1x1x64.size a ≤ S256x1x64.size a
  k0_off511_wordsbf16 : ∀ k0_t2 : Fin k0_t2_loop.trips, (Rect.unit (s := S256x1x64) (k0_off511 k0_t2) S1x1x64.size (k0_off511_inb k0_t2)).WholeWords (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x256.size a ≤ S2x1x204800.size a
  hwx0_0 : ∀ i : grid0.Coords, EltTy.bits .i32 = 32 ∨ (Rect.block (s := S2x1x204800) S1x1x256.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x256.size a ≤ S2x1x204800.size a
  hwx0_1 : ∀ i : grid0.Coords, EltTy.bits .f32 = 32 ∨ (Rect.block (s := S2x1x204800) S1x1x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x256.size a ≤ S2x1x204800.size a
  hwx0_2 : ∀ i : grid0.Coords, EltTy.bits .i32 = 32 ∨ (Rect.block (s := S2x1x204800) S1x1x256.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_4 i = cc0_transform_4 i'
  hinb0_3 : ∀ (i : grid0.Coords) a, (cc0_transform_4 i a + 1) * S1x4096x64.size a ≤ S2x4096x64.size a
  hwx0_3 : ∀ i : grid0.Coords, EltTy.bits .f32 = 32 ∨ (Rect.block (s := S2x4096x64) S1x4096x64.size (cc0_transform_4 i) (hinb0_3 i)).WholeWords (EltTy.packing .f32)

variable [Facts₀]

abbrev cc0_scratch1 : DmaSems sig S256 := SemArray.consecutive 8 S256 hcc0_scratch1
def dot_S4096x256_S256x64_S4096x64_1_0_0_1_n_n : DotDims S4096x256 S256x64 S4096x64 where
  lhsContracting := [1]
  rhsContracting := [0]
  lhsNonContracting := [0]
  rhsNonContracting := [1]
  lhsBatch := []
  rhsBatch := []
  wf := dot_S4096x256_S256x64_S4096x64_1_0_0_1_n_n_wf

abbrev win0_0 : Pipeline.Window sig grid0 :=
  Pipeline.Window.ofSpec (Memref.whole main_v1) S1x1x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x1x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x4096x64.size cc0_transform_4 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S409600 : Shape := ⟨1, ![409600]⟩
abbrev S1000000x64 : Shape := ⟨2, ![1000000, 64]⟩
abbrev S_ : Shape := ⟨0, ![]⟩
abbrev S409600x1 : Shape := ⟨2, ![409600, 1]⟩
abbrev S409600x64 : Shape := ⟨2, ![409600, 64]⟩
abbrev S4096x64 : Shape := ⟨2, ![4096, 64]⟩

abbrev nBuf : Space → Nat
  | .hbm => 20
  | .vmem => 0
  | .smem => 0
  | _ => 0

abbrev bufTy : (tb : Table) → Fin (tcTables nBuf tb) → BufTy
  | .hbm, ⟨0, _⟩ => ⟨S409600, .i32⟩
  | .hbm, ⟨1, _⟩ => ⟨S409600, .f32⟩
  | .hbm, ⟨2, _⟩ => ⟨S409600, .i32⟩
  | .hbm, ⟨3, _⟩ => ⟨S1000000x64, .f32⟩
  | .hbm, ⟨4, _⟩ => ⟨S_, .i32⟩
  | .hbm, ⟨5, _⟩ => ⟨S409600, .i32⟩
  | .hbm, ⟨6, _⟩ => ⟨S409600, .i1⟩
  | .hbm, ⟨7, _⟩ => ⟨S_, .i32⟩
  | .hbm, ⟨8, _⟩ => ⟨S409600, .i32⟩
  | .hbm, ⟨9, _⟩ => ⟨S409600, .i32⟩
  | .hbm, ⟨10, _⟩ => ⟨S409600, .i32⟩
  | .hbm, ⟨11, _⟩ => ⟨S409600x1, .i32⟩
  | .hbm, ⟨12, _⟩ => ⟨S409600x64, .f32⟩
  | .hbm, ⟨13, _⟩ => ⟨S409600x1, .f32⟩
  | .hbm, ⟨14, _⟩ => ⟨S409600x64, .f32⟩
  | .hbm, ⟨15, _⟩ => ⟨S409600x64, .f32⟩
  | .hbm, ⟨16, _⟩ => ⟨S_, .f32⟩
  | .hbm, ⟨17, _⟩ => ⟨S4096x64, .f32⟩
  | .hbm, ⟨18, _⟩ => ⟨S409600x1, .i32⟩
  | .hbm, ⟨19, _⟩ => ⟨S4096x64, .f32⟩
  | _, _ => ⟨S409600, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]

class Facts₀ : Prop where
  bcast_S_S409600 : S_.BroadcastsInDim S409600 (![] : Fin 0 → Fin S409600.rank)
  bcast_S409600_S409600x1_0 : S409600.BroadcastsInDim S409600x1 (![0] : Fin 1 → Fin S409600x1.rank)
  bcast_S409600x1_S409600x64_0_1 : S409600x1.BroadcastsInDim S409600x64 (![0, 1] : Fin 2 → Fin S409600x64.rank)
  bcast_S_S4096x64 : S_.BroadcastsInDim S4096x64 (![] : Fin 0 → Fin S4096x64.rank)
  gather_S1000000x64_S409600x1_S409600x64_1_0_n_n_0_1_164_wf : GatherDims.WF S1000000x64 S409600x1 S409600x64 [1] [0] [] [0] [] 1 ![1, 64]
  scatter_S4096x64_S409600x1_S409600x64_1_0_0_1_wf : ScatterDims.WF S4096x64 S409600x1 S409600x64 [1] [0] [0] 1

variable [Facts₀]

def gather_S1000000x64_S409600x1_S409600x64_1_0_n_n_0_1_164 : GatherDims S1000000x64 S409600x1 S409600x64 where
  offsetDims := [1]
  collapsedSliceDims := [0]
  operandBatchingDims := []
  startIndicesBatchingDims := []
  startIndexMap := [0]
  indexVectorDim := 1
  sliceSizes := ![1, 64]
  wf := gather_S1000000x64_S409600x1_S409600x64_1_0_n_n_0_1_164_wf
def scatter_S4096x64_S409600x1_S409600x64_1_0_0_1 : ScatterDims S4096x64 S409600x1 S409600x64 where
  updateWindowDims := [1]
  insertedWindowDims := [0]
  scatterDimsToOperandDims := [0]
  indexVectorDim := 1
  wf := scatter_S4096x64_S409600x1_S409600x64_1_0_0_1_wf

class Facts : Prop extends Facts₀ where

variable [Facts]
-- ==== Proof.HostPreB.lean ====
import proofs.«407547_j20040317403343_3_alg».proof.Proof.Gen.Kernel.Frame
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.Kernel.HandHost

open Idealize.ShloMosaic Idealize.ShloMosaic.TcCoe Idealize.ShloMosaic.Tactic Idealize.ShloMosaic.ValueIdx
open Cert.Kernel Cert.Kernel.Gen

variable {F : FTy → Type} [FloatOps F]
variable (m : (ℓ : Loc nD τ sig) → Buf (Elt F) ℓ)

def clipW (w : BitVec 32) : BitVec 32 := IntOp.minsi 999999#32 (IntOp.maxsi 0#32 w)

abbrev clipVec (ids : IVec S409600 32) : IVec S409600 32 :=
  minsi (broadcastInDim S409600 ![] Gen.bcast_S_S409600 (constantI S_ 32 999999#32))
    (maxsi (broadcastInDim S409600 ![] Gen.bcast_S_S409600 (constantI S_ 32 0#32)) ids)

theorem V_v1 (c : Dev nD) :
    (Gen.V m c main_v1 : S2x1x204800.Idx → BitVec 32)
      = shapeCast S2x1x204800 (clipVec (m ((c : Thread nD τ).loc main_arg0))) Gen.shapeCasts_S409600_S2x1x204800 := by
  dsimp only [Gen.V, Gen.V0]
  simp only [Gen.hostOps0, Gen.hostOps0_1, Gen.hostOps0_2, List.flatten_cons, List.flatten_nil, List.append_nil,
    List.cons_append, List.nil_append]
  after_results
  rfl

theorem clipW_toInt (w : BitVec 32) : (clipW w).toInt = min (max w.toInt 0) 999999 := by
  have z0 : (0#32 : BitVec 32).toInt = 0 := by decide
  have z1 : (999999#32 : BitVec 32).toInt = 999999 := by decide
  unfold clipW IntOp.minsi IntOp.maxsi
  simp only [BitVec.slt_iff_toInt_lt]
  split <;> split <;> simp_all <;> omega

theorem clipW_lt (w : BitVec 32) : (clipW w).toNat < 1000000 := by
  have h := clipW_toInt w
  have e := BitVec.toInt_eq_toNat_cond (clipW w)
  have hl := (clipW w).isLt
  omega

theorem V_v1_mem (c : Dev nD) (j : S2x1x204800.Idx) :
    ∃ w : BitVec 32, (Gen.V m c main_v1 : S2x1x204800.Idx → BitVec 32) j = clipW w := by
  rw [V_v1]
  exact ⟨_, rfl⟩

theorem idsblk_lt (c : Dev nD) (t : Fin cfg0.N) (y : ((cfg0.win 0).xblock (cfg0.grid.coords t)).Idx) :
    ((Gen.iblk m c 0 t y : Elt F .i32) : BitVec 32).toNat < 1000000 := by
  have e : ((Gen.iblk m c 0 t y : Elt F .i32) : BitVec 32)
      = (Gen.V m c main_v1 : S2x1x204800.Idx → BitVec 32) (((cfg0.win 0).blk t).view.emb y) := rfl
  obtain ⟨w, hw⟩ := V_v1_mem m c (((cfg0.win 0).blk t).view.emb y)
  rw [e, hw]
  exact clipW_lt w

end Cert.Kernel.HandHost

end
-- ==== Proof.BodyDefsB.lean ====
import proofs.«407547_j20040317403343_3_alg».proof.Proof.Gen.Kernel.Frame
import proofs.«407547_j20040317403343_3_alg».proof.Proof.Gen.Kernel.Skeleton
import Idealize.ShloMosaic.Lib.ValueIdx

noncomputable section

namespace Cert.Kernel.Hand

open Cert.Kernel Cert.Kernel.Gen
open Idealize.ShloMosaic Idealize.ShloMosaic.TcCoe Idealize.ShloMosaic.ValueIdx

variable {F : FTy → Type} [FloatOps F]

abbrev tabM : Memref sig .tc .hbm S1000000x1x64 .bf16 := Memref.whole main_v5

abbrev scrM : Memref sig .tc .vmem S256x1x64 .bf16 := Memref.whole cc0_scratch0

def rowOf (w : BitVec 32) : Fin 1000000 := if h : w.toNat < 1000000 then ⟨w.toNat, h⟩ else ⟨0, by norm_num⟩

def embOf (tab : Vec F S1000000x1x64 .bf16) (x2 : Vec F S1x1x256 .i32) : Vec F S256x1x64 .bf16 :=
  fun y => tab (ix3 (rowOf (x2 (ix3 (0 : Fin 1) (0 : Fin 1) (y 0)))) (0 : Fin 1) (y 2))

def outOf (i : grid0.Coords) (tab : Vec F S1000000x1x64 .bf16) (x2 : Vec F S1x1x256 .i32) (x3 : Vec F S1x1x256 .f32)
    (x4 : Vec F S1x1x256 .i32) (y6 : Vec F S1x4096x64 .f32) : Vec F S1x4096x64 .f32 :=
  k0_pay2 (embOf tab x2) x4 x3 (if (i 1).val = 0 then k0_pay1 else y6)

end Cert.Kernel.Hand

end
-- ==== Proof.CellsB.lean ====
import proofs.«407547_j20040317403343_3_alg».proof.Proof.BodyDefsB
import proofs.«407547_j20040317403343_3_alg».proof.Proof.Gen.Kernel.Loops
import Idealize.ShloMosaic.Lib.Ring
import Idealize.ShloMosaic.Lib.Tactic

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

local notation "𝕄" => MT nD τ sig Unit (Elt F) ℕ (Pipeline.UD sig nD τ) ℕ

abbrev osem0 : Fin 256 → SemLoc sig := fun j => SemLoc.dma ⟨8 + j.val, by have := j.isLt; show 8 + j.val < 264; omega⟩

abbrev cells0 (c : Dev nD) : sProp 𝕄 :=
  Pipeline.ownSems0 (Ix := Unit) (Name := ℕ) (U := Pipeline.UD sig nD τ) (Lvl := ℕ) (Val := Elt F) (τ := τ) osem0 c

end Cert.Kernel.Hand

end
-- ==== Proof.FamB.lean ====
import proofs.«407547_j20040317403343_3_alg».proof.Proof.CellsB

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem chk_core (v : BitVec 32) (h : v.toNat < 1000000) :
    (∀ a, (![v.toNat, 0, 0] : Fin 3 → Nat) a + S1x1x64.size a ≤ S1000000x1x64.size a) ∧
    (∀ (hinb : ∀ a, (![v.toNat, 0, 0] : Fin 3 → Nat) a + S1x1x64.size a ≤ S1000000x1x64.size a), (Rect.unit (s := S1000000x1x64) ![v.toNat, 0, 0] S1x1x64.size hinb).WholeWords (EltTy.packing .bf16)) := by
  refine ⟨fun a => ?_, fun hinb => Or.inr ⟨by decide, rfl, rfl, rfl⟩⟩
  fin_cases a
  · show v.toNat + 1 ≤ 1000000; omega
  · show 0 + 1 ≤ 1; omega
  · show 0 + 64 ≤ 64; omega

theorem slot_inb (r : Fin 256) : ∀ a, (![r.val, 0, 0] : Fin 3 → Nat) a + S1x1x64.size a ≤ S256x1x64.size a := by
  have := r.isLt; intro a; fin_cases a
  · show r.val + 1 ≤ 256; omega
  · show 0 + 1 ≤ 1; omega
  · show 0 + 64 ≤ 64; omega

def slotR (r : Fin 256) : Memref sig .tc .vmem S1x64 .bf16 :=
  (scrM.slice (Rect.unit ![r.val, 0, 0] S1x1x64.size (slot_inb r)) (fun _ => rfl)).squeeze S1x64 squeezes_S1x1x64_S1x64

def srcR (w : BitVec 32) (hw : w.toNat < 1000000) : Memref sig .tc .hbm S1x64 .bf16 :=
  (tabM.slice (Rect.unit (s := S1000000x1x64) ![w.toNat, 0, 0] S1x1x64.size (chk_core w hw).1) (fun _ => rfl)).squeeze S1x64 squeezes_S1x1x64_S1x64

abbrev tokSh (r : Fin 256) : PosShare TreeShare :=
  Transfers.shareTok fullShare 264 ⟨8 + r.val, by have := r.isLt; omega⟩

abbrev tokR (c : Dev nD) (r : Fin 256) (S : Finset (Idx (tabM.view.loc (c : Thread nD τ)))) (fa : Buf (Elt F) (tabM.view.loc (c : Thread nD τ))) : sProp 𝕄 :=
  tabM.view.loc (c : Thread nD τ) ↦[S]{tokSh r} fa

def FREE (c : Dev nD) (fa : Buf (Elt F) (tabM.view.loc (c : Thread nD τ))) (r : Fin 256) : sProp 𝕄 :=
  iprop(semVal ((c : Thread nD τ), osem0 r) 0
    ∗ (∃ f, (slotR r).view.loc (c : Thread nD τ) ↦[(slotR r).view.set]{fullShare} f)
    ∗ tokR c r Finset.univ fa)

def FLY (c : Dev nD) (fa : Buf (Elt F) (tabM.view.loc (c : Thread nD τ))) (x2 : Vec F S1x1x256 .i32) (r : Fin 256) : sProp 𝕄 :=
  iprop(∃ (S : Finset (Idx (tabM.view.loc (c : Thread nD τ)))) (f : Buf (Elt F) ((slotR r).view.loc (c : Thread nD τ))) (pay : (Rect.whole S1x64).shape.Idx → Elt F .bf16),
    Transfers.Flight countersEmb (c : Thread nD τ) (osem0 r) default 128
        iprop(((slotR r).view.loc (c : Thread nD τ) ↦[(slotR r).view.set]{fullShare} (slotR r).view.writes (Elt F) f [⟨Rect.whole S1x64, pay⟩]) ∗ tokR c r S fa)
    ∗ tokR c r (Finset.univ \ S) fa
    ∗ ⌜∃ (w : BitVec 32) (hw : w.toNat < 1000000), w = x2 (ix3 (0 : Fin 1) (0 : Fin 1) r) ∧ S = (srcR w hw).view.set ∧ pay = ReadAs.same.apply ((srcR w hw).view.read (Elt F) fa)⌝)

def LANDED (c : Dev nD) (fa : Buf (Elt F) (tabM.view.loc (c : Thread nD τ))) (x2 : Vec F S1x1x256 .i32) (r : Fin 256) : sProp 𝕄 :=
  iprop(∃ (f : Buf (Elt F) ((slotR r).view.loc (c : Thread nD τ))) (pay : (Rect.whole S1x64).shape.Idx → Elt F .bf16),
    semVal ((c : Thread nD τ), osem0 r) 0
    ∗ ((slotR r).view.loc (c : Thread nD τ) ↦[(slotR r).view.set]{fullShare} (slotR r).view.writes (Elt F) f [⟨Rect.whole S1x64, pay⟩])
    ∗ tokR c r Finset.univ fa
    ∗ ⌜∃ (w : BitVec 32) (hw : w.toNat < 1000000), w = x2 (ix3 (0 : Fin 1) (0 : Fin 1) r) ∧ pay = ReadAs.same.apply ((srcR w hw).view.read (Elt F) fa)⌝)

macro "fly_close " hc:ident ht:ident f:ident hw:ident x:ident : tactic =>
  `(tactic| (unfold FLY; iexists _, $f, _; (isplitl [$hc] <;> first | iexact $hc | (isplitl [$ht] <;> first | iexact $ht | (ipureintro; (refine ⟨_, ?_, ?_, rfl, rfl⟩ <;> sl_unfold_run_names) <;> first | exact $hw _ _ | (simp only [View.readAt_apply, Memref.IsWhole.read_unread]; exact congrArg $x (by funext a; fin_cases a <;> rfl)))))))

macro "landed_close " hc:ident hd:ident ht:ident f:ident pay:ident hp:ident : tactic =>
  `(tactic| (unfold LANDED; iexists $f, $pay; (isplitl [$hc] <;> first | iexact $hc | (isplitl [$hd] <;> first | iexact $hd | (isplitl [$ht] <;> first | iexact $ht | (ipureintro; obtain ⟨w, hw, h1, -, h3⟩ := $hp; exact ⟨w, hw, h1, h3⟩))))))

end Cert.Kernel.Hand

end
-- ==== Proof.GroupsB.lean ====
import Idealize.ShloMosaic.Lib.Pipeline.Kit
import Idealize.ShloMosaic.Lib.Scf
import proofs.«407547_j20040317403343_3_alg».proof.Proof.FamB

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The n rows from b on, in order. -/
def rowsFrom : ℕ → ℕ → List (Fin 256)
  | _, 0 => []
  | b, n + 1 => ⟨b % 256, Nat.mod_lt _ (by decide)⟩ :: rowsFrom (b + 1) n

/-- Trip t of either loop handles rows 64t to 64t+63. -/
def rowsOf (t : ℕ) : List (Fin 256) := rowsFrom (64 * t) 64

/-- Φ at each row of a list, joined by ∗. -/
def chain (Φ : Fin 256 → sProp 𝕄) : List (Fin 256) → sProp 𝕄
  | [] => iprop(emp)
  | [r] => Φ r
  | r :: r' :: l => iprop(Φ r ∗ chain Φ (r' :: l))

theorem chain_eq (Φ : Fin 256 → sProp 𝕄) : ∀ l, chain Φ l = bigSepL l Φ
  | [] => rfl
  | [_] => rfl
  | r :: r' :: l => congrArg (BI.sep (Φ r)) (chain_eq Φ (r' :: l))

def GFree (c : Dev nD) (fa : Buf (Elt F) (tabM.view.loc (c : Thread nD τ))) (t : ℕ) : sProp 𝕄 :=
  chain (FREE c fa) (rowsOf t)

def GFly (c : Dev nD) (fa : Buf (Elt F) (tabM.view.loc (c : Thread nD τ))) (x2 : Vec F S1x1x256 .i32) (t : ℕ) : sProp 𝕄 :=
  chain (FLY c fa x2) (rowsOf t)

def GLanded (c : Dev nD) (fa : Buf (Elt F) (tabM.view.loc (c : Thread nD τ))) (x2 : Vec F S1x1x256 .i32) (t : ℕ) : sProp 𝕄 :=
  chain (LANDED c fa x2) (rowsOf t)

theorem trips1 : k0_t1_loop.trips = 4 := by decide
theorem trips2 : k0_t2_loop.trips = 4 := by decide

/-- Before trip n of a loop over the four groups: the groups of the trips before n are done (B), the others not yet (A). -/
def mixed (A B : ℕ → sProp 𝕄) (n : ℕ) : sProp 𝕄 :=
  bigSep (Finset.univ : Finset (Fin 4)) fun t => if t.val < n then B t.val else A t.val

theorem mixed_zero (A B : ℕ → sProp 𝕄) : mixed A B 0 = bigSep Finset.univ fun t : Fin 4 => A t.val := by
  show bigSep _ _ = _
  exact bigSep_congr fun t _ => if_neg (Nat.not_lt_zero _)

theorem mixed_four (A B : ℕ → sProp 𝕄) : mixed A B 4 = bigSep Finset.univ fun t : Fin 4 => B t.val := by
  show bigSep _ _ = _
  exact bigSep_congr fun t _ => if_pos t.isLt

/-- A trip that takes group k from A to B takes the invariant at k to the invariant at k + 1: the other groups are framed. -/
theorem mixed_step (c : Dev nD) (A B : ℕ → sProp 𝕄) (H : sProp 𝕄) (k : Fin 4) (p : Prog (TpuEff nD τ sig (Elt F) Λ₀ .tc) Unit)
    (h : iprop(H ∗ A k.val) ⊢ wp frame (wpE (defs₀ (F := F)) Variants.none (c : Thread nD τ) none) Set.univ p (fun _ => iprop(H ∗ B k.val))) :
    iprop(H ∗ mixed A B k.val) ⊢ wp frame (wpE (defs₀ (F := F)) Variants.none (c : Thread nD τ) none) Set.univ p (fun _ => iprop(H ∗ mixed A B (k.val + 1))) := by
  have e1 : mixed A B k.val
      = iprop(A k.val ∗ bigSep (Finset.univ.erase k) fun t => if t.val < k.val then B t.val else A t.val) := by
    show bigSep _ _ = _
    rw [bigSep_univ_split k]
    exact congrArg (fun X => iprop(X ∗ _)) (if_neg (lt_irrefl _))
  have e2 : mixed A B (k.val + 1)
      = iprop(B k.val ∗ bigSep (Finset.univ.erase k) fun t => if t.val < k.val then B t.val else A t.val) := by
    show bigSep _ _ = _
    rw [bigSep_univ_split k]
    refine congr (congrArg _ (if_pos (Nat.lt_succ_self _))) (bigSep_congr fun t ht => ?_)
    have hne : t.val ≠ k.val := fun h => Finset.ne_of_mem_erase ht (Fin.ext h)
    by_cases h : t.val < k.val
    · rw [if_pos h, if_pos (Nat.lt_succ_of_lt h)]
    · rw [if_neg h, if_neg (by omega)]
  rw [e1, e2]
  iintro ⟨HH, HA, HR⟩
  iapply (wp_wand_r frame (wpE (defs₀ (F := F)) Variants.none (c : Thread nD τ) none) Set.univ)
  isplitl [HH HA]
  · iapply h
    isplitl [HH]; · iexact HH
    iexact HA
  · iintro %r ⟨HH, HB⟩
    isplitl [HH]; · iexact HH
    isplitl [HB]; · iexact HB
    iexact HR

def inv (A B : ℕ → sProp 𝕄) (H : sProp 𝕄) (n : ℕ) (_ : Unit) : sProp 𝕄 := iprop(H ∗ mixed A B n)

/-- A loop of four trips, trip n taking group n from A to B under H, takes all four groups from A to B. -/
theorem loop_of (c : Dev nD) (A B : ℕ → sProp 𝕄) (H : sProp 𝕄) (l : Scf.Loop 32) (hok : l.OK) (h4 : l.trips = 4)
    (body : Fin l.trips → Unit → Prog (TpuEff nD τ sig (Elt F) Λ₀ .tc) Unit)
    (trip : ∀ (n : ℕ) (hn : n < l.trips), iprop(H ∗ A n) ⊢ wp frame (wpE (defs₀ (F := F)) Variants.none (c : Thread nD τ) none) Set.univ (body ⟨n, hn⟩ ⟨⟩) (fun _ => iprop(H ∗ B n)))
    (Q : Unit → sProp 𝕄) :
    iprop(H ∗ bigSep Finset.univ (fun t : Fin 4 => A t.val) ∗ (iprop(H ∗ bigSep Finset.univ (fun t : Fin 4 => B t.val)) -∗ Q ⟨⟩))
      ⊢ wp frame (wpE (defs₀ (F := F)) Variants.none (c : Thread nD τ) none) Set.univ (Scf.Loop.for l hok ⟨⟩ body) Q := by
  have h0 : iprop(H ∗ bigSep Finset.univ (fun t : Fin 4 => A t.val)) ⊢ inv A B H 0 ⟨⟩ :=
    Entails.of_eq (by unfold inv; rw [mixed_zero])
  have hN : ∀ acc, inv A B H (Scf.trips l.lb l.ub l.st) acc ⊢ iprop(H ∗ bigSep Finset.univ (fun t : Fin 4 => B t.val)) := fun acc =>
    Entails.of_eq (by unfold inv; rw [show Scf.trips l.lb l.ub l.st = 4 from h4, mixed_four])
  iintro ⟨HH, HA, HK⟩
  iapply (Scf.wp_for frame (wpE (defs₀ (F := F)) Variants.none (c : Thread nD τ) none) Set.univ l.lb l.ub l.st hok ⟨⟩ body (inv A B H)
    (fun k acc => mixed_step c A B H ⟨k.val, h4 ▸ k.isLt⟩ (body k acc) (trip k.val k.isLt)))
  isplitl [HH HA]
  · iapply h0
    isplitl [HH]; · iexact HH
    iexact HA
  · iintro %acc Hinv
    iapply HK
    iapply (hN acc)
    iexact Hinv

end Cert.Kernel.Hand

end
-- ==== Proof.IssueB.lean ====
import proofs.«407547_j20040317403343_3_alg».proof.Proof.GroupsB

set_option maxRecDepth 16384
set_option maxHeartbeats 4000000

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- One trip of the issue loop takes its 64 rows from free to in flight: every id word it reads names a row inside the
    table. The four trips differ only in their rows. -/
theorem issue [∀ e, Nonempty (Elt F e)] (c : Dev nD) (i : grid0.Coords) (arg2 : Memref sig .tc .smem S1x1x256 .i32) (harg2 : arg2.IsWhole) (arg3 : Memref sig .tc .vmem S1x1x256 .f32) (harg3 : arg3.IsWhole) (arg4 : Memref sig .tc .vmem S1x1x256 .i32) (harg4 : arg4.IsWhole) (arg6 : Memref sig .tc .vmem S1x4096x64 .f32) (harg6 : arg6.IsWhole)
    (x2 : Vec F S1x1x256 .i32) (hx : ∀ y, (x2 y : BitVec 32).toNat < 1000000)
    (fa : Buf (Elt F) (tabM.view.loc (c : Thread nD τ))) :
    ∀ (n : ℕ) (hn : n < k0_t1_loop.trips),
      iprop((arg2.view.loc (c : Thread nD τ) ↦[arg2.view.set]{fullShare} harg2.unread x2) ∗ GFree c fa n)
        ⊢ wp frame (wpE (defs₀ (F := F)) Variants.none (c : Thread nD τ) none) Set.univ
          (k0_t1_body i arg2 harg2 arg3 harg3 arg4 harg4 tabM (Memref.isWhole_whole _) arg6 harg6 scrM (Memref.isWhole_whole _) cc0_scratch1 ⟨n, hn⟩ ⟨⟩)
          (fun _ => iprop((arg2.view.loc (c : Thread nD τ) ↦[arg2.view.set]{fullShare} harg2.unread x2) ∗ GFly c fa x2 n))
  | 0, h | 1, h | 2, h | 3, h => by
    have e : h = (by decide) := rfl; subst e
    have hword : ∀ (r : LoadRect S1x1x256) (y : r.shape.Idx), ((arg2.view.readAt (Elt F) r (harg2.unread x2) y : Elt F .i32) : BitVec 32).toNat < 1000000 := by
      intro r y; simp only [View.readAt_apply, Memref.IsWhole.read_unread]; exact hx _
    simp only [GFree, GFly, GLanded, rowsOf, rowsFrom, chain, Nat.reduceMul, Nat.reduceAdd, Nat.reduceMod]
    unfold FREE
    iintro ⟨H2, ⟨Hc0, ⟨%f0, Hs0⟩, Ht0⟩, ⟨Hc1, ⟨%f1, Hs1⟩, Ht1⟩, ⟨Hc2, ⟨%f2, Hs2⟩, Ht2⟩, ⟨Hc3, ⟨%f3, Hs3⟩, Ht3⟩, ⟨Hc4, ⟨%f4, Hs4⟩, Ht4⟩, ⟨Hc5, ⟨%f5, Hs5⟩, Ht5⟩, ⟨Hc6, ⟨%f6, Hs6⟩, Ht6⟩, ⟨Hc7, ⟨%f7, Hs7⟩, Ht7⟩, ⟨Hc8, ⟨%f8, Hs8⟩, Ht8⟩, ⟨Hc9, ⟨%f9, Hs9⟩, Ht9⟩, ⟨Hc10, ⟨%f10, Hs10⟩, Ht10⟩, ⟨Hc11, ⟨%f11, Hs11⟩, Ht11⟩, ⟨Hc12, ⟨%f12, Hs12⟩, Ht12⟩, ⟨Hc13, ⟨%f13, Hs13⟩, Ht13⟩, ⟨Hc14, ⟨%f14, Hs14⟩, Ht14⟩, ⟨Hc15, ⟨%f15, Hs15⟩, Ht15⟩, ⟨Hc16, ⟨%f16, Hs16⟩, Ht16⟩, ⟨Hc17, ⟨%f17, Hs17⟩, Ht17⟩, ⟨Hc18, ⟨%f18, Hs18⟩, Ht18⟩, ⟨Hc19, ⟨%f19, Hs19⟩, Ht19⟩, ⟨Hc20, ⟨%f20, Hs20⟩, Ht20⟩, ⟨Hc21, ⟨%f21, Hs21⟩, Ht21⟩, ⟨Hc22, ⟨%f22, Hs22⟩, Ht22⟩, ⟨Hc23, ⟨%f23, Hs23⟩, Ht23⟩, ⟨Hc24, ⟨%f24, Hs24⟩, Ht24⟩, ⟨Hc25, ⟨%f25, Hs25⟩, Ht25⟩, ⟨Hc26, ⟨%f26, Hs26⟩, Ht26⟩, ⟨Hc27, ⟨%f27, Hs27⟩, Ht27⟩, ⟨Hc28, ⟨%f28, Hs28⟩, Ht28⟩, ⟨Hc29, ⟨%f29, Hs29⟩, Ht29⟩, ⟨Hc30, ⟨%f30, Hs30⟩, Ht30⟩, ⟨Hc31, ⟨%f31, Hs31⟩, Ht31⟩, ⟨Hc32, ⟨%f32, Hs32⟩, Ht32⟩, ⟨Hc33, ⟨%f33, Hs33⟩, Ht33⟩, ⟨Hc34, ⟨%f34, Hs34⟩, Ht34⟩, ⟨Hc35, ⟨%f35, Hs35⟩, Ht35⟩, ⟨Hc36, ⟨%f36, Hs36⟩, Ht36⟩, ⟨Hc37, ⟨%f37, Hs37⟩, Ht37⟩, ⟨Hc38, ⟨%f38, Hs38⟩, Ht38⟩, ⟨Hc39, ⟨%f39, Hs39⟩, Ht39⟩, ⟨Hc40, ⟨%f40, Hs40⟩, Ht40⟩, ⟨Hc41, ⟨%f41, Hs41⟩, Ht41⟩, ⟨Hc42, ⟨%f42, Hs42⟩, Ht42⟩, ⟨Hc43, ⟨%f43, Hs43⟩, Ht43⟩, ⟨Hc44, ⟨%f44, Hs44⟩, Ht44⟩, ⟨Hc45, ⟨%f45, Hs45⟩, Ht45⟩, ⟨Hc46, ⟨%f46, Hs46⟩, Ht46⟩, ⟨Hc47, ⟨%f47, Hs47⟩, Ht47⟩, ⟨Hc48, ⟨%f48, Hs48⟩, Ht48⟩, ⟨Hc49, ⟨%f49, Hs49⟩, Ht49⟩, ⟨Hc50, ⟨%f50, Hs50⟩, Ht50⟩, ⟨Hc51, ⟨%f51, Hs51⟩, Ht51⟩, ⟨Hc52, ⟨%f52, Hs52⟩, Ht52⟩, ⟨Hc53, ⟨%f53, Hs53⟩, Ht53⟩, ⟨Hc54, ⟨%f54, Hs54⟩, Ht54⟩, ⟨Hc55, ⟨%f55, Hs55⟩, Ht55⟩, ⟨Hc56, ⟨%f56, Hs56⟩, Ht56⟩, ⟨Hc57, ⟨%f57, Hs57⟩, Ht57⟩, ⟨Hc58, ⟨%f58, Hs58⟩, Ht58⟩, ⟨Hc59, ⟨%f59, Hs59⟩, Ht59⟩, ⟨Hc60, ⟨%f60, Hs60⟩, Ht60⟩, ⟨Hc61, ⟨%f61, Hs61⟩, Ht61⟩, ⟨Hc62, ⟨%f62, Hs62⟩, Ht62⟩, ⟨Hc63, ⟨%f63, Hs63⟩, Ht63⟩⟩
    unfold k0_t1_body
    sl_exec (disch := (refine chk_core _ ?_; sl_unfold_run_names; exact hword _ _))
    sl_step
    isplitl [H2]; · iexact H2
    isplitl [Hc0 Ht0]; · fly_close Hc0 Ht0 f0 hword x2
    isplitl [Hc1 Ht1]; · fly_close Hc1 Ht1 f1 hword x2
    isplitl [Hc2 Ht2]; · fly_close Hc2 Ht2 f2 hword x2
    isplitl [Hc3 Ht3]; · fly_close Hc3 Ht3 f3 hword x2
    isplitl [Hc4 Ht4]; · fly_close Hc4 Ht4 f4 hword x2
    isplitl [Hc5 Ht5]; · fly_close Hc5 Ht5 f5 hword x2
    isplitl [Hc6 Ht6]; · fly_close Hc6 Ht6 f6 hword x2
    isplitl [Hc7 Ht7]; · fly_close Hc7 Ht7 f7 hword x2
    isplitl [Hc8 Ht8]; · fly_close Hc8 Ht8 f8 hword x2
    isplitl [Hc9 Ht9]; · fly_close Hc9 Ht9 f9 hword x2
    isplitl [Hc10 Ht10]; · fly_close Hc10 Ht10 f10 hword x2
    isplitl [Hc11 Ht11]; · fly_close Hc11 Ht11 f11 hword x2
    isplitl [Hc12 Ht12]; · fly_close Hc12 Ht12 f12 hword x2
    isplitl [Hc13 Ht13]; · fly_close Hc13 Ht13 f13 hword x2
    isplitl [Hc14 Ht14]; · fly_close Hc14 Ht14 f14 hword x2
    isplitl [Hc15 Ht15]; · fly_close Hc15 Ht15 f15 hword x2
    isplitl [Hc16 Ht16]; · fly_close Hc16 Ht16 f16 hword x2
    isplitl [Hc17 Ht17]; · fly_close Hc17 Ht17 f17 hword x2
    isplitl [Hc18 Ht18]; · fly_close Hc18 Ht18 f18 hword x2
    isplitl [Hc19 Ht19]; · fly_close Hc19 Ht19 f19 hword x2
    isplitl [Hc20 Ht20]; · fly_close Hc20 Ht20 f20 hword x2
    isplitl [Hc21 Ht21]; · fly_close Hc21 Ht21 f21 hword x2
    isplitl [Hc22 Ht22]; · fly_close Hc22 Ht22 f22 hword x2
    isplitl [Hc23 Ht23]; · fly_close Hc23 Ht23 f23 hword x2
    isplitl [Hc24 Ht24]; · fly_close Hc24 Ht24 f24 hword x2
    isplitl [Hc25 Ht25]; · fly_close Hc25 Ht25 f25 hword x2
    isplitl [Hc26 Ht26]; · fly_close Hc26 Ht26 f26 hword x2
    isplitl [Hc27 Ht27]; · fly_close Hc27 Ht27 f27 hword x2
    isplitl [Hc28 Ht28]; · fly_close Hc28 Ht28 f28 hword x2
    isplitl [Hc29 Ht29]; · fly_close Hc29 Ht29 f29 hword x2
    isplitl [Hc30 Ht30]; · fly_close Hc30 Ht30 f30 hword x2
    isplitl [Hc31 Ht31]; · fly_close Hc31 Ht31 f31 hword x2
    isplitl [Hc32 Ht32]; · fly_close Hc32 Ht32 f32 hword x2
    isplitl [Hc33 Ht33]; · fly_close Hc33 Ht33 f33 hword x2
    isplitl [Hc34 Ht34]; · fly_close Hc34 Ht34 f34 hword x2
    isplitl [Hc35 Ht35]; · fly_close Hc35 Ht35 f35 hword x2
    isplitl [Hc36 Ht36]; · fly_close Hc36 Ht36 f36 hword x2
    isplitl [Hc37 Ht37]; · fly_close Hc37 Ht37 f37 hword x2
    isplitl [Hc38 Ht38]; · fly_close Hc38 Ht38 f38 hword x2
    isplitl [Hc39 Ht39]; · fly_close Hc39 Ht39 f39 hword x2
    isplitl [Hc40 Ht40]; · fly_close Hc40 Ht40 f40 hword x2
    isplitl [Hc41 Ht41]; · fly_close Hc41 Ht41 f41 hword x2
    isplitl [Hc42 Ht42]; · fly_close Hc42 Ht42 f42 hword x2
    isplitl [Hc43 Ht43]; · fly_close Hc43 Ht43 f43 hword x2
    isplitl [Hc44 Ht44]; · fly_close Hc44 Ht44 f44 hword x2
    isplitl [Hc45 Ht45]; · fly_close Hc45 Ht45 f45 hword x2
    isplitl [Hc46 Ht46]; · fly_close Hc46 Ht46 f46 hword x2
    isplitl [Hc47 Ht47]; · fly_close Hc47 Ht47 f47 hword x2
    isplitl [Hc48 Ht48]; · fly_close Hc48 Ht48 f48 hword x2
    isplitl [Hc49 Ht49]; · fly_close Hc49 Ht49 f49 hword x2
    isplitl [Hc50 Ht50]; · fly_close Hc50 Ht50 f50 hword x2
    isplitl [Hc51 Ht51]; · fly_close Hc51 Ht51 f51 hword x2
    isplitl [Hc52 Ht52]; · fly_close Hc52 Ht52 f52 hword x2
    isplitl [Hc53 Ht53]; · fly_close Hc53 Ht53 f53 hword x2
    isplitl [Hc54 Ht54]; · fly_close Hc54 Ht54 f54 hword x2
    isplitl [Hc55 Ht55]; · fly_close Hc55 Ht55 f55 hword x2
    isplitl [Hc56 Ht56]; · fly_close Hc56 Ht56 f56 hword x2
    isplitl [Hc57 Ht57]; · fly_close Hc57 Ht57 f57 hword x2
    isplitl [Hc58 Ht58]; · fly_close Hc58 Ht58 f58 hword x2
    isplitl [Hc59 Ht59]; · fly_close Hc59 Ht59 f59 hword x2
    isplitl [Hc60 Ht60]; · fly_close Hc60 Ht60 f60 hword x2
    isplitl [Hc61 Ht61]; · fly_close Hc61 Ht61 f61 hword x2
    isplitl [Hc62 Ht62]; · fly_close Hc62 Ht62 f62 hword x2
    fly_close Hc63 Ht63 f63 hword x2
  | n + 4, h => absurd (trips1 ▸ h) (by omega)

end Cert.Kernel.Hand

end
-- ==== Proof.WaitB.lean ====
import proofs.«407547_j20040317403343_3_alg».proof.Proof.GroupsB

set_option maxRecDepth 16384
set_option maxHeartbeats 4000000

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- One trip of the wait loop takes its 64 rows from in flight to landed; what a row then holds was fixed when its
    copy was issued. The four trips differ only in their rows. -/
theorem wait [∀ e, Nonempty (Elt F e)] (c : Dev nD) (i : grid0.Coords) (arg2 : Memref sig .tc .smem S1x1x256 .i32) (harg2 : arg2.IsWhole) (arg3 : Memref sig .tc .vmem S1x1x256 .f32) (harg3 : arg3.IsWhole) (arg4 : Memref sig .tc .vmem S1x1x256 .i32) (harg4 : arg4.IsWhole) (arg6 : Memref sig .tc .vmem S1x4096x64 .f32) (harg6 : arg6.IsWhole)
    (x2 : Vec F S1x1x256 .i32) (hx : ∀ y, (x2 y : BitVec 32).toNat < 1000000)
    (fa : Buf (Elt F) (tabM.view.loc (c : Thread nD τ))) :
    ∀ (n : ℕ) (hn : n < k0_t2_loop.trips),
      iprop(((arg2.view.loc (c : Thread nD τ) ↦[arg2.view.set]{fullShare} harg2.unread x2) ∗ (∃ W, owes (c : Thread nD τ) 0 W)) ∗ GFly c fa x2 n)
        ⊢ wp frame (wpE (defs₀ (F := F)) Variants.none (c : Thread nD τ) none) Set.univ
          (k0_t2_body i arg2 harg2 arg3 harg3 arg4 harg4 tabM (Memref.isWhole_whole _) arg6 harg6 scrM (Memref.isWhole_whole _) cc0_scratch1 ⟨n, hn⟩ ⟨⟩)
          (fun _ => iprop(((arg2.view.loc (c : Thread nD τ) ↦[arg2.view.set]{fullShare} harg2.unread x2) ∗ (∃ W, owes (c : Thread nD τ) 0 W)) ∗ GLanded c fa x2 n))
  | 0, h | 1, h | 2, h | 3, h => by
    have e : h = (by decide) := rfl; subst e
    have hword : ∀ (r : LoadRect S1x1x256) (y : r.shape.Idx), ((arg2.view.readAt (Elt F) r (harg2.unread x2) y : Elt F .i32) : BitVec 32).toNat < 1000000 := by
      intro r y; simp only [View.readAt_apply, Memref.IsWhole.read_unread]; exact hx _
    simp only [GFree, GFly, GLanded, rowsOf, rowsFrom, chain, Nat.reduceMul, Nat.reduceAdd, Nat.reduceMod]
    unfold FLY
    iintro ⟨⟨H2, ⟨%W, HO⟩⟩, ⟨%S0, %f0, %pay0, Hc0, Ht0, %hp0⟩, ⟨%S1, %f1, %pay1, Hc1, Ht1, %hp1⟩, ⟨%S2, %f2, %pay2, Hc2, Ht2, %hp2⟩, ⟨%S3, %f3, %pay3, Hc3, Ht3, %hp3⟩, ⟨%S4, %f4, %pay4, Hc4, Ht4, %hp4⟩, ⟨%S5, %f5, %pay5, Hc5, Ht5, %hp5⟩, ⟨%S6, %f6, %pay6, Hc6, Ht6, %hp6⟩, ⟨%S7, %f7, %pay7, Hc7, Ht7, %hp7⟩, ⟨%S8, %f8, %pay8, Hc8, Ht8, %hp8⟩, ⟨%S9, %f9, %pay9, Hc9, Ht9, %hp9⟩, ⟨%S10, %f10, %pay10, Hc10, Ht10, %hp10⟩, ⟨%S11, %f11, %pay11, Hc11, Ht11, %hp11⟩, ⟨%S12, %f12, %pay12, Hc12, Ht12, %hp12⟩, ⟨%S13, %f13, %pay13, Hc13, Ht13, %hp13⟩, ⟨%S14, %f14, %pay14, Hc14, Ht14, %hp14⟩, ⟨%S15, %f15, %pay15, Hc15, Ht15, %hp15⟩, ⟨%S16, %f16, %pay16, Hc16, Ht16, %hp16⟩, ⟨%S17, %f17, %pay17, Hc17, Ht17, %hp17⟩, ⟨%S18, %f18, %pay18, Hc18, Ht18, %hp18⟩, ⟨%S19, %f19, %pay19, Hc19, Ht19, %hp19⟩, ⟨%S20, %f20, %pay20, Hc20, Ht20, %hp20⟩, ⟨%S21, %f21, %pay21, Hc21, Ht21, %hp21⟩, ⟨%S22, %f22, %pay22, Hc22, Ht22, %hp22⟩, ⟨%S23, %f23, %pay23, Hc23, Ht23, %hp23⟩, ⟨%S24, %f24, %pay24, Hc24, Ht24, %hp24⟩, ⟨%S25, %f25, %pay25, Hc25, Ht25, %hp25⟩, ⟨%S26, %f26, %pay26, Hc26, Ht26, %hp26⟩, ⟨%S27, %f27, %pay27, Hc27, Ht27, %hp27⟩, ⟨%S28, %f28, %pay28, Hc28, Ht28, %hp28⟩, ⟨%S29, %f29, %pay29, Hc29, Ht29, %hp29⟩, ⟨%S30, %f30, %pay30, Hc30, Ht30, %hp30⟩, ⟨%S31, %f31, %pay31, Hc31, Ht31, %hp31⟩, ⟨%S32, %f32, %pay32, Hc32, Ht32, %hp32⟩, ⟨%S33, %f33, %pay33, Hc33, Ht33, %hp33⟩, ⟨%S34, %f34, %pay34, Hc34, Ht34, %hp34⟩, ⟨%S35, %f35, %pay35, Hc35, Ht35, %hp35⟩, ⟨%S36, %f36, %pay36, Hc36, Ht36, %hp36⟩, ⟨%S37, %f37, %pay37, Hc37, Ht37, %hp37⟩, ⟨%S38, %f38, %pay38, Hc38, Ht38, %hp38⟩, ⟨%S39, %f39, %pay39, Hc39, Ht39, %hp39⟩, ⟨%S40, %f40, %pay40, Hc40, Ht40, %hp40⟩, ⟨%S41, %f41, %pay41, Hc41, Ht41, %hp41⟩, ⟨%S42, %f42, %pay42, Hc42, Ht42, %hp42⟩, ⟨%S43, %f43, %pay43, Hc43, Ht43, %hp43⟩, ⟨%S44, %f44, %pay44, Hc44, Ht44, %hp44⟩, ⟨%S45, %f45, %pay45, Hc45, Ht45, %hp45⟩, ⟨%S46, %f46, %pay46, Hc46, Ht46, %hp46⟩, ⟨%S47, %f47, %pay47, Hc47, Ht47, %hp47⟩, ⟨%S48, %f48, %pay48, Hc48, Ht48, %hp48⟩, ⟨%S49, %f49, %pay49, Hc49, Ht49, %hp49⟩, ⟨%S50, %f50, %pay50, Hc50, Ht50, %hp50⟩, ⟨%S51, %f51, %pay51, Hc51, Ht51, %hp51⟩, ⟨%S52, %f52, %pay52, Hc52, Ht52, %hp52⟩, ⟨%S53, %f53, %pay53, Hc53, Ht53, %hp53⟩, ⟨%S54, %f54, %pay54, Hc54, Ht54, %hp54⟩, ⟨%S55, %f55, %pay55, Hc55, Ht55, %hp55⟩, ⟨%S56, %f56, %pay56, Hc56, Ht56, %hp56⟩, ⟨%S57, %f57, %pay57, Hc57, Ht57, %hp57⟩, ⟨%S58, %f58, %pay58, Hc58, Ht58, %hp58⟩, ⟨%S59, %f59, %pay59, Hc59, Ht59, %hp59⟩, ⟨%S60, %f60, %pay60, Hc60, Ht60, %hp60⟩, ⟨%S61, %f61, %pay61, Hc61, Ht61, %hp61⟩, ⟨%S62, %f62, %pay62, Hc62, Ht62, %hp62⟩, ⟨%S63, %f63, %pay63, Hc63, Ht63, %hp63⟩⟩
    unfold k0_t2_body
    sl_exec (disch := (refine chk_core _ ?_; sl_unfold_run_names; exact hword _ _))
    sl_step
    isplitl [H2 HO]
    · isplitl [H2]; · iexact H2
      iexists _; iexact HO
    isplitl [Hc0 Hc0_dst Ht0]; · landed_close Hc0 Hc0_dst Ht0 f0 pay0 hp0
    isplitl [Hc1 Hc1_dst Ht1]; · landed_close Hc1 Hc1_dst Ht1 f1 pay1 hp1
    isplitl [Hc2 Hc2_dst Ht2]; · landed_close Hc2 Hc2_dst Ht2 f2 pay2 hp2
    isplitl [Hc3 Hc3_dst Ht3]; · landed_close Hc3 Hc3_dst Ht3 f3 pay3 hp3
    isplitl [Hc4 Hc4_dst Ht4]; · landed_close Hc4 Hc4_dst Ht4 f4 pay4 hp4
    isplitl [Hc5 Hc5_dst Ht5]; · landed_close Hc5 Hc5_dst Ht5 f5 pay5 hp5
    isplitl [Hc6 Hc6_dst Ht6]; · landed_close Hc6 Hc6_dst Ht6 f6 pay6 hp6
    isplitl [Hc7 Hc7_dst Ht7]; · landed_close Hc7 Hc7_dst Ht7 f7 pay7 hp7
    isplitl [Hc8 Hc8_dst Ht8]; · landed_close Hc8 Hc8_dst Ht8 f8 pay8 hp8
    isplitl [Hc9 Hc9_dst Ht9]; · landed_close Hc9 Hc9_dst Ht9 f9 pay9 hp9
    isplitl [Hc10 Hc10_dst Ht10]; · landed_close Hc10 Hc10_dst Ht10 f10 pay10 hp10
    isplitl [Hc11 Hc11_dst Ht11]; · landed_close Hc11 Hc11_dst Ht11 f11 pay11 hp11
    isplitl [Hc12 Hc12_dst Ht12]; · landed_close Hc12 Hc12_dst Ht12 f12 pay12 hp12
    isplitl [Hc13 Hc13_dst Ht13]; · landed_close Hc13 Hc13_dst Ht13 f13 pay13 hp13
    isplitl [Hc14 Hc14_dst Ht14]; · landed_close Hc14 Hc14_dst Ht14 f14 pay14 hp14
    isplitl [Hc15 Hc15_dst Ht15]; · landed_close Hc15 Hc15_dst Ht15 f15 pay15 hp15
    isplitl [Hc16 Hc16_dst Ht16]; · landed_close Hc16 Hc16_dst Ht16 f16 pay16 hp16
    isplitl [Hc17 Hc17_dst Ht17]; · landed_close Hc17 Hc17_dst Ht17 f17 pay17 hp17
    isplitl [Hc18 Hc18_dst Ht18]; · landed_close Hc18 Hc18_dst Ht18 f18 pay18 hp18
    isplitl [Hc19 Hc19_dst Ht19]; · landed_close Hc19 Hc19_dst Ht19 f19 pay19 hp19
    isplitl [Hc20 Hc20_dst Ht20]; · landed_close Hc20 Hc20_dst Ht20 f20 pay20 hp20
    isplitl [Hc21 Hc21_dst Ht21]; · landed_close Hc21 Hc21_dst Ht21 f21 pay21 hp21
    isplitl [Hc22 Hc22_dst Ht22]; · landed_close Hc22 Hc22_dst Ht22 f22 pay22 hp22
    isplitl [Hc23 Hc23_dst Ht23]; · landed_close Hc23 Hc23_dst Ht23 f23 pay23 hp23
    isplitl [Hc24 Hc24_dst Ht24]; · landed_close Hc24 Hc24_dst Ht24 f24 pay24 hp24
    isplitl [Hc25 Hc25_dst Ht25]; · landed_close Hc25 Hc25_dst Ht25 f25 pay25 hp25
    isplitl [Hc26 Hc26_dst Ht26]; · landed_close Hc26 Hc26_dst Ht26 f26 pay26 hp26
    isplitl [Hc27 Hc27_dst Ht27]; · landed_close Hc27 Hc27_dst Ht27 f27 pay27 hp27
    isplitl [Hc28 Hc28_dst Ht28]; · landed_close Hc28 Hc28_dst Ht28 f28 pay28 hp28
    isplitl [Hc29 Hc29_dst Ht29]; · landed_close Hc29 Hc29_dst Ht29 f29 pay29 hp29
    isplitl [Hc30 Hc30_dst Ht30]; · landed_close Hc30 Hc30_dst Ht30 f30 pay30 hp30
    isplitl [Hc31 Hc31_dst Ht31]; · landed_close Hc31 Hc31_dst Ht31 f31 pay31 hp31
    isplitl [Hc32 Hc32_dst Ht32]; · landed_close Hc32 Hc32_dst Ht32 f32 pay32 hp32
    isplitl [Hc33 Hc33_dst Ht33]; · landed_close Hc33 Hc33_dst Ht33 f33 pay33 hp33
    isplitl [Hc34 Hc34_dst Ht34]; · landed_close Hc34 Hc34_dst Ht34 f34 pay34 hp34
    isplitl [Hc35 Hc35_dst Ht35]; · landed_close Hc35 Hc35_dst Ht35 f35 pay35 hp35
    isplitl [Hc36 Hc36_dst Ht36]; · landed_close Hc36 Hc36_dst Ht36 f36 pay36 hp36
    isplitl [Hc37 Hc37_dst Ht37]; · landed_close Hc37 Hc37_dst Ht37 f37 pay37 hp37
    isplitl [Hc38 Hc38_dst Ht38]; · landed_close Hc38 Hc38_dst Ht38 f38 pay38 hp38
    isplitl [Hc39 Hc39_dst Ht39]; · landed_close Hc39 Hc39_dst Ht39 f39 pay39 hp39
    isplitl [Hc40 Hc40_dst Ht40]; · landed_close Hc40 Hc40_dst Ht40 f40 pay40 hp40
    isplitl [Hc41 Hc41_dst Ht41]; · landed_close Hc41 Hc41_dst Ht41 f41 pay41 hp41
    isplitl [Hc42 Hc42_dst Ht42]; · landed_close Hc42 Hc42_dst Ht42 f42 pay42 hp42
    isplitl [Hc43 Hc43_dst Ht43]; · landed_close Hc43 Hc43_dst Ht43 f43 pay43 hp43
    isplitl [Hc44 Hc44_dst Ht44]; · landed_close Hc44 Hc44_dst Ht44 f44 pay44 hp44
    isplitl [Hc45 Hc45_dst Ht45]; · landed_close Hc45 Hc45_dst Ht45 f45 pay45 hp45
    isplitl [Hc46 Hc46_dst Ht46]; · landed_close Hc46 Hc46_dst Ht46 f46 pay46 hp46
    isplitl [Hc47 Hc47_dst Ht47]; · landed_close Hc47 Hc47_dst Ht47 f47 pay47 hp47
    isplitl [Hc48 Hc48_dst Ht48]; · landed_close Hc48 Hc48_dst Ht48 f48 pay48 hp48
    isplitl [Hc49 Hc49_dst Ht49]; · landed_close Hc49 Hc49_dst Ht49 f49 pay49 hp49
    isplitl [Hc50 Hc50_dst Ht50]; · landed_close Hc50 Hc50_dst Ht50 f50 pay50 hp50
    isplitl [Hc51 Hc51_dst Ht51]; · landed_close Hc51 Hc51_dst Ht51 f51 pay51 hp51
    isplitl [Hc52 Hc52_dst Ht52]; · landed_close Hc52 Hc52_dst Ht52 f52 pay52 hp52
    isplitl [Hc53 Hc53_dst Ht53]; · landed_close Hc53 Hc53_dst Ht53 f53 pay53 hp53
    isplitl [Hc54 Hc54_dst Ht54]; · landed_close Hc54 Hc54_dst Ht54 f54 pay54 hp54
    isplitl [Hc55 Hc55_dst Ht55]; · landed_close Hc55 Hc55_dst Ht55 f55 pay55 hp55
    isplitl [Hc56 Hc56_dst Ht56]; · landed_close Hc56 Hc56_dst Ht56 f56 pay56 hp56
    isplitl [Hc57 Hc57_dst Ht57]; · landed_close Hc57 Hc57_dst Ht57 f57 pay57 hp57
    isplitl [Hc58 Hc58_dst Ht58]; · landed_close Hc58 Hc58_dst Ht58 f58 pay58 hp58
    isplitl [Hc59 Hc59_dst Ht59]; · landed_close Hc59 Hc59_dst Ht59 f59 pay59 hp59
    isplitl [Hc60 Hc60_dst Ht60]; · landed_close Hc60 Hc60_dst Ht60 f60 pay60 hp60
    isplitl [Hc61 Hc61_dst Ht61]; · landed_close Hc61 Hc61_dst Ht61 f61 pay61 hp61
    isplitl [Hc62 Hc62_dst Ht62]; · landed_close Hc62 Hc62_dst Ht62 f62 pay62 hp62
    landed_close Hc63 Hc63_dst Ht63 f63 pay63 hp63
  | n + 4, h => absurd (trips2 ▸ h) (by omega)

end Cert.Kernel.Hand

end
-- ==== Proof.SplitJoinB.lean ====
import proofs.«407547_j20040317403343_3_alg».proof.Proof.GroupsB
import Idealize.ShloMosaic.Lib.Ring
import Idealize.ShloMosaic.Lib.Transfers
import Idealize.ShloMosaic.Lib.Pipeline.Kit

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section Groups

variable {M : Type} [URA M]

theorem bigSepL_append {I : Type} (l₁ l₂ : List I) (Φ : I → sProp M) :
    bigSepL (l₁ ++ l₂) Φ = iprop(bigSepL l₁ Φ ∗ bigSepL l₂ Φ) := by
  induction l₁ with
  | nil => exact (equiv_iff.mp emp_sep).symm
  | cons i l ih =>
    rw [List.cons_append, bigSepL_cons, ih, bigSepL_cons]
    have h := Laws.sep_assoc (P := Φ i) (Q := bigSepL l Φ) (R := bigSepL l₂ Φ)
    exact (equiv_iff.mp ⟨h.1, h.2⟩).symm

theorem rows_univ : (Finset.univ : Finset (Fin 256)) = (rowsOf 0 ++ (rowsOf 1 ++ (rowsOf 2 ++ rowsOf 3))).toFinset := by
  decide +kernel

theorem rows_nodup : (rowsOf 0 ++ (rowsOf 1 ++ (rowsOf 2 ++ rowsOf 3))).Nodup := by decide +kernel

theorem bigSep_rows (Φ : Fin 256 → sProp M) :
    bigSep Finset.univ Φ = bigSep Finset.univ fun t : Fin 4 => bigSepL (rowsOf t.val) Φ :=
  (bigSep_univ_eq_bigSepL _ rows_univ rows_nodup Φ).trans <| by
    rw [bigSepL_append, bigSepL_append, bigSepL_append]
    exact (bigSep_univ_eq_bigSepL (M := M) ([0, 1, 2, 3] : List (Fin 4)) (by decide) (by decide)
      fun t => bigSepL (rowsOf t.val) Φ).symm

theorem bigSep_mono_pm {I : Type} {s : Finset I} {Φ Ψ : I → sProp M} (h : ∀ i ∈ s, Φ i ⊢ Ψ i) : bigSep s Φ ⊢ bigSep s Ψ :=
  bigSep_mono h

theorem bigSep_sep3 {I : Type} {s : Finset I} (A B C : I → sProp M) :
    bigSep s (fun i => iprop(A i ∗ B i ∗ C i)) = iprop(bigSep s A ∗ bigSep s B ∗ bigSep s C) := by
  rw [bigSep_sep', bigSep_sep']

end Groups

theorem free_groups (c : Dev nD) (fa : Buf (Elt F) (tabM.view.loc (c : Thread nD τ))) :
    bigSep Finset.univ (FREE c fa) = bigSep Finset.univ fun t : Fin 4 => GFree c fa t.val :=
  (bigSep_rows _).trans (bigSep_congr fun _ _ => (chain_eq _ _).symm)

theorem landed_groups (c : Dev nD) (fa : Buf (Elt F) (tabM.view.loc (c : Thread nD τ))) (x2 : Vec F S1x1x256 .i32) :
    bigSep Finset.univ (LANDED c fa x2) = bigSep Finset.univ fun t : Fin 4 => GLanded c fa x2 t.val :=
  (bigSep_rows _).trans (bigSep_congr fun _ _ => (chain_eq _ _).symm)

abbrev rowRect (r : Fin 256) : Rect S256x1x64 := Rect.unit ![r.val, 0, 0] S1x1x64.size (slot_inb r)

theorem slotR_set (r : Fin 256) : (slotR r).view.set = (rowRect r).set :=
  (View.set_reshape (v := (View.whole cc0_scratch0).slice (rowRect r)) _).trans (View.set_slice_whole cc0_scratch0 (rowRect r))

theorem rows_disjoint (r r' : Fin 256) (h : r ≠ r') : Disjoint (rowRect r).set (rowRect r').set :=
  Ring.lead_disjoint (s := S256x1x64) (NB := 256) (0 : Fin 3) 1 (fun r : Fin 256 => ![r.val, 0, 0]) S1x1x64.size slot_inb
    (fun b => by show b.val = 1 * b.val; omega) rfl r r' h

theorem rows_cover : Finset.univ.biUnion (fun r : Fin 256 => (rowRect r).set) = Finset.univ :=
  Ring.lead_cover (s := S256x1x64) (NB := 256) (0 : Fin 3) 1 (fun r : Fin 256 => ![r.val, 0, 0]) S1x1x64.size slot_inb
    (fun b => by show b.val = 1 * b.val; omega) (fun b a ha => by fin_cases a <;> first | exact absurd rfl ha | rfl) rfl
    (fun a ha => by fin_cases a <;> first | exact absurd rfl ha | rfl) rfl

theorem scr_rows (c : Dev nD) (f : Buf (Elt F) (scrM.view.loc (c : Thread nD τ))) :
    (scrM.view.loc (c : Thread nD τ) ↦{fullShare} f : sProp 𝕄)
      = bigSep Finset.univ fun r : Fin 256 => (slotR r).view.loc (c : Thread nD τ) ↦[(slotR r).view.set]{fullShare} f := by
  rw [Ring.pointsTo_blocks (Ix := Unit) (Name := ℕ) (U := Pipeline.UD sig nD τ) (Lvl := ℕ) (q := fullShare)
    (fun r : Fin 256 => (rowRect r).set) rows_disjoint rows_cover f]
  refine bigSep_congr fun r _ => ?_
  rw [slotR_set]
  rfl

theorem scr_in (c : Dev nD) :
    (iprop(∃ d, owns (c : Thread nD τ) scrM fullShare d) : sProp 𝕄)
      ⊢ bigSep Finset.univ fun r : Fin 256 => iprop(∃ f, (slotR r).view.loc (c : Thread nD τ) ↦[(slotR r).view.set]{fullShare} f) := by
  unfold owns
  iintro ⟨%d, %f, -, H⟩
  iapply (bigSep_mono_pm (s := Finset.univ)
    (Φ := fun r : Fin 256 => ((slotR r).view.loc (c : Thread nD τ) ↦[(slotR r).view.set]{fullShare} f : sProp 𝕄))
    (fun r _ => by iintro H; iexists f; iexact H))
  iapply (Entails.of_eq (scr_rows c f))
  iapply (Entails.of_eq (congrArg (fun S => (scrM.view.loc (c : Thread nD τ) ↦[S]{fullShare} f : sProp 𝕄)) (View.set_whole cc0_scratch0)))
  iexact H

def TokRest (c : Dev nD) (fa : Buf (Elt F) (tabM.view.loc (c : Thread nD τ))) : sProp 𝕄 :=
  iprop((tabM.view.loc (c : Thread nD τ) ↦{Transfers.shareDrop fullShare 264} fa)
    ∗ bigSep Finset.univ fun i : Fin 8 =>
        (tabM.view.loc (c : Thread nD τ) ↦{Transfers.shareTok fullShare 264 (Fin.castAdd 256 i)} fa))

theorem tab_toks (c : Dev nD) (fa : Buf (Elt F) (tabM.view.loc (c : Thread nD τ))) :
    (tabM.view.loc (c : Thread nD τ) ↦{fullShare} fa : sProp 𝕄)
      = iprop(bigSep Finset.univ (fun r : Fin 256 => tokR c r Finset.univ fa) ∗ TokRest c fa) := by
  have h := Transfers.pointsTo_toks (Ix := Unit) (Name := ℕ) (U := Pipeline.UD sig nD τ) (Lvl := ℕ) (Val := Elt F)
    (ℓ := tabM.view.loc (c : Thread nD τ)) (S := Finset.univ) (f := fa) fullShare 264
  rw [equiv_iff.mp ⟨h.1, h.2⟩,
    bigSep_univ_equiv (finSumFinEquiv : Fin 8 ⊕ Fin 256 ≃ Fin 264), bigSep_univ_sum]
  unfold TokRest
  have e : ∀ A B C : sProp 𝕄, iprop(A ∗ B ∗ C) = iprop(C ∗ A ∗ B) := fun A B C => by
    have h1 := Laws.sep_assoc (P := A) (Q := B) (R := C)
    have h2 := Laws.sep_comm (P := iprop(A ∗ B)) (Q := C)
    exact (equiv_iff.mp ⟨h1.2.trans h2.1, h2.2.trans h1.1⟩)
  exact e _ _ _

theorem free_rows (c : Dev nD) (fa : Buf (Elt F) (tabM.view.loc (c : Thread nD τ))) :
    bigSep Finset.univ (FREE c fa)
      = iprop(cells0 (F := F) c
          ∗ bigSep Finset.univ (fun r : Fin 256 => iprop(∃ f, (slotR r).view.loc (c : Thread nD τ) ↦[(slotR r).view.set]{fullShare} f))
          ∗ bigSep Finset.univ (fun r : Fin 256 => tokR c r Finset.univ fa)) := by
  show bigSep Finset.univ (fun r : Fin 256 => iprop(semVal ((c : Thread nD τ), osem0 r) 0
      ∗ (∃ f, (slotR r).view.loc (c : Thread nD τ) ↦[(slotR r).view.set]{fullShare} f) ∗ tokR c r Finset.univ fa)) = _
  rw [bigSep_sep', bigSep_sep']
  rfl

theorem families_in (c : Dev nD) (fa : Buf (Elt F) (tabM.view.loc (c : Thread nD τ))) :
    iprop((∃ d, owns (c : Thread nD τ) scrM fullShare d) ∗ cells0 (F := F) c ∗ (tabM.view.loc (c : Thread nD τ) ↦{fullShare} fa))
      ⊢ iprop(bigSep Finset.univ (fun t : Fin 4 => GFree c fa t.val) ∗ TokRest c fa) := by
  iintro ⟨Hscr, Hcells, Htab⟩
  ihave Hrows := (scr_in (F := F) c) $$ Hscr
  ihave Htoks := (Entails.of_eq (tab_toks c fa)) $$ Htab
  icases Htoks with ⟨Htoks, Hrest⟩
  ihave Hfree : bigSep Finset.univ (FREE c fa) $$ [Hcells Hrows Htoks]
  · irw [free_rows]
    isplitl [Hcells]; · iexact Hcells
    isplitl [Hrows]; · iexact Hrows
    iexact Htoks
  ihave Hg := (Entails.of_eq (free_groups c fa)) $$ Hfree
  isplitl [Hg]; · iexact Hg
  iexact Hrest

theorem slotR_emb (r : Fin 256) (z : S1x64.Idx) :
    (slotR r).view.emb z = (ix3 r (0 : Fin 1) (z 1) : S256x1x64.Idx) := by
  have h0 : (z 0).val < 1 := (z 0).isLt
  have hy : Shape.reshapeEquiv (squeezes_S1x1x64_S1x64.numel_eq) z = (ix3 (0 : Fin 1) (0 : Fin 1) (z 1) : S1x1x64.Idx) :=
    Shape.reshapeEquiv_eq_of_rowMajor _ (by
      rw [Shape.rowMajor_val_three, Shape.rowMajor_val_two]
      show (0 * 1 + 0) * 64 + (z 1).val = (z 0).val * 64 + (z 1).val
      omega)
  show (rowRect r).emb (Shape.reshapeEquiv (squeezes_S1x1x64_S1x64.numel_eq) z) = _
  rw [hy]
  funext a; apply Fin.ext
  match a with
  | ⟨0, _⟩ => show r.val + 1 * 0 = r.val; omega
  | ⟨1, _⟩ => show 0 + 1 * 0 = 0; omega
  | ⟨2, _⟩ => show 0 + 1 * (z 1).val = (z 1).val; omega

theorem srcR_emb (w : BitVec 32) (hw : w.toNat < 1000000) (z : S1x64.Idx) :
    (srcR w hw).view.emb z = (ix3 (⟨w.toNat, hw⟩ : Fin 1000000) (0 : Fin 1) (z 1) : S1000000x1x64.Idx) := by
  have h0 : (z 0).val < 1 := (z 0).isLt
  have hy : Shape.reshapeEquiv (squeezes_S1x1x64_S1x64.numel_eq) z = (ix3 (0 : Fin 1) (0 : Fin 1) (z 1) : S1x1x64.Idx) :=
    Shape.reshapeEquiv_eq_of_rowMajor _ (by
      rw [Shape.rowMajor_val_three, Shape.rowMajor_val_two]
      show (0 * 1 + 0) * 64 + (z 1).val = (z 0).val * 64 + (z 1).val
      omega)
  show (Rect.unit (s := S1000000x1x64) ![w.toNat, 0, 0] S1x1x64.size (chk_core w hw).1).emb
      (Shape.reshapeEquiv (squeezes_S1x1x64_S1x64.numel_eq) z) = _
  rw [hy]
  funext a; apply Fin.ext
  match a with
  | ⟨0, _⟩ => show w.toNat + 1 * 0 = w.toNat; omega
  | ⟨1, _⟩ => show 0 + 1 * 0 = 0; omega
  | ⟨2, _⟩ => show 0 + 1 * (z 1).val = (z 1).val; omega

theorem landed_agrees (c : Dev nD) (fa : Buf (Elt F) (tabM.view.loc (c : Thread nD τ))) (x2 : Vec F S1x1x256 .i32) (r : Fin 256)
    (f : Buf (Elt F) ((slotR r).view.loc (c : Thread nD τ))) (w : BitVec 32) (hw : w.toNat < 1000000)
    (hwx : w = x2 (ix3 (0 : Fin 1) (0 : Fin 1) r)) :
    ∀ i ∈ (slotR r).view.set,
      (slotR r).view.writes (Elt F) f [⟨Rect.whole S1x64, ReadAs.same.apply ((srcR w hw).view.read (Elt F) fa)⟩] i
        = (embOf (tabM.view.read (Elt F) fa) x2 : Buf (Elt F) (scrM.view.loc (c : Thread nD τ))) i := by
  intro i hi
  obtain ⟨z, -, rfl⟩ := Finset.mem_map.mp hi
  rw [← View.write_univ_eq_writes_whole, View.writes_nil, View.write_emb_of_mem _ _ (Finset.mem_univ _)]
  rw [slotR_emb]
  show (srcR w hw).view.read (Elt F) fa z = tabM.view.read (Elt F) fa (ix3 (rowOf (x2 (ix3 (0 : Fin 1) (0 : Fin 1) r))) (0 : Fin 1) (z 1))
  rw [← hwx, show rowOf w = ⟨w.toNat, hw⟩ from dif_pos hw]
  exact congrArg fa (srcR_emb w hw z)

theorem landed_row (c : Dev nD) (fa : Buf (Elt F) (tabM.view.loc (c : Thread nD τ))) (x2 : Vec F S1x1x256 .i32) (r : Fin 256) :
    LANDED c fa x2 r ⊢ iprop(semVal ((c : Thread nD τ), osem0 r) 0
      ∗ ((slotR r).view.loc (c : Thread nD τ) ↦[(slotR r).view.set]{fullShare}
            (embOf (tabM.view.read (Elt F) fa) x2 : Buf (Elt F) (scrM.view.loc (c : Thread nD τ))))
      ∗ tokR c r Finset.univ fa) := by
  unfold LANDED
  iintro ⟨%f, %pay, Hs, Hp, Ht, %h⟩
  obtain ⟨w, hw, hwx, rfl⟩ := h
  isplitl [Hs]; · iexact Hs
  isplitl [Hp]
  · iapply (Entails.of_eq (pointsTo_congr (landed_agrees c fa x2 r f w hw hwx)))
    iexact Hp
  iexact Ht

theorem scr_out (c : Dev nD) (G : Buf (Elt F) (scrM.view.loc (c : Thread nD τ))) :
    (bigSep Finset.univ fun r : Fin 256 => ((slotR r).view.loc (c : Thread nD τ) ↦[(slotR r).view.set]{fullShare} G : sProp 𝕄))
      ⊢ owns (c : Thread nD τ) scrM fullShare (scrM.view.read (Elt F) G) := by
  rw [← scr_rows c G]
  unfold owns
  iintro H
  iexists G
  isplitr
  · ipureintro; rfl
  · iapply (Entails.of_eq (congrArg (fun S => (scrM.view.loc (c : Thread nD τ) ↦[S]{fullShare} G : sProp 𝕄)) (View.set_whole cc0_scratch0).symm))
    iexact H

theorem families_out (c : Dev nD) (fa : Buf (Elt F) (tabM.view.loc (c : Thread nD τ))) (x2 : Vec F S1x1x256 .i32)
    (hx : ∀ y, (x2 y : BitVec 32).toNat < 1000000) :
    iprop(bigSep Finset.univ (fun t : Fin 4 => GLanded c fa x2 t.val) ∗ TokRest c fa)
      ⊢ iprop(owns (c : Thread nD τ) scrM fullShare (embOf (tabM.view.read (Elt F) fa) x2) ∗ cells0 (F := F) c
          ∗ (tabM.view.loc (c : Thread nD τ) ↦{fullShare} fa)) := by
  iintro ⟨HL, Hrest⟩
  ihave Hl := (Entails.of_eq (landed_groups c fa x2).symm) $$ HL
  ihave Hm := (bigSep_mono_pm (s := Finset.univ) (fun r _ => landed_row c fa x2 r)) $$ Hl
  ihave Hn := (Entails.of_eq (bigSep_sep3
      (fun r : Fin 256 => (semVal ((c : Thread nD τ), osem0 r) 0 : sProp 𝕄))
      (fun r : Fin 256 => ((slotR r).view.loc (c : Thread nD τ) ↦[(slotR r).view.set]{fullShare}
              (embOf (tabM.view.read (Elt F) fa) x2 : Buf (Elt F) (scrM.view.loc (c : Thread nD τ))) : sProp 𝕄))
      (fun r : Fin 256 => tokR c r Finset.univ fa))) $$ Hm
  icases Hn with ⟨Hc, Hs, Ht⟩
  isplitl [Hs]
  · iapply (scr_out c (embOf (tabM.view.read (Elt F) fa) x2 : Buf (Elt F) (scrM.view.loc (c : Thread nD τ))))
    iexact Hs
  isplitl [Hc]
  · iapply (Entails.of_eq (show bigSep Finset.univ (fun r : Fin 256 => (semVal ((c : Thread nD τ), osem0 r) 0 : sProp 𝕄)) = cells0 (F := F) c from rfl))
    iexact Hc
  iapply (Entails.of_eq (tab_toks c fa).symm)
  isplitl [Ht]; · iexact Ht
  iexact Hrest

end Cert.Kernel.Hand

end
-- ==== Proof.BodyRunB.lean ====
import proofs.«407547_j20040317403343_3_alg».proof.Proof.IssueB
import proofs.«407547_j20040317403343_3_alg».proof.Proof.WaitB
import proofs.«407547_j20040317403343_3_alg».proof.Proof.SplitJoinB
import Idealize.ShloMosaic.Lib.Pipeline.Value

set_option maxRecDepth 16384
set_option maxHeartbeats 4000000

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem hz3 : (![0, 0, 0] : Fin 3 → ℕ) = fun _ => 0 := by funext a; fin_cases a <;> rfl

theorem whole_mem {S : Shape} (off : Fin S.rank → ℕ) (h : off = fun _ => 0) (inb : ∀ a, off a + S.size a ≤ S.size a) (y : S.Idx) :
    y ∈ (Rect.unit (s := S) off S.size inb).set := by
  subst h; show y ∈ (Rect.whole S).set; rw [Rect.set_whole]; exact Finset.mem_univ y

theorem out_cover (w : S1x4096x64.Idx → Elt F .f32) (L' : List (View.Piece (Elt F) S1x4096x64 .f32)) (y : S1x4096x64.Idx) :
    ∃ p ∈ ((⟨Rect.unit (s := S1x4096x64) ![0, 0, 0] S1x4096x64.size Facts₀.inb_S1x4096x64_S1x4096x64_0_0_0, w⟩ : View.Piece (Elt F) S1x4096x64 .f32) :: L'), y ∈ p.1.set :=
  ⟨_, List.mem_cons_self, whole_mem _ hz3 Facts₀.inb_S1x4096x64_S1x4096x64_0_0_0 y⟩

/-- The body's test for the first step of a half is that the step's number is 0. -/
theorem first_iff (i : grid0.Coords) :
    Scalar.cmpi .ne (Scalar.extui (Scalar.cmpi .eq (BitVec.ofNat 32 (i 1).val) 0#32)) 0#32 = 1#1 ↔ (i 1).val = 0 := by
  have hlt : (i 1).val < 800 := (i 1).isLt
  constructor
  · intro h
    by_contra h0
    have hne : BitVec.ofNat 32 (i 1).val ≠ 0#32 := by
      intro h; have h' := congrArg BitVec.toNat h
      simp only [BitVec.toNat_ofNat, BitVec.toNat_zero] at h'
      omega
    have hb : (BitVec.ofNat 32 (i 1).val == 0#32) = false := by simpa using hne
    have e1 : Scalar.cmpi .eq (BitVec.ofNat 32 (i 1).val) 0#32 = 0#1 := by
      show BitVec.ofBool (BitVec.ofNat 32 (i 1).val == 0#32) = 0#1
      rw [hb]; rfl
    rw [e1] at h; exact absurd h (by decide)
  · intro h0; rw [h0]; decide

/-- One grid point: the output block is zeroed first at step 0 of a half and is what the point before left otherwise. -/
theorem kernelRun [∀ e, Nonempty (Elt F e)] (c : Dev nD) (i : grid0.Coords)
    (arg2 : Memref sig .tc .smem S1x1x256 .i32) (harg2 : arg2.IsWhole) (arg3 : Memref sig .tc .vmem S1x1x256 .f32) (harg3 : arg3.IsWhole)
    (arg4 : Memref sig .tc .vmem S1x1x256 .i32) (harg4 : arg4.IsWhole) (arg6 : Memref sig .tc .vmem S1x4096x64 .f32) (harg6 : arg6.IsWhole)
    (x2 : Vec F S1x1x256 .i32) (x3 : Vec F S1x1x256 .f32) (x4 : Vec F S1x1x256 .i32) (y6 : Vec F S1x4096x64 .f32)
    (ftab : Buf (Elt F) (tabM.view.loc (c : Thread nD τ)))
    (hx2 : ∀ y, (x2 y : BitVec 32).toNat < 1000000)
    (W : Waits sig Unit) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg6 fullShare y6
        ∗ (∃ d, owns (c : Thread nD τ) scrM fullShare d)
        ∗ cells0 (F := F) c
        ∗ (tabM.view.loc (c : Thread nD τ) ↦{fullShare} ftab)
        ∗ owes (c : Thread nD τ) 0 W
        ∗ (iprop(owns (c : Thread nD τ) arg2 fullShare x2 ∗ owns (c : Thread nD τ) arg3 fullShare x3 ∗ owns (c : Thread nD τ) arg4 fullShare x4
              ∗ owns (c : Thread nD τ) arg6 fullShare (outOf i (tabM.view.read (Elt F) ftab) x2 x3 x4 y6)
              ∗ (∃ d, owns (c : Thread nD τ) scrM fullShare d)
              ∗ cells0 (F := F) c
              ∗ (tabM.view.loc (c : Thread nD τ) ↦{fullShare} ftab)
              ∗ (∃ W', owes (c : Thread nD τ) 0 W')) -∗ K ⟨⟩))
      ⊢ wp frame (wpE (defs₀ (F := F)) Variants.none (c : Thread nD τ) none) Set.univ
          (cc0__kernel i arg2 harg2 arg3 harg3 arg4 harg4 tabM (Memref.isWhole_whole _) arg6 harg6 scrM (Memref.isWhole_whole _) cc0_scratch1) K := by
  iintro ⟨H2, H3, H4, H6, Hscr, Hcells, Htab, HO, HK⟩
  ihave Hfam := (families_in (F := F) c ftab) $$ [Hscr Hcells Htab]
  · isplitl [Hscr]; · iexact Hscr
    isplitl [Hcells]; · iexact Hcells
    iexact Htab
  icases Hfam with ⟨G, Hrest⟩
  unfold owns
  icases H2 with ⟨%g2, %hg2, H2⟩
  icases H3 with ⟨%g3, %hg3, H3⟩
  icases H4 with ⟨%g4, %hg4, H4⟩
  icases H6 with ⟨%g6, %hg6, H6⟩
  obtain rfl := harg2.eq_unread hg2
  obtain rfl := harg3.eq_unread hg3
  obtain rfl := harg4.eq_unread hg4
  obtain rfl := harg6.eq_unread hg6
  simp only [cc0__kernel_eq_skeleton]; unfold cc0__kernel_skel
  simp only [k0_part43_eq_skeleton]; unfold k0_part43_skel
  by_cases h0 : (i 1).val = 0
  all_goals
    sl_exec (disch := first | exact (first_iff i).mpr h0 | exact fun h => h0 ((first_iff i).mp h))
    rw [wp_bind, wp_bind]
    iapply (loop_of c (GFree c ftab) (GFly c ftab x2) _ k0_t1_loop k0_t1_ok trips1 _
      (issue c i arg2 harg2 arg3 harg3 arg4 harg4 arg6 harg6 x2 hx2 ftab) _)
    isplitl [H2]; · iexact H2
    isplitl [G]; · iexact G
    iintro ⟨H2, Fl⟩
    rw [wp_bind]
    iapply (loop_of c (GFly c ftab x2) (GLanded c ftab x2) _ k0_t2_loop k0_t2_ok trips2 _
      (wait c i arg2 harg2 arg3 harg3 arg4 harg4 arg6 harg6 x2 hx2 ftab) _)
    isplitl [H2 HO]
    · isplitl [H2]; · iexact H2
      iexists W; iexact HO
    isplitl [Fl]; · iexact Fl
    iintro ⟨⟨H2, ⟨%W', HO⟩⟩, L⟩
    ihave Hout := (families_out (F := F) c ftab x2 hx2) $$ [L Hrest]
    · isplitl [L]; · iexact L
      iexact Hrest
    icases Hout with ⟨Hscr, Hcells, Htab⟩
    unfold owns
    icases Hscr with ⟨%gs, %hgs, Hscr⟩
    sl_exec
    sl_step
    iapply HK
    isplitl [H2]
    · iexists _; isplitr; · ipureintro; exact hg2
      iexact H2
    isplitl [H3]
    · iexists _; isplitr; · ipureintro; exact hg3
      iexact H3
    isplitl [H4]
    · iexists _; isplitr; · ipureintro; exact hg4
      iexact H4
    isplitl [H6]
    · iexists _; isplitr; swap; · iexact H6
      ipureintro
      rw [View.read_writes_eq_canon _ _ _ (out_cover _ _), View.canon_cons_unit_zero (S := S1x4096x64) hz3]
      unfold outOf
      first | rw [if_pos h0] | rw [if_neg h0]
      sl_unfold_run_names
      simp only [View.readAt_eq_ld, View.ld_unit_zero (S := S256x1x64) hz3, View.ld_unit_zero (S := S1x1x256) hz3,
        View.ld_unit_zero (S := S1x4096x64) hz3, hgs, hg3, hg4, hg6, View.readCov_unit_zero (S := S1x4096x64) _ hz3]
    isplitl [Hscr]
    · iexists _, _; isplitr; swap; · iexact Hscr
      ipureintro; rfl
    isplitl [Hcells]; · iexact Hcells
    isplitl [Htab]; · iexact Htab
    iexists _; iexact HO

end Cert.Kernel.Hand

end
-- ==== Proof.FrameB.lean ====
import proofs.«407547_j20040317403343_3_alg».proof.Proof.BodyRunB
import Idealize.ShloMosaic.Lib.Pipeline.FrameBody
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

def H0 : Finset (Ref sig .tc) := {main_v5}
theorem H0_sub : H0 ⊆ Pipeline.restRefs sig spec0 := by decide

theorem sem_lt : ∀ (w : Fin 4) (s : Fin (spec0 w).nbuf), ((spec0 w).sem s).val < 8 := by decide

theorem osem_scoped : ∀ k : Fin 256, (osem0 k).isScoped .tc = true := by decide +kernel

theorem ownSemFacts0 : Pipeline.OwnSemFacts spec0 osem0 :=
  ⟨osem_scoped,
   fun j j' h => by
     have h' := congrArg Fin.val (SemLoc.dma.inj h)
     exact Fin.ext (by simpa using h'),
   fun k w s h => by
     have h' := congrArg Fin.val (SemLoc.dma.inj h)
     have := sem_lt w s
     simp only at h'
     omega⟩

theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1] (by simp only [List.Forall]; exact ⟨hostOps0_sub, hostOps0_1_sub, hostOps0_2_sub⟩)
    (by simp only [List.Forall]; exact ⟨hostOps0_fresh, hostOps0_1_fresh, hostOps0_2_fresh⟩) main_chain

theorem PhiD0_eq (c : Dev nD) :
    (Pipeline.ΦD osem0 spec0 H0 (V m) c : sProp 𝕄)
      = iprop((∃ d, owns (c : Thread nD τ) scrM fullShare d) ∗ (∃ r, prngReg c r) ∗ cells0 (F := F) c
          ∗ (tabM.view.loc (c : Thread nD τ) ↦{fullShare} V m c main_v5)) := by
  rw [Pipeline.ΦD_eq, scopedRest0_eq]
  unfold H0
  rw [BI.bigSep_singleton]
  simp only [scrM, owns_whole]; try rfl

abbrev tabV (c : Dev nD) : Vec F S1000000x1x64 .bf16 := tabM.view.read (Elt F) (V m c main_v5)

def outsAt (c : Dev nD) : (n : ℕ) → n < cfg0.N → Vec F S1x4096x64 .f32
  | 0, hn => outOf (grid0.coords ⟨0, hn⟩) (tabV m c) (iblk m c 0 ⟨0, hn⟩) (iblk m c 1 ⟨0, hn⟩) (iblk m c 2 ⟨0, hn⟩) k0_pay1
  | n + 1, hn => outOf (grid0.coords ⟨n + 1, hn⟩) (tabV m c) (iblk m c 0 ⟨n + 1, hn⟩) (iblk m c 1 ⟨n + 1, hn⟩) (iblk m c 2 ⟨n + 1, hn⟩)
      (outsAt c n (Nat.lt_of_succ_lt hn))

theorem coords_1 : ∀ t : Fin cfg0.N, ((grid0.coords t) 1).val = t.val % 800 :=
  (by decide +kernel : ∀ t : Fin grid0.N, ((grid0.coords t) 1).val = t.val % 800)

theorem outOf_first (i : grid0.Coords) (h : (i 1).val = 0) (tab : Vec F S1000000x1x64 .bf16) (x2 : Vec F S1x1x256 .i32)
    (x3 : Vec F S1x1x256 .f32) (x4 : Vec F S1x1x256 .i32) (y y' : Vec F S1x4096x64 .f32) :
    outOf i tab x2 x3 x4 y = outOf i tab x2 x3 x4 y' := by
  unfold outOf; rw [if_pos h, if_pos h]

theorem outsAt_first (c : Dev nD) (t : Fin cfg0.N) (h0 : t.val % 800 = 0) (y : Vec F S1x4096x64 .f32) :
    outsAt m c t.val t.isLt = outOf (grid0.coords t) (tabV m c) (iblk m c 0 t) (iblk m c 1 t) (iblk m c 2 t) y := by
  have hc : ((grid0.coords t) 1).val = 0 := (coords_1 t).trans h0
  obtain ⟨n, hn⟩ := t
  cases n with
  | zero => exact outOf_first _ hc _ _ _ _ _ _
  | succ n => exact outOf_first _ hc _ _ _ _ _ _

theorem outsAt_later (c : Dev nD) (t : Fin cfg0.N) (h0 : ¬ t.val % 800 = 0) :
    outsAt m c t.val t.isLt = outOf (grid0.coords t) (tabV m c) (iblk m c 0 t) (iblk m c 1 t) (iblk m c 2 t)
      (outsAt m c (t.val - 1) (Nat.lt_of_le_of_lt (Nat.sub_le _ _) t.isLt)) := by
  obtain ⟨n, hn⟩ := t
  cases n with
  | zero => exact absurd (Nat.zero_mod _) h0
  | succ n => rfl

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outsAt m c t.val t.isLt
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outsAt m c t.val t.isLt := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)

theorem before0_3_later (c : Dev nD) (t : Fin cfg0.N) (h0 : ¬ t.val % 800 = 0) (d) :
    (dats m 0 c).before 3 t d = outsAt m c (t.val - 1) (Nat.lt_of_le_of_lt (Nat.sub_le _ _) t.isLt) := by
  have hN : t.val < 1600 := lt_of_lt_of_eq t.isLt (show cfg0.N = 1600 from N_0)
  rw [Dat.before_out_kept _ 3 rfl t (by omega) (Bool.eq_false_iff.mpr fun h => by have := (flush0_3 _).mp h; dsimp only at this; omega)
    (fun _ => rfl) (fun _ _ => rfl)]
  dsimp only [dats]

theorem out_step (c : Dev nD) (t : Fin cfg0.N) (d) :
    outOf (grid0.coords t) (tabV m c) (iblk m c 0 t) (iblk m c 1 t) (iblk m c 2 t) ((dats m 0 c).before 3 t d)
      = outsAt m c t.val t.isLt := by
  by_cases h0 : t.val % 800 = 0
  · exact (outsAt_first m c t h0 _).symm
  · rw [before0_3_later m c t h0 d]; exact (outsAt_later m c t h0).symm

abbrev ms0_0 (t : Fin cfg0.N) : Memref sig .tc .smem S1x1x256 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x256 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x4096x64 .f32 := win0_3.stage (cfg0.slots t 3)
abbrev hs0_3 (t : Fin cfg0.N) : (ms0_3 t).IsWhole := hstage0_3 ((cfg0.slots t 3).cast nbuf0_3)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

theorem sound_body [∀ e, Nonempty (Elt F e)] (c : Dev nD) (t : Fin cfg0.N)
    (hI : ∀ y, ((iblk m c 0 t y : Elt F .i32) : BitVec 32).toNat < 1000000) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl, after0_0, after0_1, after0_2, after0_3]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  iintro ⟨⟨HS, Hg, Hq, Hh⟩, ⟨%W, -, HW⟩, ⟨%d0, H0⟩, ⟨%d1, H1⟩, ⟨%d2, H2⟩, ⟨%d3, H3⟩⟩
  rw [← out_step m c t d3]
  iapply (kernelRun c (grid0.coords t) (ms0_0 t) (hs0_0 t) (ms0_1 t) (hs0_1 t) (ms0_2 t) (hs0_2 t) (ms0_3 t) (hs0_3 t)
     (iblk m c 0 t) (iblk m c 1 t) (iblk m c 2 t) ((dats m 0 c).before 3 t d3) (V m c main_v5) hI W _)
  isplitl [H0]; · iexact H0
  isplitl [H1]; · iexact H1
  isplitl [H2]; · iexact H2
  isplitl [H3]; · iexact H3
  isplitl [HS]; · iexact HS
  isplitl [Hq]; · iexact Hq
  isplitl [Hh]; · iexact Hh
  isplitl [HW]; · iexact HW
  iintro ⟨H0, H1, H2, H3, HS, Hq, Hh, ⟨%W', HW'⟩⟩
  isplitl [HS Hg Hq Hh]
  · isplitl [HS]; · iexact HS
    isplitl [Hg]; · iexact Hg
    isplitl [Hq]; · iexact Hq
    iexact Hh
  isplitl [HW']
  · iexists W'; isplitr; · ipureintro; exact fun _ _ => Or.inl trivial
    iexact HW'
  isplitl [H0]; · iexact H0
  isplitl [H1]; · iexact H1
  isplitl [H2]; · iexact H2
  iexact H3

theorem body_obligation [∀ e, Nonempty (Elt F e)] (c : Dev nD)
    (hI : ∀ t y, ((iblk m c 0 t y : Elt F .i32) : BitVec 32).toNat < 1000000) :
    BodyObligation (dats (F := F) m 0 c) (defs₀ (F := F)) Variants.none () Set.univ := fun t => by
  rw [bigSep_W0, bigSep_W0]
  exact sound_body m c t (hI t)

theorem sfx_subBut : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  refine Pipeline.sub_tailRefsBut Pipeline.Prefetch.none spec0 H0 op ((List.forall_iff_forall_mem.mp hostOps1_sub) op hop) (fun k => k.elim0) ?_
  intro b hb
  have hb' : b = main_v5 := Finset.mem_singleton.mp hb
  subst hb'
  simp only [hostOps1, List.mem_cons, List.mem_nil_iff, or_false] at hop
  rcases hop with rfl | rfl
  · rw [StableHlo.nullary_bufs]; simp only [Finset.mem_singleton]; exact StableHlo.devRef_ne_of_ne (by decide)
  · rw [StableHlo.binary_bufs]; simp only [Finset.mem_insert, Finset.mem_singleton, not_or]
    exact ⟨StableHlo.devRef_ne_of_ne (by decide), StableHlo.devRef_ne_of_ne (by decide), StableHlo.devRef_ne_of_ne (by decide)⟩

set_option backward.isDefEq.respectTransparency.types false in

theorem run_main [∀ e, Nonempty (Elt F e)] (hI : ∀ c t y, ((iblk m c 0 t y : Elt F .i32) : BitVec 32).toNat < 1000000) :
    θ_run defs (onTc (τ := τ) (main (F := F))) (s₀ m ρ)
      (Pipeline.FramePost cfgs (dats m) 0 (Pipeline.afterTail₀ cfgs (dats m) 0 (V0 m) [hostOps1])) :=
  Pipeline.θ_run_frame_dma_around cfgs (dats m) (0 : Fin 1) launch0 osem0 defs₀ Variants.none ownSemFacts0 H0 H0_sub m ρ main
    (hbody := fun c => (body_obligation m c (hI c)).loose) (hshare := fun c => (dats m 0 c).share_full fun _ => rfl)
    (howed := fun _ _ => rfl) (V₀ := V0 m) (opss := [hostOps1]) (hsub := sfx_subBut) (hfresh := sfx_fresh) (hkeep := sfx_keeps)
    (hmain := hmainD m Variants.none) (hA := A_eq m)
    (hin := fun _ => .rfl) (hout := fun _ => .rfl)

theorem W_main_arg0D (dats : (p : Fin _) → (c : Dev nD) → Dat τ (Elt F) Unit ℕ (Pipeline.UD sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
theorem W_main_arg1D (dats : (p : Fin _) → (c : Dev nD) → Dat τ (Elt F) Unit ℕ (Pipeline.UD sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
theorem W_main_arg2D (dats : (p : Fin _) → (c : Dev nD) → Dat τ (Elt F) Unit ℕ (Pipeline.UD sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
theorem W_main_arg3D (dats : (p : Fin _) → (c : Dev nD) → Dat τ (Elt F) Unit ℕ (Pipeline.UD sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

theorem frame [∀ e, Nonempty (Elt F e)] (hI : ∀ c t y, ((iblk m c 0 t y : Elt F .i32) : BitVec 32).toNat < 1000000) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(((h c).2 main_arg0 (Pipeline.mem_restRefs_of main_arg0 (by decide) (by decide))).trans (W_main_arg0D m (dats m) c)),
      (((h c).2 main_arg1 (Pipeline.mem_restRefs_of main_arg1 (by decide) (by decide))).trans (W_main_arg1D m (dats m) c)),
      (((h c).2 main_arg2 (Pipeline.mem_restRefs_of main_arg2 (by decide) (by decide))).trans (W_main_arg2D m (dats m) c)),
      (((h c).2 main_arg3 (Pipeline.mem_restRefs_of main_arg3 (by decide) (by decide))).trans (W_main_arg3D m (dats m) c))⟩) (run_main m ρ hI)

end Cert.Kernel.Hand

end
-- ==== Proof.BodyDefsI.lean ====
import proofs.«407547_j20040317403343_3_alg».proof.Proof.Gen.KernelIdeal.Frame
import proofs.«407547_j20040317403343_3_alg».proof.Proof.Gen.KernelIdeal.Skeleton
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx

variable {F : FTy → Type} [FloatOps F]

abbrev tabM : Memref sig .tc .hbm S1000000x1x64 .bf16 := Memref.whole main_v5

abbrev scrM : Memref sig .tc .vmem S256x1x64 .bf16 := Memref.whole cc0_scratch0

def rowOf (w : BitVec 32) : Fin 1000000 := if h : w.toNat < 1000000 then ⟨w.toNat, h⟩ else ⟨0, by norm_num⟩

def embOf (tab : Vec F S1000000x1x64 .bf16) (x2 : Vec F S1x1x256 .i32) : Vec F S256x1x64 .bf16 :=
  fun y => tab (ix3 (rowOf (x2 (ix3 (0 : Fin 1) (0 : Fin 1) (y 0)))) (0 : Fin 1) (y 2))

def outOf (i : grid0.Coords) (tab : Vec F S1000000x1x64 .bf16) (x2 : Vec F S1x1x256 .i32) (x3 : Vec F S1x1x256 .f32)
    (x4 : Vec F S1x1x256 .i32) (y6 : Vec F S1x4096x64 .f32) : Vec F S1x4096x64 .f32 :=
  k0_pay2 (embOf tab x2) x4 x3 (if (i 1).val = 0 then k0_pay1 else y6)

end Cert.KernelIdeal.Hand

end
-- ==== Proof.PayAtI.lean ====
import proofs.«407547_j20040317403343_3_alg».proof.Proof.BodyDefsI
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.HandValue

open Cert.KernelIdeal Cert.KernelIdeal.Gen
open Idealize.ShloMosaic Idealize.ShloMosaic.TcCoe Idealize.ShloMosaic.ValueIdx
open scoped BigOperators

theorem lhs_mm_0 (j : S4096x64.Idx) (k : dot_S4096x256_S256x64_S4096x64_1_0_0_1_n_n.contr.Idx) :
    (dot_S4096x256_S256x64_S4096x64_1_0_0_1_n_n.lhsIdx j k 0 : ℕ) = j 0 := by
  simp [DotDims.lhsIdx, dot_S4096x256_S256x64_S4096x64_1_0_0_1_n_n]; rfl
theorem lhs_mm_1 (j : S4096x64.Idx) (k : dot_S4096x256_S256x64_S4096x64_1_0_0_1_n_n.contr.Idx) :
    (dot_S4096x256_S256x64_S4096x64_1_0_0_1_n_n.lhsIdx j k 1 : ℕ) = k ⟨0, by decide⟩ := by
  simp [DotDims.lhsIdx, dot_S4096x256_S256x64_S4096x64_1_0_0_1_n_n]; rfl
theorem rhs_mm_0 (j : S4096x64.Idx) (k : dot_S4096x256_S256x64_S4096x64_1_0_0_1_n_n.contr.Idx) :
    (dot_S4096x256_S256x64_S4096x64_1_0_0_1_n_n.rhsIdx j k 0 : ℕ) = k ⟨0, by decide⟩ := by
  simp [DotDims.rhsIdx, dot_S4096x256_S256x64_S4096x64_1_0_0_1_n_n]; rfl
theorem rhs_mm_1 (j : S4096x64.Idx) (k : dot_S4096x256_S256x64_S4096x64_1_0_0_1_n_n.contr.Idx) :
    (dot_S4096x256_S256x64_S4096x64_1_0_0_1_n_n.rhsIdx j k 1 : ℕ) = j 1 := by
  simp [DotDims.rhsIdx, dot_S4096x256_S256x64_S4096x64_1_0_0_1_n_n]; rfl

theorem mm_apply (A : FVec Ideal S4096x256 .bf16) (B : FVec Ideal S256x64 .bf16) (b : Fin 4096) (d : Fin 64) :
    matmul (F := Ideal) dot_S4096x256_S256x64_S4096x64_1_0_0_1_n_n none A B (constant (F := Ideal) S4096x64 .f32 0x00000000#32) (ix2 b d)
      = ∑ k : Fin 256, A (ix2 b k) * B (ix2 k d) := by
  refine (Ideal.matmul_constant_zero_apply dot_S4096x256_S256x64_S4096x64_1_0_0_1_n_n none A B (ix2 b d)).trans ?_
  rw [← Equiv.sum_comp (contrEquiv1 dot_S4096x256_S256x64_S4096x64_1_0_0_1_n_n 256 rfl rfl).symm]
  refine Finset.sum_congr rfl fun k _ => ?_
  have hk := contrEquiv1_symm_val dot_S4096x256_S256x64_S4096x64_1_0_0_1_n_n 256 rfl rfl k
  congr 2
  · exact Shape.idx_ext₂ (lhs_mm_0 _ _) ((lhs_mm_1 _ _).trans hk)
  · exact Shape.idx_ext₂ ((rhs_mm_0 _ _).trans hk) (rhs_mm_1 _ _)

theorem rows_apply (x : Vec Ideal S256x1x64 .bf16) (k : Fin 256) (d : Fin 64) :
    shapeCast S256x64 x shapeCasts_S256x1x64_S256x64 (ix2 k d) = x (ix3 k (0 : Fin 1) d) :=
  shapeCast_apply x shapeCasts_S256x1x64_S256x64 _ _ (by
    rw [Shape.rowMajor_val_three, Shape.rowMajor_val_two]
    show (k.val * 1 + 0) * 64 + d.val = k.val * 64 + d.val
    rw [Nat.mul_one, Nat.add_zero])

theorem bcast_row_apply {α : Type} (x : S1x1x256.Idx → α) (b : Fin 4096) (k : Fin 256) :
    broadcastTo S4096x256 (shapeCast S1x256 (shapeCast S1x1x256 x shapeCasts_S1x1x256_S1x1x256) shapeCasts_S1x1x256_S1x256)
        broadcasts_S1x256_S4096x256 (ix2 b k) = x (ix3 (0 : Fin 1) (0 : Fin 1) k) := by
  refine (broadcastTo_1b_ab_apply _ broadcasts_S1x256_S4096x256 b k).trans ?_
  refine (shapeCast_1ab_ab_apply _ shapeCasts_S1x1x256_S1x256 (0 : Fin 1) k).trans ?_
  rw [shapeCast_self]

theorem pay1_apply (y : S1x4096x64.Idx) : k0_pay1 (F := Ideal) y = 0 := by
  unfold k0_pay1
  show Ideal.ofBits .f32 0x00000000#32 = 0
  exact Ideal.ofBits_zero_f32

theorem bcast_row_apply' {α : Type} (x : S1x1x256.Idx → α) (b : Fin 4096) (k : Fin 256) :
    broadcastTo S4096x256 (shapeCast S1x256 (shapeCast S1x256 (shapeCast S1x1x256 x shapeCasts_S1x1x256_S1x1x256) shapeCasts_S1x1x256_S1x256)
        shapeCasts_S1x256_S1x256) broadcasts_S1x256_S4096x256 (ix2 b k) = x (ix3 (0 : Fin 1) (0 : Fin 1) k) :=
  (congrArg (fun z => broadcastTo S4096x256 z broadcasts_S1x256_S4096x256 (ix2 b k)) (shapeCast_self _ shapeCasts_S1x256_S1x256)).trans
    (bcast_row_apply x b k)

theorem select_cmpi_eq {α : Type} (x y : BitVec 32) (a c : α) :
    Scalar.select (IntOp.cmpi .eq x y) a c = if x = y then a else c := by
  unfold Scalar.select IntOp.cmpi
  by_cases h : x = y
  · subst h; simp
  · have hb : (x == y) = false := beq_eq_false_iff_ne.mpr h
    simp [hb, h]

theorem onehot_apply (I J : IVec S4096x256 32) (R Z : FVec Ideal S4096x256 .f32) (j : S4096x256.Idx) (i w : BitVec 32) (r : EReal)
    (hI : I j = i) (hJ : J j = w) (hR : R j = r) (hZ : Z j = 0) :
    truncf (F := Ideal) .bf16 (select (cmpi .eq I J) R Z) bitsLt_bf16_f32 j = if i = w then r else 0 := by
  show Scalar.select (IntOp.cmpi .eq (I j) (J j)) (R j) (Z j) = _
  rw [hI, hJ, hR, hZ]
  exact select_cmpi_eq i w r 0

theorem pay2_apply' (v5 : Vec Ideal S256x1x64 .bf16) (v7 : Vec Ideal S1x1x256 .i32) (v10 : Vec Ideal S1x1x256 .f32)
    (v22 : Vec Ideal S1x4096x64 .f32) (b : Fin 4096) (d : Fin 64) :
    k0_pay2 (F := Ideal) v5 v7 v10 v22 (ix3 (0 : Fin 1) b d)
      = v22 (ix3 (0 : Fin 1) b d) + ∑ k : Fin 256, (if BitVec.ofNat 32 b.val = v7 (ix3 (0 : Fin 1) (0 : Fin 1) k) then v10 (ix3 (0 : Fin 1) (0 : Fin 1) k) else 0) * v5 (ix3 k (0 : Fin 1) d) := by
  unfold k0_pay2
  refine (addf_apply _ _ _).trans ?_
  refine congrArg₂ (· + ·) (congrFun (shapeCast_self v22 shapeCasts_S1x4096x64_S1x4096x64) _) ?_
  refine (shapeCast_ab_1ab_apply _ shapeCasts_S4096x64_S1x4096x64 (0 : Fin 1) b d).trans ?_
  refine (mm_apply _ _ b d).trans ?_
  refine Finset.sum_congr rfl fun k _ => ?_
  refine congrArg₂ (· * ·) ?_ (rows_apply v5 k d)
  exact onehot_apply _ _ _ _ (ix2 b k) _ _ _ (iota_single_apply _ _ _ _ _ _) (bcast_row_apply v7 b k) (bcast_row_apply' v10 b k) Ideal.ofBits_zero_f32

theorem toInt_eq_iff (w : BitVec 32) (b : Fin 4096) : w.toInt = (b.val : ℤ) ↔ BitVec.ofNat 32 b.val = w := by
  have hb : (BitVec.ofNat 32 b.val).toInt = (b.val : ℤ) := by
    rw [BitVec.toInt_eq_toNat_cond, BitVec.toNat_ofNat]
    have := b.isLt
    omega
  constructor
  · intro h; exact BitVec.eq_of_toInt_eq (hb.trans h.symm)
  · rintro rfl; exact hb

theorem pay2_apply (v5 : Vec Ideal S256x1x64 .bf16) (v7 : Vec Ideal S1x1x256 .i32) (v10 : Vec Ideal S1x1x256 .f32)
    (v22 : Vec Ideal S1x4096x64 .f32) (b : Fin 4096) (d : Fin 64) :
    k0_pay2 (F := Ideal) v5 v7 v10 v22 (ix3 (0 : Fin 1) b d)
      = v22 (ix3 (0 : Fin 1) b d) + ∑ k : Fin 256, (if (v7 (ix3 (0 : Fin 1) (0 : Fin 1) k)).toInt = (b.val : ℤ) then v10 (ix3 (0 : Fin 1) (0 : Fin 1) k) else 0) * v5 (ix3 k (0 : Fin 1) d) := by
  refine (pay2_apply' v5 v7 v10 v22 b d).trans ?_
  refine congrArg (v22 (ix3 (0 : Fin 1) b d) + ·) (Finset.sum_congr rfl fun k _ => ?_)
  exact congrArg (· * v5 (ix3 k (0 : Fin 1) d)) (if_congr (toInt_eq_iff _ b).symm rfl rfl)

theorem outOf_apply (i : grid0.Coords) (tab : Vec Ideal S1000000x1x64 .bf16) (x2 : Vec Ideal S1x1x256 .i32)
    (x3 : Vec Ideal S1x1x256 .f32) (x4 : Vec Ideal S1x1x256 .i32) (y6 : Vec Ideal S1x4096x64 .f32) (b : Fin 4096) (d : Fin 64) :
    Cert.KernelIdeal.Hand.outOf i tab x2 x3 x4 y6 (ix3 (0 : Fin 1) b d)
      = (if (i 1).val = 0 then 0 else y6 (ix3 (0 : Fin 1) b d)) + ∑ k : Fin 256, (if (x4 (ix3 (0 : Fin 1) (0 : Fin 1) k)).toInt = (b.val : ℤ) then x3 (ix3 (0 : Fin 1) (0 : Fin 1) k) else 0) * tab (ix3 (Cert.KernelIdeal.Hand.rowOf (x2 (ix3 (0 : Fin 1) (0 : Fin 1) k))) (0 : Fin 1) d) := by
  unfold Cert.KernelIdeal.Hand.outOf
  refine (pay2_apply _ x4 x3 _ b d).trans ?_
  refine congrArg₂ (· + ·) ?_ rfl
  by_cases h : (i 1).val = 0
  · rw [if_pos h, if_pos h]; exact pay1_apply _
  · rw [if_neg h, if_neg h]

end Cert.KernelIdeal.HandValue

end
-- ==== Proof.CellsI.lean ====
import proofs.«407547_j20040317403343_3_alg».proof.Proof.BodyDefsI
import proofs.«407547_j20040317403343_3_alg».proof.Proof.Gen.KernelIdeal.Loops
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

local notation "𝕄" => MT nD τ sig Unit (Elt F) ℕ (Pipeline.UD sig nD τ) ℕ

abbrev osem0 : Fin 256 → SemLoc sig := fun j => SemLoc.dma ⟨8 + j.val, by have := j.isLt; show 8 + j.val < 264; omega⟩

abbrev cells0 (c : Dev nD) : sProp 𝕄 :=
  Pipeline.ownSems0 (Ix := Unit) (Name := ℕ) (U := Pipeline.UD sig nD τ) (Lvl := ℕ) (Val := Elt F) (τ := τ) osem0 c

end Cert.KernelIdeal.Hand

end
-- ==== Proof.FamI.lean ====
import proofs.«407547_j20040317403343_3_alg».proof.Proof.CellsI

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem chk_core (v : BitVec 32) (h : v.toNat < 1000000) :
    (∀ a, (![v.toNat, 0, 0] : Fin 3 → Nat) a + S1x1x64.size a ≤ S1000000x1x64.size a) ∧
    (∀ (hinb : ∀ a, (![v.toNat, 0, 0] : Fin 3 → Nat) a + S1x1x64.size a ≤ S1000000x1x64.size a), (Rect.unit (s := S1000000x1x64) ![v.toNat, 0, 0] S1x1x64.size hinb).WholeWords (EltTy.packing .bf16)) := by
  refine ⟨fun a => ?_, fun hinb => Or.inr ⟨by decide, rfl, rfl, rfl⟩⟩
  fin_cases a
  · show v.toNat + 1 ≤ 1000000; omega
  · show 0 + 1 ≤ 1; omega
  · show 0 + 64 ≤ 64; omega

theorem slot_inb (r : Fin 256) : ∀ a, (![r.val, 0, 0] : Fin 3 → Nat) a + S1x1x64.size a ≤ S256x1x64.size a := by
  have := r.isLt; intro a; fin_cases a
  · show r.val + 1 ≤ 256; omega
  · show 0 + 1 ≤ 1; omega
  · show 0 + 64 ≤ 64; omega

def slotR (r : Fin 256) : Memref sig .tc .vmem S1x64 .bf16 :=
  (scrM.slice (Rect.unit ![r.val, 0, 0] S1x1x64.size (slot_inb r)) (fun _ => rfl)).squeeze S1x64 squeezes_S1x1x64_S1x64

def srcR (w : BitVec 32) (hw : w.toNat < 1000000) : Memref sig .tc .hbm S1x64 .bf16 :=
  (tabM.slice (Rect.unit (s := S1000000x1x64) ![w.toNat, 0, 0] S1x1x64.size (chk_core w hw).1) (fun _ => rfl)).squeeze S1x64 squeezes_S1x1x64_S1x64

abbrev tokSh (r : Fin 256) : PosShare TreeShare :=
  Transfers.shareTok fullShare 264 ⟨8 + r.val, by have := r.isLt; omega⟩

abbrev tokR (c : Dev nD) (r : Fin 256) (S : Finset (Idx (tabM.view.loc (c : Thread nD τ)))) (fa : Buf (Elt F) (tabM.view.loc (c : Thread nD τ))) : sProp 𝕄 :=
  tabM.view.loc (c : Thread nD τ) ↦[S]{tokSh r} fa

def FREE (c : Dev nD) (fa : Buf (Elt F) (tabM.view.loc (c : Thread nD τ))) (r : Fin 256) : sProp 𝕄 :=
  iprop(semVal ((c : Thread nD τ), osem0 r) 0
    ∗ (∃ f, (slotR r).view.loc (c : Thread nD τ) ↦[(slotR r).view.set]{fullShare} f)
    ∗ tokR c r Finset.univ fa)

def FLY (c : Dev nD) (fa : Buf (Elt F) (tabM.view.loc (c : Thread nD τ))) (x2 : Vec F S1x1x256 .i32) (r : Fin 256) : sProp 𝕄 :=
  iprop(∃ (S : Finset (Idx (tabM.view.loc (c : Thread nD τ)))) (f : Buf (Elt F) ((slotR r).view.loc (c : Thread nD τ))) (pay : (Rect.whole S1x64).shape.Idx → Elt F .bf16),
    Transfers.Flight countersEmb (c : Thread nD τ) (osem0 r) default 128
        iprop(((slotR r).view.loc (c : Thread nD τ) ↦[(slotR r).view.set]{fullShare} (slotR r).view.writes (Elt F) f [⟨Rect.whole S1x64, pay⟩]) ∗ tokR c r S fa)
    ∗ tokR c r (Finset.univ \ S) fa
    ∗ ⌜∃ (w : BitVec 32) (hw : w.toNat < 1000000), w = x2 (ix3 (0 : Fin 1) (0 : Fin 1) r) ∧ S = (srcR w hw).view.set ∧ pay = ReadAs.same.apply ((srcR w hw).view.read (Elt F) fa)⌝)

def LANDED (c : Dev nD) (fa : Buf (Elt F) (tabM.view.loc (c : Thread nD τ))) (x2 : Vec F S1x1x256 .i32) (r : Fin 256) : sProp 𝕄 :=
  iprop(∃ (f : Buf (Elt F) ((slotR r).view.loc (c : Thread nD τ))) (pay : (Rect.whole S1x64).shape.Idx → Elt F .bf16),
    semVal ((c : Thread nD τ), osem0 r) 0
    ∗ ((slotR r).view.loc (c : Thread nD τ) ↦[(slotR r).view.set]{fullShare} (slotR r).view.writes (Elt F) f [⟨Rect.whole S1x64, pay⟩])
    ∗ tokR c r Finset.univ fa
    ∗ ⌜∃ (w : BitVec 32) (hw : w.toNat < 1000000), w = x2 (ix3 (0 : Fin 1) (0 : Fin 1) r) ∧ pay = ReadAs.same.apply ((srcR w hw).view.read (Elt F) fa)⌝)

macro "fly_close " hc:ident ht:ident f:ident hw:ident x:ident : tactic =>
  `(tactic| (unfold FLY; iexists _, $f, _; (isplitl [$hc] <;> first | iexact $hc | (isplitl [$ht] <;> first | iexact $ht | (ipureintro; (refine ⟨_, ?_, ?_, rfl, rfl⟩ <;> sl_unfold_run_names) <;> first | exact $hw _ _ | (simp only [View.readAt_apply, Memref.IsWhole.read_unread]; exact congrArg $x (by funext a; fin_cases a <;> rfl)))))))

macro "landed_close " hc:ident hd:ident ht:ident f:ident pay:ident hp:ident : tactic =>
  `(tactic| (unfold LANDED; iexists $f, $pay; (isplitl [$hc] <;> first | iexact $hc | (isplitl [$hd] <;> first | iexact $hd | (isplitl [$ht] <;> first | iexact $ht | (ipureintro; obtain ⟨w, hw, h1, -, h3⟩ := $hp; exact ⟨w, hw, h1, h3⟩))))))

end Cert.KernelIdeal.Hand

end
-- ==== Proof.GroupsI.lean ====
import Idealize.ShloMosaic.Lib.Pipeline.Kit
import Idealize.ShloMosaic.Lib.Scf
import proofs.«407547_j20040317403343_3_alg».proof.Proof.FamI

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The n rows from b on, in order. -/
def rowsFrom : ℕ → ℕ → List (Fin 256)
  | _, 0 => []
  | b, n + 1 => ⟨b % 256, Nat.mod_lt _ (by decide)⟩ :: rowsFrom (b + 1) n

/-- Trip t of either loop handles rows 64t to 64t+63. -/
def rowsOf (t : ℕ) : List (Fin 256) := rowsFrom (64 * t) 64

/-- Φ at each row of a list, joined by ∗. -/
def chain (Φ : Fin 256 → sProp 𝕄) : List (Fin 256) → sProp 𝕄
  | [] => iprop(emp)
  | [r] => Φ r
  | r :: r' :: l => iprop(Φ r ∗ chain Φ (r' :: l))

theorem chain_eq (Φ : Fin 256 → sProp 𝕄) : ∀ l, chain Φ l = bigSepL l Φ
  | [] => rfl
  | [_] => rfl
  | r :: r' :: l => congrArg (BI.sep (Φ r)) (chain_eq Φ (r' :: l))

def GFree (c : Dev nD) (fa : Buf (Elt F) (tabM.view.loc (c : Thread nD τ))) (t : ℕ) : sProp 𝕄 :=
  chain (FREE c fa) (rowsOf t)

def GFly (c : Dev nD) (fa : Buf (Elt F) (tabM.view.loc (c : Thread nD τ))) (x2 : Vec F S1x1x256 .i32) (t : ℕ) : sProp 𝕄 :=
  chain (FLY c fa x2) (rowsOf t)

def GLanded (c : Dev nD) (fa : Buf (Elt F) (tabM.view.loc (c : Thread nD τ))) (x2 : Vec F S1x1x256 .i32) (t : ℕ) : sProp 𝕄 :=
  chain (LANDED c fa x2) (rowsOf t)

theorem trips1 : k0_t1_loop.trips = 4 := by decide
theorem trips2 : k0_t2_loop.trips = 4 := by decide

/-- Before trip n of a loop over the four groups: the groups of the trips before n are done (B), the others not yet (A). -/
def mixed (A B : ℕ → sProp 𝕄) (n : ℕ) : sProp 𝕄 :=
  bigSep (Finset.univ : Finset (Fin 4)) fun t => if t.val < n then B t.val else A t.val

theorem mixed_zero (A B : ℕ → sProp 𝕄) : mixed A B 0 = bigSep Finset.univ fun t : Fin 4 => A t.val := by
  show bigSep _ _ = _
  exact bigSep_congr fun t _ => if_neg (Nat.not_lt_zero _)

theorem mixed_four (A B : ℕ → sProp 𝕄) : mixed A B 4 = bigSep Finset.univ fun t : Fin 4 => B t.val := by
  show bigSep _ _ = _
  exact bigSep_congr fun t _ => if_pos t.isLt

/-- A trip that takes group k from A to B takes the invariant at k to the invariant at k + 1: the other groups are framed. -/
theorem mixed_step (c : Dev nD) (A B : ℕ → sProp 𝕄) (H : sProp 𝕄) (k : Fin 4) (p : Prog (TpuEff nD τ sig (Elt F) Λ₀ .tc) Unit)
    (h : iprop(H ∗ A k.val) ⊢ wp frame (wpE (defs₀ (F := F)) Variants.none (c : Thread nD τ) none) Set.univ p (fun _ => iprop(H ∗ B k.val))) :
    iprop(H ∗ mixed A B k.val) ⊢ wp frame (wpE (defs₀ (F := F)) Variants.none (c : Thread nD τ) none) Set.univ p (fun _ => iprop(H ∗ mixed A B (k.val + 1))) := by
  have e1 : mixed A B k.val
      = iprop(A k.val ∗ bigSep (Finset.univ.erase k) fun t => if t.val < k.val then B t.val else A t.val) := by
    show bigSep _ _ = _
    rw [bigSep_univ_split k]
    exact congrArg (fun X => iprop(X ∗ _)) (if_neg (lt_irrefl _))
  have e2 : mixed A B (k.val + 1)
      = iprop(B k.val ∗ bigSep (Finset.univ.erase k) fun t => if t.val < k.val then B t.val else A t.val) := by
    show bigSep _ _ = _
    rw [bigSep_univ_split k]
    refine congr (congrArg _ (if_pos (Nat.lt_succ_self _))) (bigSep_congr fun t ht => ?_)
    have hne : t.val ≠ k.val := fun h => Finset.ne_of_mem_erase ht (Fin.ext h)
    by_cases h : t.val < k.val
    · rw [if_pos h, if_pos (Nat.lt_succ_of_lt h)]
    · rw [if_neg h, if_neg (by omega)]
  rw [e1, e2]
  iintro ⟨HH, HA, HR⟩
  iapply (wp_wand_r frame (wpE (defs₀ (F := F)) Variants.none (c : Thread nD τ) none) Set.univ)
  isplitl [HH HA]
  · iapply h
    isplitl [HH]; · iexact HH
    iexact HA
  · iintro %r ⟨HH, HB⟩
    isplitl [HH]; · iexact HH
    isplitl [HB]; · iexact HB
    iexact HR

def inv (A B : ℕ → sProp 𝕄) (H : sProp 𝕄) (n : ℕ) (_ : Unit) : sProp 𝕄 := iprop(H ∗ mixed A B n)

/-- A loop of four trips, trip n taking group n from A to B under H, takes all four groups from A to B. -/
theorem loop_of (c : Dev nD) (A B : ℕ → sProp 𝕄) (H : sProp 𝕄) (l : Scf.Loop 32) (hok : l.OK) (h4 : l.trips = 4)
    (body : Fin l.trips → Unit → Prog (TpuEff nD τ sig (Elt F) Λ₀ .tc) Unit)
    (trip : ∀ (n : ℕ) (hn : n < l.trips), iprop(H ∗ A n) ⊢ wp frame (wpE (defs₀ (F := F)) Variants.none (c : Thread nD τ) none) Set.univ (body ⟨n, hn⟩ ⟨⟩) (fun _ => iprop(H ∗ B n)))
    (Q : Unit → sProp 𝕄) :
    iprop(H ∗ bigSep Finset.univ (fun t : Fin 4 => A t.val) ∗ (iprop(H ∗ bigSep Finset.univ (fun t : Fin 4 => B t.val)) -∗ Q ⟨⟩))
      ⊢ wp frame (wpE (defs₀ (F := F)) Variants.none (c : Thread nD τ) none) Set.univ (Scf.Loop.for l hok ⟨⟩ body) Q := by
  have h0 : iprop(H ∗ bigSep Finset.univ (fun t : Fin 4 => A t.val)) ⊢ inv A B H 0 ⟨⟩ :=
    Entails.of_eq (by unfold inv; rw [mixed_zero])
  have hN : ∀ acc, inv A B H (Scf.trips l.lb l.ub l.st) acc ⊢ iprop(H ∗ bigSep Finset.univ (fun t : Fin 4 => B t.val)) := fun acc =>
    Entails.of_eq (by unfold inv; rw [show Scf.trips l.lb l.ub l.st = 4 from h4, mixed_four])
  iintro ⟨HH, HA, HK⟩
  iapply (Scf.wp_for frame (wpE (defs₀ (F := F)) Variants.none (c : Thread nD τ) none) Set.univ l.lb l.ub l.st hok ⟨⟩ body (inv A B H)
    (fun k acc => mixed_step c A B H ⟨k.val, h4 ▸ k.isLt⟩ (body k acc) (trip k.val k.isLt)))
  isplitl [HH HA]
  · iapply h0
    isplitl [HH]; · iexact HH
    iexact HA
  · iintro %acc Hinv
    iapply HK
    iapply (hN acc)
    iexact Hinv

end Cert.KernelIdeal.Hand

end
-- ==== Proof.IssueI.lean ====
import proofs.«407547_j20040317403343_3_alg».proof.Proof.GroupsI

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- One trip of the issue loop takes its 64 rows from free to in flight: every id word it reads names a row inside the
    table. The four trips differ only in their rows. -/
theorem issue [∀ e, Nonempty (Elt F e)] (c : Dev nD) (i : grid0.Coords) (arg2 : Memref sig .tc .smem S1x1x256 .i32) (harg2 : arg2.IsWhole) (arg3 : Memref sig .tc .vmem S1x1x256 .f32) (harg3 : arg3.IsWhole) (arg4 : Memref sig .tc .vmem S1x1x256 .i32) (harg4 : arg4.IsWhole) (arg6 : Memref sig .tc .vmem S1x4096x64 .f32) (harg6 : arg6.IsWhole)
    (x2 : Vec F S1x1x256 .i32) (hx : ∀ y, (x2 y : BitVec 32).toNat < 1000000)
    (fa : Buf (Elt F) (tabM.view.loc (c : Thread nD τ))) :
    ∀ (n : ℕ) (hn : n < k0_t1_loop.trips),
      iprop((arg2.view.loc (c : Thread nD τ) ↦[arg2.view.set]{fullShare} harg2.unread x2) ∗ GFree c fa n)
        ⊢ wp frame (wpE (defs₀ (F := F)) Variants.none (c : Thread nD τ) none) Set.univ
          (k0_t1_body i arg2 harg2 arg3 harg3 arg4 harg4 tabM (Memref.isWhole_whole _) arg6 harg6 scrM (Memref.isWhole_whole _) cc0_scratch1 ⟨n, hn⟩ ⟨⟩)
          (fun _ => iprop((arg2.view.loc (c : Thread nD τ) ↦[arg2.view.set]{fullShare} harg2.unread x2) ∗ GFly c fa x2 n))
  | 0, h | 1, h | 2, h | 3, h => by
    have e : h = (by decide) := rfl; subst e
    have hword : ∀ (r : LoadRect S1x1x256) (y : r.shape.Idx), ((arg2.view.readAt (Elt F) r (harg2.unread x2) y : Elt F .i32) : BitVec 32).toNat < 1000000 := by
      intro r y; simp only [View.readAt_apply, Memref.IsWhole.read_unread]; exact hx _
    simp only [GFree, GFly, GLanded, rowsOf, rowsFrom, chain, Nat.reduceMul, Nat.reduceAdd, Nat.reduceMod]
    unfold FREE
    iintro ⟨H2, ⟨Hc0, ⟨%f0, Hs0⟩, Ht0⟩, ⟨Hc1, ⟨%f1, Hs1⟩, Ht1⟩, ⟨Hc2, ⟨%f2, Hs2⟩, Ht2⟩, ⟨Hc3, ⟨%f3, Hs3⟩, Ht3⟩, ⟨Hc4, ⟨%f4, Hs4⟩, Ht4⟩, ⟨Hc5, ⟨%f5, Hs5⟩, Ht5⟩, ⟨Hc6, ⟨%f6, Hs6⟩, Ht6⟩, ⟨Hc7, ⟨%f7, Hs7⟩, Ht7⟩, ⟨Hc8, ⟨%f8, Hs8⟩, Ht8⟩, ⟨Hc9, ⟨%f9, Hs9⟩, Ht9⟩, ⟨Hc10, ⟨%f10, Hs10⟩, Ht10⟩, ⟨Hc11, ⟨%f11, Hs11⟩, Ht11⟩, ⟨Hc12, ⟨%f12, Hs12⟩, Ht12⟩, ⟨Hc13, ⟨%f13, Hs13⟩, Ht13⟩, ⟨Hc14, ⟨%f14, Hs14⟩, Ht14⟩, ⟨Hc15, ⟨%f15, Hs15⟩, Ht15⟩, ⟨Hc16, ⟨%f16, Hs16⟩, Ht16⟩, ⟨Hc17, ⟨%f17, Hs17⟩, Ht17⟩, ⟨Hc18, ⟨%f18, Hs18⟩, Ht18⟩, ⟨Hc19, ⟨%f19, Hs19⟩, Ht19⟩, ⟨Hc20, ⟨%f20, Hs20⟩, Ht20⟩, ⟨Hc21, ⟨%f21, Hs21⟩, Ht21⟩, ⟨Hc22, ⟨%f22, Hs22⟩, Ht22⟩, ⟨Hc23, ⟨%f23, Hs23⟩, Ht23⟩, ⟨Hc24, ⟨%f24, Hs24⟩, Ht24⟩, ⟨Hc25, ⟨%f25, Hs25⟩, Ht25⟩, ⟨Hc26, ⟨%f26, Hs26⟩, Ht26⟩, ⟨Hc27, ⟨%f27, Hs27⟩, Ht27⟩, ⟨Hc28, ⟨%f28, Hs28⟩, Ht28⟩, ⟨Hc29, ⟨%f29, Hs29⟩, Ht29⟩, ⟨Hc30, ⟨%f30, Hs30⟩, Ht30⟩, ⟨Hc31, ⟨%f31, Hs31⟩, Ht31⟩, ⟨Hc32, ⟨%f32, Hs32⟩, Ht32⟩, ⟨Hc33, ⟨%f33, Hs33⟩, Ht33⟩, ⟨Hc34, ⟨%f34, Hs34⟩, Ht34⟩, ⟨Hc35, ⟨%f35, Hs35⟩, Ht35⟩, ⟨Hc36, ⟨%f36, Hs36⟩, Ht36⟩, ⟨Hc37, ⟨%f37, Hs37⟩, Ht37⟩, ⟨Hc38, ⟨%f38, Hs38⟩, Ht38⟩, ⟨Hc39, ⟨%f39, Hs39⟩, Ht39⟩, ⟨Hc40, ⟨%f40, Hs40⟩, Ht40⟩, ⟨Hc41, ⟨%f41, Hs41⟩, Ht41⟩, ⟨Hc42, ⟨%f42, Hs42⟩, Ht42⟩, ⟨Hc43, ⟨%f43, Hs43⟩, Ht43⟩, ⟨Hc44, ⟨%f44, Hs44⟩, Ht44⟩, ⟨Hc45, ⟨%f45, Hs45⟩, Ht45⟩, ⟨Hc46, ⟨%f46, Hs46⟩, Ht46⟩, ⟨Hc47, ⟨%f47, Hs47⟩, Ht47⟩, ⟨Hc48, ⟨%f48, Hs48⟩, Ht48⟩, ⟨Hc49, ⟨%f49, Hs49⟩, Ht49⟩, ⟨Hc50, ⟨%f50, Hs50⟩, Ht50⟩, ⟨Hc51, ⟨%f51, Hs51⟩, Ht51⟩, ⟨Hc52, ⟨%f52, Hs52⟩, Ht52⟩, ⟨Hc53, ⟨%f53, Hs53⟩, Ht53⟩, ⟨Hc54, ⟨%f54, Hs54⟩, Ht54⟩, ⟨Hc55, ⟨%f55, Hs55⟩, Ht55⟩, ⟨Hc56, ⟨%f56, Hs56⟩, Ht56⟩, ⟨Hc57, ⟨%f57, Hs57⟩, Ht57⟩, ⟨Hc58, ⟨%f58, Hs58⟩, Ht58⟩, ⟨Hc59, ⟨%f59, Hs59⟩, Ht59⟩, ⟨Hc60, ⟨%f60, Hs60⟩, Ht60⟩, ⟨Hc61, ⟨%f61, Hs61⟩, Ht61⟩, ⟨Hc62, ⟨%f62, Hs62⟩, Ht62⟩, ⟨Hc63, ⟨%f63, Hs63⟩, Ht63⟩⟩
    unfold k0_t1_body
    sl_exec (disch := (refine chk_core _ ?_; sl_unfold_run_names; exact hword _ _))
    sl_step
    isplitl [H2]; · iexact H2
    isplitl [Hc0 Ht0]; · fly_close Hc0 Ht0 f0 hword x2
    isplitl [Hc1 Ht1]; · fly_close Hc1 Ht1 f1 hword x2
    isplitl [Hc2 Ht2]; · fly_close Hc2 Ht2 f2 hword x2
    isplitl [Hc3 Ht3]; · fly_close Hc3 Ht3 f3 hword x2
    isplitl [Hc4 Ht4]; · fly_close Hc4 Ht4 f4 hword x2
    isplitl [Hc5 Ht5]; · fly_close Hc5 Ht5 f5 hword x2
    isplitl [Hc6 Ht6]; · fly_close Hc6 Ht6 f6 hword x2
    isplitl [Hc7 Ht7]; · fly_close Hc7 Ht7 f7 hword x2
    isplitl [Hc8 Ht8]; · fly_close Hc8 Ht8 f8 hword x2
    isplitl [Hc9 Ht9]; · fly_close Hc9 Ht9 f9 hword x2
    isplitl [Hc10 Ht10]; · fly_close Hc10 Ht10 f10 hword x2
    isplitl [Hc11 Ht11]; · fly_close Hc11 Ht11 f11 hword x2
    isplitl [Hc12 Ht12]; · fly_close Hc12 Ht12 f12 hword x2
    isplitl [Hc13 Ht13]; · fly_close Hc13 Ht13 f13 hword x2
    isplitl [Hc14 Ht14]; · fly_close Hc14 Ht14 f14 hword x2
    isplitl [Hc15 Ht15]; · fly_close Hc15 Ht15 f15 hword x2
    isplitl [Hc16 Ht16]; · fly_close Hc16 Ht16 f16 hword x2
    isplitl [Hc17 Ht17]; · fly_close Hc17 Ht17 f17 hword x2
    isplitl [Hc18 Ht18]; · fly_close Hc18 Ht18 f18 hword x2
    isplitl [Hc19 Ht19]; · fly_close Hc19 Ht19 f19 hword x2
    isplitl [Hc20 Ht20]; · fly_close Hc20 Ht20 f20 hword x2
    isplitl [Hc21 Ht21]; · fly_close Hc21 Ht21 f21 hword x2
    isplitl [Hc22 Ht22]; · fly_close Hc22 Ht22 f22 hword x2
    isplitl [Hc23 Ht23]; · fly_close Hc23 Ht23 f23 hword x2
    isplitl [Hc24 Ht24]; · fly_close Hc24 Ht24 f24 hword x2
    isplitl [Hc25 Ht25]; · fly_close Hc25 Ht25 f25 hword x2
    isplitl [Hc26 Ht26]; · fly_close Hc26 Ht26 f26 hword x2
    isplitl [Hc27 Ht27]; · fly_close Hc27 Ht27 f27 hword x2
    isplitl [Hc28 Ht28]; · fly_close Hc28 Ht28 f28 hword x2
    isplitl [Hc29 Ht29]; · fly_close Hc29 Ht29 f29 hword x2
    isplitl [Hc30 Ht30]; · fly_close Hc30 Ht30 f30 hword x2
    isplitl [Hc31 Ht31]; · fly_close Hc31 Ht31 f31 hword x2
    isplitl [Hc32 Ht32]; · fly_close Hc32 Ht32 f32 hword x2
    isplitl [Hc33 Ht33]; · fly_close Hc33 Ht33 f33 hword x2
    isplitl [Hc34 Ht34]; · fly_close Hc34 Ht34 f34 hword x2
    isplitl [Hc35 Ht35]; · fly_close Hc35 Ht35 f35 hword x2
    isplitl [Hc36 Ht36]; · fly_close Hc36 Ht36 f36 hword x2
    isplitl [Hc37 Ht37]; · fly_close Hc37 Ht37 f37 hword x2
    isplitl [Hc38 Ht38]; · fly_close Hc38 Ht38 f38 hword x2
    isplitl [Hc39 Ht39]; · fly_close Hc39 Ht39 f39 hword x2
    isplitl [Hc40 Ht40]; · fly_close Hc40 Ht40 f40 hword x2
    isplitl [Hc41 Ht41]; · fly_close Hc41 Ht41 f41 hword x2
    isplitl [Hc42 Ht42]; · fly_close Hc42 Ht42 f42 hword x2
    isplitl [Hc43 Ht43]; · fly_close Hc43 Ht43 f43 hword x2
    isplitl [Hc44 Ht44]; · fly_close Hc44 Ht44 f44 hword x2
    isplitl [Hc45 Ht45]; · fly_close Hc45 Ht45 f45 hword x2
    isplitl [Hc46 Ht46]; · fly_close Hc46 Ht46 f46 hword x2
    isplitl [Hc47 Ht47]; · fly_close Hc47 Ht47 f47 hword x2
    isplitl [Hc48 Ht48]; · fly_close Hc48 Ht48 f48 hword x2
    isplitl [Hc49 Ht49]; · fly_close Hc49 Ht49 f49 hword x2
    isplitl [Hc50 Ht50]; · fly_close Hc50 Ht50 f50 hword x2
    isplitl [Hc51 Ht51]; · fly_close Hc51 Ht51 f51 hword x2
    isplitl [Hc52 Ht52]; · fly_close Hc52 Ht52 f52 hword x2
    isplitl [Hc53 Ht53]; · fly_close Hc53 Ht53 f53 hword x2
    isplitl [Hc54 Ht54]; · fly_close Hc54 Ht54 f54 hword x2
    isplitl [Hc55 Ht55]; · fly_close Hc55 Ht55 f55 hword x2
    isplitl [Hc56 Ht56]; · fly_close Hc56 Ht56 f56 hword x2
    isplitl [Hc57 Ht57]; · fly_close Hc57 Ht57 f57 hword x2
    isplitl [Hc58 Ht58]; · fly_close Hc58 Ht58 f58 hword x2
    isplitl [Hc59 Ht59]; · fly_close Hc59 Ht59 f59 hword x2
    isplitl [Hc60 Ht60]; · fly_close Hc60 Ht60 f60 hword x2
    isplitl [Hc61 Ht61]; · fly_close Hc61 Ht61 f61 hword x2
    isplitl [Hc62 Ht62]; · fly_close Hc62 Ht62 f62 hword x2
    fly_close Hc63 Ht63 f63 hword x2
  | n + 4, h => absurd (trips1 ▸ h) (by omega)

end Cert.KernelIdeal.Hand

end
-- ==== Proof.WaitI.lean ====
import proofs.«407547_j20040317403343_3_alg».proof.Proof.GroupsI

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- One trip of the wait loop takes its 64 rows from in flight to landed; what a row then holds was fixed when its
    copy was issued. The four trips differ only in their rows. -/
theorem wait [∀ e, Nonempty (Elt F e)] (c : Dev nD) (i : grid0.Coords) (arg2 : Memref sig .tc .smem S1x1x256 .i32) (harg2 : arg2.IsWhole) (arg3 : Memref sig .tc .vmem S1x1x256 .f32) (harg3 : arg3.IsWhole) (arg4 : Memref sig .tc .vmem S1x1x256 .i32) (harg4 : arg4.IsWhole) (arg6 : Memref sig .tc .vmem S1x4096x64 .f32) (harg6 : arg6.IsWhole)
    (x2 : Vec F S1x1x256 .i32) (hx : ∀ y, (x2 y : BitVec 32).toNat < 1000000)
    (fa : Buf (Elt F) (tabM.view.loc (c : Thread nD τ))) :
    ∀ (n : ℕ) (hn : n < k0_t2_loop.trips),
      iprop(((arg2.view.loc (c : Thread nD τ) ↦[arg2.view.set]{fullShare} harg2.unread x2) ∗ (∃ W, owes (c : Thread nD τ) 0 W)) ∗ GFly c fa x2 n)
        ⊢ wp frame (wpE (defs₀ (F := F)) Variants.none (c : Thread nD τ) none) Set.univ
          (k0_t2_body i arg2 harg2 arg3 harg3 arg4 harg4 tabM (Memref.isWhole_whole _) arg6 harg6 scrM (Memref.isWhole_whole _) cc0_scratch1 ⟨n, hn⟩ ⟨⟩)
          (fun _ => iprop(((arg2.view.loc (c : Thread nD τ) ↦[arg2.view.set]{fullShare} harg2.unread x2) ∗ (∃ W, owes (c : Thread nD τ) 0 W)) ∗ GLanded c fa x2 n))
  | 0, h | 1, h | 2, h | 3, h => by
    have e : h = (by decide) := rfl; subst e
    have hword : ∀ (r : LoadRect S1x1x256) (y : r.shape.Idx), ((arg2.view.readAt (Elt F) r (harg2.unread x2) y : Elt F .i32) : BitVec 32).toNat < 1000000 := by
      intro r y; simp only [View.readAt_apply, Memref.IsWhole.read_unread]; exact hx _
    simp only [GFree, GFly, GLanded, rowsOf, rowsFrom, chain, Nat.reduceMul, Nat.reduceAdd, Nat.reduceMod]
    unfold FLY
    iintro ⟨⟨H2, ⟨%W, HO⟩⟩, ⟨%S0, %f0, %pay0, Hc0, Ht0, %hp0⟩, ⟨%S1, %f1, %pay1, Hc1, Ht1, %hp1⟩, ⟨%S2, %f2, %pay2, Hc2, Ht2, %hp2⟩, ⟨%S3, %f3, %pay3, Hc3, Ht3, %hp3⟩, ⟨%S4, %f4, %pay4, Hc4, Ht4, %hp4⟩, ⟨%S5, %f5, %pay5, Hc5, Ht5, %hp5⟩, ⟨%S6, %f6, %pay6, Hc6, Ht6, %hp6⟩, ⟨%S7, %f7, %pay7, Hc7, Ht7, %hp7⟩, ⟨%S8, %f8, %pay8, Hc8, Ht8, %hp8⟩, ⟨%S9, %f9, %pay9, Hc9, Ht9, %hp9⟩, ⟨%S10, %f10, %pay10, Hc10, Ht10, %hp10⟩, ⟨%S11, %f11, %pay11, Hc11, Ht11, %hp11⟩, ⟨%S12, %f12, %pay12, Hc12, Ht12, %hp12⟩, ⟨%S13, %f13, %pay13, Hc13, Ht13, %hp13⟩, ⟨%S14, %f14, %pay14, Hc14, Ht14, %hp14⟩, ⟨%S15, %f15, %pay15, Hc15, Ht15, %hp15⟩, ⟨%S16, %f16, %pay16, Hc16, Ht16, %hp16⟩, ⟨%S17, %f17, %pay17, Hc17, Ht17, %hp17⟩, ⟨%S18, %f18, %pay18, Hc18, Ht18, %hp18⟩, ⟨%S19, %f19, %pay19, Hc19, Ht19, %hp19⟩, ⟨%S20, %f20, %pay20, Hc20, Ht20, %hp20⟩, ⟨%S21, %f21, %pay21, Hc21, Ht21, %hp21⟩, ⟨%S22, %f22, %pay22, Hc22, Ht22, %hp22⟩, ⟨%S23, %f23, %pay23, Hc23, Ht23, %hp23⟩, ⟨%S24, %f24, %pay24, Hc24, Ht24, %hp24⟩, ⟨%S25, %f25, %pay25, Hc25, Ht25, %hp25⟩, ⟨%S26, %f26, %pay26, Hc26, Ht26, %hp26⟩, ⟨%S27, %f27, %pay27, Hc27, Ht27, %hp27⟩, ⟨%S28, %f28, %pay28, Hc28, Ht28, %hp28⟩, ⟨%S29, %f29, %pay29, Hc29, Ht29, %hp29⟩, ⟨%S30, %f30, %pay30, Hc30, Ht30, %hp30⟩, ⟨%S31, %f31, %pay31, Hc31, Ht31, %hp31⟩, ⟨%S32, %f32, %pay32, Hc32, Ht32, %hp32⟩, ⟨%S33, %f33, %pay33, Hc33, Ht33, %hp33⟩, ⟨%S34, %f34, %pay34, Hc34, Ht34, %hp34⟩, ⟨%S35, %f35, %pay35, Hc35, Ht35, %hp35⟩, ⟨%S36, %f36, %pay36, Hc36, Ht36, %hp36⟩, ⟨%S37, %f37, %pay37, Hc37, Ht37, %hp37⟩, ⟨%S38, %f38, %pay38, Hc38, Ht38, %hp38⟩, ⟨%S39, %f39, %pay39, Hc39, Ht39, %hp39⟩, ⟨%S40, %f40, %pay40, Hc40, Ht40, %hp40⟩, ⟨%S41, %f41, %pay41, Hc41, Ht41, %hp41⟩, ⟨%S42, %f42, %pay42, Hc42, Ht42, %hp42⟩, ⟨%S43, %f43, %pay43, Hc43, Ht43, %hp43⟩, ⟨%S44, %f44, %pay44, Hc44, Ht44, %hp44⟩, ⟨%S45, %f45, %pay45, Hc45, Ht45, %hp45⟩, ⟨%S46, %f46, %pay46, Hc46, Ht46, %hp46⟩, ⟨%S47, %f47, %pay47, Hc47, Ht47, %hp47⟩, ⟨%S48, %f48, %pay48, Hc48, Ht48, %hp48⟩, ⟨%S49, %f49, %pay49, Hc49, Ht49, %hp49⟩, ⟨%S50, %f50, %pay50, Hc50, Ht50, %hp50⟩, ⟨%S51, %f51, %pay51, Hc51, Ht51, %hp51⟩, ⟨%S52, %f52, %pay52, Hc52, Ht52, %hp52⟩, ⟨%S53, %f53, %pay53, Hc53, Ht53, %hp53⟩, ⟨%S54, %f54, %pay54, Hc54, Ht54, %hp54⟩, ⟨%S55, %f55, %pay55, Hc55, Ht55, %hp55⟩, ⟨%S56, %f56, %pay56, Hc56, Ht56, %hp56⟩, ⟨%S57, %f57, %pay57, Hc57, Ht57, %hp57⟩, ⟨%S58, %f58, %pay58, Hc58, Ht58, %hp58⟩, ⟨%S59, %f59, %pay59, Hc59, Ht59, %hp59⟩, ⟨%S60, %f60, %pay60, Hc60, Ht60, %hp60⟩, ⟨%S61, %f61, %pay61, Hc61, Ht61, %hp61⟩, ⟨%S62, %f62, %pay62, Hc62, Ht62, %hp62⟩, ⟨%S63, %f63, %pay63, Hc63, Ht63, %hp63⟩⟩
    unfold k0_t2_body
    sl_exec (disch := (refine chk_core _ ?_; sl_unfold_run_names; exact hword _ _))
    sl_step
    isplitl [H2 HO]
    · isplitl [H2]; · iexact H2
      iexists _; iexact HO
    isplitl [Hc0 Hc0_dst Ht0]; · landed_close Hc0 Hc0_dst Ht0 f0 pay0 hp0
    isplitl [Hc1 Hc1_dst Ht1]; · landed_close Hc1 Hc1_dst Ht1 f1 pay1 hp1
    isplitl [Hc2 Hc2_dst Ht2]; · landed_close Hc2 Hc2_dst Ht2 f2 pay2 hp2
    isplitl [Hc3 Hc3_dst Ht3]; · landed_close Hc3 Hc3_dst Ht3 f3 pay3 hp3
    isplitl [Hc4 Hc4_dst Ht4]; · landed_close Hc4 Hc4_dst Ht4 f4 pay4 hp4
    isplitl [Hc5 Hc5_dst Ht5]; · landed_close Hc5 Hc5_dst Ht5 f5 pay5 hp5
    isplitl [Hc6 Hc6_dst Ht6]; · landed_close Hc6 Hc6_dst Ht6 f6 pay6 hp6
    isplitl [Hc7 Hc7_dst Ht7]; · landed_close Hc7 Hc7_dst Ht7 f7 pay7 hp7
    isplitl [Hc8 Hc8_dst Ht8]; · landed_close Hc8 Hc8_dst Ht8 f8 pay8 hp8
    isplitl [Hc9 Hc9_dst Ht9]; · landed_close Hc9 Hc9_dst Ht9 f9 pay9 hp9
    isplitl [Hc10 Hc10_dst Ht10]; · landed_close Hc10 Hc10_dst Ht10 f10 pay10 hp10
    isplitl [Hc11 Hc11_dst Ht11]; · landed_close Hc11 Hc11_dst Ht11 f11 pay11 hp11
    isplitl [Hc12 Hc12_dst Ht12]; · landed_close Hc12 Hc12_dst Ht12 f12 pay12 hp12
    isplitl [Hc13 Hc13_dst Ht13]; · landed_close Hc13 Hc13_dst Ht13 f13 pay13 hp13
    isplitl [Hc14 Hc14_dst Ht14]; · landed_close Hc14 Hc14_dst Ht14 f14 pay14 hp14
    isplitl [Hc15 Hc15_dst Ht15]; · landed_close Hc15 Hc15_dst Ht15 f15 pay15 hp15
    isplitl [Hc16 Hc16_dst Ht16]; · landed_close Hc16 Hc16_dst Ht16 f16 pay16 hp16
    isplitl [Hc17 Hc17_dst Ht17]; · landed_close Hc17 Hc17_dst Ht17 f17 pay17 hp17
    isplitl [Hc18 Hc18_dst Ht18]; · landed_close Hc18 Hc18_dst Ht18 f18 pay18 hp18
    isplitl [Hc19 Hc19_dst Ht19]; · landed_close Hc19 Hc19_dst Ht19 f19 pay19 hp19
    isplitl [Hc20 Hc20_dst Ht20]; · landed_close Hc20 Hc20_dst Ht20 f20 pay20 hp20
    isplitl [Hc21 Hc21_dst Ht21]; · landed_close Hc21 Hc21_dst Ht21 f21 pay21 hp21
    isplitl [Hc22 Hc22_dst Ht22]; · landed_close Hc22 Hc22_dst Ht22 f22 pay22 hp22
    isplitl [Hc23 Hc23_dst Ht23]; · landed_close Hc23 Hc23_dst Ht23 f23 pay23 hp23
    isplitl [Hc24 Hc24_dst Ht24]; · landed_close Hc24 Hc24_dst Ht24 f24 pay24 hp24
    isplitl [Hc25 Hc25_dst Ht25]; · landed_close Hc25 Hc25_dst Ht25 f25 pay25 hp25
    isplitl [Hc26 Hc26_dst Ht26]; · landed_close Hc26 Hc26_dst Ht26 f26 pay26 hp26
    isplitl [Hc27 Hc27_dst Ht27]; · landed_close Hc27 Hc27_dst Ht27 f27 pay27 hp27
    isplitl [Hc28 Hc28_dst Ht28]; · landed_close Hc28 Hc28_dst Ht28 f28 pay28 hp28
    isplitl [Hc29 Hc29_dst Ht29]; · landed_close Hc29 Hc29_dst Ht29 f29 pay29 hp29
    isplitl [Hc30 Hc30_dst Ht30]; · landed_close Hc30 Hc30_dst Ht30 f30 pay30 hp30
    isplitl [Hc31 Hc31_dst Ht31]; · landed_close Hc31 Hc31_dst Ht31 f31 pay31 hp31
    isplitl [Hc32 Hc32_dst Ht32]; · landed_close Hc32 Hc32_dst Ht32 f32 pay32 hp32
    isplitl [Hc33 Hc33_dst Ht33]; · landed_close Hc33 Hc33_dst Ht33 f33 pay33 hp33
    isplitl [Hc34 Hc34_dst Ht34]; · landed_close Hc34 Hc34_dst Ht34 f34 pay34 hp34
    isplitl [Hc35 Hc35_dst Ht35]; · landed_close Hc35 Hc35_dst Ht35 f35 pay35 hp35
    isplitl [Hc36 Hc36_dst Ht36]; · landed_close Hc36 Hc36_dst Ht36 f36 pay36 hp36
    isplitl [Hc37 Hc37_dst Ht37]; · landed_close Hc37 Hc37_dst Ht37 f37 pay37 hp37
    isplitl [Hc38 Hc38_dst Ht38]; · landed_close Hc38 Hc38_dst Ht38 f38 pay38 hp38
    isplitl [Hc39 Hc39_dst Ht39]; · landed_close Hc39 Hc39_dst Ht39 f39 pay39 hp39
    isplitl [Hc40 Hc40_dst Ht40]; · landed_close Hc40 Hc40_dst Ht40 f40 pay40 hp40
    isplitl [Hc41 Hc41_dst Ht41]; · landed_close Hc41 Hc41_dst Ht41 f41 pay41 hp41
    isplitl [Hc42 Hc42_dst Ht42]; · landed_close Hc42 Hc42_dst Ht42 f42 pay42 hp42
    isplitl [Hc43 Hc43_dst Ht43]; · landed_close Hc43 Hc43_dst Ht43 f43 pay43 hp43
    isplitl [Hc44 Hc44_dst Ht44]; · landed_close Hc44 Hc44_dst Ht44 f44 pay44 hp44
    isplitl [Hc45 Hc45_dst Ht45]; · landed_close Hc45 Hc45_dst Ht45 f45 pay45 hp45
    isplitl [Hc46 Hc46_dst Ht46]; · landed_close Hc46 Hc46_dst Ht46 f46 pay46 hp46
    isplitl [Hc47 Hc47_dst Ht47]; · landed_close Hc47 Hc47_dst Ht47 f47 pay47 hp47
    isplitl [Hc48 Hc48_dst Ht48]; · landed_close Hc48 Hc48_dst Ht48 f48 pay48 hp48
    isplitl [Hc49 Hc49_dst Ht49]; · landed_close Hc49 Hc49_dst Ht49 f49 pay49 hp49
    isplitl [Hc50 Hc50_dst Ht50]; · landed_close Hc50 Hc50_dst Ht50 f50 pay50 hp50
    isplitl [Hc51 Hc51_dst Ht51]; · landed_close Hc51 Hc51_dst Ht51 f51 pay51 hp51
    isplitl [Hc52 Hc52_dst Ht52]; · landed_close Hc52 Hc52_dst Ht52 f52 pay52 hp52
    isplitl [Hc53 Hc53_dst Ht53]; · landed_close Hc53 Hc53_dst Ht53 f53 pay53 hp53
    isplitl [Hc54 Hc54_dst Ht54]; · landed_close Hc54 Hc54_dst Ht54 f54 pay54 hp54
    isplitl [Hc55 Hc55_dst Ht55]; · landed_close Hc55 Hc55_dst Ht55 f55 pay55 hp55
    isplitl [Hc56 Hc56_dst Ht56]; · landed_close Hc56 Hc56_dst Ht56 f56 pay56 hp56
    isplitl [Hc57 Hc57_dst Ht57]; · landed_close Hc57 Hc57_dst Ht57 f57 pay57 hp57
    isplitl [Hc58 Hc58_dst Ht58]; · landed_close Hc58 Hc58_dst Ht58 f58 pay58 hp58
    isplitl [Hc59 Hc59_dst Ht59]; · landed_close Hc59 Hc59_dst Ht59 f59 pay59 hp59
    isplitl [Hc60 Hc60_dst Ht60]; · landed_close Hc60 Hc60_dst Ht60 f60 pay60 hp60
    isplitl [Hc61 Hc61_dst Ht61]; · landed_close Hc61 Hc61_dst Ht61 f61 pay61 hp61
    isplitl [Hc62 Hc62_dst Ht62]; · landed_close Hc62 Hc62_dst Ht62 f62 pay62 hp62
    landed_close Hc63 Hc63_dst Ht63 f63 pay63 hp63
  | n + 4, h => absurd (trips2 ▸ h) (by omega)

end Cert.KernelIdeal.Hand

end
-- ==== Proof.SplitJoinI.lean ====
import proofs.«407547_j20040317403343_3_alg».proof.Proof.GroupsI
import Idealize.ShloMosaic.Lib.Ring
import Idealize.ShloMosaic.Lib.Transfers
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section Groups

variable {M : Type} [URA M]

theorem bigSepL_append {I : Type} (l₁ l₂ : List I) (Φ : I → sProp M) :
    bigSepL (l₁ ++ l₂) Φ = iprop(bigSepL l₁ Φ ∗ bigSepL l₂ Φ) := by
  induction l₁ with
  | nil => exact (equiv_iff.mp emp_sep).symm
  | cons i l ih =>
    rw [List.cons_append, bigSepL_cons, ih, bigSepL_cons]
    have h := Laws.sep_assoc (P := Φ i) (Q := bigSepL l Φ) (R := bigSepL l₂ Φ)
    exact (equiv_iff.mp ⟨h.1, h.2⟩).symm

theorem rows_univ : (Finset.univ : Finset (Fin 256)) = (rowsOf 0 ++ (rowsOf 1 ++ (rowsOf 2 ++ rowsOf 3))).toFinset := by
  decide +kernel

theorem rows_nodup : (rowsOf 0 ++ (rowsOf 1 ++ (rowsOf 2 ++ rowsOf 3))).Nodup := by decide +kernel

theorem bigSep_rows (Φ : Fin 256 → sProp M) :
    bigSep Finset.univ Φ = bigSep Finset.univ fun t : Fin 4 => bigSepL (rowsOf t.val) Φ :=
  (bigSep_univ_eq_bigSepL _ rows_univ rows_nodup Φ).trans <| by
    rw [bigSepL_append, bigSepL_append, bigSepL_append]
    exact (bigSep_univ_eq_bigSepL (M := M) ([0, 1, 2, 3] : List (Fin 4)) (by decide) (by decide)
      fun t => bigSepL (rowsOf t.val) Φ).symm

theorem bigSep_mono_pm {I : Type} {s : Finset I} {Φ Ψ : I → sProp M} (h : ∀ i ∈ s, Φ i ⊢ Ψ i) : bigSep s Φ ⊢ bigSep s Ψ :=
  bigSep_mono h

theorem bigSep_sep3 {I : Type} {s : Finset I} (A B C : I → sProp M) :
    bigSep s (fun i => iprop(A i ∗ B i ∗ C i)) = iprop(bigSep s A ∗ bigSep s B ∗ bigSep s C) := by
  rw [bigSep_sep', bigSep_sep']

end Groups

theorem free_groups (c : Dev nD) (fa : Buf (Elt F) (tabM.view.loc (c : Thread nD τ))) :
    bigSep Finset.univ (FREE c fa) = bigSep Finset.univ fun t : Fin 4 => GFree c fa t.val :=
  (bigSep_rows _).trans (bigSep_congr fun _ _ => (chain_eq _ _).symm)

theorem landed_groups (c : Dev nD) (fa : Buf (Elt F) (tabM.view.loc (c : Thread nD τ))) (x2 : Vec F S1x1x256 .i32) :
    bigSep Finset.univ (LANDED c fa x2) = bigSep Finset.univ fun t : Fin 4 => GLanded c fa x2 t.val :=
  (bigSep_rows _).trans (bigSep_congr fun _ _ => (chain_eq _ _).symm)

abbrev rowRect (r : Fin 256) : Rect S256x1x64 := Rect.unit ![r.val, 0, 0] S1x1x64.size (slot_inb r)

theorem slotR_set (r : Fin 256) : (slotR r).view.set = (rowRect r).set :=
  (View.set_reshape (v := (View.whole cc0_scratch0).slice (rowRect r)) _).trans (View.set_slice_whole cc0_scratch0 (rowRect r))

theorem rows_disjoint (r r' : Fin 256) (h : r ≠ r') : Disjoint (rowRect r).set (rowRect r').set :=
  Ring.lead_disjoint (s := S256x1x64) (NB := 256) (0 : Fin 3) 1 (fun r : Fin 256 => ![r.val, 0, 0]) S1x1x64.size slot_inb
    (fun b => by show b.val = 1 * b.val; omega) rfl r r' h

theorem rows_cover : Finset.univ.biUnion (fun r : Fin 256 => (rowRect r).set) = Finset.univ :=
  Ring.lead_cover (s := S256x1x64) (NB := 256) (0 : Fin 3) 1 (fun r : Fin 256 => ![r.val, 0, 0]) S1x1x64.size slot_inb
    (fun b => by show b.val = 1 * b.val; omega) (fun b a ha => by fin_cases a <;> first | exact absurd rfl ha | rfl) rfl
    (fun a ha => by fin_cases a <;> first | exact absurd rfl ha | rfl) rfl

theorem scr_rows (c : Dev nD) (f : Buf (Elt F) (scrM.view.loc (c : Thread nD τ))) :
    (scrM.view.loc (c : Thread nD τ) ↦{fullShare} f : sProp 𝕄)
      = bigSep Finset.univ fun r : Fin 256 => (slotR r).view.loc (c : Thread nD τ) ↦[(slotR r).view.set]{fullShare} f := by
  rw [Ring.pointsTo_blocks (Ix := Unit) (Name := ℕ) (U := Pipeline.UD sig nD τ) (Lvl := ℕ) (q := fullShare)
    (fun r : Fin 256 => (rowRect r).set) rows_disjoint rows_cover f]
  refine bigSep_congr fun r _ => ?_
  rw [slotR_set]
  rfl

theorem scr_in (c : Dev nD) :
    (iprop(∃ d, owns (c : Thread nD τ) scrM fullShare d) : sProp 𝕄)
      ⊢ bigSep Finset.univ fun r : Fin 256 => iprop(∃ f, (slotR r).view.loc (c : Thread nD τ) ↦[(slotR r).view.set]{fullShare} f) := by
  unfold owns
  iintro ⟨%d, %f, -, H⟩
  iapply (bigSep_mono_pm (s := Finset.univ)
    (Φ := fun r : Fin 256 => ((slotR r).view.loc (c : Thread nD τ) ↦[(slotR r).view.set]{fullShare} f : sProp 𝕄))
    (fun r _ => by iintro H; iexists f; iexact H))
  iapply (Entails.of_eq (scr_rows c f))
  iapply (Entails.of_eq (congrArg (fun S => (scrM.view.loc (c : Thread nD τ) ↦[S]{fullShare} f : sProp 𝕄)) (View.set_whole cc0_scratch0)))
  iexact H

def TokRest (c : Dev nD) (fa : Buf (Elt F) (tabM.view.loc (c : Thread nD τ))) : sProp 𝕄 :=
  iprop((tabM.view.loc (c : Thread nD τ) ↦{Transfers.shareDrop fullShare 264} fa)
    ∗ bigSep Finset.univ fun i : Fin 8 =>
        (tabM.view.loc (c : Thread nD τ) ↦{Transfers.shareTok fullShare 264 (Fin.castAdd 256 i)} fa))

theorem tab_toks (c : Dev nD) (fa : Buf (Elt F) (tabM.view.loc (c : Thread nD τ))) :
    (tabM.view.loc (c : Thread nD τ) ↦{fullShare} fa : sProp 𝕄)
      = iprop(bigSep Finset.univ (fun r : Fin 256 => tokR c r Finset.univ fa) ∗ TokRest c fa) := by
  have h := Transfers.pointsTo_toks (Ix := Unit) (Name := ℕ) (U := Pipeline.UD sig nD τ) (Lvl := ℕ) (Val := Elt F)
    (ℓ := tabM.view.loc (c : Thread nD τ)) (S := Finset.univ) (f := fa) fullShare 264
  rw [equiv_iff.mp ⟨h.1, h.2⟩,
    bigSep_univ_equiv (finSumFinEquiv : Fin 8 ⊕ Fin 256 ≃ Fin 264), bigSep_univ_sum]
  unfold TokRest
  have e : ∀ A B C : sProp 𝕄, iprop(A ∗ B ∗ C) = iprop(C ∗ A ∗ B) := fun A B C => by
    have h1 := Laws.sep_assoc (P := A) (Q := B) (R := C)
    have h2 := Laws.sep_comm (P := iprop(A ∗ B)) (Q := C)
    exact (equiv_iff.mp ⟨h1.2.trans h2.1, h2.2.trans h1.1⟩)
  exact e _ _ _

theorem free_rows (c : Dev nD) (fa : Buf (Elt F) (tabM.view.loc (c : Thread nD τ))) :
    bigSep Finset.univ (FREE c fa)
      = iprop(cells0 (F := F) c
          ∗ bigSep Finset.univ (fun r : Fin 256 => iprop(∃ f, (slotR r).view.loc (c : Thread nD τ) ↦[(slotR r).view.set]{fullShare} f))
          ∗ bigSep Finset.univ (fun r : Fin 256 => tokR c r Finset.univ fa)) := by
  show bigSep Finset.univ (fun r : Fin 256 => iprop(semVal ((c : Thread nD τ), osem0 r) 0
      ∗ (∃ f, (slotR r).view.loc (c : Thread nD τ) ↦[(slotR r).view.set]{fullShare} f) ∗ tokR c r Finset.univ fa)) = _
  rw [bigSep_sep', bigSep_sep']
  rfl

theorem families_in (c : Dev nD) (fa : Buf (Elt F) (tabM.view.loc (c : Thread nD τ))) :
    iprop((∃ d, owns (c : Thread nD τ) scrM fullShare d) ∗ cells0 (F := F) c ∗ (tabM.view.loc (c : Thread nD τ) ↦{fullShare} fa))
      ⊢ iprop(bigSep Finset.univ (fun t : Fin 4 => GFree c fa t.val) ∗ TokRest c fa) := by
  iintro ⟨Hscr, Hcells, Htab⟩
  ihave Hrows := (scr_in (F := F) c) $$ Hscr
  ihave Htoks := (Entails.of_eq (tab_toks c fa)) $$ Htab
  icases Htoks with ⟨Htoks, Hrest⟩
  ihave Hfree : bigSep Finset.univ (FREE c fa) $$ [Hcells Hrows Htoks]
  · irw [free_rows]
    isplitl [Hcells]; · iexact Hcells
    isplitl [Hrows]; · iexact Hrows
    iexact Htoks
  ihave Hg := (Entails.of_eq (free_groups c fa)) $$ Hfree
  isplitl [Hg]; · iexact Hg
  iexact Hrest

theorem slotR_emb (r : Fin 256) (z : S1x64.Idx) :
    (slotR r).view.emb z = (ix3 r (0 : Fin 1) (z 1) : S256x1x64.Idx) := by
  have h0 : (z 0).val < 1 := (z 0).isLt
  have hy : Shape.reshapeEquiv (squeezes_S1x1x64_S1x64.numel_eq) z = (ix3 (0 : Fin 1) (0 : Fin 1) (z 1) : S1x1x64.Idx) :=
    Shape.reshapeEquiv_eq_of_rowMajor _ (by
      rw [Shape.rowMajor_val_three, Shape.rowMajor_val_two]
      show (0 * 1 + 0) * 64 + (z 1).val = (z 0).val * 64 + (z 1).val
      omega)
  show (rowRect r).emb (Shape.reshapeEquiv (squeezes_S1x1x64_S1x64.numel_eq) z) = _
  rw [hy]
  funext a; apply Fin.ext
  match a with
  | ⟨0, _⟩ => show r.val + 1 * 0 = r.val; omega
  | ⟨1, _⟩ => show 0 + 1 * 0 = 0; omega
  | ⟨2, _⟩ => show 0 + 1 * (z 1).val = (z 1).val; omega

theorem srcR_emb (w : BitVec 32) (hw : w.toNat < 1000000) (z : S1x64.Idx) :
    (srcR w hw).view.emb z = (ix3 (⟨w.toNat, hw⟩ : Fin 1000000) (0 : Fin 1) (z 1) : S1000000x1x64.Idx) := by
  have h0 : (z 0).val < 1 := (z 0).isLt
  have hy : Shape.reshapeEquiv (squeezes_S1x1x64_S1x64.numel_eq) z = (ix3 (0 : Fin 1) (0 : Fin 1) (z 1) : S1x1x64.Idx) :=
    Shape.reshapeEquiv_eq_of_rowMajor _ (by
      rw [Shape.rowMajor_val_three, Shape.rowMajor_val_two]
      show (0 * 1 + 0) * 64 + (z 1).val = (z 0).val * 64 + (z 1).val
      omega)
  show (Rect.unit (s := S1000000x1x64) ![w.toNat, 0, 0] S1x1x64.size (chk_core w hw).1).emb
      (Shape.reshapeEquiv (squeezes_S1x1x64_S1x64.numel_eq) z) = _
  rw [hy]
  funext a; apply Fin.ext
  match a with
  | ⟨0, _⟩ => show w.toNat + 1 * 0 = w.toNat; omega
  | ⟨1, _⟩ => show 0 + 1 * 0 = 0; omega
  | ⟨2, _⟩ => show 0 + 1 * (z 1).val = (z 1).val; omega

theorem landed_agrees (c : Dev nD) (fa : Buf (Elt F) (tabM.view.loc (c : Thread nD τ))) (x2 : Vec F S1x1x256 .i32) (r : Fin 256)
    (f : Buf (Elt F) ((slotR r).view.loc (c : Thread nD τ))) (w : BitVec 32) (hw : w.toNat < 1000000)
    (hwx : w = x2 (ix3 (0 : Fin 1) (0 : Fin 1) r)) :
    ∀ i ∈ (slotR r).view.set,
      (slotR r).view.writes (Elt F) f [⟨Rect.whole S1x64, ReadAs.same.apply ((srcR w hw).view.read (Elt F) fa)⟩] i
        = (embOf (tabM.view.read (Elt F) fa) x2 : Buf (Elt F) (scrM.view.loc (c : Thread nD τ))) i := by
  intro i hi
  obtain ⟨z, -, rfl⟩ := Finset.mem_map.mp hi
  rw [← View.write_univ_eq_writes_whole, View.writes_nil, View.write_emb_of_mem _ _ (Finset.mem_univ _)]
  rw [slotR_emb]
  show (srcR w hw).view.read (Elt F) fa z = tabM.view.read (Elt F) fa (ix3 (rowOf (x2 (ix3 (0 : Fin 1) (0 : Fin 1) r))) (0 : Fin 1) (z 1))
  rw [← hwx, show rowOf w = ⟨w.toNat, hw⟩ from dif_pos hw]
  exact congrArg fa (srcR_emb w hw z)

theorem landed_row (c : Dev nD) (fa : Buf (Elt F) (tabM.view.loc (c : Thread nD τ))) (x2 : Vec F S1x1x256 .i32) (r : Fin 256) :
    LANDED c fa x2 r ⊢ iprop(semVal ((c : Thread nD τ), osem0 r) 0
      ∗ ((slotR r).view.loc (c : Thread nD τ) ↦[(slotR r).view.set]{fullShare}
            (embOf (tabM.view.read (Elt F) fa) x2 : Buf (Elt F) (scrM.view.loc (c : Thread nD τ))))
      ∗ tokR c r Finset.univ fa) := by
  unfold LANDED
  iintro ⟨%f, %pay, Hs, Hp, Ht, %h⟩
  obtain ⟨w, hw, hwx, rfl⟩ := h
  isplitl [Hs]; · iexact Hs
  isplitl [Hp]
  · iapply (Entails.of_eq (pointsTo_congr (landed_agrees c fa x2 r f w hw hwx)))
    iexact Hp
  iexact Ht

theorem scr_out (c : Dev nD) (G : Buf (Elt F) (scrM.view.loc (c : Thread nD τ))) :
    (bigSep Finset.univ fun r : Fin 256 => ((slotR r).view.loc (c : Thread nD τ) ↦[(slotR r).view.set]{fullShare} G : sProp 𝕄))
      ⊢ owns (c : Thread nD τ) scrM fullShare (scrM.view.read (Elt F) G) := by
  rw [← scr_rows c G]
  unfold owns
  iintro H
  iexists G
  isplitr
  · ipureintro; rfl
  · iapply (Entails.of_eq (congrArg (fun S => (scrM.view.loc (c : Thread nD τ) ↦[S]{fullShare} G : sProp 𝕄)) (View.set_whole cc0_scratch0).symm))
    iexact H

theorem families_out (c : Dev nD) (fa : Buf (Elt F) (tabM.view.loc (c : Thread nD τ))) (x2 : Vec F S1x1x256 .i32)
    (hx : ∀ y, (x2 y : BitVec 32).toNat < 1000000) :
    iprop(bigSep Finset.univ (fun t : Fin 4 => GLanded c fa x2 t.val) ∗ TokRest c fa)
      ⊢ iprop(owns (c : Thread nD τ) scrM fullShare (embOf (tabM.view.read (Elt F) fa) x2) ∗ cells0 (F := F) c
          ∗ (tabM.view.loc (c : Thread nD τ) ↦{fullShare} fa)) := by
  iintro ⟨HL, Hrest⟩
  ihave Hl := (Entails.of_eq (landed_groups c fa x2).symm) $$ HL
  ihave Hm := (bigSep_mono_pm (s := Finset.univ) (fun r _ => landed_row c fa x2 r)) $$ Hl
  ihave Hn := (Entails.of_eq (bigSep_sep3
      (fun r : Fin 256 => (semVal ((c : Thread nD τ), osem0 r) 0 : sProp 𝕄))
      (fun r : Fin 256 => ((slotR r).view.loc (c : Thread nD τ) ↦[(slotR r).view.set]{fullShare}
              (embOf (tabM.view.read (Elt F) fa) x2 : Buf (Elt F) (scrM.view.loc (c : Thread nD τ))) : sProp 𝕄))
      (fun r : Fin 256 => tokR c r Finset.univ fa))) $$ Hm
  icases Hn with ⟨Hc, Hs, Ht⟩
  isplitl [Hs]
  · iapply (scr_out c (embOf (tabM.view.read (Elt F) fa) x2 : Buf (Elt F) (scrM.view.loc (c : Thread nD τ))))
    iexact Hs
  isplitl [Hc]
  · iapply (Entails.of_eq (show bigSep Finset.univ (fun r : Fin 256 => (semVal ((c : Thread nD τ), osem0 r) 0 : sProp 𝕄)) = cells0 (F := F) c from rfl))
    iexact Hc
  iapply (Entails.of_eq (tab_toks c fa).symm)
  isplitl [Ht]; · iexact Ht
  iexact Hrest

end Cert.KernelIdeal.Hand

end
-- ==== Proof.BodyRunI.lean ====
import proofs.«407547_j20040317403343_3_alg».proof.Proof.IssueI
import proofs.«407547_j20040317403343_3_alg».proof.Proof.WaitI
import proofs.«407547_j20040317403343_3_alg».proof.Proof.SplitJoinI
import Idealize.ShloMosaic.Lib.Pipeline.Value

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem hz3 : (![0, 0, 0] : Fin 3 → ℕ) = fun _ => 0 := by funext a; fin_cases a <;> rfl

theorem whole_mem {S : Shape} (off : Fin S.rank → ℕ) (h : off = fun _ => 0) (inb : ∀ a, off a + S.size a ≤ S.size a) (y : S.Idx) :
    y ∈ (Rect.unit (s := S) off S.size inb).set := by
  subst h; show y ∈ (Rect.whole S).set; rw [Rect.set_whole]; exact Finset.mem_univ y

theorem out_cover (w : S1x4096x64.Idx → Elt F .f32) (L' : List (View.Piece (Elt F) S1x4096x64 .f32)) (y : S1x4096x64.Idx) :
    ∃ p ∈ ((⟨Rect.unit (s := S1x4096x64) ![0, 0, 0] S1x4096x64.size Facts₀.inb_S1x4096x64_S1x4096x64_0_0_0, w⟩ : View.Piece (Elt F) S1x4096x64 .f32) :: L'), y ∈ p.1.set :=
  ⟨_, List.mem_cons_self, whole_mem _ hz3 Facts₀.inb_S1x4096x64_S1x4096x64_0_0_0 y⟩

/-- The body's test for the first step of a half is that the step's number is 0. -/
theorem first_iff (i : grid0.Coords) :
    Scalar.cmpi .ne (Scalar.extui (Scalar.cmpi .eq (BitVec.ofNat 32 (i 1).val) 0#32)) 0#32 = 1#1 ↔ (i 1).val = 0 := by
  have hlt : (i 1).val < 800 := (i 1).isLt
  constructor
  · intro h
    by_contra h0
    have hne : BitVec.ofNat 32 (i 1).val ≠ 0#32 := by
      intro h; have h' := congrArg BitVec.toNat h
      simp only [BitVec.toNat_ofNat, BitVec.toNat_zero] at h'
      omega
    have hb : (BitVec.ofNat 32 (i 1).val == 0#32) = false := by simpa using hne
    have e1 : Scalar.cmpi .eq (BitVec.ofNat 32 (i 1).val) 0#32 = 0#1 := by
      show BitVec.ofBool (BitVec.ofNat 32 (i 1).val == 0#32) = 0#1
      rw [hb]; rfl
    rw [e1] at h; exact absurd h (by decide)
  · intro h0; rw [h0]; decide

/-- One grid point: the output block is zeroed first at step 0 of a half and is what the point before left otherwise. -/
theorem kernelRun [∀ e, Nonempty (Elt F e)] (c : Dev nD) (i : grid0.Coords)
    (arg2 : Memref sig .tc .smem S1x1x256 .i32) (harg2 : arg2.IsWhole) (arg3 : Memref sig .tc .vmem S1x1x256 .f32) (harg3 : arg3.IsWhole)
    (arg4 : Memref sig .tc .vmem S1x1x256 .i32) (harg4 : arg4.IsWhole) (arg6 : Memref sig .tc .vmem S1x4096x64 .f32) (harg6 : arg6.IsWhole)
    (x2 : Vec F S1x1x256 .i32) (x3 : Vec F S1x1x256 .f32) (x4 : Vec F S1x1x256 .i32) (y6 : Vec F S1x4096x64 .f32)
    (ftab : Buf (Elt F) (tabM.view.loc (c : Thread nD τ)))
    (hx2 : ∀ y, (x2 y : BitVec 32).toNat < 1000000)
    (W : Waits sig Unit) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg6 fullShare y6
        ∗ (∃ d, owns (c : Thread nD τ) scrM fullShare d)
        ∗ cells0 (F := F) c
        ∗ (tabM.view.loc (c : Thread nD τ) ↦{fullShare} ftab)
        ∗ owes (c : Thread nD τ) 0 W
        ∗ (iprop(owns (c : Thread nD τ) arg2 fullShare x2 ∗ owns (c : Thread nD τ) arg3 fullShare x3 ∗ owns (c : Thread nD τ) arg4 fullShare x4
              ∗ owns (c : Thread nD τ) arg6 fullShare (outOf i (tabM.view.read (Elt F) ftab) x2 x3 x4 y6)
              ∗ (∃ d, owns (c : Thread nD τ) scrM fullShare d)
              ∗ cells0 (F := F) c
              ∗ (tabM.view.loc (c : Thread nD τ) ↦{fullShare} ftab)
              ∗ (∃ W', owes (c : Thread nD τ) 0 W')) -∗ K ⟨⟩))
      ⊢ wp frame (wpE (defs₀ (F := F)) Variants.none (c : Thread nD τ) none) Set.univ
          (cc0__kernel i arg2 harg2 arg3 harg3 arg4 harg4 tabM (Memref.isWhole_whole _) arg6 harg6 scrM (Memref.isWhole_whole _) cc0_scratch1) K := by
  iintro ⟨H2, H3, H4, H6, Hscr, Hcells, Htab, HO, HK⟩
  ihave Hfam := (families_in (F := F) c ftab) $$ [Hscr Hcells Htab]
  · isplitl [Hscr]; · iexact Hscr
    isplitl [Hcells]; · iexact Hcells
    iexact Htab
  icases Hfam with ⟨G, Hrest⟩
  unfold owns
  icases H2 with ⟨%g2, %hg2, H2⟩
  icases H3 with ⟨%g3, %hg3, H3⟩
  icases H4 with ⟨%g4, %hg4, H4⟩
  icases H6 with ⟨%g6, %hg6, H6⟩
  obtain rfl := harg2.eq_unread hg2
  obtain rfl := harg3.eq_unread hg3
  obtain rfl := harg4.eq_unread hg4
  obtain rfl := harg6.eq_unread hg6
  simp only [cc0__kernel_eq_skeleton]; unfold cc0__kernel_skel
  simp only [k0_part43_eq_skeleton]; unfold k0_part43_skel
  by_cases h0 : (i 1).val = 0
  all_goals
    sl_exec (disch := first | exact (first_iff i).mpr h0 | exact fun h => h0 ((first_iff i).mp h))
    rw [wp_bind, wp_bind]
    iapply (loop_of c (GFree c ftab) (GFly c ftab x2) _ k0_t1_loop k0_t1_ok trips1 _
      (issue c i arg2 harg2 arg3 harg3 arg4 harg4 arg6 harg6 x2 hx2 ftab) _)
    isplitl [H2]; · iexact H2
    isplitl [G]; · iexact G
    iintro ⟨H2, Fl⟩
    rw [wp_bind]
    iapply (loop_of c (GFly c ftab x2) (GLanded c ftab x2) _ k0_t2_loop k0_t2_ok trips2 _
      (wait c i arg2 harg2 arg3 harg3 arg4 harg4 arg6 harg6 x2 hx2 ftab) _)
    isplitl [H2 HO]
    · isplitl [H2]; · iexact H2
      iexists W; iexact HO
    isplitl [Fl]; · iexact Fl
    iintro ⟨⟨H2, ⟨%W', HO⟩⟩, L⟩
    ihave Hout := (families_out (F := F) c ftab x2 hx2) $$ [L Hrest]
    · isplitl [L]; · iexact L
      iexact Hrest
    icases Hout with ⟨Hscr, Hcells, Htab⟩
    unfold owns
    icases Hscr with ⟨%gs, %hgs, Hscr⟩
    sl_exec
    sl_step
    iapply HK
    isplitl [H2]
    · iexists _; isplitr; · ipureintro; exact hg2
      iexact H2
    isplitl [H3]
    · iexists _; isplitr; · ipureintro; exact hg3
      iexact H3
    isplitl [H4]
    · iexists _; isplitr; · ipureintro; exact hg4
      iexact H4
    isplitl [H6]
    · iexists _; isplitr; swap; · iexact H6
      ipureintro
      rw [View.read_writes_eq_canon _ _ _ (out_cover _ _), View.canon_cons_unit_zero (S := S1x4096x64) hz3]
      unfold outOf
      first | rw [if_pos h0] | rw [if_neg h0]
      sl_unfold_run_names
      simp only [View.readAt_eq_ld, View.ld_unit_zero (S := S256x1x64) hz3, View.ld_unit_zero (S := S1x1x256) hz3,
        View.ld_unit_zero (S := S1x4096x64) hz3, hgs, hg3, hg4, hg6, View.readCov_unit_zero (S := S1x4096x64) _ hz3]
    isplitl [Hscr]
    · iexists _, _; isplitr; swap; · iexact Hscr
      ipureintro; rfl
    isplitl [Hcells]; · iexact Hcells
    isplitl [Htab]; · iexact Htab
    iexists _; iexact HO

end Cert.KernelIdeal.Hand

end
-- ==== Proof.FrameI.lean ====
import proofs.«407547_j20040317403343_3_alg».proof.Proof.BodyRunI
import Idealize.ShloMosaic.Lib.Pipeline.FrameBody
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

def H0 : Finset (Ref sig .tc) := {main_v5}
theorem H0_sub : H0 ⊆ Pipeline.restRefs sig spec0 := by decide

theorem sem_lt : ∀ (w : Fin 4) (s : Fin (spec0 w).nbuf), ((spec0 w).sem s).val < 8 := by decide

theorem osem_scoped : ∀ k : Fin 256, (osem0 k).isScoped .tc = true := by decide +kernel

theorem ownSemFacts0 : Pipeline.OwnSemFacts spec0 osem0 :=
  ⟨osem_scoped,
   fun j j' h => by
     have h' := congrArg Fin.val (SemLoc.dma.inj h)
     exact Fin.ext (by simpa using h'),
   fun k w s h => by
     have h' := congrArg Fin.val (SemLoc.dma.inj h)
     have := sem_lt w s
     simp only at h'
     omega⟩

theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1] (by simp only [List.Forall]; exact ⟨hostOps0_sub, hostOps0_1_sub, hostOps0_2_sub⟩)
    (by simp only [List.Forall]; exact ⟨hostOps0_fresh, hostOps0_1_fresh, hostOps0_2_fresh⟩) main_chain

theorem PhiD0_eq (c : Dev nD) :
    (Pipeline.ΦD osem0 spec0 H0 (V m) c : sProp 𝕄)
      = iprop((∃ d, owns (c : Thread nD τ) scrM fullShare d) ∗ (∃ r, prngReg c r) ∗ cells0 (F := F) c
          ∗ (tabM.view.loc (c : Thread nD τ) ↦{fullShare} V m c main_v5)) := by
  rw [Pipeline.ΦD_eq, scopedRest0_eq]
  unfold H0
  rw [BI.bigSep_singleton]
  simp only [scrM, owns_whole]; try rfl

abbrev tabV (c : Dev nD) : Vec F S1000000x1x64 .bf16 := tabM.view.read (Elt F) (V m c main_v5)

def outsAt (c : Dev nD) : (n : ℕ) → n < cfg0.N → Vec F S1x4096x64 .f32
  | 0, hn => outOf (grid0.coords ⟨0, hn⟩) (tabV m c) (iblk m c 0 ⟨0, hn⟩) (iblk m c 1 ⟨0, hn⟩) (iblk m c 2 ⟨0, hn⟩) k0_pay1
  | n + 1, hn => outOf (grid0.coords ⟨n + 1, hn⟩) (tabV m c) (iblk m c 0 ⟨n + 1, hn⟩) (iblk m c 1 ⟨n + 1, hn⟩) (iblk m c 2 ⟨n + 1, hn⟩)
      (outsAt c n (Nat.lt_of_succ_lt hn))

theorem coords_1 : ∀ t : Fin cfg0.N, ((grid0.coords t) 1).val = t.val % 800 :=
  (by decide +kernel : ∀ t : Fin grid0.N, ((grid0.coords t) 1).val = t.val % 800)

theorem outOf_first (i : grid0.Coords) (h : (i 1).val = 0) (tab : Vec F S1000000x1x64 .bf16) (x2 : Vec F S1x1x256 .i32)
    (x3 : Vec F S1x1x256 .f32) (x4 : Vec F S1x1x256 .i32) (y y' : Vec F S1x4096x64 .f32) :
    outOf i tab x2 x3 x4 y = outOf i tab x2 x3 x4 y' := by
  unfold outOf; rw [if_pos h, if_pos h]

theorem outsAt_first (c : Dev nD) (t : Fin cfg0.N) (h0 : t.val % 800 = 0) (y : Vec F S1x4096x64 .f32) :
    outsAt m c t.val t.isLt = outOf (grid0.coords t) (tabV m c) (iblk m c 0 t) (iblk m c 1 t) (iblk m c 2 t) y := by
  have hc : ((grid0.coords t) 1).val = 0 := (coords_1 t).trans h0
  obtain ⟨n, hn⟩ := t
  cases n with
  | zero => exact outOf_first _ hc _ _ _ _ _ _
  | succ n => exact outOf_first _ hc _ _ _ _ _ _

theorem outsAt_later (c : Dev nD) (t : Fin cfg0.N) (h0 : ¬ t.val % 800 = 0) :
    outsAt m c t.val t.isLt = outOf (grid0.coords t) (tabV m c) (iblk m c 0 t) (iblk m c 1 t) (iblk m c 2 t)
      (outsAt m c (t.val - 1) (Nat.lt_of_le_of_lt (Nat.sub_le _ _) t.isLt)) := by
  obtain ⟨n, hn⟩ := t
  cases n with
  | zero => exact absurd (Nat.zero_mod _) h0
  | succ n => rfl

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outsAt m c t.val t.isLt
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outsAt m c t.val t.isLt := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)

theorem before0_3_later (c : Dev nD) (t : Fin cfg0.N) (h0 : ¬ t.val % 800 = 0) (d) :
    (dats m 0 c).before 3 t d = outsAt m c (t.val - 1) (Nat.lt_of_le_of_lt (Nat.sub_le _ _) t.isLt) := by
  have hN : t.val < 1600 := lt_of_lt_of_eq t.isLt (show cfg0.N = 1600 from N_0)
  rw [Dat.before_out_kept _ 3 rfl t (by omega) (Bool.eq_false_iff.mpr fun h => by have := (flush0_3 _).mp h; dsimp only at this; omega)
    (fun _ => rfl) (fun _ _ => rfl)]
  dsimp only [dats]

theorem out_step (c : Dev nD) (t : Fin cfg0.N) (d) :
    outOf (grid0.coords t) (tabV m c) (iblk m c 0 t) (iblk m c 1 t) (iblk m c 2 t) ((dats m 0 c).before 3 t d)
      = outsAt m c t.val t.isLt := by
  by_cases h0 : t.val % 800 = 0
  · exact (outsAt_first m c t h0 _).symm
  · rw [before0_3_later m c t h0 d]; exact (outsAt_later m c t h0).symm

abbrev ms0_0 (t : Fin cfg0.N) : Memref sig .tc .smem S1x1x256 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x256 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x4096x64 .f32 := win0_3.stage (cfg0.slots t 3)
abbrev hs0_3 (t : Fin cfg0.N) : (ms0_3 t).IsWhole := hstage0_3 ((cfg0.slots t 3).cast nbuf0_3)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

theorem sound_body [∀ e, Nonempty (Elt F e)] (c : Dev nD) (t : Fin cfg0.N)
    (hI : ∀ y, ((iblk m c 0 t y : Elt F .i32) : BitVec 32).toNat < 1000000) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl, after0_0, after0_1, after0_2, after0_3]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  iintro ⟨⟨HS, Hg, Hq, Hh⟩, ⟨%W, -, HW⟩, ⟨%d0, H0⟩, ⟨%d1, H1⟩, ⟨%d2, H2⟩, ⟨%d3, H3⟩⟩
  rw [← out_step m c t d3]
  iapply (kernelRun c (grid0.coords t) (ms0_0 t) (hs0_0 t) (ms0_1 t) (hs0_1 t) (ms0_2 t) (hs0_2 t) (ms0_3 t) (hs0_3 t)
     (iblk m c 0 t) (iblk m c 1 t) (iblk m c 2 t) ((dats m 0 c).before 3 t d3) (V m c main_v5) hI W _)
  isplitl [H0]; · iexact H0
  isplitl [H1]; · iexact H1
  isplitl [H2]; · iexact H2
  isplitl [H3]; · iexact H3
  isplitl [HS]; · iexact HS
  isplitl [Hq]; · iexact Hq
  isplitl [Hh]; · iexact Hh
  isplitl [HW]; · iexact HW
  iintro ⟨H0, H1, H2, H3, HS, Hq, Hh, ⟨%W', HW'⟩⟩
  isplitl [HS Hg Hq Hh]
  · isplitl [HS]; · iexact HS
    isplitl [Hg]; · iexact Hg
    isplitl [Hq]; · iexact Hq
    iexact Hh
  isplitl [HW']
  · iexists W'; isplitr; · ipureintro; exact fun _ _ => Or.inl trivial
    iexact HW'
  isplitl [H0]; · iexact H0
  isplitl [H1]; · iexact H1
  isplitl [H2]; · iexact H2
  iexact H3

theorem body_obligation [∀ e, Nonempty (Elt F e)] (c : Dev nD)
    (hI : ∀ t y, ((iblk m c 0 t y : Elt F .i32) : BitVec 32).toNat < 1000000) :
    BodyObligation (dats (F := F) m 0 c) (defs₀ (F := F)) Variants.none () Set.univ := fun t => by
  rw [bigSep_W0, bigSep_W0]
  exact sound_body m c t (hI t)

theorem sfx_subBut : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  refine Pipeline.sub_tailRefsBut Pipeline.Prefetch.none spec0 H0 op ((List.forall_iff_forall_mem.mp hostOps1_sub) op hop) (fun k => k.elim0) ?_
  intro b hb
  have hb' : b = main_v5 := Finset.mem_singleton.mp hb
  subst hb'
  simp only [hostOps1, List.mem_cons, List.mem_nil_iff, or_false] at hop
  rcases hop with rfl | rfl
  · rw [StableHlo.nullary_bufs]; simp only [Finset.mem_singleton]; exact StableHlo.devRef_ne_of_ne (by decide)
  · rw [StableHlo.binary_bufs]; simp only [Finset.mem_insert, Finset.mem_singleton, not_or]
    exact ⟨StableHlo.devRef_ne_of_ne (by decide), StableHlo.devRef_ne_of_ne (by decide), StableHlo.devRef_ne_of_ne (by decide)⟩

set_option backward.isDefEq.respectTransparency.types false in

theorem run_main [∀ e, Nonempty (Elt F e)] (hI : ∀ c t y, ((iblk m c 0 t y : Elt F .i32) : BitVec 32).toNat < 1000000) :
    θ_run defs (onTc (τ := τ) (main (F := F))) (s₀ m ρ)
      (Pipeline.FramePost cfgs (dats m) 0 (Pipeline.afterTail₀ cfgs (dats m) 0 (V0 m) [hostOps1])) :=
  Pipeline.θ_run_frame_dma_around cfgs (dats m) (0 : Fin 1) launch0 osem0 defs₀ Variants.none ownSemFacts0 H0 H0_sub m ρ main
    (hbody := fun c => (body_obligation m c (hI c)).loose) (hshare := fun c => (dats m 0 c).share_full fun _ => rfl)
    (howed := fun _ _ => rfl) (V₀ := V0 m) (opss := [hostOps1]) (hsub := sfx_subBut) (hfresh := sfx_fresh) (hkeep := sfx_keeps)
    (hmain := hmainD m Variants.none) (hA := A_eq m)
    (hin := fun _ => .rfl) (hout := fun _ => .rfl)

theorem W_main_arg0D (dats : (p : Fin _) → (c : Dev nD) → Dat τ (Elt F) Unit ℕ (Pipeline.UD sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
theorem W_main_arg1D (dats : (p : Fin _) → (c : Dev nD) → Dat τ (Elt F) Unit ℕ (Pipeline.UD sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
theorem W_main_arg2D (dats : (p : Fin _) → (c : Dev nD) → Dat τ (Elt F) Unit ℕ (Pipeline.UD sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
theorem W_main_arg3D (dats : (p : Fin _) → (c : Dev nD) → Dat τ (Elt F) Unit ℕ (Pipeline.UD sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

theorem frame [∀ e, Nonempty (Elt F e)] (hI : ∀ c t y, ((iblk m c 0 t y : Elt F .i32) : BitVec 32).toNat < 1000000) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(((h c).2 main_arg0 (Pipeline.mem_restRefs_of main_arg0 (by decide) (by decide))).trans (W_main_arg0D m (dats m) c)),
      (((h c).2 main_arg1 (Pipeline.mem_restRefs_of main_arg1 (by decide) (by decide))).trans (W_main_arg1D m (dats m) c)),
      (((h c).2 main_arg2 (Pipeline.mem_restRefs_of main_arg2 (by decide) (by decide))).trans (W_main_arg2D m (dats m) c)),
      (((h c).2 main_arg3 (Pipeline.mem_restRefs_of main_arg3 (by decide) (by decide))).trans (W_main_arg3D m (dats m) c))⟩) (run_main m ρ hI)

end Cert.KernelIdeal.Hand

end
-- ==== Proof.LibRowOps.lean ====
import Idealize.ShloMosaic.PureOps.Ideal
import Idealize.ShloMosaic.Lib.ValueIdx

noncomputable section

namespace Cert.LibRowOps

open Idealize.ShloMosaic Idealize.ShloMosaic.ValueIdx

def clampRow (N : Nat) (hN : 0 < N) (z : Int) : Fin N := ⟨(min (max z 0) ((N - 1 : Nat) : Int)).toNat, by omega⟩

theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hh a
      rw [← hh]
      exact (Int.toNat_of_nonneg (h a).1).symm
    · intro hh
      funext a
      refine Fin.ext ?_
      show (d.start j idx a + (d.window j a : ℤ)).toNat = (i a).val
      rw [hh a]; rfl
  · rename_i h
    constructor
    · intro hh; cases hh
    · intro hh
      refine absurd (fun a => ?_) h
      rw [hh a]
      exact ⟨Int.natCast_nonneg _, by exact_mod_cast (i a).isLt⟩

theorem rows_resultIdx?_iff {N C E w : Nat} (d : ScatterDims ⟨2, ![N, C]⟩ ⟨2, ![E, 1]⟩ ⟨2, ![E, C]⟩)
    (hu : d.updateWindowDims = [1]) (hi : d.insertedWindowDims = [0]) (hs : d.scatterDimsToOperandDims = [0])
    (hv : d.indexVectorDim = 1) (idx : IVec ⟨2, ![E, 1]⟩ w) (e : Fin E) (f' f : Fin C) (n : Fin N) :
    d.resultIdx? (ix2 e f') idx = some (ix2 n f) ↔ f' = f ∧ (idx (ix2 e 0)).toInt = (n.val : ℤ) := by
  obtain ⟨uw, iw, sd, iv, wf⟩ := d
  simp only at hu hi hs hv
  subst hu hi hs hv
  rw [resultIdx?_eq_some_iff, Fin.forall_fin_two]
  have hstart0 : (ScatterDims.mk (s := ⟨2, ![N, C]⟩) (si := ⟨2, ![E, 1]⟩) (u := ⟨2, ![E, C]⟩) [1] [0] [0] 1 wf).start
      (ix2 e f') idx 0 = (idx (ix2 e 0)).toInt := by
    unfold ScatterDims.start
    rw [dif_pos (List.mem_singleton.mpr rfl)]
    congr 2
    funext b
    refine Fin.ext ?_
    match b with
    | ⟨0, _⟩ => rfl
    | ⟨1, _⟩ => rfl
  have hwin0 : (ScatterDims.mk (s := ⟨2, ![N, C]⟩) (si := ⟨2, ![E, 1]⟩) (u := ⟨2, ![E, C]⟩) [1] [0] [0] 1 wf).window
      (ix2 e f') 0 = 0 := by
    unfold ScatterDims.window
    rw [dif_neg (by simp [Shape.kept])]
  have hstart1 : (ScatterDims.mk (s := ⟨2, ![N, C]⟩) (si := ⟨2, ![E, 1]⟩) (u := ⟨2, ![E, C]⟩) [1] [0] [0] 1 wf).start
      (ix2 e f') idx 1 = 0 := by
    unfold ScatterDims.start
    rw [dif_neg (by simp)]
  have hwin1 : (ScatterDims.mk (s := ⟨2, ![N, C]⟩) (si := ⟨2, ![E, 1]⟩) (u := ⟨2, ![E, C]⟩) [1] [0] [0] 1 wf).window
      (ix2 e f') 1 = f'.val := by
    unfold ScatterDims.window
    rw [dif_pos (by simp [Shape.kept, List.finRange])]
    rfl
  rw [hstart0, hwin0, hstart1, hwin1]
  show (idx (ix2 e 0)).toInt + ((0 : ℕ) : ℤ) = (n.val : ℤ) ∧ (0 : ℤ) + (f'.val : ℤ) = (f.val : ℤ) ↔ _
  rw [Fin.ext_iff]
  constructor
  · rintro ⟨h1, h2⟩; exact ⟨by omega, by omega⟩
  · rintro ⟨h1, h2⟩; exact ⟨by omega, by omega⟩

theorem scatterAdd_rows_apply {N C E w : Nat} (d : ScatterDims ⟨2, ![N, C]⟩ ⟨2, ![E, 1]⟩ ⟨2, ![E, C]⟩)
    (hu : d.updateWindowDims = [1]) (hi : d.insertedWindowDims = [0]) (hs : d.scatterDimsToOperandDims = [0])
    (hv : d.indexVectorDim = 1)
    (x : (⟨2, ![N, C]⟩ : Shape).Idx → EReal) (idx : IVec ⟨2, ![E, 1]⟩ w) (upd : (⟨2, ![E, C]⟩ : Shape).Idx → EReal)
    (n : Fin N) (f : Fin C) :
    Ideal.hostScatterAdd d x idx upd (ix2 n f)
      = x (ix2 n f) + ∑ e : Fin E, (if (idx (ix2 e 0)).toInt = (n.val : ℤ) then upd (ix2 e f) else 0) := by
  unfold Ideal.hostScatterAdd
  congr 1
  rw [Finset.sum_filter, sum_idx2]
  refine Finset.sum_congr rfl fun e _ => ?_
  simp only [rows_resultIdx?_iff d hu hi hs hv idx e _ f n]
  rw [Finset.sum_eq_single f]
  · simp
  · intro f' _ hne
    rw [if_neg (fun h => hne h.1)]
  · intro h; exact absurd (Finset.mem_univ f) h

theorem gather_rows_apply {α : Type} {N C E w : Nat} (hN : 0 < N) (d : GatherDims ⟨2, ![N, C]⟩ ⟨2, ![E, 1]⟩ ⟨2, ![E, C]⟩)
    (ho : d.offsetDims = [1]) (hc : d.collapsedSliceDims = [0]) (hb : d.operandBatchingDims = [])
    (hsb : d.startIndicesBatchingDims = []) (hm : d.startIndexMap = [0]) (hv : d.indexVectorDim = 1)
    (hsz : d.sliceSizes = ![1, C])
    (x : (⟨2, ![N, C]⟩ : Shape).Idx → α) (idx : IVec ⟨2, ![E, 1]⟩ w) (e : Fin E) (f : Fin C) :
    Host.gather d x idx (ix2 e f) = x (ix2 (clampRow N hN (idx (ix2 e 0)).toInt) f) := by
  obtain ⟨od, cd, ob, sb, sm, iv, ss, wf⟩ := d
  simp only at ho hc hb hsb hm hv hsz
  subst ho hc hb hsb hm hv hsz
  unfold Host.gather
  congr 1
  funext a
  refine Fin.ext ?_
  show GatherDims.start _ (ix2 e f) idx a + GatherDims.batchCoord _ (ix2 e f) a + GatherDims.offCoord _ (ix2 e f) a = _
  rw [GatherDims.batchCoord_eq_zero _ _ _ List.not_mem_nil, Nat.add_zero]
  revert a
  rw [Fin.forall_fin_two]
  refine ⟨?_, ?_⟩
  · rw [GatherDims.offCoord_eq_zero _ _ _ (fun h => ((GatherDims.mem_sKept _ _).mp h).1 (List.mem_singleton.mpr rfl)),
      Nat.add_zero]
    unfold GatherDims.start
    rw [dif_pos (List.mem_singleton.mpr rfl)]
    have hsi : ∀ c, GatherDims.siIdx (s := ⟨2, ![N, C]⟩) (si := ⟨2, ![E, 1]⟩) (t := ⟨2, ![E, C]⟩)
        ⟨[1], [0], [], [], [0], 1, ![1, C], wf⟩ (ix2 e f) c = ix2 e 0 := by
      intro c
      funext b; refine Fin.ext ?_
      match b with
      | ⟨0, _⟩ => rfl
      | ⟨1, _⟩ => exact Nat.lt_one_iff.mp c.isLt
    rw [hsi]
    show min (idx (ix2 e 0)).toInt.toNat (N - 1) = (min (max (idx (ix2 e 0)).toInt 0) ((N - 1 : Nat) : Int)).toNat
    omega
  · unfold GatherDims.start
    rw [dif_neg (by simp), Nat.zero_add]
    rfl

end Cert.LibRowOps

end
-- ==== Proof.HostPreI.lean ====
import proofs.«407547_j20040317403343_3_alg».proof.Proof.Gen.KernelIdeal.Frame
import proofs.«407547_j20040317403343_3_alg».proof.Proof.LibRowOps
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.HandHost

open Idealize.ShloMosaic Idealize.ShloMosaic.TcCoe Idealize.ShloMosaic.Tactic Idealize.ShloMosaic.ValueIdx
open Cert.KernelIdeal Cert.KernelIdeal.Gen

variable {F : FTy → Type} [FloatOps F]
variable (m : (ℓ : Loc nD τ sig) → Buf (Elt F) ℓ)

def clipW (w : BitVec 32) : BitVec 32 := IntOp.minsi 999999#32 (IntOp.maxsi 0#32 w)

abbrev clipVec (ids : IVec S409600 32) : IVec S409600 32 :=
  minsi (broadcastInDim S409600 ![] Gen.bcast_S_S409600 (constantI S_ 32 999999#32))
    (maxsi (broadcastInDim S409600 ![] Gen.bcast_S_S409600 (constantI S_ 32 0#32)) ids)

theorem V_v1 (c : Dev nD) :
    (Gen.V m c main_v1 : S2x1x204800.Idx → BitVec 32)
      = shapeCast S2x1x204800 (clipVec (m ((c : Thread nD τ).loc main_arg0))) Gen.shapeCasts_S409600_S2x1x204800 := by
  dsimp only [Gen.V, Gen.V0]
  simp only [Gen.hostOps0, Gen.hostOps0_1, Gen.hostOps0_2, List.flatten_cons, List.flatten_nil, List.append_nil,
    List.cons_append, List.nil_append]
  after_results
  rfl

theorem V_v2 (c : Dev nD) :
    (Gen.V m c main_v2 : S2x1x204800.Idx → F .f32)
      = shapeCast S2x1x204800 (m ((c : Thread nD τ).loc main_arg1) : S409600.Idx → F .f32) Gen.shapeCasts_S409600_S2x1x204800 := by
  dsimp only [Gen.V, Gen.V0]
  simp only [Gen.hostOps0, Gen.hostOps0_1, Gen.hostOps0_2, List.flatten_cons, List.flatten_nil, List.append_nil,
    List.cons_append, List.nil_append]
  after_results
  rfl

theorem V_v3 (c : Dev nD) :
    (Gen.V m c main_v3 : S2x1x204800.Idx → BitVec 32)
      = shapeCast S2x1x204800 (m ((c : Thread nD τ).loc main_arg2) : S409600.Idx → BitVec 32) Gen.shapeCasts_S409600_S2x1x204800 := by
  dsimp only [Gen.V, Gen.V0]
  simp only [Gen.hostOps0, Gen.hostOps0_1, Gen.hostOps0_2, List.flatten_cons, List.flatten_nil, List.append_nil,
    List.cons_append, List.nil_append]
  after_results
  rfl

theorem V_v5 (c : Dev nD) :
    (Gen.V m c main_v5 : S1000000x1x64.Idx → F .bf16)
      = shapeCast S1000000x1x64
          (truncf .bf16 (m ((c : Thread nD τ).loc main_arg3) : FVec F S1000000x64 .f32) Gen.bitsLt_bf16_f32)
          Gen.shapeCasts_S1000000x64_S1000000x1x64 := by
  dsimp only [Gen.V, Gen.V0]
  simp only [Gen.hostOps0, Gen.hostOps0_1, Gen.hostOps0_2, List.flatten_cons, List.flatten_nil, List.append_nil,
    List.cons_append, List.nil_append]
  after_results
  rfl

theorem clipW_toInt (w : BitVec 32) : (clipW w).toInt = min (max w.toInt 0) 999999 := by
  have z0 : (0#32 : BitVec 32).toInt = 0 := by decide
  have z1 : (999999#32 : BitVec 32).toInt = 999999 := by decide
  unfold clipW IntOp.minsi IntOp.maxsi
  simp only [BitVec.slt_iff_toInt_lt]
  split <;> split <;> simp_all <;> omega

theorem clipW_lt (w : BitVec 32) : (clipW w).toNat < 1000000 := by
  have h := clipW_toInt w
  have e := BitVec.toInt_eq_toNat_cond (clipW w)
  have hl := (clipW w).isLt
  omega

theorem clipW_toNat (w : BitVec 32) :
    (clipW w).toNat = (Cert.LibRowOps.clampRow 1000000 (by norm_num) w.toInt).val := by
  have h := clipW_toInt w
  have e := BitVec.toInt_eq_toNat_cond (clipW w)
  have hl := (clipW w).isLt
  unfold Cert.LibRowOps.clampRow
  show _ = (min (max w.toInt 0) ((1000000 - 1 : Nat) : Int)).toNat
  omega

theorem clipVec_apply (ids : IVec S409600 32) (k : S409600.Idx) : clipVec ids k = clipW (ids k) := rfl

theorem V_v1_mem (c : Dev nD) (j : S2x1x204800.Idx) :
    ∃ w : BitVec 32, (Gen.V m c main_v1 : S2x1x204800.Idx → BitVec 32) j = clipW w := by
  rw [V_v1]
  exact ⟨_, rfl⟩

theorem idsblk_lt (c : Dev nD) (t : Fin cfg0.N) (y : ((cfg0.win 0).xblock (cfg0.grid.coords t)).Idx) :
    ((Gen.iblk m c 0 t y : Elt F .i32) : BitVec 32).toNat < 1000000 := by
  have e : ((Gen.iblk m c 0 t y : Elt F .i32) : BitVec 32)
      = (Gen.V m c main_v1 : S2x1x204800.Idx → BitVec 32) (((cfg0.win 0).blk t).view.emb y) := rfl
  obtain ⟨w, hw⟩ := V_v1_mem m c (((cfg0.win 0).blk t).view.emb y)
  rw [e, hw]
  exact clipW_lt w

abbrev flat (a : Fin 2) (p : Fin 204800) : Fin 409600 :=
  ⟨204800 * a.val + p.val, by have ha := a.isLt; have hp := p.isLt; omega⟩

theorem reshape_flat_apply {α : Type} (x : S409600.Idx → α) (a : Fin 2) (p : Fin 204800) :
    shapeCast S2x1x204800 x Gen.shapeCasts_S409600_S2x1x204800 (ix3 a (0 : Fin 1) p) = x (ix1 (flat a p)) := by
  refine shapeCast_apply x _ (ix3 a (0 : Fin 1) p) (ix1 (flat a p)) ?_
  rw [Shape.rowMajor_val_one, Shape.rowMajor_val_three]
  show 204800 * a.val + p.val = (a.val * 1 + 0) * 204800 + p.val
  omega

theorem reshape_rows_apply {α : Type} (x : S1000000x64.Idx → α) (r : Fin 1000000) (d : Fin 64) :
    shapeCast S1000000x1x64 x Gen.shapeCasts_S1000000x64_S1000000x1x64 (ix3 r (0 : Fin 1) d) = x (ix2 r d) := by
  refine shapeCast_apply x _ (ix3 r (0 : Fin 1) d) (ix2 r d) ?_
  rw [Shape.rowMajor_val_two, Shape.rowMajor_val_three]
  show r.val * 64 + d.val = (r.val * 1 + 0) * 64 + d.val
  omega

theorem V_v1_apply (c : Dev nD) (a : Fin 2) (p : Fin 204800) :
    (Gen.V m c main_v1 : S2x1x204800.Idx → BitVec 32) (ix3 a (0 : Fin 1) p)
      = clipW ((m ((c : Thread nD τ).loc main_arg0) : S409600.Idx → BitVec 32) (ix1 (flat a p))) := by
  rw [V_v1, reshape_flat_apply, clipVec_apply]

theorem V_v2_apply (c : Dev nD) (a : Fin 2) (p : Fin 204800) :
    (Gen.V m c main_v2 : S2x1x204800.Idx → F .f32) (ix3 a (0 : Fin 1) p)
      = (m ((c : Thread nD τ).loc main_arg1) : S409600.Idx → F .f32) (ix1 (flat a p)) := by
  rw [V_v2, reshape_flat_apply]

theorem V_v3_apply (c : Dev nD) (a : Fin 2) (p : Fin 204800) :
    (Gen.V m c main_v3 : S2x1x204800.Idx → BitVec 32) (ix3 a (0 : Fin 1) p)
      = (m ((c : Thread nD τ).loc main_arg2) : S409600.Idx → BitVec 32) (ix1 (flat a p)) := by
  rw [V_v3, reshape_flat_apply]

theorem V_v5_apply (c : Dev nD) (r : Fin 1000000) (d : Fin 64) :
    (Gen.V m c main_v5 : S1000000x1x64.Idx → F .bf16) (ix3 r (0 : Fin 1) d)
      = FloatOps.truncf .bf16 Gen.bitsLt_bf16_f32
          ((m ((c : Thread nD τ).loc main_arg3) : S1000000x64.Idx → F .f32) (ix2 r d)) := by
  rw [V_v5, reshape_rows_apply]
  rfl

theorem idx_facts : ∀ t : Fin cfg0.N,
    (win0_0.index t (0 : Fin 3) = t.val / 800 ∧ win0_0.index t (1 : Fin 3) = 0 ∧ win0_0.index t (2 : Fin 3) = t.val % 800)
    ∧ (win0_1.index t (0 : Fin 3) = t.val / 800 ∧ win0_1.index t (1 : Fin 3) = 0 ∧ win0_1.index t (2 : Fin 3) = t.val % 800)
    ∧ (win0_2.index t (0 : Fin 3) = t.val / 800 ∧ win0_2.index t (1 : Fin 3) = 0 ∧ win0_2.index t (2 : Fin 3) = t.val % 800) :=
  (by decide +kernel : ∀ t : Fin grid0.N, _)

theorem point_lt (t : Fin cfg0.N) : t.val < 1600 := lt_of_lt_of_eq t.isLt Gen.N_0

abbrev coreOf (t : Fin cfg0.N) : Fin 2 := ⟨t.val / 800, by have := point_lt t; omega⟩

abbrev rowPos (t : Fin cfg0.N) (k : Fin 256) : Fin 204800 :=
  ⟨256 * (t.val % 800) + k.val, by have := k.isLt; omega⟩

abbrev blkPos (t : Fin cfg0.N) (k : Fin 256) : Fin 409600 :=
  ⟨204800 * (t.val / 800) + 256 * (t.val % 800) + k.val, by have := point_lt t; have := k.isLt; omega⟩

theorem flat_core_row (t : Fin cfg0.N) (k : Fin 256) : flat (coreOf t) (rowPos t k) = blkPos t k :=
  Fin.ext (by show 204800 * (t.val / 800) + (256 * (t.val % 800) + k.val) = 204800 * (t.val / 800) + 256 * (t.val % 800) + k.val; omega)

theorem emb0 (t : Fin cfg0.N) (k : Fin 256) :
    ((cfg0.win 0).blk t).view.emb (ix3 (0 : Fin 1) (0 : Fin 1) k) = ix3 (coreOf t) (0 : Fin 1) (rowPos t k) := by
  obtain ⟨⟨e0, e1, e2⟩, -, -⟩ := idx_facts t
  funext a; apply Fin.ext
  match a with
  | ⟨0, _⟩ => show win0_0.index t (0 : Fin 3) * 1 + 1 * 0 = t.val / 800; omega
  | ⟨1, _⟩ => show win0_0.index t (1 : Fin 3) * 1 + 1 * 0 = 0; omega
  | ⟨2, _⟩ => show win0_0.index t (2 : Fin 3) * 256 + 1 * k.val = 256 * (t.val % 800) + k.val; omega

theorem emb1 (t : Fin cfg0.N) (k : Fin 256) :
    ((cfg0.win 1).blk t).view.emb (ix3 (0 : Fin 1) (0 : Fin 1) k) = ix3 (coreOf t) (0 : Fin 1) (rowPos t k) := by
  obtain ⟨-, ⟨e0, e1, e2⟩, -⟩ := idx_facts t
  funext a; apply Fin.ext
  match a with
  | ⟨0, _⟩ => show win0_1.index t (0 : Fin 3) * 1 + 1 * 0 = t.val / 800; omega
  | ⟨1, _⟩ => show win0_1.index t (1 : Fin 3) * 1 + 1 * 0 = 0; omega
  | ⟨2, _⟩ => show win0_1.index t (2 : Fin 3) * 256 + 1 * k.val = 256 * (t.val % 800) + k.val; omega

theorem emb2 (t : Fin cfg0.N) (k : Fin 256) :
    ((cfg0.win 2).blk t).view.emb (ix3 (0 : Fin 1) (0 : Fin 1) k) = ix3 (coreOf t) (0 : Fin 1) (rowPos t k) := by
  obtain ⟨-, -, ⟨e0, e1, e2⟩⟩ := idx_facts t
  funext a; apply Fin.ext
  match a with
  | ⟨0, _⟩ => show win0_2.index t (0 : Fin 3) * 1 + 1 * 0 = t.val / 800; omega
  | ⟨1, _⟩ => show win0_2.index t (1 : Fin 3) * 1 + 1 * 0 = 0; omega
  | ⟨2, _⟩ => show win0_2.index t (2 : Fin 3) * 256 + 1 * k.val = 256 * (t.val % 800) + k.val; omega

theorem iblk0_apply (c : Dev nD) (t : Fin cfg0.N) (k : Fin 256) :
    ((Gen.iblk m c 0 t (ix3 (0 : Fin 1) (0 : Fin 1) k) : Elt F .i32) : BitVec 32)
      = clipW ((m ((c : Thread nD τ).loc main_arg0) : S409600.Idx → BitVec 32) (ix1 (blkPos t k))) := by
  have e : ((Gen.iblk m c 0 t (ix3 (0 : Fin 1) (0 : Fin 1) k) : Elt F .i32) : BitVec 32)
      = (Gen.V m c main_v1 : S2x1x204800.Idx → BitVec 32) (((cfg0.win 0).blk t).view.emb (ix3 (0 : Fin 1) (0 : Fin 1) k)) := rfl
  rw [e, emb0, V_v1_apply, flat_core_row]

theorem iblk1_apply (c : Dev nD) (t : Fin cfg0.N) (k : Fin 256) :
    ((Gen.iblk m c 1 t (ix3 (0 : Fin 1) (0 : Fin 1) k) : Elt F .f32) : F .f32)
      = (m ((c : Thread nD τ).loc main_arg1) : S409600.Idx → F .f32) (ix1 (blkPos t k)) := by
  have e : ((Gen.iblk m c 1 t (ix3 (0 : Fin 1) (0 : Fin 1) k) : Elt F .f32) : F .f32)
      = (Gen.V m c main_v2 : S2x1x204800.Idx → F .f32) (((cfg0.win 1).blk t).view.emb (ix3 (0 : Fin 1) (0 : Fin 1) k)) := rfl
  rw [e, emb1, V_v2_apply, flat_core_row]

theorem iblk2_apply (c : Dev nD) (t : Fin cfg0.N) (k : Fin 256) :
    ((Gen.iblk m c 2 t (ix3 (0 : Fin 1) (0 : Fin 1) k) : Elt F .i32) : BitVec 32)
      = (m ((c : Thread nD τ).loc main_arg2) : S409600.Idx → BitVec 32) (ix1 (blkPos t k)) := by
  have e : ((Gen.iblk m c 2 t (ix3 (0 : Fin 1) (0 : Fin 1) k) : Elt F .i32) : BitVec 32)
      = (Gen.V m c main_v3 : S2x1x204800.Idx → BitVec 32) (((cfg0.win 2).blk t).view.emb (ix3 (0 : Fin 1) (0 : Fin 1) k)) := rfl
  rw [e, emb2, V_v3_apply, flat_core_row]

end Cert.KernelIdeal.HandHost

end
-- ==== Proof.Spec.lean ====
import proofs.«407547_j20040317403343_3_alg».proof.Proof.LibRowOps

noncomputable section

namespace Cert.Spec

open Idealize.ShloMosaic Idealize.ShloMosaic.ValueIdx Cert.LibRowOps

abbrev SE : Shape := ⟨1, ![409600]⟩
abbrev ST : Shape := ⟨2, ![1000000, 64]⟩
abbrev SO : Shape := ⟨2, ![4096, 64]⟩

def row (ids : IVec SE 32) (e : Fin 409600) : Fin 1000000 := clampRow 1000000 (by norm_num) (ids (ix1 e)).toInt

def term (ids : IVec SE 32) (ratings : FVec Ideal SE .f32) (seg : IVec SE 32) (table : FVec Ideal ST .f32)
    (n : Fin 4096) (f : Fin 64) (e : Fin 409600) : EReal :=
  if (seg (ix1 e)).toInt = (n.val : ℤ) then table (ix2 (row ids e) f) * ratings (ix1 e) else 0

def Gat (ids : IVec SE 32) (ratings : FVec Ideal SE .f32) (seg : IVec SE 32) (table : FVec Ideal ST .f32)
    (n : Fin 4096) (f : Fin 64) : EReal :=
  ∑ e : Fin 409600, term ids ratings seg table n f e

def G (ids : IVec SE 32) (ratings : FVec Ideal SE .f32) (seg : IVec SE 32) (table : FVec Ideal ST .f32) :
    FVec Ideal SO .f32 :=
  fun i => Gat ids ratings seg table (i 0) (i 1)

theorem G_apply (ids : IVec SE 32) (ratings : FVec Ideal SE .f32) (seg : IVec SE 32) (table : FVec Ideal ST .f32)
    (n : Fin 4096) (f : Fin 64) : G ids ratings seg table (ix2 n f) = Gat ids ratings seg table n f := rfl

end Cert.Spec

end
-- ==== Proof.AccValueI.lean ====
import proofs.«407547_j20040317403343_3_alg».proof.Proof.PayAtI
import proofs.«407547_j20040317403343_3_alg».proof.Proof.FrameI
import proofs.«407547_j20040317403343_3_alg».proof.Proof.HostPreI
import proofs.«407547_j20040317403343_3_alg».proof.Proof.Spec

noncomputable section

namespace Cert.KernelIdeal.HandValue

open Cert.KernelIdeal Cert.KernelIdeal.Gen Cert.KernelIdeal.Hand Cert.KernelIdeal.HandHost
open Idealize.ShloMosaic Idealize.ShloMosaic.TcCoe Idealize.ShloMosaic.ValueIdx
open scoped BigOperators

variable (m : (ℓ : Loc nD τ sig) → Buf (Elt Ideal) ℓ)

def KT (c : Dev nD) (b : Fin 4096) (f : Fin 64) (e : ℕ) : EReal :=
  if h : e < 409600 then
    Cert.Spec.term (m ((c : Thread nD τ).loc main_arg0)) (m ((c : Thread nD τ).loc main_arg1))
      (m ((c : Thread nD τ).loc main_arg2)) (m ((c : Thread nD τ).loc main_arg3)) b f ⟨e, h⟩
  else 0

theorem tabV_apply (c : Dev nD) (r : Fin 1000000) (f : Fin 64) :
    tabV m c (ix3 r (0 : Fin 1) f)
      = (m ((c : Thread nD τ).loc main_arg3) : S1000000x64.Idx → Ideal .f32) (ix2 r f) := by
  show (Gen.V m c main_v5 : S1000000x1x64.Idx → Ideal .bf16) (ix3 r (0 : Fin 1) f) = _
  rw [V_v5_apply]
  rfl

theorem rowOf_clipW (ids : IVec S409600 32) (e : Fin 409600) :
    rowOf (clipW (ids (ix1 e))) = Cert.Spec.row ids e := by
  unfold rowOf Cert.Spec.row
  rw [dif_pos (clipW_lt _)]
  exact Fin.ext (clipW_toNat _)

theorem term_eq (c : Dev nD) (t : Fin cfg0.N) (b : Fin 4096) (f : Fin 64) (k : Fin 256)
    (x2 : Vec Ideal S1x1x256 .i32) (x3 : Vec Ideal S1x1x256 .f32) (x4 : Vec Ideal S1x1x256 .i32)
    (h2 : x2 (ix3 (0 : Fin 1) (0 : Fin 1) k)
      = clipW ((m ((c : Thread nD τ).loc main_arg0) : S409600.Idx → BitVec 32) (ix1 (blkPos t k))))
    (h3 : x3 (ix3 (0 : Fin 1) (0 : Fin 1) k)
      = (m ((c : Thread nD τ).loc main_arg1) : S409600.Idx → Ideal .f32) (ix1 (blkPos t k)))
    (h4 : x4 (ix3 (0 : Fin 1) (0 : Fin 1) k)
      = (m ((c : Thread nD τ).loc main_arg2) : S409600.Idx → BitVec 32) (ix1 (blkPos t k))) :
    (if (x4 (ix3 (0 : Fin 1) (0 : Fin 1) k)).toInt = (b.val : ℤ) then x3 (ix3 (0 : Fin 1) (0 : Fin 1) k) else 0)
      * tabV m c (ix3 (rowOf (x2 (ix3 (0 : Fin 1) (0 : Fin 1) k))) (0 : Fin 1) f)
      = KT m c b f (204800 * (t.val / 800) + (256 * (t.val % 800) + k.val)) := by
  have hpos : 204800 * (t.val / 800) + (256 * (t.val % 800) + k.val) < 409600 := by
    have := point_lt t; have := k.isLt; omega
  have hfin : (⟨204800 * (t.val / 800) + (256 * (t.val % 800) + k.val), hpos⟩ : Fin 409600) = blkPos t k :=
    Fin.ext (Nat.add_assoc _ _ _).symm
  rw [h2, h3, h4, rowOf_clipW, tabV_apply]
  unfold KT
  rw [dif_pos hpos, hfin]
  unfold Cert.Spec.term
  split_ifs
  · exact mul_comm _ _
  · exact zero_mul _

theorem step_apply (c : Dev nD) (n : ℕ) (hn : n < cfg0.N) (y : Vec Ideal S1x4096x64 .f32) (b : Fin 4096) (f : Fin 64) :
    outOf (grid0.coords ⟨n, hn⟩) (tabV m c) (iblk m c 0 ⟨n, hn⟩) (iblk m c 1 ⟨n, hn⟩) (iblk m c 2 ⟨n, hn⟩) y (ix3 (0 : Fin 1) b f)
      = (if n % 800 = 0 then 0 else y (ix3 (0 : Fin 1) b f))
        + ∑ p ∈ Finset.range 256, KT m c b f (204800 * (n / 800) + (256 * (n % 800) + p)) := by
  refine (outOf_apply _ _ _ _ _ _ b f).trans ?_
  rw [coords_1, Finset.sum_range]
  refine congrArg₂ (· + ·) rfl (Finset.sum_congr rfl fun k _ => ?_)
  exact term_eq m c ⟨n, hn⟩ b f k _ _ _ (iblk0_apply m c ⟨n, hn⟩ k) (iblk1_apply m c ⟨n, hn⟩ k) (iblk2_apply m c ⟨n, hn⟩ k)

theorem outsAt_aux (c : Dev nD) (b : Fin 4096) (f : Fin 64) :
    ∀ (n : ℕ) (hn : n < cfg0.N), outsAt m c n hn (ix3 (0 : Fin 1) b f)
      = ∑ p ∈ Finset.range (256 * (n % 800 + 1)), KT m c b f (204800 * (n / 800) + p) := by
  intro n
  induction n using Nat.strong_induction_on with
  | _ n ih =>
    intro hn
    by_cases h0 : n % 800 = 0
    · refine (congrFun (outsAt_first m c ⟨n, hn⟩ h0 (k0_pay1 (F := Ideal))) _).trans ?_
      refine (step_apply m c n hn _ b f).trans ?_
      rw [if_pos h0, zero_add, h0]
      refine Finset.sum_congr rfl fun p _ => ?_
      rw [Nat.mul_zero, Nat.zero_add]
    · refine (congrFun (outsAt_later m c ⟨n, hn⟩ h0) _).trans ?_
      refine (step_apply m c n hn _ b f).trans ?_
      rw [if_neg h0]
      have hprev := ih (n - 1) (by omega) (Nat.lt_of_le_of_lt (Nat.sub_le _ _) hn)
      have hq : (n - 1) / 800 = n / 800 := by omega
      have hr : (n - 1) % 800 + 1 = n % 800 := by omega
      rw [hq, hr] at hprev
      refine (congrArg₂ (· + ·) hprev rfl).trans ?_
      rw [show 256 * (n % 800 + 1) = 256 * (n % 800) + 256 from Nat.mul_succ _ _, Finset.sum_range_add]

end Cert.KernelIdeal.HandValue

end
-- ==== Proof.FinalArrI.lean ====
import proofs.«407547_j20040317403343_3_alg».proof.Proof.FrameI
import Idealize.ShloMosaic.Lib.Pipeline.Value
import Idealize.ShloMosaic.Lib.StableHlo.Run
import Idealize.ShloMosaic.PureOps.Ideal.Laws
import Idealize.ShloMosaic.Lib.ValueIdx

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open Idealize.ShloMosaic.StableHlo

variable {F : FTy → Type} [FloatOps F]
variable (m : (ℓ : Loc nD τ sig) → Buf (Elt F) ℓ) (ρ : Dev nD → PrngReg)

theorem index_out : ∀ t : Fin cfg0.N, win0_3.index t 0 = t.val / 800 ∧ win0_3.index t 1 = 0 ∧ win0_3.index t 2 = 0 :=
  (by decide +kernel : ∀ t : Fin grid0.N, win0_3.index t 0 = t.val / 800 ∧ win0_3.index t 1 = 0 ∧ win0_3.index t 2 = 0)

theorem outsAt_idx (c : Dev nD) {n n' : ℕ} (e : n = n') (h : n < cfg0.N) (h' : n' < cfg0.N)
    {j j' : S1x4096x64.Idx} (ej : j = j') : outsAt m c n h j = outsAt m c n' h' j' := by subst e ej; rfl

theorem last_lt (a : Fin 2) : 800 * a.val + 799 < cfg0.N := by
  have := a.isLt
  show _ < grid0.N
  rw [N_0]; omega

def lastPt (a : Fin 2) : Fin cfg0.N := ⟨800 * a.val + 799, last_lt a⟩

def arr6 (c : Dev nD) : Vec F S2x4096x64 .f32 :=
  fun y => outsAt m c (800 * (y 0).val + 799) (last_lt (y 0)) (ix3 (0 : Fin 1) (y 1) (y 2))

theorem flushed_eq (c : Dev nD) (t : Fin cfg0.N) (hf : (cfg0.win 3).flush t = true) :
    (dats m 0 c).flushed 3 t = ((cfg0.win 3).blk t).view.read (Elt F) (arr6 m c) := by
  have h799 : t.val % 800 = 799 := (flush0_3 t).mp hf
  show (cfg0.win 3).cut (grid0.coords t) ((dats m 0 c).after 3 t) = _
  rw [after0_3]
  funext y
  rw [View.read_apply]
  obtain ⟨i0, i1, i2⟩ := index_out t
  have e0 : ((win0_3.rect t).emb y 0 : Nat) = t.val / 800 + (y 0 : Nat) := by
    rw [win0_3.rect_emb_val t y 0, i0]; show t.val / 800 * 1 + _ = _; omega
  have e1 : ((win0_3.rect t).emb y 1 : Nat) = (y 1 : Nat) := win0_3.rect_emb_val_of_index_zero t 1 i1 y
  have e2 : ((win0_3.rect t).emb y 2 : Nat) = (y 2 : Nat) := win0_3.rect_emb_val_of_index_zero t 2 i2 y
  have y0 : (y 0 : Nat) = 0 := by have : (y 0 : Nat) < 1 := (y 0).isLt; omega
  show outsAt m c t.val t.isLt (win0_3.xinj (grid0.coords t) y) = arr6 m c ((win0_3.rect t).emb y)
  unfold arr6
  refine outsAt_idx m c ?_ _ _ ?_
  · rw [e0, y0]; omega
  · funext a
    refine Fin.ext ?_
    match a with
    | ⟨0, _⟩ => exact y0
    | ⟨1, _⟩ => exact e1.symm
    | ⟨2, _⟩ => exact e2.symm

theorem final_v6 (c : Dev nD) : (dats m 0 c).arrAt 3 cfg0.N = arr6 m c :=
  (dats m 0 c).arrAt_eq_of_cover 3 (arr6 m c) (flushed_eq m c) fun i => by
    have hi0 : (i 0 : Nat) < 2 := (i 0).isLt
    have hi1 : (i 1 : Nat) < 4096 := (i 1).isLt
    have hi2 : (i 2 : Nat) < 64 := (i 2).isLt
    have hd : (800 * (i 0).val + 799) / 800 = (i 0).val := by omega
    obtain ⟨i0, i1, i2⟩ := index_out (lastPt (i 0))
    refine ⟨lastPt (i 0), (flush0_3 _).mpr (by show (800 * (i 0).val + 799) % 800 = 799; omega), ?_⟩
    show i ∈ ((View.whole main_v6).slice (win0_3.rect (lastPt (i 0)))).set
    rw [View.set_slice_whole, Rect.mem_set_unit]
    intro a
    match a with
    | ⟨0, _⟩ =>
      show win0_3.index (lastPt (i 0)) 0 * 1 ≤ (i 0 : Nat) ∧ (i 0 : Nat) < win0_3.index (lastPt (i 0)) 0 * 1 + 1
      rw [i0]; show (800 * (i 0).val + 799) / 800 * 1 ≤ _ ∧ _ < (800 * (i 0).val + 799) / 800 * 1 + 1
      rw [hd]; omega
    | ⟨1, _⟩ =>
      show win0_3.index (lastPt (i 0)) 1 * 4096 ≤ (i 1 : Nat) ∧ (i 1 : Nat) < win0_3.index (lastPt (i 0)) 1 * 4096 + 4096
      rw [i1]; omega
    | ⟨2, _⟩ =>
      show win0_3.index (lastPt (i 0)) 2 * 64 ≤ (i 2 : Nat) ∧ (i 2 : Nat) < win0_3.index (lastPt (i 0)) 2 * 64 + 64
      rw [i2]; omega

abbrev out6 (c : Dev nD) : Vec F S2x4096x64 .f32 := (dats m 0 c).arrAt 3 cfg0.N

theorem tail_v7 (c : Dev nD) :
    Pipeline.afterTail₀ cfgs (dats m) 0 (V0 m) [hostOps1] c main_v7
      = Host.reduceAdd (out6 m c) (constant (F := F) S_ .f32 0x00000000#32) reducesTo_S2x4096x64_S4096x64_d0 h_S_ := by
  unfold Pipeline.afterTail₀
  show StableHlo.after hostOps1 _ (Proc.devRef .tc main_v7) = _
  after_results
  exact congrArg (fun x : Vec F S2x4096x64 .f32 => Host.reduceAdd x (constant (F := F) S_ .f32 0x00000000#32) reducesTo_S2x4096x64_S4096x64_d0 h_S_)
    (Pipeline.withArrays_arr spec0 launch0.win.arr_inj c _ _ 3)

theorem tail_v7_arr6 (c : Dev nD) :
    Pipeline.afterTail₀ cfgs (dats m) 0 (V0 m) [hostOps1] c main_v7
      = Host.reduceAdd (arr6 m c) (constant (F := F) S_ .f32 0x00000000#32) reducesTo_S2x4096x64_S4096x64_d0 h_S_ := by
  rw [tail_v7]; show Host.reduceAdd ((dats m 0 c).arrAt 3 cfg0.N) _ _ _ = _; rw [final_v6]

theorem run_v7 [∀ e, Nonempty (Elt F e)] (hI : ∀ c t y, ((iblk m c 0 t y : Elt F .i32) : BitVec 32).toNat < 1000000) :
    θ_run defs (onTc (τ := τ) (main (F := F))) ⟨m, fun _ => 0, ρ⟩ (fun r => ∀ c : Dev nD,
      r.2.mem ((c.tc : Thread nD τ).loc main_v7)
        = Host.reduceAdd (arr6 m c) (constant (F := F) S_ .f32 0x00000000#32) reducesTo_S2x4096x64_S4096x64_d0 h_S_
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v7 (Pipeline.mem_restRefs_of main_v7 (by decide) (by decide))).trans (tail_v7_arr6 m c),
      ((h c).2 main_arg0 (Pipeline.mem_restRefs_of main_arg0 (by decide) (by decide))).trans (W_main_arg0D m (dats m) c),
      ((h c).2 main_arg1 (Pipeline.mem_restRefs_of main_arg1 (by decide) (by decide))).trans (W_main_arg1D m (dats m) c),
      ((h c).2 main_arg2 (Pipeline.mem_restRefs_of main_arg2 (by decide) (by decide))).trans (W_main_arg2D m (dats m) c),
      ((h c).2 main_arg3 (Pipeline.mem_restRefs_of main_arg3 (by decide) (by decide))).trans (W_main_arg3D m (dats m) c)⟩)
    (run_main m ρ hI)

theorem red0 : S2x4096x64.Reduces [0] S4096x64 := by decide

theorem reduce_apply (x : Vec Ideal S2x4096x64 .f32) (n : Fin 4096) (f : Fin 64) :
    Host.reduceAdd x (constant (F := Ideal) S_ .f32 0x00000000#32) reducesTo_S2x4096x64_S4096x64_d0 h_S_ (ix2 n f)
      = ∑ a : Fin 2, x (ix3 a n f) := by
  show Ideal.hostReduceAdd reducesTo_S2x4096x64_S4096x64_d0 x (Ideal.ofBits .f32 0x00000000#32) (ix2 n f) = _
  rw [Ideal.hostReduceAdd_single _ red0, Ideal.ofBits_zero_f32, zero_add]
  refine Finset.sum_congr rfl fun a _ => congrArg x ?_
  funext d
  match d with
  | ⟨0, _⟩ => rfl
  | ⟨1, _⟩ => rfl
  | ⟨2, _⟩ => rfl

theorem result_apply (m : (ℓ : Loc nD τ sig) → Buf (Elt Ideal) ℓ) (c : Dev nD) (n : Fin 4096) (f : Fin 64) :
    Host.reduceAdd (arr6 m c) (constant (F := Ideal) S_ .f32 0x00000000#32) reducesTo_S2x4096x64_S4096x64_d0 h_S_ (ix2 n f)
      = ∑ a : Fin 2, outsAt m c (800 * a.val + 799) (last_lt a) (ix3 (0 : Fin 1) n f) :=
  reduce_apply (arr6 m c) n f

end Cert.KernelIdeal.HandValue

end
-- ==== Proof.KernelValueI.lean ====
import proofs.«407547_j20040317403343_3_alg».proof.Proof.AccValueI
import proofs.«407547_j20040317403343_3_alg».proof.Proof.FinalArrI

noncomputable section

namespace Cert.KernelIdeal.HandValue

open Cert.KernelIdeal Cert.KernelIdeal.Gen Cert.KernelIdeal.Hand Cert.KernelIdeal.HandHost
open Idealize.ShloMosaic Idealize.ShloMosaic.TcCoe Idealize.SL.Sem Idealize.ShloMosaic.ValueIdx
open scoped BigOperators

variable (m : (ℓ : Loc nD τ sig) → Buf (Elt Ideal) ℓ) (ρ : Dev nD → PrngReg)

abbrev specG (c : Dev nD) : FVec Ideal Cert.Spec.SO .f32 :=
  Cert.Spec.G (m ((c : Thread nD τ).loc main_arg0)) (m ((c : Thread nD τ).loc main_arg1))
    (m ((c : Thread nD τ).loc main_arg2)) (m ((c : Thread nD τ).loc main_arg3))

theorem core_sum (c : Dev nD) (b : Fin 4096) (f : Fin 64) (a : Fin 2) (h : 800 * a.val + 799 < cfg0.N) :
    outsAt m c (800 * a.val + 799) h (ix3 (0 : Fin 1) b f)
      = ∑ p ∈ Finset.range 204800, KT m c b f (204800 * a.val + p) := by
  have e := outsAt_aux m c b f (800 * a.val + 799) h
  have h1 : (800 * a.val + 799) % 800 = 799 := by omega
  have h2 : (800 * a.val + 799) / 800 = a.val := by omega
  rw [h1, h2] at e
  exact e

theorem sum_all (c : Dev nD) (b : Fin 4096) (f : Fin 64) :
    ∑ e ∈ Finset.range 409600, KT m c b f e
      = Cert.Spec.Gat (m ((c : Thread nD τ).loc main_arg0)) (m ((c : Thread nD τ).loc main_arg1))
          (m ((c : Thread nD τ).loc main_arg2)) (m ((c : Thread nD τ).loc main_arg3)) b f := by
  unfold Cert.Spec.Gat
  rw [Finset.sum_range]
  refine Finset.sum_congr rfl fun e _ => ?_
  unfold KT
  rw [dif_pos e.isLt]

theorem cores_sum (c : Dev nD) (b : Fin 4096) (f : Fin 64) (h : ∀ a : Fin 2, 800 * a.val + 799 < cfg0.N) :
    ∑ a : Fin 2, outsAt m c (800 * a.val + 799) (h a) (ix3 (0 : Fin 1) b f)
      = Cert.Spec.Gat (m ((c : Thread nD τ).loc main_arg0)) (m ((c : Thread nD τ).loc main_arg1))
          (m ((c : Thread nD τ).loc main_arg2)) (m ((c : Thread nD τ).loc main_arg3)) b f := by
  rw [Fin.sum_univ_two, core_sum m c b f 0 (h 0), core_sum m c b f 1 (h 1), ← sum_all m c b f]
  refine Eq.trans ?_ (Finset.sum_range_add (fun e => KT m c b f e) 204800 204800).symm
  simp only [Fin.val_zero, Fin.val_one, Nat.mul_zero, Nat.zero_add, Nat.mul_one]

theorem reduce_eq_G (c : Dev nD) :
    Host.reduceAdd (arr6 m c) (constant (F := Ideal) S_ .f32 0x00000000#32) reducesTo_S2x4096x64_S4096x64_d0 h_S_
      = specG m c := by
  funext y
  obtain ⟨b, f, rfl⟩ : ∃ (b : Fin 4096) (f : Fin 64), y = ix2 b f := ⟨y 0, y 1, eq_ix2 y⟩
  rw [result_apply]
  exact cores_sum m c b f last_lt

theorem kernel_run :
    θ_run (Cert.KernelIdeal.defs (F := Ideal)) (onTc (τ := Cert.KernelIdeal.τ) (Cert.KernelIdeal.main (F := Ideal)))
      ⟨m, fun _ => 0, ρ⟩ (fun r => ∀ c : Dev Cert.KernelIdeal.nD,
        r.2.mem ((c.tc : Thread nD τ).loc main_v7)
          = Cert.Spec.G (m ((c.tc : Thread nD τ).loc main_arg0)) (m ((c.tc : Thread nD τ).loc main_arg1))
              (m ((c.tc : Thread nD τ).loc main_arg2)) (m ((c.tc : Thread nD τ).loc main_arg3))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) :=
  (θ_run defs _ _).mono (fun _ h c => ⟨(h c).1.trans (reduce_eq_G m c), (h c).2⟩)
    (run_v7 m ρ (fun c t y => idsblk_lt m c t y))

end Cert.KernelIdeal.HandValue

end
-- ==== Proof.RefValue.lean ====
import proofs.«407547_j20040317403343_3_alg».proof.Proof.Gen.ReferenceIdeal.Run
import proofs.«407547_j20040317403343_3_alg».proof.Proof.Gen.ReferenceIdeal.Read
import proofs.«407547_j20040317403343_3_alg».proof.Proof.Spec
import Idealize.ShloMosaic.PureOps.Ideal.Laws
import Idealize.ShloMosaic.Lib.Affine

noncomputable section

namespace Cert.RefValue

open Idealize.ShloMosaic Idealize.ShloMosaic.ValueIdx Idealize.SL.Sem Cert.LibRowOps
open Cert.ReferenceIdeal Cert.ReferenceIdeal.Gen Cert.ReferenceIdeal.Read

theorem wrapped_id (x0 : IVec S409600 32) (i : S409600.Idx) (h : 0 ≤ (x0 i).toInt) :
    val_main_v4 (F := Ideal) x0 i = x0 i := by
  rw [val_main_v4_apply, val_main_v1_apply, val_main_v0_apply, val_main_c_apply]
  have hc : ¬ IntOp.cmpi .slt (x0 i) 0#32 = 1#1 := fun hh => by
    have := IntOp.cmpi_slt.1 hh
    rw [show (0#32 : BitVec 32).toInt = 0 from by decide] at this
    omega
  unfold Scalar.select
  exact if_neg hc

theorem start_col (x0 : IVec S409600 32) (e : Fin 409600) (h : 0 ≤ (x0 (ix1 e)).toInt) :
    val_main_v5 (F := Ideal) x0 (ix2 e 0) = x0 (ix1 e) := by
  rw [val_main_v5_apply]
  have hi : idx_main_v5 (ix2 e 0) = ix1 e := funext fun a => Fin.ext (by match a with | ⟨0, _⟩ => rfl)
  rw [hi, wrapped_id x0 _ h]

theorem gathered (x0 : IVec S409600 32) (x3 : FVec Ideal S1000000x64 .f32) (e : Fin 409600) (f : Fin 64)
    (h : 0 ≤ (x0 (ix1 e)).toInt) :
    val_main_v6 (F := Ideal) x0 x3 (ix2 e f) = x3 (ix2 (Cert.Spec.row x0 e) f) := by
  unfold val_main_v6
  rw [gather_rows_apply (by norm_num) _ rfl rfl rfl rfl rfl rfl rfl, start_col x0 e h]
  rfl

theorem ratings_rows (x1 : FVec Ideal S409600 .f32) (e : Fin 409600) (f : Fin 64) :
    val_main_v8 (F := Ideal) x1 (ix2 e f) = x1 (ix1 e) := by
  rw [val_main_v8_apply, val_main_v7_apply]
  exact congrArg x1 (funext fun a => Fin.ext (by match a with | ⟨0, _⟩ => rfl))

theorem scaled (x0 : IVec S409600 32) (x1 : FVec Ideal S409600 .f32) (x3 : FVec Ideal S1000000x64 .f32)
    (e : Fin 409600) (f : Fin 64) (h : 0 ≤ (x0 (ix1 e)).toInt) :
    val_main_v9 (F := Ideal) x0 x1 x3 (ix2 e f) = x3 (ix2 (Cert.Spec.row x0 e) f) * x1 (ix1 e) := by
  rw [val_main_v9_apply, gathered x0 x3 e f h, ratings_rows, Ideal.mulf_def]

theorem init_zero (i : S4096x64.Idx) : val_main_v10 (F := Ideal) i = 0 := by
  rw [val_main_v10_apply, val_main_cst_apply]
  exact Ideal.ofBits_zero_f32

theorem seg_col (x2 : IVec S409600 32) (e : Fin 409600) :
    val_main_v11 (F := Ideal) x2 (ix2 e 0) = x2 (ix1 e) := by
  rw [val_main_v11_apply]
  exact congrArg x2 (funext fun a => Fin.ext (by match a with | ⟨0, _⟩ => rfl))

theorem val_eq_G (x0 : IVec S409600 32) (x1 : FVec Ideal S409600 .f32) (x2 : IVec S409600 32)
    (x3 : FVec Ideal S1000000x64 .f32) (hids : ∀ y, 0 ≤ (x0 y).toInt) :
    val_main_v12 (F := Ideal) x0 x1 x2 x3 = Cert.Spec.G x0 x1 x2 x3 := by
  funext i
  obtain ⟨n, f, rfl⟩ : ∃ (n : Fin 4096) (f : Fin 64), i = ix2 n f := ⟨i 0, i 1, eq_ix2 i⟩
  rw [Cert.Spec.G_apply]
  unfold Cert.Spec.Gat val_main_v12
  show Ideal.hostScatterAdd _ _ _ _ (ix2 n f) = _
  rw [scatterAdd_rows_apply _ rfl rfl rfl rfl, init_zero, zero_add]
  refine Finset.sum_congr rfl fun e _ => ?_
  unfold Cert.Spec.term
  rw [seg_col, scaled x0 x1 x3 e f (hids _)]

theorem run (m' : (ℓ : Loc Cert.ReferenceIdeal.nD Cert.ReferenceIdeal.τ Cert.ReferenceIdeal.sig) → Buf (Elt Ideal) ℓ)
    (ρ' : Dev Cert.ReferenceIdeal.nD → PrngReg)
    (hids : ∀ (c : Dev Cert.ReferenceIdeal.nD) y,
      0 ≤ ((m' ((c.tc : Thread Cert.ReferenceIdeal.nD Cert.ReferenceIdeal.τ).loc Cert.ReferenceIdeal.main_arg0)) y).toInt) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
        r.2.mem ((c.tc : Thread Cert.ReferenceIdeal.nD Cert.ReferenceIdeal.τ).loc Cert.ReferenceIdeal.main_v12)
          = Cert.Spec.G (m' ((c.tc : Thread Cert.ReferenceIdeal.nD Cert.ReferenceIdeal.τ).loc Cert.ReferenceIdeal.main_arg0))
              (m' ((c.tc : Thread Cert.ReferenceIdeal.nD Cert.ReferenceIdeal.τ).loc Cert.ReferenceIdeal.main_arg1))
              (m' ((c.tc : Thread Cert.ReferenceIdeal.nD Cert.ReferenceIdeal.τ).loc Cert.ReferenceIdeal.main_arg2))
              (m' ((c.tc : Thread Cert.ReferenceIdeal.nD Cert.ReferenceIdeal.τ).loc Cert.ReferenceIdeal.main_arg3))
        ∧ r.2.mem ((c.tc : Thread Cert.ReferenceIdeal.nD Cert.ReferenceIdeal.τ).loc Cert.ReferenceIdeal.main_arg0)
            = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
            = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3)
            = m' ((c.tc : Thread Cert.ReferenceIdeal.nD Cert.ReferenceIdeal.τ).loc Cert.ReferenceIdeal.main_arg3)) :=
  (θ_run (Cert.ReferenceIdeal.defs (F := Ideal)) _ _).mono
    (fun _ h c => ⟨by rw [(h c).1, val_main_v12_eq]; exact val_eq_G _ _ _ _ (fun y => hids c y), (h c).2⟩)
    (Cert.ReferenceIdeal.Value.run (F := Ideal) m' ρ')

end Cert.RefValue

end
-- ==== Proof.PreIds.lean ====
import proofs.«407547_j20040317403343_3_alg».proof.Pre_finite_inputs
import Idealize.ShloMosaic.Lib.ReduceAll
import Idealize.ShloMosaic.Lib.ValueIdx

namespace Cert.PreIds

open Idealize.ShloMosaic

instance subsingleton_scalarIdx : Subsingleton Cert.Pre_finite_inputs.S_.Idx := ⟨fun a b => funext fun d => d.elim0⟩

theorem ids_range {F : FTy → Type} [FloatOps F] [Cert.Pre_finite_inputs.Facts]
    (a0 : IVec Cert.Pre_finite_inputs.S409600 32) (a1 : FVec F Cert.Pre_finite_inputs.S409600 .f32)
    (a2 : IVec Cert.Pre_finite_inputs.S409600 32) (a3 : FVec F Cert.Pre_finite_inputs.S1000000x64 .f32)
    (h : Cert.Pre_finite_inputs.fn (F := F) a0 a1 a2 a3 = fun _ => 1#1) :
    ∀ y, 0 ≤ (a0 y).toInt := by
  intro y
  have e := congrFun h ValueIdx.ix0
  dsimp only [Cert.Pre_finite_inputs.fn] at e

  obtain ⟨-, e11⟩ := IntOp.andi_eq_one.1 e
  have hge := Host.reduce_andi_all _ _ _ _ _ e11 y

  have hge' : (0#32 : BitVec 32).toInt ≤ (a0 y).toInt := IntOp.cmpi_sge.1 hge
  have z0 : (0#32 : BitVec 32).toInt = 0 := by decide
  rw [z0] at hge'
  exact hge'

end Cert.PreIds
-- ==== Proof.ClaimsI.lean ====
import proofs.«407547_j20040317403343_3_alg».proof.Defs
import proofs.«407547_j20040317403343_3_alg».proof.Proof.KernelValueI
import proofs.«407547_j20040317403343_3_alg».proof.Proof.RefValue
import proofs.«407547_j20040317403343_3_alg».proof.Proof.PreIds
import proofs.«407547_j20040317403343_3_alg».proof.Proof.Gen.Pre_finite_inputs
import proofs.«407547_j20040317403343_3_alg».proof.Proof.Gen.ReferenceIdeal

noncomputable section

namespace Cert.KernelIdeal.HandValue

open Idealize.ShloMosaic Idealize.SL.Sem

theorem frame_pi : Cert.frame_KernelIdeal (hKernelIdeal := Cert.KernelIdeal.Gen.facts)
    (hPre_finite_inputs := Cert.Pre_finite_inputs.Gen.facts) := fun m ρ _ =>
  Cert.KernelIdeal.Hand.frame m ρ (fun c t y => Cert.KernelIdeal.HandHost.idsblk_lt m c t y)

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) :=
    fun m ρ m' ρ' hpre hagree => by
  refine ⟨fun c => Cert.Spec.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    kernel_run m ρ, ?_⟩
  refine (θ_run (Cert.ReferenceIdeal.defs (F := Ideal)) _ _).mono (fun _ h c => ?_) (Cert.RefValue.run m' ρ'
    (fun c y => by rw [(hagree c).1]; exact Cert.PreIds.ids_range _ _ _ _ (hpre c) y))
  obtain ⟨h0, h1, h2, h3, h4⟩ := h c
  refine ⟨h0.trans ?_, h1, h2, h3, h4⟩
  rw [(hagree c).1, (hagree c).2.1, (hagree c).2.2.1, (hagree c).2.2.2]

end Cert.KernelIdeal.HandValue

end
-- ==== Proof.ClaimsRef.lean ====
import proofs.«407547_j20040317403343_3_alg».proof.Defs
import proofs.«407547_j20040317403343_3_alg».proof.Proof.Gen.ReferenceIdeal
import proofs.«407547_j20040317403343_3_alg».proof.Proof.Gen.Pre_finite_inputs
import proofs.«407547_j20040317403343_3_alg».proof.Proof.PreIds
import proofs.«407547_j20040317403343_3_alg».proof.Proof.RefValue

noncomputable section

namespace Cert.Proof.Claims

open Idealize.ShloMosaic Idealize.SL.Sem

theorem ids_of_pre (m : (ℓ : Loc Cert.ReferenceIdeal.nD Cert.ReferenceIdeal.τ Cert.ReferenceIdeal.sig) → Buf (Elt Ideal) ℓ)
    (hpre : Cert.Pre_ReferenceIdeal (hPre_finite_inputs := Cert.Pre_finite_inputs.Gen.facts) m)
    (c : Dev Cert.ReferenceIdeal.nD) (y) :
    0 ≤ ((m ((c.tc : Thread Cert.ReferenceIdeal.nD Cert.ReferenceIdeal.τ).loc Cert.ReferenceIdeal.main_arg0)) y).toInt :=
  Cert.PreIds.ids_range (F := Ideal) _ _ _ _ (hpre c) y

theorem frame_ri : Cert.frame_ReferenceIdeal (hReferenceIdeal := Cert.ReferenceIdeal.Gen.facts)
    (hPre_finite_inputs := Cert.Pre_finite_inputs.Gen.facts) := fun m ρ hpre =>
  (θ_run (Cert.ReferenceIdeal.defs (F := Ideal)) _ _).mono (fun _ h c => (h c).2)
    (Cert.RefValue.run m ρ (ids_of_pre m hpre))

end Cert.Proof.Claims

end
-- ==== Proof.lean ====
/-
  Both programs compute, for each segment n and feature f, the sum over the triples e whose segment id is n of
  table[row e, f] * rating e, where row e is id e clamped into the table's rows. The kernel goes through the triples
  256 at a time, in two halves: it gathers their table rows and adds the product of the matrix (rating k if
  segment k = n, else 0) with the gathered rows into its half's block; the two halves' blocks are added at the end.
  The reference gathers, scales and scatter-adds. The two are the same 409600 terms in another grouping: only
  commutativity and associativity of + and *, 0 + x = x and 0 * x = 0 on the extended reals are used. That no id is
  negative is used on the reference's side only; the kernel's own clamp keeps every row copy inside the table.
-/
import proofs.«407547_j20040317403343_3_alg».proof.Defs
import proofs.«407547_j20040317403343_3_alg».proof.Proof.Gen.Kernel
import proofs.«407547_j20040317403343_3_alg».proof.Proof.Gen.KernelIdeal
import proofs.«407547_j20040317403343_3_alg».proof.Proof.Gen.ReferenceIdeal
import proofs.«407547_j20040317403343_3_alg».proof.Proof.Gen.Pre_finite_inputs
import proofs.«407547_j20040317403343_3_alg».proof.Proof.HostPreB
import proofs.«407547_j20040317403343_3_alg».proof.Proof.FrameB
import proofs.«407547_j20040317403343_3_alg».proof.Proof.ClaimsI
import proofs.«407547_j20040317403343_3_alg».proof.Proof.ClaimsRef

noncomputable section

namespace Cert.Proof

open Idealize.ShloMosaic Idealize.SL.Sem

theorem frame_p : Cert.frame_Kernel (hKernel := Cert.Kernel.Gen.facts) (hPre_finite_inputs := Cert.Pre_finite_inputs.Gen.facts) :=
  fun m ρ _ => Cert.Kernel.Hand.frame m ρ (fun c t y => Cert.Kernel.HandHost.idsblk_lt m c t y)

theorem claim : Cert.Claim :=
  ⟨Cert.Kernel.Gen.facts, Cert.KernelIdeal.Gen.facts, Cert.ReferenceIdeal.Gen.facts, Cert.Pre_finite_inputs.Gen.facts,
    frame_p, Cert.KernelIdeal.HandValue.frame_pi, Cert.Proof.Claims.frame_ri, trivial, Cert.KernelIdeal.HandValue.algebraic⟩

end Cert.Proof

end
